-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x512 : Shape := ⟨3, ![1, 1024, 512]⟩
abbrev S512 : Shape := ⟨1, ![512]⟩
abbrev S_ : Shape := ⟨0, ![]⟩

class Facts : Prop where
  bcast_S_S1x1024x512 : S_.BroadcastsInDim S1x1024x512 (![] : Fin 0 → Fin S1x1024x512.rank)
  reducesTo_S1x1024x512_S_d0_1_2 : S1x1024x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S1x1024x512 .f32) (main_arg1 : FVec F S512 .f32) : IVec S_ 1 :=
  let main_v0 : FVec F S1x1024x512 .f32 := Host.absf main_arg0
  let main_cst : FVec F S_ .f32 := constant S_ .f32 0x7F800000#32
  let main_v1 : FVec F S1x1024x512 .f32 := broadcastInDim S1x1024x512 ![] bcast_S_S1x1024x512 main_cst
  let main_v2 : IVec S1x1024x512 1 := cmpf .olt main_v0 main_v1
  let main_c : IVec S_ 1 := constantI S_ 1 1#1
  let main_v3 : IVec S_ 1 := (fun x v => Host.reduce IntOp.andi x v reducesTo_S1x1024x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Pre_finite_inputs_ReferenceIdeal.lean ====
abbrev S2x1024x512 : Shape := ⟨3, ![2, 1024, 512]⟩
abbrev S512 : Shape := ⟨1, ![512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S2x1024x512 .f32) (main_arg1 : FVec F S512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S1x1024x512 : Shape := ⟨3, ![1, 1024, 512]⟩
abbrev S512 : Shape := ⟨1, ![512]⟩
abbrev S512x512 : Shape := ⟨2, ![512, 512]⟩
abbrev S304x512 : Shape := ⟨2, ![304, 512]⟩
abbrev S3 : Shape := ⟨1, ![3]⟩
abbrev S5 : Shape := ⟨1, ![5]⟩
abbrev S_ : Shape := ⟨0, ![]⟩
abbrev S10 : Shape := ⟨1, ![10]⟩
abbrev S6 : Shape := ⟨1, ![6]⟩
abbrev S1 : Shape := ⟨1, ![1]⟩
abbrev S1x512x512 : Shape := ⟨3, ![1, 512, 512]⟩
abbrev S48x512 : Shape := ⟨2, ![48, 512]⟩
abbrev S40x512 : Shape := ⟨2, ![40, 512]⟩
abbrev S16x512 : Shape := ⟨2, ![16, 512]⟩
abbrev S24x512 : Shape := ⟨2, ![24, 512]⟩
abbrev S48 : Shape := ⟨1, ![48]⟩
abbrev S48x1 : Shape := ⟨2, ![48, 1]⟩
abbrev S1x512 : Shape := ⟨2, ![1, 512]⟩
abbrev S40 : Shape := ⟨1, ![40]⟩
abbrev S40x1 : Shape := ⟨2, ![40, 1]⟩
abbrev S16 : Shape := ⟨1, ![16]⟩
abbrev S16x1 : Shape := ⟨2, ![16, 1]⟩
abbrev S24 : Shape := ⟨1, ![24]⟩
abbrev S24x1 : Shape := ⟨2, ![24, 1]⟩
abbrev S256x512 : Shape := ⟨2, ![256, 512]⟩
abbrev S104x512 : Shape := ⟨2, ![104, 512]⟩

abbrev nBuf : Space → Nat
  | .hbm => 3
  | .vmem => 5
  | .smem => 0
  | _ => 0

abbrev bufTy : (tb : Table) → Fin (tcTables nBuf tb) → BufTy
  | .hbm, ⟨0, _⟩ => ⟨S1x1024x512, .f32⟩
  | .hbm, ⟨1, _⟩ => ⟨S512, .f32⟩
  | .hbm, ⟨2, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512, .f32⟩
  | .local _ .vmem, ⟨3, _⟩ => ⟨S512x512, .f32⟩
  | .local _ .vmem, ⟨4, _⟩ => ⟨S304x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 2 40 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 1

abbrev nD : Nat := 8
abbrev τ : Topo := Topo.v7x

variable {F : FTy → Type} [FloatOps F]

abbrev grid0 : Pipeline.Grid := .none

def k0_off1 (d0 : Dev nD) : Fin 3 → Nat :=
  let c0_i32_13 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_11 v2
  let c512_i32 : BitVec 32 := 512#32
  let v24 : BitVec 32 := Scalar.muli v23 c512_i32
  let c0_i32_15 : BitVec 32 := 0#32
  ![0, v24.toNat, 0]
def k0_off2 (d0 : Dev nD) : Fin 3 → Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_12 : BitVec 32 := 512#32
  let v25 : BitVec 32 := Scalar.muli v2 c512_i32_12
  let c0_i32_18 : BitVec 32 := 0#32
  ![0, v25.toNat, 0]
def k0_dev1 (d0 : Dev nD) : Nat :=
  let c0_i32_22 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_8 v2
  let c4_i32_21 : BitVec 32 := 4#32
  let v37 : BitVec 32 := Scalar.muli v20 c4_i32_21
  let v38 : BitVec 32 := Scalar.addi c0_i32_22 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v39 : BitVec 32 := Scalar.muli v5 c2_i32_23
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v41 : BitVec 32 := Scalar.muli v8 c1_i32_24
  let v42 : BitVec 32 := Scalar.addi v40 v41
  v42.toNat
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v43 : BitVec 32 := Scalar.muli v2 c4_i32_26
  let v44 : BitVec 32 := Scalar.addi c0_i32_27 v43
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_9 v5
  let c2_i32_28 : BitVec 32 := 2#32
  let v45 : BitVec 32 := Scalar.muli v21 c2_i32_28
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v47 : BitVec 32 := Scalar.muli v8 c1_i32_29
  let v48 : BitVec 32 := Scalar.addi v46 v47
  v48.toNat
def k0_dev3 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v49 : BitVec 32 := Scalar.muli v2 c4_i32_31
  let v50 : BitVec 32 := Scalar.addi c0_i32_32 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v51 : BitVec 32 := Scalar.muli v5 c2_i32_33
  let v52 : BitVec 32 := Scalar.addi v50 v51
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_10 v8
  let c1_i32_34 : BitVec 32 := 1#32
  let v53 : BitVec 32 := Scalar.muli v22 c1_i32_34
  let v54 : BitVec 32 := Scalar.addi v52 v53
  v54.toNat
def k0_off3 (d0 : Dev nD) (c0_i32_39 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c256_i32 : BitVec 32 := 256#32
  let v59 : BitVec 32 := Scalar.muli v19 c256_i32
  let v60 : BitVec 32 := Scalar.addi v59 c0_i32_39
  let c0_i32_48 : BitVec 32 := 0#32
  ![v60.toNat, 0]
def k0_dev4 (d0 : Dev nD) : Nat :=
  let c0_i32_43 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_8 v2
  let c4_i32_42 : BitVec 32 := 4#32
  let v61 : BitVec 32 := Scalar.muli v20 c4_i32_42
  let v62 : BitVec 32 := Scalar.addi c0_i32_43 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v63 : BitVec 32 := Scalar.muli v5 c2_i32_44
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v65 : BitVec 32 := Scalar.muli v8 c1_i32_45
  let v66 : BitVec 32 := Scalar.addi v64 v65
  v66.toNat
def k0_dev5 (d0 : Dev nD) : Nat :=
  let c0_i32_53 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_8 v2
  let c4_i32_52 : BitVec 32 := 4#32
  let v75 : BitVec 32 := Scalar.muli v20 c4_i32_52
  let v76 : BitVec 32 := Scalar.addi c0_i32_53 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v77 : BitVec 32 := Scalar.muli v5 c2_i32_54
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v79 : BitVec 32 := Scalar.muli v8 c1_i32_55
  let v80 : BitVec 32 := Scalar.addi v78 v79
  v80.toNat
def k0_off4 (d0 : Dev nD) (c48_i32_59 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c256_i32_58 : BitVec 32 := 256#32
  let v87 : BitVec 32 := Scalar.muli v19 c256_i32_58
  let v88 : BitVec 32 := Scalar.addi v87 c48_i32_59
  let c0_i32_67 : BitVec 32 := 0#32
  ![v88.toNat, 0]
def k0_dev6 (d0 : Dev nD) : Nat :=
  let c0_i32_63 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_8 v2
  let c4_i32_62 : BitVec 32 := 4#32
  let v89 : BitVec 32 := Scalar.muli v20 c4_i32_62
  let v90 : BitVec 32 := Scalar.addi c0_i32_63 v89
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v91 : BitVec 32 := Scalar.muli v5 c2_i32_64
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v93 : BitVec 32 := Scalar.muli v8 c1_i32_65
  let v94 : BitVec 32 := Scalar.addi v92 v93
  v94.toNat
def k0_dev7 (d0 : Dev nD) : Nat :=
  let c0_i32_71 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_8 v2
  let c4_i32_70 : BitVec 32 := 4#32
  let v103 : BitVec 32 := Scalar.muli v20 c4_i32_70
  let v104 : BitVec 32 := Scalar.addi c0_i32_71 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v105 : BitVec 32 := Scalar.muli v5 c2_i32_72
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v107 : BitVec 32 := Scalar.muli v8 c1_i32_73
  let v108 : BitVec 32 := Scalar.addi v106 v107
  v108.toNat
def k0_off5 (d0 : Dev nD) (c88_i32 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c256_i32_76 : BitVec 32 := 256#32
  let v115 : BitVec 32 := Scalar.muli v19 c256_i32_76
  let v116 : BitVec 32 := Scalar.addi v115 c88_i32
  let c0_i32_85 : BitVec 32 := 0#32
  ![v116.toNat, 0]
def k0_dev8 (d0 : Dev nD) : Nat :=
  let c0_i32_80 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_8 v2
  let c4_i32_79 : BitVec 32 := 4#32
  let v117 : BitVec 32 := Scalar.muli v20 c4_i32_79
  let v118 : BitVec 32 := Scalar.addi c0_i32_80 v117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v119 : BitVec 32 := Scalar.muli v5 c2_i32_81
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v121 : BitVec 32 := Scalar.muli v8 c1_i32_82
  let v122 : BitVec 32 := Scalar.addi v120 v121
  v122.toNat
def k0_dev9 (d0 : Dev nD) : Nat :=
  let c0_i32_89 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_8 v2
  let c4_i32_88 : BitVec 32 := 4#32
  let v131 : BitVec 32 := Scalar.muli v20 c4_i32_88
  let v132 : BitVec 32 := Scalar.addi c0_i32_89 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v133 : BitVec 32 := Scalar.muli v5 c2_i32_90
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v135 : BitVec 32 := Scalar.muli v8 c1_i32_91
  let v136 : BitVec 32 := Scalar.addi v134 v135
  v136.toNat
def k0_off6 (d0 : Dev nD) (c104_i32 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c256_i32_94 : BitVec 32 := 256#32
  let v143 : BitVec 32 := Scalar.muli v19 c256_i32_94
  let v144 : BitVec 32 := Scalar.addi v143 c104_i32
  let c0_i32_101 : BitVec 32 := 0#32
  ![v144.toNat, 0]
def k0_dev10 (d0 : Dev nD) : Nat :=
  let c0_i32_97 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_8 v2
  let c4_i32_96 : BitVec 32 := 4#32
  let v145 : BitVec 32 := Scalar.muli v20 c4_i32_96
  let v146 : BitVec 32 := Scalar.addi c0_i32_97 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_98 : BitVec 32 := 2#32
  let v147 : BitVec 32 := Scalar.muli v5 c2_i32_98
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v149 : BitVec 32 := Scalar.muli v8 c1_i32_99
  let v150 : BitVec 32 := Scalar.addi v148 v149
  v150.toNat
def k0_dev11 (d0 : Dev nD) : Nat :=
  let c0_i32_105 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_8 v2
  let c4_i32_104 : BitVec 32 := 4#32
  let v159 : BitVec 32 := Scalar.muli v20 c4_i32_104
  let v160 : BitVec 32 := Scalar.addi c0_i32_105 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v161 : BitVec 32 := Scalar.muli v5 c2_i32_106
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v163 : BitVec 32 := Scalar.muli v8 c1_i32_107
  let v164 : BitVec 32 := Scalar.addi v162 v163
  v164.toNat
def k0_off7 (d0 : Dev nD) (c104_i32_113 : BitVec 32) : Fin 2 → Nat :=
  let c1_i32_111 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v171 : BitVec 32 := Scalar.subi c1_i32_111 v19
  let c256_i32_112 : BitVec 32 := 256#32
  let v172 : BitVec 32 := Scalar.muli v171 c256_i32_112
  let v173 : BitVec 32 := Scalar.addi v172 c104_i32_113
  let c0_i32_121 : BitVec 32 := 0#32
  ![v173.toNat, 0]
def k0_dev12 (d0 : Dev nD) : Nat :=
  let c0_i32_116 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_8 v2
  let c4_i32_115 : BitVec 32 := 4#32
  let v174 : BitVec 32 := Scalar.muli v20 c4_i32_115
  let v175 : BitVec 32 := Scalar.addi c0_i32_116 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_117 : BitVec 32 := 2#32
  let v176 : BitVec 32 := Scalar.muli v5 c2_i32_117
  let v177 : BitVec 32 := Scalar.addi v175 v176
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_118 : BitVec 32 := 1#32
  let v178 : BitVec 32 := Scalar.muli v8 c1_i32_118
  let v179 : BitVec 32 := Scalar.addi v177 v178
  v179.toNat
def k0_dev13 (d0 : Dev nD) : Nat :=
  let c0_i32_127 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_8 v2
  let c4_i32_126 : BitVec 32 := 4#32
  let v189 : BitVec 32 := Scalar.muli v20 c4_i32_126
  let v190 : BitVec 32 := Scalar.addi c0_i32_127 v189
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v191 : BitVec 32 := Scalar.muli v5 c2_i32_128
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v193 : BitVec 32 := Scalar.muli v8 c1_i32_129
  let v194 : BitVec 32 := Scalar.addi v192 v193
  v194.toNat
def k0_off8 (d0 : Dev nD) (c0_i32_148 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c256_i32_147 : BitVec 32 := 256#32
  let v217 : BitVec 32 := Scalar.muli v19 c256_i32_147
  let v218 : BitVec 32 := Scalar.addi v217 c0_i32_148
  let v219 : Index := Scalar.indexCast v218
  let c0 : Index := 0#32
  ![v219.toNat, 0]
def k0_dev14 (d0 : Dev nD) : Nat :=
  let c0_i32_158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_157 : BitVec 32 := 4#32
  let v241 : BitVec 32 := Scalar.muli v2 c4_i32_157
  let v242 : BitVec 32 := Scalar.addi c0_i32_158 v241
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_9 v5
  let c2_i32_159 : BitVec 32 := 2#32
  let v243 : BitVec 32 := Scalar.muli v21 c2_i32_159
  let v244 : BitVec 32 := Scalar.addi v242 v243
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_160 : BitVec 32 := 1#32
  let v245 : BitVec 32 := Scalar.muli v8 c1_i32_160
  let v246 : BitVec 32 := Scalar.addi v244 v245
  v246.toNat
def k0_dev15 (d0 : Dev nD) : Nat :=
  let c0_i32_184 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_183 : BitVec 32 := 4#32
  let v287 : BitVec 32 := Scalar.muli v2 c4_i32_183
  let v288 : BitVec 32 := Scalar.addi c0_i32_184 v287
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_185 : BitVec 32 := 2#32
  let v289 : BitVec 32 := Scalar.muli v5 c2_i32_185
  let v290 : BitVec 32 := Scalar.addi v288 v289
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_10 v8
  let c1_i32_186 : BitVec 32 := 1#32
  let v291 : BitVec 32 := Scalar.muli v22 c1_i32_186
  let v292 : BitVec 32 := Scalar.addi v290 v291
  v292.toNat
def k0_off9 (d0 : Dev nD) (c48_i32_199 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c256_i32_198 : BitVec 32 := 256#32
  let v309 : BitVec 32 := Scalar.muli v19 c256_i32_198
  let v310 : BitVec 32 := Scalar.addi v309 c48_i32_199
  let v311 : Index := Scalar.indexCast v310
  let c0_200 : Index := 0#32
  ![v311.toNat, 0]
def k0_dev16 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_209 : BitVec 32 := 4#32
  let v333 : BitVec 32 := Scalar.muli v2 c4_i32_209
  let v334 : BitVec 32 := Scalar.addi c0_i32_210 v333
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_9 v5
  let c2_i32_211 : BitVec 32 := 2#32
  let v335 : BitVec 32 := Scalar.muli v21 c2_i32_211
  let v336 : BitVec 32 := Scalar.addi v334 v335
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v337 : BitVec 32 := Scalar.muli v8 c1_i32_212
  let v338 : BitVec 32 := Scalar.addi v336 v337
  v338.toNat
def k0_dev17 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_235 : BitVec 32 := 4#32
  let v379 : BitVec 32 := Scalar.muli v2 c4_i32_235
  let v380 : BitVec 32 := Scalar.addi c0_i32_236 v379
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v381 : BitVec 32 := Scalar.muli v5 c2_i32_237
  let v382 : BitVec 32 := Scalar.addi v380 v381
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_10 v8
  let c1_i32_238 : BitVec 32 := 1#32
  let v383 : BitVec 32 := Scalar.muli v22 c1_i32_238
  let v384 : BitVec 32 := Scalar.addi v382 v383
  v384.toNat
def k0_off10 (d0 : Dev nD) (c88_i32_251 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c256_i32_250 : BitVec 32 := 256#32
  let v401 : BitVec 32 := Scalar.muli v19 c256_i32_250
  let v402 : BitVec 32 := Scalar.addi v401 c88_i32_251
  let v403 : Index := Scalar.indexCast v402
  let c0_252 : Index := 0#32
  ![v403.toNat, 0]
def k0_dev18 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v425 : BitVec 32 := Scalar.muli v2 c4_i32_261
  let v426 : BitVec 32 := Scalar.addi c0_i32_262 v425
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_9 v5
  let c2_i32_263 : BitVec 32 := 2#32
  let v427 : BitVec 32 := Scalar.muli v21 c2_i32_263
  let v428 : BitVec 32 := Scalar.addi v426 v427
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v429 : BitVec 32 := Scalar.muli v8 c1_i32_264
  let v430 : BitVec 32 := Scalar.addi v428 v429
  v430.toNat
def k0_dev19 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v471 : BitVec 32 := Scalar.muli v2 c4_i32_287
  let v472 : BitVec 32 := Scalar.addi c0_i32_288 v471
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_289 : BitVec 32 := 2#32
  let v473 : BitVec 32 := Scalar.muli v5 c2_i32_289
  let v474 : BitVec 32 := Scalar.addi v472 v473
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_10 v8
  let c1_i32_290 : BitVec 32 := 1#32
  let v475 : BitVec 32 := Scalar.muli v22 c1_i32_290
  let v476 : BitVec 32 := Scalar.addi v474 v475
  v476.toNat
def k0_off11 (d0 : Dev nD) (c104_i32_303 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c256_i32_302 : BitVec 32 := 256#32
  let v493 : BitVec 32 := Scalar.muli v19 c256_i32_302
  let v494 : BitVec 32 := Scalar.addi v493 c104_i32_303
  let v495 : Index := Scalar.indexCast v494
  let c0_304 : Index := 0#32
  ![v495.toNat, 0]
def k0_off12 (d0 : Dev nD) (c104_i32_340 : BitVec 32) : Fin 2 → Nat :=
  let c1_i32_338 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v561 : BitVec 32 := Scalar.subi c1_i32_338 v19
  let c256_i32_339 : BitVec 32 := 256#32
  let v562 : BitVec 32 := Scalar.muli v561 c256_i32_339
  let v563 : BitVec 32 := Scalar.addi v562 c104_i32_340
  let v564 : Index := Scalar.indexCast v563
  let c0_341 : Index := 0#32
  ![v564.toNat, 0]
def k0_off13 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c256_i32_368 : BitVec 32 := 256#32
  let v622 : BitVec 32 := Scalar.muli v19 c256_i32_368
  let c0_i32_384 : BitVec 32 := 0#32
  ![v622.toNat, 0]
def k0_off14 (d0 : Dev nD) : Fin 2 → Nat :=
  let c1_i32_379 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v633 : BitVec 32 := Scalar.subi c1_i32_379 v19
  let c256_i32_380 : BitVec 32 := 256#32
  let v634 : BitVec 32 := Scalar.muli v633 c256_i32_380
  let c128_i32_381 : BitVec 32 := 128#32
  let v635 : BitVec 32 := Scalar.addi v634 c128_i32_381
  let c104_i32_382 : BitVec 32 := 104#32
  let v636 : BitVec 32 := Scalar.addi v635 c104_i32_382
  let c0_i32_390 : BitVec 32 := 0#32
  ![v636.toNat, 0]
def k0_off15 (d0 : Dev nD) : Fin 2 → Nat :=
  let c1_i32_434 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v701 : BitVec 32 := Scalar.subi c1_i32_434 v19
  let c256_i32_435 : BitVec 32 := 256#32
  let v702 : BitVec 32 := Scalar.muli v701 c256_i32_435
  let c0_i32_437 : BitVec 32 := 0#32
  ![v702.toNat, 0]
def k0_off16 (d0 : Dev nD) : Fin 2 → Nat :=
  let c1_i32_450 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v720 : BitVec 32 := Scalar.subi c1_i32_450 v19
  let c256_i32_451 : BitVec 32 := 256#32
  let v721 : BitVec 32 := Scalar.muli v720 c256_i32_451
  let c128_i32_452 : BitVec 32 := 128#32
  let v722 : BitVec 32 := Scalar.addi v721 c128_i32_452
  let c0_i32_454 : BitVec 32 := 0#32
  ![v722.toNat, 0]

class Facts₀ : Prop where
  inb_S3_S1_0 : ∀ a, (![0] : Fin 1 → Nat) a + S1.size a ≤ S3.size a
  squeezes_S1_S_ : S1.Squeezes S_
  squeezes_S1x512x512_S512x512 : S1x512x512.Squeezes S512x512
  inb_S3_S1_1 : ∀ a, (![1] : Fin 1 → Nat) a + S1.size a ≤ S3.size a
  inb_S3_S1_2 : ∀ a, (![2] : Fin 1 → Nat) a + S1.size a ≤ S3.size a
  hamt_1 : (1#32 : BitVec 32).msb = false
  inb_S10_S1_0 : ∀ a, (![0] : Fin 1 → Nat) a + S1.size a ≤ S10.size a
  inb_S304x512_S48x512_0_0 : ∀ a, (![0, 0] : Fin 2 → Nat) a + S48x512.size a ≤ S304x512.size a
  inb_S10_S1_1 : ∀ a, (![1] : Fin 1 → Nat) a + S1.size a ≤ S10.size a
  inb_S304x512_S48x512_48_0 : ∀ a, (![48, 0] : Fin 2 → Nat) a + S48x512.size a ≤ S304x512.size a
  inb_S10_S1_2 : ∀ a, (![2] : Fin 1 → Nat) a + S1.size a ≤ S10.size a
  inb_S304x512_S40x512_96_0 : ∀ a, (![96, 0] : Fin 2 → Nat) a + S40x512.size a ≤ S304x512.size a
  inb_S10_S1_3 : ∀ a, (![3] : Fin 1 → Nat) a + S1.size a ≤ S10.size a
  inb_S304x512_S40x512_136_0 : ∀ a, (![136, 0] : Fin 2 → Nat) a + S40x512.size a ≤ S304x512.size a
  inb_S10_S1_4 : ∀ a, (![4] : Fin 1 → Nat) a + S1.size a ≤ S10.size a
  inb_S304x512_S16x512_176_0 : ∀ a, (![176, 0] : Fin 2 → Nat) a + S16x512.size a ≤ S304x512.size a
  inb_S10_S1_5 : ∀ a, (![5] : Fin 1 → Nat) a + S1.size a ≤ S10.size a
  inb_S304x512_S16x512_192_0 : ∀ a, (![192, 0] : Fin 2 → Nat) a + S16x512.size a ≤ S304x512.size a
  inb_S10_S1_6 : ∀ a, (![6] : Fin 1 → Nat) a + S1.size a ≤ S10.size a
  inb_S304x512_S24x512_208_0 : ∀ a, (![208, 0] : Fin 2 → Nat) a + S24x512.size a ≤ S304x512.size a
  inb_S10_S1_7 : ∀ a, (![7] : Fin 1 → Nat) a + S1.size a ≤ S10.size a
  inb_S304x512_S24x512_232_0 : ∀ a, (![232, 0] : Fin 2 → Nat) a + S24x512.size a ≤ S304x512.size a
  inb_S10_S1_8 : ∀ a, (![8] : Fin 1 → Nat) a + S1.size a ≤ S10.size a
  inb_S304x512_S24x512_256_0 : ∀ a, (![256, 0] : Fin 2 → Nat) a + S24x512.size a ≤ S304x512.size a
  inb_S10_S1_9 : ∀ a, (![9] : Fin 1 → Nat) a + S1.size a ≤ S10.size a
  inb_S304x512_S24x512_280_0 : ∀ a, (![280, 0] : Fin 2 → Nat) a + S24x512.size a ≤ S304x512.size a
  hamt_2 : (2#32 : BitVec 32).msb = false
  h_S48x512 : 0 < S48x512.numel
  reduces_S48x512_S48 : S48x512.Reduces [1] S48
  shapeCasts_S48_S48x1 : S48.ShapeCasts S48x1
  broadcasts_S48x1_S48x512 : S48x1.Broadcasts S48x512
  inb_S512_S512_0 : ∀ a, (![0] : Fin 1 → Nat) a + S512.size a ≤ S512.size a
  h_S512 : 0 < S512.numel
  shapeCasts_S512_S1x512 : S512.ShapeCasts S1x512
  broadcasts_S1x512_S48x512 : S1x512.Broadcasts S48x512
  shapeCasts_S48x512_S48x512 : S48x512.ShapeCasts S48x512
  inb_S6_S1_0 : ∀ a, (![0] : Fin 1 → Nat) a + S1.size a ≤ S6.size a
  inb_S6_S1_1 : ∀ a, (![1] : Fin 1 → Nat) a + S1.size a ≤ S6.size a
  h_S40x512 : 0 < S40x512.numel
  reduces_S40x512_S40 : S40x512.Reduces [1] S40
  shapeCasts_S40_S40x1 : S40.ShapeCasts S40x1
  broadcasts_S40x1_S40x512 : S40x1.Broadcasts S40x512
  broadcasts_S1x512_S40x512 : S1x512.Broadcasts S40x512
  shapeCasts_S40x512_S40x512 : S40x512.ShapeCasts S40x512
  inb_S6_S1_2 : ∀ a, (![2] : Fin 1 → Nat) a + S1.size a ≤ S6.size a
  inb_S6_S1_3 : ∀ a, (![3] : Fin 1 → Nat) a + S1.size a ≤ S6.size a
  h_S16x512 : 0 < S16x512.numel
  reduces_S16x512_S16 : S16x512.Reduces [1] S16
  shapeCasts_S16_S16x1 : S16.ShapeCasts S16x1
  broadcasts_S16x1_S16x512 : S16x1.Broadcasts S16x512
  broadcasts_S1x512_S16x512 : S1x512.Broadcasts S16x512
  shapeCasts_S16x512_S16x512 : S16x512.ShapeCasts S16x512
  inb_S6_S1_4 : ∀ a, (![4] : Fin 1 → Nat) a + S1.size a ≤ S6.size a
  inb_S6_S1_5 : ∀ a, (![5] : Fin 1 → Nat) a + S1.size a ≤ S6.size a
  h_S24x512 : 0 < S24x512.numel
  reduces_S24x512_S24 : S24x512.Reduces [1] S24
  shapeCasts_S24_S24x1 : S24.ShapeCasts S24x1
  broadcasts_S24x1_S24x512 : S24x1.Broadcasts S24x512
  broadcasts_S1x512_S24x512 : S1x512.Broadcasts S24x512
  shapeCasts_S24x512_S24x512 : S24x512.ShapeCasts S24x512
  inb_S5_S1_0 : ∀ a, (![0] : Fin 1 → Nat) a + S1.size a ≤ S5.size a
  inb_S5_S1_1 : ∀ a, (![1] : Fin 1 → Nat) a + S1.size a ≤ S5.size a
  inb_S5_S1_4 : ∀ a, (![4] : Fin 1 → Nat) a + S1.size a ≤ S5.size a
  inb_S5_S1_2 : ∀ a, (![2] : Fin 1 → Nat) a + S1.size a ≤ S5.size a
  inb_S5_S1_3 : ∀ a, (![3] : Fin 1 → Nat) a + S1.size a ≤ S5.size a
  hcc0_scratch7 : 0 + S_.numel ≤ 2
  hcc0_scratch5 : 0 + S3.numel ≤ 40
  hcc0_scratch6 : 3 + S5.numel ≤ 40
  hcc0_scratch8 : 8 + S10.numel ≤ 40
  hcc0_scratch9 : 18 + S10.numel ≤ 40
  hcc0_scratch10 : 28 + S6.numel ≤ 40
  hcc0_scratch11 : 34 + S6.numel ≤ 40
  k0_off1_inb : ∀ d0 : Dev nD, ∀ a, (k0_off1 d0) a + S1x512x512.size a ≤ S1x1024x512.size a
  k0_off2_inb : ∀ d0 : Dev nD, ∀ a, (k0_off2 d0) a + S1x512x512.size a ≤ S1x1024x512.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off3_inb : ∀ d0 : Dev nD, ∀ (r : Fin 2), ∀ a, (k0_off3 d0 (BitVec.ofNat 32 (128 * r.val))) a + S48x512.size a ≤ S512x512.size a
  k0_dev4_lt : ∀ d0 : Dev nD, (k0_dev4 d0) < nD
  k0_dev5_lt : ∀ d0 : Dev nD, (k0_dev5 d0) < nD
  k0_off4_inb : ∀ d0 : Dev nD, ∀ (r : Fin 2), ∀ a, (k0_off4 d0 (BitVec.ofNat 32 (48 + 128 * r.val))) a + S40x512.size a ≤ S512x512.size a
  k0_dev6_lt : ∀ d0 : Dev nD, (k0_dev6 d0) < nD
  k0_dev7_lt : ∀ d0 : Dev nD, (k0_dev7 d0) < nD
  k0_off5_inb : ∀ d0 : Dev nD, ∀ (r : Fin 2), ∀ a, (k0_off5 d0 (BitVec.ofNat 32 (88 + 128 * r.val))) a + S16x512.size a ≤ S512x512.size a
  k0_dev8_lt : ∀ d0 : Dev nD, (k0_dev8 d0) < nD
  k0_dev9_lt : ∀ d0 : Dev nD, (k0_dev9 d0) < nD
  k0_off6_inb : ∀ d0 : Dev nD, ∀ (r : Fin 2), ∀ a, (k0_off6 d0 (BitVec.ofNat 32 (104 + 128 * r.val))) a + S24x512.size a ≤ S512x512.size a
  k0_dev10_lt : ∀ d0 : Dev nD, (k0_dev10 d0) < nD
  k0_dev11_lt : ∀ d0 : Dev nD, (k0_dev11 d0) < nD
  k0_off7_inb : ∀ d0 : Dev nD, ∀ (r : Fin 2), ∀ a, (k0_off7 d0 (BitVec.ofNat 32 (104 + 128 * r.val))) a + S24x512.size a ≤ S512x512.size a
  k0_dev12_lt : ∀ d0 : Dev nD, (k0_dev12 d0) < nD
  k0_dev13_lt : ∀ d0 : Dev nD, (k0_dev13 d0) < nD
  k0_off8_inb : ∀ d0 : Dev nD, ∀ (r : Fin 2), ∀ a, (k0_off8 d0 (BitVec.ofNat 32 (128 * r.val))) a + S48x512.size a ≤ S512x512.size a
  k0_dev14_lt : ∀ d0 : Dev nD, (k0_dev14 d0) < nD
  k0_dev15_lt : ∀ d0 : Dev nD, (k0_dev15 d0) < nD
  k0_off9_inb : ∀ d0 : Dev nD, ∀ (r : Fin 2), ∀ a, (k0_off9 d0 (BitVec.ofNat 32 (48 + 128 * r.val))) a + S40x512.size a ≤ S512x512.size a
  k0_dev16_lt : ∀ d0 : Dev nD, (k0_dev16 d0) < nD
  k0_dev17_lt : ∀ d0 : Dev nD, (k0_dev17 d0) < nD
  k0_off10_inb : ∀ d0 : Dev nD, ∀ (r : Fin 2), ∀ a, (k0_off10 d0 (BitVec.ofNat 32 (88 + 128 * r.val))) a + S16x512.size a ≤ S512x512.size a
  k0_dev18_lt : ∀ d0 : Dev nD, (k0_dev18 d0) < nD
  k0_dev19_lt : ∀ d0 : Dev nD, (k0_dev19 d0) < nD
  k0_off11_inb : ∀ d0 : Dev nD, ∀ (r : Fin 2), ∀ a, (k0_off11 d0 (BitVec.ofNat 32 (104 + 128 * r.val))) a + S24x512.size a ≤ S512x512.size a
  k0_off12_inb : ∀ d0 : Dev nD, ∀ (r : Fin 2), ∀ a, (k0_off12 d0 (BitVec.ofNat 32 (104 + 128 * r.val))) a + S24x512.size a ≤ S512x512.size a
  k0_off13_inb : ∀ d0 : Dev nD, ∀ a, (k0_off13 d0) a + S256x512.size a ≤ S512x512.size a
  k0_off14_inb : ∀ d0 : Dev nD, ∀ a, (k0_off14 d0) a + S24x512.size a ≤ S512x512.size a
  k0_off15_inb : ∀ d0 : Dev nD, ∀ a, (k0_off15 d0) a + S104x512.size a ≤ S512x512.size a
  k0_off16_inb : ∀ d0 : Dev nD, ∀ a, (k0_off16 d0) a + S104x512.size a ≤ S512x512.size a

variable [Facts₀]

abbrev cc0_scratch7 : Sems sig S_ := SemArray.consecutive 0 S_ hcc0_scratch7
abbrev cc0_scratch5 : DmaSems sig S3 := SemArray.consecutive 0 S3 hcc0_scratch5
abbrev cc0_scratch6 : DmaSems sig S5 := SemArray.consecutive 3 S5 hcc0_scratch6
abbrev cc0_scratch8 : DmaSems sig S10 := SemArray.consecutive 8 S10 hcc0_scratch8
abbrev cc0_scratch9 : DmaSems sig S10 := SemArray.consecutive 18 S10 hcc0_scratch9
abbrev cc0_scratch10 : DmaSems sig S6 := SemArray.consecutive 28 S6 hcc0_scratch10
abbrev cc0_scratch11 : DmaSems sig S6 := SemArray.consecutive 34 S6 hcc0_scratch11

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2x1024x512 : Shape := ⟨3, ![2, 1024, 512]⟩
abbrev S512 : Shape := ⟨1, ![512]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512, .f32⟩
  | .hbm, ⟨2, _⟩ => ⟨S_, .f32⟩
  | .hbm, ⟨3, _⟩ => ⟨S1024x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x512, .f32⟩
  | .hbm, ⟨16, _⟩ => ⟨S1024x512, .f32⟩
  | .hbm, ⟨17, _⟩ => ⟨S1x512, .f32⟩
  | .hbm, ⟨18, _⟩ => ⟨S1024x512, .f32⟩
  | .hbm, ⟨19, _⟩ => ⟨S1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S2x1024x512_S1024x512_d0 : S2x1024x512.ReducesTo [0] S1024x512
  h_S_ : 0 < S_.numel
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)

variable [Facts₀]

class Facts : Prop extends Facts₀ where

variable [Facts]
-- ==== Proof.Base.lean ====
import proofs.«900598_g7700000000000599_dist_rsrms_v7x_xyz2x2x2_x_m512_d512_f32_1_alg».proof.Proof.Gen.KernelIdeal
import proofs.«900598_g7700000000000599_dist_rsrms_v7x_xyz2x2x2_x_m512_d512_f32_1_alg».proof.Proof.Gen.KernelIdeal.Skeleton
import proofs.«900598_g7700000000000599_dist_rsrms_v7x_xyz2x2x2_x_m512_d512_f32_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL

def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

-- The three neighbours of a device on the 2×2×2 mesh; below them the buffers, their ten chunk slices, and every cell by name.
def xp (c : Dev nD) : Dev nD := ⟨k0_dev1 c, k0_dev1_lt c⟩
def yp (c : Dev nD) : Dev nD := ⟨k0_dev2 c, k0_dev2_lt c⟩
def zp (c : Dev nD) : Dev nD := ⟨k0_dev3 c, k0_dev3_lt c⟩

theorem xp_val (c : Dev nD) : (xp c).val = (2 * ((c.val / 2) % 2) + (c.val % 2) + 4) - 4 * (c.val / 4) := k0_dev1_eq c
theorem yp_val (c : Dev nD) : (yp c).val = (4 * (c.val / 4) + (c.val % 2) + 2) - 2 * ((c.val / 2) % 2) := k0_dev2_eq c
theorem zp_val (c : Dev nD) : (zp c).val = (4 * (c.val / 4) + 2 * ((c.val / 2) % 2) + 1) - (c.val % 2) := k0_dev3_eq c

theorem xp_xp (c : Dev nD) : xp (xp c) = c := by
  apply Fin.ext; rw [xp_val, xp_val]; have := c.isLt; simp only [nD] at this; omega
theorem yp_yp (c : Dev nD) : yp (yp c) = c := by
  apply Fin.ext; rw [yp_val, yp_val]; have := c.isLt; simp only [nD] at this; omega
theorem zp_zp (c : Dev nD) : zp (zp c) = c := by
  apply Fin.ext; rw [zp_val, zp_val]; have := c.isLt; simp only [nD] at this; omega

def xE : Dev nD ≃ Dev nD := ⟨xp, xp, xp_xp, xp_xp⟩
def yE : Dev nD ≃ Dev nD := ⟨yp, yp, yp_yp, yp_yp⟩
def zE : Dev nD ≃ Dev nD := ⟨zp, zp, zp_zp, zp_zp⟩

theorem dev1_eq (c : Dev nD) : (⟨k0_dev1 c, k0_dev1_lt c⟩ : Dev nD) = xp c := rfl
theorem dev2_eq (c : Dev nD) : (⟨k0_dev2 c, k0_dev2_lt c⟩ : Dev nD) = yp c := rfl
theorem dev3_eq (c : Dev nD) : (⟨k0_dev3 c, k0_dev3_lt c⟩ : Dev nD) = zp c := rfl
theorem dev4_eq (c : Dev nD) : (⟨k0_dev4 c, k0_dev4_lt c⟩ : Dev nD) = xp c := Fin.ext ((k0_dev4_eq c).trans (k0_dev1_eq c).symm)
theorem dev5_eq (c : Dev nD) : (⟨k0_dev5 c, k0_dev5_lt c⟩ : Dev nD) = xp c := Fin.ext ((k0_dev5_eq c).trans (k0_dev1_eq c).symm)
theorem dev6_eq (c : Dev nD) : (⟨k0_dev6 c, k0_dev6_lt c⟩ : Dev nD) = xp c := Fin.ext ((k0_dev6_eq c).trans (k0_dev1_eq c).symm)
theorem dev7_eq (c : Dev nD) : (⟨k0_dev7 c, k0_dev7_lt c⟩ : Dev nD) = xp c := Fin.ext ((k0_dev7_eq c).trans (k0_dev1_eq c).symm)
theorem dev8_eq (c : Dev nD) : (⟨k0_dev8 c, k0_dev8_lt c⟩ : Dev nD) = xp c := Fin.ext ((k0_dev8_eq c).trans (k0_dev1_eq c).symm)
theorem dev9_eq (c : Dev nD) : (⟨k0_dev9 c, k0_dev9_lt c⟩ : Dev nD) = xp c := Fin.ext ((k0_dev9_eq c).trans (k0_dev1_eq c).symm)
theorem dev10_eq (c : Dev nD) : (⟨k0_dev10 c, k0_dev10_lt c⟩ : Dev nD) = xp c := Fin.ext ((k0_dev10_eq c).trans (k0_dev1_eq c).symm)
theorem dev11_eq (c : Dev nD) : (⟨k0_dev11 c, k0_dev11_lt c⟩ : Dev nD) = xp c := Fin.ext ((k0_dev11_eq c).trans (k0_dev1_eq c).symm)
theorem dev12_eq (c : Dev nD) : (⟨k0_dev12 c, k0_dev12_lt c⟩ : Dev nD) = xp c := Fin.ext ((k0_dev12_eq c).trans (k0_dev1_eq c).symm)
theorem dev13_eq (c : Dev nD) : (⟨k0_dev13 c, k0_dev13_lt c⟩ : Dev nD) = xp c := Fin.ext ((k0_dev13_eq c).trans (k0_dev1_eq c).symm)
theorem dev14_eq (c : Dev nD) : (⟨k0_dev14 c, k0_dev14_lt c⟩ : Dev nD) = yp c := Fin.ext ((k0_dev14_eq c).trans (k0_dev2_eq c).symm)
theorem dev15_eq (c : Dev nD) : (⟨k0_dev15 c, k0_dev15_lt c⟩ : Dev nD) = zp c := Fin.ext ((k0_dev15_eq c).trans (k0_dev3_eq c).symm)
theorem dev16_eq (c : Dev nD) : (⟨k0_dev16 c, k0_dev16_lt c⟩ : Dev nD) = yp c := Fin.ext ((k0_dev16_eq c).trans (k0_dev2_eq c).symm)
theorem dev17_eq (c : Dev nD) : (⟨k0_dev17 c, k0_dev17_lt c⟩ : Dev nD) = zp c := Fin.ext ((k0_dev17_eq c).trans (k0_dev3_eq c).symm)
theorem dev18_eq (c : Dev nD) : (⟨k0_dev18 c, k0_dev18_lt c⟩ : Dev nD) = yp c := Fin.ext ((k0_dev18_eq c).trans (k0_dev2_eq c).symm)
theorem dev19_eq (c : Dev nD) : (⟨k0_dev19 c, k0_dev19_lt c⟩ : Dev nD) = zp c := Fin.ext ((k0_dev19_eq c).trans (k0_dev3_eq c).symm)

abbrev a0M : Memref sig .tc .hbm S1x1024x512 .f32 := Memref.whole main_arg0
abbrev a1M : Memref sig .tc .hbm S512 .f32 := Memref.whole main_arg1
abbrev outM : Memref sig .tc .hbm S512x512 .f32 := Memref.whole main_v1

abbrev sndM : Memref sig .tc .vmem S512x512 .f32 := Memref.whole cc0_scratch0

abbrev locM : Memref sig .tc .vmem S512x512 .f32 := Memref.whole cc0_scratch1

abbrev gvM : Memref sig .tc .vmem S512 .f32 := Memref.whole cc0_scratch2

abbrev ovM : Memref sig .tc .vmem S512x512 .f32 := Memref.whole cc0_scratch3

abbrev cmM : Memref sig .tc .vmem S304x512 .f32 := Memref.whole cc0_scratch4

abbrev srcSend (c : Dev nD) : Memref sig .tc .hbm S512x512 .f32 :=
  (a0M.slice (Rect.unit (s := S1x1024x512) (k0_off1 c) S1x512x512.size (k0_off1_inb c)) (fun _ => rfl)).squeeze S512x512 squeezes_S1x512x512_S512x512
abbrev srcLoc (c : Dev nD) : Memref sig .tc .hbm S512x512 .f32 :=
  (a0M.slice (Rect.unit (s := S1x1024x512) (k0_off2 c) S1x512x512.size (k0_off2_inb c)) (fun _ => rfl)).squeeze S512x512 squeezes_S1x512x512_S512x512

abbrev sndSl0 (c : Dev nD) : Memref sig .tc .vmem S48x512 .f32 := sndM.slice (Rect.unit (s := S512x512) (k0_off3 c 0#32) S48x512.size (k0_off3_inb c 0)) (fun _ => rfl)
abbrev cmSl0 : Memref sig .tc .vmem S48x512 .f32 := cmM.slice (Rect.unit (s := S304x512) ![0, 0] S48x512.size inb_S304x512_S48x512_0_0) (fun _ => rfl)
abbrev ovSl0 (c : Dev nD) : Memref sig .tc .vmem S48x512 .f32 := ovM.slice (Rect.unit (s := S512x512) (k0_off3 c 0#32) S48x512.size (k0_off3_inb c 0)) (fun _ => rfl)
abbrev sndSl1 (c : Dev nD) : Memref sig .tc .vmem S48x512 .f32 := sndM.slice (Rect.unit (s := S512x512) (k0_off3 c 128#32) S48x512.size (k0_off3_inb c 1)) (fun _ => rfl)
abbrev cmSl1 : Memref sig .tc .vmem S48x512 .f32 := cmM.slice (Rect.unit (s := S304x512) ![48, 0] S48x512.size inb_S304x512_S48x512_48_0) (fun _ => rfl)
abbrev ovSl1 (c : Dev nD) : Memref sig .tc .vmem S48x512 .f32 := ovM.slice (Rect.unit (s := S512x512) (k0_off3 c 128#32) S48x512.size (k0_off3_inb c 1)) (fun _ => rfl)
abbrev sndSl2 (c : Dev nD) : Memref sig .tc .vmem S40x512 .f32 := sndM.slice (Rect.unit (s := S512x512) (k0_off4 c 48#32) S40x512.size (k0_off4_inb c 0)) (fun _ => rfl)
abbrev cmSl2 : Memref sig .tc .vmem S40x512 .f32 := cmM.slice (Rect.unit (s := S304x512) ![96, 0] S40x512.size inb_S304x512_S40x512_96_0) (fun _ => rfl)
abbrev ovSl2 (c : Dev nD) : Memref sig .tc .vmem S40x512 .f32 := ovM.slice (Rect.unit (s := S512x512) (k0_off4 c 48#32) S40x512.size (k0_off4_inb c 0)) (fun _ => rfl)
abbrev sndSl3 (c : Dev nD) : Memref sig .tc .vmem S40x512 .f32 := sndM.slice (Rect.unit (s := S512x512) (k0_off4 c 176#32) S40x512.size (k0_off4_inb c 1)) (fun _ => rfl)
abbrev cmSl3 : Memref sig .tc .vmem S40x512 .f32 := cmM.slice (Rect.unit (s := S304x512) ![136, 0] S40x512.size inb_S304x512_S40x512_136_0) (fun _ => rfl)
abbrev ovSl3 (c : Dev nD) : Memref sig .tc .vmem S40x512 .f32 := ovM.slice (Rect.unit (s := S512x512) (k0_off4 c 176#32) S40x512.size (k0_off4_inb c 1)) (fun _ => rfl)
abbrev sndSl4 (c : Dev nD) : Memref sig .tc .vmem S16x512 .f32 := sndM.slice (Rect.unit (s := S512x512) (k0_off5 c 88#32) S16x512.size (k0_off5_inb c 0)) (fun _ => rfl)
abbrev cmSl4 : Memref sig .tc .vmem S16x512 .f32 := cmM.slice (Rect.unit (s := S304x512) ![176, 0] S16x512.size inb_S304x512_S16x512_176_0) (fun _ => rfl)
abbrev ovSl4 (c : Dev nD) : Memref sig .tc .vmem S16x512 .f32 := ovM.slice (Rect.unit (s := S512x512) (k0_off5 c 88#32) S16x512.size (k0_off5_inb c 0)) (fun _ => rfl)
abbrev sndSl5 (c : Dev nD) : Memref sig .tc .vmem S16x512 .f32 := sndM.slice (Rect.unit (s := S512x512) (k0_off5 c 216#32) S16x512.size (k0_off5_inb c 1)) (fun _ => rfl)
abbrev cmSl5 : Memref sig .tc .vmem S16x512 .f32 := cmM.slice (Rect.unit (s := S304x512) ![192, 0] S16x512.size inb_S304x512_S16x512_192_0) (fun _ => rfl)
abbrev ovSl5 (c : Dev nD) : Memref sig .tc .vmem S16x512 .f32 := ovM.slice (Rect.unit (s := S512x512) (k0_off5 c 216#32) S16x512.size (k0_off5_inb c 1)) (fun _ => rfl)
abbrev sndSl6 (c : Dev nD) : Memref sig .tc .vmem S24x512 .f32 := sndM.slice (Rect.unit (s := S512x512) (k0_off6 c 104#32) S24x512.size (k0_off6_inb c 0)) (fun _ => rfl)
abbrev cmSl6 : Memref sig .tc .vmem S24x512 .f32 := cmM.slice (Rect.unit (s := S304x512) ![208, 0] S24x512.size inb_S304x512_S24x512_208_0) (fun _ => rfl)
abbrev ovSl6 (c : Dev nD) : Memref sig .tc .vmem S24x512 .f32 := ovM.slice (Rect.unit (s := S512x512) (k0_off6 c 104#32) S24x512.size (k0_off6_inb c 0)) (fun _ => rfl)
abbrev sndSl7 (c : Dev nD) : Memref sig .tc .vmem S24x512 .f32 := sndM.slice (Rect.unit (s := S512x512) (k0_off6 c 232#32) S24x512.size (k0_off6_inb c 1)) (fun _ => rfl)
abbrev cmSl7 : Memref sig .tc .vmem S24x512 .f32 := cmM.slice (Rect.unit (s := S304x512) ![232, 0] S24x512.size inb_S304x512_S24x512_232_0) (fun _ => rfl)
abbrev ovSl7 (c : Dev nD) : Memref sig .tc .vmem S24x512 .f32 := ovM.slice (Rect.unit (s := S512x512) (k0_off6 c 232#32) S24x512.size (k0_off6_inb c 1)) (fun _ => rfl)
abbrev sndSl8 (c : Dev nD) : Memref sig .tc .vmem S24x512 .f32 := sndM.slice (Rect.unit (s := S512x512) (k0_off7 c 104#32) S24x512.size (k0_off7_inb c 0)) (fun _ => rfl)
abbrev cmSl8 : Memref sig .tc .vmem S24x512 .f32 := cmM.slice (Rect.unit (s := S304x512) ![256, 0] S24x512.size inb_S304x512_S24x512_256_0) (fun _ => rfl)
abbrev ovSl8 (c : Dev nD) : Memref sig .tc .vmem S24x512 .f32 := ovM.slice (Rect.unit (s := S512x512) (k0_off7 c 104#32) S24x512.size (k0_off7_inb c 0)) (fun _ => rfl)
abbrev sndSl9 (c : Dev nD) : Memref sig .tc .vmem S24x512 .f32 := sndM.slice (Rect.unit (s := S512x512) (k0_off7 c 232#32) S24x512.size (k0_off7_inb c 1)) (fun _ => rfl)
abbrev cmSl9 : Memref sig .tc .vmem S24x512 .f32 := cmM.slice (Rect.unit (s := S304x512) ![280, 0] S24x512.size inb_S304x512_S24x512_280_0) (fun _ => rfl)
abbrev ovSl9 (c : Dev nD) : Memref sig .tc .vmem S24x512 .f32 := ovM.slice (Rect.unit (s := S512x512) (k0_off7 c 232#32) S24x512.size (k0_off7_inb c 1)) (fun _ => rfl)

abbrev ovO1 (c : Dev nD) : Memref sig .tc .vmem S256x512 .f32 := ovM.slice (Rect.unit (s := S512x512) (k0_off13 c) S256x512.size (k0_off13_inb c)) (fun _ => rfl)
abbrev outO1 (c : Dev nD) : Memref sig .tc .hbm S256x512 .f32 := outM.slice (Rect.unit (s := S512x512) (k0_off13 c) S256x512.size (k0_off13_inb c)) (fun _ => rfl)
abbrev ovO2a (c : Dev nD) : Memref sig .tc .vmem S24x512 .f32 := ovSl8 c
abbrev outO2a (c : Dev nD) : Memref sig .tc .hbm S24x512 .f32 := outM.slice (Rect.unit (s := S512x512) (k0_off7 c 104#32) S24x512.size (k0_off7_inb c 0)) (fun _ => rfl)
abbrev ovO2b (c : Dev nD) : Memref sig .tc .vmem S24x512 .f32 := ovM.slice (Rect.unit (s := S512x512) (k0_off14 c) S24x512.size (k0_off14_inb c)) (fun _ => rfl)
abbrev outO2b (c : Dev nD) : Memref sig .tc .hbm S24x512 .f32 := outM.slice (Rect.unit (s := S512x512) (k0_off14 c) S24x512.size (k0_off14_inb c)) (fun _ => rfl)
abbrev ovO3 (c : Dev nD) : Memref sig .tc .vmem S104x512 .f32 := ovM.slice (Rect.unit (s := S512x512) (k0_off15 c) S104x512.size (k0_off15_inb c)) (fun _ => rfl)
abbrev outO3 (c : Dev nD) : Memref sig .tc .hbm S104x512 .f32 := outM.slice (Rect.unit (s := S512x512) (k0_off15 c) S104x512.size (k0_off15_inb c)) (fun _ => rfl)
abbrev ovO4 (c : Dev nD) : Memref sig .tc .vmem S104x512 .f32 := ovM.slice (Rect.unit (s := S512x512) (k0_off16 c) S104x512.size (k0_off16_inb c)) (fun _ => rfl)
abbrev outO4 (c : Dev nD) : Memref sig .tc .hbm S104x512 .f32 := outM.slice (Rect.unit (s := S512x512) (k0_off16 c) S104x512.size (k0_off16_inb c)) (fun _ => rfl)

abbrev barS : Sem sig := (SemArray.scalar (sig.barrier 0 rfl) : Sems sig S_).sem

abbrev yzS : Sem sig := cc0_scratch7.sem
abbrev inS0 : DmaSem sig := ((cc0_scratch5.slice (Rect.unit (s := S3) ![0] S1.size inb_S3_S1_0)).squeeze S_ squeezes_S1_S_).sem
abbrev inS1 : DmaSem sig := ((cc0_scratch5.slice (Rect.unit (s := S3) ![1] S1.size inb_S3_S1_1)).squeeze S_ squeezes_S1_S_).sem
abbrev inS2 : DmaSem sig := ((cc0_scratch5.slice (Rect.unit (s := S3) ![2] S1.size inb_S3_S1_2)).squeeze S_ squeezes_S1_S_).sem
abbrev outS0 : DmaSem sig := ((cc0_scratch6.slice (Rect.unit (s := S5) ![0] S1.size inb_S5_S1_0)).squeeze S_ squeezes_S1_S_).sem
abbrev outS1 : DmaSem sig := ((cc0_scratch6.slice (Rect.unit (s := S5) ![1] S1.size inb_S5_S1_1)).squeeze S_ squeezes_S1_S_).sem
abbrev outS2 : DmaSem sig := ((cc0_scratch6.slice (Rect.unit (s := S5) ![2] S1.size inb_S5_S1_2)).squeeze S_ squeezes_S1_S_).sem
abbrev outS3 : DmaSem sig := ((cc0_scratch6.slice (Rect.unit (s := S5) ![3] S1.size inb_S5_S1_3)).squeeze S_ squeezes_S1_S_).sem
abbrev outS4 : DmaSem sig := ((cc0_scratch6.slice (Rect.unit (s := S5) ![4] S1.size inb_S5_S1_4)).squeeze S_ squeezes_S1_S_).sem
abbrev p1sS0 : DmaSem sig := ((cc0_scratch8.slice (Rect.unit (s := S10) ![0] S1.size inb_S10_S1_0)).squeeze S_ squeezes_S1_S_).sem
abbrev p1sS1 : DmaSem sig := ((cc0_scratch8.slice (Rect.unit (s := S10) ![1] S1.size inb_S10_S1_1)).squeeze S_ squeezes_S1_S_).sem
abbrev p1sS2 : DmaSem sig := ((cc0_scratch8.slice (Rect.unit (s := S10) ![2] S1.size inb_S10_S1_2)).squeeze S_ squeezes_S1_S_).sem
abbrev p1sS3 : DmaSem sig := ((cc0_scratch8.slice (Rect.unit (s := S10) ![3] S1.size inb_S10_S1_3)).squeeze S_ squeezes_S1_S_).sem
abbrev p1sS4 : DmaSem sig := ((cc0_scratch8.slice (Rect.unit (s := S10) ![4] S1.size inb_S10_S1_4)).squeeze S_ squeezes_S1_S_).sem
abbrev p1sS5 : DmaSem sig := ((cc0_scratch8.slice (Rect.unit (s := S10) ![5] S1.size inb_S10_S1_5)).squeeze S_ squeezes_S1_S_).sem
abbrev p1sS6 : DmaSem sig := ((cc0_scratch8.slice (Rect.unit (s := S10) ![6] S1.size inb_S10_S1_6)).squeeze S_ squeezes_S1_S_).sem
abbrev p1sS7 : DmaSem sig := ((cc0_scratch8.slice (Rect.unit (s := S10) ![7] S1.size inb_S10_S1_7)).squeeze S_ squeezes_S1_S_).sem
abbrev p1sS8 : DmaSem sig := ((cc0_scratch8.slice (Rect.unit (s := S10) ![8] S1.size inb_S10_S1_8)).squeeze S_ squeezes_S1_S_).sem
abbrev p1sS9 : DmaSem sig := ((cc0_scratch8.slice (Rect.unit (s := S10) ![9] S1.size inb_S10_S1_9)).squeeze S_ squeezes_S1_S_).sem
abbrev p1rS0 : DmaSem sig := ((cc0_scratch9.slice (Rect.unit (s := S10) ![0] S1.size inb_S10_S1_0)).squeeze S_ squeezes_S1_S_).sem
abbrev p1rS1 : DmaSem sig := ((cc0_scratch9.slice (Rect.unit (s := S10) ![1] S1.size inb_S10_S1_1)).squeeze S_ squeezes_S1_S_).sem
abbrev p1rS2 : DmaSem sig := ((cc0_scratch9.slice (Rect.unit (s := S10) ![2] S1.size inb_S10_S1_2)).squeeze S_ squeezes_S1_S_).sem
abbrev p1rS3 : DmaSem sig := ((cc0_scratch9.slice (Rect.unit (s := S10) ![3] S1.size inb_S10_S1_3)).squeeze S_ squeezes_S1_S_).sem
abbrev p1rS4 : DmaSem sig := ((cc0_scratch9.slice (Rect.unit (s := S10) ![4] S1.size inb_S10_S1_4)).squeeze S_ squeezes_S1_S_).sem
abbrev p1rS5 : DmaSem sig := ((cc0_scratch9.slice (Rect.unit (s := S10) ![5] S1.size inb_S10_S1_5)).squeeze S_ squeezes_S1_S_).sem
abbrev p1rS6 : DmaSem sig := ((cc0_scratch9.slice (Rect.unit (s := S10) ![6] S1.size inb_S10_S1_6)).squeeze S_ squeezes_S1_S_).sem
abbrev p1rS7 : DmaSem sig := ((cc0_scratch9.slice (Rect.unit (s := S10) ![7] S1.size inb_S10_S1_7)).squeeze S_ squeezes_S1_S_).sem
abbrev p1rS8 : DmaSem sig := ((cc0_scratch9.slice (Rect.unit (s := S10) ![8] S1.size inb_S10_S1_8)).squeeze S_ squeezes_S1_S_).sem
abbrev p1rS9 : DmaSem sig := ((cc0_scratch9.slice (Rect.unit (s := S10) ![9] S1.size inb_S10_S1_9)).squeeze S_ squeezes_S1_S_).sem
abbrev p2sS0 : DmaSem sig := ((cc0_scratch10.slice (Rect.unit (s := S6) ![0] S1.size inb_S6_S1_0)).squeeze S_ squeezes_S1_S_).sem
abbrev p2sS1 : DmaSem sig := ((cc0_scratch10.slice (Rect.unit (s := S6) ![1] S1.size inb_S6_S1_1)).squeeze S_ squeezes_S1_S_).sem
abbrev p2sS2 : DmaSem sig := ((cc0_scratch10.slice (Rect.unit (s := S6) ![2] S1.size inb_S6_S1_2)).squeeze S_ squeezes_S1_S_).sem
abbrev p2sS3 : DmaSem sig := ((cc0_scratch10.slice (Rect.unit (s := S6) ![3] S1.size inb_S6_S1_3)).squeeze S_ squeezes_S1_S_).sem
abbrev p2sS4 : DmaSem sig := ((cc0_scratch10.slice (Rect.unit (s := S6) ![4] S1.size inb_S6_S1_4)).squeeze S_ squeezes_S1_S_).sem
abbrev p2sS5 : DmaSem sig := ((cc0_scratch10.slice (Rect.unit (s := S6) ![5] S1.size inb_S6_S1_5)).squeeze S_ squeezes_S1_S_).sem
abbrev p2rS0 : DmaSem sig := ((cc0_scratch11.slice (Rect.unit (s := S6) ![0] S1.size inb_S6_S1_0)).squeeze S_ squeezes_S1_S_).sem
abbrev p2rS1 : DmaSem sig := ((cc0_scratch11.slice (Rect.unit (s := S6) ![1] S1.size inb_S6_S1_1)).squeeze S_ squeezes_S1_S_).sem
abbrev p2rS2 : DmaSem sig := ((cc0_scratch11.slice (Rect.unit (s := S6) ![2] S1.size inb_S6_S1_2)).squeeze S_ squeezes_S1_S_).sem
abbrev p2rS3 : DmaSem sig := ((cc0_scratch11.slice (Rect.unit (s := S6) ![3] S1.size inb_S6_S1_3)).squeeze S_ squeezes_S1_S_).sem
abbrev p2rS4 : DmaSem sig := ((cc0_scratch11.slice (Rect.unit (s := S6) ![4] S1.size inb_S6_S1_4)).squeeze S_ squeezes_S1_S_).sem
abbrev p2rS5 : DmaSem sig := ((cc0_scratch11.slice (Rect.unit (s := S6) ![5] S1.size inb_S6_S1_5)).squeeze S_ squeezes_S1_S_).sem

end Cert.KernelIdeal.Proto

end
-- ==== Proof.Vals.lean ====
import proofs.«900598_g7700000000000599_dist_rsrms_v7x_xyz2x2x2_x_m512_d512_f32_1_alg».proof.Proof.Base

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

-- The values that travel: the half to send, the half kept and the scale vector; then, chunk by chunk, what is sent, received, kept and computed.
def SND (c : Dev nD) : Vec F S512x512 .f32 := (srcSend c).view.read (Elt F) (m ((c : Thread nD τ).loc main_arg0))

def LOC (c : Dev nD) : Vec F S512x512 .f32 := (srcLoc c).view.read (Elt F) (m ((c : Thread nD τ).loc main_arg0))

def GV (c : Dev nD) : Vec F S512 .f32 := a1M.view.read (Elt F) (m ((c : Thread nD τ).loc main_arg1))

def sndv0 (c : Dev nD) : Vec F S48x512 .f32 := (sndSl0 c).view.read (Elt F) (SND m c)
def rcv0 (c : Dev nD) : Vec F S48x512 .f32 := sndv0 m (xp c)
def kept0 (c : Dev nD) : Vec F S48x512 .f32 := locM.view.readAt (Elt F) (Rect.unit (s := S512x512) (k0_off8 c 0#32) S48x512.size (k0_off8_inb c 0)).toLoadRect (LOC m c)
def val0 (c : Dev nD) : Vec F S48x512 .f32 := k0_pay1 (kept0 m c) (rcv0 m c) (GV m c)

def sndv1 (c : Dev nD) : Vec F S48x512 .f32 := (sndSl1 c).view.read (Elt F) (SND m c)
def rcv1 (c : Dev nD) : Vec F S48x512 .f32 := sndv1 m (xp c)
def kept1 (c : Dev nD) : Vec F S48x512 .f32 := locM.view.readAt (Elt F) (Rect.unit (s := S512x512) (k0_off8 c 128#32) S48x512.size (k0_off8_inb c 1)).toLoadRect (LOC m c)
def val1 (c : Dev nD) : Vec F S48x512 .f32 := k0_pay2 (kept1 m c) (rcv1 m c) (GV m c)

def sndv2 (c : Dev nD) : Vec F S40x512 .f32 := (sndSl2 c).view.read (Elt F) (SND m c)
def rcv2 (c : Dev nD) : Vec F S40x512 .f32 := sndv2 m (xp c)
def kept2 (c : Dev nD) : Vec F S40x512 .f32 := locM.view.readAt (Elt F) (Rect.unit (s := S512x512) (k0_off9 c 48#32) S40x512.size (k0_off9_inb c 0)).toLoadRect (LOC m c)
def val2 (c : Dev nD) : Vec F S40x512 .f32 := k0_pay3 (kept2 m c) (rcv2 m c) (GV m c)

def sndv3 (c : Dev nD) : Vec F S40x512 .f32 := (sndSl3 c).view.read (Elt F) (SND m c)
def rcv3 (c : Dev nD) : Vec F S40x512 .f32 := sndv3 m (xp c)
def kept3 (c : Dev nD) : Vec F S40x512 .f32 := locM.view.readAt (Elt F) (Rect.unit (s := S512x512) (k0_off9 c 176#32) S40x512.size (k0_off9_inb c 1)).toLoadRect (LOC m c)
def val3 (c : Dev nD) : Vec F S40x512 .f32 := k0_pay7 (k0_pay4 (kept3 m c) (rcv3 m c)) (k0_pay5 (kept3 m c) (rcv3 m c)) k0_pay6 (GV m c)

def sndv4 (c : Dev nD) : Vec F S16x512 .f32 := (sndSl4 c).view.read (Elt F) (SND m c)
def rcv4 (c : Dev nD) : Vec F S16x512 .f32 := sndv4 m (xp c)
def kept4 (c : Dev nD) : Vec F S16x512 .f32 := locM.view.readAt (Elt F) (Rect.unit (s := S512x512) (k0_off10 c 88#32) S16x512.size (k0_off10_inb c 0)).toLoadRect (LOC m c)
def val4 (c : Dev nD) : Vec F S16x512 .f32 := k0_pay8 (kept4 m c) (rcv4 m c) (GV m c)

def sndv5 (c : Dev nD) : Vec F S16x512 .f32 := (sndSl5 c).view.read (Elt F) (SND m c)
def rcv5 (c : Dev nD) : Vec F S16x512 .f32 := sndv5 m (xp c)
def kept5 (c : Dev nD) : Vec F S16x512 .f32 := locM.view.readAt (Elt F) (Rect.unit (s := S512x512) (k0_off10 c 216#32) S16x512.size (k0_off10_inb c 1)).toLoadRect (LOC m c)
def val5 (c : Dev nD) : Vec F S16x512 .f32 := k0_pay9 (kept5 m c) (rcv5 m c) (GV m c)

def sndv6 (c : Dev nD) : Vec F S24x512 .f32 := (sndSl6 c).view.read (Elt F) (SND m c)
def rcv6 (c : Dev nD) : Vec F S24x512 .f32 := sndv6 m (xp c)
def kept6 (c : Dev nD) : Vec F S24x512 .f32 := locM.view.readAt (Elt F) (Rect.unit (s := S512x512) (k0_off11 c 104#32) S24x512.size (k0_off11_inb c 0)).toLoadRect (LOC m c)
def val6 (c : Dev nD) : Vec F S24x512 .f32 := k0_pay11 (k0_pay10 (kept6 m c) (rcv6 m c) (GV m c))

def sndv7 (c : Dev nD) : Vec F S24x512 .f32 := (sndSl7 c).view.read (Elt F) (SND m c)
def rcv7 (c : Dev nD) : Vec F S24x512 .f32 := sndv7 m (xp c)
def kept7 (c : Dev nD) : Vec F S24x512 .f32 := locM.view.readAt (Elt F) (Rect.unit (s := S512x512) (k0_off11 c 232#32) S24x512.size (k0_off11_inb c 1)).toLoadRect (LOC m c)
def val7 (c : Dev nD) : Vec F S24x512 .f32 := k0_pay12 (kept7 m c) (rcv7 m c) (GV m c)

def sndv8 (c : Dev nD) : Vec F S24x512 .f32 := (sndSl8 c).view.read (Elt F) (SND m c)
def rcv8 (c : Dev nD) : Vec F S24x512 .f32 := sndv8 m (xp c)
def kept8 (c : Dev nD) : Vec F S24x512 .f32 := locM.view.readAt (Elt F) (Rect.unit (s := S512x512) (k0_off12 c 104#32) S24x512.size (k0_off12_inb c 0)).toLoadRect (LOC m c)
def val8 (c : Dev nD) : Vec F S24x512 .f32 := k0_pay13 (kept8 m c) (rcv8 m c) (GV m c)

def sndv9 (c : Dev nD) : Vec F S24x512 .f32 := (sndSl9 c).view.read (Elt F) (SND m c)
def rcv9 (c : Dev nD) : Vec F S24x512 .f32 := sndv9 m (xp c)
def kept9 (c : Dev nD) : Vec F S24x512 .f32 := locM.view.readAt (Elt F) (Rect.unit (s := S512x512) (k0_off12 c 232#32) S24x512.size (k0_off12_inb c 1)).toLoadRect (LOC m c)
def val9 (c : Dev nD) : Vec F S24x512 .f32 := k0_pay14 (kept9 m c) (rcv9 m c) (GV m c)

end Cert.KernelIdeal.Proto

end
-- ==== Proof.Proto.lean ====
import proofs.«900598_g7700000000000599_dist_rsrms_v7x_xyz2x2x2_x_m512_d512_f32_1_alg».proof.Proof.Vals

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev barCell (c : Dev nD) : GSem nD τ sig := ((c : Thread nD τ), .reg barS)
abbrev yzCell (c : Dev nD) : GSem nD τ sig := ((c : Thread nD τ), .reg yzS)
abbrev dcell (c : Dev nD) (s : DmaSem sig) : GSem nD τ sig := ((c : Thread nD τ), .dma s)

abbrev N48 : ℕ := (cmSl0 : Memref sig .tc .vmem S48x512 .f32).view.dmaCredit
abbrev N40 : ℕ := (cmSl2 : Memref sig .tc .vmem S40x512 .f32).view.dmaCredit
abbrev N16 : ℕ := (cmSl4 : Memref sig .tc .vmem S16x512 .f32).view.dmaCredit
abbrev N24 : ℕ := (cmSl6 : Memref sig .tc .vmem S24x512 .f32).view.dmaCredit
theorem N48_pos : 0 < N48 := View.dmaCredit_pos _ (by decide)
theorem N40_pos : 0 < N40 := View.dmaCredit_pos _ (by decide)
theorem N16_pos : 0 < N16 := View.dmaCredit_pos _ (by decide)
theorem N24_pos : 0 < N24 := View.dmaCredit_pos _ (by decide)

def dmaAmt (s : ℕ) : ℕ := match s with
  | 8 | 9 | 18 | 19 | 28 | 29 | 34 | 35 => N48
  | 10 | 11 | 20 | 21 | 30 | 31 | 36 | 37 => N40
  | 12 | 13 | 22 | 23 | 32 | 33 | 38 | 39 => N16
  | _ => N24
theorem dmaAmt_pos (s : ℕ) : 0 < dmaAmt s := by
  unfold dmaAmt; split <;> first | exact N48_pos | exact N40_pos | exact N16_pos | exact N24_pos

-- What each signal and each copy hands its receiver.
def barPay (c : Dev nD) : sProp 𝕄 :=
  iprop((∃ f, (cmM : Memref sig .tc .vmem S304x512 .f32).view.loc (xp c : Thread nD τ) ↦[(cmM : Memref sig .tc .vmem S304x512 .f32).view.set]{fullShare} f)
    ∗ reached ER (dcell (xp c) p1rS0) 0 ∗ reached ER (dcell (xp c) p1rS1) 0 ∗ reached ER (dcell (xp c) p1rS2) 0 ∗ reached ER (dcell (xp c) p1rS3) 0 ∗ reached ER (dcell (xp c) p1rS4) 0 ∗ reached ER (dcell (xp c) p1rS5) 0 ∗ reached ER (dcell (xp c) p1rS6) 0 ∗ reached ER (dcell (xp c) p1rS7) 0 ∗ reached ER (dcell (xp c) p1rS8) 0 ∗ reached ER (dcell (xp c) p1rS9) 0)

def yPay (c : Dev nD) : sProp 𝕄 :=
  iprop((∃ f, (ovO3 (yp c)).view.loc (yp c : Thread nD τ) ↦[(ovO3 (yp c)).view.set]{fullShare} f)
    ∗ reached ER (dcell (yp c) p2rS0) 0 ∗ reached ER (dcell (yp c) p2rS2) 0 ∗ reached ER (dcell (yp c) p2rS4) 0)

def zPay (c : Dev nD) : sProp 𝕄 :=
  iprop((∃ f, (ovO4 (zp c)).view.loc (zp c : Thread nD τ) ↦[(ovO4 (zp c)).view.set]{fullShare} f)
    ∗ reached ER (dcell (zp c) p2rS1) 0 ∗ reached ER (dcell (zp c) p2rS3) 0 ∗ reached ER (dcell (zp c) p2rS5) 0)

def p1sPay0 (c : Dev nD) : sProp 𝕄 :=
  (sndSl0 c).view.loc (c : Thread nD τ) ↦[(sndSl0 c).view.set]{fullShare} ((sndSl0 c).view.write (Elt F) (m ((c : Thread nD τ).loc cc0_scratch0)) (sndv0 m c) Finset.univ)
def p1rPay0 (c : Dev nD) : sProp 𝕄 :=
  cmSl0.view.loc (c : Thread nD τ) ↦[cmSl0.view.set]{fullShare} (cmSl0.view.write (Elt F) (m ((c : Thread nD τ).loc cc0_scratch4)) (rcv0 m c) Finset.univ)
def p2sPay0 (c : Dev nD) : sProp 𝕄 :=
  (ovSl0 c).view.loc (c : Thread nD τ) ↦[(ovSl0 c).view.set]{fullShare.left} ((ovSl0 c).view.write (Elt F) (m ((c : Thread nD τ).loc cc0_scratch3)) (val0 m c) Finset.univ)
def p2rPay0 (c : Dev nD) : sProp 𝕄 :=
  (ovSl0 (yp c)).view.loc (c : Thread nD τ) ↦[(ovSl0 (yp c)).view.set]{fullShare} ((ovSl0 (yp c)).view.write (Elt F) (m ((c : Thread nD τ).loc cc0_scratch3)) (val0 m (yp c)) Finset.univ)

def p1sPay1 (c : Dev nD) : sProp 𝕄 :=
  (sndSl1 c).view.loc (c : Thread nD τ) ↦[(sndSl1 c).view.set]{fullShare} ((sndSl1 c).view.write (Elt F) (m ((c : Thread nD τ).loc cc0_scratch0)) (sndv1 m c) Finset.univ)
def p1rPay1 (c : Dev nD) : sProp 𝕄 :=
  cmSl1.view.loc (c : Thread nD τ) ↦[cmSl1.view.set]{fullShare} (cmSl1.view.write (Elt F) (m ((c : Thread nD τ).loc cc0_scratch4)) (rcv1 m c) Finset.univ)
def p2sPay1 (c : Dev nD) : sProp 𝕄 :=
  (ovSl1 c).view.loc (c : Thread nD τ) ↦[(ovSl1 c).view.set]{fullShare.left} ((ovSl1 c).view.write (Elt F) (m ((c : Thread nD τ).loc cc0_scratch3)) (val1 m c) Finset.univ)
def p2rPay1 (c : Dev nD) : sProp 𝕄 :=
  (ovSl1 (zp c)).view.loc (c : Thread nD τ) ↦[(ovSl1 (zp c)).view.set]{fullShare} ((ovSl1 (zp c)).view.write (Elt F) (m ((c : Thread nD τ).loc cc0_scratch3)) (val1 m (zp c)) Finset.univ)

def p1sPay2 (c : Dev nD) : sProp 𝕄 :=
  (sndSl2 c).view.loc (c : Thread nD τ) ↦[(sndSl2 c).view.set]{fullShare} ((sndSl2 c).view.write (Elt F) (m ((c : Thread nD τ).loc cc0_scratch0)) (sndv2 m c) Finset.univ)
def p1rPay2 (c : Dev nD) : sProp 𝕄 :=
  cmSl2.view.loc (c : Thread nD τ) ↦[cmSl2.view.set]{fullShare} (cmSl2.view.write (Elt F) (m ((c : Thread nD τ).loc cc0_scratch4)) (rcv2 m c) Finset.univ)
def p2sPay2 (c : Dev nD) : sProp 𝕄 :=
  (ovSl2 c).view.loc (c : Thread nD τ) ↦[(ovSl2 c).view.set]{fullShare.left} ((ovSl2 c).view.write (Elt F) (m ((c : Thread nD τ).loc cc0_scratch3)) (val2 m c) Finset.univ)
def p2rPay2 (c : Dev nD) : sProp 𝕄 :=
  (ovSl2 (yp c)).view.loc (c : Thread nD τ) ↦[(ovSl2 (yp c)).view.set]{fullShare} ((ovSl2 (yp c)).view.write (Elt F) (m ((c : Thread nD τ).loc cc0_scratch3)) (val2 m (yp c)) Finset.univ)

def p1sPay3 (c : Dev nD) : sProp 𝕄 :=
  (sndSl3 c).view.loc (c : Thread nD τ) ↦[(sndSl3 c).view.set]{fullShare} ((sndSl3 c).view.write (Elt F) (m ((c : Thread nD τ).loc cc0_scratch0)) (sndv3 m c) Finset.univ)
def p1rPay3 (c : Dev nD) : sProp 𝕄 :=
  cmSl3.view.loc (c : Thread nD τ) ↦[cmSl3.view.set]{fullShare} (cmSl3.view.write (Elt F) (m ((c : Thread nD τ).loc cc0_scratch4)) (rcv3 m c) Finset.univ)
def p2sPay3 (c : Dev nD) : sProp 𝕄 :=
  (ovSl3 c).view.loc (c : Thread nD τ) ↦[(ovSl3 c).view.set]{fullShare.left} ((ovSl3 c).view.write (Elt F) (m ((c : Thread nD τ).loc cc0_scratch3)) (val3 m c) Finset.univ)
def p2rPay3 (c : Dev nD) : sProp 𝕄 :=
  (ovSl3 (zp c)).view.loc (c : Thread nD τ) ↦[(ovSl3 (zp c)).view.set]{fullShare} ((ovSl3 (zp c)).view.write (Elt F) (m ((c : Thread nD τ).loc cc0_scratch3)) (val3 m (zp c)) Finset.univ)

def p1sPay4 (c : Dev nD) : sProp 𝕄 :=
  (sndSl4 c).view.loc (c : Thread nD τ) ↦[(sndSl4 c).view.set]{fullShare} ((sndSl4 c).view.write (Elt F) (m ((c : Thread nD τ).loc cc0_scratch0)) (sndv4 m c) Finset.univ)
def p1rPay4 (c : Dev nD) : sProp 𝕄 :=
  cmSl4.view.loc (c : Thread nD τ) ↦[cmSl4.view.set]{fullShare} (cmSl4.view.write (Elt F) (m ((c : Thread nD τ).loc cc0_scratch4)) (rcv4 m c) Finset.univ)
def p2sPay4 (c : Dev nD) : sProp 𝕄 :=
  (ovSl4 c).view.loc (c : Thread nD τ) ↦[(ovSl4 c).view.set]{fullShare.left} ((ovSl4 c).view.write (Elt F) (m ((c : Thread nD τ).loc cc0_scratch3)) (val4 m c) Finset.univ)
def p2rPay4 (c : Dev nD) : sProp 𝕄 :=
  (ovSl4 (yp c)).view.loc (c : Thread nD τ) ↦[(ovSl4 (yp c)).view.set]{fullShare} ((ovSl4 (yp c)).view.write (Elt F) (m ((c : Thread nD τ).loc cc0_scratch3)) (val4 m (yp c)) Finset.univ)

def p1sPay5 (c : Dev nD) : sProp 𝕄 :=
  (sndSl5 c).view.loc (c : Thread nD τ) ↦[(sndSl5 c).view.set]{fullShare} ((sndSl5 c).view.write (Elt F) (m ((c : Thread nD τ).loc cc0_scratch0)) (sndv5 m c) Finset.univ)
def p1rPay5 (c : Dev nD) : sProp 𝕄 :=
  cmSl5.view.loc (c : Thread nD τ) ↦[cmSl5.view.set]{fullShare} (cmSl5.view.write (Elt F) (m ((c : Thread nD τ).loc cc0_scratch4)) (rcv5 m c) Finset.univ)
def p2sPay5 (c : Dev nD) : sProp 𝕄 :=
  (ovSl5 c).view.loc (c : Thread nD τ) ↦[(ovSl5 c).view.set]{fullShare.left} ((ovSl5 c).view.write (Elt F) (m ((c : Thread nD τ).loc cc0_scratch3)) (val5 m c) Finset.univ)
def p2rPay5 (c : Dev nD) : sProp 𝕄 :=
  (ovSl5 (zp c)).view.loc (c : Thread nD τ) ↦[(ovSl5 (zp c)).view.set]{fullShare} ((ovSl5 (zp c)).view.write (Elt F) (m ((c : Thread nD τ).loc cc0_scratch3)) (val5 m (zp c)) Finset.univ)

def p1sPay6 (c : Dev nD) : sProp 𝕄 :=
  (sndSl6 c).view.loc (c : Thread nD τ) ↦[(sndSl6 c).view.set]{fullShare} ((sndSl6 c).view.write (Elt F) (m ((c : Thread nD τ).loc cc0_scratch0)) (sndv6 m c) Finset.univ)
def p1rPay6 (c : Dev nD) : sProp 𝕄 :=
  cmSl6.view.loc (c : Thread nD τ) ↦[cmSl6.view.set]{fullShare} (cmSl6.view.write (Elt F) (m ((c : Thread nD τ).loc cc0_scratch4)) (rcv6 m c) Finset.univ)

def p1sPay7 (c : Dev nD) : sProp 𝕄 :=
  (sndSl7 c).view.loc (c : Thread nD τ) ↦[(sndSl7 c).view.set]{fullShare} ((sndSl7 c).view.write (Elt F) (m ((c : Thread nD τ).loc cc0_scratch0)) (sndv7 m c) Finset.univ)
def p1rPay7 (c : Dev nD) : sProp 𝕄 :=
  cmSl7.view.loc (c : Thread nD τ) ↦[cmSl7.view.set]{fullShare} (cmSl7.view.write (Elt F) (m ((c : Thread nD τ).loc cc0_scratch4)) (rcv7 m c) Finset.univ)

def p1sPay8 (c : Dev nD) : sProp 𝕄 :=
  (sndSl8 c).view.loc (c : Thread nD τ) ↦[(sndSl8 c).view.set]{fullShare} ((sndSl8 c).view.write (Elt F) (m ((c : Thread nD τ).loc cc0_scratch0)) (sndv8 m c) Finset.univ)
def p1rPay8 (c : Dev nD) : sProp 𝕄 :=
  cmSl8.view.loc (c : Thread nD τ) ↦[cmSl8.view.set]{fullShare} (cmSl8.view.write (Elt F) (m ((c : Thread nD τ).loc cc0_scratch4)) (rcv8 m c) Finset.univ)

def p1sPay9 (c : Dev nD) : sProp 𝕄 :=
  (sndSl9 c).view.loc (c : Thread nD τ) ↦[(sndSl9 c).view.set]{fullShare} ((sndSl9 c).view.write (Elt F) (m ((c : Thread nD τ).loc cc0_scratch0)) (sndv9 m c) Finset.univ)
def p1rPay9 (c : Dev nD) : sProp 𝕄 :=
  cmSl9.view.loc (c : Thread nD τ) ↦[cmSl9.view.set]{fullShare} (cmSl9.view.write (Elt F) (m ((c : Thread nD τ).loc cc0_scratch4)) (rcv9 m c) Finset.univ)

def dmaPay (s : ℕ) (c : Dev nD) : sProp 𝕄 := match s with
  | 8 => p1sPay0 m c
  | 18 => p1rPay0 m c
  | 9 => p1sPay1 m c
  | 19 => p1rPay1 m c
  | 10 => p1sPay2 m c
  | 20 => p1rPay2 m c
  | 11 => p1sPay3 m c
  | 21 => p1rPay3 m c
  | 12 => p1sPay4 m c
  | 22 => p1rPay4 m c
  | 13 => p1sPay5 m c
  | 23 => p1rPay5 m c
  | 14 => p1sPay6 m c
  | 24 => p1rPay6 m c
  | 15 => p1sPay7 m c
  | 25 => p1rPay7 m c
  | 16 => p1sPay8 m c
  | 26 => p1rPay8 m c
  | 17 => p1sPay9 m c
  | 27 => p1rPay9 m c
  | 28 => p2sPay0 m c
  | 34 => p2rPay0 m c
  | 29 => p2sPay1 m c
  | 35 => p2rPay1 m c
  | 30 => p2sPay2 m c
  | 36 => p2rPay2 m c
  | 31 => p2sPay3 m c
  | 37 => p2rPay3 m c
  | 32 => p2sPay4 m c
  | 38 => p2rPay4 m c
  | 33 => p2sPay5 m c
  | 39 => p2rPay5 m c
  | _ => iprop(emp)

def Rd : Rounds.Schedule (GSem nD τ sig) Bool 𝕄 where
  duties g r := if r = 0 ∧ g.1.2 = .tc then
      (match g.2 with
        | .reg s => if s = barS then {false} else if s = yzS then Finset.univ else ∅
        | .dma s => if 8 ≤ s.val then {false} else ∅)
    else ∅
  unitless _ := False
  amount g _ _ := match g.2 with
    | .reg _ => 1
    | .dma s => dmaAmt s.val
  payload g _ d := match g.2 with
    | .reg s => if s = barS then barPay g.1.1 else if s = yzS then (if d then zPay g.1.1 else yPay g.1.1) else iprop(emp)
    | .dma s => dmaPay m s.val g.1.1
  amount_pos g _ _ _ := by
    cases g.2 with
    | reg _ => exact Nat.one_pos
    | dma s => exact dmaAmt_pos _

example (c : Dev nD) : (ovSl0 c).view.amount (.dma p2rS0) = N48 := rfl
example (c : Dev nD) : (cmSl0 : Memref sig .tc .vmem S48x512 .f32).view.amount (.dma p1rS0) = N48 := rfl
example : p1sS3.val = 11 := by decide

end Cert.KernelIdeal.Proto

end
-- ==== Proof.Tables.lean ====
import proofs.«900598_g7700000000000599_dist_rsrms_v7x_xyz2x2x2_x_m512_d512_f32_1_alg».proof.Proof.Proto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

theorem yz_ne_bar : (yzS : Sem sig) ≠ barS := by decide

-- The schedule read off cell by cell: one round each, who pays it, how much, and what it hands over.
theorem duties_bar : (Rd (F := F) m).duties (barCell c) 0 = {false} := by
  dsimp only [Rd]; rw [if_pos ⟨rfl, rfl⟩]; exact if_pos rfl
theorem duties_yz : (Rd (F := F) m).duties (yzCell c) 0 = Finset.univ := by
  dsimp only [Rd]; rw [if_pos ⟨rfl, rfl⟩, if_neg yz_ne_bar, if_pos rfl]
theorem duties_dma (s : DmaSem sig) (h : 8 ≤ s.val) : (Rd (F := F) m).duties (dcell c s) 0 = {false} := by
  dsimp only [Rd]; rw [if_pos ⟨rfl, rfl⟩]; exact if_pos h
theorem duties_later (g : GSem nD τ sig) : ∀ r, 1 ≤ r → (Rd (F := F) m).duties g r = ∅ :=
  fun r hr => by dsimp only [Rd]; rw [if_neg fun h => by omega]

theorem amount_bar (d : Bool) : (Rd (F := F) m).amount (barCell c) 0 d = 1 := rfl
theorem amount_yz (d : Bool) : (Rd (F := F) m).amount (yzCell c) 0 d = 1 := rfl
theorem amount_dma (s : DmaSem sig) (d : Bool) : (Rd (F := F) m).amount (dcell c s) 0 d = dmaAmt s.val := rfl

theorem expect_bar : (Rd (F := F) m).expect (barCell c) 0 = 1 := by
  unfold Schedule.expect Schedule.amountOf; rw [duties_bar, Finset.sum_singleton, amount_bar]
theorem expect_yz : (Rd (F := F) m).expect (yzCell c) 0 = 2 := by
  unfold Schedule.expect Schedule.amountOf
  rw [duties_yz, Finset.sum_congr rfl fun d _ => amount_yz m c d, Finset.sum_const, Finset.card_univ, Fintype.card_bool, smul_eq_mul]
theorem expect_dma (s : DmaSem sig) (h : 8 ≤ s.val) : (Rd (F := F) m).expect (dcell c s) 0 = dmaAmt s.val := by
  unfold Schedule.expect Schedule.amountOf; rw [duties_dma m c s h, Finset.sum_singleton, amount_dma]

theorem payload_bar (d : Bool) : (Rd m).payload (barCell c) 0 d = barPay c := by dsimp only [Rd]; exact if_pos rfl
theorem payload_yz_false : (Rd m).payload (yzCell c) 0 false = yPay c := by
  dsimp only [Rd]; rw [if_neg yz_ne_bar, if_pos rfl]; rfl
theorem payload_yz_true : (Rd m).payload (yzCell c) 0 true = zPay c := by
  dsimp only [Rd]; rw [if_neg yz_ne_bar, if_pos rfl]; rfl
theorem payload_dma (s : DmaSem sig) (d : Bool) : (Rd m).payload (dcell c s) 0 d = dmaPay m s.val c := rfl

theorem rest_bar : bigSep ((Rd m).duties (barCell c) 0 \ ∅) (fun d => (Rd m).payload (barCell c) 0 d) = barPay c := by
  rw [Finset.sdiff_empty, duties_bar, bigSep_singleton, payload_bar]
theorem rest_yz : bigSep ((Rd m).duties (yzCell c) 0 \ ∅) (fun d => (Rd m).payload (yzCell c) 0 d) = iprop(yPay c ∗ zPay c) := by
  rw [Finset.sdiff_empty, duties_yz, bigSep_univ_eq_bigSepL [false, true] (by decide) (by decide), bigSepL_cons_cons, bigSepL_singleton,
    payload_yz_false, payload_yz_true]
  rfl
theorem rest_dma (s : DmaSem sig) (h : 8 ≤ s.val) :
    bigSep ((Rd m).duties (dcell c s) 0 \ ∅) (fun d => (Rd m).payload (dcell c s) 0 d) = dmaPay m s.val c := by
  rw [Finset.sdiff_empty, duties_dma m c s h, bigSep_singleton, payload_dma]

end Cert.KernelIdeal.Proto

end
-- ==== Proof.OutSpec.lean ====
import proofs.«900598_g7700000000000599_dist_rsrms_v7x_xyz2x2x2_x_m512_d512_f32_1_alg».proof.Proof.Vals

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

abbrev outSl0 (d : Dev nD) : Memref sig .tc .hbm S48x512 .f32 := outM.slice (Rect.unit (s := S512x512) (k0_off3 d 0#32) S48x512.size (k0_off3_inb d 0)) (fun _ => rfl)

abbrev outSl1 (d : Dev nD) : Memref sig .tc .hbm S48x512 .f32 := outM.slice (Rect.unit (s := S512x512) (k0_off3 d 128#32) S48x512.size (k0_off3_inb d 1)) (fun _ => rfl)

abbrev outSl2 (d : Dev nD) : Memref sig .tc .hbm S40x512 .f32 := outM.slice (Rect.unit (s := S512x512) (k0_off4 d 48#32) S40x512.size (k0_off4_inb d 0)) (fun _ => rfl)

abbrev outSl3 (d : Dev nD) : Memref sig .tc .hbm S40x512 .f32 := outM.slice (Rect.unit (s := S512x512) (k0_off4 d 176#32) S40x512.size (k0_off4_inb d 1)) (fun _ => rfl)

abbrev outSl4 (d : Dev nD) : Memref sig .tc .hbm S16x512 .f32 := outM.slice (Rect.unit (s := S512x512) (k0_off5 d 88#32) S16x512.size (k0_off5_inb d 0)) (fun _ => rfl)

abbrev outSl5 (d : Dev nD) : Memref sig .tc .hbm S16x512 .f32 := outM.slice (Rect.unit (s := S512x512) (k0_off5 d 216#32) S16x512.size (k0_off5_inb d 1)) (fun _ => rfl)

abbrev outSl6 (d : Dev nD) : Memref sig .tc .hbm S24x512 .f32 := outM.slice (Rect.unit (s := S512x512) (k0_off6 d 104#32) S24x512.size (k0_off6_inb d 0)) (fun _ => rfl)

abbrev outSl7 (d : Dev nD) : Memref sig .tc .hbm S24x512 .f32 := outM.slice (Rect.unit (s := S512x512) (k0_off6 d 232#32) S24x512.size (k0_off6_inb d 1)) (fun _ => rfl)

abbrev outSl8 (d : Dev nD) : Memref sig .tc .hbm S24x512 .f32 := outM.slice (Rect.unit (s := S512x512) (k0_off7 d 104#32) S24x512.size (k0_off7_inb d 0)) (fun _ => rfl)

abbrev outSl9 (d : Dev nD) : Memref sig .tc .hbm S24x512 .f32 := outM.slice (Rect.unit (s := S512x512) (k0_off7 d 232#32) S24x512.size (k0_off7_inb d 1)) (fun _ => rfl)

-- The result array chunk by chunk: the device's own chunks as it computes them, the others as the neighbours across the other two axes compute them.
structure OutSpec (c : Dev nD) (OUT : Buf (Elt F) ((c : Thread nD τ).loc main_v1)) : Prop where
  own0 : (outSl0 c).view.read (Elt F) OUT = val0 m c
  own1 : (outSl1 c).view.read (Elt F) OUT = val1 m c
  own2 : (outSl2 c).view.read (Elt F) OUT = val2 m c
  own3 : (outSl3 c).view.read (Elt F) OUT = val3 m c
  own4 : (outSl4 c).view.read (Elt F) OUT = val4 m c
  own5 : (outSl5 c).view.read (Elt F) OUT = val5 m c
  own6 : (outSl6 c).view.read (Elt F) OUT = val6 m c
  own7 : (outSl7 c).view.read (Elt F) OUT = val7 m c
  own8 : (outSl8 c).view.read (Elt F) OUT = val8 m c
  own9 : (outSl9 c).view.read (Elt F) OUT = val9 m c
  got0 : (outSl0 (yp c)).view.read (Elt F) OUT = val0 m (yp c)
  got1 : (outSl1 (zp c)).view.read (Elt F) OUT = val1 m (zp c)
  got2 : (outSl2 (yp c)).view.read (Elt F) OUT = val2 m (yp c)
  got3 : (outSl3 (zp c)).view.read (Elt F) OUT = val3 m (zp c)
  got4 : (outSl4 (yp c)).view.read (Elt F) OUT = val4 m (yp c)
  got5 : (outSl5 (zp c)).view.read (Elt F) OUT = val5 m (zp c)

end Cert.KernelIdeal.Proto

end
-- ==== Proof.Start.lean ====
import proofs.«900598_g7700000000000599_dist_rsrms_v7x_xyz2x2x2_x_m512_d512_f32_1_alg».proof.Proof.Tables
import proofs.«900598_g7700000000000599_dist_rsrms_v7x_xyz2x2x2_x_m512_d512_f32_1_alg».proof.Proof.OutSpec

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def owedList (c : Dev nD) : List (CellTallies nD τ sig Unit) :=
  [tallyAt (barCell (xp c)) () 1,
   tallyAt (yzCell (yp c)) () 1,
   tallyAt (yzCell (zp c)) () 1,
   tallyAt (dcell (xp c) p1rS0) () N48,
   tallyAt (dcell (xp c) p1rS1) () N48,
   tallyAt (dcell (xp c) p1rS2) () N40,
   tallyAt (dcell (xp c) p1rS3) () N40,
   tallyAt (dcell (xp c) p1rS4) () N16,
   tallyAt (dcell (xp c) p1rS5) () N16,
   tallyAt (dcell (xp c) p1rS6) () N24,
   tallyAt (dcell (xp c) p1rS7) () N24,
   tallyAt (dcell (xp c) p1rS8) () N24,
   tallyAt (dcell (xp c) p1rS9) () N24,
   tallyAt (dcell (yp c) p2rS0) () N48,
   tallyAt (dcell (zp c) p2rS1) () N48,
   tallyAt (dcell (yp c) p2rS2) () N40,
   tallyAt (dcell (zp c) p2rS3) () N40,
   tallyAt (dcell (yp c) p2rS4) () N16,
   tallyAt (dcell (zp c) p2rS5) () N16]

def owedAfter (n : ℕ) (c : Dev nD) : CellTallies nD τ sig Unit := ((owedList c).drop n).foldr (fun t acc => acc + t) 0
abbrev O₀ (c : Dev nD) : CellTallies nD τ sig Unit := owedAfter 0 c

example (c : Dev nD) : owedAfter 0 c = owedAfter 1 c + tallyAt (barCell (xp c)) () 1 := rfl
example (c : Dev nD) : owedAfter 19 c = 0 := rfl

def L (g : GSem nD τ sig) : Finset Unit := if g.1.2 = .tc then {()} else ∅
def lv (g : GSem nD τ sig) (_ : Unit) : ℕ := match g.2 with
  | .reg _ => 1
  | .dma s => if 34 ≤ s.val then 3 else if 18 ≤ s.val ∧ s.val < 28 then 2 else 0

theorem L_of_ne (g : GSem nD τ sig) (h : g.1.2 ≠ .tc) : L g = ∅ := if_neg h
theorem L_tc (c : Dev nD) (sm : SemLoc sig) : L ((c : Thread nD τ), sm) = {()} := if_pos rfl

def ownCells (c : Dev nD) : List (GSem nD τ sig) :=
  [barCell c, yzCell c, dcell c p1sS0, dcell c p1sS1, dcell c p1sS2, dcell c p1sS3, dcell c p1sS4, dcell c p1sS5, dcell c p1sS6, dcell c p1sS7, dcell c p1sS8, dcell c p1sS9, dcell c p1rS0, dcell c p1rS1, dcell c p1rS2, dcell c p1rS3, dcell c p1rS4, dcell c p1rS5, dcell c p1rS6, dcell c p1rS7, dcell c p1rS8, dcell c p1rS9, dcell c p2sS0, dcell c p2sS1, dcell c p2sS2, dcell c p2sS3, dcell c p2sS4, dcell c p2sS5, dcell c p2rS0, dcell c p2rS1, dcell c p2rS2, dcell c p2rS3, dcell c p2rS4, dcell c p2rS5]
def paidCells (c : Dev nD) : List (GSem nD τ sig) :=
  [barCell (xp c), yzCell (yp c), yzCell (zp c), dcell (xp c) p1rS0, dcell (xp c) p1rS1, dcell (xp c) p1rS2, dcell (xp c) p1rS3, dcell (xp c) p1rS4, dcell (xp c) p1rS5, dcell (xp c) p1rS6, dcell (xp c) p1rS7, dcell (xp c) p1rS8, dcell (xp c) p1rS9, dcell (yp c) p2rS0, dcell (zp c) p2rS1, dcell (yp c) p2rS2, dcell (zp c) p2rS3, dcell (yp c) p2rS4, dcell (zp c) p2rS5]

def knownCells (c : Dev nD) : List (GSem nD τ sig) :=
  [barCell (xp c), yzCell (yp c), yzCell (zp c), dcell c p1sS0, dcell c p1sS1, dcell c p1sS2, dcell c p1sS3, dcell c p1sS4, dcell c p1sS5, dcell c p1sS6, dcell c p1sS7, dcell c p1sS8, dcell c p1sS9, dcell c p2sS0, dcell c p2sS1, dcell c p2sS2, dcell c p2sS3, dcell c p2sS4, dcell c p2sS5,
   dcell c p1rS0, dcell c p1rS1, dcell c p1rS2, dcell c p1rS3, dcell c p1rS4, dcell c p1rS5, dcell c p1rS6, dcell c p1rS7, dcell c p1rS8, dcell c p1rS9, dcell c p2rS0, dcell c p2rS1, dcell c p2rS2, dcell c p2rS3, dcell c p2rS4, dcell c p2rS5]

def invs (K : GSem nD τ sig → ℕ) (c : Dev nD) : sProp 𝕄 :=
  bigSepL (ownCells c ++ paidCells c) fun g => cellInv ER (Rd m) (K g) g
def positions (c : Dev nD) : sProp 𝕄 := bigSepL (ownCells c) fun g => atPos ER g 0 ∅ 0
def known (c : Dev nD) : sProp 𝕄 := bigSepL (knownCells c) fun g => reached ER g 0

def payToks (c : Dev nD) : sProp 𝕄 :=
  iprop(dutyTok ER (barCell (xp c)) 0 false
    ∗ dutyTok ER (yzCell (yp c)) 0 false
    ∗ dutyTok ER (yzCell (zp c)) 0 true
    ∗ dutyTok ER (dcell (xp c) p1rS0) 0 false
    ∗ dutyTok ER (dcell (xp c) p1rS1) 0 false
    ∗ dutyTok ER (dcell (xp c) p1rS2) 0 false
    ∗ dutyTok ER (dcell (xp c) p1rS3) 0 false
    ∗ dutyTok ER (dcell (xp c) p1rS4) 0 false
    ∗ dutyTok ER (dcell (xp c) p1rS5) 0 false
    ∗ dutyTok ER (dcell (xp c) p1rS6) 0 false
    ∗ dutyTok ER (dcell (xp c) p1rS7) 0 false
    ∗ dutyTok ER (dcell (xp c) p1rS8) 0 false
    ∗ dutyTok ER (dcell (xp c) p1rS9) 0 false
    ∗ dutyTok ER (dcell (yp c) p2rS0) 0 false
    ∗ dutyTok ER (dcell (zp c) p2rS1) 0 false
    ∗ dutyTok ER (dcell (yp c) p2rS2) 0 false
    ∗ dutyTok ER (dcell (zp c) p2rS3) 0 false
    ∗ dutyTok ER (dcell (yp c) p2rS4) 0 false
    ∗ dutyTok ER (dcell (zp c) p2rS5) 0 false
    ∗ dutyTok ER (dcell c p1sS0) 0 false
    ∗ dutyTok ER (dcell c p1sS1) 0 false
    ∗ dutyTok ER (dcell c p1sS2) 0 false
    ∗ dutyTok ER (dcell c p1sS3) 0 false
    ∗ dutyTok ER (dcell c p1sS4) 0 false
    ∗ dutyTok ER (dcell c p1sS5) 0 false
    ∗ dutyTok ER (dcell c p1sS6) 0 false
    ∗ dutyTok ER (dcell c p1sS7) 0 false
    ∗ dutyTok ER (dcell c p1sS8) 0 false
    ∗ dutyTok ER (dcell c p1sS9) 0 false
    ∗ dutyTok ER (dcell c p2sS0) 0 false
    ∗ dutyTok ER (dcell c p2sS1) 0 false
    ∗ dutyTok ER (dcell c p2sS2) 0 false
    ∗ dutyTok ER (dcell c p2sS3) 0 false
    ∗ dutyTok ER (dcell c p2sS4) 0 false
    ∗ dutyTok ER (dcell c p2sS5) 0 false)

def creds (c : Dev nD) : sProp 𝕄 :=
  iprop(cred (tallyAt (barCell c) () 1)
    ∗ cred (tallyAt (yzCell c) () 2)
    ∗ cred (tallyAt (dcell c p1rS0) () N48)
    ∗ cred (tallyAt (dcell c p1rS1) () N48)
    ∗ cred (tallyAt (dcell c p1rS2) () N40)
    ∗ cred (tallyAt (dcell c p1rS3) () N40)
    ∗ cred (tallyAt (dcell c p1rS4) () N16)
    ∗ cred (tallyAt (dcell c p1rS5) () N16)
    ∗ cred (tallyAt (dcell c p1rS6) () N24)
    ∗ cred (tallyAt (dcell c p1rS7) () N24)
    ∗ cred (tallyAt (dcell c p1rS8) () N24)
    ∗ cred (tallyAt (dcell c p1rS9) () N24)
    ∗ cred (tallyAt (dcell c p2rS0) () N48)
    ∗ cred (tallyAt (dcell c p2rS1) () N48)
    ∗ cred (tallyAt (dcell c p2rS2) () N40)
    ∗ cred (tallyAt (dcell c p2rS3) () N40)
    ∗ cred (tallyAt (dcell c p2rS4) () N16)
    ∗ cred (tallyAt (dcell c p2rS5) () N16))

def localSems0 (c : Dev nD) : sProp 𝕄 :=
  iprop(semVal (dcell c inS0) 0 ∗ semVal (dcell c inS1) 0 ∗ semVal (dcell c inS2) 0 ∗ semVal (dcell c outS0) 0 ∗ semVal (dcell c outS1) 0 ∗ semVal (dcell c outS2) 0 ∗ semVal (dcell c outS3) 0 ∗ semVal (dcell c outS4) 0)

def ghost (K : GSem nD τ sig → ℕ) (c : Dev nD) : sProp 𝕄 :=
  iprop(invs m K c ∗ positions c ∗ known c ∗ payToks c)

def start (c : Dev nD) : sProp 𝕄 :=
  iprop((∃ K, ghost m K c) ∗ creds c ∗ localSems0 c ∗ levAts L lv)

def arrays0 (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1)))

def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f))

def arrays1 (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ ∃ OUT, ⌜OutSpec m c OUT⌝ ∗ (((c : Thread nD τ).loc main_v1) ↦{fullShare} OUT))

def ownSemsZero (c : Dev nD) : sProp 𝕄 :=
  iprop(semVal (yzCell c) 0 ∗ localSems0 c
    ∗ semVal (dcell c p1sS0) 0 ∗ semVal (dcell c p1sS1) 0 ∗ semVal (dcell c p1sS2) 0 ∗ semVal (dcell c p1sS3) 0 ∗ semVal (dcell c p1sS4) 0 ∗ semVal (dcell c p1sS5) 0 ∗ semVal (dcell c p1sS6) 0 ∗ semVal (dcell c p1sS7) 0 ∗ semVal (dcell c p1sS8) 0 ∗ semVal (dcell c p1sS9) 0 ∗ semVal (dcell c p1rS0) 0 ∗ semVal (dcell c p1rS1) 0 ∗ semVal (dcell c p1rS2) 0 ∗ semVal (dcell c p1rS3) 0 ∗ semVal (dcell c p1rS4) 0 ∗ semVal (dcell c p1rS5) 0 ∗ semVal (dcell c p1rS6) 0 ∗ semVal (dcell c p1rS7) 0 ∗ semVal (dcell c p1rS8) 0 ∗ semVal (dcell c p1rS9) 0 ∗ semVal (dcell c p2sS0) 0 ∗ semVal (dcell c p2sS1) 0 ∗ semVal (dcell c p2sS2) 0 ∗ semVal (dcell c p2sS3) 0 ∗ semVal (dcell c p2sS4) 0 ∗ semVal (dcell c p2sS5) 0 ∗ semVal (dcell c p2rS0) 0 ∗ semVal (dcell c p2rS1) 0 ∗ semVal (dcell c p2rS2) 0 ∗ semVal (dcell c p2rS3) 0 ∗ semVal (dcell c p2rS4) 0 ∗ semVal (dcell c p2rS5) 0)

def Φ₀ (c : Dev nD) : sProp 𝕄 := iprop(start m c ∗ arrays0 m c ∗ scratch c)
def Φ₁ (c : Dev nD) : sProp 𝕄 := iprop(arrays1 m c ∗ scratch c ∗ ownSemsZero c)

abbrev 𝒱₀ : Variants := Variants.none

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

-- A block of the body at the buffers the launch hands it.
abbrev atBufs {β : Sort _}
    (f : (a0 : Memref sig .tc .hbm S1x1024x512 .f32) → a0.IsWhole → (a1 : Memref sig .tc .hbm S512 .f32) → a1.IsWhole
      → (a2 : Memref sig .tc .hbm S512x512 .f32) → a2.IsWhole → (a3 : Memref sig .tc .vmem S512x512 .f32) → a3.IsWhole
      → (a4 : Memref sig .tc .vmem S512x512 .f32) → a4.IsWhole → (a5 : Memref sig .tc .vmem S512 .f32) → a5.IsWhole
      → (a6 : Memref sig .tc .vmem S512x512 .f32) → a6.IsWhole → (a7 : Memref sig .tc .vmem S304x512 .f32) → a7.IsWhole
      → DmaSems sig S3 → DmaSems sig S5 → Sems sig S_ → DmaSems sig S10 → DmaSems sig S10 → DmaSems sig S6 → DmaSems sig S6 → β) : β :=
  f (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11

end Cert.KernelIdeal.Proto

end
-- ==== Proof.Levels.lean ====
import proofs.«900598_g7700000000000599_dist_rsrms_v7x_xyz2x2x2_x_m512_d512_f32_1_alg».proof.Proof.Start
import Mathlib.Tactic.Abel

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def lvS (s : SemLoc sig) : ℕ := match s with
  | .reg _ => 1
  | .dma s => if 34 ≤ s.val then 3 else if 18 ≤ s.val ∧ s.val < 28 then 2 else 0
theorem lv_eq (g : GSem nD τ sig) (u : Unit) : lv g u = lvS g.2 := rfl

def owedCells (c : Dev nD) : List (GSem nD τ sig × ℕ) :=
  [(barCell (xp c), 1), (yzCell (yp c), 1), (yzCell (zp c), 1), (dcell (xp c) p1rS0, N48), (dcell (xp c) p1rS1, N48), (dcell (xp c) p1rS2, N40), (dcell (xp c) p1rS3, N40), (dcell (xp c) p1rS4, N16), (dcell (xp c) p1rS5, N16), (dcell (xp c) p1rS6, N24), (dcell (xp c) p1rS7, N24), (dcell (xp c) p1rS8, N24), (dcell (xp c) p1rS9, N24), (dcell (yp c) p2rS0, N48), (dcell (zp c) p2rS1, N48), (dcell (yp c) p2rS2, N40), (dcell (zp c) p2rS3, N40), (dcell (yp c) p2rS4, N16), (dcell (zp c) p2rS5, N16)]

def owedSems : List (SemLoc sig) :=
  [.reg barS, .reg yzS, .reg yzS, .dma p1rS0, .dma p1rS1, .dma p1rS2, .dma p1rS3, .dma p1rS4, .dma p1rS5, .dma p1rS6, .dma p1rS7, .dma p1rS8, .dma p1rS9, .dma p2rS0, .dma p2rS1, .dma p2rS2, .dma p2rS3, .dma p2rS4, .dma p2rS5]
theorem owedList_eq (c : Dev nD) : owedList c = (owedCells c).map fun p : GSem nD τ sig × ℕ => (tallyAt p.1 () p.2 : CellTallies nD τ sig Unit) := rfl
theorem owedSems_eq (c : Dev nD) : (owedCells c).map (fun p => p.1.2) = owedSems := rfl
theorem owedCells_tc (c : Dev nD) : ∀ p ∈ owedCells c, p.1.1.2 = .tc :=
  List.forall_iff_forall_mem.1 (by unfold owedCells; simp [List.Forall])

theorem foldr_tally_pos (l : List (GSem nD τ sig × ℕ)) {g : GSem nD τ sig} {u : Unit}
    (h : 0 < ((l.map fun p : GSem nD τ sig × ℕ => (tallyAt p.1 () p.2 : CellTallies nD τ sig Unit)).foldr (fun t acc => acc + t) (0 : CellTallies nD τ sig Unit)) g u) :
    ∃ p ∈ l, g = p.1 := by
  induction l with
  | nil => exact absurd h (Nat.lt_irrefl 0)
  | cons p l ih =>
    rw [List.map_cons, List.foldr_cons] at h
    rcases Pipeline.add_pos_cases h with h | h
    · obtain ⟨q, hq, hg⟩ := ih h; exact ⟨q, List.mem_cons_of_mem _ hq, hg⟩
    · exact ⟨p, List.mem_cons_self, (Pipeline.tallyAt_pos h).1⟩

theorem owedAfter_pos {n : ℕ} {c : Dev nD} {g : GSem nD τ sig} {u : Unit} (h : 0 < owedAfter n c g u) :
    g.1.2 = .tc ∧ g.2 ∈ owedSems.drop n := by
  unfold owedAfter at h
  rw [owedList_eq, ← List.map_drop] at h
  obtain ⟨p, hp, rfl⟩ := foldr_tally_pos ((owedCells c).drop n) h
  refine ⟨owedCells_tc c p (List.mem_of_mem_drop hp), ?_⟩
  rw [← owedSems_eq c, ← List.map_drop]
  exact List.mem_map_of_mem hp

omit [FloatOps F] in

theorem mayWait_owed (c : Dev nD) (sm : SemLoc sig) (n b : ℕ) (hb : lvS sm ≤ b) (hO : ∀ s ∈ owedSems.drop n, b < lvS s) :
    (levAts L lv : sProp 𝕄) ⊢ MayWait (c : Thread nD τ) sm () (owedAfter n c) :=
  MayOwe.of_cut (L := L) (lev := lv) b
    (fun p hp => by rw [Finset.mem_singleton.mp hp, L_tc]; exact Finset.mem_singleton_self _)
    (fun g u hg => by rw [show L g = {()} from if_pos (owedAfter_pos hg).1]; exact Finset.mem_singleton_self _)
    (fun p hp => by rw [Finset.mem_singleton.mp hp]; exact hb)
    (fun g u hg => by rw [lv_eq]; exact hO _ (owedAfter_pos hg).2)

omit [FloatOps F] in

theorem mayWait_nil (c : Dev nD) (sm : SemLoc sig) : (levAts L lv : sProp 𝕄) ⊢ MayWait (c : Thread nD τ) sm () 0 := by
  rw [MayWait_zero]; iintro -; iempintro

theorem owedSems_pos : ∀ s ∈ owedSems, 0 < lvS s := by decide

omit [FloatOps F] in

theorem mayWait_low (c : Dev nD) (q : DmaSem sig) (hq : lvS (.dma q) = 0) (n : ℕ) :
    (levAts L lv : sProp 𝕄) ⊢ MayWait (c : Thread nD τ) (.dma q) () (owedAfter n c) :=
  mayWait_owed c _ n 0 (Nat.le_of_eq hq) fun s hs => owedSems_pos s (List.mem_of_mem_drop hs)

omit [FloatOps F] in

theorem mayWait_bar (c : Dev nD) : (levAts L lv : sProp 𝕄) ⊢ MayWait (c : Thread nD τ) (.reg barS) () (owedAfter 3 c) :=
  mayWait_owed c _ 3 1 (by decide) (by decide)
omit [FloatOps F] in
theorem mayWait_in0 (c : Dev nD) : (levAts L lv : sProp 𝕄) ⊢ MayWait (c : Thread nD τ) (.dma inS0) () (owedAfter 3 c) := mayWait_low c _ (by decide) 3
omit [FloatOps F] in
theorem mayWait_in1 (c : Dev nD) : (levAts L lv : sProp 𝕄) ⊢ MayWait (c : Thread nD τ) (.dma inS1) () (owedAfter 13 c) := mayWait_low c _ (by decide) 13
omit [FloatOps F] in
theorem mayWait_in2 (c : Dev nD) : (levAts L lv : sProp 𝕄) ⊢ MayWait (c : Thread nD τ) (.dma inS2) () (owedAfter 13 c) := mayWait_low c _ (by decide) 13
omit [FloatOps F] in

theorem mayWait_yz (c : Dev nD) : (levAts L lv : sProp 𝕄) ⊢ MayWait (c : Thread nD τ) (.reg yzS) () (owedAfter 13 c) :=
  mayWait_owed c _ 13 1 (by decide) (by decide)
omit [FloatOps F] in
theorem mayWait_p1r0 (c : Dev nD) : (levAts L lv : sProp 𝕄) ⊢ MayWait (c : Thread nD τ) (.dma p1rS0) () (owedAfter 13 c) :=
  mayWait_owed c _ 13 2 (by decide) (by decide)
omit [FloatOps F] in
theorem mayWait_p1r1 (c : Dev nD) : (levAts L lv : sProp 𝕄) ⊢ MayWait (c : Thread nD τ) (.dma p1rS1) () (owedAfter 14 c) :=
  mayWait_owed c _ 14 2 (by decide) (by decide)
omit [FloatOps F] in
theorem mayWait_p1r2 (c : Dev nD) : (levAts L lv : sProp 𝕄) ⊢ MayWait (c : Thread nD τ) (.dma p1rS2) () (owedAfter 15 c) :=
  mayWait_owed c _ 15 2 (by decide) (by decide)
omit [FloatOps F] in
theorem mayWait_p1r3 (c : Dev nD) : (levAts L lv : sProp 𝕄) ⊢ MayWait (c : Thread nD τ) (.dma p1rS3) () (owedAfter 16 c) :=
  mayWait_owed c _ 16 2 (by decide) (by decide)
omit [FloatOps F] in
theorem mayWait_p1r4 (c : Dev nD) : (levAts L lv : sProp 𝕄) ⊢ MayWait (c : Thread nD τ) (.dma p1rS4) () (owedAfter 17 c) :=
  mayWait_owed c _ 17 2 (by decide) (by decide)
omit [FloatOps F] in
theorem mayWait_p1r5 (c : Dev nD) : (levAts L lv : sProp 𝕄) ⊢ MayWait (c : Thread nD τ) (.dma p1rS5) () (owedAfter 18 c) :=
  mayWait_owed c _ 18 2 (by decide) (by decide)

def credT (c : Dev nD) : CellTallies nD τ sig Unit :=
  tallyAt (barCell c) () 1 + (tallyAt (yzCell c) () 2 + (tallyAt (dcell c p1rS0) () N48 + (tallyAt (dcell c p1rS1) () N48 + (tallyAt (dcell c p1rS2) () N40 + (tallyAt (dcell c p1rS3) () N40 + (tallyAt (dcell c p1rS4) () N16 + (tallyAt (dcell c p1rS5) () N16 + (tallyAt (dcell c p1rS6) () N24 + (tallyAt (dcell c p1rS7) () N24 + (tallyAt (dcell c p1rS8) () N24 + (tallyAt (dcell c p1rS9) () N24 + (tallyAt (dcell c p2rS0) () N48 + (tallyAt (dcell c p2rS1) () N48 + (tallyAt (dcell c p2rS2) () N40 + (tallyAt (dcell c p2rS3) () N40 + (tallyAt (dcell c p2rS4) () N16 + (tallyAt (dcell c p2rS5) () N16)))))))))))))))))

def payX (a : Dev nD) : CellTallies nD τ sig Unit := tallyAt (barCell a) () 1 + tallyAt (dcell a p1rS0) () N48 + tallyAt (dcell a p1rS1) () N48 + tallyAt (dcell a p1rS2) () N40 + tallyAt (dcell a p1rS3) () N40 + tallyAt (dcell a p1rS4) () N16 + tallyAt (dcell a p1rS5) () N16 + tallyAt (dcell a p1rS6) () N24 + tallyAt (dcell a p1rS7) () N24 + tallyAt (dcell a p1rS8) () N24 + tallyAt (dcell a p1rS9) () N24
def payY (a : Dev nD) : CellTallies nD τ sig Unit := tallyAt (yzCell a) () 1 + tallyAt (dcell a p2rS0) () N48 + tallyAt (dcell a p2rS2) () N40 + tallyAt (dcell a p2rS4) () N16
def payZ (a : Dev nD) : CellTallies nD τ sig Unit := tallyAt (yzCell a) () 1 + tallyAt (dcell a p2rS1) () N48 + tallyAt (dcell a p2rS3) () N40 + tallyAt (dcell a p2rS5) () N16

theorem O₀_split (d : Dev nD) : O₀ d = payX (xp d) + payY (yp d) + payZ (zp d) := by
  simp only [owedAfter, owedList, List.drop_zero, List.foldr_cons, List.foldr_nil, payX, payY, payZ]
  abel
theorem credT_split (d : Dev nD) : credT d = payX d + payY d + payZ d := by
  have h2 : (tallyAt (yzCell d) () 2 : CellTallies nD τ sig Unit) = tallyAt (yzCell d) () 1 + tallyAt (yzCell d) () 1 := (tallyAt_add _ _ 1 1).symm
  simp only [credT, payX, payY, payZ, h2]
  abel

theorem sum_O₀ : (∑ d : Dev nD, O₀ d) = ∑ d : Dev nD, credT d := by
  have hx : (∑ d : Dev nD, payX (xp d)) = ∑ d : Dev nD, payX d := Equiv.sum_comp xE payX
  have hy : (∑ d : Dev nD, payY (yp d)) = ∑ d : Dev nD, payY d := Equiv.sum_comp yE payY
  have hz : (∑ d : Dev nD, payZ (zp d)) = ∑ d : Dev nD, payZ d := Equiv.sum_comp zE payZ
  rw [Finset.sum_congr rfl fun d _ => O₀_split d, Finset.sum_congr rfl fun d _ => credT_split d,
    Finset.sum_add_distrib, Finset.sum_add_distrib, Finset.sum_add_distrib, Finset.sum_add_distrib, hx, hy, hz]

theorem credT_own (d : Dev nD) (g : GSem nD τ sig) (h : credT d g ≠ 0) : g.1 = (d : Thread nD τ) := by
  by_contra hne
  apply h
  have hz : ∀ (sm : SemLoc sig) (k : ℕ), (tallyAt ((d : Thread nD τ), sm) () k : CellTallies nD τ sig Unit) g = 0 :=
    fun sm k => tallyAt_ne_cell (fun hg => hne (congrArg Prod.fst hg)) () k
  unfold credT
  simp only [Pi.add_apply, hz, add_zero]

omit [FloatOps F] in
theorem cred_credT (c : Dev nD) : (cred (credT c) : sProp 𝕄) ⊢ creds c := by
  unfold credT creds
  iterate 17 (refine (cred_add _ _).1.trans (sep_mono_right ?_))
  exact BI.Entails.refl _

omit [FloatOps F] in

theorem creds_of_launch (c : Dev nD) : (Pipeline.launchCred O₀ c : sProp 𝕄) ⊢ creds c := by
  rw [Pipeline.launchCred_of_sum O₀ credT sum_O₀ credT_own c]; exact cred_credT c

end Cert.KernelIdeal.Proto

end
-- ==== Proof.Stor.lean ====
import proofs.«900598_g7700000000000599_dist_rsrms_v7x_xyz2x2x2_x_m512_d512_f32_1_alg».proof.Proof.Tables

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- Every payload of the schedule can be kept in a cell.
instance Rd_payload_storable (g : GSem nD τ sig) (r : ℕ) (d : Bool) :
    BI.Storable (upEmb : UEmb _ 𝕄) ((Rd (F := F) m).payload g r d) := by
  show BI.Storable upEmb (match g.2 with
    | .reg s => if s = barS then barPay g.1.1 else if s = yzS then (if d then zPay g.1.1 else yPay g.1.1) else iprop(emp)
    | .dma s => dmaPay m s.val g.1.1)
  cases g.2 with
  | reg s =>
    simp only
    unfold barPay yPay zPay
    (repeat' split) <;> infer_instance
  | dma s =>
    simp only
    unfold dmaPay p1sPay0 p1sPay1 p1sPay2 p1sPay3 p1sPay4 p1sPay5 p1sPay6 p1sPay7 p1sPay8 p1sPay9 p1rPay0 p1rPay1 p1rPay2 p1rPay3 p1rPay4 p1rPay5 p1rPay6 p1rPay7 p1rPay8 p1rPay9 p2sPay0 p2sPay1 p2sPay2 p2sPay3 p2sPay4 p2sPay5 p2rPay0 p2rPay1 p2rPay2 p2rPay3 p2rPay4 p2rPay5
    split <;> infer_instance

end Cert.KernelIdeal.Proto

end
-- ==== Proof.Fund.lean ====
import proofs.«900598_g7700000000000599_dist_rsrms_v7x_xyz2x2x2_x_m512_d512_f32_1_alg».proof.Proof.Start
import proofs.«900598_g7700000000000599_dist_rsrms_v7x_xyz2x2x2_x_m512_d512_f32_1_alg».proof.Proof.Stor

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem nDma_eq : sig.nDmaSem = 40 := by decide

abbrev osem : Fin 41 → SemLoc sig := fun k =>
  if h : k.val = 0 then .reg yzS else .dma ⟨k.val - 1, by rw [nDma_eq]; omega⟩

theorem ownSemFacts : Pipeline.OwnSemFacts cfg0.spec osem := by decide

abbrev csem : Fin 34 → SemLoc sig := fun k =>
  if k.val = 0 then .reg barS else if k.val = 1 then .reg yzS else .dma ⟨k.val + 6, by rw [nDma_eq]; omega⟩
abbrev kcell (ck : Dev nD × Fin 34) : GSem nD τ sig := ((ck.1 : Thread nD τ), csem ck.2)

theorem ownCells_eq (c : Dev nD) : ownCells c = [(0 : Fin 34), 1, 2, 3, 4, 5, 6, 7, 8, 9, 10, 11, 12, 13, 14, 15, 16, 17, 18, 19, 20, 21, 22, 23, 24, 25, 26, 27, 28, 29, 30, 31, 32, 33].map fun k => kcell (c, k) := rfl

theorem bar_ne_yz : (SemLoc.reg barS : SemLoc sig) ≠ .reg yzS := by decide

theorem csem_injective : Function.Injective csem := by
  intro k k' h
  unfold csem at h
  apply Fin.ext
  by_cases h0 : k.val = 0 <;> by_cases h0' : k'.val = 0 <;> by_cases h1 : k.val = 1 <;> by_cases h1' : k'.val = 1 <;>
    simp only [h0, h0', h1, h1', if_true, if_false, reduceCtorEq] at h <;> first
      | omega
      | exact absurd h bar_ne_yz
      | exact absurd h.symm bar_ne_yz
      | (have := congrArg Fin.val (SemLoc.dma.inj h); simp only at this; omega)

theorem kcell_injective : Function.Injective (kcell : Dev nD × Fin 34 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

theorem kcell_mem (ck : Dev nD × Fin 34) : kcell ck ∈ protoCells := Finset.mem_map_of_mem _ (Finset.mem_univ ck)

abbrev tokOf (cj : Dev nD × Fin 35) : GSem nD τ sig × ℕ × Bool :=
  if h : cj.2.val < 34 then (kcell (cj.1, ⟨cj.2.val, h⟩), 0, false) else (yzCell cj.1, 0, true)

theorem tokOf_injective : Function.Injective (tokOf : Dev nD × Fin 35 → GSem nD τ sig × ℕ × Bool) := by
  rintro ⟨c, j⟩ ⟨c', j'⟩ h
  unfold tokOf at h
  by_cases hj : j.val < 34 <;> by_cases hj' : j'.val < 34 <;> simp only [hj, hj', dite_true, dite_false] at h
  · have := kcell_injective (congrArg (fun x : GSem nD τ sig × ℕ × Bool => x.1) h)
    obtain ⟨rfl, h2⟩ := Prod.mk.inj this
    have h3 : j.val = j'.val := congrArg (fun x : Fin 34 => x.val) h2
    exact congrArg (Prod.mk c) (Fin.ext h3)
  · exact absurd (congrArg (fun x : GSem nD τ sig × ℕ × Bool => x.2.2) h) (fun h' => by cases h')
  · exact absurd (congrArg (fun x : GSem nD τ sig × ℕ × Bool => x.2.2) h) (fun h' => by cases h')
  · have h1 : c = c' := congrArg (fun x : GSem nD τ sig × ℕ × Bool => x.1.1.1) h
    subst h1
    exact congrArg (Prod.mk c) (Fin.ext (by omega))

def protoToks : Finset (GSem nD τ sig × ℕ × Bool) := Finset.univ.map ⟨tokOf, tokOf_injective⟩

def u₀ : UU :=
  (initOf (Pipeline.cells cfgs cellOf_inj) (Pipeline.launchToks cfgs cellOf_inj), (initOf protoCells protoToks, 1))

def toks (c : Dev nD) : sProp 𝕄 :=
  bigSep Finset.univ fun j : Fin 35 => dutyTok ER (tokOf (c, j)).1 (tokOf (c, j)).2.1 (tokOf (c, j)).2.2

def G (c : Dev nD) : sProp 𝕄 :=
  iprop((bigSep Finset.univ fun k : Fin 34 => roundState ER (Rd m) (kcell (c, k)) 0)
    ∗ (bigSep Finset.univ fun k : Fin 34 => iprop(atPos ER (kcell (c, k)) 0 ∅ 0 ∗ reached ER (kcell (c, k)) 0)) ∗ toks c)

def G' (c : Dev nD) : sProp 𝕄 := iprop((∃ K, ghost m K c) ∗ localSems0 c)

omit [FloatOps F] in
theorem bigSep_fin34 (Φ : Fin 34 → sProp 𝕄) : bigSep Finset.univ Φ = bigSepL [(0 : Fin 34), 1, 2, 3, 4, 5, 6, 7, 8, 9, 10, 11, 12, 13, 14, 15, 16, 17, 18, 19, 20, 21, 22, 23, 24, 25, 26, 27, 28, 29, 30, 31, 32, 33] Φ :=
  bigSep_univ_eq_bigSepL [(0 : Fin 34), 1, 2, 3, 4, 5, 6, 7, 8, 9, 10, 11, 12, 13, 14, 15, 16, 17, 18, 19, 20, 21, 22, 23, 24, 25, 26, 27, 28, 29, 30, 31, 32, 33] (by decide) (by decide) Φ
omit [FloatOps F] in
theorem bigSep_fin35 (Φ : Fin 35 → sProp 𝕄) : bigSep Finset.univ Φ = bigSepL [(0 : Fin 35), 1, 2, 3, 4, 5, 6, 7, 8, 9, 10, 11, 12, 13, 14, 15, 16, 17, 18, 19, 20, 21, 22, 23, 24, 25, 26, 27, 28, 29, 30, 31, 32, 33, 34] Φ :=
  bigSep_univ_eq_bigSepL [(0 : Fin 35), 1, 2, 3, 4, 5, 6, 7, 8, 9, 10, 11, 12, 13, 14, 15, 16, 17, 18, 19, 20, 21, 22, 23, 24, 25, 26, 27, 28, 29, 30, 31, 32, 33, 34] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 34 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]; rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in

theorem ownU_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

theorem hu₀ : (ownU (u₀) : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (ownU_split _ _) $$ Hu
  icases H with ⟨HP, HX⟩
  imod (fund_proto m) $$ HX with HG
  imodintro
  isplitl [HP] <;> iassumption

omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in

theorem ownSems0_eq (c : Dev nD) : (Pipeline.ownSems0 (Ix := Unit) (Name := ℕ) (U := UU) (Lvl := ℕ) (Val := Elt F) (τ := τ) osem c : sProp 𝕄)
    = bigSepL [(0 : Fin 41), 1, 2, 3, 4, 5, 6, 7, 8, 9, 10, 11, 12, 13, 14, 15, 16, 17, 18, 19, 20, 21, 22, 23, 24, 25, 26, 27, 28, 29, 30, 31, 32, 33, 34, 35, 36, 37, 38, 39, 40] fun k => semVal ((c : Thread nD τ), osem k) 0 :=
  Pipeline.ownSems0_eq_of_list c osem [(0 : Fin 41), 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide)

omit [FloatOps F] in

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 34 => semVal (kcell (c, k)) 0) ∗ localSems0 c) : sProp 𝕄) := by
  rw [ownSems0_eq, unscopedSems0_eq, bigSep_fin34]
  unfold localSems0
  show iprop((semVal (yzCell c) 0 ∗ semVal (dcell c inS0) 0 ∗ semVal (dcell c inS1) 0 ∗ semVal (dcell c inS2) 0 ∗ semVal (dcell c outS0) 0 ∗ semVal (dcell c outS1) 0 ∗ semVal (dcell c outS2) 0 ∗ semVal (dcell c outS3) 0 ∗ semVal (dcell c outS4) 0
        ∗ bigSepL [(2 : Fin 34), 3, 4, 5, 6, 7, 8, 9, 10, 11, 12, 13, 14, 15, 16, 17, 18, 19, 20, 21, 22, 23, 24, 25, 26, 27, 28, 29, 30, 31, 32, 33] fun k : Fin 34 => semVal (kcell (c, k)) 0) ∗ semVal (barCell c) 0)
    ⊢ (iprop((semVal (barCell c) 0 ∗ semVal (yzCell c) 0 ∗ bigSepL [(2 : Fin 34), 3, 4, 5, 6, 7, 8, 9, 10, 11, 12, 13, 14, 15, 16, 17, 18, 19, 20, 21, 22, 23, 24, 25, 26, 27, 28, 29, 30, 31, 32, 33] fun k : Fin 34 => semVal (kcell (c, k)) 0)
        ∗ semVal (dcell c inS0) 0 ∗ semVal (dcell c inS1) 0 ∗ semVal (dcell c inS2) 0 ∗ semVal (dcell c outS0) 0 ∗ semVal (dcell c outS1) 0 ∗ semVal (dcell c outS2) 0 ∗ semVal (dcell c outS3) 0 ∗ semVal (dcell c outS4) 0) : sProp 𝕄)
  iintro ⟨⟨Hyz, H0, H1, H2, H3, H4, H5, H6, H7, HP⟩, HB⟩
  isplitl [HB Hyz HP]
  · isplitl [HB]; · iexact HB
    isplitl [Hyz]; · iexact Hyz
    iexact HP
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 34 => iprop(∃ κ : ℕ, cellInv ER (Rd m) κ (kcell (c, k))))
          ∗ (bigSep Finset.univ fun k : Fin 34 => iprop(atPos ER (kcell (c, k)) 0 ∅ 0 ∗ reached ER (kcell (c, k)) 0)) ∗ toks c ∗ localSems0 c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 34 => semVal (kcell (c, k)) 0) ∗ bigSep Finset.univ fun k : Fin 34 => roundState ER (Rd m) (kcell (c, k)) 0)
      ⊢ (|={Set.univ}=> bigSep Finset.univ fun k : Fin 34 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

def records (K : GSem nD τ sig → ℕ) : sProp 𝕄 :=
  iprop((bigSep protoCells fun g => cellInv ER (Rd m) (K g) g) ∗ bigSep protoCells fun g => reached ER g 0)

instance records_persistent (K : GSem nD τ sig → ℕ) : BI.Persistent (records m K) := by unfold records; infer_instance

omit [FloatOps F] in
theorem elim_at {I : Type} [DecidableEq I] {S : Finset I} (Φ : I → sProp 𝕄) {i : I} (h : i ∈ S) : bigSep S Φ ⊢ Φ i := bigSep_elim h

omit [FloatOps F] in

theorem bigSepL_of_mem {I : Type} [DecidableEq I] {S : Finset I} (Φ : I → sProp 𝕄) [∀ i, BI.Persistent (Φ i)] (l : List I)
    (h : ∀ g ∈ l, g ∈ S) : bigSep S Φ ⊢ bigSepL l Φ := by
  induction l with
  | nil => show _ ⊢ iprop(emp); iintro -; iempintro
  | cons i l ih =>
    rw [bigSepL_cons]
    show bigSep S Φ ⊢ iprop(Φ i ∗ bigSepL l Φ)
    iintro #H
    isplitr
    · iapply (elim_at Φ (h i (List.mem_cons_self ..))); iexact H
    · iapply (ih fun g hg => h g (List.mem_cons_of_mem _ hg)); iexact H

omit [FloatOps F] in
theorem map_mem (l : List (Dev nD × Fin 34)) : ∀ g ∈ l.map kcell, g ∈ protoCells := fun g hg => by
  obtain ⟨ck, -, rfl⟩ := List.mem_map.mp hg; exact kcell_mem ck

omit [FloatOps F] in
theorem ownPaid_eq (c : Dev nD) : ownCells c ++ paidCells c
    = ([(c, 0), (c, 1), (c, 2), (c, 3), (c, 4), (c, 5), (c, 6), (c, 7), (c, 8), (c, 9), (c, 10), (c, 11), (c, 12), (c, 13), (c, 14), (c, 15), (c, 16), (c, 17), (c, 18), (c, 19), (c, 20), (c, 21), (c, 22), (c, 23), (c, 24), (c, 25), (c, 26), (c, 27), (c, 28), (c, 29), (c, 30), (c, 31), (c, 32), (c, 33), (xp c, 0), (yp c, 1), (zp c, 1), (xp c, 12), (xp c, 13), (xp c, 14), (xp c, 15), (xp c, 16), (xp c, 17), (xp c, 18), (xp c, 19), (xp c, 20), (xp c, 21), (yp c, 28), (zp c, 29), (yp c, 30), (zp c, 31), (yp c, 32), (zp c, 33)] : List (Dev nD × Fin 34)).map kcell := rfl
omit [FloatOps F] in
theorem known_eq (c : Dev nD) : knownCells c
    = ([(xp c, 0), (yp c, 1), (zp c, 1), (c, 2), (c, 3), (c, 4), (c, 5), (c, 6), (c, 7), (c, 8), (c, 9), (c, 10), (c, 11), (c, 22), (c, 23), (c, 24), (c, 25), (c, 26), (c, 27), (c, 12), (c, 13), (c, 14), (c, 15), (c, 16), (c, 17), (c, 18), (c, 19), (c, 20), (c, 21), (c, 28), (c, 29), (c, 30), (c, 31), (c, 32), (c, 33)] : List (Dev nD × Fin 34)).map kcell := rfl

omit [FloatOps F] in
theorem positions_eq (c : Dev nD) : (positions c : sProp 𝕄) = bigSep Finset.univ fun k : Fin 34 => atPos ER (kcell (c, k)) 0 ∅ 0 := by
  unfold positions; rw [bigSep_fin34]; rfl

def linear (c : Dev nD) : sProp 𝕄 := iprop(positions c ∗ payToks c ∗ localSems0 c)

theorem ghost_intro (K : GSem nD τ sig → ℕ) (c : Dev nD) : iprop(records m K ∗ linear c) ⊢ G' m c := by
  unfold records linear G' ghost invs known
  iintro ⟨⟨#HI, #HR⟩, Hpos, Htok, Hloc⟩
  isplitl [Hpos Htok]
  · iexists K
    isplitr
    · iapply (bigSepL_of_mem (fun g => cellInv ER (Rd m) (K g) g) _ (by rw [ownPaid_eq]; exact map_mem _)); iexact HI
    isplitl [Hpos]; · iexact Hpos
    isplitr
    · iapply (bigSepL_of_mem (fun g => (reached ER g 0 : sProp 𝕄)) _ (by rw [known_eq]; exact map_mem _)); iexact HR
    iexact Htok
  iexact Hloc

omit [FloatOps F] in
theorem toks_eq (c : Dev nD) : (toks c : sProp 𝕄)
    = iprop(dutyTok ER (barCell c) 0 false
      ∗ dutyTok ER (yzCell c) 0 false
      ∗ dutyTok ER (dcell c p1sS0) 0 false
      ∗ dutyTok ER (dcell c p1sS1) 0 false
      ∗ dutyTok ER (dcell c p1sS2) 0 false
      ∗ dutyTok ER (dcell c p1sS3) 0 false
      ∗ dutyTok ER (dcell c p1sS4) 0 false
      ∗ dutyTok ER (dcell c p1sS5) 0 false
      ∗ dutyTok ER (dcell c p1sS6) 0 false
      ∗ dutyTok ER (dcell c p1sS7) 0 false
      ∗ dutyTok ER (dcell c p1sS8) 0 false
      ∗ dutyTok ER (dcell c p1sS9) 0 false
      ∗ dutyTok ER (dcell c p1rS0) 0 false
      ∗ dutyTok ER (dcell c p1rS1) 0 false
      ∗ dutyTok ER (dcell c p1rS2) 0 false
      ∗ dutyTok ER (dcell c p1rS3) 0 false
      ∗ dutyTok ER (dcell c p1rS4) 0 false
      ∗ dutyTok ER (dcell c p1rS5) 0 false
      ∗ dutyTok ER (dcell c p1rS6) 0 false
      ∗ dutyTok ER (dcell c p1rS7) 0 false
      ∗ dutyTok ER (dcell c p1rS8) 0 false
      ∗ dutyTok ER (dcell c p1rS9) 0 false
      ∗ dutyTok ER (dcell c p2sS0) 0 false
      ∗ dutyTok ER (dcell c p2sS1) 0 false
      ∗ dutyTok ER (dcell c p2sS2) 0 false
      ∗ dutyTok ER (dcell c p2sS3) 0 false
      ∗ dutyTok ER (dcell c p2sS4) 0 false
      ∗ dutyTok ER (dcell c p2sS5) 0 false
      ∗ dutyTok ER (dcell c p2rS0) 0 false
      ∗ dutyTok ER (dcell c p2rS1) 0 false
      ∗ dutyTok ER (dcell c p2rS2) 0 false
      ∗ dutyTok ER (dcell c p2rS3) 0 false
      ∗ dutyTok ER (dcell c p2rS4) 0 false
      ∗ dutyTok ER (dcell c p2rS5) 0 false
      ∗ dutyTok ER (yzCell c) 0 true) := by
  unfold toks; rw [bigSep_fin35]; rfl

omit [FloatOps F] in
theorem deal_x (Φ : Dev nD → sProp 𝕄) : bigSep Finset.univ Φ ⊢ bigSep Finset.univ fun c => Φ (xp c) := Entails.of_eq (bigSep_univ_equiv xE Φ)
omit [FloatOps F] in
theorem deal_y (Φ : Dev nD → sProp 𝕄) : bigSep Finset.univ Φ ⊢ bigSep Finset.univ fun c => Φ (yp c) := Entails.of_eq (bigSep_univ_equiv yE Φ)
omit [FloatOps F] in
theorem deal_z (Φ : Dev nD → sProp 𝕄) : bigSep Finset.univ Φ ⊢ bigSep Finset.univ fun c => Φ (zp c) := Entails.of_eq (bigSep_univ_equiv zE Φ)

omit [FloatOps F] in

theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  iintro ⟨T0, T1, T2, T3, T4, T5, T6, T7, T8, T9, T10, T11, T12, T13, T14, T15, T16, T17, T18, T19, T20, T21, T22, T23, T24, T25, T26, T27, T28, T29, T30, T31, T32, T33, T34⟩
  isplitl [T0]; · iapply (deal_x (fun c : Dev nD => (dutyTok ER (barCell c) 0 false : sProp 𝕄))); iexact T0
  isplitl [T1]; · iapply (deal_y (fun c : Dev nD => (dutyTok ER (yzCell c) 0 false : sProp 𝕄))); iexact T1
  isplitl [T34]; · iapply (deal_z (fun c : Dev nD => (dutyTok ER (yzCell c) 0 true : sProp 𝕄))); iexact T34
  isplitl [T12]; · iapply (deal_x (fun c : Dev nD => (dutyTok ER (dcell c p1rS0) 0 false : sProp 𝕄))); iexact T12
  isplitl [T13]; · iapply (deal_x (fun c : Dev nD => (dutyTok ER (dcell c p1rS1) 0 false : sProp 𝕄))); iexact T13
  isplitl [T14]; · iapply (deal_x (fun c : Dev nD => (dutyTok ER (dcell c p1rS2) 0 false : sProp 𝕄))); iexact T14
  isplitl [T15]; · iapply (deal_x (fun c : Dev nD => (dutyTok ER (dcell c p1rS3) 0 false : sProp 𝕄))); iexact T15
  isplitl [T16]; · iapply (deal_x (fun c : Dev nD => (dutyTok ER (dcell c p1rS4) 0 false : sProp 𝕄))); iexact T16
  isplitl [T17]; · iapply (deal_x (fun c : Dev nD => (dutyTok ER (dcell c p1rS5) 0 false : sProp 𝕄))); iexact T17
  isplitl [T18]; · iapply (deal_x (fun c : Dev nD => (dutyTok ER (dcell c p1rS6) 0 false : sProp 𝕄))); iexact T18
  isplitl [T19]; · iapply (deal_x (fun c : Dev nD => (dutyTok ER (dcell c p1rS7) 0 false : sProp 𝕄))); iexact T19
  isplitl [T20]; · iapply (deal_x (fun c : Dev nD => (dutyTok ER (dcell c p1rS8) 0 false : sProp 𝕄))); iexact T20
  isplitl [T21]; · iapply (deal_x (fun c : Dev nD => (dutyTok ER (dcell c p1rS9) 0 false : sProp 𝕄))); iexact T21
  isplitl [T28]; · iapply (deal_y (fun c : Dev nD => (dutyTok ER (dcell c p2rS0) 0 false : sProp 𝕄))); iexact T28
  isplitl [T29]; · iapply (deal_z (fun c : Dev nD => (dutyTok ER (dcell c p2rS1) 0 false : sProp 𝕄))); iexact T29
  isplitl [T30]; · iapply (deal_y (fun c : Dev nD => (dutyTok ER (dcell c p2rS2) 0 false : sProp 𝕄))); iexact T30
  isplitl [T31]; · iapply (deal_z (fun c : Dev nD => (dutyTok ER (dcell c p2rS3) 0 false : sProp 𝕄))); iexact T31
  isplitl [T32]; · iapply (deal_y (fun c : Dev nD => (dutyTok ER (dcell c p2rS4) 0 false : sProp 𝕄))); iexact T32
  isplitl [T33]; · iapply (deal_z (fun c : Dev nD => (dutyTok ER (dcell c p2rS5) 0 false : sProp 𝕄))); iexact T33
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T22]; · iexact T22
  isplitl [T23]; · iexact T23
  isplitl [T24]; · iexact T24
  isplitl [T25]; · iexact T25
  isplitl [T26]; · iexact T26
  iexact T27

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem cells_eq (Φ : GSem nD τ sig → sProp 𝕄) :
    (bigSep Finset.univ fun c : Dev nD => bigSep Finset.univ fun k : Fin 34 => Φ (kcell (c, k))) = bigSep protoCells Φ := by
  unfold protoCells; rw [bigSep_map, bigSep_univ_prod]; rfl

theorem regroup :
    (bigSep Finset.univ fun c : Dev nD => iprop((bigSep Finset.univ fun k : Fin 34 => iprop(∃ κ : ℕ, cellInv ER (Rd m) κ (kcell (c, k))))
          ∗ (bigSep Finset.univ fun k : Fin 34 => iprop(atPos ER (kcell (c, k)) 0 ∅ 0 ∗ reached ER (kcell (c, k)) 0)) ∗ toks c ∗ localSems0 c) : sProp 𝕄)
      ⊢ bigSep Finset.univ (G' m) := by
  have hAR : (bigSep Finset.univ fun c : Dev nD => bigSep Finset.univ fun k : Fin 34 => iprop(atPos ER (kcell (c, k)) 0 ∅ 0 ∗ reached ER (kcell (c, k)) 0) : sProp 𝕄)
      = iprop((bigSep Finset.univ fun c : Dev nD => positions c) ∗ bigSep protoCells fun g => reached ER g 0) := by
    rw [← cells_eq (fun g => (reached ER g 0 : sProp 𝕄)), ← bigSep_sep']
    exact bigSep_congr fun c _ => by rw [positions_eq]; exact bigSep_sep' _ _ _
  rw [bigSep_sep', bigSep_sep', bigSep_sep']
  iintro ⟨HI, Har, Htok, Hloc⟩
  ihave HI' := (Entails.of_eq (cells_eq fun g => iprop(∃ κ : ℕ, cellInv ER (Rd m) κ g))) $$ HI
  ihave Har' := (Entails.of_eq hAR) $$ Har
  icases Har' with ⟨Hat, #HR⟩
  ihave HK := (BI.bigSep_exists_pi protoCells (fun (g : GSem nD τ sig) (κ : ℕ) => (cellInv ER (Rd m) κ g : sProp 𝕄))) $$ HI'
  icases HK with ⟨%K, #HI⟩
  ihave Htk := (toks_around (F := F)) $$ Htok
  iapply (bigSep_with_persistent (R := records m K) (Φ := linear) fun c _ => ghost_intro m K c)
  isplitr
  · unfold records; isplitl; · iexact HI
    iexact HR
  · unfold linear; rw [bigSep_sep', bigSep_sep']
    isplitl [Hat]; · iexact Hat
    isplitl [Htk]; · iexact Htk
    iexact Hloc

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Proto

end
-- ==== Proof.Launch.lean ====
import proofs.«900598_g7700000000000599_dist_rsrms_v7x_xyz2x2x2_x_m512_d512_f32_1_alg».proof.Proof.Levels
import proofs.«900598_g7700000000000599_dist_rsrms_v7x_xyz2x2x2_x_m512_d512_f32_1_alg».proof.Proof.Fund

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def X (c : Dev nD) : sProp 𝕄 := iprop(start m c ∗ arrays0 m c)
def Y (c : Dev nD) : sProp 𝕄 := arrays1 m c
def Z (_ : Dev nD) : sProp 𝕄 := iprop(emp)

theorem hX (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Ha0, Ha1, Hv1⟩, Hlev, Hcr, -, HG⟩
  ihave Hc := (creds_of_launch (F := F) c) $$ Hcr
  imodintro
  unfold X start arrays0 G'
  icases HG with ⟨HK, Hloc⟩
  isplitl
  · isplitl [HK Hc Hloc Hlev]
    · isplitl [HK]; · iexact HK
      isplitl [Hc]; · iexact Hc
      isplitl [Hloc]; · iexact Hloc
      iexact Hlev
    · isplitl [Ha0]; · iexact Ha0
      isplitl [Ha1]; · iexact Ha1
      iexact Hv1
  · iempintro

theorem hin (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X scratch
  iintro ⟨⟨Hs, Ha⟩, -, Hr⟩
  isplitl [Hs]; · iexact Hs
  isplitl [Ha]; · iexact Ha
  iexact Hr

theorem ownSems0_flat (c : Dev nD) :
    (Pipeline.ownSems0 (Ix := Unit) (Name := ℕ) (U := UU) (Lvl := ℕ) (Val := Elt F) (τ := τ) osem c : sProp 𝕄)
      = iprop(semVal (yzCell c) 0 ∗ semVal (dcell c inS0) 0 ∗ semVal (dcell c inS1) 0 ∗ semVal (dcell c inS2) 0 ∗ semVal (dcell c outS0) 0 ∗ semVal (dcell c outS1) 0 ∗ semVal (dcell c outS2) 0 ∗ semVal (dcell c outS3) 0 ∗ semVal (dcell c outS4) 0 ∗ semVal (dcell c p1sS0) 0 ∗ semVal (dcell c p1sS1) 0 ∗ semVal (dcell c p1sS2) 0 ∗ semVal (dcell c p1sS3) 0 ∗ semVal (dcell c p1sS4) 0 ∗ semVal (dcell c p1sS5) 0 ∗ semVal (dcell c p1sS6) 0 ∗ semVal (dcell c p1sS7) 0 ∗ semVal (dcell c p1sS8) 0 ∗ semVal (dcell c p1sS9) 0 ∗ semVal (dcell c p1rS0) 0 ∗ semVal (dcell c p1rS1) 0 ∗ semVal (dcell c p1rS2) 0 ∗ semVal (dcell c p1rS3) 0 ∗ semVal (dcell c p1rS4) 0 ∗ semVal (dcell c p1rS5) 0 ∗ semVal (dcell c p1rS6) 0 ∗ semVal (dcell c p1rS7) 0 ∗ semVal (dcell c p1rS8) 0 ∗ semVal (dcell c p1rS9) 0 ∗ semVal (dcell c p2sS0) 0 ∗ semVal (dcell c p2sS1) 0 ∗ semVal (dcell c p2sS2) 0 ∗ semVal (dcell c p2sS3) 0 ∗ semVal (dcell c p2sS4) 0 ∗ semVal (dcell c p2sS5) 0 ∗ semVal (dcell c p2rS0) 0 ∗ semVal (dcell c p2rS1) 0 ∗ semVal (dcell c p2rS2) 0 ∗ semVal (dcell c p2rS3) 0 ∗ semVal (dcell c p2rS4) 0 ∗ semVal (dcell c p2rS5) 0) := by
  rw [ownSems0_eq]; rfl

theorem hout (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_flat]
  unfold Φ₁ Y scratch ownSemsZero localSems0
  iintro ⟨Ha, Hs, ⟨H0, ⟨H1, H2, H3, H4, H5, H6, H7, H8⟩, H9, H10, H11, H12, H13, H14, H15, H16, H17, H18, H19, H20, H21, H22, H23, H24, H25, H26, H27, H28, H29, H30, H31, H32, H33, H34, H35, H36, H37, H38, H39, H40⟩⟩
  isplitl [Ha]; · iexact Ha
  isplitr [Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    iexact H40
  · iexact Hs

def QY (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ OutSpec m c (s.mem ((c : Thread nD τ).loc main_v1))

theorem hY (c : Dev nD) (s' : Phys nD τ sig (Elt F)) :
    iprop(Y m c ∗ iprop(emp) ∗ SI s') ⊢ |={Set.univ}=> iprop(⌜QY m c s'.mem⌝ ∗ SI s') := by
  unfold Y arrays1
  iintro ⟨⟨Ha0, Ha1, %OUT, %hO, Hv1⟩, -, HSI⟩
  icombine HSI Ha0 gives %h0
  icombine HSI Ha1 gives %h1
  icombine HSI Hv1 gives %h2
  imodintro
  isplitr
  · ipureintro
    exact ⟨Buf.eq_of_forall_mem_univ h0, Buf.eq_of_forall_mem_univ h1, by rw [Buf.eq_of_forall_mem_univ h2]; exact hO⟩
  iexact HSI

theorem waits (c : Dev nD) : (levAts L lv : sProp 𝕄) ⊢ Pipeline.cellsWaits cfgs (dats (F := F) m) () 0 c :=
  Pipeline.cellsWaits_intro cfgs (dats m) () 0 c fun w s t => w.elim0

def QC (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ OutSpec m c (r.2.mem ((c : Thread nD τ).loc main_v1))

theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ w => w.elim0) (hpf := fun _ k => k.elim0)
    (X := X m) (Y := Y m) (Z := Z)
    (hX := hX m ρ) (hin := hin m) (hout := hout m)
    (QY := QY m)
    (hY := hY m)
    (hQ := fun s h c => (h c).2.2)

end Cert.KernelIdeal.Proto

end
-- ==== Proof.BodyObl.lean ====
import proofs.«900598_g7700000000000599_dist_rsrms_v7x_xyz2x2x2_x_m512_d512_f32_1_alg».proof.Proof.Start

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in

theorem bigSep_noWin (Φ : Fin cfg0.W → sProp 𝕄) : bigSep Finset.univ Φ = iprop(emp) := rfl

theorem body_obligation_of
    (hspec : ∀ c : Dev nD, iprop(Φ₀ m c ∗ ∃ W, owes (c : Thread nD τ) (O₀ c) W)
      ⊢ wp frame (wpE (defs₀ (F := F)) 𝒱₀ (c : Thread nD τ) none) Set.univ
          (atBufs cc0_body)
          (fun _ => iprop(Φ₁ m c ∗ ∃ W, owes (c : Thread nD τ) 0 W))) :
    ∀ c, BodyObligation (dats (F := F) m 0 c) (defs₀ (F := F)) 𝒱₀ () Set.univ := fun c t => by
  rw [fin_N t, bigSep_noWin, bigSep_noWin]
  show iprop(Φ₀ m c ∗ (dats m 0 c).owesAt () t₀.castSucc ∗ emp)
    ⊢ wp frame (wpE (defs₀ (F := F)) 𝒱₀ c none) Set.univ
        (atBufs cc0_body)
        (fun _ => iprop(Φ₁ m c ∗ (dats m 0 c).owesAt () t₀.succ ∗ emp))
  unfold Dat.owesAt Pipeline.owesWithin
  rw [show (dats m 0 c).owed t₀.castSucc = O₀ c from rfl, show (dats m 0 c).owed t₀.succ = 0 from rfl]
  refine BIBase.Entails.trans ?_ ((hspec c).trans (wp_mono _ _ _ fun _ => ?_))
  · iintro ⟨HΦ, ⟨%W, %hW, HO⟩, -⟩
    isplitl [HΦ]; · iexact HΦ
    iexists W; iexact HO
  · iintro ⟨HΦ, ⟨%W, HO⟩⟩
    isplitl [HΦ]; · iexact HΦ
    isplitl
    · iexists W; isplitr; · ipureintro; exact fun _ _ => Or.inl trivial
      iexact HO
    · iempintro

end Cert.KernelIdeal.Proto

end
-- ==== Proof.Kit.lean ====
import proofs.«900598_g7700000000000599_dist_rsrms_v7x_xyz2x2x2_x_m512_d512_f32_1_alg».proof.Proof.Start
import Idealize.ShloMosaic.Lib.Pipeline.Value

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Held
variable {sp : Space} {s : Shape} {e : EltTy}

def held (v : View sig .tc sp s e) (c : Dev nD) (q : PosShare TreeShare) (x : s.Idx → Elt F e) : sProp 𝕄 :=
  iprop(∃ f : Buf (Elt F) (v.loc (c : Thread nD τ)), (v.loc (c : Thread nD τ) ↦[v.set]{q} f) ∗ ⌜v.read (Elt F) f = x⌝)

def heldAny (v : View sig .tc sp s e) (c : Dev nD) (q : PosShare TreeShare) : sProp 𝕄 :=
  iprop(∃ f : Buf (Elt F) (v.loc (c : Thread nD τ)), (v.loc (c : Thread nD τ) ↦[v.set]{q} f))

theorem eqOn_set_of_read_eq (v : View sig .tc sp s e) {f g : BufTy.Contents (Elt F) v.ty}
    (h : v.read (Elt F) f = v.read (Elt F) g) : ∀ i ∈ v.set, f i = g i := by
  intro i hi
  obtain ⟨y, rfl⟩ := View.exists_emb_of_mem_set v hi
  have := congrFun h y
  rw [View.read_apply, View.read_apply] at this
  exact (cast_inj _).mp this

theorem held_intro (v : View sig .tc sp s e) (c : Dev nD) (q : PosShare TreeShare) (f : Buf (Elt F) (v.loc (c : Thread nD τ))) :
    (v.loc (c : Thread nD τ) ↦[v.set]{q} f : sProp 𝕄) ⊢ held v c q (v.read (Elt F) f) := by
  unfold held; iintro H; iexists f; isplitl [H]; · iexact H
  ipureintro; rfl

theorem held_any (v : View sig .tc sp s e) (c : Dev nD) (q : PosShare TreeShare) (x : s.Idx → Elt F e) :
    held v c q x ⊢ heldAny v c q := by
  unfold held heldAny; iintro ⟨%f, H, -⟩; iexists f; iexact H

theorem held_canon (v : View sig .tc sp s e) (c : Dev nD) (q : PosShare TreeShare) (x : s.Idx → Elt F e)
    (base : Buf (Elt F) (v.loc (c : Thread nD τ))) :
    held v c q x ⊢ (v.loc (c : Thread nD τ) ↦[v.set]{q} (v.write (Elt F) base x Finset.univ) : sProp 𝕄) := by
  unfold held; iintro ⟨%f, H, %hf⟩
  rw [pointsTo_congr (eqOn_set_of_read_eq v (f := f) (g := v.write (Elt F) base x Finset.univ) (by rw [View.read_write_univ, hf]))]
  exact .rfl

theorem canon_held (v : View sig .tc sp s e) (c : Dev nD) (q : PosShare TreeShare) (x : s.Idx → Elt F e)
    (base : Buf (Elt F) (v.loc (c : Thread nD τ))) :
    (v.loc (c : Thread nD τ) ↦[v.set]{q} (v.write (Elt F) base x Finset.univ) : sProp 𝕄) ⊢ held v c q x := by
  unfold held; iintro H; iexists _; isplitl [H]; · iexact H
  ipureintro; exact View.read_write_univ _ _

end Held

end Cert.KernelIdeal.Proto

end
-- ==== Proof.States.lean ====
import proofs.«900598_g7700000000000599_dist_rsrms_v7x_xyz2x2x2_x_m512_d512_f32_1_alg».proof.Proof.Kit

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def sndRest (c : Dev nD) : sProp 𝕄 :=
  iprop(∃ f, sndM.view.loc (c : Thread nD τ) ↦[sndM.view.set \ ((sndSl0 c).view.set ∪ (sndSl1 c).view.set ∪ (sndSl2 c).view.set ∪ (sndSl3 c).view.set ∪ (sndSl4 c).view.set ∪ (sndSl5 c).view.set ∪ (sndSl6 c).view.set ∪ (sndSl7 c).view.set ∪ (sndSl8 c).view.set ∪ (sndSl9 c).view.set)]{fullShare} f)

abbrev Nbig : ℕ := (locM : Memref sig .tc .vmem S512x512 .f32).view.dmaCredit
abbrev Ngv : ℕ := (gvM : Memref sig .tc .vmem S512 .f32).view.dmaCredit

def flightLocD (c : Dev nD) : sProp 𝕄 :=
  iprop(held locM.view c fullShare (LOC m c)
    ∗ ((srcLoc c).view.loc (c : Thread nD τ) ↦[(srcLoc c).view.set]{fullShare} m ((c : Thread nD τ).loc main_arg0)))
def flightGvD (c : Dev nD) : sProp 𝕄 :=
  iprop(held gvM.view c fullShare (GV m c)
    ∗ (a1M.view.loc (c : Thread nD τ) ↦[a1M.view.set]{fullShare} m ((c : Thread nD τ).loc main_arg1)))

def St2 (K : GSem nD τ sig → ℕ) (c : Dev nD) : sProp 𝕄 :=
  iprop(invs m K c
    ∗ known c
    ∗ levAts L lv
    ∗ reached ER (dcell (xp c) p1rS0) 0
    ∗ reached ER (dcell (xp c) p1rS1) 0
    ∗ reached ER (dcell (xp c) p1rS2) 0
    ∗ reached ER (dcell (xp c) p1rS3) 0
    ∗ reached ER (dcell (xp c) p1rS4) 0
    ∗ reached ER (dcell (xp c) p1rS5) 0
    ∗ reached ER (dcell (xp c) p1rS6) 0
    ∗ reached ER (dcell (xp c) p1rS7) 0
    ∗ reached ER (dcell (xp c) p1rS8) 0
    ∗ reached ER (dcell (xp c) p1rS9) 0
    ∗ (∃ W, owes (c : Thread nD τ) (owedAfter 3 c) W)
    ∗ dutyTok ER (dcell (xp c) p1rS0) 0 false
    ∗ dutyTok ER (dcell c p1sS0) 0 false
    ∗ dutyTok ER (dcell (xp c) p1rS1) 0 false
    ∗ dutyTok ER (dcell c p1sS1) 0 false
    ∗ dutyTok ER (dcell (xp c) p1rS2) 0 false
    ∗ dutyTok ER (dcell c p1sS2) 0 false
    ∗ dutyTok ER (dcell (xp c) p1rS3) 0 false
    ∗ dutyTok ER (dcell c p1sS3) 0 false
    ∗ dutyTok ER (dcell (xp c) p1rS4) 0 false
    ∗ dutyTok ER (dcell c p1sS4) 0 false
    ∗ dutyTok ER (dcell (xp c) p1rS5) 0 false
    ∗ dutyTok ER (dcell c p1sS5) 0 false
    ∗ dutyTok ER (dcell (xp c) p1rS6) 0 false
    ∗ dutyTok ER (dcell c p1sS6) 0 false
    ∗ dutyTok ER (dcell (xp c) p1rS7) 0 false
    ∗ dutyTok ER (dcell c p1sS7) 0 false
    ∗ dutyTok ER (dcell (xp c) p1rS8) 0 false
    ∗ dutyTok ER (dcell c p1sS8) 0 false
    ∗ dutyTok ER (dcell (xp c) p1rS9) 0 false
    ∗ dutyTok ER (dcell c p1sS9) 0 false
    ∗ dutyTok ER (dcell (yp c) p2rS0) 0 false
    ∗ dutyTok ER (dcell c p2sS0) 0 false
    ∗ dutyTok ER (dcell (zp c) p2rS1) 0 false
    ∗ dutyTok ER (dcell c p2sS1) 0 false
    ∗ dutyTok ER (dcell (yp c) p2rS2) 0 false
    ∗ dutyTok ER (dcell c p2sS2) 0 false
    ∗ dutyTok ER (dcell (zp c) p2rS3) 0 false
    ∗ dutyTok ER (dcell c p2sS3) 0 false
    ∗ dutyTok ER (dcell (yp c) p2rS4) 0 false
    ∗ dutyTok ER (dcell c p2sS4) 0 false
    ∗ dutyTok ER (dcell (zp c) p2rS5) 0 false
    ∗ dutyTok ER (dcell c p2sS5) 0 false
    ∗ atPos ER (barCell c) (0 + 1) ∅ 0
    ∗ atPos ER (yzCell c) 0 ∅ 0 ∗ cred (tallyAt (yzCell c) () 2)
    ∗ atPos ER (dcell c p1rS0) 0 ∅ 0 ∗ cred (tallyAt (dcell c p1rS0) () N48)
    ∗ atPos ER (dcell c p1sS0) 0 ∅ 0
    ∗ atPos ER (dcell c p1rS1) 0 ∅ 0 ∗ cred (tallyAt (dcell c p1rS1) () N48)
    ∗ atPos ER (dcell c p1sS1) 0 ∅ 0
    ∗ atPos ER (dcell c p1rS2) 0 ∅ 0 ∗ cred (tallyAt (dcell c p1rS2) () N40)
    ∗ atPos ER (dcell c p1sS2) 0 ∅ 0
    ∗ atPos ER (dcell c p1rS3) 0 ∅ 0 ∗ cred (tallyAt (dcell c p1rS3) () N40)
    ∗ atPos ER (dcell c p1sS3) 0 ∅ 0
    ∗ atPos ER (dcell c p1rS4) 0 ∅ 0 ∗ cred (tallyAt (dcell c p1rS4) () N16)
    ∗ atPos ER (dcell c p1sS4) 0 ∅ 0
    ∗ atPos ER (dcell c p1rS5) 0 ∅ 0 ∗ cred (tallyAt (dcell c p1rS5) () N16)
    ∗ atPos ER (dcell c p1sS5) 0 ∅ 0
    ∗ atPos ER (dcell c p1rS6) 0 ∅ 0 ∗ cred (tallyAt (dcell c p1rS6) () N24)
    ∗ atPos ER (dcell c p1sS6) 0 ∅ 0
    ∗ atPos ER (dcell c p1rS7) 0 ∅ 0 ∗ cred (tallyAt (dcell c p1rS7) () N24)
    ∗ atPos ER (dcell c p1sS7) 0 ∅ 0
    ∗ atPos ER (dcell c p1rS8) 0 ∅ 0 ∗ cred (tallyAt (dcell c p1rS8) () N24)
    ∗ atPos ER (dcell c p1sS8) 0 ∅ 0
    ∗ atPos ER (dcell c p1rS9) 0 ∅ 0 ∗ cred (tallyAt (dcell c p1rS9) () N24)
    ∗ atPos ER (dcell c p1sS9) 0 ∅ 0
    ∗ atPos ER (dcell c p2rS0) 0 ∅ 0 ∗ cred (tallyAt (dcell c p2rS0) () N48)
    ∗ atPos ER (dcell c p2sS0) 0 ∅ 0
    ∗ atPos ER (dcell c p2rS1) 0 ∅ 0 ∗ cred (tallyAt (dcell c p2rS1) () N48)
    ∗ atPos ER (dcell c p2sS1) 0 ∅ 0
    ∗ atPos ER (dcell c p2rS2) 0 ∅ 0 ∗ cred (tallyAt (dcell c p2rS2) () N40)
    ∗ atPos ER (dcell c p2sS2) 0 ∅ 0
    ∗ atPos ER (dcell c p2rS3) 0 ∅ 0 ∗ cred (tallyAt (dcell c p2rS3) () N40)
    ∗ atPos ER (dcell c p2sS3) 0 ∅ 0
    ∗ atPos ER (dcell c p2rS4) 0 ∅ 0 ∗ cred (tallyAt (dcell c p2rS4) () N16)
    ∗ atPos ER (dcell c p2sS4) 0 ∅ 0
    ∗ atPos ER (dcell c p2rS5) 0 ∅ 0 ∗ cred (tallyAt (dcell c p2rS5) () N16)
    ∗ atPos ER (dcell c p2sS5) 0 ∅ 0
    ∗ semVal (dcell c inS0) 0
    ∗ Transfers.Flight countersEmb (c : Thread nD τ) (.dma inS1) () Nbig (flightLocD m c)
    ∗ Transfers.Flight countersEmb (c : Thread nD τ) (.dma inS2) () Ngv (flightGvD m c)
    ∗ semVal (dcell c outS0) 0
    ∗ semVal (dcell c outS1) 0
    ∗ semVal (dcell c outS2) 0
    ∗ semVal (dcell c outS3) 0
    ∗ semVal (dcell c outS4) 0
    ∗ ((srcSend c).view.loc (c : Thread nD τ) ↦[(srcSend c).view.set]{fullShare} m ((c : Thread nD τ).loc main_arg0))
    ∗ (outM.view.loc (c : Thread nD τ) ↦[outM.view.set]{fullShare} m ((c : Thread nD τ).loc main_v1))
    ∗ held (sndSl0 c).view c fullShare (sndv0 m c)
    ∗ held (sndSl1 c).view c fullShare (sndv1 m c)
    ∗ held (sndSl2 c).view c fullShare (sndv2 m c)
    ∗ held (sndSl3 c).view c fullShare (sndv3 m c)
    ∗ held (sndSl4 c).view c fullShare (sndv4 m c)
    ∗ held (sndSl5 c).view c fullShare (sndv5 m c)
    ∗ held (sndSl6 c).view c fullShare (sndv6 m c)
    ∗ held (sndSl7 c).view c fullShare (sndv7 m c)
    ∗ held (sndSl8 c).view c fullShare (sndv8 m c)
    ∗ held (sndSl9 c).view c fullShare (sndv9 m c)
    ∗ sndRest c
    ∗ heldAny (ovSl0 c).view c fullShare
    ∗ heldAny cmSl0.view (xp c) fullShare
    ∗ heldAny (ovSl1 c).view c fullShare
    ∗ heldAny cmSl1.view (xp c) fullShare
    ∗ heldAny (ovSl2 c).view c fullShare
    ∗ heldAny cmSl2.view (xp c) fullShare
    ∗ heldAny (ovSl3 c).view c fullShare
    ∗ heldAny cmSl3.view (xp c) fullShare
    ∗ heldAny (ovSl4 c).view c fullShare
    ∗ heldAny cmSl4.view (xp c) fullShare
    ∗ heldAny (ovSl5 c).view c fullShare
    ∗ heldAny cmSl5.view (xp c) fullShare
    ∗ heldAny (ovSl6 c).view c fullShare
    ∗ heldAny cmSl6.view (xp c) fullShare
    ∗ heldAny (ovSl7 c).view c fullShare
    ∗ heldAny cmSl7.view (xp c) fullShare
    ∗ heldAny (ovSl8 c).view c fullShare
    ∗ heldAny cmSl8.view (xp c) fullShare
    ∗ heldAny (ovSl9 c).view c fullShare
    ∗ heldAny cmSl9.view (xp c) fullShare)

end Cert.KernelIdeal.Proto

end
-- ==== Proof.Ctx.lean ====
import proofs.«900598_g7700000000000599_dist_rsrms_v7x_xyz2x2x2_x_m512_d512_f32_1_alg».proof.Proof.States

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem bigSepL_persistent {I : Type} (Φ : I → sProp 𝕄) [∀ i, BI.Persistent (Φ i)] : ∀ l : List I, BI.Persistent (bigSepL l Φ)
  | [] => by show BI.Persistent (BIBase.emp : sProp 𝕄); infer_instance
  | i :: l => by
    rw [bigSepL_cons]
    haveI := bigSepL_persistent Φ l
    show BI.Persistent (BIBase.sep (Φ i) (bigSepL l Φ) : sProp 𝕄)
    infer_instance

theorem bigSepL_get {I : Type} (Φ : I → sProp 𝕄) [∀ i, BI.Persistent (Φ i)] : ∀ (l : List I) (g : I), g ∈ l → bigSepL l Φ ⊢ Φ g
  | [], g, h => absurd h (List.not_mem_nil)
  | i :: l, g, h => by
    rw [bigSepL_cons]
    haveI := bigSepL_persistent Φ l
    show iprop(Φ i ∗ bigSepL l Φ) ⊢ Φ g
    rcases List.mem_cons.mp h with rfl | h'
    · iintro ⟨#H, #H2⟩; iexact H
    · iintro ⟨#H, #H2⟩; iapply (bigSepL_get Φ l g h'); iexact H2

instance invs_persistent (K : GSem nD τ sig → ℕ) (c : Dev nD) : BI.Persistent (invs m K c) := by
  unfold invs; exact bigSepL_persistent _ _
instance known_persistent (c : Dev nD) : BI.Persistent (known c : sProp 𝕄) := by
  unfold known; exact bigSepL_persistent _ _

theorem invs_get (K : GSem nD τ sig → ℕ) (c : Dev nD) (g : GSem nD τ sig) (h : g ∈ ownCells c ++ paidCells c) :
    invs m K c ⊢ cellInv ER (Rd m) (K g) g := by
  unfold invs; exact bigSepL_get (fun g => cellInv ER (Rd m) (K g) g) _ g h
theorem known_get (c : Dev nD) (g : GSem nD τ sig) (h : g ∈ knownCells c) : (known c : sProp 𝕄) ⊢ reached ER g 0 := by
  unfold known; exact bigSepL_get (fun g => (reached ER g 0 : sProp 𝕄)) _ g h

end Cert.KernelIdeal.Proto

end
-- ==== Proof.KitRounds.lean ====
import proofs.«900598_g7700000000000599_dist_rsrms_v7x_xyz2x2x2_x_m512_d512_f32_1_alg».proof.Proof.Kit

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- A copy to another device: the sender gives up the source rows and the landing rows, is credited on its send side, and has paid what it owed the receiver.
theorem kit_send {s : Shape} {src dst : Memref sig .tc .vmem s .f32} {sS rS : DmaSem sig} (c c' : Dev nD) {d : Dev nD} (hd : d = c')
    {hsc : dst.view.ref.isScScratch = false} {hsrc : src.view.WordExact} {hdst : dst.view.WordExact}
    {hsem : DmaTarget.Typed .vmem (.dma rS) (.remote (Dev.tc d : Thread nD τ) dst (.dma sS) hsc)}
    {α : Type} {Q : α → sProp 𝕄} {k : PUnit → Prog (TpuEff nD τ sig (Elt F) Λ₀ .tc) α}
    (N : ℕ) (q : PosShare TreeShare) (x : s.Idx → Elt F .f32)
    (bs : Buf (Elt F) (src.view.loc (c : Thread nD τ))) (bd : Buf (Elt F) (dst.view.loc (c' : Thread nD τ)))
    (h8s : 8 ≤ sS.val) (h8r : 8 ≤ rS.val) (hNs : dmaAmt sS.val = N) (hNr : dmaAmt rS.val = N)
    (hN : dst.view.amount (.dma rS) = N)
    (hps : dmaPay m sS.val c = (src.view.loc (c : Thread nD τ) ↦[src.view.set]{q} src.view.write (Elt F) bs x Finset.univ))
    (hpr : dmaPay m rS.val c' = (dst.view.loc (c' : Thread nD τ) ↦[dst.view.set]{fullShare} dst.view.write (Elt F) bd x Finset.univ))
    (O : CellTallies nD τ sig Unit) (W : Waits sig Unit) (κ₁ κ₂ : ℕ) :
    iprop(cellInv ER (Rd m) κ₁ (dcell c sS) ∗ cellInv ER (Rd m) κ₂ (dcell c' rS) ∗ held src.view c q x ∗ heldAny (F := F) dst.view c' fullShare
        ∗ owes (c : Thread nD τ) (O + tallyAt (dcell c' rS) () N) W
        ∗ dutyTok ER (dcell c sS) 0 false ∗ reached ER (dcell c sS) 0
        ∗ dutyTok ER (dcell c' rS) 0 false ∗ reached ER (dcell c' rS) 0)
      ⊢ iprop(((cred (tallyAt (dcell c sS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc d : Thread nD τ) dst (.dma sS) hsc) (.dma rS) hsrc hdst hsem) k) Q) := by
  subst hd
  unfold held heldAny
  iintro ⟨Hg₁, Hg₂, ⟨%fs, Hs, %hfs⟩, ⟨%fd, Hd⟩, HO, Ht₁, Hr₁, Ht₂, Hr₂⟩
  subst hfs
  iapply (Rounds.wp_send_pointsTo 𝒱₀ ER (Rd m) (c : Thread nD τ) none (κ₁ := κ₁) (κ₂ := κ₂)
    (r₁ := 0) (r₂ := 0) (d₁ := false) (d₂ := false) (fs := fs) (fd := fd)
    (by rw [duties_dma m c sS h8s]; exact Finset.mem_singleton_self _) (by rw [duties_dma m d rS h8r]; exact Finset.mem_singleton_self _)
    () () N hN ((amount_dma m c sS false).trans hNs) ((amount_dma m d rS false).trans hNr) O rfl (W := W)
    (by rw [payload_dma, hps]; exact (held_intro src.view c q fs).trans (held_canon src.view c q _ bs))
    (by rw [payload_dma, hpr]; exact (canon_held dst.view d fullShare _ fd).trans (held_canon dst.view d fullShare _ bd)))
  isplitl [Hg₁]; · iexact Hg₁
  isplitl [Hg₂]; · iexact Hg₂
  isplitl [Hs]; · iexact Hs
  isplitl [Hd]; · iexact Hd
  isplitl [HO]; · iexact HO
  isplitl [Ht₁]; · iexact Ht₁
  isplitl [Hr₁]; · iexact Hr₁
  isplitl [Ht₂]; · iexact Ht₂
  iexact Hr₂

-- Waiting for the whole round of a cell of one's own hands over the round's rows and closes the cell.
theorem kit_wait_dma {sp : Space} {sh : Shape} (v : View sig .tc sp sh .f32) (c : Dev nD) (s : DmaSem sig) (h8 : 8 ≤ s.val)
    {sp₁ sp₂ : Space} {s₁ s₂ : Shape} {e₁ e₂ : EltTy} {κ' : Kind}
    {srcw : Memref sig .tc sp₁ s₁ e₁} {dstw : Memref sig κ' sp₂ s₂ e₂} {hsrc : srcw.view.WordExact} {hdst : dstw.view.WordExact}
    {α : Type} {Q : α → sProp 𝕄} {k : PUnit → Prog (TpuEff nD τ sig (Elt F) Λ₀ .tc) α}
    (N : ℕ) (hN : dmaAmt s.val = N) (hcr : dstw.view.dmaCredit = N)
    (q : PosShare TreeShare) (x : sh.Idx → Elt F .f32) (b : Buf (Elt F) (v.loc (c : Thread nD τ)))
    (hp : dmaPay m s.val c = (v.loc (c : Thread nD τ) ↦[v.set]{q} v.write (Elt F) b x Finset.univ))
    (O : CellTallies nD τ sig Unit) (W : Waits sig Unit) (κ : ℕ) :
    iprop(cellInv ER (Rd m) κ (dcell c s) ∗ cred (tallyAt (dcell c s) () N) ∗ owes (c : Thread nD τ) O W
        ∗ MayWait (c : Thread nD τ) (.dma s) () O ∗ atPos ER (dcell c s) 0 ∅ 0)
      ⊢ iprop(((owes (c : Thread nD τ) O (insert (SemLoc.dma s, ()) W) ∗ semVal (dcell c s) 0 ∗ held v c q x) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s srcw dstw hsrc hdst) k) Q) := by
  subst hcr
  iintro ⟨#Hg, Hc, HO, Hmw, Hat⟩ Hk
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, expect_dma m c s h8, hN])) $$ [Hc HO Hmw Hat]
  · isplitr; · iexact Hg
    isplitl [Hc]; · iexact Hc
    isplitl [HO]; · iexact HO
    isplitl [Hmw]; · iexact Hmw
    iexact Hat
  iintro ⟨HO, Hat, -, Hpay⟩
  ihave Hp := (Entails.of_eq ((rest_dma m c s h8).trans hp)) $$ Hpay
  imod (Rounds.cell_close ER (Rd m) (Set.mem_univ κ) (fun h => h) (R := 0 + 1) (duties_later m (dcell c s))) $$ [Hat] with Hz
  · isplitr; · iexact Hg
    iexact Hat
  iapply Hk
  isplitl [HO]; · iexact HO
  isplitl [Hz]; · iexact Hz
  iapply (canon_held v c q x b)
  iexact Hp

-- One unit signalled to a neighbour's handshake cell pays the signaller's duty there.
theorem kit_signal_gen (c t : Dev nD) {d' : Dev nD} (hd : d' = t) (sem : Sem sig) (dt : Bool) (P : sProp 𝕄) {n : ℕ} (hn : n = 1)
    (hdt : dt ∈ (Rd m).duties ((t : Thread nD τ), .reg sem) 0) (hP : (Rd m).payload ((t : Thread nD τ), .reg sem) 0 dt = P)
    {α : Type} {Q : α → sProp 𝕄} {k : PUnit → Prog (TpuEff nD τ sig (Elt F) Λ₀ .tc) α}
    (O : CellTallies nD τ sig Unit) (W : Waits sig Unit) (κ : ℕ) :
    iprop(cellInv ER (Rd m) κ ((t : Thread nD τ), .reg sem) ∗ owes (c : Thread nD τ) (O + tallyAt ((t : Thread nD τ), .reg sem) () 1) W
        ∗ dutyTok ER ((t : Thread nD τ), .reg sem) 0 dt ∗ P ∗ reached ER ((t : Thread nD τ), .reg sem) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d' : Thread nD τ) sem n) k) Q) := by
  subst hd; subst hn; subst hP
  exact Rounds.wp_signal 𝒱₀ ER (Rd m) (c : Thread nD τ) none (dst := (d' : Thread nD τ)) (κ := κ) (r := 0) (d := dt) hdt rfl () O rfl (W := W)

theorem kit_signal_bar (c : Dev nD) {d' : Dev nD} (hd : d' = xp c) {n : ℕ} (hn : n = 1)
    {α : Type} {Q : α → sProp 𝕄} {k : PUnit → Prog (TpuEff nD τ sig (Elt F) Λ₀ .tc) α}
    (O : CellTallies nD τ sig Unit) (W : Waits sig Unit) (κ : ℕ) :
    iprop(cellInv ER (Rd m) κ (barCell (xp c)) ∗ owes (c : Thread nD τ) (O + tallyAt (barCell (xp c)) () 1) W
        ∗ dutyTok ER (barCell (xp c)) 0 false ∗ barPay (F := F) (xp c) ∗ reached ER (barCell (xp c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d' : Thread nD τ) barS n) k) Q) :=
  kit_signal_gen m c (xp c) hd barS false (barPay (xp c)) hn (by rw [duties_bar]; exact Finset.mem_singleton_self _) (payload_bar m (xp c) false) O W κ

theorem kit_signal_y (c : Dev nD) {d' : Dev nD} (hd : d' = yp c) {n : ℕ} (hn : n = 1)
    {α : Type} {Q : α → sProp 𝕄} {k : PUnit → Prog (TpuEff nD τ sig (Elt F) Λ₀ .tc) α}
    (O : CellTallies nD τ sig Unit) (W : Waits sig Unit) (κ : ℕ) :
    iprop(cellInv ER (Rd m) κ (yzCell (yp c)) ∗ owes (c : Thread nD τ) (O + tallyAt (yzCell (yp c)) () 1) W
        ∗ dutyTok ER (yzCell (yp c)) 0 false ∗ yPay (F := F) (yp c) ∗ reached ER (yzCell (yp c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d' : Thread nD τ) yzS n) k) Q) :=
  kit_signal_gen m c (yp c) hd yzS false (yPay (yp c)) hn (by rw [duties_yz]; exact Finset.mem_univ _) (payload_yz_false m (yp c)) O W κ

theorem kit_signal_z (c : Dev nD) {d' : Dev nD} (hd : d' = zp c) {n : ℕ} (hn : n = 1)
    {α : Type} {Q : α → sProp 𝕄} {k : PUnit → Prog (TpuEff nD τ sig (Elt F) Λ₀ .tc) α}
    (O : CellTallies nD τ sig Unit) (W : Waits sig Unit) (κ : ℕ) :
    iprop(cellInv ER (Rd m) κ (yzCell (zp c)) ∗ owes (c : Thread nD τ) (O + tallyAt (yzCell (zp c)) () 1) W
        ∗ dutyTok ER (yzCell (zp c)) 0 true ∗ zPay (F := F) (zp c) ∗ reached ER (yzCell (zp c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d' : Thread nD τ) yzS n) k) Q) :=
  kit_signal_gen m c (zp c) hd yzS true (zPay (zp c)) hn (by rw [duties_yz]; exact Finset.mem_univ _) (payload_yz_true m (zp c)) O W κ

theorem kit_wait_bar (c : Dev nD) {n : ℕ} (hn : n = 1)
    {α : Type} {Q : α → sProp 𝕄} {k : PUnit → Prog (TpuEff nD τ sig (Elt F) Λ₀ .tc) α}
    (O : CellTallies nD τ sig Unit) (W : Waits sig Unit) (κ : ℕ) :
    iprop(cellInv ER (Rd m) κ (barCell c) ∗ cred (tallyAt (barCell c) () 1) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ barPay (F := F) c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro ⟨#Hg, Hc, HO, Hmw, Hat⟩ Hk
  iapply (Rounds.wp_wait_rest_token 𝒱₀ ER (Rd m) (c : Thread nD τ) none (κ := κ)
      (wpE_semWait_eq 𝒱₀ (c : Thread nD τ) none Set.univ) (Set.mem_univ _) () (O := O) (W := W) (R := 0) (m := 0) (T := ∅)
      (by rw [expect_bar])) $$ [Hc HO Hmw Hat]
  · isplitr; · iexact Hg
    isplitl [Hc]; · iexact Hc
    isplitl [HO]; · iexact HO
    isplitl [Hmw]; · iexact Hmw
    iexact Hat
  iintro ⟨HO, Hat, -, Hpay⟩
  ihave Hp := (Entails.of_eq (rest_bar m c)) $$ Hpay
  iapply Hk
  isplitl [HO]; · iexact HO
  isplitl [Hat]; · iexact Hat
  iexact Hp

-- The handshake wait hands over what both neighbours stated when they signalled.
theorem kit_wait_yz (c : Dev nD) {n : ℕ} (hn : n = 2)
    {α : Type} {Q : α → sProp 𝕄} {k : PUnit → Prog (TpuEff nD τ sig (Elt F) Λ₀ .tc) α}
    (O : CellTallies nD τ sig Unit) (W : Waits sig Unit) (κ : ℕ) :
    iprop(cellInv ER (Rd m) κ (yzCell c) ∗ cred (tallyAt (yzCell c) () 2) ∗ owes (c : Thread nD τ) O W
        ∗ MayWait (c : Thread nD τ) (.reg yzS) () O ∗ atPos ER (yzCell c) 0 ∅ 0)
      ⊢ iprop(((owes (c : Thread nD τ) O (insert (SemLoc.reg yzS, ()) W) ∗ semVal (yzCell c) 0 ∗ yPay (F := F) c ∗ zPay (F := F) c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait yzS n) k) Q) := by
  subst hn
  iintro ⟨#Hg, Hc, HO, Hmw, Hat⟩ Hk
  iapply (Rounds.wp_wait_rest_token 𝒱₀ ER (Rd m) (c : Thread nD τ) none (κ := κ)
      (wpE_semWait_eq 𝒱₀ (c : Thread nD τ) none Set.univ) (Set.mem_univ _) () (O := O) (W := W) (R := 0) (m := 0) (T := ∅)
      (by rw [expect_yz])) $$ [Hc HO Hmw Hat]
  · isplitr; · iexact Hg
    isplitl [Hc]; · iexact Hc
    isplitl [HO]; · iexact HO
    isplitl [Hmw]; · iexact Hmw
    iexact Hat
  iintro ⟨HO, Hat, -, Hpay⟩
  ihave Hp := (Entails.of_eq (rest_yz m c)) $$ Hpay
  imod (Rounds.cell_close ER (Rd m) (Set.mem_univ κ) (fun h => h) (R := 0 + 1) (duties_later m (yzCell c))) $$ [Hat] with Hz
  · isplitr; · iexact Hg
    iexact Hat
  iapply Hk
  isplitl [HO]; · iexact HO
  isplitl [Hz]; · iexact Hz
  iexact Hp

end Cert.KernelIdeal.Proto

end
-- ==== Proof.KitLocal.lean ====
import proofs.«900598_g7700000000000599_dist_rsrms_v7x_xyz2x2x2_x_m512_d512_f32_1_alg».proof.Proof.Kit
import Idealize.ShloMosaic.Lib.Transfers

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section LoadStore
variable {α : Type} {cs : CoreSpace} {S : Shape} {e : EltTy}

theorem kit_load (M : Memref sig .tc cs S e) (R : Rect S) (c : Dev nD) (q : PosShare TreeShare) (x : R.shape.Idx → Elt F e)
    {hl : M.view.LoadsAt R.toLoadRect} {k : (R.shape.Idx → Elt F e) → Prog (TpuEff nD τ sig (Elt F) Λ₀ .tc) α} {Q : α → sProp 𝕄} :
    held (M.access R) c q x
      ⊢ iprop((held (M.access R) c q x -∗ wp frame (wpE (defs₀ (F := F)) 𝒱₀ (c : Thread nD τ) none) Set.univ (k x) Q)
          -∗ wp frame (wpE (defs₀ (F := F)) 𝒱₀ (c : Thread nD τ) none) Set.univ (.op (.load M R.toLoadRect hl) k) Q) := by
  unfold held
  iintro ⟨%f, H, %hf⟩ Hk
  subst hf
  iapply (wp_load_rect 𝒱₀ (c : Thread nD τ) none Set.univ (m := M) (r := R) (hl := hl) (Finset.Subset.refl _)) $$ H
  iintro H
  iapply Hk
  iexists f
  isplitl [H]; · iexact H
  ipureintro; rfl

theorem kit_store (M : Memref sig .tc cs S e) (R : Rect S) (c : Dev nD) (w : R.shape.Idx → Elt F e)
    {hx : (M.access R).Stores Finset.univ} {hm : (Finset.univ : Finset R.shape.Idx) = Finset.univ ∨ ∀ a, R.stride a = 1}
    {k : PUnit → Prog (TpuEff nD τ sig (Elt F) Λ₀ .tc) α} {Q : α → sProp 𝕄} :
    heldAny (F := F) (M.access R) c fullShare
      ⊢ iprop((held (M.access R) c fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M R w Finset.univ hx hm) k) Q) := by
  unfold heldAny
  iintro ⟨%f, H⟩ Hk
  iapply (wp_store 𝒱₀ (c : Thread nD τ) none Set.univ (m := M) (r := R) (w := w) (Mk := Finset.univ) (hx := hx) (hm := hm)
    (S := (M.access R).set) (by rw [View.setOn_univ])) $$ H
  iintro H
  iapply Hk
  iapply (canon_held (M.access R) c fullShare w f) $$ H

end LoadStore

section Dma
variable {α : Type} {sp sp' : Space} {s : Shape} {e : EltTy}

theorem kit_dma_issue_at (src : Memref sig .tc sp s e) (dst : Memref sig .tc sp' s e) (sm : DmaSem sig) (c : Dev nD)
    (q : PosShare TreeShare) (fs : Buf (Elt F) (src.view.loc (c : Thread nD τ))) (N : ℕ) (hN : dst.view.amount (.dma sm) = N) (hN0 : 0 < N)
    {hsrc : src.view.WordExact} {hdst : dst.view.WordExact} {hsem : (DmaTarget.here dst : DmaTarget nD τ sig .tc sp' s e).Typed sp (.dma sm)}
    {k : PUnit → Prog (TpuEff nD τ sig (Elt F) Λ₀ .tc) α} {Q : α → sProp 𝕄} :
    iprop((src.view.loc (c : Thread nD τ) ↦[src.view.set]{q} fs) ∗ heldAny (F := F) dst.view c fullShare ∗ semVal (dcell c sm) 0)
      ⊢ iprop((Transfers.Flight countersEmb (c : Thread nD τ) (.dma sm) () N
                iprop(held dst.view c fullShare (src.view.read (Elt F) fs) ∗ (src.view.loc (c : Thread nD τ) ↦[src.view.set]{q} fs))
              -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sm) hsrc hdst hsem) k) Q) := by
  unfold heldAny
  iintro ⟨Hs, ⟨%fd, Hd⟩, Hv⟩ Hk
  iapply (Transfers.wp_dmaLocal countersEmb 𝒱₀ (c : Thread nD τ) none (src := src) (via := .same) (dst := dst) (sm := .dma sm)
    (hsrc := hsrc) (hdst := hdst) (hsem := hsem) (q := q) (fs := fs) (Sd := dst.view.set) (fd := fd) () N hN hN0 (Finset.Subset.refl _)) $$ [Hs Hd Hv]
  · isplitl [Hs]; · iexact Hs
    isplitl [Hd]; · iexact Hd
    iexact Hv
  iintro Hf
  iapply Hk
  iapply (Transfers.Flight_mono countersEmb (c : Thread nD τ) ?_) $$ Hf
  iintro ⟨Hd, Hs⟩
  isplitl [Hd]
  · iapply (canon_held dst.view c fullShare (src.view.read (Elt F) fs) fd) $$ Hd
  · iexact Hs

theorem kit_dma_issue (src : Memref sig .tc sp s e) (dst : Memref sig .tc sp' s e) (sm : DmaSem sig) (c : Dev nD)
    (q : PosShare TreeShare) (x : s.Idx → Elt F e) (N : ℕ) (hN : dst.view.amount (.dma sm) = N) (hN0 : 0 < N)
    {hsrc : src.view.WordExact} {hdst : dst.view.WordExact} {hsem : (DmaTarget.here dst : DmaTarget nD τ sig .tc sp' s e).Typed sp (.dma sm)}
    {k : PUnit → Prog (TpuEff nD τ sig (Elt F) Λ₀ .tc) α} {Q : α → sProp 𝕄} :
    iprop(held src.view c q x ∗ heldAny (F := F) dst.view c fullShare ∗ semVal (dcell c sm) 0)
      ⊢ iprop((Transfers.Flight countersEmb (c : Thread nD τ) (.dma sm) () N iprop(held dst.view c fullShare x ∗ held src.view c q x)
              -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sm) hsrc hdst hsem) k) Q) := by
  unfold held heldAny
  iintro ⟨⟨%fs, Hs, %hfs⟩, ⟨%fd, Hd⟩, Hv⟩ Hk
  subst hfs
  iapply (Transfers.wp_dmaLocal countersEmb 𝒱₀ (c : Thread nD τ) none (src := src) (via := .same) (dst := dst) (sm := .dma sm)
    (hsrc := hsrc) (hdst := hdst) (hsem := hsem) (q := q) (fs := fs) (Sd := dst.view.set) (fd := fd) () N hN hN0 (Finset.Subset.refl _)) $$ [Hs Hd Hv]
  · isplitl [Hs]; · iexact Hs
    isplitl [Hd]; · iexact Hd
    iexact Hv
  iintro Hf
  iapply Hk
  iapply (Transfers.Flight_mono countersEmb (c : Thread nD τ) ?_) $$ Hf
  iintro ⟨Hd, Hs⟩
  isplitl [Hd]
  · iexists _
    isplitl [Hd]; · iexact Hd
    ipureintro; exact View.read_write_univ _ _
  · iexists fs
    isplitl [Hs]; · iexact Hs
    ipureintro; rfl

theorem kit_dma_wait {s' : Shape} {e' : EltTy} {κ' : Kind} (sm : DmaSem sig) (c : Dev nD) (N : ℕ) (D : sProp 𝕄)
    (O : CellTallies nD τ sig Unit) (W : Waits sig Unit)
    {srcw : Memref sig .tc sp' s' e'} {dstw : Memref sig κ' sp s e} (hcr : dstw.view.dmaCredit = N)
    {hsrc : srcw.view.WordExact} {hdst : dstw.view.WordExact}
    {k : PUnit → Prog (TpuEff nD τ sig (Elt F) Λ₀ .tc) α} {Q : α → sProp 𝕄} :
    iprop(Transfers.Flight countersEmb (c : Thread nD τ) (.dma sm) () N D ∗ owes (c : Thread nD τ) O W ∗ MayWait (c : Thread nD τ) (.dma sm) () O)
      ⊢ iprop((iprop(D ∗ semVal (dcell c sm) 0 ∗ owes (c : Thread nD τ) O (insert (SemLoc.dma sm, ()) W))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dstw hsrc hdst) k) Q) :=
  Transfers.wp_waitLocalO countersEmb 𝒱₀ (c : Thread nD τ) none () hcr

end Dma

section HeldEq
variable {sp : Space} {s : Shape} {e : EltTy}

-- Holding rows is invariant under equal views and equal contents.
theorem held_of_eq {v v' : View sig .tc sp s e} (hv : v = v') {x x' : s.Idx → Elt F e} (hx : x = x') (c : Dev nD) (q : PosShare TreeShare) :
    held (F := F) v c q x ⊢ held (F := F) v' c q x' := by
  subst hv; subst hx; exact .rfl

theorem heldAny_of_eq {v v' : View sig .tc sp s e} (hv : v = v') (c : Dev nD) (q : PosShare TreeShare) :
    heldAny (F := F) v c q ⊢ heldAny (F := F) v' c q := by
  subst hv; exact .rfl

-- Rows held at some contents are held at a named one.
theorem heldAny_ex (v : View sig .tc sp s e) (c : Dev nD) (q : PosShare TreeShare) :
    heldAny (F := F) v c q ⊢ iprop(∃ x, held (F := F) v c q x) := by
  unfold heldAny
  iintro ⟨%f, H⟩
  iexists (v.read (Elt F) f)
  iapply (held_intro v c q f) $$ H

end HeldEq

theorem gv_readAt (x : Vec F S512 .f32) :
    gvM.view.readAt (Elt F) (Rect.unit (s := S512) ![0] S512.size inb_S512_S512_0).toLoadRect x = x :=
  Memref.readAt_unit_zero (Elt F) cc0_scratch2 (by funext a; fin_cases a; rfl) _ x

end Cert.KernelIdeal.Proto

end
-- ==== Proof.Offs.lean ====
import proofs.«900598_g7700000000000599_dist_rsrms_v7x_xyz2x2x2_x_m512_d512_f32_1_alg».proof.Proof.Base

noncomputable section

namespace Cert.KernelIdeal.Offs

open Cert.KernelIdeal Cert.KernelIdeal.Gen Cert.KernelIdeal.Proto
open Idealize.ShloMosaic

-- A device's first coordinate and the parity of its other two decide every offset.
def xOf (d : Dev nD) : Nat := d.val / 4

def sOf (d : Dev nD) : Nat := ((d.val / 2) % 2 + d.val % 2) % 2

theorem xOf_lt (d : Dev nD) : xOf d < 2 := by
  have := d.isLt; simp only [nD] at this; unfold xOf; omega
theorem sOf_lt (d : Dev nD) : sOf d < 2 := by unfold sOf; omega

theorem xOf_xp (c : Dev nD) : xOf (xp c) = 1 - xOf c := by
  unfold xOf; rw [xp_val]; have := c.isLt; simp only [nD] at this; omega
theorem sOf_xp (c : Dev nD) : sOf (xp c) = sOf c := by
  unfold sOf; rw [xp_val]; have := c.isLt; simp only [nD] at this; omega
theorem xOf_yp (c : Dev nD) : xOf (yp c) = xOf c := by
  unfold xOf; rw [yp_val]; have := c.isLt; simp only [nD] at this; omega
theorem sOf_yp (c : Dev nD) : sOf (yp c) = 1 - sOf c := by
  unfold sOf; rw [yp_val]; have := c.isLt; simp only [nD] at this; omega
theorem xOf_zp (c : Dev nD) : xOf (zp c) = xOf c := by
  unfold xOf; rw [zp_val]; have := c.isLt; simp only [nD] at this; omega
theorem sOf_zp (c : Dev nD) : sOf (zp c) = 1 - sOf c := by
  unfold sOf; rw [zp_val]; have := c.isLt; simp only [nD] at this; omega

theorem off1_eq (d : Dev nD) : k0_off1 d = ![0, 512 - 512 * xOf d, 0] := Gen.k0_off1_eq d
theorem off2_eq (d : Dev nD) : k0_off2 d = ![0, 512 * xOf d, 0] := Gen.k0_off2_eq d
theorem off3_0 : ∀ d : Dev nD, k0_off3 d 0#32 = ![256 * sOf d + 0, 0] := by decide +kernel
theorem off3_128 : ∀ d : Dev nD, k0_off3 d 128#32 = ![256 * sOf d + 128, 0] := by decide +kernel
theorem off4_48 : ∀ d : Dev nD, k0_off4 d 48#32 = ![256 * sOf d + 48, 0] := by decide +kernel
theorem off4_176 : ∀ d : Dev nD, k0_off4 d 176#32 = ![256 * sOf d + 176, 0] := by decide +kernel
theorem off5_88 : ∀ d : Dev nD, k0_off5 d 88#32 = ![256 * sOf d + 88, 0] := by decide +kernel
theorem off5_216 : ∀ d : Dev nD, k0_off5 d 216#32 = ![256 * sOf d + 216, 0] := by decide +kernel
theorem off6_104 : ∀ d : Dev nD, k0_off6 d 104#32 = ![256 * sOf d + 104, 0] := by decide +kernel
theorem off6_232 : ∀ d : Dev nD, k0_off6 d 232#32 = ![256 * sOf d + 232, 0] := by decide +kernel
theorem off8_0 : ∀ d : Dev nD, k0_off8 d 0#32 = ![256 * sOf d + 0, 0] := by decide +kernel
theorem off8_128 : ∀ d : Dev nD, k0_off8 d 128#32 = ![256 * sOf d + 128, 0] := by decide +kernel
theorem off9_48 : ∀ d : Dev nD, k0_off9 d 48#32 = ![256 * sOf d + 48, 0] := by decide +kernel
theorem off9_176 : ∀ d : Dev nD, k0_off9 d 176#32 = ![256 * sOf d + 176, 0] := by decide +kernel
theorem off10_88 : ∀ d : Dev nD, k0_off10 d 88#32 = ![256 * sOf d + 88, 0] := by decide +kernel
theorem off10_216 : ∀ d : Dev nD, k0_off10 d 216#32 = ![256 * sOf d + 216, 0] := by decide +kernel
theorem off11_104 : ∀ d : Dev nD, k0_off11 d 104#32 = ![256 * sOf d + 104, 0] := by decide +kernel
theorem off11_232 : ∀ d : Dev nD, k0_off11 d 232#32 = ![256 * sOf d + 232, 0] := by decide +kernel
theorem off7_104 : ∀ d : Dev nD, k0_off7 d 104#32 = ![256 * (1 - sOf d) + 104, 0] := by decide +kernel
theorem off7_232 : ∀ d : Dev nD, k0_off7 d 232#32 = ![256 * (1 - sOf d) + 232, 0] := by decide +kernel
theorem off12_104 : ∀ d : Dev nD, k0_off12 d 104#32 = ![256 * (1 - sOf d) + 104, 0] := by decide +kernel
theorem off12_232 : ∀ d : Dev nD, k0_off12 d 232#32 = ![256 * (1 - sOf d) + 232, 0] := by decide +kernel
theorem off13_eq : ∀ d : Dev nD, k0_off13 d = ![256 * sOf d, 0] := by decide +kernel
theorem off14_eq : ∀ d : Dev nD, k0_off14 d = ![256 * (1 - sOf d) + 232, 0] := by decide +kernel
theorem off15_eq : ∀ d : Dev nD, k0_off15 d = ![256 * (1 - sOf d), 0] := by decide +kernel
theorem off16_eq : ∀ d : Dev nD, k0_off16 d = ![256 * (1 - sOf d) + 128, 0] := by decide +kernel

end Cert.KernelIdeal.Offs

end
-- ==== Proof.Regions.lean ====
import proofs.«900598_g7700000000000599_dist_rsrms_v7x_xyz2x2x2_x_m512_d512_f32_1_alg».proof.Proof.States
import proofs.«900598_g7700000000000599_dist_rsrms_v7x_xyz2x2x2_x_m512_d512_f32_1_alg».proof.Proof.Offs
import proofs.«900598_g7700000000000599_dist_rsrms_v7x_xyz2x2x2_x_m512_d512_f32_1_alg».proof.Proof.OutSpec
import Idealize.ShloMosaic.Rules.PointsTo
import Idealize.ShloMosaic.Lib.ValueIdx
import Idealize.ShloMosaic.Lib.Pipeline.Value

noncomputable section

namespace Cert.KernelIdeal.Proto

open Cert.KernelIdeal Cert.KernelIdeal.Gen Cert.KernelIdeal.Offs

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Bands

def band (A B o n : Nat) : Finset (⟨2, ![A, B]⟩ : Shape).Idx :=
  Finset.univ.filter fun i => o ≤ (i 0).val ∧ (i 0).val < o + n

theorem mem_band {A B o n : Nat} {i : (⟨2, ![A, B]⟩ : Shape).Idx} :
    i ∈ band A B o n ↔ o ≤ (i 0).val ∧ (i 0).val < o + n := by
  simp [band]

theorem rect_set_band {A B : Nat} (off : Fin 2 → Nat) (o n : Nat) (hoff : off = ![o, 0])
    (inb : ∀ a, off a + (![n, B] : Fin 2 → Nat) a ≤ (⟨2, ![A, B]⟩ : Shape).size a) :
    (Rect.unit (s := ⟨2, ![A, B]⟩) off ![n, B] inb).set = band A B o n := by
  subst hoff
  ext i
  rw [Rect.mem_set_unit, mem_band, Fin.forall_fin_two]
  have h1 : (i 1).val < B := (i 1).isLt
  constructor
  · rintro ⟨h0, -⟩; exact h0
  · intro h; exact ⟨h, Nat.zero_le _, by show (i 1).val < 0 + B; omega⟩

theorem band_union (A B o n₁ n₂ : Nat) : band A B o (n₁ + n₂) = band A B o n₁ ∪ band A B (o + n₁) n₂ := by
  ext i; simp only [mem_band, Finset.mem_union]; omega

theorem band_disjoint (A B : Nat) {o₁ n₁ o₂ n₂ : Nat} (h : o₁ + n₁ ≤ o₂) : Disjoint (band A B o₁ n₁) (band A B o₂ n₂) := by
  rw [Finset.disjoint_left]; intro i h1 h2; rw [mem_band] at h1 h2; omega

theorem band_univ (A B : Nat) : band A B 0 A = Finset.univ := by
  ext i
  have h0 : (i 0).val < A := (i 0).isLt
  simp only [mem_band, Finset.mem_univ, iff_true]; omega

theorem band_zero (A B o : Nat) : band A B o 0 = ∅ := by
  ext i; simp only [mem_band, Finset.notMem_empty, iff_false]; omega

variable {sp : Space} {A B : Nat} {e : EltTy}

def bandSet (v : View sig .tc sp ⟨2, ![A, B]⟩ e) (o n : Nat) : Finset v.ty.Idx := (band A B o n).map v.emb

theorem set_slice_band (v : View sig .tc sp ⟨2, ![A, B]⟩ e) (off : Fin 2 → Nat) (o n : Nat) (hoff : off = ![o, 0])
    (inb : ∀ a, off a + (![n, B] : Fin 2 → Nat) a ≤ (⟨2, ![A, B]⟩ : Shape).size a) :
    (v.slice (Rect.unit off ![n, B] inb)).set = bandSet v o n := by
  rw [View.set_slice, rect_set_band off o n hoff inb]; rfl

theorem set_eq_bandSet (v : View sig .tc sp ⟨2, ![A, B]⟩ e) : v.set = bandSet v 0 A := by
  unfold bandSet View.set; rw [band_univ]

theorem bandSet_union (v : View sig .tc sp ⟨2, ![A, B]⟩ e) (o n₁ n₂ : Nat) :
    bandSet v o (n₁ + n₂) = bandSet v o n₁ ∪ bandSet v (o + n₁) n₂ := by
  unfold bandSet; rw [band_union, Finset.map_union]

theorem bandSet_disjoint (v : View sig .tc sp ⟨2, ![A, B]⟩ e) {o₁ n₁ o₂ n₂ : Nat} (h : o₁ + n₁ ≤ o₂) :
    Disjoint (bandSet v o₁ n₁) (bandSet v o₂ n₂) :=
  (Finset.disjoint_map _).mpr (band_disjoint A B h)

theorem bandSet_zero (v : View sig .tc sp ⟨2, ![A, B]⟩ e) (o : Nat) : bandSet v o 0 = ∅ := by
  unfold bandSet; rw [band_zero, Finset.map_empty]

def ptBand (v : View sig .tc sp ⟨2, ![A, B]⟩ e) (c : Dev nD) (q : PosShare TreeShare)
    (f : Buf (Elt F) (v.loc (c : Thread nD τ))) (o n : Nat) : sProp 𝕄 :=
  (v.loc (c : Thread nD τ) ↦[bandSet v o n]{q} f)

def ptBands (v : View sig .tc sp ⟨2, ![A, B]⟩ e) (c : Dev nD) (q : PosShare TreeShare)
    (f : Buf (Elt F) (v.loc (c : Thread nD τ))) : Nat → List Nat → sProp 𝕄
  | _, [] => iprop(emp)
  | o, [n] => ptBand v c q f o n
  | o, n :: n' :: ns => iprop(ptBand v c q f o n ∗ ptBands v c q f (o + n) (n' :: ns))

theorem ptBand_split (v : View sig .tc sp ⟨2, ![A, B]⟩ e) (c : Dev nD) (q : PosShare TreeShare)
    (f : Buf (Elt F) (v.loc (c : Thread nD τ))) (o n₁ n₂ : Nat) :
    ptBand v c q f o (n₁ + n₂) ⊣⊢ iprop(ptBand v c q f o n₁ ∗ ptBand v c q f (o + n₁) n₂) := by
  unfold ptBand
  rw [bandSet_union]
  exact pointsTo_union (bandSet_disjoint v (Nat.le_refl _))

theorem ptBands_eq (v : View sig .tc sp ⟨2, ![A, B]⟩ e) (c : Dev nD) (q : PosShare TreeShare)
    (f : Buf (Elt F) (v.loc (c : Thread nD τ))) :
    ∀ (ns : List Nat) (o : Nat), ptBand v c q f o ns.sum ⊣⊢ ptBands v c q f o ns
  | [], o => by
    unfold ptBands ptBand
    rw [List.sum_nil, bandSet_zero, pointsTo_empty]
  | [n], o => by
    unfold ptBands
    rw [List.sum_cons, List.sum_nil, Nat.add_zero]
  | n :: n' :: ns, o => by
    unfold ptBands
    rw [List.sum_cons]
    exact (ptBand_split v c q f o n (n' :: ns).sum).trans (sep_congr_right (ptBands_eq v c q f (n' :: ns) (o + n)))

end Bands

section AnyBands
variable {sp : Space} {A B : Nat} {e : EltTy}

def anyBand (v : View sig .tc sp ⟨2, ![A, B]⟩ e) (c : Dev nD) (q : PosShare TreeShare) (o n : Nat) : sProp 𝕄 :=
  iprop(∃ f : Buf (Elt F) (v.loc (c : Thread nD τ)), ptBand v c q f o n)

def anyBands (v : View sig .tc sp ⟨2, ![A, B]⟩ e) (c : Dev nD) (q : PosShare TreeShare) : Nat → List Nat → sProp 𝕄
  | _, [] => iprop(emp)
  | o, [n] => anyBand (F := F) v c q o n
  | o, n :: n' :: ns => iprop(anyBand (F := F) v c q o n ∗ anyBands v c q (o + n) (n' :: ns))

theorem ptBand_any (v : View sig .tc sp ⟨2, ![A, B]⟩ e) (c : Dev nD) (q : PosShare TreeShare)
    (f : Buf (Elt F) (v.loc (c : Thread nD τ))) (o n : Nat) : ptBand v c q f o n ⊢ anyBand v c q o n := by
  unfold anyBand; iintro H; iexists f; iexact H

theorem any_union (ℓ : Loc nD τ sig) (I J : Finset (Idx ℓ)) (q : PosShare TreeShare) (h : Disjoint I J) :
    iprop(∃ f : Buf (Elt F) ℓ, (ℓ ↦[I ∪ J]{q} f : sProp 𝕄))
      ⊣⊢ iprop((∃ f : Buf (Elt F) ℓ, (ℓ ↦[I]{q} f : sProp 𝕄)) ∗ (∃ g : Buf (Elt F) ℓ, (ℓ ↦[J]{q} g : sProp 𝕄))) := by
  constructor
  · iintro ⟨%f, H⟩
    ihave H' := (pointsTo_union h).1 $$ H
    icases H' with ⟨H1, H2⟩
    isplitl [H1]
    · iexists f; iexact H1
    · iexists f; iexact H2
  · iintro ⟨⟨%f, H1⟩, ⟨%g, H2⟩⟩
    iexists J.piecewise g f
    iapply (pointsTo_join h)
    isplitl [H1]
    · iexact H1
    · iexact H2

theorem anyBand_split (v : View sig .tc sp ⟨2, ![A, B]⟩ e) (c : Dev nD) (q : PosShare TreeShare) (o n₁ n₂ : Nat) :
    anyBand (F := F) v c q o (n₁ + n₂) ⊣⊢ iprop(anyBand (F := F) v c q o n₁ ∗ anyBand (F := F) v c q (o + n₁) n₂) := by
  unfold anyBand ptBand
  rw [bandSet_union]
  exact any_union _ _ _ q (bandSet_disjoint v (Nat.le_refl _))

/-- A band splits into consecutive sub-bands, because disjoint row ranges own disjoint elements. -/
theorem anyBands_eq (v : View sig .tc sp ⟨2, ![A, B]⟩ e) (c : Dev nD) (q : PosShare TreeShare) :
    ∀ (ns : List Nat) (o : Nat), anyBand (F := F) v c q o ns.sum ⊣⊢ anyBands (F := F) v c q o ns
  | [], o => by
    unfold anyBands anyBand ptBand
    rw [List.sum_nil, bandSet_zero]
    constructor
    · iintro ⟨%f, H⟩; rw [pointsTo_empty]; iempintro
    · iintro -; iexists (fun _ => default); rw [pointsTo_empty]; iempintro
  | [n], o => by
    unfold anyBands
    rw [List.sum_cons, List.sum_nil, Nat.add_zero]
  | n :: n' :: ns, o => by
    unfold anyBands
    rw [List.sum_cons]
    exact (anyBand_split v c q o n (n' :: ns).sum).trans (sep_congr_right (anyBands_eq v c q (n' :: ns) (o + n)))

/-- A band of whole rows `o ≤ r < o + n`, given as the unit-stride rectangle that cuts it out. -/
structure Strip (A B : Nat) where
  off : Fin 2 → Nat
  o : Nat
  n : Nat
  hoff : off = ![o, 0]
  inb : ∀ a, off a + (![n, B] : Fin 2 → Nat) a ≤ (⟨2, ![A, B]⟩ : Shape).size a

abbrev Strip.of (p : Strip A B) (v : View sig .tc sp ⟨2, ![A, B]⟩ e) : View sig .tc sp ⟨2, ![p.n, B]⟩ e :=
  v.slice (Rect.unit p.off ![p.n, B] p.inb)

theorem set_strip (p : Strip A B) (v : View sig .tc sp ⟨2, ![A, B]⟩ e) : (p.of v).set = bandSet v p.o p.n :=
  set_slice_band v p.off p.o p.n p.hoff p.inb

/-- A slice of whole rows at contents not recorded is the band of those rows. -/
theorem heldAny_strip (p : Strip A B) (v : View sig .tc sp ⟨2, ![A, B]⟩ e) (c : Dev nD) (q : PosShare TreeShare) :
    heldAny (F := F) (p.of v) c q = anyBand (F := F) v c q p.o p.n := by
  unfold heldAny anyBand ptBand
  rw [set_strip]

theorem whole_ptBand (v : View sig .tc sp ⟨2, ![A, B]⟩ e) (c : Dev nD) (q : PosShare TreeShare)
    (f : Buf (Elt F) (v.loc (c : Thread nD τ))) :
    (v.loc (c : Thread nD τ) ↦[v.set]{q} f : sProp 𝕄) = ptBand v c q f 0 A := by
  unfold ptBand; rw [set_eq_bandSet]

end AnyBands

section Spellings

theorem off_eq14 (c : Dev nD) : k0_off14 c = k0_off7 c 232#32 := (off14_eq c).trans (off7_232 c).symm

theorem view_slice_unit_congr {κ : Kind} {sp : Space} {s : Shape} {e : EltTy} (v : View sig κ sp s e)
    {off off' size : Fin s.rank → Nat} (h : off = off') (p : ∀ a, off a + size a ≤ s.size a)
    (p' : ∀ a, off' a + size a ≤ s.size a) : v.slice (Rect.unit off size p) = v.slice (Rect.unit off' size p') := by
  subst h; rfl

theorem ov_access_eq0 (c : Dev nD) :
    ovM.access (Rect.unit (s := S512x512) (k0_off8 c 0#32) S48x512.size (k0_off8_inb c 0)) = (ovSl0 c).view :=
  view_slice_unit_congr ovM.view ((off8_0 c).trans (off3_0 c).symm) _ _
theorem ov_access_eq1 (c : Dev nD) :
    ovM.access (Rect.unit (s := S512x512) (k0_off8 c 128#32) S48x512.size (k0_off8_inb c 1)) = (ovSl1 c).view :=
  view_slice_unit_congr ovM.view ((off8_128 c).trans (off3_128 c).symm) _ _
theorem ov_access_eq2 (c : Dev nD) :
    ovM.access (Rect.unit (s := S512x512) (k0_off9 c 48#32) S40x512.size (k0_off9_inb c 0)) = (ovSl2 c).view :=
  view_slice_unit_congr ovM.view ((off9_48 c).trans (off4_48 c).symm) _ _
theorem ov_access_eq3 (c : Dev nD) :
    ovM.access (Rect.unit (s := S512x512) (k0_off9 c 176#32) S40x512.size (k0_off9_inb c 1)) = (ovSl3 c).view :=
  view_slice_unit_congr ovM.view ((off9_176 c).trans (off4_176 c).symm) _ _
theorem ov_access_eq4 (c : Dev nD) :
    ovM.access (Rect.unit (s := S512x512) (k0_off10 c 88#32) S16x512.size (k0_off10_inb c 0)) = (ovSl4 c).view :=
  view_slice_unit_congr ovM.view ((off10_88 c).trans (off5_88 c).symm) _ _
theorem ov_access_eq5 (c : Dev nD) :
    ovM.access (Rect.unit (s := S512x512) (k0_off10 c 216#32) S16x512.size (k0_off10_inb c 1)) = (ovSl5 c).view :=
  view_slice_unit_congr ovM.view ((off10_216 c).trans (off5_216 c).symm) _ _
theorem ov_access_eq6 (c : Dev nD) :
    ovM.access (Rect.unit (s := S512x512) (k0_off11 c 104#32) S24x512.size (k0_off11_inb c 0)) = (ovSl6 c).view :=
  view_slice_unit_congr ovM.view ((off11_104 c).trans (off6_104 c).symm) _ _
theorem ov_access_eq7 (c : Dev nD) :
    ovM.access (Rect.unit (s := S512x512) (k0_off11 c 232#32) S24x512.size (k0_off11_inb c 1)) = (ovSl7 c).view :=
  view_slice_unit_congr ovM.view ((off11_232 c).trans (off6_232 c).symm) _ _
theorem ov_access_eq8 (c : Dev nD) :
    ovM.access (Rect.unit (s := S512x512) (k0_off12 c 104#32) S24x512.size (k0_off12_inb c 0)) = (ovSl8 c).view :=
  view_slice_unit_congr ovM.view ((off12_104 c).trans (off7_104 c).symm) _ _
theorem ov_access_eq9 (c : Dev nD) :
    ovM.access (Rect.unit (s := S512x512) (k0_off12 c 232#32) S24x512.size (k0_off12_inb c 1)) = (ovSl9 c).view :=
  view_slice_unit_congr ovM.view ((off12_232 c).trans (off7_232 c).symm) _ _
theorem ovO2b_view_eq (c : Dev nD) : (ovO2b c).view = (ovSl9 c).view :=
  view_slice_unit_congr ovM.view (off_eq14 c) _ _

end Spellings

section Pieces

abbrev sp0 (c : Dev nD) : Strip 512 512 := ⟨_, _, 48, off3_0 c, k0_off3_inb c 0⟩
abbrev sp1 (c : Dev nD) : Strip 512 512 := ⟨_, _, 48, off3_128 c, k0_off3_inb c 1⟩
abbrev sp2 (c : Dev nD) : Strip 512 512 := ⟨_, _, 40, off4_48 c, k0_off4_inb c 0⟩
abbrev sp3 (c : Dev nD) : Strip 512 512 := ⟨_, _, 40, off4_176 c, k0_off4_inb c 1⟩
abbrev sp4 (c : Dev nD) : Strip 512 512 := ⟨_, _, 16, off5_88 c, k0_off5_inb c 0⟩
abbrev sp5 (c : Dev nD) : Strip 512 512 := ⟨_, _, 16, off5_216 c, k0_off5_inb c 1⟩
abbrev sp6 (c : Dev nD) : Strip 512 512 := ⟨_, _, 24, off6_104 c, k0_off6_inb c 0⟩
abbrev sp7 (c : Dev nD) : Strip 512 512 := ⟨_, _, 24, off6_232 c, k0_off6_inb c 1⟩
abbrev sp8 (c : Dev nD) : Strip 512 512 := ⟨_, _, 24, off7_104 c, k0_off7_inb c 0⟩
abbrev sp9 (c : Dev nD) : Strip 512 512 := ⟨_, _, 24, off7_232 c, k0_off7_inb c 1⟩
abbrev spO1 (c : Dev nD) : Strip 512 512 := ⟨_, _, 256, off13_eq c, k0_off13_inb c⟩
abbrev spO2b (c : Dev nD) : Strip 512 512 := ⟨_, _, 24, off14_eq c, k0_off14_inb c⟩
abbrev spO3 (c : Dev nD) : Strip 512 512 := ⟨_, _, 104, off15_eq c, k0_off15_inb c⟩
abbrev spO4 (c : Dev nD) : Strip 512 512 := ⟨_, _, 104, off16_eq c, k0_off16_inb c⟩

end Pieces

section Values
variable {sp : Space} {A B : Nat} {e : EltTy}

def subRows {α : Type} {N : Nat} (w n : Nat) (hw : w + n ≤ N) (X : (⟨2, ![N, 512]⟩ : Shape).Idx → α) :
    (⟨2, ![n, 512]⟩ : Shape).Idx → α :=
  fun y => X (ValueIdx.ix2 (⟨w + (y 0).val, by have h : (y 0).val < n := (y 0).isLt; omega⟩ : Fin N) (y 1))

/-- Rows `w ≤ r < w + n` of rows `oP ≤ r < oP + N` are rows `oP + w ≤ r < oP + w + n`. -/
theorem read_sub {κ : Kind} {Val : EltTy → Type} (v : View sig κ sp ⟨2, ![A, 512]⟩ e) (offP offQ : Fin 2 → Nat) (oP w N n : Nat)
    (hP : offP = ![oP, 0]) (hQ : offQ = ![oP + w, 0]) (hw : w + n ≤ N)
    (inbP : ∀ a, offP a + (![N, 512] : Fin 2 → Nat) a ≤ (⟨2, ![A, 512]⟩ : Shape).size a)
    (inbQ : ∀ a, offQ a + (![n, 512] : Fin 2 → Nat) a ≤ (⟨2, ![A, 512]⟩ : Shape).size a)
    (f : v.ty.Contents Val) :
    (v.slice (Rect.unit offQ ![n, 512] inbQ)).read Val f
      = subRows w n hw ((v.slice (Rect.unit offP ![N, 512] inbP)).read Val f) := by
  subst hP; subst hQ
  funext y
  show v.read Val f ((Rect.unit ![oP + w, 0] ![n, 512] inbQ).emb y)
    = v.read Val f ((Rect.unit ![oP, 0] ![N, 512] inbP).emb
        (ValueIdx.ix2 (⟨w + (y 0).val, by have h : (y 0).val < n := (y 0).isLt; omega⟩ : Fin N) (y 1)))
  refine congrArg (v.read Val f) (funext fun a => Fin.ext ?_)
  match a with
  | ⟨0, _⟩ =>
    show oP + w + 1 * (y 0).val = oP + 1 * (w + (y 0).val)
    omega
  | ⟨1, _⟩ => rfl

theorem read_congr_set {κ : Kind} {Val : EltTy → Type} {s : Shape} (v : View sig κ sp s e) {f g : v.ty.Contents Val}
    (h : ∀ i ∈ v.set, g i = f i) : v.read Val g = v.read Val f := by
  funext x
  rw [View.read_apply, View.read_apply, h _ (v.emb_mem_set x)]

theorem bandSet_subset (v : View sig .tc sp ⟨2, ![A, B]⟩ e) {o n o' n' : Nat} (h1 : o ≤ o') (h2 : o' + n' ≤ o + n) :
    bandSet v o' n' ⊆ bandSet v o n := by
  unfold bandSet
  refine Finset.map_subset_map.mpr fun i hi => ?_
  rw [mem_band] at hi ⊢; omega

def ptBandsL (v : View sig .tc sp ⟨2, ![A, B]⟩ e) (c : Dev nD) (q : PosShare TreeShare) :
    Nat → List (Nat × Buf (Elt F) (v.loc (c : Thread nD τ))) → sProp 𝕄
  | _, [] => iprop(emp)
  | o, [p] => ptBand v c q p.2 o p.1
  | o, p :: p' :: ps => iprop(ptBand v c q p.2 o p.1 ∗ ptBandsL v c q (o + p.1) (p' :: ps))

def agreeL (v : View sig .tc sp ⟨2, ![A, B]⟩ e) (c : Dev nD) (g : Buf (Elt F) (v.loc (c : Thread nD τ))) :
    Nat → List (Nat × Buf (Elt F) (v.loc (c : Thread nD τ))) → Prop
  | _, [] => True
  | o, p :: ps => (∀ i ∈ bandSet v o p.1, g i = p.2 i) ∧ agreeL v c g (o + p.1) ps

theorem agreeL_congr (v : View sig .tc sp ⟨2, ![A, B]⟩ e) (c : Dev nD) (g h : Buf (Elt F) (v.loc (c : Thread nD τ))) :
    ∀ (L : List (Nat × Buf (Elt F) (v.loc (c : Thread nD τ)))) (o : Nat),
      (∀ i ∈ bandSet v o (L.map Prod.fst).sum, h i = g i) → agreeL v c g o L → agreeL v c h o L
  | [], _, _, _ => trivial
  | p :: ps, o, hh, ⟨h1, h2⟩ => by
    rw [List.map_cons, List.sum_cons, bandSet_union] at hh
    refine ⟨fun i hi => (hh i (Finset.mem_union_left _ hi)).trans (h1 i hi), ?_⟩
    exact agreeL_congr v c g h ps (o + p.1) (fun i hi => hh i (Finset.mem_union_right _ hi)) h2

theorem ptBand_join (v : View sig .tc sp ⟨2, ![A, B]⟩ e) (c : Dev nD) (q : PosShare TreeShare)
    (f g : Buf (Elt F) (v.loc (c : Thread nD τ))) (o n₁ n₂ : Nat) :
    iprop(ptBand v c q f o n₁ ∗ ptBand v c q g (o + n₁) n₂)
      ⊢ ptBand v c q ((bandSet v (o + n₁) n₂).piecewise g f) o (n₁ + n₂) := by
  unfold ptBand
  rw [bandSet_union]
  exact pointsTo_join (bandSet_disjoint v (Nat.le_refl _))

/-- Consecutive bands, each at its own contents, are one band at contents agreeing with each on its rows. -/
theorem ptBandsL_join (v : View sig .tc sp ⟨2, ![A, B]⟩ e) (c : Dev nD) (q : PosShare TreeShare) :
    ∀ (L : List (Nat × Buf (Elt F) (v.loc (c : Thread nD τ)))) (o : Nat), L ≠ [] →
      ptBandsL v c q o L
        ⊢ iprop(∃ g : Buf (Elt F) (v.loc (c : Thread nD τ)), ptBand v c q g o (L.map Prod.fst).sum ∗ ⌜agreeL v c g o L⌝)
  | [], _, h => absurd rfl h
  | [p], o, _ => by
    unfold ptBandsL
    iintro H
    iexists p.2
    isplitl [H]
    · rw [List.map_cons, List.map_nil, List.sum_cons, List.sum_nil, Nat.add_zero]; iexact H
    · ipureintro; exact ⟨fun _ _ => rfl, trivial⟩
  | p :: p' :: ps, o, _ => by
    have ih := ptBandsL_join v c q (p' :: ps) (o + p.1) (List.cons_ne_nil _ _)
    unfold ptBandsL
    iintro ⟨Hp, HL⟩
    ihave HL' := ih $$ HL
    icases HL' with ⟨%g, HG, %hg⟩
    iexists (bandSet v (o + p.1) ((p' :: ps).map Prod.fst).sum).piecewise g p.2
    isplitl [Hp HG]
    · rw [List.map_cons, List.sum_cons]
      iapply (ptBand_join v c q p.2 g o p.1 ((p' :: ps).map Prod.fst).sum)
      isplitl [Hp]
      · iexact Hp
      · iexact HG
    · ipureintro
      refine ⟨fun i hi => ?_, ?_⟩
      · exact Finset.piecewise_eq_of_notMem _ _ _
          (Finset.disjoint_left.mp (bandSet_disjoint v (Nat.le_refl _)) hi)
      · exact agreeL_congr v c g _ (p' :: ps) (o + p.1)
          (fun i hi => Finset.piecewise_eq_of_mem _ _ _ hi) hg

end Values

section Tools
variable {sp : Space} {A B : Nat} {e : EltTy}

theorem held_strip (p : Strip A B) (v : View sig .tc sp ⟨2, ![A, B]⟩ e) (c : Dev nD) (q : PosShare TreeShare)
    (x : (⟨2, ![p.n, B]⟩ : Shape).Idx → Elt F e) (o : Nat) (ho : p.o = o) :
    held (F := F) (p.of v) c q x
      ⊢ iprop(∃ f : Buf (Elt F) (v.loc (c : Thread nD τ)), ptBand v c q f o p.n ∗ ⌜(p.of v).read (Elt F) f = x⌝) := by
  subst ho
  unfold held ptBand
  rw [set_strip p v]

theorem ptBand_held (p : Strip A B) (v : View sig .tc sp ⟨2, ![A, B]⟩ e) (c : Dev nD) (q : PosShare TreeShare)
    (f : Buf (Elt F) (v.loc (c : Thread nD τ))) (o : Nat) (ho : p.o = o) :
    ptBand v c q f o p.n ⊢ held (F := F) (p.of v) c q ((p.of v).read (Elt F) f) := by
  subst ho
  unfold ptBand
  rw [← set_strip p v]
  exact held_intro (p.of v) c q f

theorem read_strip (v : View sig .tc sp ⟨2, ![A, 512]⟩ e) (P p : Strip A 512) (w : Nat) (ho : p.o = P.o + w)
    (hw : w + p.n ≤ P.n) (f : v.ty.Contents (Elt F)) :
    (p.of v).read (Elt F) f = subRows w p.n hw ((P.of v).read (Elt F) f) :=
  read_sub v P.off p.off P.o w P.n p.n P.hoff (by rw [← ho]; exact p.hoff) hw P.inb p.inb f

theorem read_strip_congr (p : Strip A B) (v : View sig .tc sp ⟨2, ![A, B]⟩ e) (o : Nat) (ho : p.o = o)
    {f g : v.ty.Contents (Elt F)} (h : ∀ i ∈ bandSet v o p.n, g i = f i) :
    (p.of v).read (Elt F) g = (p.of v).read (Elt F) f :=
  read_congr_set _ (by rw [set_strip p v, ho]; exact h)

theorem sub_agree (v : View sig .tc sp ⟨2, ![A, 512]⟩ e) (P p : Strip A 512) (w : Nat) (ho : p.o = P.o + w)
    (hw : w + p.n ≤ P.n) {f g : v.ty.Contents (Elt F)} {x : (⟨2, ![p.n, 512]⟩ : Shape).Idx → Elt F e}
    (h : ∀ i ∈ bandSet v (P.o + w) p.n, g i = f i) (hx : (p.of v).read (Elt F) f = x) :
    subRows w p.n hw ((P.of v).read (Elt F) g) = x :=
  (read_strip v P p w ho hw g).symm.trans ((read_strip_congr p v _ ho h).trans hx)

theorem read_of_sub (v : View sig .tc sp ⟨2, ![A, 512]⟩ e) (P p : Strip A 512) (w : Nat) (ho : p.o = P.o + w)
    (hw : w + p.n ≤ P.n) (g : v.ty.Contents (Elt F)) {X : (⟨2, ![P.n, 512]⟩ : Shape).Idx → Elt F e}
    {x : (⟨2, ![p.n, 512]⟩ : Shape).Idx → Elt F e} (hg : (P.of v).read (Elt F) g = X) (hx : subRows w p.n hw X = x) :
    (p.of v).read (Elt F) g = x := by
  rw [read_strip v P p w ho hw g, hg, hx]

theorem ptBand_sub (v : View sig .tc sp ⟨2, ![A, 512]⟩ e) (c : Dev nD) (q : PosShare TreeShare) (P p : Strip A 512) (w : Nat)
    (ho : p.o = P.o + w) (hw : w + p.n ≤ P.n) (g : Buf (Elt F) (v.loc (c : Thread nD τ))) :
    ptBand v c q g (P.o + w) p.n ⊢ held (F := F) (p.of v) c q (subRows w p.n hw ((P.of v).read (Elt F) g)) := by
  rw [← read_strip v P p w ho hw g]
  exact ptBand_held p v c q g _ ho

theorem read_slice_off_congr {κ : Kind} {Val : EltTy → Type} {s : Shape} (v : View sig κ sp s e) {off off' : Fin s.rank → Nat}
    (h : off = off') (size : Fin s.rank → Nat) (p : ∀ a, off a + size a ≤ s.size a) (p' : ∀ a, off' a + size a ≤ s.size a)
    (f : v.ty.Contents Val) :
    (v.slice (Rect.unit off size p)).read Val f = (v.slice (Rect.unit off' size p')).read Val f := by
  subst h; rfl

/-- Three consecutive pieces held at their values are the parent held at a value whose rows are theirs. -/
theorem join3 (v : View sig .tc sp ⟨2, ![A, 512]⟩ e) (c : Dev nD) (q : PosShare TreeShare) (P p0 p1 p2 : Strip A 512)
    (a0 : p0.o = P.o) (a1 : p1.o = P.o + p0.n) (a2 : p2.o = P.o + (p0.n + p1.n)) (hN : P.n = p0.n + (p1.n + p2.n))
    (x0 : (⟨2, ![p0.n, 512]⟩ : Shape).Idx → Elt F e) (x1 : (⟨2, ![p1.n, 512]⟩ : Shape).Idx → Elt F e)
    (x2 : (⟨2, ![p2.n, 512]⟩ : Shape).Idx → Elt F e) :
    iprop(held (F := F) (p0.of v) c q x0 ∗ held (F := F) (p1.of v) c q x1 ∗ held (F := F) (p2.of v) c q x2)
      ⊢ iprop(∃ X : (⟨2, ![P.n, 512]⟩ : Shape).Idx → Elt F e,
          ⌜subRows 0 p0.n (by omega) X = x0 ∧ subRows p0.n p1.n (by omega) X = x1
            ∧ subRows (p0.n + p1.n) p2.n (by omega) X = x2⌝ ∗ held (F := F) (P.of v) c q X) := by
  iintro ⟨A0, A1, A2⟩
  ihave B0 := held_strip p0 v c q x0 _ a0 $$ A0
  icases B0 with ⟨%f0, P0, %r0⟩
  ihave B1 := held_strip p1 v c q x1 _ a1 $$ A1
  icases B1 with ⟨%f1, P1, %r1⟩
  ihave B2 := held_strip p2 v c q x2 _ a2 $$ A2
  icases B2 with ⟨%f2, P2, %r2⟩
  have J := ptBandsL_join (F := F) v c q [(p0.n, f0), (p1.n, f1), (p2.n, f2)] P.o (List.cons_ne_nil _ _)
  simp only [ptBandsL, agreeL, List.map, List.sum_cons, List.sum_nil, Nat.add_assoc, Nat.add_zero, ← hN] at J
  ihave G := J $$ [P0 P1 P2]
  · iframe
  icases G with ⟨%g, HG, %hg⟩
  iexists (P.of v).read (Elt F) g
  isplitr
  · ipureintro
    exact ⟨sub_agree v P p0 0 a0 _ hg.1 r0, sub_agree v P p1 _ a1 _ hg.2.1 r1, sub_agree v P p2 _ a2 _ hg.2.2.1 r2⟩
  · iapply ptBand_held P v c q g _ rfl
    iexact HG

/-- Conversely, the parent held at a value gives each piece held at the value's rows. -/
theorem unjoin3 (v : View sig .tc sp ⟨2, ![A, 512]⟩ e) (c : Dev nD) (q : PosShare TreeShare) (P p0 p1 p2 : Strip A 512)
    (a0 : p0.o = P.o) (a1 : p1.o = P.o + p0.n) (a2 : p2.o = P.o + (p0.n + p1.n)) (hN : P.n = p0.n + (p1.n + p2.n))
    (X : (⟨2, ![P.n, 512]⟩ : Shape).Idx → Elt F e) :
    held (F := F) (P.of v) c q X
      ⊢ iprop(held (F := F) (p0.of v) c q (subRows 0 p0.n (by omega) X)
        ∗ held (F := F) (p1.of v) c q (subRows p0.n p1.n (by omega) X)
        ∗ held (F := F) (p2.of v) c q (subRows (p0.n + p1.n) p2.n (by omega) X)) := by
  iintro H
  ihave H' := held_strip P v c q X _ rfl $$ H
  icases H' with ⟨%g, HG, %hg⟩
  subst hg
  have S := (ptBands_eq v c q g [p0.n, p1.n, p2.n] P.o).1
  simp only [ptBands, List.sum_cons, List.sum_nil, Nat.add_assoc, Nat.add_zero, ← hN] at S
  iapply (S.trans <| BIClass.sep_mono (ptBand_sub v c q P p0 0 a0 _ g) <|
    BIClass.sep_mono (ptBand_sub v c q P p1 _ a1 _ g) (ptBand_sub v c q P p2 _ a2 _ g))
  iexact HG

end Tools

section OvTiles
variable {sp : Space} {A B : Nat} {e : EltTy}

theorem univ_ptBand (v : View sig .tc sp ⟨2, ![A, B]⟩ e) (hv : v.set = Finset.univ) (c : Dev nD) (q : PosShare TreeShare)
    (f : Buf (Elt F) (v.loc (c : Thread nD τ))) :
    (v.loc (c : Thread nD τ) ↦{q} f : sProp 𝕄) = ptBand v c q f 0 A := by
  have h := whole_ptBand (F := F) v c q f
  rw [hv] at h
  exact h

theorem any_halves (v : View sig .tc sp ⟨2, ![512, B]⟩ e) (c : Dev nD) (q : PosShare TreeShare) (s : Nat) (hs : s < 2) :
    anyBand (F := F) v c q 0 512
      ⊣⊢ iprop(anyBand (F := F) v c q (256 * s) 256 ∗ anyBand (F := F) v c q (256 * (1 - s)) 256) := by
  have h := anyBand_split (F := F) v c q 0 256 256
  rcases (by omega : s = 0 ∨ s = 1) with rfl | rfl
  · exact h
  · exact h.trans sep_comm

theorem any_half_own (v : View sig .tc sp ⟨2, ![A, B]⟩ e) (c : Dev nD) (q : PosShare TreeShare) (o : Nat) :
    anyBand (F := F) v c q o 256
      ⊣⊢ iprop(anyBand (F := F) v c q (o + 0) 48 ∗ anyBand (F := F) v c q (o + 48) 40 ∗ anyBand (F := F) v c q (o + 88) 16
        ∗ anyBand (F := F) v c q (o + 104) 24 ∗ anyBand (F := F) v c q (o + 128) 48 ∗ anyBand (F := F) v c q (o + 176) 40
        ∗ anyBand (F := F) v c q (o + 216) 16 ∗ anyBand (F := F) v c q (o + 232) 24) := by
  have h := anyBands_eq (F := F) v c q [48, 40, 16, 24, 48, 40, 16, 24] o
  simp only [anyBands, Nat.add_assoc, Nat.reduceAdd] at h
  exact h

theorem any_half_other (v : View sig .tc sp ⟨2, ![A, B]⟩ e) (c : Dev nD) (q : PosShare TreeShare) (o : Nat) :
    anyBand (F := F) v c q o 256
      ⊣⊢ iprop(anyBand (F := F) v c q o 104 ∗ anyBand (F := F) v c q (o + 104) 24 ∗ anyBand (F := F) v c q (o + 128) 104
        ∗ anyBand (F := F) v c q (o + 232) 24) := by
  have h := anyBands_eq (F := F) v c q [104, 24, 104, 24] o
  simp only [anyBands, Nat.add_assoc, Nat.reduceAdd] at h
  exact h

theorem any_three (v : View sig .tc sp ⟨2, ![A, B]⟩ e) (c : Dev nD) (q : PosShare TreeShare) (o : Nat) :
    anyBand (F := F) v c q o 104
      ⊣⊢ iprop(anyBand (F := F) v c q (o + 0) 48 ∗ anyBand (F := F) v c q (o + 48) 40 ∗ anyBand (F := F) v c q (o + 88) 16) := by
  have h := anyBands_eq (F := F) v c q [48, 40, 16] o
  simp only [anyBands, Nat.add_assoc, Nat.reduceAdd] at h
  exact h

/-- The 512 rows are the eight chunks of one half, in row order, and the four pieces of the other half. -/
theorem any_tiles (v : View sig .tc sp ⟨2, ![512, B]⟩ e) (c : Dev nD) (q : PosShare TreeShare) (s : Nat) (hs : s < 2) :
    anyBand (F := F) v c q 0 512
      ⊣⊢ iprop((anyBand (F := F) v c q (256 * s + 0) 48 ∗ anyBand (F := F) v c q (256 * s + 48) 40
          ∗ anyBand (F := F) v c q (256 * s + 88) 16 ∗ anyBand (F := F) v c q (256 * s + 104) 24
          ∗ anyBand (F := F) v c q (256 * s + 128) 48 ∗ anyBand (F := F) v c q (256 * s + 176) 40
          ∗ anyBand (F := F) v c q (256 * s + 216) 16 ∗ anyBand (F := F) v c q (256 * s + 232) 24)
        ∗ (anyBand (F := F) v c q (256 * (1 - s)) 104 ∗ anyBand (F := F) v c q (256 * (1 - s) + 104) 24
          ∗ anyBand (F := F) v c q (256 * (1 - s) + 128) 104 ∗ anyBand (F := F) v c q (256 * (1 - s) + 232) 24)) :=
  (any_halves v c q s hs).trans (sep_congr (any_half_own v c q _) (any_half_other v c q _))

end OvTiles

section OvSplit

theorem ov_split (c : Dev nD) (f : Buf (Elt F) (ovM.view.loc (c : Thread nD τ))) :
    (ovM.view.loc (c : Thread nD τ) ↦{fullShare} f : sProp 𝕄)
      ⊢ iprop(heldAny (F := F) (ovO3 c).view c fullShare
      ∗ heldAny (F := F) (ovO4 c).view c fullShare
      ∗ heldAny (F := F) (ovSl0 c).view c fullShare
      ∗ heldAny (F := F) (ovSl1 c).view c fullShare
      ∗ heldAny (F := F) (ovSl2 c).view c fullShare
      ∗ heldAny (F := F) (ovSl3 c).view c fullShare
      ∗ heldAny (F := F) (ovSl4 c).view c fullShare
      ∗ heldAny (F := F) (ovSl5 c).view c fullShare
      ∗ heldAny (F := F) (ovSl6 c).view c fullShare
      ∗ heldAny (F := F) (ovSl7 c).view c fullShare
      ∗ heldAny (F := F) (ovSl8 c).view c fullShare
      ∗ heldAny (F := F) (ovSl9 c).view c fullShare) := by
  rw [heldAny_strip (spO3 c), heldAny_strip (spO4 c), heldAny_strip (sp0 c), heldAny_strip (sp1 c), heldAny_strip (sp2 c), heldAny_strip (sp3 c), heldAny_strip (sp4 c), heldAny_strip (sp5 c), heldAny_strip (sp6 c), heldAny_strip (sp7 c), heldAny_strip (sp8 c), heldAny_strip (sp9 c),
    univ_ptBand ovM.view (View.set_whole _) c fullShare f]
  refine (ptBand_any ovM.view c fullShare f 0 512).trans ((any_tiles ovM.view c fullShare (sOf c) (sOf_lt c)).1.trans ?_)
  iintro ⟨⟨H0, H2, H4, H6, H1, H3, H5, H7⟩, HO3, H8, HO4, H9⟩
  iframe

end OvSplit

section OvNeighbour

theorem ovO3_split (d : Dev nD) :
    heldAny (F := F) (ovO3 (yp d)).view (yp d) fullShare
      ⊢ iprop(heldAny (F := F) (ovSl0 d).view (yp d) fullShare ∗ heldAny (F := F) (ovSl2 d).view (yp d) fullShare
        ∗ heldAny (F := F) (ovSl4 d).view (yp d) fullShare) := by
  rw [heldAny_strip (spO3 (yp d)), heldAny_strip (sp0 d), heldAny_strip (sp2 d), heldAny_strip (sp4 d)]
  have e : 256 * (1 - sOf (yp d)) = 256 * sOf d := by rw [sOf_yp]; have := sOf_lt d; omega
  change anyBand ovM.view (yp d) fullShare (256 * (1 - sOf (yp d))) 104 ⊢ _
  rw [e]
  exact (any_three ovM.view (yp d) fullShare _).1

theorem ovO4_split (d : Dev nD) :
    heldAny (F := F) (ovO4 (zp d)).view (zp d) fullShare
      ⊢ iprop(heldAny (F := F) (ovSl1 d).view (zp d) fullShare ∗ heldAny (F := F) (ovSl3 d).view (zp d) fullShare
        ∗ heldAny (F := F) (ovSl5 d).view (zp d) fullShare) := by
  rw [heldAny_strip (spO4 (zp d)), heldAny_strip (sp1 d), heldAny_strip (sp3 d), heldAny_strip (sp5 d)]
  have e : 256 * (1 - sOf (zp d)) + 128 = 256 * sOf d + 128 := by rw [sOf_zp]; have := sOf_lt d; omega
  change anyBand ovM.view (zp d) fullShare (256 * (1 - sOf (zp d)) + 128) 104 ⊢ _
  rw [e]
  have h := any_three (F := F) ovM.view (zp d) fullShare (256 * sOf d + 128)
  simp only [Nat.add_assoc, Nat.reduceAdd] at h
  exact h.1

end OvNeighbour

section Landing

abbrev cmSp (o n : Nat) (h : ∀ a, (![o, 0] : Fin 2 → Nat) a + (![n, 512] : Fin 2 → Nat) a ≤ S304x512.size a) : Strip 304 512 :=
  ⟨_, o, n, rfl, h⟩

theorem heldAny_cm (d : Dev nD) (q : PosShare TreeShare) :
    heldAny (F := F) cmM.view d q = anyBand (F := F) cmM.view d q 0 304 := by
  unfold heldAny anyBand ptBand; rw [set_eq_bandSet]

theorem cm_pieces (d : Dev nD) (q : PosShare TreeShare) :
    heldAny (F := F) cmM.view d q
      ⊣⊢ iprop(heldAny (F := F) cmSl0.view d q
        ∗ heldAny (F := F) cmSl1.view d q
        ∗ heldAny (F := F) cmSl2.view d q
        ∗ heldAny (F := F) cmSl3.view d q
        ∗ heldAny (F := F) cmSl4.view d q
        ∗ heldAny (F := F) cmSl5.view d q
        ∗ heldAny (F := F) cmSl6.view d q
        ∗ heldAny (F := F) cmSl7.view d q
        ∗ heldAny (F := F) cmSl8.view d q
        ∗ heldAny (F := F) cmSl9.view d q) := by
  rw [heldAny_cm, heldAny_strip (cmSp 0 48 inb_S304x512_S48x512_0_0),
    heldAny_strip (cmSp 48 48 inb_S304x512_S48x512_48_0),
    heldAny_strip (cmSp 96 40 inb_S304x512_S40x512_96_0),
    heldAny_strip (cmSp 136 40 inb_S304x512_S40x512_136_0),
    heldAny_strip (cmSp 176 16 inb_S304x512_S16x512_176_0),
    heldAny_strip (cmSp 192 16 inb_S304x512_S16x512_192_0),
    heldAny_strip (cmSp 208 24 inb_S304x512_S24x512_208_0),
    heldAny_strip (cmSp 232 24 inb_S304x512_S24x512_232_0),
    heldAny_strip (cmSp 256 24 inb_S304x512_S24x512_256_0),
    heldAny_strip (cmSp 280 24 inb_S304x512_S24x512_280_0)]
  have h := anyBands_eq (F := F) cmM.view d q [48, 48, 40, 40, 16, 16, 24, 24, 24, 24] 0
  simp only [anyBands, Nat.add_assoc, Nat.reduceAdd, Nat.zero_add] at h
  exact h

theorem cm_split (d : Dev nD) :
    heldAny (F := F) cmM.view d fullShare
      ⊢ iprop(heldAny (F := F) cmSl0.view d fullShare
        ∗ heldAny (F := F) cmSl1.view d fullShare
        ∗ heldAny (F := F) cmSl2.view d fullShare
        ∗ heldAny (F := F) cmSl3.view d fullShare
        ∗ heldAny (F := F) cmSl4.view d fullShare
        ∗ heldAny (F := F) cmSl5.view d fullShare
        ∗ heldAny (F := F) cmSl6.view d fullShare
        ∗ heldAny (F := F) cmSl7.view d fullShare
        ∗ heldAny (F := F) cmSl8.view d fullShare
        ∗ heldAny (F := F) cmSl9.view d fullShare) := (cm_pieces d fullShare).1

end Landing

section Shares
variable {sp : Space} {s : Shape} {e : EltTy}

/-- Both halves of a share see the same contents on the view's elements, so the value is shared. -/
theorem held_share (v : View sig .tc sp s e) (c : Dev nD) (q : PosShare TreeShare) (x : s.Idx → Elt F e) :
    held (F := F) v c q x ⊣⊢ iprop(held (F := F) v c q.left x ∗ held (F := F) v c q.right x) := by
  constructor
  · unfold held
    iintro ⟨%f, H, %hf⟩
    ihave H' := (pointsTo_share (PosShare.mem_left_op_right q)).1 $$ H
    icases H' with ⟨H1, H2⟩
    isplitl [H1]
    · iexists f; isplitl [H1]; · iexact H1
      ipureintro; exact hf
    · iexists f; isplitl [H2]; · iexact H2
      ipureintro; exact hf
  · unfold held
    iintro ⟨⟨%f, H1, %hf⟩, ⟨%g, H2, %hg⟩⟩
    have eg : (v.loc (c : Thread nD τ) ↦[v.set]{q.right} g : sProp 𝕄) = (v.loc (c : Thread nD τ) ↦[v.set]{q.right} f) :=
      pointsTo_congr (eqOn_set_of_read_eq v (hg.trans hf.symm))
    ihave H2' := (Entails.of_eq eg) $$ H2
    iexists f
    isplitl [H1 H2']
    · iapply (pointsTo_share (PosShare.mem_left_op_right q)).2
      isplitl [H1]; · iexact H1
      iexact H2'
    · ipureintro; exact hf

theorem held_full_split (v : View sig .tc sp s e) (c : Dev nD) (x : s.Idx → Elt F e) :
    held (F := F) v c fullShare x ⊢ iprop(held (F := F) v c fullShare.left x ∗ held (F := F) v c fullShare.right x) :=
  (held_share v c fullShare x).1

theorem held_full_join (v : View sig .tc sp s e) (c : Dev nD) (x : s.Idx → Elt F e) :
    iprop(held (F := F) v c fullShare.left x ∗ held (F := F) v c fullShare.right x) ⊢ held (F := F) v c fullShare x :=
  (held_share v c fullShare x).2

end Shares

section Joins
variable {sp : Space} {A B : Nat} {e : EltTy}

theorem anyBand_whole (v : View sig .tc sp ⟨2, ![A, B]⟩ e) (hv : v.set = Finset.univ) (c : Dev nD) (q : PosShare TreeShare) :
    anyBand (F := F) v c q 0 A ⊢ iprop(∃ f : Buf (Elt F) (v.loc (c : Thread nD τ)), (v.loc (c : Thread nD τ) ↦{q} f : sProp 𝕄)) := by
  unfold anyBand
  exact exists_mono fun f => Entails.of_eq (univ_ptBand v hv c q f).symm

theorem out_split_set (c : Dev nD) (f : Buf (Elt F) (outM.view.loc (c : Thread nD τ))) :
    (outM.view.loc (c : Thread nD τ) ↦[outM.view.set]{fullShare} f : sProp 𝕄)
      ⊢ iprop(heldAny (F := F) (outO1 c).view c fullShare ∗ heldAny (F := F) (outO2a c).view c fullShare
        ∗ heldAny (F := F) (outO2b c).view c fullShare ∗ heldAny (F := F) (outO3 c).view c fullShare
        ∗ heldAny (F := F) (outO4 c).view c fullShare) := by
  rw [heldAny_strip (spO1 c), heldAny_strip (sp8 c), heldAny_strip (spO2b c), heldAny_strip (spO3 c), heldAny_strip (spO4 c),
    whole_ptBand outM.view c fullShare f]
  refine (ptBand_any outM.view c fullShare f 0 512).trans (((any_halves outM.view c fullShare (sOf c) (sOf_lt c)).trans
    (sep_congr_right (any_half_other outM.view c fullShare _))).1.trans ?_)
  iintro ⟨H1, H3, H2a, H4, H2b⟩
  iframe

theorem cm_join_whole (c : Dev nD) :
    iprop(heldAny (F := F) cmSl0.view c fullShare
        ∗ heldAny (F := F) cmSl1.view c fullShare
        ∗ heldAny (F := F) cmSl2.view c fullShare
        ∗ heldAny (F := F) cmSl3.view c fullShare
        ∗ heldAny (F := F) cmSl4.view c fullShare
        ∗ heldAny (F := F) cmSl5.view c fullShare
        ∗ heldAny (F := F) cmSl6.view c fullShare
        ∗ heldAny (F := F) cmSl7.view c fullShare
        ∗ heldAny (F := F) cmSl8.view c fullShare
        ∗ heldAny (F := F) cmSl9.view c fullShare)
      ⊢ iprop(∃ f : Buf (Elt F) ((c : Thread nD τ).loc cc0_scratch4), ((c : Thread nD τ).loc cc0_scratch4 ↦{fullShare} f : sProp 𝕄)) := by
  refine (cm_pieces c fullShare).2.trans ?_
  rw [heldAny_cm]
  exact anyBand_whole cmM.view (View.set_whole _) c fullShare

theorem ov_join (c : Dev nD) :
    iprop(heldAny (F := F) (ovSl0 c).view c fullShare
        ∗ heldAny (F := F) (ovSl1 c).view c fullShare
        ∗ heldAny (F := F) (ovSl2 c).view c fullShare
        ∗ heldAny (F := F) (ovSl3 c).view c fullShare
        ∗ heldAny (F := F) (ovSl4 c).view c fullShare
        ∗ heldAny (F := F) (ovSl5 c).view c fullShare
        ∗ heldAny (F := F) (ovSl6 c).view c fullShare
        ∗ heldAny (F := F) (ovSl7 c).view c fullShare
        ∗ heldAny (F := F) (ovSl8 c).view c fullShare
        ∗ heldAny (F := F) (ovSl9 c).view c fullShare
        ∗ heldAny (F := F) (ovSl0 (yp c)).view c fullShare ∗ heldAny (F := F) (ovSl1 (zp c)).view c fullShare
        ∗ heldAny (F := F) (ovSl2 (yp c)).view c fullShare ∗ heldAny (F := F) (ovSl3 (zp c)).view c fullShare
        ∗ heldAny (F := F) (ovSl4 (yp c)).view c fullShare ∗ heldAny (F := F) (ovSl5 (zp c)).view c fullShare)
      ⊢ iprop(∃ f : Buf (Elt F) ((c : Thread nD τ).loc cc0_scratch3), ((c : Thread nD τ).loc cc0_scratch3 ↦{fullShare} f : sProp 𝕄)) := by
  rw [heldAny_strip (sp0 c), heldAny_strip (sp1 c), heldAny_strip (sp2 c), heldAny_strip (sp3 c), heldAny_strip (sp4 c), heldAny_strip (sp5 c), heldAny_strip (sp6 c), heldAny_strip (sp7 c), heldAny_strip (sp8 c), heldAny_strip (sp9 c),
    heldAny_strip (sp0 (yp c)), heldAny_strip (sp1 (zp c)), heldAny_strip (sp2 (yp c)), heldAny_strip (sp3 (zp c)),
    heldAny_strip (sp4 (yp c)), heldAny_strip (sp5 (zp c))]
  simp only [sp0, sp1, sp2, sp3, sp4, sp5, sOf_yp, sOf_zp]
  have t4 := (any_three (F := F) ovM.view c fullShare (256 * (1 - sOf c) + 128)).2
  simp only [Nat.add_assoc, Nat.reduceAdd] at t4
  have key := (sep_mono_right (BIClass.sep_mono (any_three (F := F) ovM.view c fullShare (256 * (1 - sOf c))).2
      (sep_mono_right (sep_mono_left t4)))).trans
    ((any_tiles ovM.view c fullShare (sOf c) (sOf_lt c)).2.trans (anyBand_whole ovM.view (View.set_whole _) c fullShare))
  iintro ⟨H0, H1, H2, H3, H4, H5, H6, H7, H8, H9, Y0, Z1, Y2, Z3, Y4, Z5⟩
  iapply key
  iframe

end Joins

section PtTiles
variable {sp : Space} {A B : Nat} {e : EltTy}

theorem pt_halves (v : View sig .tc sp ⟨2, ![512, B]⟩ e) (c : Dev nD) (q : PosShare TreeShare)
    (f : Buf (Elt F) (v.loc (c : Thread nD τ))) (s : Nat) (hs : s < 2) :
    ptBand v c q f 0 512 ⊣⊢ iprop(ptBand v c q f (256 * s) 256 ∗ ptBand v c q f (256 * (1 - s)) 256) := by
  have h := ptBand_split v c q f 0 256 256
  rcases (by omega : s = 0 ∨ s = 1) with rfl | rfl
  · exact h
  · exact h.trans sep_comm

theorem held_elim {s : Shape} (v : View sig .tc sp s e) (c : Dev nD) (q : PosShare TreeShare) (x : s.Idx → Elt F e) :
    held (F := F) v c q x
      ⊢ iprop(∃ f : Buf (Elt F) (v.loc (c : Thread nD τ)), (v.loc (c : Thread nD τ) ↦[v.set]{q} f) ∗ ⌜v.read (Elt F) f = x⌝) := by
  unfold held; exact .rfl

end PtTiles

section Snd

theorem sndRest_set (c : Dev nD) :
    sndM.view.set \ ((sndSl0 c).view.set ∪ (sndSl1 c).view.set ∪ (sndSl2 c).view.set ∪ (sndSl3 c).view.set
        ∪ (sndSl4 c).view.set ∪ (sndSl5 c).view.set ∪ (sndSl6 c).view.set ∪ (sndSl7 c).view.set ∪ (sndSl8 c).view.set
        ∪ (sndSl9 c).view.set)
      = bandSet sndM.view (256 * (1 - sOf c)) 104 ∪ bandSet sndM.view (256 * (1 - sOf c) + 128) 104 := by
  have hs := sOf_lt c
  rw [set_eq_bandSet sndM.view, set_strip (sp0 c), set_strip (sp1 c), set_strip (sp2 c), set_strip (sp3 c), set_strip (sp4 c), set_strip (sp5 c), set_strip (sp6 c), set_strip (sp7 c), set_strip (sp8 c), set_strip (sp9 c)]
  unfold bandSet
  simp only [← Finset.map_union, ← Finset.map_sdiff]
  congr 1
  ext i
  simp only [Finset.mem_sdiff, Finset.mem_union, mem_band, sp0, sp1, sp2, sp3, sp4, sp5, sp6, sp7, sp8, sp9]
  omega

theorem sndRest_eq (c : Dev nD) :
    sndRest (F := F) c
      ⊣⊢ iprop(anyBand (F := F) sndM.view c fullShare (256 * (1 - sOf c)) 104
        ∗ anyBand (F := F) sndM.view c fullShare (256 * (1 - sOf c) + 128) 104) := by
  unfold sndRest anyBand ptBand
  rw [sndRest_set c]
  exact any_union _ _ _ fullShare (bandSet_disjoint sndM.view (by omega))

end Snd

section SndSplit

theorem snd_join (c : Dev nD) :
    iprop(heldAny (F := F) (sndSl0 c).view c fullShare
        ∗ heldAny (F := F) (sndSl1 c).view c fullShare
        ∗ heldAny (F := F) (sndSl2 c).view c fullShare
        ∗ heldAny (F := F) (sndSl3 c).view c fullShare
        ∗ heldAny (F := F) (sndSl4 c).view c fullShare
        ∗ heldAny (F := F) (sndSl5 c).view c fullShare
        ∗ heldAny (F := F) (sndSl6 c).view c fullShare
        ∗ heldAny (F := F) (sndSl7 c).view c fullShare
        ∗ heldAny (F := F) (sndSl8 c).view c fullShare
        ∗ heldAny (F := F) (sndSl9 c).view c fullShare
        ∗ sndRest (F := F) c)
      ⊢ iprop(∃ f : Buf (Elt F) ((c : Thread nD τ).loc cc0_scratch0), ((c : Thread nD τ).loc cc0_scratch0 ↦{fullShare} f : sProp 𝕄)) := by
  rw [heldAny_strip (sp0 c), heldAny_strip (sp1 c), heldAny_strip (sp2 c), heldAny_strip (sp3 c), heldAny_strip (sp4 c), heldAny_strip (sp5 c), heldAny_strip (sp6 c), heldAny_strip (sp7 c), heldAny_strip (sp8 c), heldAny_strip (sp9 c)]
  have key := ((any_tiles (F := F) sndM.view c fullShare (sOf c) (sOf_lt c)).2).trans (anyBand_whole sndM.view (View.set_whole _) c fullShare)
  iintro ⟨H0, H1, H2, H3, H4, H5, H6, H7, H8, H9, HR⟩
  ihave HR' := (sndRest_eq (F := F) c).1 $$ HR
  icases HR' with ⟨R1, R2⟩
  iapply key
  iframe

theorem snd_split (c : Dev nD) (X : Buf (Elt F) (sndM.view.loc (c : Thread nD τ))) :
    held (F := F) sndM.view c fullShare X
      ⊢ iprop(held (F := F) (sndSl0 c).view c fullShare ((sndSl0 c).view.read (Elt F) X)
        ∗ held (F := F) (sndSl1 c).view c fullShare ((sndSl1 c).view.read (Elt F) X)
        ∗ held (F := F) (sndSl2 c).view c fullShare ((sndSl2 c).view.read (Elt F) X)
        ∗ held (F := F) (sndSl3 c).view c fullShare ((sndSl3 c).view.read (Elt F) X)
        ∗ held (F := F) (sndSl4 c).view c fullShare ((sndSl4 c).view.read (Elt F) X)
        ∗ held (F := F) (sndSl5 c).view c fullShare ((sndSl5 c).view.read (Elt F) X)
        ∗ held (F := F) (sndSl6 c).view c fullShare ((sndSl6 c).view.read (Elt F) X)
        ∗ held (F := F) (sndSl7 c).view c fullShare ((sndSl7 c).view.read (Elt F) X)
        ∗ held (F := F) (sndSl8 c).view c fullShare ((sndSl8 c).view.read (Elt F) X)
        ∗ held (F := F) (sndSl9 c).view c fullShare ((sndSl9 c).view.read (Elt F) X)
        ∗ sndRest (F := F) c) := by
  iintro Hh
  ihave Hh' := (held_elim (F := F) sndM.view c fullShare X) $$ Hh
  icases Hh' with ⟨%f, H, %hf⟩
  have hfX : f = X := hf
  subst hfX
  ihave H' := (Entails.of_eq (whole_ptBand (F := F) sndM.view c fullShare f)) $$ H
  have S8 := (ptBands_eq (F := F) sndM.view c fullShare f [48, 40, 16, 24, 48, 40, 16, 24] (256 * sOf c + 0)).1
  have S4 := (ptBands_eq (F := F) sndM.view c fullShare f [104, 24, 104, 24] (256 * (1 - sOf c))).1
  simp only [ptBands, List.sum_cons, List.sum_nil, Nat.add_assoc, Nat.reduceAdd] at S8 S4
  ihave T := ((pt_halves sndM.view c fullShare f (sOf c) (sOf_lt c)).1.trans (BIClass.sep_mono S8 S4)) $$ H'
  icases T with ⟨⟨P0, P2, P4, P6, P1, P3, P5, P7⟩, R1, P8, R2, P9⟩
  ihave Q0 := ptBand_held (sp0 c) sndM.view c fullShare f _ rfl $$ P0
  ihave Q1 := ptBand_held (sp1 c) sndM.view c fullShare f _ rfl $$ P1
  ihave Q2 := ptBand_held (sp2 c) sndM.view c fullShare f _ rfl $$ P2
  ihave Q3 := ptBand_held (sp3 c) sndM.view c fullShare f _ rfl $$ P3
  ihave Q4 := ptBand_held (sp4 c) sndM.view c fullShare f _ rfl $$ P4
  ihave Q5 := ptBand_held (sp5 c) sndM.view c fullShare f _ rfl $$ P5
  ihave Q6 := ptBand_held (sp6 c) sndM.view c fullShare f _ rfl $$ P6
  ihave Q7 := ptBand_held (sp7 c) sndM.view c fullShare f _ rfl $$ P7
  ihave Q8 := ptBand_held (sp8 c) sndM.view c fullShare f _ rfl $$ P8
  ihave Q9 := ptBand_held (sp9 c) sndM.view c fullShare f _ rfl $$ P9
  ihave S1 := ptBand_any sndM.view c fullShare f _ _ $$ R1
  ihave S2 := ptBand_any sndM.view c fullShare f _ _ $$ R2
  ihave R := (sndRest_eq (F := F) c).2 $$ [S1 S2]
  · iframe
  iframe

end SndSplit

section Arg0

theorem mem_half3 (off : Fin 3 → Nat) (o : Nat) (hoff : off = ![0, o, 0])
    (inb : ∀ a, off a + S1x512x512.size a ≤ S1x1024x512.size a) (i : S1x1024x512.Idx) :
    i ∈ (Rect.unit (s := S1x1024x512) off S1x512x512.size inb).set ↔ o ≤ (i 1).val ∧ (i 1).val < o + 512 := by
  subst hoff
  rw [Rect.mem_set_unit]
  have h0 : (i 0).val < 1 := (i 0).isLt
  have h2 : (i 2).val < 512 := (i 2).isLt
  constructor
  · intro h; exact h 1
  · intro h a
    match a with
    | ⟨0, _⟩ => exact ⟨Nat.zero_le _, by show (i 0).val < 0 + 1; omega⟩
    | ⟨1, _⟩ => exact h
    | ⟨2, _⟩ => exact ⟨Nat.zero_le _, by show (i 2).val < 0 + 512; omega⟩

theorem srcSend_set (c : Dev nD) :
    (srcSend c).view.set = (Rect.unit (s := S1x1024x512) (k0_off1 c) S1x512x512.size (k0_off1_inb c)).set :=
  (View.set_reshape _ _).trans (View.set_slice_whole _ _)
theorem srcLoc_set (c : Dev nD) :
    (srcLoc c).view.set = (Rect.unit (s := S1x1024x512) (k0_off2 c) S1x512x512.size (k0_off2_inb c)).set :=
  (View.set_reshape _ _).trans (View.set_slice_whole _ _)

theorem src_disjoint (c : Dev nD) : Disjoint (srcSend c).view.set (srcLoc c).view.set := by
  rw [srcSend_set, srcLoc_set, Finset.disjoint_left]
  intro i h1 h2
  rw [mem_half3 _ _ (off1_eq c)] at h1
  rw [mem_half3 _ _ (off2_eq c)] at h2
  have := xOf_lt c
  omega

theorem src_union (c : Dev nD) : (srcSend c).view.set ∪ (srcLoc c).view.set = Finset.univ := by
  rw [srcSend_set, srcLoc_set]
  ext i
  have h1 : (i 1).val < 1024 := (i 1).isLt
  have := xOf_lt c
  simp only [Finset.mem_union, Finset.mem_univ, iff_true, mem_half3 _ _ (off1_eq c), mem_half3 _ _ (off2_eq c)]
  omega

theorem a0_split (c : Dev nD) (A : Buf (Elt F) ((c : Thread nD τ).loc main_arg0)) :
    ((c : Thread nD τ).loc main_arg0 ↦{fullShare} A : sProp 𝕄)
      ⊣⊢ iprop(((srcSend c).view.loc (c : Thread nD τ) ↦[(srcSend c).view.set]{fullShare} A)
        ∗ ((srcLoc c).view.loc (c : Thread nD τ) ↦[(srcLoc c).view.set]{fullShare} A)) := by
  have h : ((c : Thread nD τ).loc main_arg0 ↦[(srcSend c).view.set ∪ (srcLoc c).view.set]{fullShare} A : sProp 𝕄)
      ⊣⊢ iprop(((c : Thread nD τ).loc main_arg0 ↦[(srcSend c).view.set]{fullShare} A)
        ∗ ((c : Thread nD τ).loc main_arg0 ↦[(srcLoc c).view.set]{fullShare} A)) := pointsTo_union (src_disjoint c)
  rw [src_union c] at h
  exact h

theorem a0_join (c : Dev nD) (A : Buf (Elt F) ((c : Thread nD τ).loc main_arg0)) :
    iprop(((srcSend c).view.loc (c : Thread nD τ) ↦[(srcSend c).view.set]{fullShare} A)
        ∗ ((srcLoc c).view.loc (c : Thread nD τ) ↦[(srcLoc c).view.set]{fullShare} A))
      ⊢ ((c : Thread nD τ).loc main_arg0 ↦{fullShare} A : sProp 𝕄) := (a0_split c A).2

end Arg0

section OvValues

theorem yp_row (c : Dev nD) (k : Nat) : 256 * sOf (yp c) + k = 256 * (1 - sOf c) + k := by rw [sOf_yp]
theorem zp_row (c : Dev nD) (k : Nat) : 256 * sOf (zp c) + k = 256 * (1 - sOf c) + k := by rw [sOf_zp]

def O1Rows (c : Dev nD) (X : S256x512.Idx → Elt F .f32) (v0 : S48x512.Idx → Elt F .f32) (v2 : S40x512.Idx → Elt F .f32) (v4 : S16x512.Idx → Elt F .f32) (v6 : S24x512.Idx → Elt F .f32) (v1 : S48x512.Idx → Elt F .f32) (v3 : S40x512.Idx → Elt F .f32) (v5 : S16x512.Idx → Elt F .f32) (v7 : S24x512.Idx → Elt F .f32) : Prop :=
  subRows 0 48 (by omega) X = v0
    ∧ subRows 48 40 (by omega) X = v2
    ∧ subRows 88 16 (by omega) X = v4
    ∧ subRows 104 24 (by omega) X = v6
    ∧ subRows 128 48 (by omega) X = v1
    ∧ subRows 176 40 (by omega) X = v3
    ∧ subRows 216 16 (by omega) X = v5
    ∧ subRows 232 24 (by omega) X = v7

theorem ovO1_join (c : Dev nD) (q : PosShare TreeShare) (v0 : S48x512.Idx → Elt F .f32) (v2 : S40x512.Idx → Elt F .f32) (v4 : S16x512.Idx → Elt F .f32) (v6 : S24x512.Idx → Elt F .f32) (v1 : S48x512.Idx → Elt F .f32) (v3 : S40x512.Idx → Elt F .f32) (v5 : S16x512.Idx → Elt F .f32) (v7 : S24x512.Idx → Elt F .f32) :
    iprop(held (F := F) (ovSl0 c).view c q v0
        ∗ held (F := F) (ovSl2 c).view c q v2
        ∗ held (F := F) (ovSl4 c).view c q v4
        ∗ held (F := F) (ovSl6 c).view c q v6
        ∗ held (F := F) (ovSl1 c).view c q v1
        ∗ held (F := F) (ovSl3 c).view c q v3
        ∗ held (F := F) (ovSl5 c).view c q v5
        ∗ held (F := F) (ovSl7 c).view c q v7)
      ⊢ iprop(∃ X : S256x512.Idx → Elt F .f32, ⌜O1Rows (F := F) c X v0 v2 v4 v6 v1 v3 v5 v7⌝ ∗ held (F := F) (ovO1 c).view c q X) := by
  iintro ⟨A0, A2, A4, A6, A1, A3, A5, A7⟩
  ihave B0 := held_strip (sp0 c) ovM.view c q v0 _ rfl $$ A0
  icases B0 with ⟨%f0, P0, %h0⟩
  ihave B2 := held_strip (sp2 c) ovM.view c q v2 _ rfl $$ A2
  icases B2 with ⟨%f2, P2, %h2⟩
  ihave B4 := held_strip (sp4 c) ovM.view c q v4 _ rfl $$ A4
  icases B4 with ⟨%f4, P4, %h4⟩
  ihave B6 := held_strip (sp6 c) ovM.view c q v6 _ rfl $$ A6
  icases B6 with ⟨%f6, P6, %h6⟩
  ihave B1 := held_strip (sp1 c) ovM.view c q v1 _ rfl $$ A1
  icases B1 with ⟨%f1, P1, %h1⟩
  ihave B3 := held_strip (sp3 c) ovM.view c q v3 _ rfl $$ A3
  icases B3 with ⟨%f3, P3, %h3⟩
  ihave B5 := held_strip (sp5 c) ovM.view c q v5 _ rfl $$ A5
  icases B5 with ⟨%f5, P5, %h5⟩
  ihave B7 := held_strip (sp7 c) ovM.view c q v7 _ rfl $$ A7
  icases B7 with ⟨%f7, P7, %h7⟩
  have J := ptBandsL_join (F := F) ovM.view c q [(48, f0), (40, f2), (16, f4), (24, f6), (48, f1), (40, f3), (16, f5), (24, f7)] (256 * sOf c + 0) (List.cons_ne_nil _ _)
  simp only [ptBandsL, agreeL, List.map, List.sum_cons, List.sum_nil, Nat.add_assoc, Nat.reduceAdd] at J
  ihave G := J $$ [P0 P2 P4 P6 P1 P3 P5 P7]
  · iframe
  icases G with ⟨%g, HG, %hg⟩
  iexists (ovO1 c).view.read (Elt F) g
  isplitr
  · ipureintro
    obtain ⟨g0, g2, g4, g6, g1, g3, g5, g7, -⟩ := hg
    exact ⟨sub_agree ovM.view (spO1 c) (sp0 c) 0 rfl _ g0 h0,
      sub_agree ovM.view (spO1 c) (sp2 c) 48 rfl _ g2 h2,
      sub_agree ovM.view (spO1 c) (sp4 c) 88 rfl _ g4 h4,
      sub_agree ovM.view (spO1 c) (sp6 c) 104 rfl _ g6 h6,
      sub_agree ovM.view (spO1 c) (sp1 c) 128 rfl _ g1 h1,
      sub_agree ovM.view (spO1 c) (sp3 c) 176 rfl _ g3 h3,
      sub_agree ovM.view (spO1 c) (sp5 c) 216 rfl _ g5 h5,
      sub_agree ovM.view (spO1 c) (sp7 c) 232 rfl _ g7 h7⟩
  · iapply ptBand_held (spO1 c) ovM.view c q g _ rfl
    iexact HG

theorem ovO1_unjoin (c : Dev nD) (q : PosShare TreeShare) (X : S256x512.Idx → Elt F .f32) (v0 : S48x512.Idx → Elt F .f32) (v2 : S40x512.Idx → Elt F .f32) (v4 : S16x512.Idx → Elt F .f32) (v6 : S24x512.Idx → Elt F .f32) (v1 : S48x512.Idx → Elt F .f32) (v3 : S40x512.Idx → Elt F .f32) (v5 : S16x512.Idx → Elt F .f32) (v7 : S24x512.Idx → Elt F .f32)
    (h : O1Rows (F := F) c X v0 v2 v4 v6 v1 v3 v5 v7) :
    held (F := F) (ovO1 c).view c q X
      ⊢ iprop(held (F := F) (ovSl0 c).view c q v0
        ∗ held (F := F) (ovSl2 c).view c q v2
        ∗ held (F := F) (ovSl4 c).view c q v4
        ∗ held (F := F) (ovSl6 c).view c q v6
        ∗ held (F := F) (ovSl1 c).view c q v1
        ∗ held (F := F) (ovSl3 c).view c q v3
        ∗ held (F := F) (ovSl5 c).view c q v5
        ∗ held (F := F) (ovSl7 c).view c q v7) := by
  obtain ⟨rfl, rfl, rfl, rfl, rfl, rfl, rfl, rfl⟩ := h
  iintro H
  ihave H' := held_strip (spO1 c) ovM.view c q X _ rfl $$ H
  icases H' with ⟨%g, HG, %hg⟩
  subst hg
  have S := (ptBands_eq (F := F) ovM.view c q g [48, 40, 16, 24, 48, 40, 16, 24] (256 * sOf c)).1
  simp only [ptBands, List.sum_cons, List.sum_nil, Nat.add_assoc, Nat.reduceAdd] at S
  iapply (S.trans <| BIClass.sep_mono (ptBand_sub ovM.view c q (spO1 c) (sp0 c) 0 rfl _ g) <|
    BIClass.sep_mono (ptBand_sub ovM.view c q (spO1 c) (sp2 c) 48 rfl _ g) <|
    BIClass.sep_mono (ptBand_sub ovM.view c q (spO1 c) (sp4 c) 88 rfl _ g) <|
    BIClass.sep_mono (ptBand_sub ovM.view c q (spO1 c) (sp6 c) 104 rfl _ g) <|
    BIClass.sep_mono (ptBand_sub ovM.view c q (spO1 c) (sp1 c) 128 rfl _ g) <|
    BIClass.sep_mono (ptBand_sub ovM.view c q (spO1 c) (sp3 c) 176 rfl _ g) <|
    BIClass.sep_mono (ptBand_sub ovM.view c q (spO1 c) (sp5 c) 216 rfl _ g) <|
    ptBand_sub ovM.view c q (spO1 c) (sp7 c) 232 rfl _ g)
  iexact HG

def O3Rows (c : Dev nD) (X : S104x512.Idx → Elt F .f32) (v0 : S48x512.Idx → Elt F .f32) (v2 : S40x512.Idx → Elt F .f32) (v4 : S16x512.Idx → Elt F .f32) : Prop :=
  subRows 0 48 (by omega) X = v0
    ∧ subRows 48 40 (by omega) X = v2
    ∧ subRows 88 16 (by omega) X = v4

theorem ovO3_join (c : Dev nD) (q : PosShare TreeShare) (v0 : S48x512.Idx → Elt F .f32) (v2 : S40x512.Idx → Elt F .f32) (v4 : S16x512.Idx → Elt F .f32) :
    iprop(held (F := F) (ovSl0 (yp c)).view c q v0
        ∗ held (F := F) (ovSl2 (yp c)).view c q v2
        ∗ held (F := F) (ovSl4 (yp c)).view c q v4)
      ⊢ iprop(∃ X : S104x512.Idx → Elt F .f32, ⌜O3Rows (F := F) c X v0 v2 v4⌝ ∗ held (F := F) (ovO3 c).view c q X) :=
  join3 ovM.view c q (spO3 c) (sp0 (yp c)) (sp2 (yp c)) (sp4 (yp c)) (yp_row c 0) (yp_row c 48) (yp_row c 88) rfl v0 v2 v4

theorem ovO3_unjoin (c : Dev nD) (q : PosShare TreeShare) (X : S104x512.Idx → Elt F .f32) (v0 : S48x512.Idx → Elt F .f32) (v2 : S40x512.Idx → Elt F .f32) (v4 : S16x512.Idx → Elt F .f32)
    (h : O3Rows (F := F) c X v0 v2 v4) :
    held (F := F) (ovO3 c).view c q X
      ⊢ iprop(held (F := F) (ovSl0 (yp c)).view c q v0
        ∗ held (F := F) (ovSl2 (yp c)).view c q v2
        ∗ held (F := F) (ovSl4 (yp c)).view c q v4) := by
  obtain ⟨rfl, rfl, rfl⟩ := h
  exact unjoin3 ovM.view c q (spO3 c) (sp0 (yp c)) (sp2 (yp c)) (sp4 (yp c)) (yp_row c 0) (yp_row c 48) (yp_row c 88) rfl X

def O4Rows (c : Dev nD) (X : S104x512.Idx → Elt F .f32) (v1 : S48x512.Idx → Elt F .f32) (v3 : S40x512.Idx → Elt F .f32) (v5 : S16x512.Idx → Elt F .f32) : Prop :=
  subRows 0 48 (by omega) X = v1
    ∧ subRows 48 40 (by omega) X = v3
    ∧ subRows 88 16 (by omega) X = v5

theorem ovO4_join (c : Dev nD) (q : PosShare TreeShare) (v1 : S48x512.Idx → Elt F .f32) (v3 : S40x512.Idx → Elt F .f32) (v5 : S16x512.Idx → Elt F .f32) :
    iprop(held (F := F) (ovSl1 (zp c)).view c q v1
        ∗ held (F := F) (ovSl3 (zp c)).view c q v3
        ∗ held (F := F) (ovSl5 (zp c)).view c q v5)
      ⊢ iprop(∃ X : S104x512.Idx → Elt F .f32, ⌜O4Rows (F := F) c X v1 v3 v5⌝ ∗ held (F := F) (ovO4 c).view c q X) :=
  join3 ovM.view c q (spO4 c) (sp1 (zp c)) (sp3 (zp c)) (sp5 (zp c)) (zp_row c 128) (zp_row c 176) (zp_row c 216) rfl v1 v3 v5

theorem ovO4_unjoin (c : Dev nD) (q : PosShare TreeShare) (X : S104x512.Idx → Elt F .f32) (v1 : S48x512.Idx → Elt F .f32) (v3 : S40x512.Idx → Elt F .f32) (v5 : S16x512.Idx → Elt F .f32)
    (h : O4Rows (F := F) c X v1 v3 v5) :
    held (F := F) (ovO4 c).view c q X
      ⊢ iprop(held (F := F) (ovSl1 (zp c)).view c q v1
        ∗ held (F := F) (ovSl3 (zp c)).view c q v3
        ∗ held (F := F) (ovSl5 (zp c)).view c q v5) := by
  obtain ⟨rfl, rfl, rfl⟩ := h
  exact unjoin3 ovM.view c q (spO4 c) (sp1 (zp c)) (sp3 (zp c)) (sp5 (zp c)) (zp_row c 128) (zp_row c 176) (zp_row c 216) rfl X

end OvValues

section OutJoin
variable {sp : Space} {B : Nat} {e : EltTy}

theorem pt_halves_join (v : View sig .tc sp ⟨2, ![512, B]⟩ e) (c : Dev nD) (q : PosShare TreeShare)
    (f₁ g₂ : Buf (Elt F) (v.loc (c : Thread nD τ))) (s : Nat) (hs : s < 2) :
    iprop(ptBand v c q f₁ (256 * s) 256 ∗ ptBand v c q g₂ (256 * (1 - s)) 256)
      ⊢ iprop(∃ g : Buf (Elt F) (v.loc (c : Thread nD τ)), ptBand v c q g 0 512
        ∗ ⌜(∀ i ∈ bandSet v (256 * s) 256, g i = f₁ i) ∧ (∀ i ∈ bandSet v (256 * (1 - s)) 256, g i = g₂ i)⌝) := by
  rcases (by omega : s = 0 ∨ s = 1) with rfl | rfl
  · have J := ptBandsL_join (F := F) v c q [(256, f₁), (256, g₂)] 0 (List.cons_ne_nil _ _)
    simp only [ptBandsL, agreeL, List.map, List.sum_cons, List.sum_nil, Nat.add_assoc, Nat.reduceAdd, Nat.add_zero, Nat.zero_add] at J
    refine J.trans (exists_mono fun g => sep_mono_right (BI.pure_mono fun h => ⟨h.1, h.2.1⟩))
  · have J := ptBandsL_join (F := F) v c q [(256, g₂), (256, f₁)] 0 (List.cons_ne_nil _ _)
    simp only [ptBandsL, agreeL, List.map, List.sum_cons, List.sum_nil, Nat.add_assoc, Nat.reduceAdd, Nat.add_zero, Nat.zero_add] at J
    refine (sep_comm.1.trans J).trans (exists_mono fun g => sep_mono_right (BI.pure_mono fun h => ⟨h.2.1, h.1⟩))

end OutJoin

section OutSpecJoin
variable (m : (ℓ : Loc nD τ sig) → Buf (Elt F) ℓ)

theorem out_join_spec (c : Dev nD) (X1 : S256x512.Idx → Elt F .f32) (X3 X4 : S104x512.Idx → Elt F .f32)
    (h1 : O1Rows (F := F) c X1 (val0 m c) (val2 m c) (val4 m c) (val6 m c) (val1 m c) (val3 m c) (val5 m c) (val7 m c))
    (h3 : O3Rows (F := F) c X3 (val0 m (yp c)) (val2 m (yp c)) (val4 m (yp c)))
    (h4 : O4Rows (F := F) c X4 (val1 m (zp c)) (val3 m (zp c)) (val5 m (zp c))) :
    iprop(held (F := F) (outO1 c).view c fullShare X1 ∗ held (F := F) (outO2a c).view c fullShare (val8 m c)
        ∗ held (F := F) (outO2b c).view c fullShare (val9 m c) ∗ held (F := F) (outO3 c).view c fullShare X3
        ∗ held (F := F) (outO4 c).view c fullShare X4)
      ⊢ iprop(∃ OUT : Buf (Elt F) (outM.view.loc (c : Thread nD τ)), ⌜OutSpec m c OUT⌝
        ∗ (outM.view.loc (c : Thread nD τ) ↦[outM.view.set]{fullShare} OUT)) := by
  iintro ⟨A1, A2a, A2b, A3, A4⟩
  ihave B1 := held_strip (spO1 c) outM.view c fullShare X1 _ rfl $$ A1
  icases B1 with ⟨%f1, P1, %r1⟩
  ihave B2a := held_strip (sp8 c) outM.view c fullShare (val8 m c) _ rfl $$ A2a
  icases B2a with ⟨%f2a, P2a, %r2a⟩
  ihave B2b := held_strip (spO2b c) outM.view c fullShare (val9 m c) _ rfl $$ A2b
  icases B2b with ⟨%f2b, P2b, %r2b⟩
  ihave B3 := held_strip (spO3 c) outM.view c fullShare X3 _ rfl $$ A3
  icases B3 with ⟨%f3, P3, %r3⟩
  ihave B4 := held_strip (spO4 c) outM.view c fullShare X4 _ rfl $$ A4
  icases B4 with ⟨%f4, P4, %r4⟩
  have J := ptBandsL_join (F := F) outM.view c fullShare [(104, f3), (24, f2a), (104, f4), (24, f2b)] (256 * (1 - sOf c)) (List.cons_ne_nil _ _)
  simp only [ptBandsL, agreeL, List.map, List.sum_cons, List.sum_nil, Nat.add_assoc, Nat.reduceAdd, Nat.add_zero] at J
  ihave G2 := J $$ [P3 P2a P4 P2b]
  · iframe
  icases G2 with ⟨%g2, Q2, %hg2⟩
  ihave G := pt_halves_join (F := F) outM.view c fullShare f1 g2 (sOf c) (sOf_lt c) $$ [P1 Q2]
  · iframe
  icases G with ⟨%g, HG, %hg⟩
  iexists g
  isplitr
  · ipureintro
    obtain ⟨aS, aH⟩ := hg
    obtain ⟨b3, b2a, b4, b2b, -⟩ := hg2
    have sub : ∀ (o n : Nat) (f : Buf (Elt F) (outM.view.loc (c : Thread nD τ))), 256 * (1 - sOf c) ≤ o →
        o + n ≤ 256 * (1 - sOf c) + 256 → (∀ i ∈ bandSet outM.view o n, g2 i = f i) →
        ∀ i ∈ bandSet outM.view o n, g i = f i :=
      fun o n f l u b i hi => (aH i (bandSet_subset outM.view l u hi)).trans (b i hi)
    have R1 := (read_strip_congr (spO1 c) outM.view _ rfl aS).trans r1
    have R2a := (read_strip_congr (sp8 c) outM.view _ rfl (sub (256 * (1 - sOf c) + 104) 24 _ (by omega) (by omega) b2a)).trans r2a
    have R2b := (read_strip_congr (spO2b c) outM.view _ rfl (sub (256 * (1 - sOf c) + 232) 24 _ (by omega) (by omega) b2b)).trans r2b
    have R3 := (read_strip_congr (spO3 c) outM.view _ rfl (sub (256 * (1 - sOf c)) 104 _ (by omega) (by omega) b3)).trans r3
    have R4 := (read_strip_congr (spO4 c) outM.view _ rfl (sub (256 * (1 - sOf c) + 128) 104 _ (by omega) (by omega) b4)).trans r4
    exact {
      own0 := read_of_sub outM.view (spO1 c) (sp0 c) 0 rfl _ g R1 h1.1
      own1 := read_of_sub outM.view (spO1 c) (sp1 c) 128 rfl _ g R1 h1.2.2.2.2.1
      own2 := read_of_sub outM.view (spO1 c) (sp2 c) 48 rfl _ g R1 h1.2.1
      own3 := read_of_sub outM.view (spO1 c) (sp3 c) 176 rfl _ g R1 h1.2.2.2.2.2.1
      own4 := read_of_sub outM.view (spO1 c) (sp4 c) 88 rfl _ g R1 h1.2.2.1
      own5 := read_of_sub outM.view (spO1 c) (sp5 c) 216 rfl _ g R1 h1.2.2.2.2.2.2.1
      own6 := read_of_sub outM.view (spO1 c) (sp6 c) 104 rfl _ g R1 h1.2.2.2.1
      own7 := read_of_sub outM.view (spO1 c) (sp7 c) 232 rfl _ g R1 h1.2.2.2.2.2.2.2
      own8 := R2a
      own9 := (read_slice_off_congr outM.view (off_eq14 c).symm ![24, 512] (k0_off7_inb c 1) (k0_off14_inb c) g).trans R2b
      got0 := read_of_sub outM.view (spO3 c) (sp0 (yp c)) 0 (yp_row c 0) _ g R3 h3.1
      got1 := read_of_sub outM.view (spO4 c) (sp1 (zp c)) 0 (zp_row c 128) _ g R4 h4.1
      got2 := read_of_sub outM.view (spO3 c) (sp2 (yp c)) 48 (yp_row c 48) _ g R3 h3.2.1
      got3 := read_of_sub outM.view (spO4 c) (sp3 (zp c)) 48 (zp_row c 176) _ g R4 h4.2.1
      got4 := read_of_sub outM.view (spO3 c) (sp4 (yp c)) 88 (yp_row c 88) _ g R3 h3.2.2
      got5 := read_of_sub outM.view (spO4 c) (sp5 (zp c)) 88 (zp_row c 216) _ g R4 h4.2.2 }
  · rw [whole_ptBand (F := F) outM.view c fullShare g]; iexact HG

end OutSpecJoin

end Cert.KernelIdeal.Proto

end
-- ==== Proof.Body1.lean ====
import proofs.«900598_g7700000000000599_dist_rsrms_v7x_xyz2x2x2_x_m512_d512_f32_1_alg».proof.Proof.States
import proofs.«900598_g7700000000000599_dist_rsrms_v7x_xyz2x2x2_x_m512_d512_f32_1_alg».proof.Proof.KitRounds
import proofs.«900598_g7700000000000599_dist_rsrms_v7x_xyz2x2x2_x_m512_d512_f32_1_alg».proof.Proof.KitLocal
import proofs.«900598_g7700000000000599_dist_rsrms_v7x_xyz2x2x2_x_m512_d512_f32_1_alg».proof.Proof.Levels
import proofs.«900598_g7700000000000599_dist_rsrms_v7x_xyz2x2x2_x_m512_d512_f32_1_alg».proof.Proof.Ctx
import proofs.«900598_g7700000000000599_dist_rsrms_v7x_xyz2x2x2_x_m512_d512_f32_1_alg».proof.Proof.Regions

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

theorem a0_cut (c : Dev nD) :
    ((((c : Thread nD τ).loc main_arg0) ↦{fullShare} m ((c : Thread nD τ).loc main_arg0)) : sProp 𝕄)
      ⊢ iprop(((srcSend c).view.loc (c : Thread nD τ) ↦[(srcSend c).view.set]{fullShare} m ((c : Thread nD τ).loc main_arg0))
          ∗ ((srcLoc c).view.loc (c : Thread nD τ) ↦[(srcLoc c).view.set]{fullShare} m ((c : Thread nD τ).loc main_arg0))) :=
  (a0_split c (m ((c : Thread nD τ).loc main_arg0))).1

theorem snd_cut (c : Dev nD) :
    held sndM.view c fullShare (SND m c)
      ⊢ iprop(held (sndSl0 c).view c fullShare (sndv0 m c) ∗ held (sndSl1 c).view c fullShare (sndv1 m c)
          ∗ held (sndSl2 c).view c fullShare (sndv2 m c) ∗ held (sndSl3 c).view c fullShare (sndv3 m c)
          ∗ held (sndSl4 c).view c fullShare (sndv4 m c) ∗ held (sndSl5 c).view c fullShare (sndv5 m c)
          ∗ held (sndSl6 c).view c fullShare (sndv6 m c) ∗ held (sndSl7 c).view c fullShare (sndv7 m c)
          ∗ held (sndSl8 c).view c fullShare (sndv8 m c) ∗ held (sndSl9 c).view c fullShare (sndv9 m c)
          ∗ sndRest c) := by
  unfold sndv0 sndv1 sndv2 sndv3 sndv4 sndv5 sndv6 sndv7 sndv8 sndv9
  exact snd_split c (SND m c)

theorem pt_whole (b : Ref sig .tc) (c : Dev nD) (q : PosShare TreeShare) (f : Buf (Elt F) ((c : Thread nD τ).loc b)) :
    ((((c : Thread nD τ).loc b) ↦{q} f) : sProp 𝕄)
      = ((Memref.whole b).view.loc (c : Thread nD τ) ↦[(Memref.whole b).view.set]{q} f) := by
  simp only [Memref.view_whole, View.set_whole]

theorem any_whole (b : Ref sig .tc) (c : Dev nD) (q : PosShare TreeShare) :
    (iprop(∃ f, ((c : Thread nD τ).loc b) ↦{q} f) : sProp 𝕄)
      ⊢ iprop(∃ f : Buf (Elt F) ((Memref.whole b).view.loc (c : Thread nD τ)), (Memref.whole b).view.loc (c : Thread nD τ) ↦[(Memref.whole b).view.set]{q} f) := by
  simp only [Memref.view_whole, View.set_whole]
  exact .rfl

theorem heldAny_whole (b : Ref sig .tc) (c : Dev nD) (q : PosShare TreeShare) :
    (iprop(∃ f, ((c : Thread nD τ).loc b) ↦{q} f) : sProp 𝕄) ⊢ heldAny (F := F) (Memref.whole b).view c q := by
  unfold heldAny; exact any_whole b c q

theorem owes_step (n : ℕ) (c : Dev nD) (t : CellTallies nD τ sig Unit) (h : owedAfter n c = owedAfter (n + 1) c + t) (W : Waits sig Unit) :
    (owes (c : Thread nD τ) (owedAfter n c) W : sProp 𝕄) ⊢ owes (c : Thread nD τ) (owedAfter (n + 1) c + t) W := by
  rw [h]

def flightSndD (c : Dev nD) : sProp 𝕄 :=
  iprop(held sndM.view c fullShare (SND m c)
    ∗ ((srcSend c).view.loc (c : Thread nD τ) ↦[(srcSend c).view.set]{fullShare} m ((c : Thread nD τ).loc main_arg0)))
abbrev Nsnd : ℕ := (sndM : Memref sig .tc .vmem S512x512 .f32).view.dmaCredit

def St1 (K : GSem nD τ sig → ℕ) (c : Dev nD) : sProp 𝕄 :=
  iprop(ghost m K c ∗ creds c
    ∗ semVal (dcell c inS1) 0 ∗ semVal (dcell c inS2) 0
    ∗ semVal (dcell c outS0) 0 ∗ semVal (dcell c outS1) 0 ∗ semVal (dcell c outS2) 0 ∗ semVal (dcell c outS3) 0 ∗ semVal (dcell c outS4) 0
    ∗ levAts L lv
    ∗ Transfers.Flight countersEmb (c : Thread nD τ) (.dma inS0) () Nsnd (flightSndD m c)
    ∗ ((srcLoc c).view.loc (c : Thread nD τ) ↦[(srcLoc c).view.set]{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1))
    ∗ (∃ f, ((c : Thread nD τ).loc cc0_scratch1) ↦{fullShare} f)
    ∗ (∃ f, ((c : Thread nD τ).loc cc0_scratch2) ↦{fullShare} f)
    ∗ (∃ f, ((c : Thread nD τ).loc cc0_scratch3) ↦{fullShare} f)
    ∗ (∃ f, ((c : Thread nD τ).loc cc0_scratch4) ↦{fullShare} f)
    ∗ ∃ W, owes (c : Thread nD τ) (O₀ c) W)

theorem barPay_intro (c : Dev nD) :
    iprop((∃ f, ((c : Thread nD τ).loc cc0_scratch4) ↦{fullShare} f) ∗ known c) ⊢ barPay (F := F) (xp c) := by
  unfold barPay
  rw [xp_xp]
  iintro ⟨H, #Hk⟩
  ihave H' := (any_whole cc0_scratch4 c fullShare) $$ H
  ihave R0 := (known_get c (dcell c p1rS0) (by simp [knownCells])) $$ Hk
  ihave R1 := (known_get c (dcell c p1rS1) (by simp [knownCells])) $$ Hk
  ihave R2 := (known_get c (dcell c p1rS2) (by simp [knownCells])) $$ Hk
  ihave R3 := (known_get c (dcell c p1rS3) (by simp [knownCells])) $$ Hk
  ihave R4 := (known_get c (dcell c p1rS4) (by simp [knownCells])) $$ Hk
  ihave R5 := (known_get c (dcell c p1rS5) (by simp [knownCells])) $$ Hk
  ihave R6 := (known_get c (dcell c p1rS6) (by simp [knownCells])) $$ Hk
  ihave R7 := (known_get c (dcell c p1rS7) (by simp [knownCells])) $$ Hk
  ihave R8 := (known_get c (dcell c p1rS8) (by simp [knownCells])) $$ Hk
  ihave R9 := (known_get c (dcell c p1rS9) (by simp [knownCells])) $$ Hk
  isplitl [H']; · iexact H'
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

theorem yPay_intro (c : Dev nD) :
    iprop(heldAny (F := F) (ovO3 c).view c fullShare ∗ known c) ⊢ yPay (F := F) (yp c) := by
  unfold yPay heldAny
  rw [yp_yp]
  iintro ⟨H, #Hk⟩
  ihave R0 := (known_get c (dcell c p2rS0) (by simp [knownCells])) $$ Hk
  ihave R2 := (known_get c (dcell c p2rS2) (by simp [knownCells])) $$ Hk
  ihave R4 := (known_get c (dcell c p2rS4) (by simp [knownCells])) $$ Hk
  isplitl [H]; · iexact H
  isplitl [R0]; · iexact R0
  isplitl [R2]; · iexact R2
  iexact R4

theorem zPay_intro (c : Dev nD) :
    iprop(heldAny (F := F) (ovO4 c).view c fullShare ∗ known c) ⊢ zPay (F := F) (zp c) := by
  unfold zPay heldAny
  rw [zp_zp]
  iintro ⟨H, #Hk⟩
  ihave R1 := (known_get c (dcell c p2rS1) (by simp [knownCells])) $$ Hk
  ihave R3 := (known_get c (dcell c p2rS3) (by simp [knownCells])) $$ Hk
  ihave R5 := (known_get c (dcell c p2rS5) (by simp [knownCells])) $$ Hk
  isplitl [H]; · iexact H
  isplitl [R1]; · iexact R1
  isplitl [R3]; · iexact R3
  iexact R5

theorem positions_open (c : Dev nD) :
    (positions c : sProp 𝕄) ⊢ iprop(atPos ER (barCell c) 0 ∅ 0
      ∗ atPos ER (yzCell c) 0 ∅ 0
      ∗ atPos ER (dcell c p1sS0) 0 ∅ 0
      ∗ atPos ER (dcell c p1sS1) 0 ∅ 0
      ∗ atPos ER (dcell c p1sS2) 0 ∅ 0
      ∗ atPos ER (dcell c p1sS3) 0 ∅ 0
      ∗ atPos ER (dcell c p1sS4) 0 ∅ 0
      ∗ atPos ER (dcell c p1sS5) 0 ∅ 0
      ∗ atPos ER (dcell c p1sS6) 0 ∅ 0
      ∗ atPos ER (dcell c p1sS7) 0 ∅ 0
      ∗ atPos ER (dcell c p1sS8) 0 ∅ 0
      ∗ atPos ER (dcell c p1sS9) 0 ∅ 0
      ∗ atPos ER (dcell c p1rS0) 0 ∅ 0
      ∗ atPos ER (dcell c p1rS1) 0 ∅ 0
      ∗ atPos ER (dcell c p1rS2) 0 ∅ 0
      ∗ atPos ER (dcell c p1rS3) 0 ∅ 0
      ∗ atPos ER (dcell c p1rS4) 0 ∅ 0
      ∗ atPos ER (dcell c p1rS5) 0 ∅ 0
      ∗ atPos ER (dcell c p1rS6) 0 ∅ 0
      ∗ atPos ER (dcell c p1rS7) 0 ∅ 0
      ∗ atPos ER (dcell c p1rS8) 0 ∅ 0
      ∗ atPos ER (dcell c p1rS9) 0 ∅ 0
      ∗ atPos ER (dcell c p2sS0) 0 ∅ 0
      ∗ atPos ER (dcell c p2sS1) 0 ∅ 0
      ∗ atPos ER (dcell c p2sS2) 0 ∅ 0
      ∗ atPos ER (dcell c p2sS3) 0 ∅ 0
      ∗ atPos ER (dcell c p2sS4) 0 ∅ 0
      ∗ atPos ER (dcell c p2sS5) 0 ∅ 0
      ∗ atPos ER (dcell c p2rS0) 0 ∅ 0
      ∗ atPos ER (dcell c p2rS1) 0 ∅ 0
      ∗ atPos ER (dcell c p2rS2) 0 ∅ 0
      ∗ atPos ER (dcell c p2rS3) 0 ∅ 0
      ∗ atPos ER (dcell c p2rS4) 0 ∅ 0
      ∗ atPos ER (dcell c p2rS5) 0 ∅ 0) := by
  unfold positions ownCells; exact .rfl

theorem barPay_open (c : Dev nD) :
    barPay (F := F) c ⊢ iprop(heldAny (F := F) cmM.view (xp c) fullShare
      ∗ reached ER (dcell (xp c) p1rS0) 0 ∗ reached ER (dcell (xp c) p1rS1) 0 ∗ reached ER (dcell (xp c) p1rS2) 0
      ∗ reached ER (dcell (xp c) p1rS3) 0 ∗ reached ER (dcell (xp c) p1rS4) 0 ∗ reached ER (dcell (xp c) p1rS5) 0
      ∗ reached ER (dcell (xp c) p1rS6) 0 ∗ reached ER (dcell (xp c) p1rS7) 0 ∗ reached ER (dcell (xp c) p1rS8) 0
      ∗ reached ER (dcell (xp c) p1rS9) 0) := by
  unfold barPay heldAny; exact .rfl

theorem part1_spec (c : Dev nD) :
    iprop(Φ₀ m c ∗ ∃ W, owes (c : Thread nD τ) (O₀ c) W)
      ⊢ wp frame (wpE (defs₀ (F := F)) 𝒱₀ (c : Thread nD τ) none) Set.univ
          (atBufs k0_part1)
          (fun r => iprop(⌜r.1 = c⌝ ∗ ∃ K, St1 m K c)) := by
  simp only [atBufs, k0_part1_eq_skeleton]; unfold k0_part1_skel
  simp only [Prog.lift, Prog.bind_op, Prog.bind_ret, Prog.pure_eq_ret]
  rw [wp_deviceId]
  unfold Φ₀ start arrays0 scratch localSems0
  iintro ⟨⟨⟨⟨%K, Hgh⟩, Hcr, ⟨Hi0, Hi1, Hi2, Ho0, Ho1, Ho2, Ho3, Ho4⟩, Hlev⟩, ⟨Ha0, Ha1, Hout⟩, ⟨Hsnd, Hloc, Hgv, Hov, Hcm⟩⟩, HO⟩
  ihave ⟨Hsa, Hsl⟩ := (a0_cut m c) $$ Ha0
  ihave Hsn := (heldAny_whole cc0_scratch0 c fullShare) $$ Hsnd
  iapply (kit_dma_issue_at (srcSend c) sndM inS0 c fullShare (m ((c : Thread nD τ).loc main_arg0)) Nsnd rfl (View.dmaCredit_pos _ (by decide))) $$ [Hsa Hsn Hi0]
  · isplitl [Hsa]; · iexact Hsa
    isplitl [Hsn]; · iexact Hsn
    iexact Hi0
  iintro Hf
  rw [wp_ret]; imodintro
  isplitr; · ipureintro; rfl
  iexists K
  unfold St1 flightSndD SND
  iframe

theorem part2_spec (K : GSem nD τ sig → ℕ) (c : Dev nD) (v2 v5 v8 v19 v20 v21 v22 : BitVec 32) :
    St1 m K c
      ⊢ wp frame (wpE (defs₀ (F := F)) 𝒱₀ (c : Thread nD τ) none) Set.univ
          (atBufs k0_part2 c v2 v5 v8 v19 v20 v21 v22)
          (fun _ => St2 m K c) := by
  simp only [atBufs, k0_part2_eq_skeleton]; unfold k0_part2_skel
  simp only [Prog.lift, Prog.bind_op, Prog.bind_ret, Prog.pure_eq_ret, semSignalWord, semWaitWord]
  unfold St1 ghost creds payToks
  iintro ⟨⟨#Hinv, Hpos, #Hkn, ⟨Tbar, Ty, Tz, Tr0, Tr1, Tr2, Tr3, Tr4, Tr5, Tr6, Tr7, Tr8, Tr9, Ty0, Tz1, Ty2, Tz3, Ty4, Tz5, Ts0, Ts1, Ts2, Ts3, Ts4, Ts5, Ts6, Ts7, Ts8, Ts9, Us0, Us1, Us2, Us3, Us4, Us5⟩⟩, ⟨Cbar, Cyz, Cr0, Cr1, Cr2, Cr3, Cr4, Cr5, Cr6, Cr7, Cr8, Cr9, Dr0, Dr1, Dr2, Dr3, Dr4, Dr5⟩, Hi1, Hi2, Ho0, Ho1, Ho2, Ho3, Ho4, #Hlev, Hfl0, Hsl, Ha1, Hout, Hloc, Hgv, Hov, Hcm, ⟨%W, HO⟩⟩
  ihave ⟨Pbar, Pyz, Ps0, Ps1, Ps2, Ps3, Ps4, Ps5, Ps6, Ps7, Ps8, Ps9, Pr0, Pr1, Pr2, Pr3, Pr4, Pr5, Pr6, Pr7, Pr8, Pr9, Qs0, Qs1, Qs2, Qs3, Qs4, Qs5, Qr0, Qr1, Qr2, Qr3, Qr4, Qr5⟩ := (positions_open c) $$ Hpos

  ihave Hloc' := (heldAny_whole cc0_scratch1 c fullShare) $$ Hloc
  iapply (kit_dma_issue_at (srcLoc c) locM inS1 c fullShare (m ((c : Thread nD τ).loc main_arg0)) Nbig rfl (View.dmaCredit_pos _ (by decide))) $$ [Hsl Hloc' Hi1]
  · iframe
  iintro Hfl1

  ihave Hgv' := (heldAny_whole cc0_scratch2 c fullShare) $$ Hgv
  ihave Ha1' := (Entails.of_eq (pt_whole main_arg1 c fullShare _)) $$ Ha1
  iapply (kit_dma_issue_at a1M gvM inS2 c fullShare (m ((c : Thread nD τ).loc main_arg1)) Ngv rfl (View.dmaCredit_pos _ (by decide))) $$ [Ha1' Hgv' Hi2]
  · iframe
  iintro Hfl2

  icases Hov with ⟨%fo, Hov⟩
  ihave ⟨HO3, HO4, Hv0, Hv1, Hv2, Hv3, Hv4, Hv5, Hv6, Hv7, Hv8, Hv9⟩ := (ov_split c fo) $$ Hov
  ihave Hbp := (barPay_intro c) $$ [Hcm]
  · iframe; iexact Hkn
  ihave Hyp := (yPay_intro c) $$ [HO3]
  · iframe; iexact Hkn
  ihave Hzp := (zPay_intro c) $$ [HO4]
  · iframe; iexact Hkn

  ihave #Ibx := (invs_get m K c (barCell (xp c)) (by simp [ownCells, paidCells])) $$ Hinv
  ihave #Rbx := (known_get c (barCell (xp c)) (by simp [knownCells])) $$ Hkn
  ihave HO := (owes_step 0 c _ rfl W) $$ HO
  iapply (kit_signal_bar m c (dev1_eq c) rfl (owedAfter 1 c) W (K (barCell (xp c)))) $$ [HO Tbar Hbp]
  · iframe # ∗
  iintro HO

  ihave #Iyx := (invs_get m K c (yzCell (yp c)) (by simp [ownCells, paidCells])) $$ Hinv
  ihave #Ryx := (known_get c (yzCell (yp c)) (by simp [knownCells])) $$ Hkn
  ihave HO := (owes_step 1 c _ rfl W) $$ HO
  iapply (kit_signal_y m c (dev2_eq c) rfl (owedAfter 2 c) W (K (yzCell (yp c)))) $$ [HO Ty Hyp]
  · iframe # ∗
  iintro HO

  ihave #Izx := (invs_get m K c (yzCell (zp c)) (by simp [ownCells, paidCells])) $$ Hinv
  ihave #Rzx := (known_get c (yzCell (zp c)) (by simp [knownCells])) $$ Hkn
  ihave HO := (owes_step 2 c _ rfl W) $$ HO
  iapply (kit_signal_z m c (dev3_eq c) rfl (owedAfter 3 c) W (K (yzCell (zp c)))) $$ [HO Tz Hzp]
  · iframe # ∗
  iintro HO

  ihave #Ib := (invs_get m K c (barCell c) (by simp [ownCells, paidCells])) $$ Hinv
  ihave Hmw := (mayWait_bar c) $$ Hlev
  iapply (kit_wait_bar m c rfl (owedAfter 3 c) W (K (barCell c))) $$ [Cbar HO Hmw Pbar]
  · iframe # ∗
  iintro ⟨HO, Pbar, Hbq⟩
  ihave ⟨Hcmx, Rx0, Rx1, Rx2, Rx3, Rx4, Rx5, Rx6, Rx7, Rx8, Rx9⟩ := (barPay_open c) $$ Hbq
  ihave ⟨Hc0, Hc1, Hc2, Hc3, Hc4, Hc5, Hc6, Hc7, Hc8, Hc9⟩ := (cm_split (xp c)) $$ Hcmx

  ihave Hmw0 := (mayWait_in0 c) $$ Hlev
  iapply (kit_dma_wait inS0 c Nsnd (flightSndD m c) (owedAfter 3 c) _ (dstw := sndM) rfl) $$ [Hfl0 HO]
  · iframe # ∗
  unfold flightSndD
  iintro ⟨⟨Hsnd, Hsa⟩, Hi0, HO⟩
  ihave ⟨Hs0, Hs1, Hs2, Hs3, Hs4, Hs5, Hs6, Hs7, Hs8, Hs9, Hsr⟩ := (snd_cut m c) $$ Hsnd
  ihave Hout' := (Entails.of_eq (pt_whole main_v1 c fullShare _)) $$ Hout
  rw [wp_ret]; imodintro
  unfold St2 flightLocD flightGvD LOC GV
  isplitr; · iexact Hinv
  isplitr; · iexact Hkn
  isplitr; · iexact Hlev
  isplitl [Rx0]; · iexact Rx0
  isplitl [Rx1]; · iexact Rx1
  isplitl [Rx2]; · iexact Rx2
  isplitl [Rx3]; · iexact Rx3
  isplitl [Rx4]; · iexact Rx4
  isplitl [Rx5]; · iexact Rx5
  isplitl [Rx6]; · iexact Rx6
  isplitl [Rx7]; · iexact Rx7
  isplitl [Rx8]; · iexact Rx8
  isplitl [Rx9]; · iexact Rx9
  isplitl [HO]; · iexists _; iexact HO
  iframe

end Cert.KernelIdeal.Proto

end
-- ==== Proof.Body2.lean ====
import proofs.«900598_g7700000000000599_dist_rsrms_v7x_xyz2x2x2_x_m512_d512_f32_1_alg».proof.Proof.Ctx
import proofs.«900598_g7700000000000599_dist_rsrms_v7x_xyz2x2x2_x_m512_d512_f32_1_alg».proof.Proof.KitRounds
import proofs.«900598_g7700000000000599_dist_rsrms_v7x_xyz2x2x2_x_m512_d512_f32_1_alg».proof.Proof.KitLocal
import proofs.«900598_g7700000000000599_dist_rsrms_v7x_xyz2x2x2_x_m512_d512_f32_1_alg».proof.Proof.Levels
import proofs.«900598_g7700000000000599_dist_rsrms_v7x_xyz2x2x2_x_m512_d512_f32_1_alg».proof.Proof.Regions

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem rcv_xp0 (c : Dev nD) : rcv0 m (xp c) = sndv0 m c := by unfold rcv0; rw [xp_xp]
theorem rcv_xp1 (c : Dev nD) : rcv1 m (xp c) = sndv1 m c := by unfold rcv1; rw [xp_xp]
theorem rcv_xp2 (c : Dev nD) : rcv2 m (xp c) = sndv2 m c := by unfold rcv2; rw [xp_xp]
theorem rcv_xp3 (c : Dev nD) : rcv3 m (xp c) = sndv3 m c := by unfold rcv3; rw [xp_xp]
theorem rcv_xp4 (c : Dev nD) : rcv4 m (xp c) = sndv4 m c := by unfold rcv4; rw [xp_xp]
theorem rcv_xp5 (c : Dev nD) : rcv5 m (xp c) = sndv5 m c := by unfold rcv5; rw [xp_xp]
theorem rcv_xp6 (c : Dev nD) : rcv6 m (xp c) = sndv6 m c := by unfold rcv6; rw [xp_xp]
theorem rcv_xp7 (c : Dev nD) : rcv7 m (xp c) = sndv7 m c := by unfold rcv7; rw [xp_xp]
theorem rcv_xp8 (c : Dev nD) : rcv8 m (xp c) = sndv8 m c := by unfold rcv8; rw [xp_xp]
theorem rcv_xp9 (c : Dev nD) : rcv9 m (xp c) = sndv9 m c := by unfold rcv9; rw [xp_xp]

theorem held_loc_exact (c : Dev nD) (x : Buf (Elt F) (locM.view.loc (c : Thread nD τ))) :
    held locM.view c fullShare x ⊢ (locM.view.loc (c : Thread nD τ) ↦[locM.view.set]{fullShare} x : sProp 𝕄) := by
  unfold held
  iintro ⟨%f, H, %hf⟩
  have h : f = x := hf
  subst h
  iexact H

theorem held_gv_exact (c : Dev nD) (x : Buf (Elt F) (gvM.view.loc (c : Thread nD τ))) :
    held gvM.view c fullShare x ⊢ (gvM.view.loc (c : Thread nD τ) ↦[gvM.view.set]{fullShare} x : sProp 𝕄) := by
  unfold held
  iintro ⟨%f, H, %hf⟩
  have h : f = x := hf
  subst h
  iexact H

theorem yPay_open (c : Dev nD) :
    yPay (F := F) c ⊢ iprop(heldAny (F := F) (ovO3 (yp c)).view (yp c) fullShare
      ∗ reached ER (dcell (yp c) p2rS0) 0 ∗ reached ER (dcell (yp c) p2rS2) 0 ∗ reached ER (dcell (yp c) p2rS4) 0) := by
  unfold yPay heldAny; exact .rfl

theorem zPay_open (c : Dev nD) :
    zPay (F := F) c ⊢ iprop(heldAny (F := F) (ovO4 (zp c)).view (zp c) fullShare
      ∗ reached ER (dcell (zp c) p2rS1) 0 ∗ reached ER (dcell (zp c) p2rS3) 0 ∗ reached ER (dcell (zp c) p2rS5) 0) := by
  unfold zPay heldAny; exact .rfl

-- Chunks 0 and 1 of the half to send leave for the neighbour across the first axis.
theorem part3_spec (K : GSem nD τ sig → ℕ) (c : Dev nD) (v5 v8 v19 v20 c4 : BitVec 32) :
    iprop(invs m K c
        ∗ known c
        ∗ reached ER (dcell (xp c) p1rS0) 0
        ∗ reached ER (dcell (xp c) p1rS1) 0
        ∗ (∃ W, owes (c : Thread nD τ) (owedAfter 3 c) W)
        ∗ dutyTok ER (dcell (xp c) p1rS0) 0 false
        ∗ dutyTok ER (dcell c p1sS0) 0 false
        ∗ dutyTok ER (dcell (xp c) p1rS1) 0 false
        ∗ dutyTok ER (dcell c p1sS1) 0 false
        ∗ held (sndSl0 c).view c fullShare (sndv0 m c)
        ∗ held (sndSl1 c).view c fullShare (sndv1 m c)
        ∗ heldAny cmSl0.view (xp c) fullShare
        ∗ heldAny cmSl1.view (xp c) fullShare)
      ⊢ wp frame (wpE (defs₀ (F := F)) 𝒱₀ (c : Thread nD τ) none) Set.univ
          (atBufs k0_part3 c v5 v8 v19 v20 c4) (fun r => iprop((∃ W, owes (c : Thread nD τ) (owedAfter 5 c) W)
            ∗ cred (tallyAt (dcell c p1sS0) () N48)
            ∗ cred (tallyAt (dcell c p1sS1) () N48))) := by
  simp only [atBufs, k0_part3_eq_skeleton]; unfold k0_part3_skel
  simp only [Prog.lift, Prog.bind_op, Prog.bind_ret, Prog.pure_eq_ret, semWaitWord]
  iintro ⟨#Hinv, #Hkn, #Hrxp1r0, #Hrxp1r1, HO, Htp1r0, Htp1s0, Htp1r1, Htp1s1, Hsnd0, Hsnd1, Hcmx0, Hcmx1⟩
  icases HO with ⟨%W, HO⟩

  iapply (kit_send m (src := sndSl0 c) (dst := cmSl0) (sS := p1sS0) (rS := p1rS0) c (xp c) (dev4_eq c) N48 fullShare (sndv0 m c)
      (m ((c : Thread nD τ).loc cc0_scratch0)) (m ((xp c : Thread nD τ).loc cc0_scratch4))
      (by decide) (by decide) rfl rfl rfl rfl (by rw [← rcv_xp0 m c]; rfl) (owedAfter 4 c) W (K (dcell c p1sS0)) (K (dcell (xp c) p1rS0)))
    $$ [Hsnd0 Hcmx0 HO Htp1s0 Htp1r0]
  · isplitr; · iapply (invs_get m K c (dcell c p1sS0) (by simp [ownCells, paidCells])); iexact Hinv
    isplitr; · iapply (invs_get m K c (dcell (xp c) p1rS0) (by simp [ownCells, paidCells])); iexact Hinv
    isplitl [Hsnd0]; · iexact Hsnd0
    isplitl [Hcmx0]; · iexact Hcmx0
    isplitl [HO]; · iexact HO
    isplitl [Htp1s0]; · iexact Htp1s0
    isplitr; · iapply (known_get c (dcell c p1sS0) (by simp [knownCells])); iexact Hkn
    isplitl [Htp1r0]; · iexact Htp1r0
    iexact Hrxp1r0
  iintro ⟨Hc_p1sS0, HO⟩

  iapply (kit_send m (src := sndSl1 c) (dst := cmSl1) (sS := p1sS1) (rS := p1rS1) c (xp c) (dev5_eq c) N48 fullShare (sndv1 m c)
      (m ((c : Thread nD τ).loc cc0_scratch0)) (m ((xp c : Thread nD τ).loc cc0_scratch4))
      (by decide) (by decide) rfl rfl rfl rfl (by rw [← rcv_xp1 m c]; rfl) (owedAfter 5 c) W (K (dcell c p1sS1)) (K (dcell (xp c) p1rS1)))
    $$ [Hsnd1 Hcmx1 HO Htp1s1 Htp1r1]
  · isplitr; · iapply (invs_get m K c (dcell c p1sS1) (by simp [ownCells, paidCells])); iexact Hinv
    isplitr; · iapply (invs_get m K c (dcell (xp c) p1rS1) (by simp [ownCells, paidCells])); iexact Hinv
    isplitl [Hsnd1]; · iexact Hsnd1
    isplitl [Hcmx1]; · iexact Hcmx1
    isplitl [HO]; · iexact HO
    isplitl [Htp1s1]; · iexact Htp1s1
    isplitr; · iapply (known_get c (dcell c p1sS1) (by simp [knownCells])); iexact Hkn
    isplitl [Htp1r1]; · iexact Htp1r1
    iexact Hrxp1r1
  iintro ⟨Hc_p1sS1, HO⟩
  rw [wp_ret]; imodintro
  isplitl [HO]; · iexists _; iexact HO
  isplitl [Hc_p1sS0]; · iexact Hc_p1sS0
  iexact Hc_p1sS1

-- Chunks 2 and 3 leave.
theorem part4_spec (K : GSem nD τ sig → ℕ) (c : Dev nD) (v5 v8 v19 v20 v92 v93 : BitVec 32) :
    iprop(invs m K c
        ∗ known c
        ∗ reached ER (dcell (xp c) p1rS2) 0
        ∗ reached ER (dcell (xp c) p1rS3) 0
        ∗ (∃ W, owes (c : Thread nD τ) (owedAfter 5 c) W)
        ∗ dutyTok ER (dcell (xp c) p1rS2) 0 false
        ∗ dutyTok ER (dcell c p1sS2) 0 false
        ∗ dutyTok ER (dcell (xp c) p1rS3) 0 false
        ∗ dutyTok ER (dcell c p1sS3) 0 false
        ∗ held (sndSl2 c).view c fullShare (sndv2 m c)
        ∗ held (sndSl3 c).view c fullShare (sndv3 m c)
        ∗ heldAny cmSl2.view (xp c) fullShare
        ∗ heldAny cmSl3.view (xp c) fullShare)
      ⊢ wp frame (wpE (defs₀ (F := F)) 𝒱₀ (c : Thread nD τ) none) Set.univ
          (atBufs k0_part4 c v5 v8 v19 v20 v92 v93) (fun r => iprop((∃ W, owes (c : Thread nD τ) (owedAfter 7 c) W)
            ∗ cred (tallyAt (dcell c p1sS2) () N40)
            ∗ cred (tallyAt (dcell c p1sS3) () N40))) := by
  simp only [atBufs, k0_part4_eq_skeleton]; unfold k0_part4_skel
  simp only [Prog.lift, Prog.bind_op, Prog.bind_ret, Prog.pure_eq_ret, semWaitWord]
  iintro ⟨#Hinv, #Hkn, #Hrxp1r2, #Hrxp1r3, HO, Htp1r2, Htp1s2, Htp1r3, Htp1s3, Hsnd2, Hsnd3, Hcmx2, Hcmx3⟩
  icases HO with ⟨%W, HO⟩

  iapply (kit_send m (src := sndSl2 c) (dst := cmSl2) (sS := p1sS2) (rS := p1rS2) c (xp c) (dev6_eq c) N40 fullShare (sndv2 m c)
      (m ((c : Thread nD τ).loc cc0_scratch0)) (m ((xp c : Thread nD τ).loc cc0_scratch4))
      (by decide) (by decide) rfl rfl rfl rfl (by rw [← rcv_xp2 m c]; rfl) (owedAfter 6 c) W (K (dcell c p1sS2)) (K (dcell (xp c) p1rS2)))
    $$ [Hsnd2 Hcmx2 HO Htp1s2 Htp1r2]
  · isplitr; · iapply (invs_get m K c (dcell c p1sS2) (by simp [ownCells, paidCells])); iexact Hinv
    isplitr; · iapply (invs_get m K c (dcell (xp c) p1rS2) (by simp [ownCells, paidCells])); iexact Hinv
    isplitl [Hsnd2]; · iexact Hsnd2
    isplitl [Hcmx2]; · iexact Hcmx2
    isplitl [HO]; · iexact HO
    isplitl [Htp1s2]; · iexact Htp1s2
    isplitr; · iapply (known_get c (dcell c p1sS2) (by simp [knownCells])); iexact Hkn
    isplitl [Htp1r2]; · iexact Htp1r2
    iexact Hrxp1r2
  iintro ⟨Hc_p1sS2, HO⟩

  iapply (kit_send m (src := sndSl3 c) (dst := cmSl3) (sS := p1sS3) (rS := p1rS3) c (xp c) (dev7_eq c) N40 fullShare (sndv3 m c)
      (m ((c : Thread nD τ).loc cc0_scratch0)) (m ((xp c : Thread nD τ).loc cc0_scratch4))
      (by decide) (by decide) rfl rfl rfl rfl (by rw [← rcv_xp3 m c]; rfl) (owedAfter 7 c) W (K (dcell c p1sS3)) (K (dcell (xp c) p1rS3)))
    $$ [Hsnd3 Hcmx3 HO Htp1s3 Htp1r3]
  · isplitr; · iapply (invs_get m K c (dcell c p1sS3) (by simp [ownCells, paidCells])); iexact Hinv
    isplitr; · iapply (invs_get m K c (dcell (xp c) p1rS3) (by simp [ownCells, paidCells])); iexact Hinv
    isplitl [Hsnd3]; · iexact Hsnd3
    isplitl [Hcmx3]; · iexact Hcmx3
    isplitl [HO]; · iexact HO
    isplitl [Htp1s3]; · iexact Htp1s3
    isplitr; · iapply (known_get c (dcell c p1sS3) (by simp [knownCells])); iexact Hkn
    isplitl [Htp1r3]; · iexact Htp1r3
    iexact Hrxp1r3
  iintro ⟨Hc_p1sS3, HO⟩
  rw [wp_ret]; imodintro
  isplitl [HO]; · iexists _; iexact HO
  isplitl [Hc_p1sS2]; · iexact Hc_p1sS2
  iexact Hc_p1sS3

-- Chunks 4, 5 and 6 leave.
theorem part5_spec (K : GSem nD τ sig → ℕ) (c : Dev nD) (v5 v8 v19 v20 : BitVec 32) :
    iprop(invs m K c
        ∗ known c
        ∗ reached ER (dcell (xp c) p1rS4) 0
        ∗ reached ER (dcell (xp c) p1rS5) 0
        ∗ reached ER (dcell (xp c) p1rS6) 0
        ∗ (∃ W, owes (c : Thread nD τ) (owedAfter 7 c) W)
        ∗ dutyTok ER (dcell (xp c) p1rS4) 0 false
        ∗ dutyTok ER (dcell c p1sS4) 0 false
        ∗ dutyTok ER (dcell (xp c) p1rS5) 0 false
        ∗ dutyTok ER (dcell c p1sS5) 0 false
        ∗ dutyTok ER (dcell (xp c) p1rS6) 0 false
        ∗ dutyTok ER (dcell c p1sS6) 0 false
        ∗ held (sndSl4 c).view c fullShare (sndv4 m c)
        ∗ held (sndSl5 c).view c fullShare (sndv5 m c)
        ∗ held (sndSl6 c).view c fullShare (sndv6 m c)
        ∗ heldAny cmSl4.view (xp c) fullShare
        ∗ heldAny cmSl5.view (xp c) fullShare
        ∗ heldAny cmSl6.view (xp c) fullShare)
      ⊢ wp frame (wpE (defs₀ (F := F)) 𝒱₀ (c : Thread nD τ) none) Set.univ
          (atBufs k0_part5 c v5 v8 v19 v20) (fun r => iprop((∃ W, owes (c : Thread nD τ) (owedAfter 10 c) W)
            ∗ cred (tallyAt (dcell c p1sS4) () N16)
            ∗ cred (tallyAt (dcell c p1sS5) () N16)
            ∗ cred (tallyAt (dcell c p1sS6) () N24))) := by
  simp only [atBufs, k0_part5_eq_skeleton]; unfold k0_part5_skel
  simp only [Prog.lift, Prog.bind_op, Prog.bind_ret, Prog.pure_eq_ret, semWaitWord]
  iintro ⟨#Hinv, #Hkn, #Hrxp1r4, #Hrxp1r5, #Hrxp1r6, HO, Htp1r4, Htp1s4, Htp1r5, Htp1s5, Htp1r6, Htp1s6, Hsnd4, Hsnd5, Hsnd6, Hcmx4, Hcmx5, Hcmx6⟩
  icases HO with ⟨%W, HO⟩

  iapply (kit_send m (src := sndSl4 c) (dst := cmSl4) (sS := p1sS4) (rS := p1rS4) c (xp c) (dev8_eq c) N16 fullShare (sndv4 m c)
      (m ((c : Thread nD τ).loc cc0_scratch0)) (m ((xp c : Thread nD τ).loc cc0_scratch4))
      (by decide) (by decide) rfl rfl rfl rfl (by rw [← rcv_xp4 m c]; rfl) (owedAfter 8 c) W (K (dcell c p1sS4)) (K (dcell (xp c) p1rS4)))
    $$ [Hsnd4 Hcmx4 HO Htp1s4 Htp1r4]
  · isplitr; · iapply (invs_get m K c (dcell c p1sS4) (by simp [ownCells, paidCells])); iexact Hinv
    isplitr; · iapply (invs_get m K c (dcell (xp c) p1rS4) (by simp [ownCells, paidCells])); iexact Hinv
    isplitl [Hsnd4]; · iexact Hsnd4
    isplitl [Hcmx4]; · iexact Hcmx4
    isplitl [HO]; · iexact HO
    isplitl [Htp1s4]; · iexact Htp1s4
    isplitr; · iapply (known_get c (dcell c p1sS4) (by simp [knownCells])); iexact Hkn
    isplitl [Htp1r4]; · iexact Htp1r4
    iexact Hrxp1r4
  iintro ⟨Hc_p1sS4, HO⟩

  iapply (kit_send m (src := sndSl5 c) (dst := cmSl5) (sS := p1sS5) (rS := p1rS5) c (xp c) (dev9_eq c) N16 fullShare (sndv5 m c)
      (m ((c : Thread nD τ).loc cc0_scratch0)) (m ((xp c : Thread nD τ).loc cc0_scratch4))
      (by decide) (by decide) rfl rfl rfl rfl (by rw [← rcv_xp5 m c]; rfl) (owedAfter 9 c) W (K (dcell c p1sS5)) (K (dcell (xp c) p1rS5)))
    $$ [Hsnd5 Hcmx5 HO Htp1s5 Htp1r5]
  · isplitr; · iapply (invs_get m K c (dcell c p1sS5) (by simp [ownCells, paidCells])); iexact Hinv
    isplitr; · iapply (invs_get m K c (dcell (xp c) p1rS5) (by simp [ownCells, paidCells])); iexact Hinv
    isplitl [Hsnd5]; · iexact Hsnd5
    isplitl [Hcmx5]; · iexact Hcmx5
    isplitl [HO]; · iexact HO
    isplitl [Htp1s5]; · iexact Htp1s5
    isplitr; · iapply (known_get c (dcell c p1sS5) (by simp [knownCells])); iexact Hkn
    isplitl [Htp1r5]; · iexact Htp1r5
    iexact Hrxp1r5
  iintro ⟨Hc_p1sS5, HO⟩

  iapply (kit_send m (src := sndSl6 c) (dst := cmSl6) (sS := p1sS6) (rS := p1rS6) c (xp c) (dev10_eq c) N24 fullShare (sndv6 m c)
      (m ((c : Thread nD τ).loc cc0_scratch0)) (m ((xp c : Thread nD τ).loc cc0_scratch4))
      (by decide) (by decide) rfl rfl rfl rfl (by rw [← rcv_xp6 m c]; rfl) (owedAfter 10 c) W (K (dcell c p1sS6)) (K (dcell (xp c) p1rS6)))
    $$ [Hsnd6 Hcmx6 HO Htp1s6 Htp1r6]
  · isplitr; · iapply (invs_get m K c (dcell c p1sS6) (by simp [ownCells, paidCells])); iexact Hinv
    isplitr; · iapply (invs_get m K c (dcell (xp c) p1rS6) (by simp [ownCells, paidCells])); iexact Hinv
    isplitl [Hsnd6]; · iexact Hsnd6
    isplitl [Hcmx6]; · iexact Hcmx6
    isplitl [HO]; · iexact HO
    isplitl [Htp1s6]; · iexact Htp1s6
    isplitr; · iapply (known_get c (dcell c p1sS6) (by simp [knownCells])); iexact Hkn
    isplitl [Htp1r6]; · iexact Htp1r6
    iexact Hrxp1r6
  iintro ⟨Hc_p1sS6, HO⟩
  rw [wp_ret]; imodintro
  isplitl [HO]; · iexists _; iexact HO
  isplitl [Hc_p1sS4]; · iexact Hc_p1sS4
  isplitl [Hc_p1sS5]; · iexact Hc_p1sS5
  iexact Hc_p1sS6

-- Chunks 7 and 8 leave.
theorem part6_spec (K : GSem nD τ sig → ℕ) (c : Dev nD) (v5 v8 v19 v20 : BitVec 32) :
    iprop(invs m K c
        ∗ known c
        ∗ reached ER (dcell (xp c) p1rS7) 0
        ∗ reached ER (dcell (xp c) p1rS8) 0
        ∗ (∃ W, owes (c : Thread nD τ) (owedAfter 10 c) W)
        ∗ dutyTok ER (dcell (xp c) p1rS7) 0 false
        ∗ dutyTok ER (dcell c p1sS7) 0 false
        ∗ dutyTok ER (dcell (xp c) p1rS8) 0 false
        ∗ dutyTok ER (dcell c p1sS8) 0 false
        ∗ held (sndSl7 c).view c fullShare (sndv7 m c)
        ∗ held (sndSl8 c).view c fullShare (sndv8 m c)
        ∗ heldAny cmSl7.view (xp c) fullShare
        ∗ heldAny cmSl8.view (xp c) fullShare)
      ⊢ wp frame (wpE (defs₀ (F := F)) 𝒱₀ (c : Thread nD τ) none) Set.univ
          (atBufs k0_part6 c v5 v8 v19 v20) (fun r => iprop((∃ W, owes (c : Thread nD τ) (owedAfter 12 c) W)
            ∗ cred (tallyAt (dcell c p1sS7) () N24)
            ∗ cred (tallyAt (dcell c p1sS8) () N24))) := by
  simp only [atBufs, k0_part6_eq_skeleton]; unfold k0_part6_skel
  simp only [Prog.lift, Prog.bind_op, Prog.bind_ret, Prog.pure_eq_ret, semWaitWord]
  iintro ⟨#Hinv, #Hkn, #Hrxp1r7, #Hrxp1r8, HO, Htp1r7, Htp1s7, Htp1r8, Htp1s8, Hsnd7, Hsnd8, Hcmx7, Hcmx8⟩
  icases HO with ⟨%W, HO⟩

  iapply (kit_send m (src := sndSl7 c) (dst := cmSl7) (sS := p1sS7) (rS := p1rS7) c (xp c) (dev11_eq c) N24 fullShare (sndv7 m c)
      (m ((c : Thread nD τ).loc cc0_scratch0)) (m ((xp c : Thread nD τ).loc cc0_scratch4))
      (by decide) (by decide) rfl rfl rfl rfl (by rw [← rcv_xp7 m c]; rfl) (owedAfter 11 c) W (K (dcell c p1sS7)) (K (dcell (xp c) p1rS7)))
    $$ [Hsnd7 Hcmx7 HO Htp1s7 Htp1r7]
  · isplitr; · iapply (invs_get m K c (dcell c p1sS7) (by simp [ownCells, paidCells])); iexact Hinv
    isplitr; · iapply (invs_get m K c (dcell (xp c) p1rS7) (by simp [ownCells, paidCells])); iexact Hinv
    isplitl [Hsnd7]; · iexact Hsnd7
    isplitl [Hcmx7]; · iexact Hcmx7
    isplitl [HO]; · iexact HO
    isplitl [Htp1s7]; · iexact Htp1s7
    isplitr; · iapply (known_get c (dcell c p1sS7) (by simp [knownCells])); iexact Hkn
    isplitl [Htp1r7]; · iexact Htp1r7
    iexact Hrxp1r7
  iintro ⟨Hc_p1sS7, HO⟩

  iapply (kit_send m (src := sndSl8 c) (dst := cmSl8) (sS := p1sS8) (rS := p1rS8) c (xp c) (dev12_eq c) N24 fullShare (sndv8 m c)
      (m ((c : Thread nD τ).loc cc0_scratch0)) (m ((xp c : Thread nD τ).loc cc0_scratch4))
      (by decide) (by decide) rfl rfl rfl rfl (by rw [← rcv_xp8 m c]; rfl) (owedAfter 12 c) W (K (dcell c p1sS8)) (K (dcell (xp c) p1rS8)))
    $$ [Hsnd8 Hcmx8 HO Htp1s8 Htp1r8]
  · isplitr; · iapply (invs_get m K c (dcell c p1sS8) (by simp [ownCells, paidCells])); iexact Hinv
    isplitr; · iapply (invs_get m K c (dcell (xp c) p1rS8) (by simp [ownCells, paidCells])); iexact Hinv
    isplitl [Hsnd8]; · iexact Hsnd8
    isplitl [Hcmx8]; · iexact Hcmx8
    isplitl [HO]; · iexact HO
    isplitl [Htp1s8]; · iexact Htp1s8
    isplitr; · iapply (known_get c (dcell c p1sS8) (by simp [knownCells])); iexact Hkn
    isplitl [Htp1r8]; · iexact Htp1r8
    iexact Hrxp1r8
  iintro ⟨Hc_p1sS8, HO⟩
  rw [wp_ret]; imodintro
  isplitl [HO]; · iexists _; iexact HO
  isplitl [Hc_p1sS7]; · iexact Hc_p1sS7
  iexact Hc_p1sS8

-- Chunk 9 leaves; the kept half and the scale vector have arrived, both neighbours across the other axes have signalled, and chunk 0 of the neighbour's half is there.
theorem part7_spec (K : GSem nD τ sig → ℕ) (c : Dev nD) (v5 v8 v19 v20 v189 c0 : BitVec 32) :
    iprop(invs m K c
        ∗ known c
        ∗ levAts L lv
        ∗ reached ER (dcell (xp c) p1rS9) 0
        ∗ (∃ W, owes (c : Thread nD τ) (owedAfter 12 c) W)
        ∗ dutyTok ER (dcell (xp c) p1rS9) 0 false
        ∗ dutyTok ER (dcell c p1sS9) 0 false
        ∗ atPos ER (yzCell c) 0 ∅ 0
        ∗ cred (tallyAt (yzCell c) () 2)
        ∗ atPos ER (dcell c p1rS0) 0 ∅ 0
        ∗ cred (tallyAt (dcell c p1rS0) () N48)
        ∗ Transfers.Flight countersEmb (c : Thread nD τ) (.dma inS1) () Nbig (flightLocD m c)
        ∗ Transfers.Flight countersEmb (c : Thread nD τ) (.dma inS2) () Ngv (flightGvD m c)
        ∗ held (sndSl9 c).view c fullShare (sndv9 m c)
        ∗ heldAny cmSl9.view (xp c) fullShare)
      ⊢ wp frame (wpE (defs₀ (F := F)) 𝒱₀ (c : Thread nD τ) none) Set.univ
          (atBufs k0_part7 c v5 v8 v19 v20 v189 c0) (fun r => iprop(⌜r.2 = kept0 m c⌝ ∗ reached ER (dcell (yp c) p2rS0) 0
            ∗ reached ER (dcell (zp c) p2rS1) 0
            ∗ reached ER (dcell (yp c) p2rS2) 0
            ∗ reached ER (dcell (zp c) p2rS3) 0
            ∗ reached ER (dcell (yp c) p2rS4) 0
            ∗ reached ER (dcell (zp c) p2rS5) 0
            ∗ (∃ W, owes (c : Thread nD τ) (owedAfter 13 c) W)
            ∗ semVal (yzCell c) 0
            ∗ semVal (dcell c p1rS0) 0
            ∗ cred (tallyAt (dcell c p1sS9) () N24)
            ∗ semVal (dcell c inS1) 0
            ∗ semVal (dcell c inS2) 0
            ∗ ((srcLoc c).view.loc (c : Thread nD τ) ↦[(srcLoc c).view.set]{fullShare} m ((c : Thread nD τ).loc main_arg0))
            ∗ (a1M.view.loc (c : Thread nD τ) ↦[a1M.view.set]{fullShare} m ((c : Thread nD τ).loc main_arg1))
            ∗ (locM.view.loc (c : Thread nD τ) ↦[locM.view.set]{fullShare} (LOC m c))
            ∗ (gvM.view.loc (c : Thread nD τ) ↦[gvM.view.set]{fullShare} (GV m c))
            ∗ held cmSl0.view c fullShare (rcv0 m c)
            ∗ heldAny (ovSl0 c).view (yp c) fullShare
            ∗ heldAny (ovSl1 c).view (zp c) fullShare
            ∗ heldAny (ovSl2 c).view (yp c) fullShare
            ∗ heldAny (ovSl3 c).view (zp c) fullShare
            ∗ heldAny (ovSl4 c).view (yp c) fullShare
            ∗ heldAny (ovSl5 c).view (zp c) fullShare)) := by
  simp only [atBufs, k0_part7_eq_skeleton]; unfold k0_part7_skel
  simp only [Prog.lift, Prog.bind_op, Prog.bind_ret, Prog.pure_eq_ret, semWaitWord]
  iintro ⟨#Hinv, #Hkn, #Hlev, #Hrxp1r9, HO, Htp1r9, Htp1s9, Hat_yzCell, Hc_yzCell, Hat_p1rS0, Hc_p1rS0, Hfl_inS1, Hfl_inS2, Hsnd9, Hcmx9⟩
  icases HO with ⟨%W, HO⟩

  iapply (kit_send m (src := sndSl9 c) (dst := cmSl9) (sS := p1sS9) (rS := p1rS9) c (xp c) (dev13_eq c) N24 fullShare (sndv9 m c)
      (m ((c : Thread nD τ).loc cc0_scratch0)) (m ((xp c : Thread nD τ).loc cc0_scratch4))
      (by decide) (by decide) rfl rfl rfl rfl (by rw [← rcv_xp9 m c]; rfl) (owedAfter 13 c) W (K (dcell c p1sS9)) (K (dcell (xp c) p1rS9)))
    $$ [Hsnd9 Hcmx9 HO Htp1s9 Htp1r9]
  · isplitr; · iapply (invs_get m K c (dcell c p1sS9) (by simp [ownCells, paidCells])); iexact Hinv
    isplitr; · iapply (invs_get m K c (dcell (xp c) p1rS9) (by simp [ownCells, paidCells])); iexact Hinv
    isplitl [Hsnd9]; · iexact Hsnd9
    isplitl [Hcmx9]; · iexact Hcmx9
    isplitl [HO]; · iexact HO
    isplitl [Htp1s9]; · iexact Htp1s9
    isplitr; · iapply (known_get c (dcell c p1sS9) (by simp [knownCells])); iexact Hkn
    isplitl [Htp1r9]; · iexact Htp1r9
    iexact Hrxp1r9
  iintro ⟨Hc_p1sS9, HO⟩

  iapply (kit_dma_wait (srcw := srcLoc c) (dstw := locM) inS1 c Nbig (flightLocD m c) (owedAfter 13 c) W rfl) $$ [Hfl_inS1 HO]
  · isplitl [Hfl_inS1]; · iexact Hfl_inS1
    isplitl [HO]; · iexact HO
    iapply (mayWait_in1 c); iexact Hlev
  iintro ⟨HD, Hz_inS1, HO⟩
  unfold flightLocD
  icases HD with ⟨Hloc, HsrcLoc⟩
  ihave Hloc := (held_loc_exact c (LOC m c)) $$ Hloc

  iapply (kit_dma_wait (srcw := a1M) (dstw := gvM) inS2 c Ngv (flightGvD m c) (owedAfter 13 c) _ rfl) $$ [Hfl_inS2 HO]
  · isplitl [Hfl_inS2]; · iexact Hfl_inS2
    isplitl [HO]; · iexact HO
    iapply (mayWait_in2 c); iexact Hlev
  iintro ⟨HD, Hz_inS2, HO⟩
  unfold flightGvD
  icases HD with ⟨Hgv, Ha1⟩
  ihave Hgv := (held_gv_exact c (GV m c)) $$ Hgv

  iapply (kit_wait_yz m c (by decide) (owedAfter 13 c) _ (K (yzCell c))) $$ [Hc_yzCell HO Hat_yzCell]
  · isplitr; · iapply (invs_get m K c (yzCell c) (by simp [ownCells, paidCells])); iexact Hinv
    isplitl [Hc_yzCell]; · iexact Hc_yzCell
    isplitl [HO]; · iexact HO
    isplitr; · iapply (mayWait_yz c); iexact Hlev
    iexact Hat_yzCell
  iintro ⟨HO, Hz_yzCell, HyP, HzP⟩
  ihave HyP := (yPay_open c) $$ HyP
  icases HyP with ⟨Hy, #Hryp2r0, #Hryp2r2, #Hryp2r4⟩
  ihave Hy := (ovO3_split c) $$ Hy
  icases Hy with ⟨Hov0y, Hov2y, Hov4y⟩
  ihave HzP := (zPay_open c) $$ HzP
  icases HzP with ⟨Hz, #Hrzp2r1, #Hrzp2r3, #Hrzp2r5⟩
  ihave Hz := (ovO4_split c) $$ Hz
  icases Hz with ⟨Hov1z, Hov3z, Hov5z⟩

  iapply (kit_wait_dma m (srcw := sndSl0 c) (dstw := cmSl0) cmSl0.view c p1rS0 (by decide) N48 rfl rfl fullShare (rcv0 m c)
      (m ((c : Thread nD τ).loc cc0_scratch4)) rfl (owedAfter 13 c) _ (K (dcell c p1rS0))) $$ [Hc_p1rS0 HO Hat_p1rS0]
  · isplitr; · iapply (invs_get m K c (dcell c p1rS0) (by simp [ownCells, paidCells])); iexact Hinv
    isplitl [Hc_p1rS0]; · iexact Hc_p1rS0
    isplitl [HO]; · iexact HO
    isplitr; · iapply (mayWait_p1r0 c); iexact Hlev
    iexact Hat_p1rS0
  iintro ⟨HO, Hz_p1rS0, Hcm0⟩

  iapply (wp_load 𝒱₀ (c : Thread nD τ) none Set.univ (m := locM) (View.setOn_subset_set _ _)) $$ Hloc
  iintro Hloc
  rw [wp_ret]; imodintro
  isplitr; · ipureintro; rfl
  isplitr; · iexact Hryp2r0
  isplitr; · iexact Hrzp2r1
  isplitr; · iexact Hryp2r2
  isplitr; · iexact Hrzp2r3
  isplitr; · iexact Hryp2r4
  isplitr; · iexact Hrzp2r5
  isplitl [HO]; · iexists _; iexact HO
  isplitl [Hz_yzCell]; · iexact Hz_yzCell
  isplitl [Hz_p1rS0]; · iexact Hz_p1rS0
  isplitl [Hc_p1sS9]; · iexact Hc_p1sS9
  isplitl [Hz_inS1]; · iexact Hz_inS1
  isplitl [Hz_inS2]; · iexact Hz_inS2
  isplitl [HsrcLoc]; · iexact HsrcLoc
  isplitl [Ha1]; · iexact Ha1
  isplitl [Hloc]; · iexact Hloc
  isplitl [Hgv]; · iexact Hgv
  isplitl [Hcm0]; · iexact Hcm0
  isplitl [Hov0y]; · iexact Hov0y
  isplitl [Hov1z]; · iexact Hov1z
  isplitl [Hov2y]; · iexact Hov2y
  isplitl [Hov3z]; · iexact Hov3z
  isplitl [Hov4y]; · iexact Hov4y
  iexact Hov5z

end Cert.KernelIdeal.Proto

end
-- ==== Proof.Body3x.lean ====
import proofs.«900598_g7700000000000599_dist_rsrms_v7x_xyz2x2x2_x_m512_d512_f32_1_alg».proof.Proof.States
import proofs.«900598_g7700000000000599_dist_rsrms_v7x_xyz2x2x2_x_m512_d512_f32_1_alg».proof.Proof.KitRounds
import proofs.«900598_g7700000000000599_dist_rsrms_v7x_xyz2x2x2_x_m512_d512_f32_1_alg».proof.Proof.KitLocal
import proofs.«900598_g7700000000000599_dist_rsrms_v7x_xyz2x2x2_x_m512_d512_f32_1_alg».proof.Proof.Levels
import proofs.«900598_g7700000000000599_dist_rsrms_v7x_xyz2x2x2_x_m512_d512_f32_1_alg».proof.Proof.Ctx
import proofs.«900598_g7700000000000599_dist_rsrms_v7x_xyz2x2x2_x_m512_d512_f32_1_alg».proof.Proof.Regions

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- Chunk 0: kept rows plus received rows, each row divided by its root mean square and scaled; stored, and passed on across the second axis.
theorem part8_spec (K : GSem nD τ sig → ℕ) (c : Dev nD) (v2 v5 v8 v20 v21 v218 : BitVec 32) :
    iprop(invs m K c
        ∗ known c
        ∗ reached ER (dcell (yp c) p2rS0) 0
        ∗ (∃ W, owes (c : Thread nD τ) (owedAfter 13 c) W)
        ∗ dutyTok ER (dcell (yp c) p2rS0) 0 false
        ∗ dutyTok ER (dcell c p2sS0) 0 false
        ∗ (gvM.view.loc (c : Thread nD τ) ↦[gvM.view.set]{fullShare} (GV m c))
        ∗ held cmSl0.view c fullShare (rcv0 m c)
        ∗ heldAny (ovSl0 c).view c fullShare
        ∗ heldAny (ovSl0 c).view (yp c) fullShare) ⊢ wp frame (wpE (defs₀ (F := F)) 𝒱₀ (c : Thread nD τ) none) Set.univ
          (atBufs k0_part8 c v2 v5 v8 v20 v21 v218 (kept0 m c)) (fun _ => iprop((∃ W, owes (c : Thread nD τ) (owedAfter 14 c) W)
            ∗ cred (tallyAt (dcell c p2sS0) () N48)
            ∗ (gvM.view.loc (c : Thread nD τ) ↦[gvM.view.set]{fullShare} (GV m c))
            ∗ held cmSl0.view c fullShare (rcv0 m c)
            ∗ held (ovSl0 c).view c fullShare.right (val0 m c))) := by
  simp only [atBufs, k0_part8_eq_skeleton]; unfold k0_part8_skel
  simp only [Prog.lift, Prog.bind_op, Prog.bind_ret, Prog.pure_eq_ret]
  iintro ⟨#h0, #h1, #h13, ⟨%W, h19⟩, h20, h21, h105, h106, h107, h117⟩

  iapply (kit_load cmM (Rect.unit (s := S304x512) ![0, 0] S48x512.size inb_S304x512_S48x512_0_0) c fullShare (rcv0 m c)) $$ h106
  iintro h106

  iapply (wp_load 𝒱₀ (c : Thread nD τ) none Set.univ (m := gvM) (View.setOn_subset_set _ _)) $$ h105
  iintro h105

  ihave g0 := (heldAny_of_eq (ov_access_eq0 c).symm c fullShare) $$ h107
  ihave ⟨%x0, g1⟩ := (heldAny_ex _ c fullShare) $$ g0
  iapply (kit_load ovM (Rect.unit (s := S512x512) (k0_off8 c 0#32) S48x512.size (k0_off8_inb c 0)) c fullShare x0) $$ g1
  iintro g1
  ihave g2 := (held_any _ c fullShare x0) $$ g1

  iapply (kit_store ovM (Rect.unit (s := S512x512) (k0_off8 c 0#32) S48x512.size (k0_off8_inb c 0)) c _) $$ g2
  iintro g3
  ihave g4 := (held_of_eq (ov_access_eq0 c) (x' := val0 m c) (by rw [gv_readAt]; rfl) c fullShare) $$ g3

  ihave ⟨g5, g6⟩ := (held_full_split (ovSl0 c).view c (val0 m c)) $$ g4
  iapply (kit_send m (src := ovSl0 c) (dst := ovSl0 c) (sS := p2sS0) (rS := p2rS0) c (yp c) (dev14_eq c) N48 fullShare.left (val0 m c) (m ((c : Thread nD τ).loc cc0_scratch3)) (m ((yp c : Thread nD τ).loc cc0_scratch3)) (by decide) (by decide) rfl rfl rfl rfl (by show p2rPay0 m (yp c) = _; unfold p2rPay0; rw [yp_yp]) (owedAfter 14 c) _ (K (dcell c p2sS0)) (K (dcell (yp c) p2rS0))) $$ [g5 h117 h19 h21 h20]
  · isplitr; · iapply (invs_get m K c (dcell c p2sS0) (by simp [ownCells, paidCells])); iexact h0
    isplitr; · iapply (invs_get m K c (dcell (yp c) p2rS0) (by simp [ownCells, paidCells])); iexact h0
    isplitl [g5]; · iexact g5
    isplitl [h117]; · iexact h117
    isplitl [h19]; · iexact h19
    isplitl [h21]; · iexact h21
    isplitr; · iapply (known_get c (dcell c p2sS0) (by simp [knownCells])); iexact h1
    isplitl [h20]; · iexact h20
    iexact h13
  iintro ⟨g7, h19⟩
  rw [wp_ret]; imodintro
  isplitl [h19]; · iexists _; iexact h19
  isplitl [g7]; · iexact g7
  isplitl [h105]; · iexact h105
  isplitl [h106]; · iexact h106
  iexact g6

end Cert.KernelIdeal.Proto

end
-- ==== Proof.Body3d.lean ====
import proofs.«900598_g7700000000000599_dist_rsrms_v7x_xyz2x2x2_x_m512_d512_f32_1_alg».proof.Proof.Ctx
import proofs.«900598_g7700000000000599_dist_rsrms_v7x_xyz2x2x2_x_m512_d512_f32_1_alg».proof.Proof.States
import proofs.«900598_g7700000000000599_dist_rsrms_v7x_xyz2x2x2_x_m512_d512_f32_1_alg».proof.Proof.KitRounds
import proofs.«900598_g7700000000000599_dist_rsrms_v7x_xyz2x2x2_x_m512_d512_f32_1_alg».proof.Proof.KitLocal
import proofs.«900598_g7700000000000599_dist_rsrms_v7x_xyz2x2x2_x_m512_d512_f32_1_alg».proof.Proof.Levels
import proofs.«900598_g7700000000000599_dist_rsrms_v7x_xyz2x2x2_x_m512_d512_f32_1_alg».proof.Proof.Regions

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem b3d_hpw1 (c : Dev nD) :
    dmaPay m p1rS1.val c = (cmSl1.view.loc (c : Thread nD τ) ↦[cmSl1.view.set]{fullShare}
      cmSl1.view.write (Elt F) (m ((c : Thread nD τ).loc cc0_scratch4)) (rcv1 m c) Finset.univ) := by
  rw [show p1rS1.val = 19 from by decide]; rfl
-- Chunk 1 arrives and is summed, normalised, scaled and stored.
theorem part9_spec (K : GSem nD τ sig → ℕ) (c : Dev nD) (v2 v5 v19 v22 : BitVec 32) :
    iprop(invs m K c
        ∗ levAts L lv
        ∗ (∃ W, owes (c : Thread nD τ) (owedAfter 14 c) W)
        ∗ atPos ER (dcell c p1rS1) 0 ∅ 0
        ∗ cred (tallyAt (dcell c p1rS1) () N48)
        ∗ (locM.view.loc (c : Thread nD τ) ↦[locM.view.set]{fullShare} (LOC m c))
        ∗ (gvM.view.loc (c : Thread nD τ) ↦[gvM.view.set]{fullShare} (GV m c))
        ∗ heldAny (ovSl1 c).view c fullShare)
      ⊢ wp frame (wpE (defs₀ (F := F)) 𝒱₀ (c : Thread nD τ) none) Set.univ
          (atBufs k0_part9 c v2 v5 v19 v22) (fun r => iprop((∃ W, owes (c : Thread nD τ) (owedAfter 14 c) W)
            ∗ semVal (dcell c p1rS1) 0
            ∗ (locM.view.loc (c : Thread nD τ) ↦[locM.view.set]{fullShare} (LOC m c))
            ∗ (gvM.view.loc (c : Thread nD τ) ↦[gvM.view.set]{fullShare} (GV m c))
            ∗ held cmSl1.view c fullShare (rcv1 m c)
            ∗ held (ovSl1 c).view c fullShare (val1 m c))) := by
  simp only [atBufs, k0_part9_eq_skeleton]; unfold k0_part9_skel
  simp only [Prog.lift, Prog.bind_op, Prog.bind_ret, Prog.pure_eq_ret]
  iintro ⟨#Hinv, #Hlev, HO, Hat_p1rS1, Hc_p1rS1, Hloc, Hgv, Hov1⟩
  icases HO with ⟨%W, HO⟩

  iapply (kit_wait_dma m (srcw := sndSl1 c) (dstw := cmSl1) cmSl1.view c p1rS1 (by decide) N48 rfl rfl fullShare (rcv1 m c)
      (m ((c : Thread nD τ).loc cc0_scratch4)) (b3d_hpw1 m c) (owedAfter 14 c) _ (K (dcell c p1rS1))) $$ [Hc_p1rS1 HO Hat_p1rS1]
  · isplitr; · iapply (invs_get m K c (dcell c p1rS1) (by simp [ownCells, paidCells])); iexact Hinv
    isplitl [Hc_p1rS1]; · iexact Hc_p1rS1
    isplitl [HO]; · iexact HO
    isplitr; · iapply (mayWait_p1r1 c); iexact Hlev
    iexact Hat_p1rS1
  iintro ⟨HO, Hz_p1rS1, Hcm1⟩

  iapply (wp_load 𝒱₀ (c : Thread nD τ) none Set.univ (m := locM) (View.setOn_subset_set _ _)) $$ Hloc
  iintro Hloc
  iapply (kit_load cmM (Rect.unit (s := S304x512) ![48, 0] S48x512.size inb_S304x512_S48x512_48_0) c fullShare (rcv1 m c)) $$ Hcm1
  iintro Hcm1
  iapply (wp_load 𝒱₀ (c : Thread nD τ) none Set.univ (m := gvM) (View.setOn_subset_set _ _)) $$ Hgv
  iintro Hgv
  rw [gv_readAt]

  ihave Hov1 := (heldAny_of_eq (ov_access_eq1 c).symm c fullShare) $$ Hov1
  ihave Hov1 := (heldAny_ex _ c fullShare) $$ Hov1
  icases Hov1 with ⟨%xo, Hov1⟩
  iapply (kit_load ovM (Rect.unit (s := S512x512) (k0_off8 c 128#32) S48x512.size (k0_off8_inb c 1)) c fullShare xo) $$ Hov1
  iintro Hov1
  ihave Hov1 := (held_any _ c fullShare xo) $$ Hov1
  iapply (kit_store ovM (Rect.unit (s := S512x512) (k0_off8 c 128#32) S48x512.size (k0_off8_inb c 1)) c (k0_pay2 (kept1 m c) (rcv1 m c) (GV m c))) $$ Hov1
  iintro Hov1
  ihave Hovf1 := (held_of_eq (ov_access_eq1 c) (x := k0_pay2 (kept1 m c) (rcv1 m c) (GV m c)) (x' := val1 m c) rfl c fullShare) $$ Hov1
  rw [wp_ret]; imodintro
  isplitl [HO]; · iexists _; iexact HO
  isplitl [Hz_p1rS1]; · iexact Hz_p1rS1
  isplitl [Hloc]; · iexact Hloc
  isplitl [Hgv]; · iexact Hgv
  isplitl [Hcm1]; · iexact Hcm1
  iexact Hovf1

end Cert.KernelIdeal.Proto

end
-- ==== Proof.Body3c.lean ====
import proofs.«900598_g7700000000000599_dist_rsrms_v7x_xyz2x2x2_x_m512_d512_f32_1_alg».proof.Proof.States
import proofs.«900598_g7700000000000599_dist_rsrms_v7x_xyz2x2x2_x_m512_d512_f32_1_alg».proof.Proof.KitRounds
import proofs.«900598_g7700000000000599_dist_rsrms_v7x_xyz2x2x2_x_m512_d512_f32_1_alg».proof.Proof.KitLocal
import proofs.«900598_g7700000000000599_dist_rsrms_v7x_xyz2x2x2_x_m512_d512_f32_1_alg».proof.Proof.Levels
import proofs.«900598_g7700000000000599_dist_rsrms_v7x_xyz2x2x2_x_m512_d512_f32_1_alg».proof.Proof.Ctx
import proofs.«900598_g7700000000000599_dist_rsrms_v7x_xyz2x2x2_x_m512_d512_f32_1_alg».proof.Proof.Regions

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

theorem hps1 (c : Dev nD) :
    dmaPay m p2sS1.val c = ((ovSl1 c).view.loc (c : Thread nD τ) ↦[(ovSl1 c).view.set]{fullShare.left}
      (ovSl1 c).view.write (Elt F) (m ((c : Thread nD τ).loc cc0_scratch3)) (val1 m c) Finset.univ) := by
  rw [show p2sS1.val = 29 from by decide]; rfl
theorem hpr1 (c : Dev nD) :
    dmaPay m p2rS1.val (zp c) = ((ovSl1 c).view.loc (zp c : Thread nD τ) ↦[(ovSl1 c).view.set]{fullShare}
      (ovSl1 c).view.write (Elt F) (m ((zp c : Thread nD τ).loc cc0_scratch3)) (val1 m c) Finset.univ) := by
  rw [show p2rS1.val = 35 from by decide]
  show p2rPay1 m (zp c) = _
  unfold p2rPay1; rw [zp_zp]
theorem hpw2 (c : Dev nD) :
    dmaPay m p1rS2.val c = (cmSl2.view.loc (c : Thread nD τ) ↦[cmSl2.view.set]{fullShare}
      cmSl2.view.write (Elt F) (m ((c : Thread nD τ).loc cc0_scratch4)) (rcv2 m c) Finset.univ) := by
  rw [show p1rS2.val = 20 from by decide]; rfl

-- Chunk 1 is passed on across the third axis; chunk 2 arrives, is computed and stored.
theorem part10_spec (K : GSem nD τ sig → ℕ) (c : Dev nD) (v5 v8 v19 v20 : BitVec 32) :
    iprop(invs m K c
        ∗ known c
        ∗ levAts L lv
        ∗ reached ER (dcell (zp c) p2rS1) 0
        ∗ (∃ W, owes (c : Thread nD τ) (owedAfter 14 c) W)
        ∗ dutyTok ER (dcell (zp c) p2rS1) 0 false
        ∗ dutyTok ER (dcell c p2sS1) 0 false
        ∗ atPos ER (dcell c p1rS2) 0 ∅ 0
        ∗ cred (tallyAt (dcell c p1rS2) () N40)
        ∗ (locM.view.loc (c : Thread nD τ) ↦[locM.view.set]{fullShare} (LOC m c))
        ∗ (gvM.view.loc (c : Thread nD τ) ↦[gvM.view.set]{fullShare} (GV m c))
        ∗ held (ovSl1 c).view c fullShare (val1 m c)
        ∗ heldAny (ovSl2 c).view c fullShare
        ∗ heldAny (ovSl1 c).view (zp c) fullShare)
      ⊢ wp frame (wpE (defs₀ (F := F)) 𝒱₀ (c : Thread nD τ) none) Set.univ
          (atBufs k0_part10 c v5 v8 v19 v20)
          (fun _ => iprop((∃ W, owes (c : Thread nD τ) (owedAfter 15 c) W)
            ∗ semVal (dcell c p1rS2) 0
            ∗ cred (tallyAt (dcell c p2sS1) () N48)
            ∗ (locM.view.loc (c : Thread nD τ) ↦[locM.view.set]{fullShare} (LOC m c))
            ∗ (gvM.view.loc (c : Thread nD τ) ↦[gvM.view.set]{fullShare} (GV m c))
            ∗ held (ovSl1 c).view c fullShare.right (val1 m c)
            ∗ held cmSl2.view c fullShare (rcv2 m c)
            ∗ held (ovSl2 c).view c fullShare (val2 m c))) := by
  simp only [atBufs, k0_part10_eq_skeleton]; unfold k0_part10_skel
  simp only [Prog.lift, Prog.bind_op, Prog.bind_ret, Prog.pure_eq_ret]
  iintro ⟨#Hinv, #Hkn, #Hlev, #Rz2r1, HO, Tzr1, Ts1, Pr2, Cr2, Hloc, Hgv, Hov1, Hov2, Hov1z⟩
  icases HO with ⟨%W, HO⟩

  ihave Hsp := (held_full_split _ c (val1 m c)) $$ Hov1
  icases Hsp with ⟨Hovl1, Hovr1⟩
  ihave #Is1 := (invs_get m K c (dcell c p2sS1) (by simp [ownCells, paidCells])) $$ Hinv
  ihave #Ir1 := (invs_get m K c (dcell (zp c) p2rS1) (by simp [ownCells, paidCells])) $$ Hinv
  ihave #Rs1 := (known_get c (dcell c p2sS1) (by simp [knownCells])) $$ Hkn
  iapply (kit_send m (src := ovSl1 c) (dst := ovSl1 c) (sS := p2sS1) (rS := p2rS1) c (zp c) (dev15_eq c) N48 fullShare.left (val1 m c)
      (m ((c : Thread nD τ).loc cc0_scratch3)) (m ((zp c : Thread nD τ).loc cc0_scratch3))
      (by decide) (by decide) rfl rfl rfl (hps1 m c) (hpr1 m c) (owedAfter 15 c) _ (K (dcell c p2sS1)) (K (dcell (zp c) p2rS1)))
    $$ [Hovl1 Hov1z HO Ts1 Tzr1]
  · isplitr; · iexact Is1
    isplitr; · iexact Ir1
    isplitl [Hovl1]; · iexact Hovl1
    isplitl [Hov1z]; · iexact Hov1z
    isplitl [HO]; · iexact HO
    isplitl [Ts1]; · iexact Ts1
    isplitr; · iexact Rs1
    isplitl [Tzr1]; · iexact Tzr1
    iexact Rz2r1
  iintro ⟨Cs1, HO⟩

  ihave #Iw2 := (invs_get m K c (dcell c p1rS2) (by simp [ownCells, paidCells])) $$ Hinv
  ihave #Hmw := (mayWait_p1r2 c) $$ Hlev
  iapply (kit_wait_dma m (srcw := sndSl2 c) (dstw := cmSl2) cmSl2.view c p1rS2 (by decide) N40 rfl rfl fullShare (rcv2 m c)
      (m ((c : Thread nD τ).loc cc0_scratch4)) (hpw2 m c) (owedAfter 15 c) _ (K (dcell c p1rS2))) $$ [Cr2 HO Pr2]
  · isplitr; · iexact Iw2
    isplitl [Cr2]; · iexact Cr2
    isplitl [HO]; · iexact HO
    isplitr; · iexact Hmw
    iexact Pr2
  iintro ⟨HO, Zr2, Hcm2⟩

  iapply (wp_load 𝒱₀ (c : Thread nD τ) none Set.univ (m := locM) (View.setOn_subset_set _ _)) $$ Hloc
  iintro Hloc
  iapply (kit_load cmM (Rect.unit (s := S304x512) ![96, 0] S40x512.size inb_S304x512_S40x512_96_0) c fullShare (rcv2 m c)) $$ Hcm2
  iintro Hcm2
  iapply (wp_load 𝒱₀ (c : Thread nD τ) none Set.univ (m := gvM) (View.setOn_subset_set _ _)) $$ Hgv
  iintro Hgv
  rw [gv_readAt]

  ihave Hov2 := (heldAny_of_eq (ov_access_eq2 c).symm c fullShare) $$ Hov2
  ihave Hov2 := (heldAny_ex _ c fullShare) $$ Hov2
  icases Hov2 with ⟨%xo, Hov2⟩
  iapply (kit_load ovM (Rect.unit (s := S512x512) (k0_off9 c 48#32) S40x512.size (k0_off9_inb c 0)) c fullShare xo) $$ Hov2
  iintro Hov2
  ihave Hov2 := (held_any _ c fullShare xo) $$ Hov2
  iapply (kit_store ovM (Rect.unit (s := S512x512) (k0_off9 c 48#32) S40x512.size (k0_off9_inb c 0)) c (k0_pay3 (kept2 m c) (rcv2 m c) (GV m c))) $$ Hov2
  iintro Hov2
  ihave Hovf2 := (held_of_eq (ov_access_eq2 c) (x := k0_pay3 (kept2 m c) (rcv2 m c) (GV m c)) (x' := val2 m c) rfl c fullShare) $$ Hov2
  rw [wp_ret]; imodintro
  iframe # ∗
  iexists _; iexact HO

end Cert.KernelIdeal.Proto

end
-- ==== Proof.Body3b.lean ====
import proofs.«900598_g7700000000000599_dist_rsrms_v7x_xyz2x2x2_x_m512_d512_f32_1_alg».proof.Proof.Ctx
import proofs.«900598_g7700000000000599_dist_rsrms_v7x_xyz2x2x2_x_m512_d512_f32_1_alg».proof.Proof.States
import proofs.«900598_g7700000000000599_dist_rsrms_v7x_xyz2x2x2_x_m512_d512_f32_1_alg».proof.Proof.KitRounds
import proofs.«900598_g7700000000000599_dist_rsrms_v7x_xyz2x2x2_x_m512_d512_f32_1_alg».proof.Proof.KitLocal
import proofs.«900598_g7700000000000599_dist_rsrms_v7x_xyz2x2x2_x_m512_d512_f32_1_alg».proof.Proof.Levels
import proofs.«900598_g7700000000000599_dist_rsrms_v7x_xyz2x2x2_x_m512_d512_f32_1_alg».proof.Proof.Regions

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem b3b_hps2 (c : Dev nD) :
    dmaPay m p2sS2.val c = ((ovSl2 c).view.loc (c : Thread nD τ) ↦[(ovSl2 c).view.set]{fullShare.left}
      (ovSl2 c).view.write (Elt F) (m ((c : Thread nD τ).loc cc0_scratch3)) (val2 m c) Finset.univ) := by
  rw [show p2sS2.val = 30 from by decide]; rfl
theorem b3b_hpr2 (c : Dev nD) :
    dmaPay m p2rS2.val (yp c) = ((ovSl2 c).view.loc (yp c : Thread nD τ) ↦[(ovSl2 c).view.set]{fullShare}
      (ovSl2 c).view.write (Elt F) (m ((yp c : Thread nD τ).loc cc0_scratch3)) (val2 m c) Finset.univ) := by
  rw [show p2rS2.val = 36 from by decide]
  show p2rPay2 m (yp c) = _
  unfold p2rPay2; rw [yp_yp]
theorem b3b_hps3 (c : Dev nD) :
    dmaPay m p2sS3.val c = ((ovSl3 c).view.loc (c : Thread nD τ) ↦[(ovSl3 c).view.set]{fullShare.left}
      (ovSl3 c).view.write (Elt F) (m ((c : Thread nD τ).loc cc0_scratch3)) (val3 m c) Finset.univ) := by
  rw [show p2sS3.val = 31 from by decide]; rfl
theorem b3b_hpr3 (c : Dev nD) :
    dmaPay m p2rS3.val (zp c) = ((ovSl3 c).view.loc (zp c : Thread nD τ) ↦[(ovSl3 c).view.set]{fullShare}
      (ovSl3 c).view.write (Elt F) (m ((zp c : Thread nD τ).loc cc0_scratch3)) (val3 m c) Finset.univ) := by
  rw [show p2rS3.val = 37 from by decide]
  show p2rPay3 m (zp c) = _
  unfold p2rPay3; rw [zp_zp]
theorem b3b_hpw3 (c : Dev nD) :
    dmaPay m p1rS3.val c = (cmSl3.view.loc (c : Thread nD τ) ↦[cmSl3.view.set]{fullShare}
      cmSl3.view.write (Elt F) (m ((c : Thread nD τ).loc cc0_scratch4)) (rcv3 m c) Finset.univ) := by
  rw [show p1rS3.val = 21 from by decide]; rfl
theorem b3b_hpw4 (c : Dev nD) :
    dmaPay m p1rS4.val c = (cmSl4.view.loc (c : Thread nD τ) ↦[cmSl4.view.set]{fullShare}
      cmSl4.view.write (Elt F) (m ((c : Thread nD τ).loc cc0_scratch4)) (rcv4 m c) Finset.univ) := by
  rw [show p1rS4.val = 22 from by decide]; rfl

-- Chunk 2 is passed on; chunk 3 arrives and is read.
theorem part11_spec (K : GSem nD τ sig → ℕ) (c : Dev nD) (v2 v5 v8 v19 v20 v21 : BitVec 32) :
    iprop(invs m K c
        ∗ known c
        ∗ levAts L lv
        ∗ reached ER (dcell (yp c) p2rS2) 0
        ∗ (∃ W, owes (c : Thread nD τ) (owedAfter 15 c) W)
        ∗ dutyTok ER (dcell (yp c) p2rS2) 0 false
        ∗ dutyTok ER (dcell c p2sS2) 0 false
        ∗ atPos ER (dcell c p1rS3) 0 ∅ 0
        ∗ cred (tallyAt (dcell c p1rS3) () N40)
        ∗ (locM.view.loc (c : Thread nD τ) ↦[locM.view.set]{fullShare} (LOC m c))
        ∗ held (ovSl2 c).view c fullShare (val2 m c)
        ∗ heldAny (ovSl2 c).view (yp c) fullShare)
      ⊢ wp frame (wpE (defs₀ (F := F)) 𝒱₀ (c : Thread nD τ) none) Set.univ
          (atBufs k0_part11 c v2 v5 v8 v19 v20 v21) (fun r => iprop(⌜r.2.1 = k0_pay4 (kept3 m c) (rcv3 m c) ∧ r.2.2.1 = k0_pay5 (kept3 m c) (rcv3 m c) ∧ r.2.2.2 = k0_pay6⌝ ∗ (∃ W, owes (c : Thread nD τ) (owedAfter 16 c) W)
            ∗ semVal (dcell c p1rS3) 0
            ∗ cred (tallyAt (dcell c p2sS2) () N40)
            ∗ (locM.view.loc (c : Thread nD τ) ↦[locM.view.set]{fullShare} (LOC m c))
            ∗ held (ovSl2 c).view c fullShare.right (val2 m c)
            ∗ held cmSl3.view c fullShare (rcv3 m c))) := by
  simp only [atBufs, k0_part11_eq_skeleton]; unfold k0_part11_skel
  simp only [Prog.lift, Prog.bind_op, Prog.bind_ret, Prog.pure_eq_ret]
  iintro ⟨#Hinv, #Hkn, #Hlev, #Hryp2r2, HO, Htp2r2, Htp2s2, Hat_p1rS3, Hc_p1rS3, Hloc, Hovf2, Hov2y⟩
  icases HO with ⟨%W, HO⟩

  ihave Hsp := (held_full_split _ c (val2 m c)) $$ Hovf2
  icases Hsp with ⟨Hovl2, Hovr2⟩
  iapply (kit_send m (src := ovSl2 c) (dst := ovSl2 c) (sS := p2sS2) (rS := p2rS2) c (yp c) (dev16_eq c) N40 fullShare.left (val2 m c)
      (m ((c : Thread nD τ).loc cc0_scratch3)) (m ((yp c : Thread nD τ).loc cc0_scratch3))
      (by decide) (by decide) rfl rfl rfl (b3b_hps2 m c) (b3b_hpr2 m c) (owedAfter 16 c) _ (K (dcell c p2sS2)) (K (dcell (yp c) p2rS2)))
    $$ [Hovl2 Hov2y HO Htp2s2 Htp2r2]
  · isplitr; · iapply (invs_get m K c (dcell c p2sS2) (by simp [ownCells, paidCells])); iexact Hinv
    isplitr; · iapply (invs_get m K c (dcell (yp c) p2rS2) (by simp [ownCells, paidCells])); iexact Hinv
    isplitl [Hovl2]; · iexact Hovl2
    isplitl [Hov2y]; · iexact Hov2y
    isplitl [HO]; · iexact HO
    isplitl [Htp2s2]; · iexact Htp2s2
    isplitr; · iapply (known_get c (dcell c p2sS2) (by simp [knownCells])); iexact Hkn
    isplitl [Htp2r2]; · iexact Htp2r2
    iexact Hryp2r2
  iintro ⟨Hc_p2sS2, HO⟩

  iapply (kit_wait_dma m (srcw := sndSl3 c) (dstw := cmSl3) cmSl3.view c p1rS3 (by decide) N40 rfl rfl fullShare (rcv3 m c)
      (m ((c : Thread nD τ).loc cc0_scratch4)) (b3b_hpw3 m c) (owedAfter 16 c) _ (K (dcell c p1rS3))) $$ [Hc_p1rS3 HO Hat_p1rS3]
  · isplitr; · iapply (invs_get m K c (dcell c p1rS3) (by simp [ownCells, paidCells])); iexact Hinv
    isplitl [Hc_p1rS3]; · iexact Hc_p1rS3
    isplitl [HO]; · iexact HO
    isplitr; · iapply (mayWait_p1r3 c); iexact Hlev
    iexact Hat_p1rS3
  iintro ⟨HO, Hz_p1rS3, Hcm3⟩

  iapply (wp_load 𝒱₀ (c : Thread nD τ) none Set.univ (m := locM) (View.setOn_subset_set _ _)) $$ Hloc
  iintro Hloc
  iapply (kit_load cmM (Rect.unit (s := S304x512) ![136, 0] S40x512.size inb_S304x512_S40x512_136_0) c fullShare (rcv3 m c)) $$ Hcm3
  iintro Hcm3
  rw [wp_ret]; imodintro
  isplitr; · ipureintro; exact ⟨rfl, rfl, rfl⟩
  isplitl [HO]; · iexists _; iexact HO
  isplitl [Hz_p1rS3]; · iexact Hz_p1rS3
  isplitl [Hc_p2sS2]; · iexact Hc_p2sS2
  isplitl [Hloc]; · iexact Hloc
  isplitl [Hovr2]; · iexact Hovr2
  iexact Hcm3

-- Chunk 3 is computed, stored and passed on; chunk 4 has arrived.
theorem part12_spec (K : GSem nD τ sig → ℕ) (c : Dev nD) (v2 v5 v8 v19 v20 v22 v356 : BitVec 32) :
    iprop(invs m K c
        ∗ known c
        ∗ levAts L lv
        ∗ reached ER (dcell (zp c) p2rS3) 0
        ∗ (∃ W, owes (c : Thread nD τ) (owedAfter 16 c) W)
        ∗ dutyTok ER (dcell (zp c) p2rS3) 0 false
        ∗ dutyTok ER (dcell c p2sS3) 0 false
        ∗ atPos ER (dcell c p1rS4) 0 ∅ 0
        ∗ cred (tallyAt (dcell c p1rS4) () N16)
        ∗ (gvM.view.loc (c : Thread nD τ) ↦[gvM.view.set]{fullShare} (GV m c))
        ∗ heldAny (ovSl3 c).view c fullShare
        ∗ heldAny (ovSl3 c).view (zp c) fullShare)
      ⊢ wp frame (wpE (defs₀ (F := F)) 𝒱₀ (c : Thread nD τ) none) Set.univ
          (atBufs k0_part12 c v2 v5 v8 v19 v20 v22 v356 (k0_pay4 (kept3 m c) (rcv3 m c)) (k0_pay5 (kept3 m c) (rcv3 m c)) k0_pay6) (fun r => iprop((∃ W, owes (c : Thread nD τ) (owedAfter 17 c) W)
            ∗ semVal (dcell c p1rS4) 0
            ∗ cred (tallyAt (dcell c p2sS3) () N40)
            ∗ (gvM.view.loc (c : Thread nD τ) ↦[gvM.view.set]{fullShare} (GV m c))
            ∗ held (ovSl3 c).view c fullShare.right (val3 m c)
            ∗ held cmSl4.view c fullShare (rcv4 m c))) := by
  simp only [atBufs, k0_part12_eq_skeleton]; unfold k0_part12_skel
  simp only [Prog.lift, Prog.bind_op, Prog.bind_ret, Prog.pure_eq_ret]
  iintro ⟨#Hinv, #Hkn, #Hlev, #Hrzp2r3, HO, Htp2r3, Htp2s3, Hat_p1rS4, Hc_p1rS4, Hgv, Hov3, Hov3z⟩
  icases HO with ⟨%W, HO⟩

  iapply (wp_load 𝒱₀ (c : Thread nD τ) none Set.univ (m := gvM) (View.setOn_subset_set _ _)) $$ Hgv
  iintro Hgv
  rw [gv_readAt]

  ihave Hov3 := (heldAny_of_eq (ov_access_eq3 c).symm c fullShare) $$ Hov3
  ihave Hov3 := (heldAny_ex _ c fullShare) $$ Hov3
  icases Hov3 with ⟨%xo, Hov3⟩
  iapply (kit_load ovM (Rect.unit (s := S512x512) (k0_off9 c 176#32) S40x512.size (k0_off9_inb c 1)) c fullShare xo) $$ Hov3
  iintro Hov3
  ihave Hov3 := (held_any _ c fullShare xo) $$ Hov3
  iapply (kit_store ovM (Rect.unit (s := S512x512) (k0_off9 c 176#32) S40x512.size (k0_off9_inb c 1)) c (k0_pay7 (k0_pay4 (kept3 m c) (rcv3 m c)) (k0_pay5 (kept3 m c) (rcv3 m c)) k0_pay6 (GV m c))) $$ Hov3
  iintro Hov3
  ihave Hovf3 := (held_of_eq (ov_access_eq3 c) (x := k0_pay7 (k0_pay4 (kept3 m c) (rcv3 m c)) (k0_pay5 (kept3 m c) (rcv3 m c)) k0_pay6 (GV m c)) (x' := val3 m c) rfl c fullShare) $$ Hov3

  ihave Hsp := (held_full_split _ c (val3 m c)) $$ Hovf3
  icases Hsp with ⟨Hovl3, Hovr3⟩
  iapply (kit_send m (src := ovSl3 c) (dst := ovSl3 c) (sS := p2sS3) (rS := p2rS3) c (zp c) (dev17_eq c) N40 fullShare.left (val3 m c)
      (m ((c : Thread nD τ).loc cc0_scratch3)) (m ((zp c : Thread nD τ).loc cc0_scratch3))
      (by decide) (by decide) rfl rfl rfl (b3b_hps3 m c) (b3b_hpr3 m c) (owedAfter 17 c) _ (K (dcell c p2sS3)) (K (dcell (zp c) p2rS3)))
    $$ [Hovl3 Hov3z HO Htp2s3 Htp2r3]
  · isplitr; · iapply (invs_get m K c (dcell c p2sS3) (by simp [ownCells, paidCells])); iexact Hinv
    isplitr; · iapply (invs_get m K c (dcell (zp c) p2rS3) (by simp [ownCells, paidCells])); iexact Hinv
    isplitl [Hovl3]; · iexact Hovl3
    isplitl [Hov3z]; · iexact Hov3z
    isplitl [HO]; · iexact HO
    isplitl [Htp2s3]; · iexact Htp2s3
    isplitr; · iapply (known_get c (dcell c p2sS3) (by simp [knownCells])); iexact Hkn
    isplitl [Htp2r3]; · iexact Htp2r3
    iexact Hrzp2r3
  iintro ⟨Hc_p2sS3, HO⟩

  iapply (kit_wait_dma m (srcw := sndSl4 c) (dstw := cmSl4) cmSl4.view c p1rS4 (by decide) N16 rfl rfl fullShare (rcv4 m c)
      (m ((c : Thread nD τ).loc cc0_scratch4)) (b3b_hpw4 m c) (owedAfter 17 c) _ (K (dcell c p1rS4))) $$ [Hc_p1rS4 HO Hat_p1rS4]
  · isplitr; · iapply (invs_get m K c (dcell c p1rS4) (by simp [ownCells, paidCells])); iexact Hinv
    isplitl [Hc_p1rS4]; · iexact Hc_p1rS4
    isplitl [HO]; · iexact HO
    isplitr; · iapply (mayWait_p1r4 c); iexact Hlev
    iexact Hat_p1rS4
  iintro ⟨HO, Hz_p1rS4, Hcm4⟩
  rw [wp_ret]; imodintro
  isplitl [HO]; · iexists _; iexact HO
  isplitl [Hz_p1rS4]; · iexact Hz_p1rS4
  isplitl [Hc_p2sS3]; · iexact Hc_p2sS3
  isplitl [Hgv]; · iexact Hgv
  isplitl [Hovr3]; · iexact Hovr3
  iexact Hcm4

end Cert.KernelIdeal.Proto

end
-- ==== Proof.Body4.lean ====
import proofs.«900598_g7700000000000599_dist_rsrms_v7x_xyz2x2x2_x_m512_d512_f32_1_alg».proof.Proof.States
import proofs.«900598_g7700000000000599_dist_rsrms_v7x_xyz2x2x2_x_m512_d512_f32_1_alg».proof.Proof.KitRounds
import proofs.«900598_g7700000000000599_dist_rsrms_v7x_xyz2x2x2_x_m512_d512_f32_1_alg».proof.Proof.KitLocal
import proofs.«900598_g7700000000000599_dist_rsrms_v7x_xyz2x2x2_x_m512_d512_f32_1_alg».proof.Proof.Levels
import proofs.«900598_g7700000000000599_dist_rsrms_v7x_xyz2x2x2_x_m512_d512_f32_1_alg».proof.Proof.Ctx
import proofs.«900598_g7700000000000599_dist_rsrms_v7x_xyz2x2x2_x_m512_d512_f32_1_alg».proof.Proof.Regions

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- Chunk 4 is computed, stored and passed on.
theorem part13_spec (K : GSem nD τ sig → ℕ) (c : Dev nD) (v2 v5 v8 v20 v21 v402 : BitVec 32) :
    iprop(invs m K c
        ∗ known c
        ∗ reached ER (dcell (yp c) p2rS4) 0
        ∗ (∃ W, owes (c : Thread nD τ) (owedAfter 17 c) W)
        ∗ dutyTok ER (dcell (yp c) p2rS4) 0 false
        ∗ dutyTok ER (dcell c p2sS4) 0 false
        ∗ (locM.view.loc (c : Thread nD τ) ↦[locM.view.set]{fullShare} (LOC m c))
        ∗ (gvM.view.loc (c : Thread nD τ) ↦[gvM.view.set]{fullShare} (GV m c))
        ∗ held cmSl4.view c fullShare (rcv4 m c)
        ∗ heldAny (ovSl4 c).view c fullShare
        ∗ heldAny (ovSl4 c).view (yp c) fullShare) ⊢ wp frame (wpE (defs₀ (F := F)) 𝒱₀ (c : Thread nD τ) none) Set.univ
          (atBufs k0_part13 c v2 v5 v8 v20 v21 v402) (fun _ => iprop((∃ W, owes (c : Thread nD τ) (owedAfter 18 c) W)
            ∗ cred (tallyAt (dcell c p2sS4) () N16)
            ∗ (locM.view.loc (c : Thread nD τ) ↦[locM.view.set]{fullShare} (LOC m c))
            ∗ (gvM.view.loc (c : Thread nD τ) ↦[gvM.view.set]{fullShare} (GV m c))
            ∗ held cmSl4.view c fullShare (rcv4 m c)
            ∗ held (ovSl4 c).view c fullShare.right (val4 m c))) := by
  simp only [atBufs, k0_part13_eq_skeleton]; unfold k0_part13_skel
  simp only [Prog.lift, Prog.bind_op, Prog.bind_ret, Prog.pure_eq_ret]
  iintro ⟨#h0, #h1, #h17, ⟨%W, h19⟩, h20, h21, h96, h97, h106, h107, h113⟩

  iapply (wp_load 𝒱₀ (c : Thread nD τ) none Set.univ (m := locM) (View.setOn_subset_set _ _)) $$ h96
  iintro h96

  iapply (kit_load cmM (Rect.unit (s := S304x512) ![176, 0] S16x512.size inb_S304x512_S16x512_176_0) c fullShare (rcv4 m c)) $$ h106
  iintro h106

  iapply (wp_load 𝒱₀ (c : Thread nD τ) none Set.univ (m := gvM) (View.setOn_subset_set _ _)) $$ h97
  iintro h97

  ihave g0 := (heldAny_of_eq (ov_access_eq4 c).symm c fullShare) $$ h107
  ihave ⟨%x4, g1⟩ := (heldAny_ex _ c fullShare) $$ g0
  iapply (kit_load ovM (Rect.unit (s := S512x512) (k0_off10 c 88#32) S16x512.size (k0_off10_inb c 0)) c fullShare x4) $$ g1
  iintro g1
  ihave g2 := (held_any _ c fullShare x4) $$ g1

  iapply (kit_store ovM (Rect.unit (s := S512x512) (k0_off10 c 88#32) S16x512.size (k0_off10_inb c 0)) c _) $$ g2
  iintro g3
  ihave g4 := (held_of_eq (ov_access_eq4 c) (x' := val4 m c) (by rw [gv_readAt]; rfl) c fullShare) $$ g3

  ihave ⟨g5, g6⟩ := (held_full_split (ovSl4 c).view c (val4 m c)) $$ g4
  iapply (kit_send m (src := ovSl4 c) (dst := ovSl4 c) (sS := p2sS4) (rS := p2rS4) c (yp c) (dev18_eq c) N16 fullShare.left (val4 m c) (m ((c : Thread nD τ).loc cc0_scratch3)) (m ((yp c : Thread nD τ).loc cc0_scratch3)) (by decide) (by decide) rfl rfl rfl rfl (by show p2rPay4 m (yp c) = _; unfold p2rPay4; rw [yp_yp]) (owedAfter 18 c) _ (K (dcell c p2sS4)) (K (dcell (yp c) p2rS4))) $$ [g5 h113 h19 h21 h20]
  · isplitr; · iapply (invs_get m K c (dcell c p2sS4) (by simp [ownCells, paidCells])); iexact h0
    isplitr; · iapply (invs_get m K c (dcell (yp c) p2rS4) (by simp [ownCells, paidCells])); iexact h0
    isplitl [g5]; · iexact g5
    isplitl [h113]; · iexact h113
    isplitl [h19]; · iexact h19
    isplitl [h21]; · iexact h21
    isplitr; · iapply (known_get c (dcell c p2sS4) (by simp [knownCells])); iexact h1
    isplitl [h20]; · iexact h20
    iexact h17
  iintro ⟨g7, h19⟩
  rw [wp_ret]; imodintro
  isplitl [h19]; · iexists _; iexact h19
  isplitl [g7]; · iexact g7
  isplitl [h96]; · iexact h96
  isplitl [h97]; · iexact h97
  isplitl [h106]; · iexact h106
  iexact g6

-- Chunk 5 arrives, is computed and stored.
theorem part14_spec (K : GSem nD τ sig → ℕ) (c : Dev nD) (v2 v5 v8 v19 v22 v438 v439 : BitVec 32) :
    iprop(invs m K c
        ∗ levAts L lv
        ∗ (∃ W, owes (c : Thread nD τ) (owedAfter 18 c) W)
        ∗ atPos ER (dcell c p1rS5) 0 ∅ 0
        ∗ cred (tallyAt (dcell c p1rS5) () N16)
        ∗ (locM.view.loc (c : Thread nD τ) ↦[locM.view.set]{fullShare} (LOC m c))
        ∗ (gvM.view.loc (c : Thread nD τ) ↦[gvM.view.set]{fullShare} (GV m c))
        ∗ heldAny (ovSl5 c).view c fullShare) ⊢ wp frame (wpE (defs₀ (F := F)) 𝒱₀ (c : Thread nD τ) none) Set.univ
          (atBufs k0_part14 c v2 v5 v8 v19 v22 v438 v439) (fun _ => iprop((∃ W, owes (c : Thread nD τ) (owedAfter 18 c) W)
            ∗ semVal (dcell c p1rS5) 0
            ∗ (locM.view.loc (c : Thread nD τ) ↦[locM.view.set]{fullShare} (LOC m c))
            ∗ (gvM.view.loc (c : Thread nD τ) ↦[gvM.view.set]{fullShare} (GV m c))
            ∗ held cmSl5.view c fullShare (rcv5 m c)
            ∗ held (ovSl5 c).view c fullShare (val5 m c))) := by
  simp only [atBufs, k0_part14_eq_skeleton]; unfold k0_part14_skel
  simp only [Prog.lift, Prog.bind_op, Prog.bind_ret, Prog.pure_eq_ret]
  iintro ⟨#h0, #h2, ⟨%W, h19⟩, h39, h40, h95, h96, h107⟩

  iapply (kit_wait_dma m (dstw := cmSl5) cmSl5.view c p1rS5 (by decide) N16 rfl rfl fullShare (rcv5 m c) (m ((c : Thread nD τ).loc cc0_scratch4)) rfl (owedAfter 18 c) _ (K (dcell c p1rS5))) $$ [h40 h19 h39]
  · isplitr; · iapply (invs_get m K c (dcell c p1rS5) (by simp [ownCells, paidCells])); iexact h0
    isplitl [h40]; · iexact h40
    isplitl [h19]; · iexact h19
    isplitr; · iapply (mayWait_p1r5 (F := F) c); iexact h2
    iexact h39
  iintro ⟨h19, g0, g1⟩

  iapply (wp_load 𝒱₀ (c : Thread nD τ) none Set.univ (m := locM) (View.setOn_subset_set _ _)) $$ h95
  iintro h95

  iapply (kit_load cmM (Rect.unit (s := S304x512) ![192, 0] S16x512.size inb_S304x512_S16x512_192_0) c fullShare (rcv5 m c)) $$ g1
  iintro g1

  iapply (wp_load 𝒱₀ (c : Thread nD τ) none Set.univ (m := gvM) (View.setOn_subset_set _ _)) $$ h96
  iintro h96

  ihave g2 := (heldAny_of_eq (ov_access_eq5 c).symm c fullShare) $$ h107
  ihave ⟨%x5, g3⟩ := (heldAny_ex _ c fullShare) $$ g2
  iapply (kit_load ovM (Rect.unit (s := S512x512) (k0_off10 c 216#32) S16x512.size (k0_off10_inb c 1)) c fullShare x5) $$ g3
  iintro g3
  ihave g4 := (held_any _ c fullShare x5) $$ g3

  iapply (kit_store ovM (Rect.unit (s := S512x512) (k0_off10 c 216#32) S16x512.size (k0_off10_inb c 1)) c _) $$ g4
  iintro g5
  ihave g6 := (held_of_eq (ov_access_eq5 c) (x' := val5 m c) (by rw [gv_readAt]; rfl) c fullShare) $$ g5
  rw [wp_ret]; imodintro
  isplitl [h19]; · iexists _; iexact h19
  isplitl [g0]; · iexact g0
  isplitl [h95]; · iexact h95
  isplitl [h96]; · iexact h96
  isplitl [g1]; · iexact g1
  iexact g6

-- Chunk 5 is passed on; chunk 6 arrives and is read.
theorem part15_spec (K : GSem nD τ sig → ℕ) (c : Dev nD) (v5 v8 v19 v20 : BitVec 32) :
    iprop(invs m K c
        ∗ known c
        ∗ levAts L lv
        ∗ reached ER (dcell (zp c) p2rS5) 0
        ∗ (∃ W, owes (c : Thread nD τ) (owedAfter 18 c) W)
        ∗ dutyTok ER (dcell (zp c) p2rS5) 0 false
        ∗ dutyTok ER (dcell c p2sS5) 0 false
        ∗ atPos ER (dcell c p1rS6) 0 ∅ 0
        ∗ cred (tallyAt (dcell c p1rS6) () N24)
        ∗ (locM.view.loc (c : Thread nD τ) ↦[locM.view.set]{fullShare} (LOC m c))
        ∗ (gvM.view.loc (c : Thread nD τ) ↦[gvM.view.set]{fullShare} (GV m c))
        ∗ held (ovSl5 c).view c fullShare (val5 m c)
        ∗ heldAny (ovSl6 c).view c fullShare
        ∗ heldAny (ovSl5 c).view (zp c) fullShare) ⊢ wp frame (wpE (defs₀ (F := F)) 𝒱₀ (c : Thread nD τ) none) Set.univ
          (atBufs k0_part15 c v5 v8 v19 v20) (fun r => iprop(⌜r.1 = k0_pay10 (kept6 m c) (rcv6 m c) (GV m c)⌝ ∗ (∃ W, owes (c : Thread nD τ) (owedAfter 19 c) W)
            ∗ semVal (dcell c p1rS6) 0
            ∗ cred (tallyAt (dcell c p2sS5) () N16)
            ∗ (locM.view.loc (c : Thread nD τ) ↦[locM.view.set]{fullShare} (LOC m c))
            ∗ (gvM.view.loc (c : Thread nD τ) ↦[gvM.view.set]{fullShare} (GV m c))
            ∗ held (ovSl5 c).view c fullShare.right (val5 m c)
            ∗ held cmSl6.view c fullShare (rcv6 m c)
            ∗ heldAny (ovSl6 c).view c fullShare)) := by
  simp only [atBufs, k0_part15_eq_skeleton]; unfold k0_part15_skel
  simp only [Prog.lift, Prog.bind_op, Prog.bind_ret, Prog.pure_eq_ret]
  iintro ⟨#h0, #h1, #h2, #h18, ⟨%W, h19⟩, h20, h21, h42, h43, h94, h95, h107, h108, h112⟩

  ihave ⟨g0, g1⟩ := (held_full_split (ovSl5 c).view c (val5 m c)) $$ h107
  iapply (kit_send m (src := ovSl5 c) (dst := ovSl5 c) (sS := p2sS5) (rS := p2rS5) c (zp c) (dev19_eq c) N16 fullShare.left (val5 m c) (m ((c : Thread nD τ).loc cc0_scratch3)) (m ((zp c : Thread nD τ).loc cc0_scratch3)) (by decide) (by decide) rfl rfl rfl rfl (by show p2rPay5 m (zp c) = _; unfold p2rPay5; rw [zp_zp]) (owedAfter 19 c) _ (K (dcell c p2sS5)) (K (dcell (zp c) p2rS5))) $$ [g0 h112 h19 h21 h20]
  · isplitr; · iapply (invs_get m K c (dcell c p2sS5) (by simp [ownCells, paidCells])); iexact h0
    isplitr; · iapply (invs_get m K c (dcell (zp c) p2rS5) (by simp [ownCells, paidCells])); iexact h0
    isplitl [g0]; · iexact g0
    isplitl [h112]; · iexact h112
    isplitl [h19]; · iexact h19
    isplitl [h21]; · iexact h21
    isplitr; · iapply (known_get c (dcell c p2sS5) (by simp [knownCells])); iexact h1
    isplitl [h20]; · iexact h20
    iexact h18
  iintro ⟨g2, h19⟩

  iapply (kit_wait_dma m (dstw := cmSl6) cmSl6.view c p1rS6 (by decide) N24 rfl rfl fullShare (rcv6 m c) (m ((c : Thread nD τ).loc cc0_scratch4)) rfl (owedAfter 19 c) _ (K (dcell c p1rS6))) $$ [h43 h19 h42]
  · isplitr; · iapply (invs_get m K c (dcell c p1rS6) (by simp [ownCells, paidCells])); iexact h0
    isplitl [h43]; · iexact h43
    isplitl [h19]; · iexact h19
    isplitr; · iapply (mayWait_nil (F := F) c (.dma p1rS6)); iexact h2
    iexact h42
  iintro ⟨h19, g3, g4⟩

  iapply (wp_load 𝒱₀ (c : Thread nD τ) none Set.univ (m := locM) (View.setOn_subset_set _ _)) $$ h94
  iintro h94

  iapply (kit_load cmM (Rect.unit (s := S304x512) ![208, 0] S24x512.size inb_S304x512_S24x512_208_0) c fullShare (rcv6 m c)) $$ g4
  iintro g4

  iapply (wp_load 𝒱₀ (c : Thread nD τ) none Set.univ (m := gvM) (View.setOn_subset_set _ _)) $$ h95
  iintro h95

  ihave g5 := (heldAny_of_eq (ov_access_eq6 c).symm c fullShare) $$ h108
  ihave ⟨%x6, g6⟩ := (heldAny_ex _ c fullShare) $$ g5
  iapply (kit_load ovM (Rect.unit (s := S512x512) (k0_off11 c 104#32) S24x512.size (k0_off11_inb c 0)) c fullShare x6) $$ g6
  iintro g6
  ihave g7 := (held_any _ c fullShare x6) $$ g6
  ihave g8 := (heldAny_of_eq (ov_access_eq6 c) c fullShare) $$ g7
  rw [wp_ret]; imodintro
  isplitr
  · ipureintro; show k0_pay10 _ _ _ = _; rw [gv_readAt]; rfl
  isplitl [h19]; · iexists _; iexact h19
  isplitl [g3]; · iexact g3
  isplitl [g2]; · iexact g2
  isplitl [h94]; · iexact h94
  isplitl [h95]; · iexact h95
  isplitl [g1]; · iexact g1
  isplitl [g4]; · iexact g4
  iexact g8

-- Chunk 6 is stored; chunk 7 arrives, is computed and stored.
theorem part16_spec (K : GSem nD τ sig → ℕ) (c : Dev nD) (v5 v8 v19 v20 : BitVec 32) (v514 : Vec F S24x512 .f32) :
    iprop(invs m K c
        ∗ levAts L lv
        ∗ (∃ W, owes (c : Thread nD τ) (owedAfter 19 c) W)
        ∗ atPos ER (dcell c p1rS7) 0 ∅ 0
        ∗ cred (tallyAt (dcell c p1rS7) () N24)
        ∗ (locM.view.loc (c : Thread nD τ) ↦[locM.view.set]{fullShare} (LOC m c))
        ∗ (gvM.view.loc (c : Thread nD τ) ↦[gvM.view.set]{fullShare} (GV m c))
        ∗ heldAny (ovSl6 c).view c fullShare
        ∗ heldAny (ovSl7 c).view c fullShare) ⊢ wp frame (wpE (defs₀ (F := F)) 𝒱₀ (c : Thread nD τ) none) Set.univ
          (atBufs k0_part16 c v5 v8 v19 v20 (k0_pay10 (kept6 m c) (rcv6 m c) (GV m c)) v514) (fun _ => iprop((∃ W, owes (c : Thread nD τ) (owedAfter 19 c) W)
            ∗ semVal (dcell c p1rS7) 0
            ∗ (locM.view.loc (c : Thread nD τ) ↦[locM.view.set]{fullShare} (LOC m c))
            ∗ (gvM.view.loc (c : Thread nD τ) ↦[gvM.view.set]{fullShare} (GV m c))
            ∗ held (ovSl6 c).view c fullShare (val6 m c)
            ∗ held cmSl7.view c fullShare (rcv7 m c)
            ∗ held (ovSl7 c).view c fullShare (val7 m c))) := by
  simp only [atBufs, k0_part16_eq_skeleton]; unfold k0_part16_skel
  simp only [Prog.lift, Prog.bind_op, Prog.bind_ret, Prog.pure_eq_ret]
  iintro ⟨#h0, #h2, ⟨%W, h19⟩, h43, h44, h92, h93, h107, h108⟩

  ihave g0 := (heldAny_of_eq (ov_access_eq6 c).symm c fullShare) $$ h107

  iapply (kit_store ovM (Rect.unit (s := S512x512) (k0_off11 c 104#32) S24x512.size (k0_off11_inb c 0)) c _) $$ g0
  iintro g1
  ihave g2 := (held_of_eq (ov_access_eq6 c) (x' := val6 m c) (x := k0_pay11 (k0_pay10 (kept6 m c) (rcv6 m c) (GV m c))) rfl c fullShare) $$ g1

  iapply (kit_wait_dma m (dstw := cmSl7) cmSl7.view c p1rS7 (by decide) N24 rfl rfl fullShare (rcv7 m c) (m ((c : Thread nD τ).loc cc0_scratch4)) rfl (owedAfter 19 c) _ (K (dcell c p1rS7))) $$ [h44 h19 h43]
  · isplitr; · iapply (invs_get m K c (dcell c p1rS7) (by simp [ownCells, paidCells])); iexact h0
    isplitl [h44]; · iexact h44
    isplitl [h19]; · iexact h19
    isplitr; · iapply (mayWait_nil (F := F) c (.dma p1rS7)); iexact h2
    iexact h43
  iintro ⟨h19, g3, g4⟩

  iapply (wp_load 𝒱₀ (c : Thread nD τ) none Set.univ (m := locM) (View.setOn_subset_set _ _)) $$ h92
  iintro h92

  iapply (kit_load cmM (Rect.unit (s := S304x512) ![232, 0] S24x512.size inb_S304x512_S24x512_232_0) c fullShare (rcv7 m c)) $$ g4
  iintro g4

  iapply (wp_load 𝒱₀ (c : Thread nD τ) none Set.univ (m := gvM) (View.setOn_subset_set _ _)) $$ h93
  iintro h93

  ihave g5 := (heldAny_of_eq (ov_access_eq7 c).symm c fullShare) $$ h108
  ihave ⟨%x7, g6⟩ := (heldAny_ex _ c fullShare) $$ g5
  iapply (kit_load ovM (Rect.unit (s := S512x512) (k0_off11 c 232#32) S24x512.size (k0_off11_inb c 1)) c fullShare x7) $$ g6
  iintro g6
  ihave g7 := (held_any _ c fullShare x7) $$ g6

  iapply (kit_store ovM (Rect.unit (s := S512x512) (k0_off11 c 232#32) S24x512.size (k0_off11_inb c 1)) c _) $$ g7
  iintro g8
  ihave g9 := (held_of_eq (ov_access_eq7 c) (x' := val7 m c) (by rw [gv_readAt]; rfl) c fullShare) $$ g8
  rw [wp_ret]; imodintro
  isplitl [h19]; · iexists _; iexact h19
  isplitl [g3]; · iexact g3
  isplitl [h92]; · iexact h92
  isplitl [h93]; · iexact h93
  isplitl [g2]; · iexact g2
  isplitl [g4]; · iexact g4
  iexact g9

-- Chunk 8 arrives, is computed and stored.
theorem part17_spec (K : GSem nD τ sig → ℕ) (c : Dev nD) (v5 v8 v19 v20 : BitVec 32) :
    iprop(invs m K c
        ∗ levAts L lv
        ∗ (∃ W, owes (c : Thread nD τ) (owedAfter 19 c) W)
        ∗ atPos ER (dcell c p1rS8) 0 ∅ 0
        ∗ cred (tallyAt (dcell c p1rS8) () N24)
        ∗ (locM.view.loc (c : Thread nD τ) ↦[locM.view.set]{fullShare} (LOC m c))
        ∗ (gvM.view.loc (c : Thread nD τ) ↦[gvM.view.set]{fullShare} (GV m c))
        ∗ heldAny (ovSl8 c).view c fullShare) ⊢ wp frame (wpE (defs₀ (F := F)) 𝒱₀ (c : Thread nD τ) none) Set.univ
          (atBufs k0_part17 c v5 v8 v19 v20) (fun _ => iprop((∃ W, owes (c : Thread nD τ) (owedAfter 19 c) W)
            ∗ semVal (dcell c p1rS8) 0
            ∗ (locM.view.loc (c : Thread nD τ) ↦[locM.view.set]{fullShare} (LOC m c))
            ∗ (gvM.view.loc (c : Thread nD τ) ↦[gvM.view.set]{fullShare} (GV m c))
            ∗ held cmSl8.view c fullShare (rcv8 m c)
            ∗ held (ovSl8 c).view c fullShare (val8 m c))) := by
  simp only [atBufs, k0_part17_eq_skeleton]; unfold k0_part17_skel
  simp only [Prog.lift, Prog.bind_op, Prog.bind_ret, Prog.pure_eq_ret]
  iintro ⟨#h0, #h2, ⟨%W, h19⟩, h46, h47, h91, h92, h109⟩

  iapply (kit_wait_dma m (dstw := cmSl8) cmSl8.view c p1rS8 (by decide) N24 rfl rfl fullShare (rcv8 m c) (m ((c : Thread nD τ).loc cc0_scratch4)) rfl (owedAfter 19 c) _ (K (dcell c p1rS8))) $$ [h47 h19 h46]
  · isplitr; · iapply (invs_get m K c (dcell c p1rS8) (by simp [ownCells, paidCells])); iexact h0
    isplitl [h47]; · iexact h47
    isplitl [h19]; · iexact h19
    isplitr; · iapply (mayWait_nil (F := F) c (.dma p1rS8)); iexact h2
    iexact h46
  iintro ⟨h19, g0, g1⟩

  iapply (wp_load 𝒱₀ (c : Thread nD τ) none Set.univ (m := locM) (View.setOn_subset_set _ _)) $$ h91
  iintro h91

  iapply (kit_load cmM (Rect.unit (s := S304x512) ![256, 0] S24x512.size inb_S304x512_S24x512_256_0) c fullShare (rcv8 m c)) $$ g1
  iintro g1

  iapply (wp_load 𝒱₀ (c : Thread nD τ) none Set.univ (m := gvM) (View.setOn_subset_set _ _)) $$ h92
  iintro h92

  ihave g2 := (heldAny_of_eq (ov_access_eq8 c).symm c fullShare) $$ h109
  ihave ⟨%x8, g3⟩ := (heldAny_ex _ c fullShare) $$ g2
  iapply (kit_load ovM (Rect.unit (s := S512x512) (k0_off12 c 104#32) S24x512.size (k0_off12_inb c 0)) c fullShare x8) $$ g3
  iintro g3
  ihave g4 := (held_any _ c fullShare x8) $$ g3

  iapply (kit_store ovM (Rect.unit (s := S512x512) (k0_off12 c 104#32) S24x512.size (k0_off12_inb c 0)) c _) $$ g4
  iintro g5
  ihave g6 := (held_of_eq (ov_access_eq8 c) (x' := val8 m c) (by rw [gv_readAt]; rfl) c fullShare) $$ g5
  rw [wp_ret]; imodintro
  isplitl [h19]; · iexists _; iexact h19
  isplitl [g0]; · iexact g0
  isplitl [h91]; · iexact h91
  isplitl [h92]; · iexact h92
  isplitl [g1]; · iexact g1
  iexact g6

-- Chunk 9 arrives, is computed and stored.
theorem part18_spec (K : GSem nD τ sig → ℕ) (c : Dev nD) (v5 v8 v19 v586 c0_i32_351 : BitVec 32) :
    iprop(invs m K c
        ∗ levAts L lv
        ∗ (∃ W, owes (c : Thread nD τ) (owedAfter 19 c) W)
        ∗ atPos ER (dcell c p1rS9) 0 ∅ 0
        ∗ cred (tallyAt (dcell c p1rS9) () N24)
        ∗ (locM.view.loc (c : Thread nD τ) ↦[locM.view.set]{fullShare} (LOC m c))
        ∗ (gvM.view.loc (c : Thread nD τ) ↦[gvM.view.set]{fullShare} (GV m c))
        ∗ heldAny (ovSl9 c).view c fullShare) ⊢ wp frame (wpE (defs₀ (F := F)) 𝒱₀ (c : Thread nD τ) none) Set.univ
          (atBufs k0_part18 c v5 v8 v19 v586 c0_i32_351) (fun _ => iprop((∃ W, owes (c : Thread nD τ) (owedAfter 19 c) W)
            ∗ semVal (dcell c p1rS9) 0
            ∗ (locM.view.loc (c : Thread nD τ) ↦[locM.view.set]{fullShare} (LOC m c))
            ∗ (gvM.view.loc (c : Thread nD τ) ↦[gvM.view.set]{fullShare} (GV m c))
            ∗ held cmSl9.view c fullShare (rcv9 m c)
            ∗ held (ovSl9 c).view c fullShare (val9 m c))) := by
  simp only [atBufs, k0_part18_eq_skeleton]; unfold k0_part18_skel
  simp only [Prog.lift, Prog.bind_op, Prog.bind_ret, Prog.pure_eq_ret]
  iintro ⟨#h0, #h2, ⟨%W, h19⟩, h49, h50, h90, h91, h110⟩

  iapply (kit_wait_dma m (dstw := cmSl9) cmSl9.view c p1rS9 (by decide) N24 rfl rfl fullShare (rcv9 m c) (m ((c : Thread nD τ).loc cc0_scratch4)) rfl (owedAfter 19 c) _ (K (dcell c p1rS9))) $$ [h50 h19 h49]
  · isplitr; · iapply (invs_get m K c (dcell c p1rS9) (by simp [ownCells, paidCells])); iexact h0
    isplitl [h50]; · iexact h50
    isplitl [h19]; · iexact h19
    isplitr; · iapply (mayWait_nil (F := F) c (.dma p1rS9)); iexact h2
    iexact h49
  iintro ⟨h19, g0, g1⟩

  iapply (wp_load 𝒱₀ (c : Thread nD τ) none Set.univ (m := locM) (View.setOn_subset_set _ _)) $$ h90
  iintro h90

  iapply (kit_load cmM (Rect.unit (s := S304x512) ![280, 0] S24x512.size inb_S304x512_S24x512_280_0) c fullShare (rcv9 m c)) $$ g1
  iintro g1

  iapply (wp_load 𝒱₀ (c : Thread nD τ) none Set.univ (m := gvM) (View.setOn_subset_set _ _)) $$ h91
  iintro h91

  ihave g2 := (heldAny_of_eq (ov_access_eq9 c).symm c fullShare) $$ h110
  ihave ⟨%x9, g3⟩ := (heldAny_ex _ c fullShare) $$ g2
  iapply (kit_load ovM (Rect.unit (s := S512x512) (k0_off12 c 232#32) S24x512.size (k0_off12_inb c 1)) c fullShare x9) $$ g3
  iintro g3
  ihave g4 := (held_any _ c fullShare x9) $$ g3

  iapply (kit_store ovM (Rect.unit (s := S512x512) (k0_off12 c 232#32) S24x512.size (k0_off12_inb c 1)) c _) $$ g4
  iintro g5
  ihave g6 := (held_of_eq (ov_access_eq9 c) (x' := val9 m c) (by rw [gv_readAt]; rfl) c fullShare) $$ g5
  rw [wp_ret]; imodintro
  isplitl [h19]; · iexists _; iexact h19
  isplitl [g0]; · iexact g0
  isplitl [h90]; · iexact h90
  isplitl [h91]; · iexact h91
  isplitl [g1]; · iexact g1
  iexact g6

end Cert.KernelIdeal.Proto

end
-- ==== Proof.Body5a.lean ====
import proofs.«900598_g7700000000000599_dist_rsrms_v7x_xyz2x2x2_x_m512_d512_f32_1_alg».proof.Proof.States
import proofs.«900598_g7700000000000599_dist_rsrms_v7x_xyz2x2x2_x_m512_d512_f32_1_alg».proof.Proof.KitRounds
import proofs.«900598_g7700000000000599_dist_rsrms_v7x_xyz2x2x2_x_m512_d512_f32_1_alg».proof.Proof.KitLocal
import proofs.«900598_g7700000000000599_dist_rsrms_v7x_xyz2x2x2_x_m512_d512_f32_1_alg».proof.Proof.Levels
import proofs.«900598_g7700000000000599_dist_rsrms_v7x_xyz2x2x2_x_m512_d512_f32_1_alg».proof.Proof.Regions
import proofs.«900598_g7700000000000599_dist_rsrms_v7x_xyz2x2x2_x_m512_d512_f32_1_alg».proof.Proof.Ctx

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- The rows the device computed for itself start towards the result array: its own half as one piece, and the two chunks it keeps of the other half.
theorem part19_spec (K : GSem nD τ sig → ℕ) (c : Dev nD) (v2 v8 v19 v21 v624 : BitVec 32) :
    iprop(semVal (dcell c outS0) 0
        ∗ semVal (dcell c outS1) 0
        ∗ semVal (dcell c outS4) 0
        ∗ (outM.view.loc (c : Thread nD τ) ↦[outM.view.set]{fullShare} m ((c : Thread nD τ).loc main_v1))
        ∗ held (ovSl0 c).view c fullShare.right (val0 m c)
        ∗ held (ovSl1 c).view c fullShare.right (val1 m c)
        ∗ held (ovSl2 c).view c fullShare.right (val2 m c)
        ∗ held (ovSl3 c).view c fullShare.right (val3 m c)
        ∗ held (ovSl4 c).view c fullShare.right (val4 m c)
        ∗ held (ovSl5 c).view c fullShare.right (val5 m c)
        ∗ held (ovSl6 c).view c fullShare (val6 m c)
        ∗ held (ovSl7 c).view c fullShare (val7 m c)
        ∗ held (ovSl8 c).view c fullShare (val8 m c)
        ∗ held (ovSl9 c).view c fullShare (val9 m c)) ⊢ wp frame (wpE (defs₀ (F := F)) 𝒱₀ (c : Thread nD τ) none) Set.univ (atBufs k0_part19 c v2 v8 v19 v21 v624) (fun _ => iprop(heldAny (F := F) (outO3 c).view c fullShare
            ∗ heldAny (F := F) (outO4 c).view c fullShare
            ∗ held (ovSl6 c).view c fullShare.left (val6 m c)
            ∗ held (ovSl7 c).view c fullShare.left (val7 m c)
            ∗ (∃ X1, ⌜O1Rows c X1 (val0 m c) (val2 m c) (val4 m c) (val6 m c) (val1 m c) (val3 m c) (val5 m c) (val7 m c)⌝ ∗ Transfers.Flight countersEmb (c : Thread nD τ) (.dma outS0) () ((outO1 c).view.amount (.dma outS0)) iprop(held (outO1 c).view c fullShare X1 ∗ held (ovO1 c).view c fullShare.right X1))
            ∗ Transfers.Flight countersEmb (c : Thread nD τ) (.dma outS1) () ((outO2a c).view.amount (.dma outS1)) iprop(held (outO2a c).view c fullShare (val8 m c) ∗ held (ovO2a c).view c fullShare (val8 m c))
            ∗ Transfers.Flight countersEmb (c : Thread nD τ) (.dma outS4) () ((outO2b c).view.amount (.dma outS4)) iprop(held (outO2b c).view c fullShare (val9 m c) ∗ held (ovO2b c).view c fullShare (val9 m c)))) := by
  simp only [atBufs, k0_part19_eq_skeleton]; unfold k0_part19_skel
  simp only [Prog.lift, Prog.bind_op, Prog.bind_ret, Prog.pure_eq_ret]
  iintro ⟨h79, h80, h83, h87, h92, h94, h96, h98, h100, h102, h104, h106, h108, h110⟩
  ihave ⟨o1A, o2aA, o2bA, o3A, o4A⟩ := (out_split_set c _) $$ h87
  ihave ⟨l6, r6⟩ := (held_full_split (ovSl6 c).view c (val6 m c)) $$ h104
  ihave ⟨l7, r7⟩ := (held_full_split (ovSl7 c).view c (val7 m c)) $$ h106
  ihave ⟨%X1, %hX1, HO1⟩ := (ovO1_join c fullShare.right (val0 m c) (val2 m c) (val4 m c) (val6 m c) (val1 m c) (val3 m c) (val5 m c) (val7 m c)) $$ [h92 h96 h100 r6 h94 h98 h102 r7]
  · isplitl [h92]; · iexact h92
    isplitl [h96]; · iexact h96
    isplitl [h100]; · iexact h100
    isplitl [r6]; · iexact r6
    isplitl [h94]; · iexact h94
    isplitl [h98]; · iexact h98
    isplitl [h102]; · iexact h102
    iexact r7
  iapply (kit_dma_issue (ovO1 c) (outO1 c) outS0 c fullShare.right X1 _ rfl (View.dmaCredit_pos _ (by decide))) $$ [HO1 o1A h79]
  · isplitl [HO1]; · iexact HO1
    isplitl [o1A]; · iexact o1A
    iexact h79
  iintro Hf1
  iapply (kit_dma_issue (ovO2a c) (outO2a c) outS1 c fullShare (val8 m c) _ rfl (View.dmaCredit_pos _ (by decide))) $$ [h108 o2aA h80]
  · isplitl [h108]; · iexact h108
    isplitl [o2aA]; · iexact o2aA
    iexact h80
  iintro Hf2
  ihave h110' := (show held (ovSl9 c).view c fullShare (val9 m c) ⊢ held (ovO2b c).view c fullShare (val9 m c) from by rw [ovO2b_view_eq]) $$ h110
  iapply (kit_dma_issue (ovO2b c) (outO2b c) outS4 c fullShare (val9 m c) _ rfl (View.dmaCredit_pos _ (by decide))) $$ [h110' o2bA h83]
  · isplitl [h110']; · iexact h110'
    isplitl [o2bA]; · iexact o2bA
    iexact h83
  iintro Hf3
  iapply (le_wp_ret _ _ _ PUnit.unit _)
  isplitl [o3A]
  · iexact o3A
  isplitl [o4A]
  · iexact o4A
  isplitl [l6]
  · iexact l6
  isplitl [l7]
  · iexact l7
  isplitl [Hf1]
  · iexists X1; isplitr
    · ipureintro; exact hX1
    iexact Hf1
  isplitl [Hf2]
  · iexact Hf2
  iexact Hf3

-- The first three chunks passed on by the two other neighbours have arrived.
theorem part20_spec (K : GSem nD τ sig → ℕ) (c : Dev nD) (v2 v5 v8 v21 v22 : BitVec 32) :
    iprop(invs m K c
        ∗ levAts L lv
        ∗ (∃ W, owes (c : Thread nD τ) (owedAfter 19 c) W)
        ∗ atPos ER (dcell c p2rS0) 0 ∅ 0
        ∗ cred (tallyAt (dcell c p2rS0) () N48)
        ∗ atPos ER (dcell c p2rS1) 0 ∅ 0
        ∗ cred (tallyAt (dcell c p2rS1) () N48)
        ∗ atPos ER (dcell c p2rS2) 0 ∅ 0
        ∗ cred (tallyAt (dcell c p2rS2) () N40)
        ∗ (∃ X1, ⌜O1Rows c X1 (val0 m c) (val2 m c) (val4 m c) (val6 m c) (val1 m c) (val3 m c) (val5 m c) (val7 m c)⌝ ∗ Transfers.Flight countersEmb (c : Thread nD τ) (.dma outS0) () ((outO1 c).view.amount (.dma outS0)) iprop(held (outO1 c).view c fullShare X1 ∗ held (ovO1 c).view c fullShare.right X1))) ⊢ wp frame (wpE (defs₀ (F := F)) 𝒱₀ (c : Thread nD τ) none) Set.univ (atBufs k0_part20 c v2 v5 v8 v21 v22) (fun _ => iprop((∃ W, owes (c : Thread nD τ) (owedAfter 19 c) W)
            ∗ semVal (dcell c p2rS0) 0
            ∗ semVal (dcell c p2rS1) 0
            ∗ semVal (dcell c p2rS2) 0
            ∗ (∃ X1, ⌜O1Rows c X1 (val0 m c) (val2 m c) (val4 m c) (val6 m c) (val1 m c) (val3 m c) (val5 m c) (val7 m c)⌝ ∗ Transfers.Flight countersEmb (c : Thread nD τ) (.dma outS0) () ((outO1 c).view.amount (.dma outS0)) iprop(held (outO1 c).view c fullShare X1 ∗ held (ovO1 c).view c fullShare.right X1))
            ∗ held (ovSl0 (yp c)).view c fullShare (val0 m (yp c))
            ∗ held (ovSl1 (zp c)).view c fullShare (val1 m (zp c))
            ∗ held (ovSl2 (yp c)).view c fullShare (val2 m (yp c)))) := by
  simp only [atBufs, k0_part20_eq_skeleton]; unfold k0_part20_skel
  simp only [Prog.lift, Prog.bind_op, Prog.bind_ret, Prog.pure_eq_ret]
  iintro ⟨#h0, #h2, ⟨%W, h19⟩, h52, h53, h56, h57, h60, h61, ⟨%X1, %hX1, Hf1⟩⟩
  ihave #Hc0 := (invs_get m K c (dcell c p2rS0) (by simp [ownCells, paidCells])) $$ h0
  ihave Hmw := (mayWait_nil (F := F) c (.dma p2rS0)) $$ h2
  iapply (kit_wait_dma m (ovSl0 (yp c)).view c p2rS0 (by decide) N48 rfl (show (ovSl0 c).view.dmaCredit = N48 from rfl) fullShare (val0 m (yp c)) (m ((c : Thread nD τ).loc cc0_scratch3)) rfl (owedAfter 19 c) _ (K (dcell c p2rS0))) $$ [h53 h19 Hmw h52]
  · isplitr; · iexact Hc0
    isplitl [h53]; · iexact h53
    isplitl [h19]; · iexact h19
    isplitl [Hmw]; · iexact Hmw
    iexact h52
  iintro ⟨h19, sv0, g0⟩
  ihave #Hc1 := (invs_get m K c (dcell c p2rS1) (by simp [ownCells, paidCells])) $$ h0
  ihave Hmw := (mayWait_nil (F := F) c (.dma p2rS1)) $$ h2
  iapply (kit_wait_dma m (ovSl1 (zp c)).view c p2rS1 (by decide) N48 rfl (show (ovSl1 c).view.dmaCredit = N48 from rfl) fullShare (val1 m (zp c)) (m ((c : Thread nD τ).loc cc0_scratch3)) rfl (owedAfter 19 c) _ (K (dcell c p2rS1))) $$ [h57 h19 Hmw h56]
  · isplitr; · iexact Hc1
    isplitl [h57]; · iexact h57
    isplitl [h19]; · iexact h19
    isplitl [Hmw]; · iexact Hmw
    iexact h56
  iintro ⟨h19, sv1, g1⟩
  ihave #Hc2 := (invs_get m K c (dcell c p2rS2) (by simp [ownCells, paidCells])) $$ h0
  ihave Hmw := (mayWait_nil (F := F) c (.dma p2rS2)) $$ h2
  iapply (kit_wait_dma m (ovSl2 (yp c)).view c p2rS2 (by decide) N40 rfl (show (ovSl2 c).view.dmaCredit = N40 from rfl) fullShare (val2 m (yp c)) (m ((c : Thread nD τ).loc cc0_scratch3)) rfl (owedAfter 19 c) _ (K (dcell c p2rS2))) $$ [h61 h19 Hmw h60]
  · isplitr; · iexact Hc2
    isplitl [h61]; · iexact h61
    isplitl [h19]; · iexact h19
    isplitl [Hmw]; · iexact Hmw
    iexact h60
  iintro ⟨h19, sv2, g2⟩
  iapply (le_wp_ret _ _ _ PUnit.unit _)
  isplitl [h19]
  · iexists _; iexact h19
  isplitl [sv0]
  · iexact sv0
  isplitl [sv1]
  · iexact sv1
  isplitl [sv2]
  · iexact sv2
  isplitl [Hf1]
  · iexists X1; isplitr
    · ipureintro; exact hX1
    iexact Hf1
  isplitl [g0]
  · iexact g0
  isplitl [g1]
  · iexact g1
  iexact g2

-- The other three arrive; the rows from the neighbour across the second axis start towards the result array.
theorem part21_spec (K : GSem nD τ sig → ℕ) (c : Dev nD) (v2 v5 v8 v19 v21 v22 : BitVec 32) :
    iprop(invs m K c
        ∗ levAts L lv
        ∗ (∃ W, owes (c : Thread nD τ) (owedAfter 19 c) W)
        ∗ atPos ER (dcell c p2rS3) 0 ∅ 0
        ∗ cred (tallyAt (dcell c p2rS3) () N40)
        ∗ atPos ER (dcell c p2rS4) 0 ∅ 0
        ∗ cred (tallyAt (dcell c p2rS4) () N16)
        ∗ atPos ER (dcell c p2rS5) 0 ∅ 0
        ∗ cred (tallyAt (dcell c p2rS5) () N16)
        ∗ semVal (dcell c outS2) 0
        ∗ heldAny (F := F) (outO3 c).view c fullShare
        ∗ (∃ X1, ⌜O1Rows c X1 (val0 m c) (val2 m c) (val4 m c) (val6 m c) (val1 m c) (val3 m c) (val5 m c) (val7 m c)⌝ ∗ Transfers.Flight countersEmb (c : Thread nD τ) (.dma outS0) () ((outO1 c).view.amount (.dma outS0)) iprop(held (outO1 c).view c fullShare X1 ∗ held (ovO1 c).view c fullShare.right X1))
        ∗ held (ovSl0 (yp c)).view c fullShare (val0 m (yp c))
        ∗ held (ovSl2 (yp c)).view c fullShare (val2 m (yp c))) ⊢ wp frame (wpE (defs₀ (F := F)) 𝒱₀ (c : Thread nD τ) none) Set.univ (atBufs k0_part21 c v2 v5 v8 v19 v21 v22) (fun _ => iprop((∃ W, owes (c : Thread nD τ) (owedAfter 19 c) W)
            ∗ semVal (dcell c p2rS3) 0
            ∗ semVal (dcell c p2rS4) 0
            ∗ semVal (dcell c p2rS5) 0
            ∗ (∃ X1, ⌜O1Rows c X1 (val0 m c) (val2 m c) (val4 m c) (val6 m c) (val1 m c) (val3 m c) (val5 m c) (val7 m c)⌝ ∗ Transfers.Flight countersEmb (c : Thread nD τ) (.dma outS0) () ((outO1 c).view.amount (.dma outS0)) iprop(held (outO1 c).view c fullShare X1 ∗ held (ovO1 c).view c fullShare.right X1))
            ∗ held (ovSl3 (zp c)).view c fullShare (val3 m (zp c))
            ∗ (∃ X3, ⌜O3Rows c X3 (val0 m (yp c)) (val2 m (yp c)) (val4 m (yp c))⌝ ∗ Transfers.Flight countersEmb (c : Thread nD τ) (.dma outS2) () ((outO3 c).view.amount (.dma outS2)) iprop(held (outO3 c).view c fullShare X3 ∗ held (ovO3 c).view c fullShare X3))
            ∗ held (ovSl5 (zp c)).view c fullShare (val5 m (zp c)))) := by
  simp only [atBufs, k0_part21_eq_skeleton]; unfold k0_part21_skel
  simp only [Prog.lift, Prog.bind_op, Prog.bind_ret, Prog.pure_eq_ret]
  iintro ⟨#h0, #h2, ⟨%W, h19⟩, h64, h65, h68, h69, h72, h73, h81, o3A, ⟨%X1, %hX1, Hf1⟩, g0, g2⟩
  ihave #Hc3 := (invs_get m K c (dcell c p2rS3) (by simp [ownCells, paidCells])) $$ h0
  ihave Hmw := (mayWait_nil (F := F) c (.dma p2rS3)) $$ h2
  iapply (kit_wait_dma m (ovSl3 (zp c)).view c p2rS3 (by decide) N40 rfl (show (ovSl3 c).view.dmaCredit = N40 from rfl) fullShare (val3 m (zp c)) (m ((c : Thread nD τ).loc cc0_scratch3)) rfl (owedAfter 19 c) _ (K (dcell c p2rS3))) $$ [h65 h19 Hmw h64]
  · isplitr; · iexact Hc3
    isplitl [h65]; · iexact h65
    isplitl [h19]; · iexact h19
    isplitl [Hmw]; · iexact Hmw
    iexact h64
  iintro ⟨h19, sv3, g3⟩
  ihave #Hc4 := (invs_get m K c (dcell c p2rS4) (by simp [ownCells, paidCells])) $$ h0
  ihave Hmw := (mayWait_nil (F := F) c (.dma p2rS4)) $$ h2
  iapply (kit_wait_dma m (ovSl4 (yp c)).view c p2rS4 (by decide) N16 rfl (show (ovSl4 c).view.dmaCredit = N16 from rfl) fullShare (val4 m (yp c)) (m ((c : Thread nD τ).loc cc0_scratch3)) rfl (owedAfter 19 c) _ (K (dcell c p2rS4))) $$ [h69 h19 Hmw h68]
  · isplitr; · iexact Hc4
    isplitl [h69]; · iexact h69
    isplitl [h19]; · iexact h19
    isplitl [Hmw]; · iexact Hmw
    iexact h68
  iintro ⟨h19, sv4, g4⟩
  ihave ⟨%X3, %hX3, HO3⟩ := (ovO3_join c fullShare (val0 m (yp c)) (val2 m (yp c)) (val4 m (yp c))) $$ [g0 g2 g4]
  · isplitl [g0]; · iexact g0
    isplitl [g2]; · iexact g2
    iexact g4
  iapply (kit_dma_issue (ovO3 c) (outO3 c) outS2 c fullShare X3 _ rfl (View.dmaCredit_pos _ (by decide))) $$ [HO3 o3A h81]
  · isplitl [HO3]; · iexact HO3
    isplitl [o3A]; · iexact o3A
    iexact h81
  iintro Hf4
  ihave #Hc5 := (invs_get m K c (dcell c p2rS5) (by simp [ownCells, paidCells])) $$ h0
  ihave Hmw := (mayWait_nil (F := F) c (.dma p2rS5)) $$ h2
  iapply (kit_wait_dma m (ovSl5 (zp c)).view c p2rS5 (by decide) N16 rfl (show (ovSl5 c).view.dmaCredit = N16 from rfl) fullShare (val5 m (zp c)) (m ((c : Thread nD τ).loc cc0_scratch3)) rfl (owedAfter 19 c) _ (K (dcell c p2rS5))) $$ [h73 h19 Hmw h72]
  · isplitr; · iexact Hc5
    isplitl [h73]; · iexact h73
    isplitl [h19]; · iexact h19
    isplitl [Hmw]; · iexact Hmw
    iexact h72
  iintro ⟨h19, sv5, g5⟩
  iapply (le_wp_ret _ _ _ _ _)
  isplitl [h19]
  · iexists _; iexact h19
  isplitl [sv3]
  · iexact sv3
  isplitl [sv4]
  · iexact sv4
  isplitl [sv5]
  · iexact sv5
  isplitl [Hf1]
  · iexists X1; isplitr
    · ipureintro; exact hX1
    iexact Hf1
  isplitl [g3]
  · iexact g3
  isplitl [Hf4]
  · iexists X3; isplitr
    · ipureintro; exact hX3
    iexact Hf4
  iexact g5

-- The rows from the neighbour across the third axis follow; once the five write-backs have ended the result array holds every row of the specification.
theorem part22_spec (K : GSem nD τ sig → ℕ) (c : Dev nD) (v19 v717 : BitVec 32) :
    iprop(levAts L lv
        ∗ (∃ W, owes (c : Thread nD τ) (owedAfter 19 c) W)
        ∗ semVal (dcell c inS0) 0
        ∗ semVal (dcell c inS1) 0
        ∗ semVal (dcell c inS2) 0
        ∗ semVal (dcell c outS3) 0
        ∗ held cmSl0.view c fullShare (rcv0 m c)
        ∗ held cmSl1.view c fullShare (rcv1 m c)
        ∗ held cmSl2.view c fullShare (rcv2 m c)
        ∗ held cmSl3.view c fullShare (rcv3 m c)
        ∗ held cmSl4.view c fullShare (rcv4 m c)
        ∗ held cmSl5.view c fullShare (rcv5 m c)
        ∗ held cmSl6.view c fullShare (rcv6 m c)
        ∗ held cmSl7.view c fullShare (rcv7 m c)
        ∗ held cmSl8.view c fullShare (rcv8 m c)
        ∗ held cmSl9.view c fullShare (rcv9 m c)
        ∗ heldAny (F := F) (outO4 c).view c fullShare
        ∗ held (ovSl6 c).view c fullShare.left (val6 m c)
        ∗ held (ovSl7 c).view c fullShare.left (val7 m c)
        ∗ (∃ X1, ⌜O1Rows c X1 (val0 m c) (val2 m c) (val4 m c) (val6 m c) (val1 m c) (val3 m c) (val5 m c) (val7 m c)⌝ ∗ Transfers.Flight countersEmb (c : Thread nD τ) (.dma outS0) () ((outO1 c).view.amount (.dma outS0)) iprop(held (outO1 c).view c fullShare X1 ∗ held (ovO1 c).view c fullShare.right X1))
        ∗ Transfers.Flight countersEmb (c : Thread nD τ) (.dma outS1) () ((outO2a c).view.amount (.dma outS1)) iprop(held (outO2a c).view c fullShare (val8 m c) ∗ held (ovO2a c).view c fullShare (val8 m c))
        ∗ Transfers.Flight countersEmb (c : Thread nD τ) (.dma outS4) () ((outO2b c).view.amount (.dma outS4)) iprop(held (outO2b c).view c fullShare (val9 m c) ∗ held (ovO2b c).view c fullShare (val9 m c))
        ∗ held (ovSl1 (zp c)).view c fullShare (val1 m (zp c))
        ∗ held (ovSl3 (zp c)).view c fullShare (val3 m (zp c))
        ∗ (∃ X3, ⌜O3Rows c X3 (val0 m (yp c)) (val2 m (yp c)) (val4 m (yp c))⌝ ∗ Transfers.Flight countersEmb (c : Thread nD τ) (.dma outS2) () ((outO3 c).view.amount (.dma outS2)) iprop(held (outO3 c).view c fullShare X3 ∗ held (ovO3 c).view c fullShare X3))
        ∗ held (ovSl5 (zp c)).view c fullShare (val5 m (zp c))) ⊢ wp frame (wpE (defs₀ (F := F)) 𝒱₀ (c : Thread nD τ) none) Set.univ (atBufs k0_part22 c v19 v717) (fun _ => iprop((∃ W, owes (c : Thread nD τ) (owedAfter 19 c) W)
            ∗ localSems0 c
            ∗ (∃ OUT, ⌜OutSpec m c OUT⌝ ∗ (outM.view.loc (c : Thread nD τ) ↦[outM.view.set]{fullShare} OUT))
            ∗ heldAny cmSl0.view c fullShare
            ∗ heldAny (ovSl0 c).view c fullShare.right
            ∗ heldAny cmSl1.view c fullShare
            ∗ heldAny (ovSl1 c).view c fullShare.right
            ∗ heldAny cmSl2.view c fullShare
            ∗ heldAny (ovSl2 c).view c fullShare.right
            ∗ heldAny cmSl3.view c fullShare
            ∗ heldAny (ovSl3 c).view c fullShare.right
            ∗ heldAny cmSl4.view c fullShare
            ∗ heldAny (ovSl4 c).view c fullShare.right
            ∗ heldAny cmSl5.view c fullShare
            ∗ heldAny (ovSl5 c).view c fullShare.right
            ∗ heldAny cmSl6.view c fullShare
            ∗ heldAny (ovSl6 c).view c fullShare
            ∗ heldAny cmSl7.view c fullShare
            ∗ heldAny (ovSl7 c).view c fullShare
            ∗ heldAny cmSl8.view c fullShare
            ∗ heldAny (ovSl8 c).view c fullShare
            ∗ heldAny cmSl9.view c fullShare
            ∗ heldAny (ovSl9 c).view c fullShare
            ∗ heldAny (ovSl0 (yp c)).view c fullShare
            ∗ heldAny (ovSl1 (zp c)).view c fullShare
            ∗ heldAny (ovSl2 (yp c)).view c fullShare
            ∗ heldAny (ovSl3 (zp c)).view c fullShare
            ∗ heldAny (ovSl4 (yp c)).view c fullShare
            ∗ heldAny (ovSl5 (zp c)).view c fullShare)) := by
  simp only [atBufs, k0_part22_eq_skeleton]; unfold k0_part22_skel
  simp only [Prog.lift, Prog.bind_op, Prog.bind_ret, Prog.pure_eq_ret]
  iintro ⟨#h2, ⟨%W, h19⟩, h76, h77, h78, h82, h91, h93, h95, h97, h99, h101, h103, h105, h107, h109, o4A, l6, l7, ⟨%X1, %hX1, Hf1⟩, Hf2, Hf3, g1, g3, ⟨%X3, %hX3, Hf4⟩, g5⟩
  ihave ⟨%X4, %hX4, HO4⟩ := (ovO4_join c fullShare (val1 m (zp c)) (val3 m (zp c)) (val5 m (zp c))) $$ [g1 g3 g5]
  · isplitl [g1]; · iexact g1
    isplitl [g3]; · iexact g3
    iexact g5
  iapply (kit_dma_issue (ovO4 c) (outO4 c) outS3 c fullShare X4 _ rfl (View.dmaCredit_pos _ (by decide))) $$ [HO4 o4A h82]
  · isplitl [HO4]; · iexact HO4
    isplitl [o4A]; · iexact o4A
    iexact h82
  iintro Hf5
  ihave Hmw := (mayWait_nil (F := F) c (.dma outS0)) $$ h2
  iapply (kit_dma_wait outS0 c ((outO1 c).view.amount (.dma outS0)) _ (owedAfter 19 c) _ (show (outO1 c).view.dmaCredit = _ from rfl)) $$ [Hf1 h19 Hmw]
  · isplitl [Hf1]; · iexact Hf1
    isplitl [h19]; · iexact h19
    iexact Hmw
  iintro ⟨⟨d1, s1⟩, sv_outS0, h19⟩
  ihave Hmw := (mayWait_nil (F := F) c (.dma outS1)) $$ h2
  iapply (kit_dma_wait outS1 c ((outO2a c).view.amount (.dma outS1)) _ (owedAfter 19 c) _ (show (outO2a c).view.dmaCredit = _ from rfl)) $$ [Hf2 h19 Hmw]
  · isplitl [Hf2]; · iexact Hf2
    isplitl [h19]; · iexact h19
    iexact Hmw
  iintro ⟨⟨d2a, s2a⟩, sv_outS1, h19⟩
  ihave Hmw := (mayWait_nil (F := F) c (.dma outS4)) $$ h2
  iapply (kit_dma_wait outS4 c ((outO2b c).view.amount (.dma outS4)) _ (owedAfter 19 c) _ (show (outO2b c).view.dmaCredit = _ from rfl)) $$ [Hf3 h19 Hmw]
  · isplitl [Hf3]; · iexact Hf3
    isplitl [h19]; · iexact h19
    iexact Hmw
  iintro ⟨⟨d2b, s2b⟩, sv_outS4, h19⟩
  ihave Hmw := (mayWait_nil (F := F) c (.dma outS2)) $$ h2
  iapply (kit_dma_wait outS2 c ((outO3 c).view.amount (.dma outS2)) _ (owedAfter 19 c) _ (show (outO3 c).view.dmaCredit = _ from rfl)) $$ [Hf4 h19 Hmw]
  · isplitl [Hf4]; · iexact Hf4
    isplitl [h19]; · iexact h19
    iexact Hmw
  iintro ⟨⟨d3, s3⟩, sv_outS2, h19⟩
  ihave Hmw := (mayWait_nil (F := F) c (.dma outS3)) $$ h2
  iapply (kit_dma_wait outS3 c ((outO4 c).view.amount (.dma outS3)) _ (owedAfter 19 c) _ (show (outO4 c).view.dmaCredit = _ from rfl)) $$ [Hf5 h19 Hmw]
  · isplitl [Hf5]; · iexact Hf5
    isplitl [h19]; · iexact h19
    iexact Hmw
  iintro ⟨⟨d4, s4⟩, sv_outS3, h19⟩
  ihave HOUT := (out_join_spec m c X1 X3 X4 hX1 hX3 hX4) $$ [d1 d2a d2b d3 d4]
  · isplitl [d1]; · iexact d1
    isplitl [d2a]; · iexact d2a
    isplitl [d2b]; · iexact d2b
    isplitl [d3]; · iexact d3
    iexact d4
  ihave ⟨r0, r2, r4, r6, r1, r3, r5, r7⟩ := (ovO1_unjoin c fullShare.right X1 (val0 m c) (val2 m c) (val4 m c) (val6 m c) (val1 m c) (val3 m c) (val5 m c) (val7 m c) hX1) $$ s1
  ihave f6 := (held_full_join (ovSl6 c).view c (val6 m c)) $$ [l6 r6]
  · isplitl [l6]; · iexact l6
    iexact r6
  ihave f7 := (held_full_join (ovSl7 c).view c (val7 m c)) $$ [l7 r7]
  · isplitl [l7]; · iexact l7
    iexact r7
  ihave ⟨g0, g2, g4⟩ := (ovO3_unjoin c fullShare X3 (val0 m (yp c)) (val2 m (yp c)) (val4 m (yp c)) hX3) $$ s3
  ihave ⟨g1, g3, g5⟩ := (ovO4_unjoin c fullShare X4 (val1 m (zp c)) (val3 m (zp c)) (val5 m (zp c)) hX4) $$ s4
  ihave s2b' := (show held (ovO2b c).view c fullShare (val9 m c) ⊢ held (ovSl9 c).view c fullShare (val9 m c) from by rw [ovO2b_view_eq]) $$ s2b
  iapply (le_wp_ret _ _ _ PUnit.unit _)
  isplitl [h19]
  · iexists _; iexact h19
  isplitl [h76 h77 h78 sv_outS0 sv_outS1 sv_outS2 sv_outS3 sv_outS4]
  · unfold localSems0
    isplitl [h76]; · iexact h76
    isplitl [h77]; · iexact h77
    isplitl [h78]; · iexact h78
    isplitl [sv_outS0]; · iexact sv_outS0
    isplitl [sv_outS1]; · iexact sv_outS1
    isplitl [sv_outS2]; · iexact sv_outS2
    isplitl [sv_outS3]; · iexact sv_outS3
    iexact sv_outS4
  isplitl [HOUT]
  · iexact HOUT
  isplitl [h91]
  · iapply (held_any cmSl0.view c fullShare (rcv0 m c)); iexact h91
  isplitl [r0]
  · iapply (held_any (ovSl0 c).view c fullShare.right (val0 m c)); iexact r0
  isplitl [h93]
  · iapply (held_any cmSl1.view c fullShare (rcv1 m c)); iexact h93
  isplitl [r1]
  · iapply (held_any (ovSl1 c).view c fullShare.right (val1 m c)); iexact r1
  isplitl [h95]
  · iapply (held_any cmSl2.view c fullShare (rcv2 m c)); iexact h95
  isplitl [r2]
  · iapply (held_any (ovSl2 c).view c fullShare.right (val2 m c)); iexact r2
  isplitl [h97]
  · iapply (held_any cmSl3.view c fullShare (rcv3 m c)); iexact h97
  isplitl [r3]
  · iapply (held_any (ovSl3 c).view c fullShare.right (val3 m c)); iexact r3
  isplitl [h99]
  · iapply (held_any cmSl4.view c fullShare (rcv4 m c)); iexact h99
  isplitl [r4]
  · iapply (held_any (ovSl4 c).view c fullShare.right (val4 m c)); iexact r4
  isplitl [h101]
  · iapply (held_any cmSl5.view c fullShare (rcv5 m c)); iexact h101
  isplitl [r5]
  · iapply (held_any (ovSl5 c).view c fullShare.right (val5 m c)); iexact r5
  isplitl [h103]
  · iapply (held_any cmSl6.view c fullShare (rcv6 m c)); iexact h103
  isplitl [f6]
  · iapply (held_any (ovSl6 c).view c fullShare (val6 m c)); iexact f6
  isplitl [h105]
  · iapply (held_any cmSl7.view c fullShare (rcv7 m c)); iexact h105
  isplitl [f7]
  · iapply (held_any (ovSl7 c).view c fullShare (val7 m c)); iexact f7
  isplitl [h107]
  · iapply (held_any cmSl8.view c fullShare (rcv8 m c)); iexact h107
  isplitl [s2a]
  · iapply (held_any (ovSl8 c).view c fullShare (val8 m c)); iexact s2a
  isplitl [h109]
  · iapply (held_any cmSl9.view c fullShare (rcv9 m c)); iexact h109
  isplitl [s2b']
  · iapply (held_any (ovSl9 c).view c fullShare (val9 m c)); iexact s2b'
  isplitl [g0]
  · iapply (held_any (ovSl0 (yp c)).view c fullShare (val0 m (yp c))); iexact g0
  isplitl [g1]
  · iapply (held_any (ovSl1 (zp c)).view c fullShare (val1 m (zp c))); iexact g1
  isplitl [g2]
  · iapply (held_any (ovSl2 (yp c)).view c fullShare (val2 m (yp c))); iexact g2
  isplitl [g3]
  · iapply (held_any (ovSl3 (zp c)).view c fullShare (val3 m (zp c))); iexact g3
  isplitl [g4]
  · iapply (held_any (ovSl4 (yp c)).view c fullShare (val4 m (yp c))); iexact g4
  iapply (held_any (ovSl5 (zp c)).view c fullShare (val5 m (zp c))); iexact g5

end Cert.KernelIdeal.Proto

end
-- ==== Proof.Body5b.lean ====
import proofs.«900598_g7700000000000599_dist_rsrms_v7x_xyz2x2x2_x_m512_d512_f32_1_alg».proof.Proof.States
import proofs.«900598_g7700000000000599_dist_rsrms_v7x_xyz2x2x2_x_m512_d512_f32_1_alg».proof.Proof.KitRounds
import proofs.«900598_g7700000000000599_dist_rsrms_v7x_xyz2x2x2_x_m512_d512_f32_1_alg».proof.Proof.KitLocal
import proofs.«900598_g7700000000000599_dist_rsrms_v7x_xyz2x2x2_x_m512_d512_f32_1_alg».proof.Proof.Levels
import proofs.«900598_g7700000000000599_dist_rsrms_v7x_xyz2x2x2_x_m512_d512_f32_1_alg».proof.Proof.Ctx
import proofs.«900598_g7700000000000599_dist_rsrms_v7x_xyz2x2x2_x_m512_d512_f32_1_alg».proof.Proof.Regions

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Tools
variable {sp : Space} {s : Shape} {e : EltTy}

omit [FloatOps F] in

theorem pts_halves {ℓ : Loc nD τ sig} {S : Finset (Idx ℓ)} (q : PosShare TreeShare) (f g : Buf (Elt F) ℓ) :
    iprop((ℓ ↦[S]{q.left} f) ∗ ℓ ↦[S]{q.right} g) ⊢ (ℓ ↦[S]{q} f : sProp 𝕄) := by
  refine pure_elim _ pointsTo_agree fun h => ?_
  rw [pointsTo_congr (f := g) (g := f) (q := q.right) fun i hi => ((h i (Finset.mem_inter.mpr ⟨hi, hi⟩)).1).symm]
  exact (pointsTo_share (PosShare.mem_left_op_right q)).2

theorem heldAny_halves (v : View sig .tc sp s e) (c : Dev nD) (q : PosShare TreeShare) (x : s.Idx → Elt F e) :
    iprop(held v c q.left x ∗ heldAny (F := F) v c q.right) ⊢ heldAny (F := F) v c q := by
  unfold held heldAny
  iintro ⟨⟨%f, Hl, -⟩, ⟨%g, Hr⟩⟩
  iexists f
  iapply (pts_halves q f g)
  isplitl [Hl]; · iexact Hl
  iexact Hr

omit [FloatOps F] in

theorem pts_whole_eq (v : View sig .tc sp s e) (hv : v.set = Finset.univ) (c : Dev nD) (q : PosShare TreeShare)
    (f : Buf (Elt F) (v.loc (c : Thread nD τ))) :
    (v.loc (c : Thread nD τ) ↦[v.set]{q} f : sProp 𝕄) = (v.loc (c : Thread nD τ) ↦{q} f) := by rw [hv]

end Tools

def St25 (K : GSem nD τ sig → ℕ) (c : Dev nD) : sProp 𝕄 :=
  iprop(invs m K c
    ∗ known c
    ∗ levAts L lv
    ∗ (∃ W, owes (c : Thread nD τ) 0 W)
    ∗ atPos ER (barCell c) (0 + 1) ∅ 0
    ∗ semVal (yzCell c) 0
    ∗ semVal (dcell c p1rS0) 0
    ∗ semVal (dcell c p1sS0) 0
    ∗ held (sndSl0 c).view c fullShare (sndv0 m c)
    ∗ semVal (dcell c p1rS1) 0
    ∗ semVal (dcell c p1sS1) 0
    ∗ held (sndSl1 c).view c fullShare (sndv1 m c)
    ∗ semVal (dcell c p1rS2) 0
    ∗ semVal (dcell c p1sS2) 0
    ∗ held (sndSl2 c).view c fullShare (sndv2 m c)
    ∗ semVal (dcell c p1rS3) 0
    ∗ semVal (dcell c p1sS3) 0
    ∗ held (sndSl3 c).view c fullShare (sndv3 m c)
    ∗ semVal (dcell c p1rS4) 0
    ∗ semVal (dcell c p1sS4) 0
    ∗ held (sndSl4 c).view c fullShare (sndv4 m c)
    ∗ semVal (dcell c p1rS5) 0
    ∗ semVal (dcell c p1sS5) 0
    ∗ held (sndSl5 c).view c fullShare (sndv5 m c)
    ∗ semVal (dcell c p1rS6) 0
    ∗ semVal (dcell c p1sS6) 0
    ∗ held (sndSl6 c).view c fullShare (sndv6 m c)
    ∗ semVal (dcell c p1rS7) 0
    ∗ semVal (dcell c p1sS7) 0
    ∗ held (sndSl7 c).view c fullShare (sndv7 m c)
    ∗ semVal (dcell c p1rS8) 0
    ∗ semVal (dcell c p1sS8) 0
    ∗ held (sndSl8 c).view c fullShare (sndv8 m c)
    ∗ semVal (dcell c p1rS9) 0
    ∗ semVal (dcell c p1sS9) 0
    ∗ held (sndSl9 c).view c fullShare (sndv9 m c)
    ∗ semVal (dcell c p2rS0) 0
    ∗ semVal (dcell c p2sS0) 0
    ∗ held (ovSl0 c).view c fullShare.left (val0 m c)
    ∗ semVal (dcell c p2rS1) 0
    ∗ semVal (dcell c p2sS1) 0
    ∗ held (ovSl1 c).view c fullShare.left (val1 m c)
    ∗ semVal (dcell c p2rS2) 0
    ∗ semVal (dcell c p2sS2) 0
    ∗ held (ovSl2 c).view c fullShare.left (val2 m c)
    ∗ semVal (dcell c p2rS3) 0
    ∗ semVal (dcell c p2sS3) 0
    ∗ held (ovSl3 c).view c fullShare.left (val3 m c)
    ∗ semVal (dcell c p2rS4) 0
    ∗ atPos ER (dcell c p2sS4) 0 ∅ 0
    ∗ cred (tallyAt (dcell c p2sS4) () N16)
    ∗ semVal (dcell c p2rS5) 0
    ∗ atPos ER (dcell c p2sS5) 0 ∅ 0
    ∗ cred (tallyAt (dcell c p2sS5) () N16)
    ∗ localSems0 c
    ∗ ((srcSend c).view.loc (c : Thread nD τ) ↦[(srcSend c).view.set]{fullShare} m ((c : Thread nD τ).loc main_arg0))
    ∗ ((srcLoc c).view.loc (c : Thread nD τ) ↦[(srcLoc c).view.set]{fullShare} m ((c : Thread nD τ).loc main_arg0))
    ∗ (a1M.view.loc (c : Thread nD τ) ↦[a1M.view.set]{fullShare} m ((c : Thread nD τ).loc main_arg1))
    ∗ (∃ OUT, ⌜OutSpec m c OUT⌝ ∗ (outM.view.loc (c : Thread nD τ) ↦[outM.view.set]{fullShare} OUT))
    ∗ sndRest c
    ∗ (locM.view.loc (c : Thread nD τ) ↦[locM.view.set]{fullShare} (LOC m c))
    ∗ (gvM.view.loc (c : Thread nD τ) ↦[gvM.view.set]{fullShare} (GV m c))
    ∗ heldAny cmSl0.view c fullShare
    ∗ heldAny (ovSl0 c).view c fullShare.right
    ∗ heldAny cmSl1.view c fullShare
    ∗ heldAny (ovSl1 c).view c fullShare.right
    ∗ heldAny cmSl2.view c fullShare
    ∗ heldAny (ovSl2 c).view c fullShare.right
    ∗ heldAny cmSl3.view c fullShare
    ∗ heldAny (ovSl3 c).view c fullShare.right
    ∗ heldAny cmSl4.view c fullShare
    ∗ heldAny (ovSl4 c).view c fullShare.right
    ∗ heldAny cmSl5.view c fullShare
    ∗ heldAny (ovSl5 c).view c fullShare.right
    ∗ heldAny cmSl6.view c fullShare
    ∗ heldAny (ovSl6 c).view c fullShare
    ∗ heldAny cmSl7.view c fullShare
    ∗ heldAny (ovSl7 c).view c fullShare
    ∗ heldAny cmSl8.view c fullShare
    ∗ heldAny (ovSl8 c).view c fullShare
    ∗ heldAny cmSl9.view c fullShare
    ∗ heldAny (ovSl9 c).view c fullShare
    ∗ heldAny (ovSl0 (yp c)).view c fullShare
    ∗ heldAny (ovSl1 (zp c)).view c fullShare
    ∗ heldAny (ovSl2 (yp c)).view c fullShare
    ∗ heldAny (ovSl3 (zp c)).view c fullShare
    ∗ heldAny (ovSl4 (yp c)).view c fullShare
    ∗ heldAny (ovSl5 (zp c)).view c fullShare)

-- The first five copies across the first axis have been read out in full.
theorem part23_spec (K : GSem nD τ sig → ℕ) (c : Dev nD) :
    iprop(invs m K c
        ∗ levAts L lv
        ∗ (∃ W, owes (c : Thread nD τ) (owedAfter 19 c) W)
        ∗ atPos ER (dcell c p1sS0) 0 ∅ 0
        ∗ cred (tallyAt (dcell c p1sS0) () N48)
        ∗ atPos ER (dcell c p1sS1) 0 ∅ 0
        ∗ cred (tallyAt (dcell c p1sS1) () N48)
        ∗ atPos ER (dcell c p1sS2) 0 ∅ 0
        ∗ cred (tallyAt (dcell c p1sS2) () N40)
        ∗ atPos ER (dcell c p1sS3) 0 ∅ 0
        ∗ cred (tallyAt (dcell c p1sS3) () N40)
        ∗ atPos ER (dcell c p1sS4) 0 ∅ 0
        ∗ cred (tallyAt (dcell c p1sS4) () N16)) ⊢ wp frame (wpE (defs₀ (F := F)) 𝒱₀ (c : Thread nD τ) none) Set.univ (atBufs k0_part23 c) (fun _ => iprop((∃ W, owes (c : Thread nD τ) 0 W)
            ∗ semVal (dcell c p1sS0) 0
            ∗ held (sndSl0 c).view c fullShare (sndv0 m c)
            ∗ semVal (dcell c p1sS1) 0
            ∗ held (sndSl1 c).view c fullShare (sndv1 m c)
            ∗ semVal (dcell c p1sS2) 0
            ∗ held (sndSl2 c).view c fullShare (sndv2 m c)
            ∗ semVal (dcell c p1sS3) 0
            ∗ held (sndSl3 c).view c fullShare (sndv3 m c)
            ∗ semVal (dcell c p1sS4) 0
            ∗ held (sndSl4 c).view c fullShare (sndv4 m c))) := by
  simp only [atBufs, k0_part23_eq_skeleton]; unfold k0_part23_skel
  simp only [Prog.lift, Prog.bind_op, Prog.bind_ret, Prog.pure_eq_ret]
  iintro ⟨#H0, #H2, ⟨%W, H3⟩, H7, H8, H10, H11, H13, H14, H16, H17, H19, H20⟩
  rw [show owedAfter 19 c = (0 : CellTallies nD τ sig Unit) from rfl]

  iapply (kit_wait_dma m (sndSl0 c).view c p1sS0 (by decide) N48 rfl (show (sndSl0 c).view.dmaCredit = N48 from rfl) fullShare (sndv0 m c) (m ((c : Thread nD τ).loc cc0_scratch0)) rfl 0 (W) (K (dcell c p1sS0))) $$ [H8 H3 H7]
  · isplitr; · iapply (invs_get m K c (dcell c p1sS0) (List.mem_of_getElem? (show (ownCells c ++ paidCells c)[2]? = some (dcell c p1sS0) from rfl))); iexact H0
    isplitl [H8]; · iexact H8
    isplitl [H3]; · iexact H3
    isplitr; · iapply (mayWait_nil (F := F) c (.dma p1sS0)); iexact H2
    iexact H7
  iintro ⟨H3, H7, H8⟩

  iapply (kit_wait_dma m (sndSl1 c).view c p1sS1 (by decide) N48 rfl (show (sndSl1 c).view.dmaCredit = N48 from rfl) fullShare (sndv1 m c) (m ((c : Thread nD τ).loc cc0_scratch0)) rfl 0 (insert (SemLoc.dma p1sS0, ()) (W)) (K (dcell c p1sS1))) $$ [H11 H3 H10]
  · isplitr; · iapply (invs_get m K c (dcell c p1sS1) (List.mem_of_getElem? (show (ownCells c ++ paidCells c)[3]? = some (dcell c p1sS1) from rfl))); iexact H0
    isplitl [H11]; · iexact H11
    isplitl [H3]; · iexact H3
    isplitr; · iapply (mayWait_nil (F := F) c (.dma p1sS1)); iexact H2
    iexact H10
  iintro ⟨H3, H10, H11⟩

  iapply (kit_wait_dma m (sndSl2 c).view c p1sS2 (by decide) N40 rfl (show (sndSl2 c).view.dmaCredit = N40 from rfl) fullShare (sndv2 m c) (m ((c : Thread nD τ).loc cc0_scratch0)) rfl 0 (insert (SemLoc.dma p1sS1, ()) (insert (SemLoc.dma p1sS0, ()) (W))) (K (dcell c p1sS2))) $$ [H14 H3 H13]
  · isplitr; · iapply (invs_get m K c (dcell c p1sS2) (List.mem_of_getElem? (show (ownCells c ++ paidCells c)[4]? = some (dcell c p1sS2) from rfl))); iexact H0
    isplitl [H14]; · iexact H14
    isplitl [H3]; · iexact H3
    isplitr; · iapply (mayWait_nil (F := F) c (.dma p1sS2)); iexact H2
    iexact H13
  iintro ⟨H3, H13, H14⟩

  iapply (kit_wait_dma m (sndSl3 c).view c p1sS3 (by decide) N40 rfl (show (sndSl3 c).view.dmaCredit = N40 from rfl) fullShare (sndv3 m c) (m ((c : Thread nD τ).loc cc0_scratch0)) rfl 0 (insert (SemLoc.dma p1sS2, ()) (insert (SemLoc.dma p1sS1, ()) (insert (SemLoc.dma p1sS0, ()) (W)))) (K (dcell c p1sS3))) $$ [H17 H3 H16]
  · isplitr; · iapply (invs_get m K c (dcell c p1sS3) (List.mem_of_getElem? (show (ownCells c ++ paidCells c)[5]? = some (dcell c p1sS3) from rfl))); iexact H0
    isplitl [H17]; · iexact H17
    isplitl [H3]; · iexact H3
    isplitr; · iapply (mayWait_nil (F := F) c (.dma p1sS3)); iexact H2
    iexact H16
  iintro ⟨H3, H16, H17⟩

  iapply (kit_wait_dma m (sndSl4 c).view c p1sS4 (by decide) N16 rfl (show (sndSl4 c).view.dmaCredit = N16 from rfl) fullShare (sndv4 m c) (m ((c : Thread nD τ).loc cc0_scratch0)) rfl 0 (insert (SemLoc.dma p1sS3, ()) (insert (SemLoc.dma p1sS2, ()) (insert (SemLoc.dma p1sS1, ()) (insert (SemLoc.dma p1sS0, ()) (W))))) (K (dcell c p1sS4))) $$ [H20 H3 H19]
  · isplitr; · iapply (invs_get m K c (dcell c p1sS4) (List.mem_of_getElem? (show (ownCells c ++ paidCells c)[6]? = some (dcell c p1sS4) from rfl))); iexact H0
    isplitl [H20]; · iexact H20
    isplitl [H3]; · iexact H3
    isplitr; · iapply (mayWait_nil (F := F) c (.dma p1sS4)); iexact H2
    iexact H19
  iintro ⟨H3, H19, H20⟩
  rw [wp_ret]; imodintro
  isplitl [H3]; · iexists _; iexact H3
  isplitl [H7]; · iexact H7
  isplitl [H8]; · iexact H8
  isplitl [H10]; · iexact H10
  isplitl [H11]; · iexact H11
  isplitl [H13]; · iexact H13
  isplitl [H14]; · iexact H14
  isplitl [H16]; · iexact H16
  isplitl [H17]; · iexact H17
  isplitl [H19]; · iexact H19
  iexact H20

-- So have the other five, and the first chunk passed on.
theorem part24_spec (K : GSem nD τ sig → ℕ) (c : Dev nD) :
    iprop(invs m K c
        ∗ levAts L lv
        ∗ (∃ W, owes (c : Thread nD τ) 0 W)
        ∗ atPos ER (dcell c p1sS5) 0 ∅ 0
        ∗ cred (tallyAt (dcell c p1sS5) () N16)
        ∗ atPos ER (dcell c p1sS6) 0 ∅ 0
        ∗ cred (tallyAt (dcell c p1sS6) () N24)
        ∗ atPos ER (dcell c p1sS7) 0 ∅ 0
        ∗ cred (tallyAt (dcell c p1sS7) () N24)
        ∗ atPos ER (dcell c p1sS8) 0 ∅ 0
        ∗ cred (tallyAt (dcell c p1sS8) () N24)
        ∗ atPos ER (dcell c p1sS9) 0 ∅ 0
        ∗ cred (tallyAt (dcell c p1sS9) () N24)
        ∗ atPos ER (dcell c p2sS0) 0 ∅ 0
        ∗ cred (tallyAt (dcell c p2sS0) () N48)) ⊢ wp frame (wpE (defs₀ (F := F)) 𝒱₀ (c : Thread nD τ) none) Set.univ (atBufs k0_part24 c) (fun _ => iprop((∃ W, owes (c : Thread nD τ) 0 W)
            ∗ semVal (dcell c p1sS5) 0
            ∗ held (sndSl5 c).view c fullShare (sndv5 m c)
            ∗ semVal (dcell c p1sS6) 0
            ∗ held (sndSl6 c).view c fullShare (sndv6 m c)
            ∗ semVal (dcell c p1sS7) 0
            ∗ held (sndSl7 c).view c fullShare (sndv7 m c)
            ∗ semVal (dcell c p1sS8) 0
            ∗ held (sndSl8 c).view c fullShare (sndv8 m c)
            ∗ semVal (dcell c p1sS9) 0
            ∗ held (sndSl9 c).view c fullShare (sndv9 m c)
            ∗ semVal (dcell c p2sS0) 0
            ∗ held (ovSl0 c).view c fullShare.left (val0 m c))) := by
  simp only [atBufs, k0_part24_eq_skeleton]; unfold k0_part24_skel
  simp only [Prog.lift, Prog.bind_op, Prog.bind_ret, Prog.pure_eq_ret]
  iintro ⟨#H0, #H2, ⟨%W, H3⟩, H22, H23, H25, H26, H28, H29, H31, H32, H34, H35, H37, H38⟩

  iapply (kit_wait_dma m (sndSl5 c).view c p1sS5 (by decide) N16 rfl (show (sndSl5 c).view.dmaCredit = N16 from rfl) fullShare (sndv5 m c) (m ((c : Thread nD τ).loc cc0_scratch0)) rfl 0 (W) (K (dcell c p1sS5))) $$ [H23 H3 H22]
  · isplitr; · iapply (invs_get m K c (dcell c p1sS5) (List.mem_of_getElem? (show (ownCells c ++ paidCells c)[7]? = some (dcell c p1sS5) from rfl))); iexact H0
    isplitl [H23]; · iexact H23
    isplitl [H3]; · iexact H3
    isplitr; · iapply (mayWait_nil (F := F) c (.dma p1sS5)); iexact H2
    iexact H22
  iintro ⟨H3, H22, H23⟩

  iapply (kit_wait_dma m (sndSl6 c).view c p1sS6 (by decide) N24 rfl (show (sndSl6 c).view.dmaCredit = N24 from rfl) fullShare (sndv6 m c) (m ((c : Thread nD τ).loc cc0_scratch0)) rfl 0 (insert (SemLoc.dma p1sS5, ()) (W)) (K (dcell c p1sS6))) $$ [H26 H3 H25]
  · isplitr; · iapply (invs_get m K c (dcell c p1sS6) (List.mem_of_getElem? (show (ownCells c ++ paidCells c)[8]? = some (dcell c p1sS6) from rfl))); iexact H0
    isplitl [H26]; · iexact H26
    isplitl [H3]; · iexact H3
    isplitr; · iapply (mayWait_nil (F := F) c (.dma p1sS6)); iexact H2
    iexact H25
  iintro ⟨H3, H25, H26⟩

  iapply (kit_wait_dma m (sndSl7 c).view c p1sS7 (by decide) N24 rfl (show (sndSl7 c).view.dmaCredit = N24 from rfl) fullShare (sndv7 m c) (m ((c : Thread nD τ).loc cc0_scratch0)) rfl 0 (insert (SemLoc.dma p1sS6, ()) (insert (SemLoc.dma p1sS5, ()) (W))) (K (dcell c p1sS7))) $$ [H29 H3 H28]
  · isplitr; · iapply (invs_get m K c (dcell c p1sS7) (List.mem_of_getElem? (show (ownCells c ++ paidCells c)[9]? = some (dcell c p1sS7) from rfl))); iexact H0
    isplitl [H29]; · iexact H29
    isplitl [H3]; · iexact H3
    isplitr; · iapply (mayWait_nil (F := F) c (.dma p1sS7)); iexact H2
    iexact H28
  iintro ⟨H3, H28, H29⟩

  iapply (kit_wait_dma m (sndSl8 c).view c p1sS8 (by decide) N24 rfl (show (sndSl8 c).view.dmaCredit = N24 from rfl) fullShare (sndv8 m c) (m ((c : Thread nD τ).loc cc0_scratch0)) rfl 0 (insert (SemLoc.dma p1sS7, ()) (insert (SemLoc.dma p1sS6, ()) (insert (SemLoc.dma p1sS5, ()) (W)))) (K (dcell c p1sS8))) $$ [H32 H3 H31]
  · isplitr; · iapply (invs_get m K c (dcell c p1sS8) (List.mem_of_getElem? (show (ownCells c ++ paidCells c)[10]? = some (dcell c p1sS8) from rfl))); iexact H0
    isplitl [H32]; · iexact H32
    isplitl [H3]; · iexact H3
    isplitr; · iapply (mayWait_nil (F := F) c (.dma p1sS8)); iexact H2
    iexact H31
  iintro ⟨H3, H31, H32⟩

  iapply (kit_wait_dma m (sndSl9 c).view c p1sS9 (by decide) N24 rfl (show (sndSl9 c).view.dmaCredit = N24 from rfl) fullShare (sndv9 m c) (m ((c : Thread nD τ).loc cc0_scratch0)) rfl 0 (insert (SemLoc.dma p1sS8, ()) (insert (SemLoc.dma p1sS7, ()) (insert (SemLoc.dma p1sS6, ()) (insert (SemLoc.dma p1sS5, ()) (W))))) (K (dcell c p1sS9))) $$ [H35 H3 H34]
  · isplitr; · iapply (invs_get m K c (dcell c p1sS9) (List.mem_of_getElem? (show (ownCells c ++ paidCells c)[11]? = some (dcell c p1sS9) from rfl))); iexact H0
    isplitl [H35]; · iexact H35
    isplitl [H3]; · iexact H3
    isplitr; · iapply (mayWait_nil (F := F) c (.dma p1sS9)); iexact H2
    iexact H34
  iintro ⟨H3, H34, H35⟩

  iapply (kit_wait_dma m (ovSl0 c).view c p2sS0 (by decide) N48 rfl (show (ovSl0 c).view.dmaCredit = N48 from rfl) fullShare.left (val0 m c) (m ((c : Thread nD τ).loc cc0_scratch3)) rfl 0 (insert (SemLoc.dma p1sS9, ()) (insert (SemLoc.dma p1sS8, ()) (insert (SemLoc.dma p1sS7, ()) (insert (SemLoc.dma p1sS6, ()) (insert (SemLoc.dma p1sS5, ()) (W)))))) (K (dcell c p2sS0))) $$ [H38 H3 H37]
  · isplitr; · iapply (invs_get m K c (dcell c p2sS0) (List.mem_of_getElem? (show (ownCells c ++ paidCells c)[22]? = some (dcell c p2sS0) from rfl))); iexact H0
    isplitl [H38]; · iexact H38
    isplitl [H3]; · iexact H3
    isplitr; · iapply (mayWait_nil (F := F) c (.dma p2sS0)); iexact H2
    iexact H37
  iintro ⟨H3, H37, H38⟩
  rw [wp_ret]; imodintro
  isplitl [H3]; · iexists _; iexact H3
  isplitl [H22]; · iexact H22
  isplitl [H23]; · iexact H23
  isplitl [H25]; · iexact H25
  isplitl [H26]; · iexact H26
  isplitl [H28]; · iexact H28
  isplitl [H29]; · iexact H29
  isplitl [H31]; · iexact H31
  isplitl [H32]; · iexact H32
  isplitl [H34]; · iexact H34
  isplitl [H35]; · iexact H35
  isplitl [H37]; · iexact H37
  iexact H38

-- So have the next three chunks passed on.
theorem tail25_cps (K : GSem nD τ sig → ℕ) (c : Dev nD) {α : Type} {Q : α → sProp 𝕄} {k : PUnit → Prog (TpuEff nD τ sig (Elt F) Λ₀ .tc) α}
    {h0 h0' : (ovSl1 c).view.WordExact} {h1 h1' : (ovSl2 c).view.WordExact} {h2 h2' : (ovSl3 c).view.WordExact} :
    iprop(invs m K c
        ∗ levAts L lv
        ∗ (∃ W, owes (c : Thread nD τ) 0 W)
        ∗ atPos ER (dcell c p2sS1) 0 ∅ 0
        ∗ cred (tallyAt (dcell c p2sS1) () N48)
        ∗ atPos ER (dcell c p2sS2) 0 ∅ 0
        ∗ cred (tallyAt (dcell c p2sS2) () N40)
        ∗ atPos ER (dcell c p2sS3) 0 ∅ 0
        ∗ cred (tallyAt (dcell c p2sS3) () N40)) ⊢ iprop((iprop((∃ W, owes (c : Thread nD τ) 0 W)
            ∗ semVal (dcell c p2sS1) 0
            ∗ held (ovSl1 c).view c fullShare.left (val1 m c)
            ∗ semVal (dcell c p2sS2) 0
            ∗ held (ovSl2 c).view c fullShare.left (val2 m c)
            ∗ semVal (dcell c p2sS3) 0
            ∗ held (ovSl3 c).view c fullShare.left (val3 m c)) -∗ wp frame (wpE (defs₀ (F := F)) 𝒱₀ (c : Thread nD τ) none) Set.univ (k ⟨⟩) Q)
      -∗ wp frame (wpE (defs₀ (F := F)) 𝒱₀ (c : Thread nD τ) none) Set.univ (Prog.op (TpuEff.waitDma2 p2sS1 (ovSl1 c) (ovSl1 c) h0 h0') fun _ => Prog.op (TpuEff.waitDma2 p2sS2 (ovSl2 c) (ovSl2 c) h1 h1') fun _ => Prog.op (TpuEff.waitDma2 p2sS3 (ovSl3 c) (ovSl3 c) h2 h2') k) Q) := by
  iintro ⟨#H0, #H2, ⟨%W, H3⟩, H40, H41, H43, H44, H46, H47⟩ Hk

  iapply (kit_wait_dma m (ovSl1 c).view c p2sS1 (by decide) N48 rfl (show (ovSl1 c).view.dmaCredit = N48 from rfl) fullShare.left (val1 m c) (m ((c : Thread nD τ).loc cc0_scratch3)) rfl 0 (W) (K (dcell c p2sS1))) $$ [H41 H3 H40]
  · isplitr; · iapply (invs_get m K c (dcell c p2sS1) (List.mem_of_getElem? (show (ownCells c ++ paidCells c)[23]? = some (dcell c p2sS1) from rfl))); iexact H0
    isplitl [H41]; · iexact H41
    isplitl [H3]; · iexact H3
    isplitr; · iapply (mayWait_nil (F := F) c (.dma p2sS1)); iexact H2
    iexact H40
  iintro ⟨H3, H40, H41⟩

  iapply (kit_wait_dma m (ovSl2 c).view c p2sS2 (by decide) N40 rfl (show (ovSl2 c).view.dmaCredit = N40 from rfl) fullShare.left (val2 m c) (m ((c : Thread nD τ).loc cc0_scratch3)) rfl 0 (insert (SemLoc.dma p2sS1, ()) (W)) (K (dcell c p2sS2))) $$ [H44 H3 H43]
  · isplitr; · iapply (invs_get m K c (dcell c p2sS2) (List.mem_of_getElem? (show (ownCells c ++ paidCells c)[24]? = some (dcell c p2sS2) from rfl))); iexact H0
    isplitl [H44]; · iexact H44
    isplitl [H3]; · iexact H3
    isplitr; · iapply (mayWait_nil (F := F) c (.dma p2sS2)); iexact H2
    iexact H43
  iintro ⟨H3, H43, H44⟩

  iapply (kit_wait_dma m (ovSl3 c).view c p2sS3 (by decide) N40 rfl (show (ovSl3 c).view.dmaCredit = N40 from rfl) fullShare.left (val3 m c) (m ((c : Thread nD τ).loc cc0_scratch3)) rfl 0 (insert (SemLoc.dma p2sS2, ()) (insert (SemLoc.dma p2sS1, ()) (W))) (K (dcell c p2sS3))) $$ [H47 H3 H46]
  · isplitr; · iapply (invs_get m K c (dcell c p2sS3) (List.mem_of_getElem? (show (ownCells c ++ paidCells c)[25]? = some (dcell c p2sS3) from rfl))); iexact H0
    isplitl [H47]; · iexact H47
    isplitl [H3]; · iexact H3
    isplitr; · iapply (mayWait_nil (F := F) c (.dma p2sS3)); iexact H2
    iexact H46
  iintro ⟨H3, H46, H47⟩
  iapply Hk
  isplitl [H3]; · iexists _; iexact H3
  isplitl [H40]; · iexact H40
  isplitl [H41]; · iexact H41
  isplitl [H43]; · iexact H43
  isplitl [H44]; · iexact H44
  isplitl [H46]; · iexact H46
  iexact H47

theorem tail_cps (K : GSem nD τ sig → ℕ) (c : Dev nD) {α : Type} {Q : α → sProp 𝕄} {k : PUnit → Prog (TpuEff nD τ sig (Elt F) Λ₀ .tc) α}
    {h0 h0' : (ovSl4 c).view.WordExact} {h1 h1' : (ovSl5 c).view.WordExact} :
    St25 m K c ⊢ iprop((iprop(Φ₁ m c ∗ ∃ W, owes (c : Thread nD τ) 0 W) -∗ wp frame (wpE (defs₀ (F := F)) 𝒱₀ (c : Thread nD τ) none) Set.univ (k ⟨⟩) Q)
      -∗ wp frame (wpE (defs₀ (F := F)) 𝒱₀ (c : Thread nD τ) none) Set.univ (Prog.op (TpuEff.waitDma2 p2sS4 (ovSl4 c) (ovSl4 c) h0 h0') fun _ => Prog.op (TpuEff.waitDma2 p2sS5 (ovSl5 c) (ovSl5 c) h1 h1') k) Q) := by
  unfold St25
  iintro ⟨#H0, H1, #H2, ⟨%W, H3⟩, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83, H84, H85, H86, H87⟩ Hk

  iapply (kit_wait_dma m (ovSl4 c).view c p2sS4 (by decide) N16 rfl (show (ovSl4 c).view.dmaCredit = N16 from rfl) fullShare.left (val4 m c) (m ((c : Thread nD τ).loc cc0_scratch3)) rfl 0 (W) (K (dcell c p2sS4))) $$ [H50 H3 H49]
  · isplitr; · iapply (invs_get m K c (dcell c p2sS4) (List.mem_of_getElem? (show (ownCells c ++ paidCells c)[26]? = some (dcell c p2sS4) from rfl))); iexact H0
    isplitl [H50]; · iexact H50
    isplitl [H3]; · iexact H3
    isplitr; · iapply (mayWait_nil (F := F) c (.dma p2sS4)); iexact H2
    iexact H49
  iintro ⟨H3, H49, H50⟩

  iapply (kit_wait_dma m (ovSl5 c).view c p2sS5 (by decide) N16 rfl (show (ovSl5 c).view.dmaCredit = N16 from rfl) fullShare.left (val5 m c) (m ((c : Thread nD τ).loc cc0_scratch3)) rfl 0 (insert (SemLoc.dma p2sS4, ()) (W)) (K (dcell c p2sS5))) $$ [H53 H3 H52]
  · isplitr; · iapply (invs_get m K c (dcell c p2sS5) (List.mem_of_getElem? (show (ownCells c ++ paidCells c)[27]? = some (dcell c p2sS5) from rfl))); iexact H0
    isplitl [H53]; · iexact H53
    isplitl [H3]; · iexact H3
    isplitr; · iapply (mayWait_nil (F := F) c (.dma p2sS5)); iexact H2
    iexact H52
  iintro ⟨H3, H52, H53⟩
  iapply Hk
  unfold Φ₁ arrays1 scratch ownSemsZero

  ihave J0 := (heldAny_halves (ovSl0 c).view c fullShare (val0 m c)) $$ [H38 H63]
  · isplitl [H38]; · iexact H38
    iexact H63
  ihave J1 := (heldAny_halves (ovSl1 c).view c fullShare (val1 m c)) $$ [H41 H65]
  · isplitl [H41]; · iexact H41
    iexact H65
  ihave J2 := (heldAny_halves (ovSl2 c).view c fullShare (val2 m c)) $$ [H44 H67]
  · isplitl [H44]; · iexact H44
    iexact H67
  ihave J3 := (heldAny_halves (ovSl3 c).view c fullShare (val3 m c)) $$ [H47 H69]
  · isplitl [H47]; · iexact H47
    iexact H69
  ihave J4 := (heldAny_halves (ovSl4 c).view c fullShare (val4 m c)) $$ [H50 H71]
  · isplitl [H50]; · iexact H50
    iexact H71
  ihave J5 := (heldAny_halves (ovSl5 c).view c fullShare (val5 m c)) $$ [H53 H73]
  · isplitl [H53]; · iexact H53
    iexact H73
  icases H58 with ⟨%OUT, %hOUT, H58⟩
  isplitl [H1 H4 H5 H6 H7 H8 H9 H10 H11 H12 H13 H14 H15 H16 H17 H18 H19 H20 H21 H22 H23 H24 H25 H26 H27 H28 H29 H30 H31 H32 H33 H34 H35 H36 H37 H39 H40 H42 H43 H45 H46 H48 H49 H51 H52 H54 H55 H56 H57 H58 H59 H60 H61 H62 H64 H66 H68 H70 H72 H74 H75 H76 H77 H78 H79 H80 H81 H82 H83 H84 H85 H86 H87 J0 J1 J2 J3 J4 J5]
  · isplitl [H55 H56 H57 H58]
    ·
      isplitl [H55 H56]
      · iapply (a0_join (F := F) c (m ((c : Thread nD τ).loc main_arg0)))
        isplitl [H55]; · iexact H55
        iexact H56
      isplitl [H57]
      · iapply (Entails.of_eq (pts_whole_eq a1M.view (View.set_whole _) c fullShare _)); iexact H57
      iexists OUT
      isplitr; · ipureintro; exact hOUT
      iapply (Entails.of_eq (pts_whole_eq outM.view (View.set_whole _) c fullShare _)); iexact H58
    isplitl [H8 H11 H14 H17 H20 H23 H26 H29 H32 H35 H59 H60 H61 J0 J1 J2 J3 J4 J5 H75 H77 H79 H81 H82 H83 H84 H85 H86 H87 H62 H64 H66 H68 H70 H72 H74 H76 H78 H80]
    ·
      isplitl [H8 H11 H14 H17 H20 H23 H26 H29 H32 H35 H59]
      · iapply (snd_join (F := F) c)
        isplitl [H8]; · iapply (held_any _ c _ _); iexact H8
        isplitl [H11]; · iapply (held_any _ c _ _); iexact H11
        isplitl [H14]; · iapply (held_any _ c _ _); iexact H14
        isplitl [H17]; · iapply (held_any _ c _ _); iexact H17
        isplitl [H20]; · iapply (held_any _ c _ _); iexact H20
        isplitl [H23]; · iapply (held_any _ c _ _); iexact H23
        isplitl [H26]; · iapply (held_any _ c _ _); iexact H26
        isplitl [H29]; · iapply (held_any _ c _ _); iexact H29
        isplitl [H32]; · iapply (held_any _ c _ _); iexact H32
        isplitl [H35]; · iapply (held_any _ c _ _); iexact H35
        iexact H59
      isplitl [H60]
      · iexists _; iapply (Entails.of_eq (pts_whole_eq locM.view (View.set_whole _) c fullShare _)); iexact H60
      isplitl [H61]
      · iexists _; iapply (Entails.of_eq (pts_whole_eq gvM.view (View.set_whole _) c fullShare _)); iexact H61
      isplitl [J0 J1 J2 J3 J4 J5 H75 H77 H79 H81 H82 H83 H84 H85 H86 H87]
      · iapply (ov_join (F := F) c)
        isplitl [J0]; · iexact J0
        isplitl [J1]; · iexact J1
        isplitl [J2]; · iexact J2
        isplitl [J3]; · iexact J3
        isplitl [J4]; · iexact J4
        isplitl [J5]; · iexact J5
        isplitl [H75]; · iexact H75
        isplitl [H77]; · iexact H77
        isplitl [H79]; · iexact H79
        isplitl [H81]; · iexact H81
        isplitl [H82]; · iexact H82
        isplitl [H83]; · iexact H83
        isplitl [H84]; · iexact H84
        isplitl [H85]; · iexact H85
        isplitl [H86]; · iexact H86
        iexact H87
      iapply (cm_join_whole (F := F) c)
      isplitl [H62]; · iexact H62
      isplitl [H64]; · iexact H64
      isplitl [H66]; · iexact H66
      isplitl [H68]; · iexact H68
      isplitl [H70]; · iexact H70
      isplitl [H72]; · iexact H72
      isplitl [H74]; · iexact H74
      isplitl [H76]; · iexact H76
      isplitl [H78]; · iexact H78
      iexact H80

    isplitl [H5]; · iexact H5
    isplitl [H54]; · iexact H54
    isplitl [H7]; · iexact H7
    isplitl [H10]; · iexact H10
    isplitl [H13]; · iexact H13
    isplitl [H16]; · iexact H16
    isplitl [H19]; · iexact H19
    isplitl [H22]; · iexact H22
    isplitl [H25]; · iexact H25
    isplitl [H28]; · iexact H28
    isplitl [H31]; · iexact H31
    isplitl [H34]; · iexact H34
    isplitl [H6]; · iexact H6
    isplitl [H9]; · iexact H9
    isplitl [H12]; · iexact H12
    isplitl [H15]; · iexact H15
    isplitl [H18]; · iexact H18
    isplitl [H21]; · iexact H21
    isplitl [H24]; · iexact H24
    isplitl [H27]; · iexact H27
    isplitl [H30]; · iexact H30
    isplitl [H33]; · iexact H33
    isplitl [H37]; · iexact H37
    isplitl [H40]; · iexact H40
    isplitl [H43]; · iexact H43
    isplitl [H46]; · iexact H46
    isplitl [H49]; · iexact H49
    isplitl [H52]; · iexact H52
    isplitl [H36]; · iexact H36
    isplitl [H39]; · iexact H39
    isplitl [H42]; · iexact H42
    isplitl [H45]; · iexact H45
    isplitl [H48]; · iexact H48
    iexact H51
  · iexists _; iexact H3

def tail25P (c : Dev nD) : Prog (TpuEff nD τ sig (Elt F) Λ₀ .tc) (Dev nD) := do
  let v791 : DmaSems sig S1 := cc0_scratch10.slice (Rect.unit (s := S6) ![1] S1.size inb_S6_S1_1)
  let v792 : DmaSems sig S_ := v791.squeeze S_ squeezes_S1_S_
  let v793 : Memref sig .tc .vmem S48x512 .f32 := (Memref.whole cc0_scratch3 : Memref sig .tc .vmem S512x512 .f32).slice (Rect.unit (s := S512x512) (k0_off3 c 128#32) S48x512.size (k0_off3_inb c 1)) (fun _ => rfl)
  let v794 : Memref sig .tc .vmem S48x512 .f32 := (Memref.whole cc0_scratch3 : Memref sig .tc .vmem S512x512 .f32).slice (Rect.unit (s := S512x512) (k0_off3 c 128#32) S48x512.size (k0_off3_inb c 1)) (fun _ => rfl)
  Prog.lift (.waitDma2 v792.sem v794 v793 (View.wordExact_bits rfl) (View.wordExact_bits rfl))
  let v795 : DmaSems sig S1 := cc0_scratch10.slice (Rect.unit (s := S6) ![2] S1.size inb_S6_S1_2)
  let v796 : DmaSems sig S_ := v795.squeeze S_ squeezes_S1_S_
  let v797 : Memref sig .tc .vmem S40x512 .f32 := (Memref.whole cc0_scratch3 : Memref sig .tc .vmem S512x512 .f32).slice (Rect.unit (s := S512x512) (k0_off4 c 48#32) S40x512.size (k0_off4_inb c 0)) (fun _ => rfl)
  let v798 : Memref sig .tc .vmem S40x512 .f32 := (Memref.whole cc0_scratch3 : Memref sig .tc .vmem S512x512 .f32).slice (Rect.unit (s := S512x512) (k0_off4 c 48#32) S40x512.size (k0_off4_inb c 0)) (fun _ => rfl)
  Prog.lift (.waitDma2 v796.sem v798 v797 (View.wordExact_bits rfl) (View.wordExact_bits rfl))
  let v799 : DmaSems sig S1 := cc0_scratch10.slice (Rect.unit (s := S6) ![3] S1.size inb_S6_S1_3)
  let v800 : DmaSems sig S_ := v799.squeeze S_ squeezes_S1_S_
  let v801 : Memref sig .tc .vmem S40x512 .f32 := (Memref.whole cc0_scratch3 : Memref sig .tc .vmem S512x512 .f32).slice (Rect.unit (s := S512x512) (k0_off4 c 176#32) S40x512.size (k0_off4_inb c 1)) (fun _ => rfl)
  let v802 : Memref sig .tc .vmem S40x512 .f32 := (Memref.whole cc0_scratch3 : Memref sig .tc .vmem S512x512 .f32).slice (Rect.unit (s := S512x512) (k0_off4 c 176#32) S40x512.size (k0_off4_inb c 1)) (fun _ => rfl)
  Prog.lift (.waitDma2 v800.sem v802 v801 (View.wordExact_bits rfl) (View.wordExact_bits rfl))
  pure c

def tailP (c : Dev nD) : Prog (TpuEff nD τ sig (Elt F) Λ₀ .tc) PUnit := do
  let v806 : Memref sig .tc .vmem S16x512 .f32 := (Memref.whole cc0_scratch3 : Memref sig .tc .vmem S512x512 .f32).slice (Rect.unit (s := S512x512) (k0_off5 c 88#32) S16x512.size (k0_off5_inb c 0)) (fun _ => rfl)
  let v803 : DmaSems sig S1 := cc0_scratch10.slice (Rect.unit (s := S6) ![4] S1.size inb_S6_S1_4)
  let v804 : DmaSems sig S_ := v803.squeeze S_ squeezes_S1_S_
  let v805 : Memref sig .tc .vmem S16x512 .f32 := (Memref.whole cc0_scratch3 : Memref sig .tc .vmem S512x512 .f32).slice (Rect.unit (s := S512x512) (k0_off5 c 88#32) S16x512.size (k0_off5_inb c 0)) (fun _ => rfl)
  Prog.lift (.waitDma2 v804.sem v806 v805 (View.wordExact_bits rfl) (View.wordExact_bits rfl))
  let v807 : DmaSems sig S1 := cc0_scratch10.slice (Rect.unit (s := S6) ![5] S1.size inb_S6_S1_5)
  let v808 : DmaSems sig S_ := v807.squeeze S_ squeezes_S1_S_
  let v809 : Memref sig .tc .vmem S16x512 .f32 := (Memref.whole cc0_scratch3 : Memref sig .tc .vmem S512x512 .f32).slice (Rect.unit (s := S512x512) (k0_off5 c 216#32) S16x512.size (k0_off5_inb c 1)) (fun _ => rfl)
  let v810 : Memref sig .tc .vmem S16x512 .f32 := (Memref.whole cc0_scratch3 : Memref sig .tc .vmem S512x512 .f32).slice (Rect.unit (s := S512x512) (k0_off5 c 216#32) S16x512.size (k0_off5_inb c 1)) (fun _ => rfl)
  Prog.lift (.waitDma2 v808.sem v810 v809 (View.wordExact_bits rfl) (View.wordExact_bits rfl))
  pure ⟨⟩

theorem tail25_spec (K : GSem nD τ sig → ℕ) (c : Dev nD) :
    iprop(invs m K c
        ∗ levAts L lv
        ∗ (∃ W, owes (c : Thread nD τ) 0 W)
        ∗ atPos ER (dcell c p2sS1) 0 ∅ 0
        ∗ cred (tallyAt (dcell c p2sS1) () N48)
        ∗ atPos ER (dcell c p2sS2) 0 ∅ 0
        ∗ cred (tallyAt (dcell c p2sS2) () N40)
        ∗ atPos ER (dcell c p2sS3) 0 ∅ 0
        ∗ cred (tallyAt (dcell c p2sS3) () N40))
      ⊢ wp frame (wpE (defs₀ (F := F)) 𝒱₀ (c : Thread nD τ) none) Set.univ (tail25P (F := F) c) (fun r => iprop(⌜r = c⌝
            ∗ (∃ W, owes (c : Thread nD τ) 0 W)
            ∗ semVal (dcell c p2sS1) 0
            ∗ held (ovSl1 c).view c fullShare.left (val1 m c)
            ∗ semVal (dcell c p2sS2) 0
            ∗ held (ovSl2 c).view c fullShare.left (val2 m c)
            ∗ semVal (dcell c p2sS3) 0
            ∗ held (ovSl3 c).view c fullShare.left (val3 m c))) := by
  unfold tail25P
  simp only [Prog.lift, Prog.bind_op, Prog.bind_ret, Prog.pure_eq_ret]
  iintro H
  iapply (tail25_cps m K c) $$ [H]
  · iexact H
  iintro H
  rw [wp_ret]; imodintro
  isplitr; · ipureintro; rfl
  iexact H

theorem tail_spec (K : GSem nD τ sig → ℕ) (c : Dev nD) :
    St25 m K c ⊢ wp frame (wpE (defs₀ (F := F)) 𝒱₀ (c : Thread nD τ) none) Set.univ (tailP (F := F) c) (fun _ => iprop(Φ₁ m c ∗ ∃ W, owes (c : Thread nD τ) 0 W)) := by
  unfold tailP
  simp only [Prog.lift, Prog.bind_op, Prog.bind_ret, Prog.pure_eq_ret]
  iintro H
  iapply (tail_cps m K c) $$ [H]
  · iexact H
  iintro H
  rw [wp_ret]; imodintro
  iexact H

end Cert.KernelIdeal.Proto

end
-- ==== Proof.BodyAll.lean ====
import proofs.«900598_g7700000000000599_dist_rsrms_v7x_xyz2x2x2_x_m512_d512_f32_1_alg».proof.Proof.BodyObl
import proofs.«900598_g7700000000000599_dist_rsrms_v7x_xyz2x2x2_x_m512_d512_f32_1_alg».proof.Proof.Ctx
import proofs.«900598_g7700000000000599_dist_rsrms_v7x_xyz2x2x2_x_m512_d512_f32_1_alg».proof.Proof.Body1
import proofs.«900598_g7700000000000599_dist_rsrms_v7x_xyz2x2x2_x_m512_d512_f32_1_alg».proof.Proof.Body2
import proofs.«900598_g7700000000000599_dist_rsrms_v7x_xyz2x2x2_x_m512_d512_f32_1_alg».proof.Proof.Body3x
import proofs.«900598_g7700000000000599_dist_rsrms_v7x_xyz2x2x2_x_m512_d512_f32_1_alg».proof.Proof.Body3d
import proofs.«900598_g7700000000000599_dist_rsrms_v7x_xyz2x2x2_x_m512_d512_f32_1_alg».proof.Proof.Body3c
import proofs.«900598_g7700000000000599_dist_rsrms_v7x_xyz2x2x2_x_m512_d512_f32_1_alg».proof.Proof.Body3b
import proofs.«900598_g7700000000000599_dist_rsrms_v7x_xyz2x2x2_x_m512_d512_f32_1_alg».proof.Proof.Body4
import proofs.«900598_g7700000000000599_dist_rsrms_v7x_xyz2x2x2_x_m512_d512_f32_1_alg».proof.Proof.Body5a
import proofs.«900598_g7700000000000599_dist_rsrms_v7x_xyz2x2x2_x_m512_d512_f32_1_alg».proof.Proof.Body5b

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem wp_seq {α β : Type} {c : Dev nD} {p : Prog (TpuEff nD τ sig (Elt F) Λ₀ .tc) α} {k : α → Prog (TpuEff nD τ sig (Elt F) Λ₀ .tc) β}
    {P : sProp 𝕄} {Q : α → sProp 𝕄} {R : β → sProp 𝕄}
    (h1 : P ⊢ wp frame (wpE (defs₀ (F := F)) 𝒱₀ (c : Thread nD τ) none) Set.univ p Q)
    (h2 : ∀ a, Q a ⊢ wp frame (wpE (defs₀ (F := F)) 𝒱₀ (c : Thread nD τ) none) Set.univ (k a) R) :
    P ⊢ wp frame (wpE (defs₀ (F := F)) 𝒱₀ (c : Thread nD τ) none) Set.univ (p >>= k) R := by
  rw [wp_bind]; exact h1.trans (wp_mono _ _ _ h2)

omit [FloatOps F] in

theorem pure_sep_elim {φ : Prop} {P Q : sProp 𝕄} (h : φ → P ⊢ Q) : iprop(⌜φ⌝ ∗ P) ⊢ Q := by
  iintro ⟨%hφ, H⟩; iapply (h hφ); iexact H

omit [FloatOps F] in

theorem exists_sep_elim {α : Type} {Φ : α → sProp 𝕄} {Q : sProp 𝕄} (h : ∀ a, Φ a ⊢ Q) : iprop(∃ a, Φ a) ⊢ Q := by
  iintro ⟨%a, H⟩; iapply (h a); iexact H

-- A step proved on the resources it touches runs inside any larger context; what it leaves is handed to the rest of the program.
theorem wp_seq_local {α β : Type} {c : Dev nD} {p : Prog (TpuEff nD τ sig (Elt F) Λ₀ .tc) α} {k : α → Prog (TpuEff nD τ sig (Elt F) Λ₀ .tc) β}
    {A : sProp 𝕄} {B : α → sProp 𝕄} {R : β → sProp 𝕄}
    (h : A ⊢ wp frame (wpE (defs₀ (F := F)) 𝒱₀ (c : Thread nD τ) none) Set.univ p B) :
    A ⊢ iprop((∀ a, B a -∗ wp frame (wpE (defs₀ (F := F)) 𝒱₀ (c : Thread nD τ) none) Set.univ (k a) R)
        -∗ wp frame (wpE (defs₀ (F := F)) 𝒱₀ (c : Thread nD τ) none) Set.univ (p >>= k) R) := by
  rw [wp_bind]; exact h.trans (wp_wand _ _ _)

-- The same for a last step.
theorem wp_local {α : Type} {c : Dev nD} {p : Prog (TpuEff nD τ sig (Elt F) Λ₀ .tc) α} {A : sProp 𝕄} {B R : α → sProp 𝕄}
    (h : A ⊢ wp frame (wpE (defs₀ (F := F)) 𝒱₀ (c : Thread nD τ) none) Set.univ p B) :
    A ⊢ iprop((∀ a, B a -∗ R a) -∗ wp frame (wpE (defs₀ (F := F)) 𝒱₀ (c : Thread nD τ) none) Set.univ p R) :=
  h.trans (wp_wand _ _ _)

-- The body up to its last two waits: each step takes what it needs from the context and returns what it leaves; nothing else is named again.
theorem part25_spec (c : Dev nD) :
    iprop(Φ₀ m c ∗ ∃ W, owes (c : Thread nD τ) (O₀ c) W)
      ⊢ wp frame (wpE (defs₀ (F := F)) 𝒱₀ (c : Thread nD τ) none) Set.univ (atBufs k0_part25) (fun r => iprop(⌜r = c⌝ ∗ ∃ K, St25 m K c)) := by
  simp only [atBufs, k0_part25_eq_skeleton]; unfold k0_part25_skel
  refine wp_seq (part1_spec m c) (fun r => ?_)
  obtain ⟨d0, v2, v5, v8, v19, v20, v21, v22⟩ := r
  refine pure_sep_elim fun hd => ?_
  have hd' : c = d0 := hd.symm
  subst hd'
  refine exists_sep_elim fun K => ?_
  refine wp_seq (part2_spec m K c v2 v5 v8 v19 v20 v21 v22) (fun r => ?_)
  rename' r => c4_i32_42
  unfold St2
  iintro ⟨#g0, #g1, #g2, #g3, #g4, #g5, #g6, #g7, #g8, #g9, #g10, #g11, #g12, g13, g14, g15, g16, g17, g18, g19, g20, g21, g22, g23, g24, g25, g26, g27, g28, g29, g30, g31, g32, g33, g34, g35, g36, g37, g38, g39, g40, g41, g42, g43, g44, g45, g46, g47, g48, g49, g50, g51, g52, g53, g54, g55, g56, g57, g58, g59, g60, g61, g62, g63, g64, g65, g66, g67, g68, g69, g70, g71, g72, g73, g74, g75, g76, g77, g78, g79, g80, g81, g82, g83, g84, g85, g86, g87, g88, g89, g90, g91, g92, g93, g94, g95, g96, g97, g98, g99, g100, g101, g102, g103, g104, g105, g106, g107, g108, g109, g110, g111, g112, g113, g114, g115, g116, g117, g118, g119, g120, g121, g122, g123, g124, g125, g126, g127, g128, g129, g130, g131, g132, g133, g134, g135, g136, g137⟩
  iapply (wp_seq_local (part3_spec m K c v5 v8 v19 v20 c4_i32_42)) $$ [g13 g14 g15 g16 g17 g107 g108 g119 g121]
  · iframe # ∗
  iintro %r ⟨g138, g139, g140⟩
  obtain ⟨v92, v93⟩ := r
  iapply (wp_seq_local (part4_spec m K c v5 v8 v19 v20 v92 v93)) $$ [g138 g18 g19 g20 g21 g109 g110 g123 g125]
  · iframe # ∗
  iintro %r ⟨g141, g142, g143⟩
  clear r
  iapply (wp_seq_local (part5_spec m K c v5 v8 v19 v20)) $$ [g141 g22 g23 g24 g25 g26 g27 g111 g112 g113 g127 g129 g131]
  · iframe # ∗
  iintro %r ⟨g144, g145, g146, g147⟩
  clear r
  iapply (wp_seq_local (part6_spec m K c v5 v8 v19 v20)) $$ [g144 g28 g29 g30 g31 g114 g115 g133 g135]
  · iframe # ∗
  iintro %r ⟨g148, g149, g150⟩
  obtain ⟨v189, c0_i32_127⟩ := r
  iapply (wp_seq_local (part7_spec m K c v5 v8 v19 v20 v189 c0_i32_127)) $$ [g148 g32 g33 g47 g48 g49 g50 g98 g99 g116 g137]
  · iframe # ∗
  iintro %r ⟨%hv, #g151, #g152, #g153, #g154, #g155, #g156, g157, g158, g159, g160, g161, g162, g163, g164, g165, g166, g167, g168, g169, g170, g171, g172, g173⟩
  obtain ⟨v218, v220⟩ := r
  dsimp only at hv; subst hv
  iapply (wp_seq_local (part8_spec m K c v2 v5 v8 v20 v21 v218)) $$ [g157 g34 g35 g166 g167 g118 g168]
  · iframe # ∗
  iintro %r ⟨g174, g175, g176, g177, g178⟩
  clear r
  iapply (wp_seq_local (part9_spec m K c v2 v5 v19 v22)) $$ [g174 g52 g53 g165 g176 g120]
  · iframe # ∗
  iintro %r ⟨g179, g180, g181, g182, g183, g184⟩
  clear r
  iapply (wp_seq_local (part10_spec m K c v5 v8 v19 v20)) $$ [g179 g36 g37 g55 g56 g181 g182 g184 g122 g169]
  · iframe # ∗
  iintro %r ⟨g185, g186, g187, g188, g189, g190, g191, g192⟩
  clear r
  iapply (wp_seq_local (part11_spec m K c v2 v5 v8 v19 v20 v21)) $$ [g185 g38 g39 g58 g59 g188 g192 g170]
  · iframe # ∗
  iintro %r ⟨%hv, g193, g194, g195, g196, g197, g198⟩
  obtain ⟨v356, v360, v365, v366⟩ := r
  obtain ⟨h1, h2, h3⟩ := hv
  dsimp only at h1 h2 h3; subst h1 h2 h3
  iapply (wp_seq_local (part12_spec m K c v2 v5 v8 v19 v20 v22 v356)) $$ [g193 g40 g41 g61 g62 g189 g124 g171]
  · iframe # ∗
  iintro %r ⟨g199, g200, g201, g202, g203, g204⟩
  rename' r => v402
  iapply (wp_seq_local (part13_spec m K c v2 v5 v8 v20 v21 v402)) $$ [g199 g42 g43 g196 g202 g204 g126 g172]
  · iframe # ∗
  iintro %r ⟨g205, g206, g207, g208, g209, g210⟩
  obtain ⟨v438, v439⟩ := r
  iapply (wp_seq_local (part14_spec m K c v2 v5 v8 v19 v22 v438 v439)) $$ [g205 g64 g65 g207 g208 g128]
  · iframe # ∗
  iintro %r ⟨g211, g212, g213, g214, g215, g216⟩
  clear r
  iapply (wp_seq_local (part15_spec m K c v5 v8 v19 v20)) $$ [g211 g44 g45 g67 g68 g213 g214 g216 g130 g173]
  · iframe # ∗
  iintro %r ⟨%hv, g217, g218, g219, g220, g221, g222, g223, g224⟩
  obtain ⟨v512, v514⟩ := r
  dsimp only at hv; subst hv
  iapply (wp_seq_local (part16_spec m K c v5 v8 v19 v20 v514)) $$ [g217 g70 g71 g220 g221 g224 g132]
  · iframe # ∗
  iintro %r ⟨g225, g226, g227, g228, g229, g230, g231⟩
  clear r
  iapply (wp_seq_local (part17_spec m K c v5 v8 v19 v20)) $$ [g225 g73 g74 g227 g228 g134]
  · iframe # ∗
  iintro %r ⟨g232, g233, g234, g235, g236, g237⟩
  obtain ⟨v586, c0_i32_351⟩ := r
  iapply (wp_seq_local (part18_spec m K c v5 v8 v19 v586 c0_i32_351)) $$ [g232 g76 g77 g234 g235 g136]
  · iframe # ∗
  iintro %r ⟨g238, g239, g240, g241, g242, g243⟩
  rename' r => v624
  iapply (wp_seq_local (part19_spec m K c v2 v8 v19 v21 v624)) $$ [g100 g101 g104 g106 g178 g190 g197 g203 g210 g222 g229 g231 g237 g243]
  · iframe # ∗
  iintro %r ⟨g244, g245, g246, g247, g248, g249, g250⟩
  clear r
  iapply (wp_seq_local (part20_spec m K c v2 v5 v8 v21 v22)) $$ [g238 g79 g80 g82 g83 g85 g86 g248]
  · iframe # ∗
  iintro %r ⟨g251, g252, g253, g254, g255, g256, g257, g258⟩
  clear r
  iapply (wp_seq_local (part21_spec m K c v2 v5 v8 v19 v21 v22)) $$ [g251 g88 g89 g91 g92 g94 g95 g102 g244 g255 g256 g258]
  · iframe # ∗
  iintro %r ⟨g259, g260, g261, g262, g263, g264, g265, g266⟩
  rename' r => v717
  iapply (wp_seq_local (part22_spec m K c v19 v717)) $$ [g259 g97 g161 g162 g103 g177 g183 g191 g198 g209 g215 g223 g230 g236 g242 g245 g246 g247 g263 g249 g250 g257 g264 g265 g266]
  · iframe # ∗
  iintro %r ⟨g267, g268, g269, g270, g271, g272, g273, g274, g275, g276, g277, g278, g279, g280, g281, g282, g283, g284, g285, g286, g287, g288, g289, g290, g291, g292, g293, g294, g295⟩
  clear r
  iapply (wp_seq_local (part23_spec m K c)) $$ [g267 g51 g139 g54 g140 g57 g142 g60 g143 g63 g145]
  · iframe # ∗
  iintro %r ⟨g296, g297, g298, g299, g300, g301, g302, g303, g304, g305, g306⟩
  clear r
  iapply (wp_seq_local (part24_spec m K c)) $$ [g296 g66 g146 g69 g147 g72 g149 g75 g150 g78 g160 g81 g175]
  · iframe # ∗
  iintro %r ⟨g307, g308, g309, g310, g311, g312, g313, g314, g315, g316, g317, g318, g319⟩
  clear r
  iapply (wp_local (tail25_spec m K c)) $$ [g307 g84 g187 g87 g195 g90 g201]
  · iframe # ∗
  iintro %r ⟨%hr, g400, g401, g402, g403, g404, g405, g406⟩
  isplitr; · ipureintro; exact hr
  iexists K
  unfold St25
  iframe # ∗

-- The whole body, from the launch state to the final one, owing nothing.
theorem body_spec (c : Dev nD) :
    iprop(Φ₀ m c ∗ ∃ W, owes (c : Thread nD τ) (O₀ c) W)
      ⊢ wp frame (wpE (defs₀ (F := F)) 𝒱₀ (c : Thread nD τ) none) Set.univ (atBufs cc0_body) (fun _ => iprop(Φ₁ m c ∗ ∃ W, owes (c : Thread nD τ) 0 W)) := by
  simp only [atBufs, cc0_body_eq_skeleton]; unfold cc0_body_skel
  refine wp_seq (part25_spec m c) (fun r => ?_)
  refine pure_sep_elim fun hd => ?_
  have hd' : c = r := hd.symm
  subst hd'
  refine exists_sep_elim fun K => ?_
  exact tail_spec m K _

-- The obligation of every device at the one grid point.
theorem body_obligation : ∀ c, BodyObligation (dats (F := F) m 0 c) (defs₀ (F := F)) 𝒱₀ () Set.univ :=
  body_obligation_of m (body_spec m)

end Cert.KernelIdeal.Proto

end
-- ==== Proof.Bits.Base.lean ====
import proofs.«900598_g7700000000000599_dist_rsrms_v7x_xyz2x2x2_x_m512_d512_f32_1_alg».proof.Proof.Gen.Kernel
import proofs.«900598_g7700000000000599_dist_rsrms_v7x_xyz2x2x2_x_m512_d512_f32_1_alg».proof.Proof.Gen.Kernel.Skeleton
import proofs.«900598_g7700000000000599_dist_rsrms_v7x_xyz2x2x2_x_m512_d512_f32_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL

def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

-- The three neighbours of a device on the 2×2×2 mesh; below them the buffers, their ten chunk slices, and every cell by name.
def xp (c : Dev nD) : Dev nD := ⟨k0_dev1 c, k0_dev1_lt c⟩
def yp (c : Dev nD) : Dev nD := ⟨k0_dev2 c, k0_dev2_lt c⟩
def zp (c : Dev nD) : Dev nD := ⟨k0_dev3 c, k0_dev3_lt c⟩

theorem xp_val (c : Dev nD) : (xp c).val = (2 * ((c.val / 2) % 2) + (c.val % 2) + 4) - 4 * (c.val / 4) := k0_dev1_eq c
theorem yp_val (c : Dev nD) : (yp c).val = (4 * (c.val / 4) + (c.val % 2) + 2) - 2 * ((c.val / 2) % 2) := k0_dev2_eq c
theorem zp_val (c : Dev nD) : (zp c).val = (4 * (c.val / 4) + 2 * ((c.val / 2) % 2) + 1) - (c.val % 2) := k0_dev3_eq c

theorem xp_xp (c : Dev nD) : xp (xp c) = c := by
  apply Fin.ext; rw [xp_val, xp_val]; have := c.isLt; simp only [nD] at this; omega
theorem yp_yp (c : Dev nD) : yp (yp c) = c := by
  apply Fin.ext; rw [yp_val, yp_val]; have := c.isLt; simp only [nD] at this; omega
theorem zp_zp (c : Dev nD) : zp (zp c) = c := by
  apply Fin.ext; rw [zp_val, zp_val]; have := c.isLt; simp only [nD] at this; omega

def xE : Dev nD ≃ Dev nD := ⟨xp, xp, xp_xp, xp_xp⟩
def yE : Dev nD ≃ Dev nD := ⟨yp, yp, yp_yp, yp_yp⟩
def zE : Dev nD ≃ Dev nD := ⟨zp, zp, zp_zp, zp_zp⟩

theorem dev1_eq (c : Dev nD) : (⟨k0_dev1 c, k0_dev1_lt c⟩ : Dev nD) = xp c := rfl
theorem dev2_eq (c : Dev nD) : (⟨k0_dev2 c, k0_dev2_lt c⟩ : Dev nD) = yp c := rfl
theorem dev3_eq (c : Dev nD) : (⟨k0_dev3 c, k0_dev3_lt c⟩ : Dev nD) = zp c := rfl
theorem dev4_eq (c : Dev nD) : (⟨k0_dev4 c, k0_dev4_lt c⟩ : Dev nD) = xp c := Fin.ext ((k0_dev4_eq c).trans (k0_dev1_eq c).symm)
theorem dev5_eq (c : Dev nD) : (⟨k0_dev5 c, k0_dev5_lt c⟩ : Dev nD) = xp c := Fin.ext ((k0_dev5_eq c).trans (k0_dev1_eq c).symm)
theorem dev6_eq (c : Dev nD) : (⟨k0_dev6 c, k0_dev6_lt c⟩ : Dev nD) = xp c := Fin.ext ((k0_dev6_eq c).trans (k0_dev1_eq c).symm)
theorem dev7_eq (c : Dev nD) : (⟨k0_dev7 c, k0_dev7_lt c⟩ : Dev nD) = xp c := Fin.ext ((k0_dev7_eq c).trans (k0_dev1_eq c).symm)
theorem dev8_eq (c : Dev nD) : (⟨k0_dev8 c, k0_dev8_lt c⟩ : Dev nD) = xp c := Fin.ext ((k0_dev8_eq c).trans (k0_dev1_eq c).symm)
theorem dev9_eq (c : Dev nD) : (⟨k0_dev9 c, k0_dev9_lt c⟩ : Dev nD) = xp c := Fin.ext ((k0_dev9_eq c).trans (k0_dev1_eq c).symm)
theorem dev10_eq (c : Dev nD) : (⟨k0_dev10 c, k0_dev10_lt c⟩ : Dev nD) = xp c := Fin.ext ((k0_dev10_eq c).trans (k0_dev1_eq c).symm)
theorem dev11_eq (c : Dev nD) : (⟨k0_dev11 c, k0_dev11_lt c⟩ : Dev nD) = xp c := Fin.ext ((k0_dev11_eq c).trans (k0_dev1_eq c).symm)
theorem dev12_eq (c : Dev nD) : (⟨k0_dev12 c, k0_dev12_lt c⟩ : Dev nD) = xp c := Fin.ext ((k0_dev12_eq c).trans (k0_dev1_eq c).symm)
theorem dev13_eq (c : Dev nD) : (⟨k0_dev13 c, k0_dev13_lt c⟩ : Dev nD) = xp c := Fin.ext ((k0_dev13_eq c).trans (k0_dev1_eq c).symm)
theorem dev14_eq (c : Dev nD) : (⟨k0_dev14 c, k0_dev14_lt c⟩ : Dev nD) = yp c := Fin.ext ((k0_dev14_eq c).trans (k0_dev2_eq c).symm)
theorem dev15_eq (c : Dev nD) : (⟨k0_dev15 c, k0_dev15_lt c⟩ : Dev nD) = zp c := Fin.ext ((k0_dev15_eq c).trans (k0_dev3_eq c).symm)
theorem dev16_eq (c : Dev nD) : (⟨k0_dev16 c, k0_dev16_lt c⟩ : Dev nD) = yp c := Fin.ext ((k0_dev16_eq c).trans (k0_dev2_eq c).symm)
theorem dev17_eq (c : Dev nD) : (⟨k0_dev17 c, k0_dev17_lt c⟩ : Dev nD) = zp c := Fin.ext ((k0_dev17_eq c).trans (k0_dev3_eq c).symm)
theorem dev18_eq (c : Dev nD) : (⟨k0_dev18 c, k0_dev18_lt c⟩ : Dev nD) = yp c := Fin.ext ((k0_dev18_eq c).trans (k0_dev2_eq c).symm)
theorem dev19_eq (c : Dev nD) : (⟨k0_dev19 c, k0_dev19_lt c⟩ : Dev nD) = zp c := Fin.ext ((k0_dev19_eq c).trans (k0_dev3_eq c).symm)

abbrev a0M : Memref sig .tc .hbm S1x1024x512 .f32 := Memref.whole main_arg0
abbrev a1M : Memref sig .tc .hbm S512 .f32 := Memref.whole main_arg1
abbrev outM : Memref sig .tc .hbm S512x512 .f32 := Memref.whole main_v1

abbrev sndM : Memref sig .tc .vmem S512x512 .f32 := Memref.whole cc0_scratch0

abbrev locM : Memref sig .tc .vmem S512x512 .f32 := Memref.whole cc0_scratch1

abbrev gvM : Memref sig .tc .vmem S512 .f32 := Memref.whole cc0_scratch2

abbrev ovM : Memref sig .tc .vmem S512x512 .f32 := Memref.whole cc0_scratch3

abbrev cmM : Memref sig .tc .vmem S304x512 .f32 := Memref.whole cc0_scratch4

abbrev srcSend (c : Dev nD) : Memref sig .tc .hbm S512x512 .f32 :=
  (a0M.slice (Rect.unit (s := S1x1024x512) (k0_off1 c) S1x512x512.size (k0_off1_inb c)) (fun _ => rfl)).squeeze S512x512 squeezes_S1x512x512_S512x512
abbrev srcLoc (c : Dev nD) : Memref sig .tc .hbm S512x512 .f32 :=
  (a0M.slice (Rect.unit (s := S1x1024x512) (k0_off2 c) S1x512x512.size (k0_off2_inb c)) (fun _ => rfl)).squeeze S512x512 squeezes_S1x512x512_S512x512

abbrev sndSl0 (c : Dev nD) : Memref sig .tc .vmem S48x512 .f32 := sndM.slice (Rect.unit (s := S512x512) (k0_off3 c 0#32) S48x512.size (k0_off3_inb c 0)) (fun _ => rfl)
abbrev cmSl0 : Memref sig .tc .vmem S48x512 .f32 := cmM.slice (Rect.unit (s := S304x512) ![0, 0] S48x512.size inb_S304x512_S48x512_0_0) (fun _ => rfl)
abbrev ovSl0 (c : Dev nD) : Memref sig .tc .vmem S48x512 .f32 := ovM.slice (Rect.unit (s := S512x512) (k0_off3 c 0#32) S48x512.size (k0_off3_inb c 0)) (fun _ => rfl)
abbrev sndSl1 (c : Dev nD) : Memref sig .tc .vmem S48x512 .f32 := sndM.slice (Rect.unit (s := S512x512) (k0_off3 c 128#32) S48x512.size (k0_off3_inb c 1)) (fun _ => rfl)
abbrev cmSl1 : Memref sig .tc .vmem S48x512 .f32 := cmM.slice (Rect.unit (s := S304x512) ![48, 0] S48x512.size inb_S304x512_S48x512_48_0) (fun _ => rfl)
abbrev ovSl1 (c : Dev nD) : Memref sig .tc .vmem S48x512 .f32 := ovM.slice (Rect.unit (s := S512x512) (k0_off3 c 128#32) S48x512.size (k0_off3_inb c 1)) (fun _ => rfl)
abbrev sndSl2 (c : Dev nD) : Memref sig .tc .vmem S40x512 .f32 := sndM.slice (Rect.unit (s := S512x512) (k0_off4 c 48#32) S40x512.size (k0_off4_inb c 0)) (fun _ => rfl)
abbrev cmSl2 : Memref sig .tc .vmem S40x512 .f32 := cmM.slice (Rect.unit (s := S304x512) ![96, 0] S40x512.size inb_S304x512_S40x512_96_0) (fun _ => rfl)
abbrev ovSl2 (c : Dev nD) : Memref sig .tc .vmem S40x512 .f32 := ovM.slice (Rect.unit (s := S512x512) (k0_off4 c 48#32) S40x512.size (k0_off4_inb c 0)) (fun _ => rfl)
abbrev sndSl3 (c : Dev nD) : Memref sig .tc .vmem S40x512 .f32 := sndM.slice (Rect.unit (s := S512x512) (k0_off4 c 176#32) S40x512.size (k0_off4_inb c 1)) (fun _ => rfl)
abbrev cmSl3 : Memref sig .tc .vmem S40x512 .f32 := cmM.slice (Rect.unit (s := S304x512) ![136, 0] S40x512.size inb_S304x512_S40x512_136_0) (fun _ => rfl)
abbrev ovSl3 (c : Dev nD) : Memref sig .tc .vmem S40x512 .f32 := ovM.slice (Rect.unit (s := S512x512) (k0_off4 c 176#32) S40x512.size (k0_off4_inb c 1)) (fun _ => rfl)
abbrev sndSl4 (c : Dev nD) : Memref sig .tc .vmem S16x512 .f32 := sndM.slice (Rect.unit (s := S512x512) (k0_off5 c 88#32) S16x512.size (k0_off5_inb c 0)) (fun _ => rfl)
abbrev cmSl4 : Memref sig .tc .vmem S16x512 .f32 := cmM.slice (Rect.unit (s := S304x512) ![176, 0] S16x512.size inb_S304x512_S16x512_176_0) (fun _ => rfl)
abbrev ovSl4 (c : Dev nD) : Memref sig .tc .vmem S16x512 .f32 := ovM.slice (Rect.unit (s := S512x512) (k0_off5 c 88#32) S16x512.size (k0_off5_inb c 0)) (fun _ => rfl)
abbrev sndSl5 (c : Dev nD) : Memref sig .tc .vmem S16x512 .f32 := sndM.slice (Rect.unit (s := S512x512) (k0_off5 c 216#32) S16x512.size (k0_off5_inb c 1)) (fun _ => rfl)
abbrev cmSl5 : Memref sig .tc .vmem S16x512 .f32 := cmM.slice (Rect.unit (s := S304x512) ![192, 0] S16x512.size inb_S304x512_S16x512_192_0) (fun _ => rfl)
abbrev ovSl5 (c : Dev nD) : Memref sig .tc .vmem S16x512 .f32 := ovM.slice (Rect.unit (s := S512x512) (k0_off5 c 216#32) S16x512.size (k0_off5_inb c 1)) (fun _ => rfl)
abbrev sndSl6 (c : Dev nD) : Memref sig .tc .vmem S24x512 .f32 := sndM.slice (Rect.unit (s := S512x512) (k0_off6 c 104#32) S24x512.size (k0_off6_inb c 0)) (fun _ => rfl)
abbrev cmSl6 : Memref sig .tc .vmem S24x512 .f32 := cmM.slice (Rect.unit (s := S304x512) ![208, 0] S24x512.size inb_S304x512_S24x512_208_0) (fun _ => rfl)
abbrev ovSl6 (c : Dev nD) : Memref sig .tc .vmem S24x512 .f32 := ovM.slice (Rect.unit (s := S512x512) (k0_off6 c 104#32) S24x512.size (k0_off6_inb c 0)) (fun _ => rfl)
abbrev sndSl7 (c : Dev nD) : Memref sig .tc .vmem S24x512 .f32 := sndM.slice (Rect.unit (s := S512x512) (k0_off6 c 232#32) S24x512.size (k0_off6_inb c 1)) (fun _ => rfl)
abbrev cmSl7 : Memref sig .tc .vmem S24x512 .f32 := cmM.slice (Rect.unit (s := S304x512) ![232, 0] S24x512.size inb_S304x512_S24x512_232_0) (fun _ => rfl)
abbrev ovSl7 (c : Dev nD) : Memref sig .tc .vmem S24x512 .f32 := ovM.slice (Rect.unit (s := S512x512) (k0_off6 c 232#32) S24x512.size (k0_off6_inb c 1)) (fun _ => rfl)
abbrev sndSl8 (c : Dev nD) : Memref sig .tc .vmem S24x512 .f32 := sndM.slice (Rect.unit (s := S512x512) (k0_off7 c 104#32) S24x512.size (k0_off7_inb c 0)) (fun _ => rfl)
abbrev cmSl8 : Memref sig .tc .vmem S24x512 .f32 := cmM.slice (Rect.unit (s := S304x512) ![256, 0] S24x512.size inb_S304x512_S24x512_256_0) (fun _ => rfl)
abbrev ovSl8 (c : Dev nD) : Memref sig .tc .vmem S24x512 .f32 := ovM.slice (Rect.unit (s := S512x512) (k0_off7 c 104#32) S24x512.size (k0_off7_inb c 0)) (fun _ => rfl)
abbrev sndSl9 (c : Dev nD) : Memref sig .tc .vmem S24x512 .f32 := sndM.slice (Rect.unit (s := S512x512) (k0_off7 c 232#32) S24x512.size (k0_off7_inb c 1)) (fun _ => rfl)
abbrev cmSl9 : Memref sig .tc .vmem S24x512 .f32 := cmM.slice (Rect.unit (s := S304x512) ![280, 0] S24x512.size inb_S304x512_S24x512_280_0) (fun _ => rfl)
abbrev ovSl9 (c : Dev nD) : Memref sig .tc .vmem S24x512 .f32 := ovM.slice (Rect.unit (s := S512x512) (k0_off7 c 232#32) S24x512.size (k0_off7_inb c 1)) (fun _ => rfl)

abbrev ovO1 (c : Dev nD) : Memref sig .tc .vmem S256x512 .f32 := ovM.slice (Rect.unit (s := S512x512) (k0_off13 c) S256x512.size (k0_off13_inb c)) (fun _ => rfl)
abbrev outO1 (c : Dev nD) : Memref sig .tc .hbm S256x512 .f32 := outM.slice (Rect.unit (s := S512x512) (k0_off13 c) S256x512.size (k0_off13_inb c)) (fun _ => rfl)
abbrev ovO2a (c : Dev nD) : Memref sig .tc .vmem S24x512 .f32 := ovSl8 c
abbrev outO2a (c : Dev nD) : Memref sig .tc .hbm S24x512 .f32 := outM.slice (Rect.unit (s := S512x512) (k0_off7 c 104#32) S24x512.size (k0_off7_inb c 0)) (fun _ => rfl)
abbrev ovO2b (c : Dev nD) : Memref sig .tc .vmem S24x512 .f32 := ovM.slice (Rect.unit (s := S512x512) (k0_off14 c) S24x512.size (k0_off14_inb c)) (fun _ => rfl)
abbrev outO2b (c : Dev nD) : Memref sig .tc .hbm S24x512 .f32 := outM.slice (Rect.unit (s := S512x512) (k0_off14 c) S24x512.size (k0_off14_inb c)) (fun _ => rfl)
abbrev ovO3 (c : Dev nD) : Memref sig .tc .vmem S104x512 .f32 := ovM.slice (Rect.unit (s := S512x512) (k0_off15 c) S104x512.size (k0_off15_inb c)) (fun _ => rfl)
abbrev outO3 (c : Dev nD) : Memref sig .tc .hbm S104x512 .f32 := outM.slice (Rect.unit (s := S512x512) (k0_off15 c) S104x512.size (k0_off15_inb c)) (fun _ => rfl)
abbrev ovO4 (c : Dev nD) : Memref sig .tc .vmem S104x512 .f32 := ovM.slice (Rect.unit (s := S512x512) (k0_off16 c) S104x512.size (k0_off16_inb c)) (fun _ => rfl)
abbrev outO4 (c : Dev nD) : Memref sig .tc .hbm S104x512 .f32 := outM.slice (Rect.unit (s := S512x512) (k0_off16 c) S104x512.size (k0_off16_inb c)) (fun _ => rfl)

abbrev barS : Sem sig := (SemArray.scalar (sig.barrier 0 rfl) : Sems sig S_).sem

abbrev yzS : Sem sig := cc0_scratch7.sem
abbrev inS0 : DmaSem sig := ((cc0_scratch5.slice (Rect.unit (s := S3) ![0] S1.size inb_S3_S1_0)).squeeze S_ squeezes_S1_S_).sem
abbrev inS1 : DmaSem sig := ((cc0_scratch5.slice (Rect.unit (s := S3) ![1] S1.size inb_S3_S1_1)).squeeze S_ squeezes_S1_S_).sem
abbrev inS2 : DmaSem sig := ((cc0_scratch5.slice (Rect.unit (s := S3) ![2] S1.size inb_S3_S1_2)).squeeze S_ squeezes_S1_S_).sem
abbrev outS0 : DmaSem sig := ((cc0_scratch6.slice (Rect.unit (s := S5) ![0] S1.size inb_S5_S1_0)).squeeze S_ squeezes_S1_S_).sem
abbrev outS1 : DmaSem sig := ((cc0_scratch6.slice (Rect.unit (s := S5) ![1] S1.size inb_S5_S1_1)).squeeze S_ squeezes_S1_S_).sem
abbrev outS2 : DmaSem sig := ((cc0_scratch6.slice (Rect.unit (s := S5) ![2] S1.size inb_S5_S1_2)).squeeze S_ squeezes_S1_S_).sem
abbrev outS3 : DmaSem sig := ((cc0_scratch6.slice (Rect.unit (s := S5) ![3] S1.size inb_S5_S1_3)).squeeze S_ squeezes_S1_S_).sem
abbrev outS4 : DmaSem sig := ((cc0_scratch6.slice (Rect.unit (s := S5) ![4] S1.size inb_S5_S1_4)).squeeze S_ squeezes_S1_S_).sem
abbrev p1sS0 : DmaSem sig := ((cc0_scratch8.slice (Rect.unit (s := S10) ![0] S1.size inb_S10_S1_0)).squeeze S_ squeezes_S1_S_).sem
abbrev p1sS1 : DmaSem sig := ((cc0_scratch8.slice (Rect.unit (s := S10) ![1] S1.size inb_S10_S1_1)).squeeze S_ squeezes_S1_S_).sem
abbrev p1sS2 : DmaSem sig := ((cc0_scratch8.slice (Rect.unit (s := S10) ![2] S1.size inb_S10_S1_2)).squeeze S_ squeezes_S1_S_).sem
abbrev p1sS3 : DmaSem sig := ((cc0_scratch8.slice (Rect.unit (s := S10) ![3] S1.size inb_S10_S1_3)).squeeze S_ squeezes_S1_S_).sem
abbrev p1sS4 : DmaSem sig := ((cc0_scratch8.slice (Rect.unit (s := S10) ![4] S1.size inb_S10_S1_4)).squeeze S_ squeezes_S1_S_).sem
abbrev p1sS5 : DmaSem sig := ((cc0_scratch8.slice (Rect.unit (s := S10) ![5] S1.size inb_S10_S1_5)).squeeze S_ squeezes_S1_S_).sem
abbrev p1sS6 : DmaSem sig := ((cc0_scratch8.slice (Rect.unit (s := S10) ![6] S1.size inb_S10_S1_6)).squeeze S_ squeezes_S1_S_).sem
abbrev p1sS7 : DmaSem sig := ((cc0_scratch8.slice (Rect.unit (s := S10) ![7] S1.size inb_S10_S1_7)).squeeze S_ squeezes_S1_S_).sem
abbrev p1sS8 : DmaSem sig := ((cc0_scratch8.slice (Rect.unit (s := S10) ![8] S1.size inb_S10_S1_8)).squeeze S_ squeezes_S1_S_).sem
abbrev p1sS9 : DmaSem sig := ((cc0_scratch8.slice (Rect.unit (s := S10) ![9] S1.size inb_S10_S1_9)).squeeze S_ squeezes_S1_S_).sem
abbrev p1rS0 : DmaSem sig := ((cc0_scratch9.slice (Rect.unit (s := S10) ![0] S1.size inb_S10_S1_0)).squeeze S_ squeezes_S1_S_).sem
abbrev p1rS1 : DmaSem sig := ((cc0_scratch9.slice (Rect.unit (s := S10) ![1] S1.size inb_S10_S1_1)).squeeze S_ squeezes_S1_S_).sem
abbrev p1rS2 : DmaSem sig := ((cc0_scratch9.slice (Rect.unit (s := S10) ![2] S1.size inb_S10_S1_2)).squeeze S_ squeezes_S1_S_).sem
abbrev p1rS3 : DmaSem sig := ((cc0_scratch9.slice (Rect.unit (s := S10) ![3] S1.size inb_S10_S1_3)).squeeze S_ squeezes_S1_S_).sem
abbrev p1rS4 : DmaSem sig := ((cc0_scratch9.slice (Rect.unit (s := S10) ![4] S1.size inb_S10_S1_4)).squeeze S_ squeezes_S1_S_).sem
abbrev p1rS5 : DmaSem sig := ((cc0_scratch9.slice (Rect.unit (s := S10) ![5] S1.size inb_S10_S1_5)).squeeze S_ squeezes_S1_S_).sem
abbrev p1rS6 : DmaSem sig := ((cc0_scratch9.slice (Rect.unit (s := S10) ![6] S1.size inb_S10_S1_6)).squeeze S_ squeezes_S1_S_).sem
abbrev p1rS7 : DmaSem sig := ((cc0_scratch9.slice (Rect.unit (s := S10) ![7] S1.size inb_S10_S1_7)).squeeze S_ squeezes_S1_S_).sem
abbrev p1rS8 : DmaSem sig := ((cc0_scratch9.slice (Rect.unit (s := S10) ![8] S1.size inb_S10_S1_8)).squeeze S_ squeezes_S1_S_).sem
abbrev p1rS9 : DmaSem sig := ((cc0_scratch9.slice (Rect.unit (s := S10) ![9] S1.size inb_S10_S1_9)).squeeze S_ squeezes_S1_S_).sem
abbrev p2sS0 : DmaSem sig := ((cc0_scratch10.slice (Rect.unit (s := S6) ![0] S1.size inb_S6_S1_0)).squeeze S_ squeezes_S1_S_).sem
abbrev p2sS1 : DmaSem sig := ((cc0_scratch10.slice (Rect.unit (s := S6) ![1] S1.size inb_S6_S1_1)).squeeze S_ squeezes_S1_S_).sem
abbrev p2sS2 : DmaSem sig := ((cc0_scratch10.slice (Rect.unit (s := S6) ![2] S1.size inb_S6_S1_2)).squeeze S_ squeezes_S1_S_).sem
abbrev p2sS3 : DmaSem sig := ((cc0_scratch10.slice (Rect.unit (s := S6) ![3] S1.size inb_S6_S1_3)).squeeze S_ squeezes_S1_S_).sem
abbrev p2sS4 : DmaSem sig := ((cc0_scratch10.slice (Rect.unit (s := S6) ![4] S1.size inb_S6_S1_4)).squeeze S_ squeezes_S1_S_).sem
abbrev p2sS5 : DmaSem sig := ((cc0_scratch10.slice (Rect.unit (s := S6) ![5] S1.size inb_S6_S1_5)).squeeze S_ squeezes_S1_S_).sem
abbrev p2rS0 : DmaSem sig := ((cc0_scratch11.slice (Rect.unit (s := S6) ![0] S1.size inb_S6_S1_0)).squeeze S_ squeezes_S1_S_).sem
abbrev p2rS1 : DmaSem sig := ((cc0_scratch11.slice (Rect.unit (s := S6) ![1] S1.size inb_S6_S1_1)).squeeze S_ squeezes_S1_S_).sem
abbrev p2rS2 : DmaSem sig := ((cc0_scratch11.slice (Rect.unit (s := S6) ![2] S1.size inb_S6_S1_2)).squeeze S_ squeezes_S1_S_).sem
abbrev p2rS3 : DmaSem sig := ((cc0_scratch11.slice (Rect.unit (s := S6) ![3] S1.size inb_S6_S1_3)).squeeze S_ squeezes_S1_S_).sem
abbrev p2rS4 : DmaSem sig := ((cc0_scratch11.slice (Rect.unit (s := S6) ![4] S1.size inb_S6_S1_4)).squeeze S_ squeezes_S1_S_).sem
abbrev p2rS5 : DmaSem sig := ((cc0_scratch11.slice (Rect.unit (s := S6) ![5] S1.size inb_S6_S1_5)).squeeze S_ squeezes_S1_S_).sem

end Cert.Kernel.Proto

end
-- ==== Proof.Bits.Vals.lean ====
import proofs.«900598_g7700000000000599_dist_rsrms_v7x_xyz2x2x2_x_m512_d512_f32_1_alg».proof.Proof.Bits.Base

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

-- The values that travel: the half to send, the half kept and the scale vector; then, chunk by chunk, what is sent, received, kept and computed.
def SND (c : Dev nD) : Vec F S512x512 .f32 := (srcSend c).view.read (Elt F) (m ((c : Thread nD τ).loc main_arg0))

def LOC (c : Dev nD) : Vec F S512x512 .f32 := (srcLoc c).view.read (Elt F) (m ((c : Thread nD τ).loc main_arg0))

def GV (c : Dev nD) : Vec F S512 .f32 := a1M.view.read (Elt F) (m ((c : Thread nD τ).loc main_arg1))

def sndv0 (c : Dev nD) : Vec F S48x512 .f32 := (sndSl0 c).view.read (Elt F) (SND m c)
def rcv0 (c : Dev nD) : Vec F S48x512 .f32 := sndv0 m (xp c)
def kept0 (c : Dev nD) : Vec F S48x512 .f32 := locM.view.readAt (Elt F) (Rect.unit (s := S512x512) (k0_off8 c 0#32) S48x512.size (k0_off8_inb c 0)).toLoadRect (LOC m c)
def val0 (c : Dev nD) : Vec F S48x512 .f32 := k0_pay1 (kept0 m c) (rcv0 m c) (GV m c)

def sndv1 (c : Dev nD) : Vec F S48x512 .f32 := (sndSl1 c).view.read (Elt F) (SND m c)
def rcv1 (c : Dev nD) : Vec F S48x512 .f32 := sndv1 m (xp c)
def kept1 (c : Dev nD) : Vec F S48x512 .f32 := locM.view.readAt (Elt F) (Rect.unit (s := S512x512) (k0_off8 c 128#32) S48x512.size (k0_off8_inb c 1)).toLoadRect (LOC m c)
def val1 (c : Dev nD) : Vec F S48x512 .f32 := k0_pay2 (kept1 m c) (rcv1 m c) (GV m c)

def sndv2 (c : Dev nD) : Vec F S40x512 .f32 := (sndSl2 c).view.read (Elt F) (SND m c)
def rcv2 (c : Dev nD) : Vec F S40x512 .f32 := sndv2 m (xp c)
def kept2 (c : Dev nD) : Vec F S40x512 .f32 := locM.view.readAt (Elt F) (Rect.unit (s := S512x512) (k0_off9 c 48#32) S40x512.size (k0_off9_inb c 0)).toLoadRect (LOC m c)
def val2 (c : Dev nD) : Vec F S40x512 .f32 := k0_pay3 (kept2 m c) (rcv2 m c) (GV m c)

def sndv3 (c : Dev nD) : Vec F S40x512 .f32 := (sndSl3 c).view.read (Elt F) (SND m c)
def rcv3 (c : Dev nD) : Vec F S40x512 .f32 := sndv3 m (xp c)
def kept3 (c : Dev nD) : Vec F S40x512 .f32 := locM.view.readAt (Elt F) (Rect.unit (s := S512x512) (k0_off9 c 176#32) S40x512.size (k0_off9_inb c 1)).toLoadRect (LOC m c)
def val3 (c : Dev nD) : Vec F S40x512 .f32 := k0_pay7 (k0_pay4 (kept3 m c) (rcv3 m c)) (k0_pay5 (kept3 m c) (rcv3 m c)) k0_pay6 (GV m c)

def sndv4 (c : Dev nD) : Vec F S16x512 .f32 := (sndSl4 c).view.read (Elt F) (SND m c)
def rcv4 (c : Dev nD) : Vec F S16x512 .f32 := sndv4 m (xp c)
def kept4 (c : Dev nD) : Vec F S16x512 .f32 := locM.view.readAt (Elt F) (Rect.unit (s := S512x512) (k0_off10 c 88#32) S16x512.size (k0_off10_inb c 0)).toLoadRect (LOC m c)
def val4 (c : Dev nD) : Vec F S16x512 .f32 := k0_pay8 (kept4 m c) (rcv4 m c) (GV m c)

def sndv5 (c : Dev nD) : Vec F S16x512 .f32 := (sndSl5 c).view.read (Elt F) (SND m c)
def rcv5 (c : Dev nD) : Vec F S16x512 .f32 := sndv5 m (xp c)
def kept5 (c : Dev nD) : Vec F S16x512 .f32 := locM.view.readAt (Elt F) (Rect.unit (s := S512x512) (k0_off10 c 216#32) S16x512.size (k0_off10_inb c 1)).toLoadRect (LOC m c)
def val5 (c : Dev nD) : Vec F S16x512 .f32 := k0_pay9 (kept5 m c) (rcv5 m c) (GV m c)

def sndv6 (c : Dev nD) : Vec F S24x512 .f32 := (sndSl6 c).view.read (Elt F) (SND m c)
def rcv6 (c : Dev nD) : Vec F S24x512 .f32 := sndv6 m (xp c)
def kept6 (c : Dev nD) : Vec F S24x512 .f32 := locM.view.readAt (Elt F) (Rect.unit (s := S512x512) (k0_off11 c 104#32) S24x512.size (k0_off11_inb c 0)).toLoadRect (LOC m c)
def val6 (c : Dev nD) : Vec F S24x512 .f32 := k0_pay11 (k0_pay10 (kept6 m c) (rcv6 m c) (GV m c))

def sndv7 (c : Dev nD) : Vec F S24x512 .f32 := (sndSl7 c).view.read (Elt F) (SND m c)
def rcv7 (c : Dev nD) : Vec F S24x512 .f32 := sndv7 m (xp c)
def kept7 (c : Dev nD) : Vec F S24x512 .f32 := locM.view.readAt (Elt F) (Rect.unit (s := S512x512) (k0_off11 c 232#32) S24x512.size (k0_off11_inb c 1)).toLoadRect (LOC m c)
def val7 (c : Dev nD) : Vec F S24x512 .f32 := k0_pay12 (kept7 m c) (rcv7 m c) (GV m c)

def sndv8 (c : Dev nD) : Vec F S24x512 .f32 := (sndSl8 c).view.read (Elt F) (SND m c)
def rcv8 (c : Dev nD) : Vec F S24x512 .f32 := sndv8 m (xp c)
def kept8 (c : Dev nD) : Vec F S24x512 .f32 := locM.view.readAt (Elt F) (Rect.unit (s := S512x512) (k0_off12 c 104#32) S24x512.size (k0_off12_inb c 0)).toLoadRect (LOC m c)
def val8 (c : Dev nD) : Vec F S24x512 .f32 := k0_pay13 (kept8 m c) (rcv8 m c) (GV m c)

def sndv9 (c : Dev nD) : Vec F S24x512 .f32 := (sndSl9 c).view.read (Elt F) (SND m c)
def rcv9 (c : Dev nD) : Vec F S24x512 .f32 := sndv9 m (xp c)
def kept9 (c : Dev nD) : Vec F S24x512 .f32 := locM.view.readAt (Elt F) (Rect.unit (s := S512x512) (k0_off12 c 232#32) S24x512.size (k0_off12_inb c 1)).toLoadRect (LOC m c)
def val9 (c : Dev nD) : Vec F S24x512 .f32 := k0_pay14 (kept9 m c) (rcv9 m c) (GV m c)

end Cert.Kernel.Proto

end
-- ==== Proof.Bits.Proto.lean ====
import proofs.«900598_g7700000000000599_dist_rsrms_v7x_xyz2x2x2_x_m512_d512_f32_1_alg».proof.Proof.Bits.Vals

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev barCell (c : Dev nD) : GSem nD τ sig := ((c : Thread nD τ), .reg barS)
abbrev yzCell (c : Dev nD) : GSem nD τ sig := ((c : Thread nD τ), .reg yzS)
abbrev dcell (c : Dev nD) (s : DmaSem sig) : GSem nD τ sig := ((c : Thread nD τ), .dma s)

abbrev N48 : ℕ := (cmSl0 : Memref sig .tc .vmem S48x512 .f32).view.dmaCredit
abbrev N40 : ℕ := (cmSl2 : Memref sig .tc .vmem S40x512 .f32).view.dmaCredit
abbrev N16 : ℕ := (cmSl4 : Memref sig .tc .vmem S16x512 .f32).view.dmaCredit
abbrev N24 : ℕ := (cmSl6 : Memref sig .tc .vmem S24x512 .f32).view.dmaCredit
theorem N48_pos : 0 < N48 := View.dmaCredit_pos _ (by decide)
theorem N40_pos : 0 < N40 := View.dmaCredit_pos _ (by decide)
theorem N16_pos : 0 < N16 := View.dmaCredit_pos _ (by decide)
theorem N24_pos : 0 < N24 := View.dmaCredit_pos _ (by decide)

def dmaAmt (s : ℕ) : ℕ := match s with
  | 8 | 9 | 18 | 19 | 28 | 29 | 34 | 35 => N48
  | 10 | 11 | 20 | 21 | 30 | 31 | 36 | 37 => N40
  | 12 | 13 | 22 | 23 | 32 | 33 | 38 | 39 => N16
  | _ => N24
theorem dmaAmt_pos (s : ℕ) : 0 < dmaAmt s := by
  unfold dmaAmt; split <;> first | exact N48_pos | exact N40_pos | exact N16_pos | exact N24_pos

-- What each signal and each copy hands its receiver.
def barPay (c : Dev nD) : sProp 𝕄 :=
  iprop((∃ f, (cmM : Memref sig .tc .vmem S304x512 .f32).view.loc (xp c : Thread nD τ) ↦[(cmM : Memref sig .tc .vmem S304x512 .f32).view.set]{fullShare} f)
    ∗ reached ER (dcell (xp c) p1rS0) 0 ∗ reached ER (dcell (xp c) p1rS1) 0 ∗ reached ER (dcell (xp c) p1rS2) 0 ∗ reached ER (dcell (xp c) p1rS3) 0 ∗ reached ER (dcell (xp c) p1rS4) 0 ∗ reached ER (dcell (xp c) p1rS5) 0 ∗ reached ER (dcell (xp c) p1rS6) 0 ∗ reached ER (dcell (xp c) p1rS7) 0 ∗ reached ER (dcell (xp c) p1rS8) 0 ∗ reached ER (dcell (xp c) p1rS9) 0)

def yPay (c : Dev nD) : sProp 𝕄 :=
  iprop((∃ f, (ovO3 (yp c)).view.loc (yp c : Thread nD τ) ↦[(ovO3 (yp c)).view.set]{fullShare} f)
    ∗ reached ER (dcell (yp c) p2rS0) 0 ∗ reached ER (dcell (yp c) p2rS2) 0 ∗ reached ER (dcell (yp c) p2rS4) 0)

def zPay (c : Dev nD) : sProp 𝕄 :=
  iprop((∃ f, (ovO4 (zp c)).view.loc (zp c : Thread nD τ) ↦[(ovO4 (zp c)).view.set]{fullShare} f)
    ∗ reached ER (dcell (zp c) p2rS1) 0 ∗ reached ER (dcell (zp c) p2rS3) 0 ∗ reached ER (dcell (zp c) p2rS5) 0)

def p1sPay0 (c : Dev nD) : sProp 𝕄 :=
  (sndSl0 c).view.loc (c : Thread nD τ) ↦[(sndSl0 c).view.set]{fullShare} ((sndSl0 c).view.write (Elt F) (m ((c : Thread nD τ).loc cc0_scratch0)) (sndv0 m c) Finset.univ)
def p1rPay0 (c : Dev nD) : sProp 𝕄 :=
  cmSl0.view.loc (c : Thread nD τ) ↦[cmSl0.view.set]{fullShare} (cmSl0.view.write (Elt F) (m ((c : Thread nD τ).loc cc0_scratch4)) (rcv0 m c) Finset.univ)
def p2sPay0 (c : Dev nD) : sProp 𝕄 :=
  (ovSl0 c).view.loc (c : Thread nD τ) ↦[(ovSl0 c).view.set]{fullShare.left} ((ovSl0 c).view.write (Elt F) (m ((c : Thread nD τ).loc cc0_scratch3)) (val0 m c) Finset.univ)
def p2rPay0 (c : Dev nD) : sProp 𝕄 :=
  (ovSl0 (yp c)).view.loc (c : Thread nD τ) ↦[(ovSl0 (yp c)).view.set]{fullShare} ((ovSl0 (yp c)).view.write (Elt F) (m ((c : Thread nD τ).loc cc0_scratch3)) (val0 m (yp c)) Finset.univ)

def p1sPay1 (c : Dev nD) : sProp 𝕄 :=
  (sndSl1 c).view.loc (c : Thread nD τ) ↦[(sndSl1 c).view.set]{fullShare} ((sndSl1 c).view.write (Elt F) (m ((c : Thread nD τ).loc cc0_scratch0)) (sndv1 m c) Finset.univ)
def p1rPay1 (c : Dev nD) : sProp 𝕄 :=
  cmSl1.view.loc (c : Thread nD τ) ↦[cmSl1.view.set]{fullShare} (cmSl1.view.write (Elt F) (m ((c : Thread nD τ).loc cc0_scratch4)) (rcv1 m c) Finset.univ)
def p2sPay1 (c : Dev nD) : sProp 𝕄 :=
  (ovSl1 c).view.loc (c : Thread nD τ) ↦[(ovSl1 c).view.set]{fullShare.left} ((ovSl1 c).view.write (Elt F) (m ((c : Thread nD τ).loc cc0_scratch3)) (val1 m c) Finset.univ)
def p2rPay1 (c : Dev nD) : sProp 𝕄 :=
  (ovSl1 (zp c)).view.loc (c : Thread nD τ) ↦[(ovSl1 (zp c)).view.set]{fullShare} ((ovSl1 (zp c)).view.write (Elt F) (m ((c : Thread nD τ).loc cc0_scratch3)) (val1 m (zp c)) Finset.univ)

def p1sPay2 (c : Dev nD) : sProp 𝕄 :=
  (sndSl2 c).view.loc (c : Thread nD τ) ↦[(sndSl2 c).view.set]{fullShare} ((sndSl2 c).view.write (Elt F) (m ((c : Thread nD τ).loc cc0_scratch0)) (sndv2 m c) Finset.univ)
def p1rPay2 (c : Dev nD) : sProp 𝕄 :=
  cmSl2.view.loc (c : Thread nD τ) ↦[cmSl2.view.set]{fullShare} (cmSl2.view.write (Elt F) (m ((c : Thread nD τ).loc cc0_scratch4)) (rcv2 m c) Finset.univ)
def p2sPay2 (c : Dev nD) : sProp 𝕄 :=
  (ovSl2 c).view.loc (c : Thread nD τ) ↦[(ovSl2 c).view.set]{fullShare.left} ((ovSl2 c).view.write (Elt F) (m ((c : Thread nD τ).loc cc0_scratch3)) (val2 m c) Finset.univ)
def p2rPay2 (c : Dev nD) : sProp 𝕄 :=
  (ovSl2 (yp c)).view.loc (c : Thread nD τ) ↦[(ovSl2 (yp c)).view.set]{fullShare} ((ovSl2 (yp c)).view.write (Elt F) (m ((c : Thread nD τ).loc cc0_scratch3)) (val2 m (yp c)) Finset.univ)

def p1sPay3 (c : Dev nD) : sProp 𝕄 :=
  (sndSl3 c).view.loc (c : Thread nD τ) ↦[(sndSl3 c).view.set]{fullShare} ((sndSl3 c).view.write (Elt F) (m ((c : Thread nD τ).loc cc0_scratch0)) (sndv3 m c) Finset.univ)
def p1rPay3 (c : Dev nD) : sProp 𝕄 :=
  cmSl3.view.loc (c : Thread nD τ) ↦[cmSl3.view.set]{fullShare} (cmSl3.view.write (Elt F) (m ((c : Thread nD τ).loc cc0_scratch4)) (rcv3 m c) Finset.univ)
def p2sPay3 (c : Dev nD) : sProp 𝕄 :=
  (ovSl3 c).view.loc (c : Thread nD τ) ↦[(ovSl3 c).view.set]{fullShare.left} ((ovSl3 c).view.write (Elt F) (m ((c : Thread nD τ).loc cc0_scratch3)) (val3 m c) Finset.univ)
def p2rPay3 (c : Dev nD) : sProp 𝕄 :=
  (ovSl3 (zp c)).view.loc (c : Thread nD τ) ↦[(ovSl3 (zp c)).view.set]{fullShare} ((ovSl3 (zp c)).view.write (Elt F) (m ((c : Thread nD τ).loc cc0_scratch3)) (val3 m (zp c)) Finset.univ)

def p1sPay4 (c : Dev nD) : sProp 𝕄 :=
  (sndSl4 c).view.loc (c : Thread nD τ) ↦[(sndSl4 c).view.set]{fullShare} ((sndSl4 c).view.write (Elt F) (m ((c : Thread nD τ).loc cc0_scratch0)) (sndv4 m c) Finset.univ)
def p1rPay4 (c : Dev nD) : sProp 𝕄 :=
  cmSl4.view.loc (c : Thread nD τ) ↦[cmSl4.view.set]{fullShare} (cmSl4.view.write (Elt F) (m ((c : Thread nD τ).loc cc0_scratch4)) (rcv4 m c) Finset.univ)
def p2sPay4 (c : Dev nD) : sProp 𝕄 :=
  (ovSl4 c).view.loc (c : Thread nD τ) ↦[(ovSl4 c).view.set]{fullShare.left} ((ovSl4 c).view.write (Elt F) (m ((c : Thread nD τ).loc cc0_scratch3)) (val4 m c) Finset.univ)
def p2rPay4 (c : Dev nD) : sProp 𝕄 :=
  (ovSl4 (yp c)).view.loc (c : Thread nD τ) ↦[(ovSl4 (yp c)).view.set]{fullShare} ((ovSl4 (yp c)).view.write (Elt F) (m ((c : Thread nD τ).loc cc0_scratch3)) (val4 m (yp c)) Finset.univ)

def p1sPay5 (c : Dev nD) : sProp 𝕄 :=
  (sndSl5 c).view.loc (c : Thread nD τ) ↦[(sndSl5 c).view.set]{fullShare} ((sndSl5 c).view.write (Elt F) (m ((c : Thread nD τ).loc cc0_scratch0)) (sndv5 m c) Finset.univ)
def p1rPay5 (c : Dev nD) : sProp 𝕄 :=
  cmSl5.view.loc (c : Thread nD τ) ↦[cmSl5.view.set]{fullShare} (cmSl5.view.write (Elt F) (m ((c : Thread nD τ).loc cc0_scratch4)) (rcv5 m c) Finset.univ)
def p2sPay5 (c : Dev nD) : sProp 𝕄 :=
  (ovSl5 c).view.loc (c : Thread nD τ) ↦[(ovSl5 c).view.set]{fullShare.left} ((ovSl5 c).view.write (Elt F) (m ((c : Thread nD τ).loc cc0_scratch3)) (val5 m c) Finset.univ)
def p2rPay5 (c : Dev nD) : sProp 𝕄 :=
  (ovSl5 (zp c)).view.loc (c : Thread nD τ) ↦[(ovSl5 (zp c)).view.set]{fullShare} ((ovSl5 (zp c)).view.write (Elt F) (m ((c : Thread nD τ).loc cc0_scratch3)) (val5 m (zp c)) Finset.univ)

def p1sPay6 (c : Dev nD) : sProp 𝕄 :=
  (sndSl6 c).view.loc (c : Thread nD τ) ↦[(sndSl6 c).view.set]{fullShare} ((sndSl6 c).view.write (Elt F) (m ((c : Thread nD τ).loc cc0_scratch0)) (sndv6 m c) Finset.univ)
def p1rPay6 (c : Dev nD) : sProp 𝕄 :=
  cmSl6.view.loc (c : Thread nD τ) ↦[cmSl6.view.set]{fullShare} (cmSl6.view.write (Elt F) (m ((c : Thread nD τ).loc cc0_scratch4)) (rcv6 m c) Finset.univ)

def p1sPay7 (c : Dev nD) : sProp 𝕄 :=
  (sndSl7 c).view.loc (c : Thread nD τ) ↦[(sndSl7 c).view.set]{fullShare} ((sndSl7 c).view.write (Elt F) (m ((c : Thread nD τ).loc cc0_scratch0)) (sndv7 m c) Finset.univ)
def p1rPay7 (c : Dev nD) : sProp 𝕄 :=
  cmSl7.view.loc (c : Thread nD τ) ↦[cmSl7.view.set]{fullShare} (cmSl7.view.write (Elt F) (m ((c : Thread nD τ).loc cc0_scratch4)) (rcv7 m c) Finset.univ)

def p1sPay8 (c : Dev nD) : sProp 𝕄 :=
  (sndSl8 c).view.loc (c : Thread nD τ) ↦[(sndSl8 c).view.set]{fullShare} ((sndSl8 c).view.write (Elt F) (m ((c : Thread nD τ).loc cc0_scratch0)) (sndv8 m c) Finset.univ)
def p1rPay8 (c : Dev nD) : sProp 𝕄 :=
  cmSl8.view.loc (c : Thread nD τ) ↦[cmSl8.view.set]{fullShare} (cmSl8.view.write (Elt F) (m ((c : Thread nD τ).loc cc0_scratch4)) (rcv8 m c) Finset.univ)

def p1sPay9 (c : Dev nD) : sProp 𝕄 :=
  (sndSl9 c).view.loc (c : Thread nD τ) ↦[(sndSl9 c).view.set]{fullShare} ((sndSl9 c).view.write (Elt F) (m ((c : Thread nD τ).loc cc0_scratch0)) (sndv9 m c) Finset.univ)
def p1rPay9 (c : Dev nD) : sProp 𝕄 :=
  cmSl9.view.loc (c : Thread nD τ) ↦[cmSl9.view.set]{fullShare} (cmSl9.view.write (Elt F) (m ((c : Thread nD τ).loc cc0_scratch4)) (rcv9 m c) Finset.univ)

def dmaPay (s : ℕ) (c : Dev nD) : sProp 𝕄 := match s with
  | 8 => p1sPay0 m c
  | 18 => p1rPay0 m c
  | 9 => p1sPay1 m c
  | 19 => p1rPay1 m c
  | 10 => p1sPay2 m c
  | 20 => p1rPay2 m c
  | 11 => p1sPay3 m c
  | 21 => p1rPay3 m c
  | 12 => p1sPay4 m c
  | 22 => p1rPay4 m c
  | 13 => p1sPay5 m c
  | 23 => p1rPay5 m c
  | 14 => p1sPay6 m c
  | 24 => p1rPay6 m c
  | 15 => p1sPay7 m c
  | 25 => p1rPay7 m c
  | 16 => p1sPay8 m c
  | 26 => p1rPay8 m c
  | 17 => p1sPay9 m c
  | 27 => p1rPay9 m c
  | 28 => p2sPay0 m c
  | 34 => p2rPay0 m c
  | 29 => p2sPay1 m c
  | 35 => p2rPay1 m c
  | 30 => p2sPay2 m c
  | 36 => p2rPay2 m c
  | 31 => p2sPay3 m c
  | 37 => p2rPay3 m c
  | 32 => p2sPay4 m c
  | 38 => p2rPay4 m c
  | 33 => p2sPay5 m c
  | 39 => p2rPay5 m c
  | _ => iprop(emp)

def Rd : Rounds.Schedule (GSem nD τ sig) Bool 𝕄 where
  duties g r := if r = 0 ∧ g.1.2 = .tc then
      (match g.2 with
        | .reg s => if s = barS then {false} else if s = yzS then Finset.univ else ∅
        | .dma s => if 8 ≤ s.val then {false} else ∅)
    else ∅
  unitless _ := False
  amount g _ _ := match g.2 with
    | .reg _ => 1
    | .dma s => dmaAmt s.val
  payload g _ d := match g.2 with
    | .reg s => if s = barS then barPay g.1.1 else if s = yzS then (if d then zPay g.1.1 else yPay g.1.1) else iprop(emp)
    | .dma s => dmaPay m s.val g.1.1
  amount_pos g _ _ _ := by
    cases g.2 with
    | reg _ => exact Nat.one_pos
    | dma s => exact dmaAmt_pos _

example (c : Dev nD) : (ovSl0 c).view.amount (.dma p2rS0) = N48 := rfl
example (c : Dev nD) : (cmSl0 : Memref sig .tc .vmem S48x512 .f32).view.amount (.dma p1rS0) = N48 := rfl
example : p1sS3.val = 11 := by decide

end Cert.Kernel.Proto

end
-- ==== Proof.Bits.Tables.lean ====
import proofs.«900598_g7700000000000599_dist_rsrms_v7x_xyz2x2x2_x_m512_d512_f32_1_alg».proof.Proof.Bits.Proto

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

theorem yz_ne_bar : (yzS : Sem sig) ≠ barS := by decide

-- The schedule read off cell by cell: one round each, who pays it, how much, and what it hands over.
theorem duties_bar : (Rd (F := F) m).duties (barCell c) 0 = {false} := by
  dsimp only [Rd]; rw [if_pos ⟨rfl, rfl⟩]; exact if_pos rfl
theorem duties_yz : (Rd (F := F) m).duties (yzCell c) 0 = Finset.univ := by
  dsimp only [Rd]; rw [if_pos ⟨rfl, rfl⟩, if_neg yz_ne_bar, if_pos rfl]
theorem duties_dma (s : DmaSem sig) (h : 8 ≤ s.val) : (Rd (F := F) m).duties (dcell c s) 0 = {false} := by
  dsimp only [Rd]; rw [if_pos ⟨rfl, rfl⟩]; exact if_pos h
theorem duties_later (g : GSem nD τ sig) : ∀ r, 1 ≤ r → (Rd (F := F) m).duties g r = ∅ :=
  fun r hr => by dsimp only [Rd]; rw [if_neg fun h => by omega]

theorem amount_bar (d : Bool) : (Rd (F := F) m).amount (barCell c) 0 d = 1 := rfl
theorem amount_yz (d : Bool) : (Rd (F := F) m).amount (yzCell c) 0 d = 1 := rfl
theorem amount_dma (s : DmaSem sig) (d : Bool) : (Rd (F := F) m).amount (dcell c s) 0 d = dmaAmt s.val := rfl

theorem expect_bar : (Rd (F := F) m).expect (barCell c) 0 = 1 := by
  unfold Schedule.expect Schedule.amountOf; rw [duties_bar, Finset.sum_singleton, amount_bar]
theorem expect_yz : (Rd (F := F) m).expect (yzCell c) 0 = 2 := by
  unfold Schedule.expect Schedule.amountOf
  rw [duties_yz, Finset.sum_congr rfl fun d _ => amount_yz m c d, Finset.sum_const, Finset.card_univ, Fintype.card_bool, smul_eq_mul]
theorem expect_dma (s : DmaSem sig) (h : 8 ≤ s.val) : (Rd (F := F) m).expect (dcell c s) 0 = dmaAmt s.val := by
  unfold Schedule.expect Schedule.amountOf; rw [duties_dma m c s h, Finset.sum_singleton, amount_dma]

theorem payload_bar (d : Bool) : (Rd m).payload (barCell c) 0 d = barPay c := by dsimp only [Rd]; exact if_pos rfl
theorem payload_yz_false : (Rd m).payload (yzCell c) 0 false = yPay c := by
  dsimp only [Rd]; rw [if_neg yz_ne_bar, if_pos rfl]; rfl
theorem payload_yz_true : (Rd m).payload (yzCell c) 0 true = zPay c := by
  dsimp only [Rd]; rw [if_neg yz_ne_bar, if_pos rfl]; rfl
theorem payload_dma (s : DmaSem sig) (d : Bool) : (Rd m).payload (dcell c s) 0 d = dmaPay m s.val c := rfl

theorem rest_bar : bigSep ((Rd m).duties (barCell c) 0 \ ∅) (fun d => (Rd m).payload (barCell c) 0 d) = barPay c := by
  rw [Finset.sdiff_empty, duties_bar, bigSep_singleton, payload_bar]
theorem rest_yz : bigSep ((Rd m).duties (yzCell c) 0 \ ∅) (fun d => (Rd m).payload (yzCell c) 0 d) = iprop(yPay c ∗ zPay c) := by
  rw [Finset.sdiff_empty, duties_yz, bigSep_univ_eq_bigSepL [false, true] (by decide) (by decide), bigSepL_cons_cons, bigSepL_singleton,
    payload_yz_false, payload_yz_true]
  rfl
theorem rest_dma (s : DmaSem sig) (h : 8 ≤ s.val) :
    bigSep ((Rd m).duties (dcell c s) 0 \ ∅) (fun d => (Rd m).payload (dcell c s) 0 d) = dmaPay m s.val c := by
  rw [Finset.sdiff_empty, duties_dma m c s h, bigSep_singleton, payload_dma]

end Cert.Kernel.Proto

end
-- ==== Proof.Bits.OutSpec.lean ====
import proofs.«900598_g7700000000000599_dist_rsrms_v7x_xyz2x2x2_x_m512_d512_f32_1_alg».proof.Proof.Bits.Vals

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

abbrev outSl0 (d : Dev nD) : Memref sig .tc .hbm S48x512 .f32 := outM.slice (Rect.unit (s := S512x512) (k0_off3 d 0#32) S48x512.size (k0_off3_inb d 0)) (fun _ => rfl)

abbrev outSl1 (d : Dev nD) : Memref sig .tc .hbm S48x512 .f32 := outM.slice (Rect.unit (s := S512x512) (k0_off3 d 128#32) S48x512.size (k0_off3_inb d 1)) (fun _ => rfl)

abbrev outSl2 (d : Dev nD) : Memref sig .tc .hbm S40x512 .f32 := outM.slice (Rect.unit (s := S512x512) (k0_off4 d 48#32) S40x512.size (k0_off4_inb d 0)) (fun _ => rfl)

abbrev outSl3 (d : Dev nD) : Memref sig .tc .hbm S40x512 .f32 := outM.slice (Rect.unit (s := S512x512) (k0_off4 d 176#32) S40x512.size (k0_off4_inb d 1)) (fun _ => rfl)

abbrev outSl4 (d : Dev nD) : Memref sig .tc .hbm S16x512 .f32 := outM.slice (Rect.unit (s := S512x512) (k0_off5 d 88#32) S16x512.size (k0_off5_inb d 0)) (fun _ => rfl)

abbrev outSl5 (d : Dev nD) : Memref sig .tc .hbm S16x512 .f32 := outM.slice (Rect.unit (s := S512x512) (k0_off5 d 216#32) S16x512.size (k0_off5_inb d 1)) (fun _ => rfl)

abbrev outSl6 (d : Dev nD) : Memref sig .tc .hbm S24x512 .f32 := outM.slice (Rect.unit (s := S512x512) (k0_off6 d 104#32) S24x512.size (k0_off6_inb d 0)) (fun _ => rfl)

abbrev outSl7 (d : Dev nD) : Memref sig .tc .hbm S24x512 .f32 := outM.slice (Rect.unit (s := S512x512) (k0_off6 d 232#32) S24x512.size (k0_off6_inb d 1)) (fun _ => rfl)

abbrev outSl8 (d : Dev nD) : Memref sig .tc .hbm S24x512 .f32 := outM.slice (Rect.unit (s := S512x512) (k0_off7 d 104#32) S24x512.size (k0_off7_inb d 0)) (fun _ => rfl)

abbrev outSl9 (d : Dev nD) : Memref sig .tc .hbm S24x512 .f32 := outM.slice (Rect.unit (s := S512x512) (k0_off7 d 232#32) S24x512.size (k0_off7_inb d 1)) (fun _ => rfl)

-- The result array chunk by chunk: the device's own chunks as it computes them, the others as the neighbours across the other two axes compute them.
structure OutSpec (c : Dev nD) (OUT : Buf (Elt F) ((c : Thread nD τ).loc main_v1)) : Prop where
  own0 : (outSl0 c).view.read (Elt F) OUT = val0 m c
  own1 : (outSl1 c).view.read (Elt F) OUT = val1 m c
  own2 : (outSl2 c).view.read (Elt F) OUT = val2 m c
  own3 : (outSl3 c).view.read (Elt F) OUT = val3 m c
  own4 : (outSl4 c).view.read (Elt F) OUT = val4 m c
  own5 : (outSl5 c).view.read (Elt F) OUT = val5 m c
  own6 : (outSl6 c).view.read (Elt F) OUT = val6 m c
  own7 : (outSl7 c).view.read (Elt F) OUT = val7 m c
  own8 : (outSl8 c).view.read (Elt F) OUT = val8 m c
  own9 : (outSl9 c).view.read (Elt F) OUT = val9 m c
  got0 : (outSl0 (yp c)).view.read (Elt F) OUT = val0 m (yp c)
  got1 : (outSl1 (zp c)).view.read (Elt F) OUT = val1 m (zp c)
  got2 : (outSl2 (yp c)).view.read (Elt F) OUT = val2 m (yp c)
  got3 : (outSl3 (zp c)).view.read (Elt F) OUT = val3 m (zp c)
  got4 : (outSl4 (yp c)).view.read (Elt F) OUT = val4 m (yp c)
  got5 : (outSl5 (zp c)).view.read (Elt F) OUT = val5 m (zp c)

end Cert.Kernel.Proto

end
-- ==== Proof.Bits.Start.lean ====
import proofs.«900598_g7700000000000599_dist_rsrms_v7x_xyz2x2x2_x_m512_d512_f32_1_alg».proof.Proof.Bits.Tables
import proofs.«900598_g7700000000000599_dist_rsrms_v7x_xyz2x2x2_x_m512_d512_f32_1_alg».proof.Proof.Bits.OutSpec

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def owedList (c : Dev nD) : List (CellTallies nD τ sig Unit) :=
  [tallyAt (barCell (xp c)) () 1,
   tallyAt (yzCell (yp c)) () 1,
   tallyAt (yzCell (zp c)) () 1,
   tallyAt (dcell (xp c) p1rS0) () N48,
   tallyAt (dcell (xp c) p1rS1) () N48,
   tallyAt (dcell (xp c) p1rS2) () N40,
   tallyAt (dcell (xp c) p1rS3) () N40,
   tallyAt (dcell (xp c) p1rS4) () N16,
   tallyAt (dcell (xp c) p1rS5) () N16,
   tallyAt (dcell (xp c) p1rS6) () N24,
   tallyAt (dcell (xp c) p1rS7) () N24,
   tallyAt (dcell (xp c) p1rS8) () N24,
   tallyAt (dcell (xp c) p1rS9) () N24,
   tallyAt (dcell (yp c) p2rS0) () N48,
   tallyAt (dcell (zp c) p2rS1) () N48,
   tallyAt (dcell (yp c) p2rS2) () N40,
   tallyAt (dcell (zp c) p2rS3) () N40,
   tallyAt (dcell (yp c) p2rS4) () N16,
   tallyAt (dcell (zp c) p2rS5) () N16]

def owedAfter (n : ℕ) (c : Dev nD) : CellTallies nD τ sig Unit := ((owedList c).drop n).foldr (fun t acc => acc + t) 0
abbrev O₀ (c : Dev nD) : CellTallies nD τ sig Unit := owedAfter 0 c

example (c : Dev nD) : owedAfter 0 c = owedAfter 1 c + tallyAt (barCell (xp c)) () 1 := rfl
example (c : Dev nD) : owedAfter 19 c = 0 := rfl

def L (g : GSem nD τ sig) : Finset Unit := if g.1.2 = .tc then {()} else ∅
def lv (g : GSem nD τ sig) (_ : Unit) : ℕ := match g.2 with
  | .reg _ => 1
  | .dma s => if 34 ≤ s.val then 3 else if 18 ≤ s.val ∧ s.val < 28 then 2 else 0

theorem L_of_ne (g : GSem nD τ sig) (h : g.1.2 ≠ .tc) : L g = ∅ := if_neg h
theorem L_tc (c : Dev nD) (sm : SemLoc sig) : L ((c : Thread nD τ), sm) = {()} := if_pos rfl

def ownCells (c : Dev nD) : List (GSem nD τ sig) :=
  [barCell c, yzCell c, dcell c p1sS0, dcell c p1sS1, dcell c p1sS2, dcell c p1sS3, dcell c p1sS4, dcell c p1sS5, dcell c p1sS6, dcell c p1sS7, dcell c p1sS8, dcell c p1sS9, dcell c p1rS0, dcell c p1rS1, dcell c p1rS2, dcell c p1rS3, dcell c p1rS4, dcell c p1rS5, dcell c p1rS6, dcell c p1rS7, dcell c p1rS8, dcell c p1rS9, dcell c p2sS0, dcell c p2sS1, dcell c p2sS2, dcell c p2sS3, dcell c p2sS4, dcell c p2sS5, dcell c p2rS0, dcell c p2rS1, dcell c p2rS2, dcell c p2rS3, dcell c p2rS4, dcell c p2rS5]
def paidCells (c : Dev nD) : List (GSem nD τ sig) :=
  [barCell (xp c), yzCell (yp c), yzCell (zp c), dcell (xp c) p1rS0, dcell (xp c) p1rS1, dcell (xp c) p1rS2, dcell (xp c) p1rS3, dcell (xp c) p1rS4, dcell (xp c) p1rS5, dcell (xp c) p1rS6, dcell (xp c) p1rS7, dcell (xp c) p1rS8, dcell (xp c) p1rS9, dcell (yp c) p2rS0, dcell (zp c) p2rS1, dcell (yp c) p2rS2, dcell (zp c) p2rS3, dcell (yp c) p2rS4, dcell (zp c) p2rS5]

def knownCells (c : Dev nD) : List (GSem nD τ sig) :=
  [barCell (xp c), yzCell (yp c), yzCell (zp c), dcell c p1sS0, dcell c p1sS1, dcell c p1sS2, dcell c p1sS3, dcell c p1sS4, dcell c p1sS5, dcell c p1sS6, dcell c p1sS7, dcell c p1sS8, dcell c p1sS9, dcell c p2sS0, dcell c p2sS1, dcell c p2sS2, dcell c p2sS3, dcell c p2sS4, dcell c p2sS5,
   dcell c p1rS0, dcell c p1rS1, dcell c p1rS2, dcell c p1rS3, dcell c p1rS4, dcell c p1rS5, dcell c p1rS6, dcell c p1rS7, dcell c p1rS8, dcell c p1rS9, dcell c p2rS0, dcell c p2rS1, dcell c p2rS2, dcell c p2rS3, dcell c p2rS4, dcell c p2rS5]

def invs (K : GSem nD τ sig → ℕ) (c : Dev nD) : sProp 𝕄 :=
  bigSepL (ownCells c ++ paidCells c) fun g => cellInv ER (Rd m) (K g) g
def positions (c : Dev nD) : sProp 𝕄 := bigSepL (ownCells c) fun g => atPos ER g 0 ∅ 0
def known (c : Dev nD) : sProp 𝕄 := bigSepL (knownCells c) fun g => reached ER g 0

def payToks (c : Dev nD) : sProp 𝕄 :=
  iprop(dutyTok ER (barCell (xp c)) 0 false
    ∗ dutyTok ER (yzCell (yp c)) 0 false
    ∗ dutyTok ER (yzCell (zp c)) 0 true
    ∗ dutyTok ER (dcell (xp c) p1rS0) 0 false
    ∗ dutyTok ER (dcell (xp c) p1rS1) 0 false
    ∗ dutyTok ER (dcell (xp c) p1rS2) 0 false
    ∗ dutyTok ER (dcell (xp c) p1rS3) 0 false
    ∗ dutyTok ER (dcell (xp c) p1rS4) 0 false
    ∗ dutyTok ER (dcell (xp c) p1rS5) 0 false
    ∗ dutyTok ER (dcell (xp c) p1rS6) 0 false
    ∗ dutyTok ER (dcell (xp c) p1rS7) 0 false
    ∗ dutyTok ER (dcell (xp c) p1rS8) 0 false
    ∗ dutyTok ER (dcell (xp c) p1rS9) 0 false
    ∗ dutyTok ER (dcell (yp c) p2rS0) 0 false
    ∗ dutyTok ER (dcell (zp c) p2rS1) 0 false
    ∗ dutyTok ER (dcell (yp c) p2rS2) 0 false
    ∗ dutyTok ER (dcell (zp c) p2rS3) 0 false
    ∗ dutyTok ER (dcell (yp c) p2rS4) 0 false
    ∗ dutyTok ER (dcell (zp c) p2rS5) 0 false
    ∗ dutyTok ER (dcell c p1sS0) 0 false
    ∗ dutyTok ER (dcell c p1sS1) 0 false
    ∗ dutyTok ER (dcell c p1sS2) 0 false
    ∗ dutyTok ER (dcell c p1sS3) 0 false
    ∗ dutyTok ER (dcell c p1sS4) 0 false
    ∗ dutyTok ER (dcell c p1sS5) 0 false
    ∗ dutyTok ER (dcell c p1sS6) 0 false
    ∗ dutyTok ER (dcell c p1sS7) 0 false
    ∗ dutyTok ER (dcell c p1sS8) 0 false
    ∗ dutyTok ER (dcell c p1sS9) 0 false
    ∗ dutyTok ER (dcell c p2sS0) 0 false
    ∗ dutyTok ER (dcell c p2sS1) 0 false
    ∗ dutyTok ER (dcell c p2sS2) 0 false
    ∗ dutyTok ER (dcell c p2sS3) 0 false
    ∗ dutyTok ER (dcell c p2sS4) 0 false
    ∗ dutyTok ER (dcell c p2sS5) 0 false)

def creds (c : Dev nD) : sProp 𝕄 :=
  iprop(cred (tallyAt (barCell c) () 1)
    ∗ cred (tallyAt (yzCell c) () 2)
    ∗ cred (tallyAt (dcell c p1rS0) () N48)
    ∗ cred (tallyAt (dcell c p1rS1) () N48)
    ∗ cred (tallyAt (dcell c p1rS2) () N40)
    ∗ cred (tallyAt (dcell c p1rS3) () N40)
    ∗ cred (tallyAt (dcell c p1rS4) () N16)
    ∗ cred (tallyAt (dcell c p1rS5) () N16)
    ∗ cred (tallyAt (dcell c p1rS6) () N24)
    ∗ cred (tallyAt (dcell c p1rS7) () N24)
    ∗ cred (tallyAt (dcell c p1rS8) () N24)
    ∗ cred (tallyAt (dcell c p1rS9) () N24)
    ∗ cred (tallyAt (dcell c p2rS0) () N48)
    ∗ cred (tallyAt (dcell c p2rS1) () N48)
    ∗ cred (tallyAt (dcell c p2rS2) () N40)
    ∗ cred (tallyAt (dcell c p2rS3) () N40)
    ∗ cred (tallyAt (dcell c p2rS4) () N16)
    ∗ cred (tallyAt (dcell c p2rS5) () N16))

def localSems0 (c : Dev nD) : sProp 𝕄 :=
  iprop(semVal (dcell c inS0) 0 ∗ semVal (dcell c inS1) 0 ∗ semVal (dcell c inS2) 0 ∗ semVal (dcell c outS0) 0 ∗ semVal (dcell c outS1) 0 ∗ semVal (dcell c outS2) 0 ∗ semVal (dcell c outS3) 0 ∗ semVal (dcell c outS4) 0)

def ghost (K : GSem nD τ sig → ℕ) (c : Dev nD) : sProp 𝕄 :=
  iprop(invs m K c ∗ positions c ∗ known c ∗ payToks c)

def start (c : Dev nD) : sProp 𝕄 :=
  iprop((∃ K, ghost m K c) ∗ creds c ∗ localSems0 c ∗ levAts L lv)

def arrays0 (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1)))

def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f))

def arrays1 (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ ∃ OUT, ⌜OutSpec m c OUT⌝ ∗ (((c : Thread nD τ).loc main_v1) ↦{fullShare} OUT))

def ownSemsZero (c : Dev nD) : sProp 𝕄 :=
  iprop(semVal (yzCell c) 0 ∗ localSems0 c
    ∗ semVal (dcell c p1sS0) 0 ∗ semVal (dcell c p1sS1) 0 ∗ semVal (dcell c p1sS2) 0 ∗ semVal (dcell c p1sS3) 0 ∗ semVal (dcell c p1sS4) 0 ∗ semVal (dcell c p1sS5) 0 ∗ semVal (dcell c p1sS6) 0 ∗ semVal (dcell c p1sS7) 0 ∗ semVal (dcell c p1sS8) 0 ∗ semVal (dcell c p1sS9) 0 ∗ semVal (dcell c p1rS0) 0 ∗ semVal (dcell c p1rS1) 0 ∗ semVal (dcell c p1rS2) 0 ∗ semVal (dcell c p1rS3) 0 ∗ semVal (dcell c p1rS4) 0 ∗ semVal (dcell c p1rS5) 0 ∗ semVal (dcell c p1rS6) 0 ∗ semVal (dcell c p1rS7) 0 ∗ semVal (dcell c p1rS8) 0 ∗ semVal (dcell c p1rS9) 0 ∗ semVal (dcell c p2sS0) 0 ∗ semVal (dcell c p2sS1) 0 ∗ semVal (dcell c p2sS2) 0 ∗ semVal (dcell c p2sS3) 0 ∗ semVal (dcell c p2sS4) 0 ∗ semVal (dcell c p2sS5) 0 ∗ semVal (dcell c p2rS0) 0 ∗ semVal (dcell c p2rS1) 0 ∗ semVal (dcell c p2rS2) 0 ∗ semVal (dcell c p2rS3) 0 ∗ semVal (dcell c p2rS4) 0 ∗ semVal (dcell c p2rS5) 0)

def Φ₀ (c : Dev nD) : sProp 𝕄 := iprop(start m c ∗ arrays0 m c ∗ scratch c)
def Φ₁ (c : Dev nD) : sProp 𝕄 := iprop(arrays1 m c ∗ scratch c ∗ ownSemsZero c)

abbrev 𝒱₀ : Variants := Variants.none

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

-- A block of the body at the buffers the launch hands it.
abbrev atBufs {β : Sort _}
    (f : (a0 : Memref sig .tc .hbm S1x1024x512 .f32) → a0.IsWhole → (a1 : Memref sig .tc .hbm S512 .f32) → a1.IsWhole
      → (a2 : Memref sig .tc .hbm S512x512 .f32) → a2.IsWhole → (a3 : Memref sig .tc .vmem S512x512 .f32) → a3.IsWhole
      → (a4 : Memref sig .tc .vmem S512x512 .f32) → a4.IsWhole → (a5 : Memref sig .tc .vmem S512 .f32) → a5.IsWhole
      → (a6 : Memref sig .tc .vmem S512x512 .f32) → a6.IsWhole → (a7 : Memref sig .tc .vmem S304x512 .f32) → a7.IsWhole
      → DmaSems sig S3 → DmaSems sig S5 → Sems sig S_ → DmaSems sig S10 → DmaSems sig S10 → DmaSems sig S6 → DmaSems sig S6 → β) : β :=
  f (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11

end Cert.Kernel.Proto

end
-- ==== Proof.Bits.Levels.lean ====
import proofs.«900598_g7700000000000599_dist_rsrms_v7x_xyz2x2x2_x_m512_d512_f32_1_alg».proof.Proof.Bits.Start
import Mathlib.Tactic.Abel

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def lvS (s : SemLoc sig) : ℕ := match s with
  | .reg _ => 1
  | .dma s => if 34 ≤ s.val then 3 else if 18 ≤ s.val ∧ s.val < 28 then 2 else 0
theorem lv_eq (g : GSem nD τ sig) (u : Unit) : lv g u = lvS g.2 := rfl

def owedCells (c : Dev nD) : List (GSem nD τ sig × ℕ) :=
  [(barCell (xp c), 1), (yzCell (yp c), 1), (yzCell (zp c), 1), (dcell (xp c) p1rS0, N48), (dcell (xp c) p1rS1, N48), (dcell (xp c) p1rS2, N40), (dcell (xp c) p1rS3, N40), (dcell (xp c) p1rS4, N16), (dcell (xp c) p1rS5, N16), (dcell (xp c) p1rS6, N24), (dcell (xp c) p1rS7, N24), (dcell (xp c) p1rS8, N24), (dcell (xp c) p1rS9, N24), (dcell (yp c) p2rS0, N48), (dcell (zp c) p2rS1, N48), (dcell (yp c) p2rS2, N40), (dcell (zp c) p2rS3, N40), (dcell (yp c) p2rS4, N16), (dcell (zp c) p2rS5, N16)]

def owedSems : List (SemLoc sig) :=
  [.reg barS, .reg yzS, .reg yzS, .dma p1rS0, .dma p1rS1, .dma p1rS2, .dma p1rS3, .dma p1rS4, .dma p1rS5, .dma p1rS6, .dma p1rS7, .dma p1rS8, .dma p1rS9, .dma p2rS0, .dma p2rS1, .dma p2rS2, .dma p2rS3, .dma p2rS4, .dma p2rS5]
theorem owedList_eq (c : Dev nD) : owedList c = (owedCells c).map fun p : GSem nD τ sig × ℕ => (tallyAt p.1 () p.2 : CellTallies nD τ sig Unit) := rfl
theorem owedSems_eq (c : Dev nD) : (owedCells c).map (fun p => p.1.2) = owedSems := rfl
theorem owedCells_tc (c : Dev nD) : ∀ p ∈ owedCells c, p.1.1.2 = .tc :=
  List.forall_iff_forall_mem.1 (by unfold owedCells; simp [List.Forall])

theorem foldr_tally_pos (l : List (GSem nD τ sig × ℕ)) {g : GSem nD τ sig} {u : Unit}
    (h : 0 < ((l.map fun p : GSem nD τ sig × ℕ => (tallyAt p.1 () p.2 : CellTallies nD τ sig Unit)).foldr (fun t acc => acc + t) (0 : CellTallies nD τ sig Unit)) g u) :
    ∃ p ∈ l, g = p.1 := by
  induction l with
  | nil => exact absurd h (Nat.lt_irrefl 0)
  | cons p l ih =>
    rw [List.map_cons, List.foldr_cons] at h
    rcases Pipeline.add_pos_cases h with h | h
    · obtain ⟨q, hq, hg⟩ := ih h; exact ⟨q, List.mem_cons_of_mem _ hq, hg⟩
    · exact ⟨p, List.mem_cons_self, (Pipeline.tallyAt_pos h).1⟩

theorem owedAfter_pos {n : ℕ} {c : Dev nD} {g : GSem nD τ sig} {u : Unit} (h : 0 < owedAfter n c g u) :
    g.1.2 = .tc ∧ g.2 ∈ owedSems.drop n := by
  unfold owedAfter at h
  rw [owedList_eq, ← List.map_drop] at h
  obtain ⟨p, hp, rfl⟩ := foldr_tally_pos ((owedCells c).drop n) h
  refine ⟨owedCells_tc c p (List.mem_of_mem_drop hp), ?_⟩
  rw [← owedSems_eq c, ← List.map_drop]
  exact List.mem_map_of_mem hp

omit [FloatOps F] in

theorem mayWait_owed (c : Dev nD) (sm : SemLoc sig) (n b : ℕ) (hb : lvS sm ≤ b) (hO : ∀ s ∈ owedSems.drop n, b < lvS s) :
    (levAts L lv : sProp 𝕄) ⊢ MayWait (c : Thread nD τ) sm () (owedAfter n c) :=
  MayOwe.of_cut (L := L) (lev := lv) b
    (fun p hp => by rw [Finset.mem_singleton.mp hp, L_tc]; exact Finset.mem_singleton_self _)
    (fun g u hg => by rw [show L g = {()} from if_pos (owedAfter_pos hg).1]; exact Finset.mem_singleton_self _)
    (fun p hp => by rw [Finset.mem_singleton.mp hp]; exact hb)
    (fun g u hg => by rw [lv_eq]; exact hO _ (owedAfter_pos hg).2)

omit [FloatOps F] in

theorem mayWait_nil (c : Dev nD) (sm : SemLoc sig) : (levAts L lv : sProp 𝕄) ⊢ MayWait (c : Thread nD τ) sm () 0 := by
  rw [MayWait_zero]; iintro -; iempintro

theorem owedSems_pos : ∀ s ∈ owedSems, 0 < lvS s := by decide

omit [FloatOps F] in

theorem mayWait_low (c : Dev nD) (q : DmaSem sig) (hq : lvS (.dma q) = 0) (n : ℕ) :
    (levAts L lv : sProp 𝕄) ⊢ MayWait (c : Thread nD τ) (.dma q) () (owedAfter n c) :=
  mayWait_owed c _ n 0 (Nat.le_of_eq hq) fun s hs => owedSems_pos s (List.mem_of_mem_drop hs)

omit [FloatOps F] in

theorem mayWait_bar (c : Dev nD) : (levAts L lv : sProp 𝕄) ⊢ MayWait (c : Thread nD τ) (.reg barS) () (owedAfter 3 c) :=
  mayWait_owed c _ 3 1 (by decide) (by decide)
omit [FloatOps F] in
theorem mayWait_in0 (c : Dev nD) : (levAts L lv : sProp 𝕄) ⊢ MayWait (c : Thread nD τ) (.dma inS0) () (owedAfter 3 c) := mayWait_low c _ (by decide) 3
omit [FloatOps F] in
theorem mayWait_in1 (c : Dev nD) : (levAts L lv : sProp 𝕄) ⊢ MayWait (c : Thread nD τ) (.dma inS1) () (owedAfter 13 c) := mayWait_low c _ (by decide) 13
omit [FloatOps F] in
theorem mayWait_in2 (c : Dev nD) : (levAts L lv : sProp 𝕄) ⊢ MayWait (c : Thread nD τ) (.dma inS2) () (owedAfter 13 c) := mayWait_low c _ (by decide) 13
omit [FloatOps F] in

theorem mayWait_yz (c : Dev nD) : (levAts L lv : sProp 𝕄) ⊢ MayWait (c : Thread nD τ) (.reg yzS) () (owedAfter 13 c) :=
  mayWait_owed c _ 13 1 (by decide) (by decide)
omit [FloatOps F] in
theorem mayWait_p1r0 (c : Dev nD) : (levAts L lv : sProp 𝕄) ⊢ MayWait (c : Thread nD τ) (.dma p1rS0) () (owedAfter 13 c) :=
  mayWait_owed c _ 13 2 (by decide) (by decide)
omit [FloatOps F] in
theorem mayWait_p1r1 (c : Dev nD) : (levAts L lv : sProp 𝕄) ⊢ MayWait (c : Thread nD τ) (.dma p1rS1) () (owedAfter 14 c) :=
  mayWait_owed c _ 14 2 (by decide) (by decide)
omit [FloatOps F] in
theorem mayWait_p1r2 (c : Dev nD) : (levAts L lv : sProp 𝕄) ⊢ MayWait (c : Thread nD τ) (.dma p1rS2) () (owedAfter 15 c) :=
  mayWait_owed c _ 15 2 (by decide) (by decide)
omit [FloatOps F] in
theorem mayWait_p1r3 (c : Dev nD) : (levAts L lv : sProp 𝕄) ⊢ MayWait (c : Thread nD τ) (.dma p1rS3) () (owedAfter 16 c) :=
  mayWait_owed c _ 16 2 (by decide) (by decide)
omit [FloatOps F] in
theorem mayWait_p1r4 (c : Dev nD) : (levAts L lv : sProp 𝕄) ⊢ MayWait (c : Thread nD τ) (.dma p1rS4) () (owedAfter 17 c) :=
  mayWait_owed c _ 17 2 (by decide) (by decide)
omit [FloatOps F] in
theorem mayWait_p1r5 (c : Dev nD) : (levAts L lv : sProp 𝕄) ⊢ MayWait (c : Thread nD τ) (.dma p1rS5) () (owedAfter 18 c) :=
  mayWait_owed c _ 18 2 (by decide) (by decide)

def credT (c : Dev nD) : CellTallies nD τ sig Unit :=
  tallyAt (barCell c) () 1 + (tallyAt (yzCell c) () 2 + (tallyAt (dcell c p1rS0) () N48 + (tallyAt (dcell c p1rS1) () N48 + (tallyAt (dcell c p1rS2) () N40 + (tallyAt (dcell c p1rS3) () N40 + (tallyAt (dcell c p1rS4) () N16 + (tallyAt (dcell c p1rS5) () N16 + (tallyAt (dcell c p1rS6) () N24 + (tallyAt (dcell c p1rS7) () N24 + (tallyAt (dcell c p1rS8) () N24 + (tallyAt (dcell c p1rS9) () N24 + (tallyAt (dcell c p2rS0) () N48 + (tallyAt (dcell c p2rS1) () N48 + (tallyAt (dcell c p2rS2) () N40 + (tallyAt (dcell c p2rS3) () N40 + (tallyAt (dcell c p2rS4) () N16 + (tallyAt (dcell c p2rS5) () N16)))))))))))))))))

def payX (a : Dev nD) : CellTallies nD τ sig Unit := tallyAt (barCell a) () 1 + tallyAt (dcell a p1rS0) () N48 + tallyAt (dcell a p1rS1) () N48 + tallyAt (dcell a p1rS2) () N40 + tallyAt (dcell a p1rS3) () N40 + tallyAt (dcell a p1rS4) () N16 + tallyAt (dcell a p1rS5) () N16 + tallyAt (dcell a p1rS6) () N24 + tallyAt (dcell a p1rS7) () N24 + tallyAt (dcell a p1rS8) () N24 + tallyAt (dcell a p1rS9) () N24
def payY (a : Dev nD) : CellTallies nD τ sig Unit := tallyAt (yzCell a) () 1 + tallyAt (dcell a p2rS0) () N48 + tallyAt (dcell a p2rS2) () N40 + tallyAt (dcell a p2rS4) () N16
def payZ (a : Dev nD) : CellTallies nD τ sig Unit := tallyAt (yzCell a) () 1 + tallyAt (dcell a p2rS1) () N48 + tallyAt (dcell a p2rS3) () N40 + tallyAt (dcell a p2rS5) () N16

theorem O₀_split (d : Dev nD) : O₀ d = payX (xp d) + payY (yp d) + payZ (zp d) := by
  simp only [owedAfter, owedList, List.drop_zero, List.foldr_cons, List.foldr_nil, payX, payY, payZ]
  abel
theorem credT_split (d : Dev nD) : credT d = payX d + payY d + payZ d := by
  have h2 : (tallyAt (yzCell d) () 2 : CellTallies nD τ sig Unit) = tallyAt (yzCell d) () 1 + tallyAt (yzCell d) () 1 := (tallyAt_add _ _ 1 1).symm
  simp only [credT, payX, payY, payZ, h2]
  abel

theorem sum_O₀ : (∑ d : Dev nD, O₀ d) = ∑ d : Dev nD, credT d := by
  have hx : (∑ d : Dev nD, payX (xp d)) = ∑ d : Dev nD, payX d := Equiv.sum_comp xE payX
  have hy : (∑ d : Dev nD, payY (yp d)) = ∑ d : Dev nD, payY d := Equiv.sum_comp yE payY
  have hz : (∑ d : Dev nD, payZ (zp d)) = ∑ d : Dev nD, payZ d := Equiv.sum_comp zE payZ
  rw [Finset.sum_congr rfl fun d _ => O₀_split d, Finset.sum_congr rfl fun d _ => credT_split d,
    Finset.sum_add_distrib, Finset.sum_add_distrib, Finset.sum_add_distrib, Finset.sum_add_distrib, hx, hy, hz]

theorem credT_own (d : Dev nD) (g : GSem nD τ sig) (h : credT d g ≠ 0) : g.1 = (d : Thread nD τ) := by
  by_contra hne
  apply h
  have hz : ∀ (sm : SemLoc sig) (k : ℕ), (tallyAt ((d : Thread nD τ), sm) () k : CellTallies nD τ sig Unit) g = 0 :=
    fun sm k => tallyAt_ne_cell (fun hg => hne (congrArg Prod.fst hg)) () k
  unfold credT
  simp only [Pi.add_apply, hz, add_zero]

omit [FloatOps F] in
theorem cred_credT (c : Dev nD) : (cred (credT c) : sProp 𝕄) ⊢ creds c := by
  unfold credT creds
  iterate 17 (refine (cred_add _ _).1.trans (sep_mono_right ?_))
  exact BI.Entails.refl _

omit [FloatOps F] in

theorem creds_of_launch (c : Dev nD) : (Pipeline.launchCred O₀ c : sProp 𝕄) ⊢ creds c := by
  rw [Pipeline.launchCred_of_sum O₀ credT sum_O₀ credT_own c]; exact cred_credT c

end Cert.Kernel.Proto

end
-- ==== Proof.Bits.Stor.lean ====
import proofs.«900598_g7700000000000599_dist_rsrms_v7x_xyz2x2x2_x_m512_d512_f32_1_alg».proof.Proof.Bits.Tables

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- Every payload of the schedule can be kept in a cell.
instance Rd_payload_storable (g : GSem nD τ sig) (r : ℕ) (d : Bool) :
    BI.Storable (upEmb : UEmb _ 𝕄) ((Rd (F := F) m).payload g r d) := by
  show BI.Storable upEmb (match g.2 with
    | .reg s => if s = barS then barPay g.1.1 else if s = yzS then (if d then zPay g.1.1 else yPay g.1.1) else iprop(emp)
    | .dma s => dmaPay m s.val g.1.1)
  cases g.2 with
  | reg s =>
    simp only
    unfold barPay yPay zPay
    (repeat' split) <;> infer_instance
  | dma s =>
    simp only
    unfold dmaPay p1sPay0 p1sPay1 p1sPay2 p1sPay3 p1sPay4 p1sPay5 p1sPay6 p1sPay7 p1sPay8 p1sPay9 p1rPay0 p1rPay1 p1rPay2 p1rPay3 p1rPay4 p1rPay5 p1rPay6 p1rPay7 p1rPay8 p1rPay9 p2sPay0 p2sPay1 p2sPay2 p2sPay3 p2sPay4 p2sPay5 p2rPay0 p2rPay1 p2rPay2 p2rPay3 p2rPay4 p2rPay5
    split <;> infer_instance

end Cert.Kernel.Proto

end
-- ==== Proof.Bits.Fund.lean ====
import proofs.«900598_g7700000000000599_dist_rsrms_v7x_xyz2x2x2_x_m512_d512_f32_1_alg».proof.Proof.Bits.Start
import proofs.«900598_g7700000000000599_dist_rsrms_v7x_xyz2x2x2_x_m512_d512_f32_1_alg».proof.Proof.Bits.Stor

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem nDma_eq : sig.nDmaSem = 40 := by decide

abbrev osem : Fin 41 → SemLoc sig := fun k =>
  if h : k.val = 0 then .reg yzS else .dma ⟨k.val - 1, by rw [nDma_eq]; omega⟩

theorem ownSemFacts : Pipeline.OwnSemFacts cfg0.spec osem := by decide

abbrev csem : Fin 34 → SemLoc sig := fun k =>
  if k.val = 0 then .reg barS else if k.val = 1 then .reg yzS else .dma ⟨k.val + 6, by rw [nDma_eq]; omega⟩
abbrev kcell (ck : Dev nD × Fin 34) : GSem nD τ sig := ((ck.1 : Thread nD τ), csem ck.2)

theorem ownCells_eq (c : Dev nD) : ownCells c = [(0 : Fin 34), 1, 2, 3, 4, 5, 6, 7, 8, 9, 10, 11, 12, 13, 14, 15, 16, 17, 18, 19, 20, 21, 22, 23, 24, 25, 26, 27, 28, 29, 30, 31, 32, 33].map fun k => kcell (c, k) := rfl

theorem bar_ne_yz : (SemLoc.reg barS : SemLoc sig) ≠ .reg yzS := by decide

theorem csem_injective : Function.Injective csem := by
  intro k k' h
  unfold csem at h
  apply Fin.ext
  by_cases h0 : k.val = 0 <;> by_cases h0' : k'.val = 0 <;> by_cases h1 : k.val = 1 <;> by_cases h1' : k'.val = 1 <;>
    simp only [h0, h0', h1, h1', if_true, if_false, reduceCtorEq] at h <;> first
      | omega
      | exact absurd h bar_ne_yz
      | exact absurd h.symm bar_ne_yz
      | (have := congrArg Fin.val (SemLoc.dma.inj h); simp only at this; omega)

theorem kcell_injective : Function.Injective (kcell : Dev nD × Fin 34 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

theorem kcell_mem (ck : Dev nD × Fin 34) : kcell ck ∈ protoCells := Finset.mem_map_of_mem _ (Finset.mem_univ ck)

abbrev tokOf (cj : Dev nD × Fin 35) : GSem nD τ sig × ℕ × Bool :=
  if h : cj.2.val < 34 then (kcell (cj.1, ⟨cj.2.val, h⟩), 0, false) else (yzCell cj.1, 0, true)

theorem tokOf_injective : Function.Injective (tokOf : Dev nD × Fin 35 → GSem nD τ sig × ℕ × Bool) := by
  rintro ⟨c, j⟩ ⟨c', j'⟩ h
  unfold tokOf at h
  by_cases hj : j.val < 34 <;> by_cases hj' : j'.val < 34 <;> simp only [hj, hj', dite_true, dite_false] at h
  · have := kcell_injective (congrArg (fun x : GSem nD τ sig × ℕ × Bool => x.1) h)
    obtain ⟨rfl, h2⟩ := Prod.mk.inj this
    have h3 : j.val = j'.val := congrArg (fun x : Fin 34 => x.val) h2
    exact congrArg (Prod.mk c) (Fin.ext h3)
  · exact absurd (congrArg (fun x : GSem nD τ sig × ℕ × Bool => x.2.2) h) (fun h' => by cases h')
  · exact absurd (congrArg (fun x : GSem nD τ sig × ℕ × Bool => x.2.2) h) (fun h' => by cases h')
  · have h1 : c = c' := congrArg (fun x : GSem nD τ sig × ℕ × Bool => x.1.1.1) h
    subst h1
    exact congrArg (Prod.mk c) (Fin.ext (by omega))

def protoToks : Finset (GSem nD τ sig × ℕ × Bool) := Finset.univ.map ⟨tokOf, tokOf_injective⟩

def u₀ : UU :=
  (initOf (Pipeline.cells cfgs cellOf_inj) (Pipeline.launchToks cfgs cellOf_inj), (initOf protoCells protoToks, 1))

def toks (c : Dev nD) : sProp 𝕄 :=
  bigSep Finset.univ fun j : Fin 35 => dutyTok ER (tokOf (c, j)).1 (tokOf (c, j)).2.1 (tokOf (c, j)).2.2

def G (c : Dev nD) : sProp 𝕄 :=
  iprop((bigSep Finset.univ fun k : Fin 34 => roundState ER (Rd m) (kcell (c, k)) 0)
    ∗ (bigSep Finset.univ fun k : Fin 34 => iprop(atPos ER (kcell (c, k)) 0 ∅ 0 ∗ reached ER (kcell (c, k)) 0)) ∗ toks c)

def G' (c : Dev nD) : sProp 𝕄 := iprop((∃ K, ghost m K c) ∗ localSems0 c)

omit [FloatOps F] in
theorem bigSep_fin34 (Φ : Fin 34 → sProp 𝕄) : bigSep Finset.univ Φ = bigSepL [(0 : Fin 34), 1, 2, 3, 4, 5, 6, 7, 8, 9, 10, 11, 12, 13, 14, 15, 16, 17, 18, 19, 20, 21, 22, 23, 24, 25, 26, 27, 28, 29, 30, 31, 32, 33] Φ :=
  bigSep_univ_eq_bigSepL [(0 : Fin 34), 1, 2, 3, 4, 5, 6, 7, 8, 9, 10, 11, 12, 13, 14, 15, 16, 17, 18, 19, 20, 21, 22, 23, 24, 25, 26, 27, 28, 29, 30, 31, 32, 33] (by decide) (by decide) Φ
omit [FloatOps F] in
theorem bigSep_fin35 (Φ : Fin 35 → sProp 𝕄) : bigSep Finset.univ Φ = bigSepL [(0 : Fin 35), 1, 2, 3, 4, 5, 6, 7, 8, 9, 10, 11, 12, 13, 14, 15, 16, 17, 18, 19, 20, 21, 22, 23, 24, 25, 26, 27, 28, 29, 30, 31, 32, 33, 34] Φ :=
  bigSep_univ_eq_bigSepL [(0 : Fin 35), 1, 2, 3, 4, 5, 6, 7, 8, 9, 10, 11, 12, 13, 14, 15, 16, 17, 18, 19, 20, 21, 22, 23, 24, 25, 26, 27, 28, 29, 30, 31, 32, 33, 34] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 34 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]; rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in

theorem ownU_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

theorem hu₀ : (ownU (u₀) : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (ownU_split _ _) $$ Hu
  icases H with ⟨HP, HX⟩
  imod (fund_proto m) $$ HX with HG
  imodintro
  isplitl [HP] <;> iassumption

omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in

theorem ownSems0_eq (c : Dev nD) : (Pipeline.ownSems0 (Ix := Unit) (Name := ℕ) (U := UU) (Lvl := ℕ) (Val := Elt F) (τ := τ) osem c : sProp 𝕄)
    = bigSepL [(0 : Fin 41), 1, 2, 3, 4, 5, 6, 7, 8, 9, 10, 11, 12, 13, 14, 15, 16, 17, 18, 19, 20, 21, 22, 23, 24, 25, 26, 27, 28, 29, 30, 31, 32, 33, 34, 35, 36, 37, 38, 39, 40] fun k => semVal ((c : Thread nD τ), osem k) 0 :=
  Pipeline.ownSems0_eq_of_list c osem [(0 : Fin 41), 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide)

omit [FloatOps F] in

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 34 => semVal (kcell (c, k)) 0) ∗ localSems0 c) : sProp 𝕄) := by
  rw [ownSems0_eq, unscopedSems0_eq, bigSep_fin34]
  unfold localSems0
  show iprop((semVal (yzCell c) 0 ∗ semVal (dcell c inS0) 0 ∗ semVal (dcell c inS1) 0 ∗ semVal (dcell c inS2) 0 ∗ semVal (dcell c outS0) 0 ∗ semVal (dcell c outS1) 0 ∗ semVal (dcell c outS2) 0 ∗ semVal (dcell c outS3) 0 ∗ semVal (dcell c outS4) 0
        ∗ bigSepL [(2 : Fin 34), 3, 4, 5, 6, 7, 8, 9, 10, 11, 12, 13, 14, 15, 16, 17, 18, 19, 20, 21, 22, 23, 24, 25, 26, 27, 28, 29, 30, 31, 32, 33] fun k : Fin 34 => semVal (kcell (c, k)) 0) ∗ semVal (barCell c) 0)
    ⊢ (iprop((semVal (barCell c) 0 ∗ semVal (yzCell c) 0 ∗ bigSepL [(2 : Fin 34), 3, 4, 5, 6, 7, 8, 9, 10, 11, 12, 13, 14, 15, 16, 17, 18, 19, 20, 21, 22, 23, 24, 25, 26, 27, 28, 29, 30, 31, 32, 33] fun k : Fin 34 => semVal (kcell (c, k)) 0)
        ∗ semVal (dcell c inS0) 0 ∗ semVal (dcell c inS1) 0 ∗ semVal (dcell c inS2) 0 ∗ semVal (dcell c outS0) 0 ∗ semVal (dcell c outS1) 0 ∗ semVal (dcell c outS2) 0 ∗ semVal (dcell c outS3) 0 ∗ semVal (dcell c outS4) 0) : sProp 𝕄)
  iintro ⟨⟨Hyz, H0, H1, H2, H3, H4, H5, H6, H7, HP⟩, HB⟩
  isplitl [HB Hyz HP]
  · isplitl [HB]; · iexact HB
    isplitl [Hyz]; · iexact Hyz
    iexact HP
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 34 => iprop(∃ κ : ℕ, cellInv ER (Rd m) κ (kcell (c, k))))
          ∗ (bigSep Finset.univ fun k : Fin 34 => iprop(atPos ER (kcell (c, k)) 0 ∅ 0 ∗ reached ER (kcell (c, k)) 0)) ∗ toks c ∗ localSems0 c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 34 => semVal (kcell (c, k)) 0) ∗ bigSep Finset.univ fun k : Fin 34 => roundState ER (Rd m) (kcell (c, k)) 0)
      ⊢ (|={Set.univ}=> bigSep Finset.univ fun k : Fin 34 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

def records (K : GSem nD τ sig → ℕ) : sProp 𝕄 :=
  iprop((bigSep protoCells fun g => cellInv ER (Rd m) (K g) g) ∗ bigSep protoCells fun g => reached ER g 0)

instance records_persistent (K : GSem nD τ sig → ℕ) : BI.Persistent (records m K) := by unfold records; infer_instance

omit [FloatOps F] in
theorem elim_at {I : Type} [DecidableEq I] {S : Finset I} (Φ : I → sProp 𝕄) {i : I} (h : i ∈ S) : bigSep S Φ ⊢ Φ i := bigSep_elim h

omit [FloatOps F] in

theorem bigSepL_of_mem {I : Type} [DecidableEq I] {S : Finset I} (Φ : I → sProp 𝕄) [∀ i, BI.Persistent (Φ i)] (l : List I)
    (h : ∀ g ∈ l, g ∈ S) : bigSep S Φ ⊢ bigSepL l Φ := by
  induction l with
  | nil => show _ ⊢ iprop(emp); iintro -; iempintro
  | cons i l ih =>
    rw [bigSepL_cons]
    show bigSep S Φ ⊢ iprop(Φ i ∗ bigSepL l Φ)
    iintro #H
    isplitr
    · iapply (elim_at Φ (h i (List.mem_cons_self ..))); iexact H
    · iapply (ih fun g hg => h g (List.mem_cons_of_mem _ hg)); iexact H

omit [FloatOps F] in
theorem map_mem (l : List (Dev nD × Fin 34)) : ∀ g ∈ l.map kcell, g ∈ protoCells := fun g hg => by
  obtain ⟨ck, -, rfl⟩ := List.mem_map.mp hg; exact kcell_mem ck

omit [FloatOps F] in
theorem ownPaid_eq (c : Dev nD) : ownCells c ++ paidCells c
    = ([(c, 0), (c, 1), (c, 2), (c, 3), (c, 4), (c, 5), (c, 6), (c, 7), (c, 8), (c, 9), (c, 10), (c, 11), (c, 12), (c, 13), (c, 14), (c, 15), (c, 16), (c, 17), (c, 18), (c, 19), (c, 20), (c, 21), (c, 22), (c, 23), (c, 24), (c, 25), (c, 26), (c, 27), (c, 28), (c, 29), (c, 30), (c, 31), (c, 32), (c, 33), (xp c, 0), (yp c, 1), (zp c, 1), (xp c, 12), (xp c, 13), (xp c, 14), (xp c, 15), (xp c, 16), (xp c, 17), (xp c, 18), (xp c, 19), (xp c, 20), (xp c, 21), (yp c, 28), (zp c, 29), (yp c, 30), (zp c, 31), (yp c, 32), (zp c, 33)] : List (Dev nD × Fin 34)).map kcell := rfl
omit [FloatOps F] in
theorem known_eq (c : Dev nD) : knownCells c
    = ([(xp c, 0), (yp c, 1), (zp c, 1), (c, 2), (c, 3), (c, 4), (c, 5), (c, 6), (c, 7), (c, 8), (c, 9), (c, 10), (c, 11), (c, 22), (c, 23), (c, 24), (c, 25), (c, 26), (c, 27), (c, 12), (c, 13), (c, 14), (c, 15), (c, 16), (c, 17), (c, 18), (c, 19), (c, 20), (c, 21), (c, 28), (c, 29), (c, 30), (c, 31), (c, 32), (c, 33)] : List (Dev nD × Fin 34)).map kcell := rfl

omit [FloatOps F] in
theorem positions_eq (c : Dev nD) : (positions c : sProp 𝕄) = bigSep Finset.univ fun k : Fin 34 => atPos ER (kcell (c, k)) 0 ∅ 0 := by
  unfold positions; rw [bigSep_fin34]; rfl

def linear (c : Dev nD) : sProp 𝕄 := iprop(positions c ∗ payToks c ∗ localSems0 c)

theorem ghost_intro (K : GSem nD τ sig → ℕ) (c : Dev nD) : iprop(records m K ∗ linear c) ⊢ G' m c := by
  unfold records linear G' ghost invs known
  iintro ⟨⟨#HI, #HR⟩, Hpos, Htok, Hloc⟩
  isplitl [Hpos Htok]
  · iexists K
    isplitr
    · iapply (bigSepL_of_mem (fun g => cellInv ER (Rd m) (K g) g) _ (by rw [ownPaid_eq]; exact map_mem _)); iexact HI
    isplitl [Hpos]; · iexact Hpos
    isplitr
    · iapply (bigSepL_of_mem (fun g => (reached ER g 0 : sProp 𝕄)) _ (by rw [known_eq]; exact map_mem _)); iexact HR
    iexact Htok
  iexact Hloc

omit [FloatOps F] in
theorem toks_eq (c : Dev nD) : (toks c : sProp 𝕄)
    = iprop(dutyTok ER (barCell c) 0 false
      ∗ dutyTok ER (yzCell c) 0 false
      ∗ dutyTok ER (dcell c p1sS0) 0 false
      ∗ dutyTok ER (dcell c p1sS1) 0 false
      ∗ dutyTok ER (dcell c p1sS2) 0 false
      ∗ dutyTok ER (dcell c p1sS3) 0 false
      ∗ dutyTok ER (dcell c p1sS4) 0 false
      ∗ dutyTok ER (dcell c p1sS5) 0 false
      ∗ dutyTok ER (dcell c p1sS6) 0 false
      ∗ dutyTok ER (dcell c p1sS7) 0 false
      ∗ dutyTok ER (dcell c p1sS8) 0 false
      ∗ dutyTok ER (dcell c p1sS9) 0 false
      ∗ dutyTok ER (dcell c p1rS0) 0 false
      ∗ dutyTok ER (dcell c p1rS1) 0 false
      ∗ dutyTok ER (dcell c p1rS2) 0 false
      ∗ dutyTok ER (dcell c p1rS3) 0 false
      ∗ dutyTok ER (dcell c p1rS4) 0 false
      ∗ dutyTok ER (dcell c p1rS5) 0 false
      ∗ dutyTok ER (dcell c p1rS6) 0 false
      ∗ dutyTok ER (dcell c p1rS7) 0 false
      ∗ dutyTok ER (dcell c p1rS8) 0 false
      ∗ dutyTok ER (dcell c p1rS9) 0 false
      ∗ dutyTok ER (dcell c p2sS0) 0 false
      ∗ dutyTok ER (dcell c p2sS1) 0 false
      ∗ dutyTok ER (dcell c p2sS2) 0 false
      ∗ dutyTok ER (dcell c p2sS3) 0 false
      ∗ dutyTok ER (dcell c p2sS4) 0 false
      ∗ dutyTok ER (dcell c p2sS5) 0 false
      ∗ dutyTok ER (dcell c p2rS0) 0 false
      ∗ dutyTok ER (dcell c p2rS1) 0 false
      ∗ dutyTok ER (dcell c p2rS2) 0 false
      ∗ dutyTok ER (dcell c p2rS3) 0 false
      ∗ dutyTok ER (dcell c p2rS4) 0 false
      ∗ dutyTok ER (dcell c p2rS5) 0 false
      ∗ dutyTok ER (yzCell c) 0 true) := by
  unfold toks; rw [bigSep_fin35]; rfl

omit [FloatOps F] in
theorem deal_x (Φ : Dev nD → sProp 𝕄) : bigSep Finset.univ Φ ⊢ bigSep Finset.univ fun c => Φ (xp c) := Entails.of_eq (bigSep_univ_equiv xE Φ)
omit [FloatOps F] in
theorem deal_y (Φ : Dev nD → sProp 𝕄) : bigSep Finset.univ Φ ⊢ bigSep Finset.univ fun c => Φ (yp c) := Entails.of_eq (bigSep_univ_equiv yE Φ)
omit [FloatOps F] in
theorem deal_z (Φ : Dev nD → sProp 𝕄) : bigSep Finset.univ Φ ⊢ bigSep Finset.univ fun c => Φ (zp c) := Entails.of_eq (bigSep_univ_equiv zE Φ)

omit [FloatOps F] in

theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  iintro ⟨T0, T1, T2, T3, T4, T5, T6, T7, T8, T9, T10, T11, T12, T13, T14, T15, T16, T17, T18, T19, T20, T21, T22, T23, T24, T25, T26, T27, T28, T29, T30, T31, T32, T33, T34⟩
  isplitl [T0]; · iapply (deal_x (fun c : Dev nD => (dutyTok ER (barCell c) 0 false : sProp 𝕄))); iexact T0
  isplitl [T1]; · iapply (deal_y (fun c : Dev nD => (dutyTok ER (yzCell c) 0 false : sProp 𝕄))); iexact T1
  isplitl [T34]; · iapply (deal_z (fun c : Dev nD => (dutyTok ER (yzCell c) 0 true : sProp 𝕄))); iexact T34
  isplitl [T12]; · iapply (deal_x (fun c : Dev nD => (dutyTok ER (dcell c p1rS0) 0 false : sProp 𝕄))); iexact T12
  isplitl [T13]; · iapply (deal_x (fun c : Dev nD => (dutyTok ER (dcell c p1rS1) 0 false : sProp 𝕄))); iexact T13
  isplitl [T14]; · iapply (deal_x (fun c : Dev nD => (dutyTok ER (dcell c p1rS2) 0 false : sProp 𝕄))); iexact T14
  isplitl [T15]; · iapply (deal_x (fun c : Dev nD => (dutyTok ER (dcell c p1rS3) 0 false : sProp 𝕄))); iexact T15
  isplitl [T16]; · iapply (deal_x (fun c : Dev nD => (dutyTok ER (dcell c p1rS4) 0 false : sProp 𝕄))); iexact T16
  isplitl [T17]; · iapply (deal_x (fun c : Dev nD => (dutyTok ER (dcell c p1rS5) 0 false : sProp 𝕄))); iexact T17
  isplitl [T18]; · iapply (deal_x (fun c : Dev nD => (dutyTok ER (dcell c p1rS6) 0 false : sProp 𝕄))); iexact T18
  isplitl [T19]; · iapply (deal_x (fun c : Dev nD => (dutyTok ER (dcell c p1rS7) 0 false : sProp 𝕄))); iexact T19
  isplitl [T20]; · iapply (deal_x (fun c : Dev nD => (dutyTok ER (dcell c p1rS8) 0 false : sProp 𝕄))); iexact T20
  isplitl [T21]; · iapply (deal_x (fun c : Dev nD => (dutyTok ER (dcell c p1rS9) 0 false : sProp 𝕄))); iexact T21
  isplitl [T28]; · iapply (deal_y (fun c : Dev nD => (dutyTok ER (dcell c p2rS0) 0 false : sProp 𝕄))); iexact T28
  isplitl [T29]; · iapply (deal_z (fun c : Dev nD => (dutyTok ER (dcell c p2rS1) 0 false : sProp 𝕄))); iexact T29
  isplitl [T30]; · iapply (deal_y (fun c : Dev nD => (dutyTok ER (dcell c p2rS2) 0 false : sProp 𝕄))); iexact T30
  isplitl [T31]; · iapply (deal_z (fun c : Dev nD => (dutyTok ER (dcell c p2rS3) 0 false : sProp 𝕄))); iexact T31
  isplitl [T32]; · iapply (deal_y (fun c : Dev nD => (dutyTok ER (dcell c p2rS4) 0 false : sProp 𝕄))); iexact T32
  isplitl [T33]; · iapply (deal_z (fun c : Dev nD => (dutyTok ER (dcell c p2rS5) 0 false : sProp 𝕄))); iexact T33
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T22]; · iexact T22
  isplitl [T23]; · iexact T23
  isplitl [T24]; · iexact T24
  isplitl [T25]; · iexact T25
  isplitl [T26]; · iexact T26
  iexact T27

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem cells_eq (Φ : GSem nD τ sig → sProp 𝕄) :
    (bigSep Finset.univ fun c : Dev nD => bigSep Finset.univ fun k : Fin 34 => Φ (kcell (c, k))) = bigSep protoCells Φ := by
  unfold protoCells; rw [bigSep_map, bigSep_univ_prod]; rfl

theorem regroup :
    (bigSep Finset.univ fun c : Dev nD => iprop((bigSep Finset.univ fun k : Fin 34 => iprop(∃ κ : ℕ, cellInv ER (Rd m) κ (kcell (c, k))))
          ∗ (bigSep Finset.univ fun k : Fin 34 => iprop(atPos ER (kcell (c, k)) 0 ∅ 0 ∗ reached ER (kcell (c, k)) 0)) ∗ toks c ∗ localSems0 c) : sProp 𝕄)
      ⊢ bigSep Finset.univ (G' m) := by
  have hAR : (bigSep Finset.univ fun c : Dev nD => bigSep Finset.univ fun k : Fin 34 => iprop(atPos ER (kcell (c, k)) 0 ∅ 0 ∗ reached ER (kcell (c, k)) 0) : sProp 𝕄)
      = iprop((bigSep Finset.univ fun c : Dev nD => positions c) ∗ bigSep protoCells fun g => reached ER g 0) := by
    rw [← cells_eq (fun g => (reached ER g 0 : sProp 𝕄)), ← bigSep_sep']
    exact bigSep_congr fun c _ => by rw [positions_eq]; exact bigSep_sep' _ _ _
  rw [bigSep_sep', bigSep_sep', bigSep_sep']
  iintro ⟨HI, Har, Htok, Hloc⟩
  ihave HI' := (Entails.of_eq (cells_eq fun g => iprop(∃ κ : ℕ, cellInv ER (Rd m) κ g))) $$ HI
  ihave Har' := (Entails.of_eq hAR) $$ Har
  icases Har' with ⟨Hat, #HR⟩
  ihave HK := (BI.bigSep_exists_pi protoCells (fun (g : GSem nD τ sig) (κ : ℕ) => (cellInv ER (Rd m) κ g : sProp 𝕄))) $$ HI'
  icases HK with ⟨%K, #HI⟩
  ihave Htk := (toks_around (F := F)) $$ Htok
  iapply (bigSep_with_persistent (R := records m K) (Φ := linear) fun c _ => ghost_intro m K c)
  isplitr
  · unfold records; isplitl; · iexact HI
    iexact HR
  · unfold linear; rw [bigSep_sep', bigSep_sep']
    isplitl [Hat]; · iexact Hat
    isplitl [Htk]; · iexact Htk
    iexact Hloc

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Proto

end
-- ==== Proof.Bits.Launch.lean ====
import proofs.«900598_g7700000000000599_dist_rsrms_v7x_xyz2x2x2_x_m512_d512_f32_1_alg».proof.Proof.Bits.Levels
import proofs.«900598_g7700000000000599_dist_rsrms_v7x_xyz2x2x2_x_m512_d512_f32_1_alg».proof.Proof.Bits.Fund

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def X (c : Dev nD) : sProp 𝕄 := iprop(start m c ∗ arrays0 m c)
def Y (c : Dev nD) : sProp 𝕄 := arrays1 m c
def Z (_ : Dev nD) : sProp 𝕄 := iprop(emp)

theorem hX (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Ha0, Ha1, Hv1⟩, Hlev, Hcr, -, HG⟩
  ihave Hc := (creds_of_launch (F := F) c) $$ Hcr
  imodintro
  unfold X start arrays0 G'
  icases HG with ⟨HK, Hloc⟩
  isplitl
  · isplitl [HK Hc Hloc Hlev]
    · isplitl [HK]; · iexact HK
      isplitl [Hc]; · iexact Hc
      isplitl [Hloc]; · iexact Hloc
      iexact Hlev
    · isplitl [Ha0]; · iexact Ha0
      isplitl [Ha1]; · iexact Ha1
      iexact Hv1
  · iempintro

theorem hin (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X scratch
  iintro ⟨⟨Hs, Ha⟩, -, Hr⟩
  isplitl [Hs]; · iexact Hs
  isplitl [Ha]; · iexact Ha
  iexact Hr

theorem ownSems0_flat (c : Dev nD) :
    (Pipeline.ownSems0 (Ix := Unit) (Name := ℕ) (U := UU) (Lvl := ℕ) (Val := Elt F) (τ := τ) osem c : sProp 𝕄)
      = iprop(semVal (yzCell c) 0 ∗ semVal (dcell c inS0) 0 ∗ semVal (dcell c inS1) 0 ∗ semVal (dcell c inS2) 0 ∗ semVal (dcell c outS0) 0 ∗ semVal (dcell c outS1) 0 ∗ semVal (dcell c outS2) 0 ∗ semVal (dcell c outS3) 0 ∗ semVal (dcell c outS4) 0 ∗ semVal (dcell c p1sS0) 0 ∗ semVal (dcell c p1sS1) 0 ∗ semVal (dcell c p1sS2) 0 ∗ semVal (dcell c p1sS3) 0 ∗ semVal (dcell c p1sS4) 0 ∗ semVal (dcell c p1sS5) 0 ∗ semVal (dcell c p1sS6) 0 ∗ semVal (dcell c p1sS7) 0 ∗ semVal (dcell c p1sS8) 0 ∗ semVal (dcell c p1sS9) 0 ∗ semVal (dcell c p1rS0) 0 ∗ semVal (dcell c p1rS1) 0 ∗ semVal (dcell c p1rS2) 0 ∗ semVal (dcell c p1rS3) 0 ∗ semVal (dcell c p1rS4) 0 ∗ semVal (dcell c p1rS5) 0 ∗ semVal (dcell c p1rS6) 0 ∗ semVal (dcell c p1rS7) 0 ∗ semVal (dcell c p1rS8) 0 ∗ semVal (dcell c p1rS9) 0 ∗ semVal (dcell c p2sS0) 0 ∗ semVal (dcell c p2sS1) 0 ∗ semVal (dcell c p2sS2) 0 ∗ semVal (dcell c p2sS3) 0 ∗ semVal (dcell c p2sS4) 0 ∗ semVal (dcell c p2sS5) 0 ∗ semVal (dcell c p2rS0) 0 ∗ semVal (dcell c p2rS1) 0 ∗ semVal (dcell c p2rS2) 0 ∗ semVal (dcell c p2rS3) 0 ∗ semVal (dcell c p2rS4) 0 ∗ semVal (dcell c p2rS5) 0) := by
  rw [ownSems0_eq]; rfl

theorem hout (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_flat]
  unfold Φ₁ Y scratch ownSemsZero localSems0
  iintro ⟨Ha, Hs, ⟨H0, ⟨H1, H2, H3, H4, H5, H6, H7, H8⟩, H9, H10, H11, H12, H13, H14, H15, H16, H17, H18, H19, H20, H21, H22, H23, H24, H25, H26, H27, H28, H29, H30, H31, H32, H33, H34, H35, H36, H37, H38, H39, H40⟩⟩
  isplitl [Ha]; · iexact Ha
  isplitr [Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    iexact H40
  · iexact Hs

def QY (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ OutSpec m c (s.mem ((c : Thread nD τ).loc main_v1))

theorem hY (c : Dev nD) (s' : Phys nD τ sig (Elt F)) :
    iprop(Y m c ∗ iprop(emp) ∗ SI s') ⊢ |={Set.univ}=> iprop(⌜QY m c s'.mem⌝ ∗ SI s') := by
  unfold Y arrays1
  iintro ⟨⟨Ha0, Ha1, %OUT, %hO, Hv1⟩, -, HSI⟩
  icombine HSI Ha0 gives %h0
  icombine HSI Ha1 gives %h1
  icombine HSI Hv1 gives %h2
  imodintro
  isplitr
  · ipureintro
    exact ⟨Buf.eq_of_forall_mem_univ h0, Buf.eq_of_forall_mem_univ h1, by rw [Buf.eq_of_forall_mem_univ h2]; exact hO⟩
  iexact HSI

theorem waits (c : Dev nD) : (levAts L lv : sProp 𝕄) ⊢ Pipeline.cellsWaits cfgs (dats (F := F) m) () 0 c :=
  Pipeline.cellsWaits_intro cfgs (dats m) () 0 c fun w s t => w.elim0

def QC (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ OutSpec m c (r.2.mem ((c : Thread nD τ).loc main_v1))

theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ w => w.elim0) (hpf := fun _ k => k.elim0)
    (X := X m) (Y := Y m) (Z := Z)
    (hX := hX m ρ) (hin := hin m) (hout := hout m)
    (QY := QY m)
    (hY := hY m)
    (hQ := fun s h c => (h c).2.2)

end Cert.Kernel.Proto

end
-- ==== Proof.Bits.BodyObl.lean ====
import proofs.«900598_g7700000000000599_dist_rsrms_v7x_xyz2x2x2_x_m512_d512_f32_1_alg».proof.Proof.Bits.Start

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in

theorem bigSep_noWin (Φ : Fin cfg0.W → sProp 𝕄) : bigSep Finset.univ Φ = iprop(emp) := rfl

theorem body_obligation_of
    (hspec : ∀ c : Dev nD, iprop(Φ₀ m c ∗ ∃ W, owes (c : Thread nD τ) (O₀ c) W)
      ⊢ wp frame (wpE (defs₀ (F := F)) 𝒱₀ (c : Thread nD τ) none) Set.univ
          (atBufs cc0_body)
          (fun _ => iprop(Φ₁ m c ∗ ∃ W, owes (c : Thread nD τ) 0 W))) :
    ∀ c, BodyObligation (dats (F := F) m 0 c) (defs₀ (F := F)) 𝒱₀ () Set.univ := fun c t => by
  rw [fin_N t, bigSep_noWin, bigSep_noWin]
  show iprop(Φ₀ m c ∗ (dats m 0 c).owesAt () t₀.castSucc ∗ emp)
    ⊢ wp frame (wpE (defs₀ (F := F)) 𝒱₀ c none) Set.univ
        (atBufs cc0_body)
        (fun _ => iprop(Φ₁ m c ∗ (dats m 0 c).owesAt () t₀.succ ∗ emp))
  unfold Dat.owesAt Pipeline.owesWithin
  rw [show (dats m 0 c).owed t₀.castSucc = O₀ c from rfl, show (dats m 0 c).owed t₀.succ = 0 from rfl]
  refine BIBase.Entails.trans ?_ ((hspec c).trans (wp_mono _ _ _ fun _ => ?_))
  · iintro ⟨HΦ, ⟨%W, %hW, HO⟩, -⟩
    isplitl [HΦ]; · iexact HΦ
    iexists W; iexact HO
  · iintro ⟨HΦ, ⟨%W, HO⟩⟩
    isplitl [HΦ]; · iexact HΦ
    isplitl
    · iexists W; isplitr; · ipureintro; exact fun _ _ => Or.inl trivial
      iexact HO
    · iempintro

end Cert.Kernel.Proto

end
-- ==== Proof.Bits.Kit.lean ====
import proofs.«900598_g7700000000000599_dist_rsrms_v7x_xyz2x2x2_x_m512_d512_f32_1_alg».proof.Proof.Bits.Start
import Idealize.ShloMosaic.Lib.Pipeline.Value

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Held
variable {sp : Space} {s : Shape} {e : EltTy}

def held (v : View sig .tc sp s e) (c : Dev nD) (q : PosShare TreeShare) (x : s.Idx → Elt F e) : sProp 𝕄 :=
  iprop(∃ f : Buf (Elt F) (v.loc (c : Thread nD τ)), (v.loc (c : Thread nD τ) ↦[v.set]{q} f) ∗ ⌜v.read (Elt F) f = x⌝)

def heldAny (v : View sig .tc sp s e) (c : Dev nD) (q : PosShare TreeShare) : sProp 𝕄 :=
  iprop(∃ f : Buf (Elt F) (v.loc (c : Thread nD τ)), (v.loc (c : Thread nD τ) ↦[v.set]{q} f))

theorem eqOn_set_of_read_eq (v : View sig .tc sp s e) {f g : BufTy.Contents (Elt F) v.ty}
    (h : v.read (Elt F) f = v.read (Elt F) g) : ∀ i ∈ v.set, f i = g i := by
  intro i hi
  obtain ⟨y, rfl⟩ := View.exists_emb_of_mem_set v hi
  have := congrFun h y
  rw [View.read_apply, View.read_apply] at this
  exact (cast_inj _).mp this

theorem held_intro (v : View sig .tc sp s e) (c : Dev nD) (q : PosShare TreeShare) (f : Buf (Elt F) (v.loc (c : Thread nD τ))) :
    (v.loc (c : Thread nD τ) ↦[v.set]{q} f : sProp 𝕄) ⊢ held v c q (v.read (Elt F) f) := by
  unfold held; iintro H; iexists f; isplitl [H]; · iexact H
  ipureintro; rfl

theorem held_any (v : View sig .tc sp s e) (c : Dev nD) (q : PosShare TreeShare) (x : s.Idx → Elt F e) :
    held v c q x ⊢ heldAny v c q := by
  unfold held heldAny; iintro ⟨%f, H, -⟩; iexists f; iexact H

theorem held_canon (v : View sig .tc sp s e) (c : Dev nD) (q : PosShare TreeShare) (x : s.Idx → Elt F e)
    (base : Buf (Elt F) (v.loc (c : Thread nD τ))) :
    held v c q x ⊢ (v.loc (c : Thread nD τ) ↦[v.set]{q} (v.write (Elt F) base x Finset.univ) : sProp 𝕄) := by
  unfold held; iintro ⟨%f, H, %hf⟩
  rw [pointsTo_congr (eqOn_set_of_read_eq v (f := f) (g := v.write (Elt F) base x Finset.univ) (by rw [View.read_write_univ, hf]))]
  exact .rfl

theorem canon_held (v : View sig .tc sp s e) (c : Dev nD) (q : PosShare TreeShare) (x : s.Idx → Elt F e)
    (base : Buf (Elt F) (v.loc (c : Thread nD τ))) :
    (v.loc (c : Thread nD τ) ↦[v.set]{q} (v.write (Elt F) base x Finset.univ) : sProp 𝕄) ⊢ held v c q x := by
  unfold held; iintro H; iexists _; isplitl [H]; · iexact H
  ipureintro; exact View.read_write_univ _ _

end Held

end Cert.Kernel.Proto

end
-- ==== Proof.Bits.States.lean ====
import proofs.«900598_g7700000000000599_dist_rsrms_v7x_xyz2x2x2_x_m512_d512_f32_1_alg».proof.Proof.Bits.Kit

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def sndRest (c : Dev nD) : sProp 𝕄 :=
  iprop(∃ f, sndM.view.loc (c : Thread nD τ) ↦[sndM.view.set \ ((sndSl0 c).view.set ∪ (sndSl1 c).view.set ∪ (sndSl2 c).view.set ∪ (sndSl3 c).view.set ∪ (sndSl4 c).view.set ∪ (sndSl5 c).view.set ∪ (sndSl6 c).view.set ∪ (sndSl7 c).view.set ∪ (sndSl8 c).view.set ∪ (sndSl9 c).view.set)]{fullShare} f)

abbrev Nbig : ℕ := (locM : Memref sig .tc .vmem S512x512 .f32).view.dmaCredit
abbrev Ngv : ℕ := (gvM : Memref sig .tc .vmem S512 .f32).view.dmaCredit

def flightLocD (c : Dev nD) : sProp 𝕄 :=
  iprop(held locM.view c fullShare (LOC m c)
    ∗ ((srcLoc c).view.loc (c : Thread nD τ) ↦[(srcLoc c).view.set]{fullShare} m ((c : Thread nD τ).loc main_arg0)))
def flightGvD (c : Dev nD) : sProp 𝕄 :=
  iprop(held gvM.view c fullShare (GV m c)
    ∗ (a1M.view.loc (c : Thread nD τ) ↦[a1M.view.set]{fullShare} m ((c : Thread nD τ).loc main_arg1)))

def St2 (K : GSem nD τ sig → ℕ) (c : Dev nD) : sProp 𝕄 :=
  iprop(invs m K c
    ∗ known c
    ∗ levAts L lv
    ∗ reached ER (dcell (xp c) p1rS0) 0
    ∗ reached ER (dcell (xp c) p1rS1) 0
    ∗ reached ER (dcell (xp c) p1rS2) 0
    ∗ reached ER (dcell (xp c) p1rS3) 0
    ∗ reached ER (dcell (xp c) p1rS4) 0
    ∗ reached ER (dcell (xp c) p1rS5) 0
    ∗ reached ER (dcell (xp c) p1rS6) 0
    ∗ reached ER (dcell (xp c) p1rS7) 0
    ∗ reached ER (dcell (xp c) p1rS8) 0
    ∗ reached ER (dcell (xp c) p1rS9) 0
    ∗ (∃ W, owes (c : Thread nD τ) (owedAfter 3 c) W)
    ∗ dutyTok ER (dcell (xp c) p1rS0) 0 false
    ∗ dutyTok ER (dcell c p1sS0) 0 false
    ∗ dutyTok ER (dcell (xp c) p1rS1) 0 false
    ∗ dutyTok ER (dcell c p1sS1) 0 false
    ∗ dutyTok ER (dcell (xp c) p1rS2) 0 false
    ∗ dutyTok ER (dcell c p1sS2) 0 false
    ∗ dutyTok ER (dcell (xp c) p1rS3) 0 false
    ∗ dutyTok ER (dcell c p1sS3) 0 false
    ∗ dutyTok ER (dcell (xp c) p1rS4) 0 false
    ∗ dutyTok ER (dcell c p1sS4) 0 false
    ∗ dutyTok ER (dcell (xp c) p1rS5) 0 false
    ∗ dutyTok ER (dcell c p1sS5) 0 false
    ∗ dutyTok ER (dcell (xp c) p1rS6) 0 false
    ∗ dutyTok ER (dcell c p1sS6) 0 false
    ∗ dutyTok ER (dcell (xp c) p1rS7) 0 false
    ∗ dutyTok ER (dcell c p1sS7) 0 false
    ∗ dutyTok ER (dcell (xp c) p1rS8) 0 false
    ∗ dutyTok ER (dcell c p1sS8) 0 false
    ∗ dutyTok ER (dcell (xp c) p1rS9) 0 false
    ∗ dutyTok ER (dcell c p1sS9) 0 false
    ∗ dutyTok ER (dcell (yp c) p2rS0) 0 false
    ∗ dutyTok ER (dcell c p2sS0) 0 false
    ∗ dutyTok ER (dcell (zp c) p2rS1) 0 false
    ∗ dutyTok ER (dcell c p2sS1) 0 false
    ∗ dutyTok ER (dcell (yp c) p2rS2) 0 false
    ∗ dutyTok ER (dcell c p2sS2) 0 false
    ∗ dutyTok ER (dcell (zp c) p2rS3) 0 false
    ∗ dutyTok ER (dcell c p2sS3) 0 false
    ∗ dutyTok ER (dcell (yp c) p2rS4) 0 false
    ∗ dutyTok ER (dcell c p2sS4) 0 false
    ∗ dutyTok ER (dcell (zp c) p2rS5) 0 false
    ∗ dutyTok ER (dcell c p2sS5) 0 false
    ∗ atPos ER (barCell c) (0 + 1) ∅ 0
    ∗ atPos ER (yzCell c) 0 ∅ 0 ∗ cred (tallyAt (yzCell c) () 2)
    ∗ atPos ER (dcell c p1rS0) 0 ∅ 0 ∗ cred (tallyAt (dcell c p1rS0) () N48)
    ∗ atPos ER (dcell c p1sS0) 0 ∅ 0
    ∗ atPos ER (dcell c p1rS1) 0 ∅ 0 ∗ cred (tallyAt (dcell c p1rS1) () N48)
    ∗ atPos ER (dcell c p1sS1) 0 ∅ 0
    ∗ atPos ER (dcell c p1rS2) 0 ∅ 0 ∗ cred (tallyAt (dcell c p1rS2) () N40)
    ∗ atPos ER (dcell c p1sS2) 0 ∅ 0
    ∗ atPos ER (dcell c p1rS3) 0 ∅ 0 ∗ cred (tallyAt (dcell c p1rS3) () N40)
    ∗ atPos ER (dcell c p1sS3) 0 ∅ 0
    ∗ atPos ER (dcell c p1rS4) 0 ∅ 0 ∗ cred (tallyAt (dcell c p1rS4) () N16)
    ∗ atPos ER (dcell c p1sS4) 0 ∅ 0
    ∗ atPos ER (dcell c p1rS5) 0 ∅ 0 ∗ cred (tallyAt (dcell c p1rS5) () N16)
    ∗ atPos ER (dcell c p1sS5) 0 ∅ 0
    ∗ atPos ER (dcell c p1rS6) 0 ∅ 0 ∗ cred (tallyAt (dcell c p1rS6) () N24)
    ∗ atPos ER (dcell c p1sS6) 0 ∅ 0
    ∗ atPos ER (dcell c p1rS7) 0 ∅ 0 ∗ cred (tallyAt (dcell c p1rS7) () N24)
    ∗ atPos ER (dcell c p1sS7) 0 ∅ 0
    ∗ atPos ER (dcell c p1rS8) 0 ∅ 0 ∗ cred (tallyAt (dcell c p1rS8) () N24)
    ∗ atPos ER (dcell c p1sS8) 0 ∅ 0
    ∗ atPos ER (dcell c p1rS9) 0 ∅ 0 ∗ cred (tallyAt (dcell c p1rS9) () N24)
    ∗ atPos ER (dcell c p1sS9) 0 ∅ 0
    ∗ atPos ER (dcell c p2rS0) 0 ∅ 0 ∗ cred (tallyAt (dcell c p2rS0) () N48)
    ∗ atPos ER (dcell c p2sS0) 0 ∅ 0
    ∗ atPos ER (dcell c p2rS1) 0 ∅ 0 ∗ cred (tallyAt (dcell c p2rS1) () N48)
    ∗ atPos ER (dcell c p2sS1) 0 ∅ 0
    ∗ atPos ER (dcell c p2rS2) 0 ∅ 0 ∗ cred (tallyAt (dcell c p2rS2) () N40)
    ∗ atPos ER (dcell c p2sS2) 0 ∅ 0
    ∗ atPos ER (dcell c p2rS3) 0 ∅ 0 ∗ cred (tallyAt (dcell c p2rS3) () N40)
    ∗ atPos ER (dcell c p2sS3) 0 ∅ 0
    ∗ atPos ER (dcell c p2rS4) 0 ∅ 0 ∗ cred (tallyAt (dcell c p2rS4) () N16)
    ∗ atPos ER (dcell c p2sS4) 0 ∅ 0
    ∗ atPos ER (dcell c p2rS5) 0 ∅ 0 ∗ cred (tallyAt (dcell c p2rS5) () N16)
    ∗ atPos ER (dcell c p2sS5) 0 ∅ 0
    ∗ semVal (dcell c inS0) 0
    ∗ Transfers.Flight countersEmb (c : Thread nD τ) (.dma inS1) () Nbig (flightLocD m c)
    ∗ Transfers.Flight countersEmb (c : Thread nD τ) (.dma inS2) () Ngv (flightGvD m c)
    ∗ semVal (dcell c outS0) 0
    ∗ semVal (dcell c outS1) 0
    ∗ semVal (dcell c outS2) 0
    ∗ semVal (dcell c outS3) 0
    ∗ semVal (dcell c outS4) 0
    ∗ ((srcSend c).view.loc (c : Thread nD τ) ↦[(srcSend c).view.set]{fullShare} m ((c : Thread nD τ).loc main_arg0))
    ∗ (outM.view.loc (c : Thread nD τ) ↦[outM.view.set]{fullShare} m ((c : Thread nD τ).loc main_v1))
    ∗ held (sndSl0 c).view c fullShare (sndv0 m c)
    ∗ held (sndSl1 c).view c fullShare (sndv1 m c)
    ∗ held (sndSl2 c).view c fullShare (sndv2 m c)
    ∗ held (sndSl3 c).view c fullShare (sndv3 m c)
    ∗ held (sndSl4 c).view c fullShare (sndv4 m c)
    ∗ held (sndSl5 c).view c fullShare (sndv5 m c)
    ∗ held (sndSl6 c).view c fullShare (sndv6 m c)
    ∗ held (sndSl7 c).view c fullShare (sndv7 m c)
    ∗ held (sndSl8 c).view c fullShare (sndv8 m c)
    ∗ held (sndSl9 c).view c fullShare (sndv9 m c)
    ∗ sndRest c
    ∗ heldAny (ovSl0 c).view c fullShare
    ∗ heldAny cmSl0.view (xp c) fullShare
    ∗ heldAny (ovSl1 c).view c fullShare
    ∗ heldAny cmSl1.view (xp c) fullShare
    ∗ heldAny (ovSl2 c).view c fullShare
    ∗ heldAny cmSl2.view (xp c) fullShare
    ∗ heldAny (ovSl3 c).view c fullShare
    ∗ heldAny cmSl3.view (xp c) fullShare
    ∗ heldAny (ovSl4 c).view c fullShare
    ∗ heldAny cmSl4.view (xp c) fullShare
    ∗ heldAny (ovSl5 c).view c fullShare
    ∗ heldAny cmSl5.view (xp c) fullShare
    ∗ heldAny (ovSl6 c).view c fullShare
    ∗ heldAny cmSl6.view (xp c) fullShare
    ∗ heldAny (ovSl7 c).view c fullShare
    ∗ heldAny cmSl7.view (xp c) fullShare
    ∗ heldAny (ovSl8 c).view c fullShare
    ∗ heldAny cmSl8.view (xp c) fullShare
    ∗ heldAny (ovSl9 c).view c fullShare
    ∗ heldAny cmSl9.view (xp c) fullShare)

end Cert.Kernel.Proto

end
-- ==== Proof.Bits.Ctx.lean ====
import proofs.«900598_g7700000000000599_dist_rsrms_v7x_xyz2x2x2_x_m512_d512_f32_1_alg».proof.Proof.Bits.States

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem bigSepL_persistent {I : Type} (Φ : I → sProp 𝕄) [∀ i, BI.Persistent (Φ i)] : ∀ l : List I, BI.Persistent (bigSepL l Φ)
  | [] => by show BI.Persistent (BIBase.emp : sProp 𝕄); infer_instance
  | i :: l => by
    rw [bigSepL_cons]
    haveI := bigSepL_persistent Φ l
    show BI.Persistent (BIBase.sep (Φ i) (bigSepL l Φ) : sProp 𝕄)
    infer_instance

theorem bigSepL_get {I : Type} (Φ : I → sProp 𝕄) [∀ i, BI.Persistent (Φ i)] : ∀ (l : List I) (g : I), g ∈ l → bigSepL l Φ ⊢ Φ g
  | [], g, h => absurd h (List.not_mem_nil)
  | i :: l, g, h => by
    rw [bigSepL_cons]
    haveI := bigSepL_persistent Φ l
    show iprop(Φ i ∗ bigSepL l Φ) ⊢ Φ g
    rcases List.mem_cons.mp h with rfl | h'
    · iintro ⟨#H, #H2⟩; iexact H
    · iintro ⟨#H, #H2⟩; iapply (bigSepL_get Φ l g h'); iexact H2

instance invs_persistent (K : GSem nD τ sig → ℕ) (c : Dev nD) : BI.Persistent (invs m K c) := by
  unfold invs; exact bigSepL_persistent _ _
instance known_persistent (c : Dev nD) : BI.Persistent (known c : sProp 𝕄) := by
  unfold known; exact bigSepL_persistent _ _

theorem invs_get (K : GSem nD τ sig → ℕ) (c : Dev nD) (g : GSem nD τ sig) (h : g ∈ ownCells c ++ paidCells c) :
    invs m K c ⊢ cellInv ER (Rd m) (K g) g := by
  unfold invs; exact bigSepL_get (fun g => cellInv ER (Rd m) (K g) g) _ g h
theorem known_get (c : Dev nD) (g : GSem nD τ sig) (h : g ∈ knownCells c) : (known c : sProp 𝕄) ⊢ reached ER g 0 := by
  unfold known; exact bigSepL_get (fun g => (reached ER g 0 : sProp 𝕄)) _ g h

end Cert.Kernel.Proto

end
-- ==== Proof.Bits.KitRounds.lean ====
import proofs.«900598_g7700000000000599_dist_rsrms_v7x_xyz2x2x2_x_m512_d512_f32_1_alg».proof.Proof.Bits.Kit

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- A copy to another device: the sender gives up the source rows and the landing rows, is credited on its send side, and has paid what it owed the receiver.
theorem kit_send {s : Shape} {src dst : Memref sig .tc .vmem s .f32} {sS rS : DmaSem sig} (c c' : Dev nD) {d : Dev nD} (hd : d = c')
    {hsc : dst.view.ref.isScScratch = false} {hsrc : src.view.WordExact} {hdst : dst.view.WordExact}
    {hsem : DmaTarget.Typed .vmem (.dma rS) (.remote (Dev.tc d : Thread nD τ) dst (.dma sS) hsc)}
    {α : Type} {Q : α → sProp 𝕄} {k : PUnit → Prog (TpuEff nD τ sig (Elt F) Λ₀ .tc) α}
    (N : ℕ) (q : PosShare TreeShare) (x : s.Idx → Elt F .f32)
    (bs : Buf (Elt F) (src.view.loc (c : Thread nD τ))) (bd : Buf (Elt F) (dst.view.loc (c' : Thread nD τ)))
    (h8s : 8 ≤ sS.val) (h8r : 8 ≤ rS.val) (hNs : dmaAmt sS.val = N) (hNr : dmaAmt rS.val = N)
    (hN : dst.view.amount (.dma rS) = N)
    (hps : dmaPay m sS.val c = (src.view.loc (c : Thread nD τ) ↦[src.view.set]{q} src.view.write (Elt F) bs x Finset.univ))
    (hpr : dmaPay m rS.val c' = (dst.view.loc (c' : Thread nD τ) ↦[dst.view.set]{fullShare} dst.view.write (Elt F) bd x Finset.univ))
    (O : CellTallies nD τ sig Unit) (W : Waits sig Unit) (κ₁ κ₂ : ℕ) :
    iprop(cellInv ER (Rd m) κ₁ (dcell c sS) ∗ cellInv ER (Rd m) κ₂ (dcell c' rS) ∗ held src.view c q x ∗ heldAny (F := F) dst.view c' fullShare
        ∗ owes (c : Thread nD τ) (O + tallyAt (dcell c' rS) () N) W
        ∗ dutyTok ER (dcell c sS) 0 false ∗ reached ER (dcell c sS) 0
        ∗ dutyTok ER (dcell c' rS) 0 false ∗ reached ER (dcell c' rS) 0)
      ⊢ iprop(((cred (tallyAt (dcell c sS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc d : Thread nD τ) dst (.dma sS) hsc) (.dma rS) hsrc hdst hsem) k) Q) := by
  subst hd
  unfold held heldAny
  iintro ⟨Hg₁, Hg₂, ⟨%fs, Hs, %hfs⟩, ⟨%fd, Hd⟩, HO, Ht₁, Hr₁, Ht₂, Hr₂⟩
  subst hfs
  iapply (Rounds.wp_send_pointsTo 𝒱₀ ER (Rd m) (c : Thread nD τ) none (κ₁ := κ₁) (κ₂ := κ₂)
    (r₁ := 0) (r₂ := 0) (d₁ := false) (d₂ := false) (fs := fs) (fd := fd)
    (by rw [duties_dma m c sS h8s]; exact Finset.mem_singleton_self _) (by rw [duties_dma m d rS h8r]; exact Finset.mem_singleton_self _)
    () () N hN ((amount_dma m c sS false).trans hNs) ((amount_dma m d rS false).trans hNr) O rfl (W := W)
    (by rw [payload_dma, hps]; exact (held_intro src.view c q fs).trans (held_canon src.view c q _ bs))
    (by rw [payload_dma, hpr]; exact (canon_held dst.view d fullShare _ fd).trans (held_canon dst.view d fullShare _ bd)))
  isplitl [Hg₁]; · iexact Hg₁
  isplitl [Hg₂]; · iexact Hg₂
  isplitl [Hs]; · iexact Hs
  isplitl [Hd]; · iexact Hd
  isplitl [HO]; · iexact HO
  isplitl [Ht₁]; · iexact Ht₁
  isplitl [Hr₁]; · iexact Hr₁
  isplitl [Ht₂]; · iexact Ht₂
  iexact Hr₂

-- Waiting for the whole round of a cell of one's own hands over the round's rows and closes the cell.
theorem kit_wait_dma {sp : Space} {sh : Shape} (v : View sig .tc sp sh .f32) (c : Dev nD) (s : DmaSem sig) (h8 : 8 ≤ s.val)
    {sp₁ sp₂ : Space} {s₁ s₂ : Shape} {e₁ e₂ : EltTy} {κ' : Kind}
    {srcw : Memref sig .tc sp₁ s₁ e₁} {dstw : Memref sig κ' sp₂ s₂ e₂} {hsrc : srcw.view.WordExact} {hdst : dstw.view.WordExact}
    {α : Type} {Q : α → sProp 𝕄} {k : PUnit → Prog (TpuEff nD τ sig (Elt F) Λ₀ .tc) α}
    (N : ℕ) (hN : dmaAmt s.val = N) (hcr : dstw.view.dmaCredit = N)
    (q : PosShare TreeShare) (x : sh.Idx → Elt F .f32) (b : Buf (Elt F) (v.loc (c : Thread nD τ)))
    (hp : dmaPay m s.val c = (v.loc (c : Thread nD τ) ↦[v.set]{q} v.write (Elt F) b x Finset.univ))
    (O : CellTallies nD τ sig Unit) (W : Waits sig Unit) (κ : ℕ) :
    iprop(cellInv ER (Rd m) κ (dcell c s) ∗ cred (tallyAt (dcell c s) () N) ∗ owes (c : Thread nD τ) O W
        ∗ MayWait (c : Thread nD τ) (.dma s) () O ∗ atPos ER (dcell c s) 0 ∅ 0)
      ⊢ iprop(((owes (c : Thread nD τ) O (insert (SemLoc.dma s, ()) W) ∗ semVal (dcell c s) 0 ∗ held v c q x) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s srcw dstw hsrc hdst) k) Q) := by
  subst hcr
  iintro ⟨#Hg, Hc, HO, Hmw, Hat⟩ Hk
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, expect_dma m c s h8, hN])) $$ [Hc HO Hmw Hat]
  · isplitr; · iexact Hg
    isplitl [Hc]; · iexact Hc
    isplitl [HO]; · iexact HO
    isplitl [Hmw]; · iexact Hmw
    iexact Hat
  iintro ⟨HO, Hat, -, Hpay⟩
  ihave Hp := (Entails.of_eq ((rest_dma m c s h8).trans hp)) $$ Hpay
  imod (Rounds.cell_close ER (Rd m) (Set.mem_univ κ) (fun h => h) (R := 0 + 1) (duties_later m (dcell c s))) $$ [Hat] with Hz
  · isplitr; · iexact Hg
    iexact Hat
  iapply Hk
  isplitl [HO]; · iexact HO
  isplitl [Hz]; · iexact Hz
  iapply (canon_held v c q x b)
  iexact Hp

-- One unit signalled to a neighbour's handshake cell pays the signaller's duty there.
theorem kit_signal_gen (c t : Dev nD) {d' : Dev nD} (hd : d' = t) (sem : Sem sig) (dt : Bool) (P : sProp 𝕄) {n : ℕ} (hn : n = 1)
    (hdt : dt ∈ (Rd m).duties ((t : Thread nD τ), .reg sem) 0) (hP : (Rd m).payload ((t : Thread nD τ), .reg sem) 0 dt = P)
    {α : Type} {Q : α → sProp 𝕄} {k : PUnit → Prog (TpuEff nD τ sig (Elt F) Λ₀ .tc) α}
    (O : CellTallies nD τ sig Unit) (W : Waits sig Unit) (κ : ℕ) :
    iprop(cellInv ER (Rd m) κ ((t : Thread nD τ), .reg sem) ∗ owes (c : Thread nD τ) (O + tallyAt ((t : Thread nD τ), .reg sem) () 1) W
        ∗ dutyTok ER ((t : Thread nD τ), .reg sem) 0 dt ∗ P ∗ reached ER ((t : Thread nD τ), .reg sem) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d' : Thread nD τ) sem n) k) Q) := by
  subst hd; subst hn; subst hP
  exact Rounds.wp_signal 𝒱₀ ER (Rd m) (c : Thread nD τ) none (dst := (d' : Thread nD τ)) (κ := κ) (r := 0) (d := dt) hdt rfl () O rfl (W := W)

theorem kit_signal_bar (c : Dev nD) {d' : Dev nD} (hd : d' = xp c) {n : ℕ} (hn : n = 1)
    {α : Type} {Q : α → sProp 𝕄} {k : PUnit → Prog (TpuEff nD τ sig (Elt F) Λ₀ .tc) α}
    (O : CellTallies nD τ sig Unit) (W : Waits sig Unit) (κ : ℕ) :
    iprop(cellInv ER (Rd m) κ (barCell (xp c)) ∗ owes (c : Thread nD τ) (O + tallyAt (barCell (xp c)) () 1) W
        ∗ dutyTok ER (barCell (xp c)) 0 false ∗ barPay (F := F) (xp c) ∗ reached ER (barCell (xp c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d' : Thread nD τ) barS n) k) Q) :=
  kit_signal_gen m c (xp c) hd barS false (barPay (xp c)) hn (by rw [duties_bar]; exact Finset.mem_singleton_self _) (payload_bar m (xp c) false) O W κ

theorem kit_signal_y (c : Dev nD) {d' : Dev nD} (hd : d' = yp c) {n : ℕ} (hn : n = 1)
    {α : Type} {Q : α → sProp 𝕄} {k : PUnit → Prog (TpuEff nD τ sig (Elt F) Λ₀ .tc) α}
    (O : CellTallies nD τ sig Unit) (W : Waits sig Unit) (κ : ℕ) :
    iprop(cellInv ER (Rd m) κ (yzCell (yp c)) ∗ owes (c : Thread nD τ) (O + tallyAt (yzCell (yp c)) () 1) W
        ∗ dutyTok ER (yzCell (yp c)) 0 false ∗ yPay (F := F) (yp c) ∗ reached ER (yzCell (yp c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d' : Thread nD τ) yzS n) k) Q) :=
  kit_signal_gen m c (yp c) hd yzS false (yPay (yp c)) hn (by rw [duties_yz]; exact Finset.mem_univ _) (payload_yz_false m (yp c)) O W κ

theorem kit_signal_z (c : Dev nD) {d' : Dev nD} (hd : d' = zp c) {n : ℕ} (hn : n = 1)
    {α : Type} {Q : α → sProp 𝕄} {k : PUnit → Prog (TpuEff nD τ sig (Elt F) Λ₀ .tc) α}
    (O : CellTallies nD τ sig Unit) (W : Waits sig Unit) (κ : ℕ) :
    iprop(cellInv ER (Rd m) κ (yzCell (zp c)) ∗ owes (c : Thread nD τ) (O + tallyAt (yzCell (zp c)) () 1) W
        ∗ dutyTok ER (yzCell (zp c)) 0 true ∗ zPay (F := F) (zp c) ∗ reached ER (yzCell (zp c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d' : Thread nD τ) yzS n) k) Q) :=
  kit_signal_gen m c (zp c) hd yzS true (zPay (zp c)) hn (by rw [duties_yz]; exact Finset.mem_univ _) (payload_yz_true m (zp c)) O W κ

theorem kit_wait_bar (c : Dev nD) {n : ℕ} (hn : n = 1)
    {α : Type} {Q : α → sProp 𝕄} {k : PUnit → Prog (TpuEff nD τ sig (Elt F) Λ₀ .tc) α}
    (O : CellTallies nD τ sig Unit) (W : Waits sig Unit) (κ : ℕ) :
    iprop(cellInv ER (Rd m) κ (barCell c) ∗ cred (tallyAt (barCell c) () 1) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ barPay (F := F) c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro ⟨#Hg, Hc, HO, Hmw, Hat⟩ Hk
  iapply (Rounds.wp_wait_rest_token 𝒱₀ ER (Rd m) (c : Thread nD τ) none (κ := κ)
      (wpE_semWait_eq 𝒱₀ (c : Thread nD τ) none Set.univ) (Set.mem_univ _) () (O := O) (W := W) (R := 0) (m := 0) (T := ∅)
      (by rw [expect_bar])) $$ [Hc HO Hmw Hat]
  · isplitr; · iexact Hg
    isplitl [Hc]; · iexact Hc
    isplitl [HO]; · iexact HO
    isplitl [Hmw]; · iexact Hmw
    iexact Hat
  iintro ⟨HO, Hat, -, Hpay⟩
  ihave Hp := (Entails.of_eq (rest_bar m c)) $$ Hpay
  iapply Hk
  isplitl [HO]; · iexact HO
  isplitl [Hat]; · iexact Hat
  iexact Hp

-- The handshake wait hands over what both neighbours stated when they signalled.
theorem kit_wait_yz (c : Dev nD) {n : ℕ} (hn : n = 2)
    {α : Type} {Q : α → sProp 𝕄} {k : PUnit → Prog (TpuEff nD τ sig (Elt F) Λ₀ .tc) α}
    (O : CellTallies nD τ sig Unit) (W : Waits sig Unit) (κ : ℕ) :
    iprop(cellInv ER (Rd m) κ (yzCell c) ∗ cred (tallyAt (yzCell c) () 2) ∗ owes (c : Thread nD τ) O W
        ∗ MayWait (c : Thread nD τ) (.reg yzS) () O ∗ atPos ER (yzCell c) 0 ∅ 0)
      ⊢ iprop(((owes (c : Thread nD τ) O (insert (SemLoc.reg yzS, ()) W) ∗ semVal (yzCell c) 0 ∗ yPay (F := F) c ∗ zPay (F := F) c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait yzS n) k) Q) := by
  subst hn
  iintro ⟨#Hg, Hc, HO, Hmw, Hat⟩ Hk
  iapply (Rounds.wp_wait_rest_token 𝒱₀ ER (Rd m) (c : Thread nD τ) none (κ := κ)
      (wpE_semWait_eq 𝒱₀ (c : Thread nD τ) none Set.univ) (Set.mem_univ _) () (O := O) (W := W) (R := 0) (m := 0) (T := ∅)
      (by rw [expect_yz])) $$ [Hc HO Hmw Hat]
  · isplitr; · iexact Hg
    isplitl [Hc]; · iexact Hc
    isplitl [HO]; · iexact HO
    isplitl [Hmw]; · iexact Hmw
    iexact Hat
  iintro ⟨HO, Hat, -, Hpay⟩
  ihave Hp := (Entails.of_eq (rest_yz m c)) $$ Hpay
  imod (Rounds.cell_close ER (Rd m) (Set.mem_univ κ) (fun h => h) (R := 0 + 1) (duties_later m (yzCell c))) $$ [Hat] with Hz
  · isplitr; · iexact Hg
    iexact Hat
  iapply Hk
  isplitl [HO]; · iexact HO
  isplitl [Hz]; · iexact Hz
  iexact Hp

end Cert.Kernel.Proto

end
-- ==== Proof.Bits.KitLocal.lean ====
import proofs.«900598_g7700000000000599_dist_rsrms_v7x_xyz2x2x2_x_m512_d512_f32_1_alg».proof.Proof.Bits.Kit
import Idealize.ShloMosaic.Lib.Transfers

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section LoadStore
variable {α : Type} {cs : CoreSpace} {S : Shape} {e : EltTy}

theorem kit_load (M : Memref sig .tc cs S e) (R : Rect S) (c : Dev nD) (q : PosShare TreeShare) (x : R.shape.Idx → Elt F e)
    {hl : M.view.LoadsAt R.toLoadRect} {k : (R.shape.Idx → Elt F e) → Prog (TpuEff nD τ sig (Elt F) Λ₀ .tc) α} {Q : α → sProp 𝕄} :
    held (M.access R) c q x
      ⊢ iprop((held (M.access R) c q x -∗ wp frame (wpE (defs₀ (F := F)) 𝒱₀ (c : Thread nD τ) none) Set.univ (k x) Q)
          -∗ wp frame (wpE (defs₀ (F := F)) 𝒱₀ (c : Thread nD τ) none) Set.univ (.op (.load M R.toLoadRect hl) k) Q) := by
  unfold held
  iintro ⟨%f, H, %hf⟩ Hk
  subst hf
  iapply (wp_load_rect 𝒱₀ (c : Thread nD τ) none Set.univ (m := M) (r := R) (hl := hl) (Finset.Subset.refl _)) $$ H
  iintro H
  iapply Hk
  iexists f
  isplitl [H]; · iexact H
  ipureintro; rfl

theorem kit_store (M : Memref sig .tc cs S e) (R : Rect S) (c : Dev nD) (w : R.shape.Idx → Elt F e)
    {hx : (M.access R).Stores Finset.univ} {hm : (Finset.univ : Finset R.shape.Idx) = Finset.univ ∨ ∀ a, R.stride a = 1}
    {k : PUnit → Prog (TpuEff nD τ sig (Elt F) Λ₀ .tc) α} {Q : α → sProp 𝕄} :
    heldAny (F := F) (M.access R) c fullShare
      ⊢ iprop((held (M.access R) c fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M R w Finset.univ hx hm) k) Q) := by
  unfold heldAny
  iintro ⟨%f, H⟩ Hk
  iapply (wp_store 𝒱₀ (c : Thread nD τ) none Set.univ (m := M) (r := R) (w := w) (Mk := Finset.univ) (hx := hx) (hm := hm)
    (S := (M.access R).set) (by rw [View.setOn_univ])) $$ H
  iintro H
  iapply Hk
  iapply (canon_held (M.access R) c fullShare w f) $$ H

end LoadStore

section Dma
variable {α : Type} {sp sp' : Space} {s : Shape} {e : EltTy}

theorem kit_dma_issue_at (src : Memref sig .tc sp s e) (dst : Memref sig .tc sp' s e) (sm : DmaSem sig) (c : Dev nD)
    (q : PosShare TreeShare) (fs : Buf (Elt F) (src.view.loc (c : Thread nD τ))) (N : ℕ) (hN : dst.view.amount (.dma sm) = N) (hN0 : 0 < N)
    {hsrc : src.view.WordExact} {hdst : dst.view.WordExact} {hsem : (DmaTarget.here dst : DmaTarget nD τ sig .tc sp' s e).Typed sp (.dma sm)}
    {k : PUnit → Prog (TpuEff nD τ sig (Elt F) Λ₀ .tc) α} {Q : α → sProp 𝕄} :
    iprop((src.view.loc (c : Thread nD τ) ↦[src.view.set]{q} fs) ∗ heldAny (F := F) dst.view c fullShare ∗ semVal (dcell c sm) 0)
      ⊢ iprop((Transfers.Flight countersEmb (c : Thread nD τ) (.dma sm) () N
                iprop(held dst.view c fullShare (src.view.read (Elt F) fs) ∗ (src.view.loc (c : Thread nD τ) ↦[src.view.set]{q} fs))
              -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sm) hsrc hdst hsem) k) Q) := by
  unfold heldAny
  iintro ⟨Hs, ⟨%fd, Hd⟩, Hv⟩ Hk
  iapply (Transfers.wp_dmaLocal countersEmb 𝒱₀ (c : Thread nD τ) none (src := src) (via := .same) (dst := dst) (sm := .dma sm)
    (hsrc := hsrc) (hdst := hdst) (hsem := hsem) (q := q) (fs := fs) (Sd := dst.view.set) (fd := fd) () N hN hN0 (Finset.Subset.refl _)) $$ [Hs Hd Hv]
  · isplitl [Hs]; · iexact Hs
    isplitl [Hd]; · iexact Hd
    iexact Hv
  iintro Hf
  iapply Hk
  iapply (Transfers.Flight_mono countersEmb (c : Thread nD τ) ?_) $$ Hf
  iintro ⟨Hd, Hs⟩
  isplitl [Hd]
  · iapply (canon_held dst.view c fullShare (src.view.read (Elt F) fs) fd) $$ Hd
  · iexact Hs

theorem kit_dma_issue (src : Memref sig .tc sp s e) (dst : Memref sig .tc sp' s e) (sm : DmaSem sig) (c : Dev nD)
    (q : PosShare TreeShare) (x : s.Idx → Elt F e) (N : ℕ) (hN : dst.view.amount (.dma sm) = N) (hN0 : 0 < N)
    {hsrc : src.view.WordExact} {hdst : dst.view.WordExact} {hsem : (DmaTarget.here dst : DmaTarget nD τ sig .tc sp' s e).Typed sp (.dma sm)}
    {k : PUnit → Prog (TpuEff nD τ sig (Elt F) Λ₀ .tc) α} {Q : α → sProp 𝕄} :
    iprop(held src.view c q x ∗ heldAny (F := F) dst.view c fullShare ∗ semVal (dcell c sm) 0)
      ⊢ iprop((Transfers.Flight countersEmb (c : Thread nD τ) (.dma sm) () N iprop(held dst.view c fullShare x ∗ held src.view c q x)
              -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sm) hsrc hdst hsem) k) Q) := by
  unfold held heldAny
  iintro ⟨⟨%fs, Hs, %hfs⟩, ⟨%fd, Hd⟩, Hv⟩ Hk
  subst hfs
  iapply (Transfers.wp_dmaLocal countersEmb 𝒱₀ (c : Thread nD τ) none (src := src) (via := .same) (dst := dst) (sm := .dma sm)
    (hsrc := hsrc) (hdst := hdst) (hsem := hsem) (q := q) (fs := fs) (Sd := dst.view.set) (fd := fd) () N hN hN0 (Finset.Subset.refl _)) $$ [Hs Hd Hv]
  · isplitl [Hs]; · iexact Hs
    isplitl [Hd]; · iexact Hd
    iexact Hv
  iintro Hf
  iapply Hk
  iapply (Transfers.Flight_mono countersEmb (c : Thread nD τ) ?_) $$ Hf
  iintro ⟨Hd, Hs⟩
  isplitl [Hd]
  · iexists _
    isplitl [Hd]; · iexact Hd
    ipureintro; exact View.read_write_univ _ _
  · iexists fs
    isplitl [Hs]; · iexact Hs
    ipureintro; rfl

theorem kit_dma_wait {s' : Shape} {e' : EltTy} {κ' : Kind} (sm : DmaSem sig) (c : Dev nD) (N : ℕ) (D : sProp 𝕄)
    (O : CellTallies nD τ sig Unit) (W : Waits sig Unit)
    {srcw : Memref sig .tc sp' s' e'} {dstw : Memref sig κ' sp s e} (hcr : dstw.view.dmaCredit = N)
    {hsrc : srcw.view.WordExact} {hdst : dstw.view.WordExact}
    {k : PUnit → Prog (TpuEff nD τ sig (Elt F) Λ₀ .tc) α} {Q : α → sProp 𝕄} :
    iprop(Transfers.Flight countersEmb (c : Thread nD τ) (.dma sm) () N D ∗ owes (c : Thread nD τ) O W ∗ MayWait (c : Thread nD τ) (.dma sm) () O)
      ⊢ iprop((iprop(D ∗ semVal (dcell c sm) 0 ∗ owes (c : Thread nD τ) O (insert (SemLoc.dma sm, ()) W))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dstw hsrc hdst) k) Q) :=
  Transfers.wp_waitLocalO countersEmb 𝒱₀ (c : Thread nD τ) none () hcr

end Dma

section HeldEq
variable {sp : Space} {s : Shape} {e : EltTy}

-- Holding rows is invariant under equal views and equal contents.
theorem held_of_eq {v v' : View sig .tc sp s e} (hv : v = v') {x x' : s.Idx → Elt F e} (hx : x = x') (c : Dev nD) (q : PosShare TreeShare) :
    held (F := F) v c q x ⊢ held (F := F) v' c q x' := by
  subst hv; subst hx; exact .rfl

theorem heldAny_of_eq {v v' : View sig .tc sp s e} (hv : v = v') (c : Dev nD) (q : PosShare TreeShare) :
    heldAny (F := F) v c q ⊢ heldAny (F := F) v' c q := by
  subst hv; exact .rfl

-- Rows held at some contents are held at a named one.
theorem heldAny_ex (v : View sig .tc sp s e) (c : Dev nD) (q : PosShare TreeShare) :
    heldAny (F := F) v c q ⊢ iprop(∃ x, held (F := F) v c q x) := by
  unfold heldAny
  iintro ⟨%f, H⟩
  iexists (v.read (Elt F) f)
  iapply (held_intro v c q f) $$ H

end HeldEq

theorem gv_readAt (x : Vec F S512 .f32) :
    gvM.view.readAt (Elt F) (Rect.unit (s := S512) ![0] S512.size inb_S512_S512_0).toLoadRect x = x :=
  Memref.readAt_unit_zero (Elt F) cc0_scratch2 (by funext a; fin_cases a; rfl) _ x

end Cert.Kernel.Proto

end
-- ==== Proof.Bits.Offs.lean ====
import proofs.«900598_g7700000000000599_dist_rsrms_v7x_xyz2x2x2_x_m512_d512_f32_1_alg».proof.Proof.Bits.Base

noncomputable section

namespace Cert.Kernel.Offs

open Cert.Kernel Cert.Kernel.Gen Cert.Kernel.Proto
open Idealize.ShloMosaic

-- A device's first coordinate and the parity of its other two decide every offset.
def xOf (d : Dev nD) : Nat := d.val / 4

def sOf (d : Dev nD) : Nat := ((d.val / 2) % 2 + d.val % 2) % 2

theorem xOf_lt (d : Dev nD) : xOf d < 2 := by
  have := d.isLt; simp only [nD] at this; unfold xOf; omega
theorem sOf_lt (d : Dev nD) : sOf d < 2 := by unfold sOf; omega

theorem xOf_xp (c : Dev nD) : xOf (xp c) = 1 - xOf c := by
  unfold xOf; rw [xp_val]; have := c.isLt; simp only [nD] at this; omega
theorem sOf_xp (c : Dev nD) : sOf (xp c) = sOf c := by
  unfold sOf; rw [xp_val]; have := c.isLt; simp only [nD] at this; omega
theorem xOf_yp (c : Dev nD) : xOf (yp c) = xOf c := by
  unfold xOf; rw [yp_val]; have := c.isLt; simp only [nD] at this; omega
theorem sOf_yp (c : Dev nD) : sOf (yp c) = 1 - sOf c := by
  unfold sOf; rw [yp_val]; have := c.isLt; simp only [nD] at this; omega
theorem xOf_zp (c : Dev nD) : xOf (zp c) = xOf c := by
  unfold xOf; rw [zp_val]; have := c.isLt; simp only [nD] at this; omega
theorem sOf_zp (c : Dev nD) : sOf (zp c) = 1 - sOf c := by
  unfold sOf; rw [zp_val]; have := c.isLt; simp only [nD] at this; omega

theorem off1_eq (d : Dev nD) : k0_off1 d = ![0, 512 - 512 * xOf d, 0] := Gen.k0_off1_eq d
theorem off2_eq (d : Dev nD) : k0_off2 d = ![0, 512 * xOf d, 0] := Gen.k0_off2_eq d
theorem off3_0 : ∀ d : Dev nD, k0_off3 d 0#32 = ![256 * sOf d + 0, 0] := by decide +kernel
theorem off3_128 : ∀ d : Dev nD, k0_off3 d 128#32 = ![256 * sOf d + 128, 0] := by decide +kernel
theorem off4_48 : ∀ d : Dev nD, k0_off4 d 48#32 = ![256 * sOf d + 48, 0] := by decide +kernel
theorem off4_176 : ∀ d : Dev nD, k0_off4 d 176#32 = ![256 * sOf d + 176, 0] := by decide +kernel
theorem off5_88 : ∀ d : Dev nD, k0_off5 d 88#32 = ![256 * sOf d + 88, 0] := by decide +kernel
theorem off5_216 : ∀ d : Dev nD, k0_off5 d 216#32 = ![256 * sOf d + 216, 0] := by decide +kernel
theorem off6_104 : ∀ d : Dev nD, k0_off6 d 104#32 = ![256 * sOf d + 104, 0] := by decide +kernel
theorem off6_232 : ∀ d : Dev nD, k0_off6 d 232#32 = ![256 * sOf d + 232, 0] := by decide +kernel
theorem off8_0 : ∀ d : Dev nD, k0_off8 d 0#32 = ![256 * sOf d + 0, 0] := by decide +kernel
theorem off8_128 : ∀ d : Dev nD, k0_off8 d 128#32 = ![256 * sOf d + 128, 0] := by decide +kernel
theorem off9_48 : ∀ d : Dev nD, k0_off9 d 48#32 = ![256 * sOf d + 48, 0] := by decide +kernel
theorem off9_176 : ∀ d : Dev nD, k0_off9 d 176#32 = ![256 * sOf d + 176, 0] := by decide +kernel
theorem off10_88 : ∀ d : Dev nD, k0_off10 d 88#32 = ![256 * sOf d + 88, 0] := by decide +kernel
theorem off10_216 : ∀ d : Dev nD, k0_off10 d 216#32 = ![256 * sOf d + 216, 0] := by decide +kernel
theorem off11_104 : ∀ d : Dev nD, k0_off11 d 104#32 = ![256 * sOf d + 104, 0] := by decide +kernel
theorem off11_232 : ∀ d : Dev nD, k0_off11 d 232#32 = ![256 * sOf d + 232, 0] := by decide +kernel
theorem off7_104 : ∀ d : Dev nD, k0_off7 d 104#32 = ![256 * (1 - sOf d) + 104, 0] := by decide +kernel
theorem off7_232 : ∀ d : Dev nD, k0_off7 d 232#32 = ![256 * (1 - sOf d) + 232, 0] := by decide +kernel
theorem off12_104 : ∀ d : Dev nD, k0_off12 d 104#32 = ![256 * (1 - sOf d) + 104, 0] := by decide +kernel
theorem off12_232 : ∀ d : Dev nD, k0_off12 d 232#32 = ![256 * (1 - sOf d) + 232, 0] := by decide +kernel
theorem off13_eq : ∀ d : Dev nD, k0_off13 d = ![256 * sOf d, 0] := by decide +kernel
theorem off14_eq : ∀ d : Dev nD, k0_off14 d = ![256 * (1 - sOf d) + 232, 0] := by decide +kernel
theorem off15_eq : ∀ d : Dev nD, k0_off15 d = ![256 * (1 - sOf d), 0] := by decide +kernel
theorem off16_eq : ∀ d : Dev nD, k0_off16 d = ![256 * (1 - sOf d) + 128, 0] := by decide +kernel

end Cert.Kernel.Offs

end
-- ==== Proof.Bits.Regions.lean ====
import proofs.«900598_g7700000000000599_dist_rsrms_v7x_xyz2x2x2_x_m512_d512_f32_1_alg».proof.Proof.Bits.States
import proofs.«900598_g7700000000000599_dist_rsrms_v7x_xyz2x2x2_x_m512_d512_f32_1_alg».proof.Proof.Bits.Offs
import proofs.«900598_g7700000000000599_dist_rsrms_v7x_xyz2x2x2_x_m512_d512_f32_1_alg».proof.Proof.Bits.OutSpec
import Idealize.ShloMosaic.Rules.PointsTo
import Idealize.ShloMosaic.Lib.ValueIdx
import Idealize.ShloMosaic.Lib.Pipeline.Value

noncomputable section

namespace Cert.Kernel.Proto

open Cert.Kernel Cert.Kernel.Gen Cert.Kernel.Offs

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Bands

def band (A B o n : Nat) : Finset (⟨2, ![A, B]⟩ : Shape).Idx :=
  Finset.univ.filter fun i => o ≤ (i 0).val ∧ (i 0).val < o + n

theorem mem_band {A B o n : Nat} {i : (⟨2, ![A, B]⟩ : Shape).Idx} :
    i ∈ band A B o n ↔ o ≤ (i 0).val ∧ (i 0).val < o + n := by
  simp [band]

theorem rect_set_band {A B : Nat} (off : Fin 2 → Nat) (o n : Nat) (hoff : off = ![o, 0])
    (inb : ∀ a, off a + (![n, B] : Fin 2 → Nat) a ≤ (⟨2, ![A, B]⟩ : Shape).size a) :
    (Rect.unit (s := ⟨2, ![A, B]⟩) off ![n, B] inb).set = band A B o n := by
  subst hoff
  ext i
  rw [Rect.mem_set_unit, mem_band, Fin.forall_fin_two]
  have h1 : (i 1).val < B := (i 1).isLt
  constructor
  · rintro ⟨h0, -⟩; exact h0
  · intro h; exact ⟨h, Nat.zero_le _, by show (i 1).val < 0 + B; omega⟩

theorem band_union (A B o n₁ n₂ : Nat) : band A B o (n₁ + n₂) = band A B o n₁ ∪ band A B (o + n₁) n₂ := by
  ext i; simp only [mem_band, Finset.mem_union]; omega

theorem band_disjoint (A B : Nat) {o₁ n₁ o₂ n₂ : Nat} (h : o₁ + n₁ ≤ o₂) : Disjoint (band A B o₁ n₁) (band A B o₂ n₂) := by
  rw [Finset.disjoint_left]; intro i h1 h2; rw [mem_band] at h1 h2; omega

theorem band_univ (A B : Nat) : band A B 0 A = Finset.univ := by
  ext i
  have h0 : (i 0).val < A := (i 0).isLt
  simp only [mem_band, Finset.mem_univ, iff_true]; omega

theorem band_zero (A B o : Nat) : band A B o 0 = ∅ := by
  ext i; simp only [mem_band, Finset.notMem_empty, iff_false]; omega

variable {sp : Space} {A B : Nat} {e : EltTy}

def bandSet (v : View sig .tc sp ⟨2, ![A, B]⟩ e) (o n : Nat) : Finset v.ty.Idx := (band A B o n).map v.emb

theorem set_slice_band (v : View sig .tc sp ⟨2, ![A, B]⟩ e) (off : Fin 2 → Nat) (o n : Nat) (hoff : off = ![o, 0])
    (inb : ∀ a, off a + (![n, B] : Fin 2 → Nat) a ≤ (⟨2, ![A, B]⟩ : Shape).size a) :
    (v.slice (Rect.unit off ![n, B] inb)).set = bandSet v o n := by
  rw [View.set_slice, rect_set_band off o n hoff inb]; rfl

theorem set_eq_bandSet (v : View sig .tc sp ⟨2, ![A, B]⟩ e) : v.set = bandSet v 0 A := by
  unfold bandSet View.set; rw [band_univ]

theorem bandSet_union (v : View sig .tc sp ⟨2, ![A, B]⟩ e) (o n₁ n₂ : Nat) :
    bandSet v o (n₁ + n₂) = bandSet v o n₁ ∪ bandSet v (o + n₁) n₂ := by
  unfold bandSet; rw [band_union, Finset.map_union]

theorem bandSet_disjoint (v : View sig .tc sp ⟨2, ![A, B]⟩ e) {o₁ n₁ o₂ n₂ : Nat} (h : o₁ + n₁ ≤ o₂) :
    Disjoint (bandSet v o₁ n₁) (bandSet v o₂ n₂) :=
  (Finset.disjoint_map _).mpr (band_disjoint A B h)

theorem bandSet_zero (v : View sig .tc sp ⟨2, ![A, B]⟩ e) (o : Nat) : bandSet v o 0 = ∅ := by
  unfold bandSet; rw [band_zero, Finset.map_empty]

def ptBand (v : View sig .tc sp ⟨2, ![A, B]⟩ e) (c : Dev nD) (q : PosShare TreeShare)
    (f : Buf (Elt F) (v.loc (c : Thread nD τ))) (o n : Nat) : sProp 𝕄 :=
  (v.loc (c : Thread nD τ) ↦[bandSet v o n]{q} f)

def ptBands (v : View sig .tc sp ⟨2, ![A, B]⟩ e) (c : Dev nD) (q : PosShare TreeShare)
    (f : Buf (Elt F) (v.loc (c : Thread nD τ))) : Nat → List Nat → sProp 𝕄
  | _, [] => iprop(emp)
  | o, [n] => ptBand v c q f o n
  | o, n :: n' :: ns => iprop(ptBand v c q f o n ∗ ptBands v c q f (o + n) (n' :: ns))

theorem ptBand_split (v : View sig .tc sp ⟨2, ![A, B]⟩ e) (c : Dev nD) (q : PosShare TreeShare)
    (f : Buf (Elt F) (v.loc (c : Thread nD τ))) (o n₁ n₂ : Nat) :
    ptBand v c q f o (n₁ + n₂) ⊣⊢ iprop(ptBand v c q f o n₁ ∗ ptBand v c q f (o + n₁) n₂) := by
  unfold ptBand
  rw [bandSet_union]
  exact pointsTo_union (bandSet_disjoint v (Nat.le_refl _))

theorem ptBands_eq (v : View sig .tc sp ⟨2, ![A, B]⟩ e) (c : Dev nD) (q : PosShare TreeShare)
    (f : Buf (Elt F) (v.loc (c : Thread nD τ))) :
    ∀ (ns : List Nat) (o : Nat), ptBand v c q f o ns.sum ⊣⊢ ptBands v c q f o ns
  | [], o => by
    unfold ptBands ptBand
    rw [List.sum_nil, bandSet_zero, pointsTo_empty]
  | [n], o => by
    unfold ptBands
    rw [List.sum_cons, List.sum_nil, Nat.add_zero]
  | n :: n' :: ns, o => by
    unfold ptBands
    rw [List.sum_cons]
    exact (ptBand_split v c q f o n (n' :: ns).sum).trans (sep_congr_right (ptBands_eq v c q f (n' :: ns) (o + n)))

end Bands

section AnyBands
variable {sp : Space} {A B : Nat} {e : EltTy}

def anyBand (v : View sig .tc sp ⟨2, ![A, B]⟩ e) (c : Dev nD) (q : PosShare TreeShare) (o n : Nat) : sProp 𝕄 :=
  iprop(∃ f : Buf (Elt F) (v.loc (c : Thread nD τ)), ptBand v c q f o n)

def anyBands (v : View sig .tc sp ⟨2, ![A, B]⟩ e) (c : Dev nD) (q : PosShare TreeShare) : Nat → List Nat → sProp 𝕄
  | _, [] => iprop(emp)
  | o, [n] => anyBand (F := F) v c q o n
  | o, n :: n' :: ns => iprop(anyBand (F := F) v c q o n ∗ anyBands v c q (o + n) (n' :: ns))

theorem ptBand_any (v : View sig .tc sp ⟨2, ![A, B]⟩ e) (c : Dev nD) (q : PosShare TreeShare)
    (f : Buf (Elt F) (v.loc (c : Thread nD τ))) (o n : Nat) : ptBand v c q f o n ⊢ anyBand v c q o n := by
  unfold anyBand; iintro H; iexists f; iexact H

theorem any_union (ℓ : Loc nD τ sig) (I J : Finset (Idx ℓ)) (q : PosShare TreeShare) (h : Disjoint I J) :
    iprop(∃ f : Buf (Elt F) ℓ, (ℓ ↦[I ∪ J]{q} f : sProp 𝕄))
      ⊣⊢ iprop((∃ f : Buf (Elt F) ℓ, (ℓ ↦[I]{q} f : sProp 𝕄)) ∗ (∃ g : Buf (Elt F) ℓ, (ℓ ↦[J]{q} g : sProp 𝕄))) := by
  constructor
  · iintro ⟨%f, H⟩
    ihave H' := (pointsTo_union h).1 $$ H
    icases H' with ⟨H1, H2⟩
    isplitl [H1]
    · iexists f; iexact H1
    · iexists f; iexact H2
  · iintro ⟨⟨%f, H1⟩, ⟨%g, H2⟩⟩
    iexists J.piecewise g f
    iapply (pointsTo_join h)
    isplitl [H1]
    · iexact H1
    · iexact H2

theorem anyBand_split (v : View sig .tc sp ⟨2, ![A, B]⟩ e) (c : Dev nD) (q : PosShare TreeShare) (o n₁ n₂ : Nat) :
    anyBand (F := F) v c q o (n₁ + n₂) ⊣⊢ iprop(anyBand (F := F) v c q o n₁ ∗ anyBand (F := F) v c q (o + n₁) n₂) := by
  unfold anyBand ptBand
  rw [bandSet_union]
  exact any_union _ _ _ q (bandSet_disjoint v (Nat.le_refl _))

/-- A band splits into consecutive sub-bands, because disjoint row ranges own disjoint elements. -/
theorem anyBands_eq (v : View sig .tc sp ⟨2, ![A, B]⟩ e) (c : Dev nD) (q : PosShare TreeShare) :
    ∀ (ns : List Nat) (o : Nat), anyBand (F := F) v c q o ns.sum ⊣⊢ anyBands (F := F) v c q o ns
  | [], o => by
    unfold anyBands anyBand ptBand
    rw [List.sum_nil, bandSet_zero]
    constructor
    · iintro ⟨%f, H⟩; rw [pointsTo_empty]; iempintro
    · iintro -; iexists (fun _ => default); rw [pointsTo_empty]; iempintro
  | [n], o => by
    unfold anyBands
    rw [List.sum_cons, List.sum_nil, Nat.add_zero]
  | n :: n' :: ns, o => by
    unfold anyBands
    rw [List.sum_cons]
    exact (anyBand_split v c q o n (n' :: ns).sum).trans (sep_congr_right (anyBands_eq v c q (n' :: ns) (o + n)))

/-- A band of whole rows `o ≤ r < o + n`, given as the unit-stride rectangle that cuts it out. -/
structure Strip (A B : Nat) where
  off : Fin 2 → Nat
  o : Nat
  n : Nat
  hoff : off = ![o, 0]
  inb : ∀ a, off a + (![n, B] : Fin 2 → Nat) a ≤ (⟨2, ![A, B]⟩ : Shape).size a

abbrev Strip.of (p : Strip A B) (v : View sig .tc sp ⟨2, ![A, B]⟩ e) : View sig .tc sp ⟨2, ![p.n, B]⟩ e :=
  v.slice (Rect.unit p.off ![p.n, B] p.inb)

theorem set_strip (p : Strip A B) (v : View sig .tc sp ⟨2, ![A, B]⟩ e) : (p.of v).set = bandSet v p.o p.n :=
  set_slice_band v p.off p.o p.n p.hoff p.inb

/-- A slice of whole rows at contents not recorded is the band of those rows. -/
theorem heldAny_strip (p : Strip A B) (v : View sig .tc sp ⟨2, ![A, B]⟩ e) (c : Dev nD) (q : PosShare TreeShare) :
    heldAny (F := F) (p.of v) c q = anyBand (F := F) v c q p.o p.n := by
  unfold heldAny anyBand ptBand
  rw [set_strip]

theorem whole_ptBand (v : View sig .tc sp ⟨2, ![A, B]⟩ e) (c : Dev nD) (q : PosShare TreeShare)
    (f : Buf (Elt F) (v.loc (c : Thread nD τ))) :
    (v.loc (c : Thread nD τ) ↦[v.set]{q} f : sProp 𝕄) = ptBand v c q f 0 A := by
  unfold ptBand; rw [set_eq_bandSet]

end AnyBands

section Spellings

theorem off_eq14 (c : Dev nD) : k0_off14 c = k0_off7 c 232#32 := (off14_eq c).trans (off7_232 c).symm

theorem view_slice_unit_congr {κ : Kind} {sp : Space} {s : Shape} {e : EltTy} (v : View sig κ sp s e)
    {off off' size : Fin s.rank → Nat} (h : off = off') (p : ∀ a, off a + size a ≤ s.size a)
    (p' : ∀ a, off' a + size a ≤ s.size a) : v.slice (Rect.unit off size p) = v.slice (Rect.unit off' size p') := by
  subst h; rfl

theorem ov_access_eq0 (c : Dev nD) :
    ovM.access (Rect.unit (s := S512x512) (k0_off8 c 0#32) S48x512.size (k0_off8_inb c 0)) = (ovSl0 c).view :=
  view_slice_unit_congr ovM.view ((off8_0 c).trans (off3_0 c).symm) _ _
theorem ov_access_eq1 (c : Dev nD) :
    ovM.access (Rect.unit (s := S512x512) (k0_off8 c 128#32) S48x512.size (k0_off8_inb c 1)) = (ovSl1 c).view :=
  view_slice_unit_congr ovM.view ((off8_128 c).trans (off3_128 c).symm) _ _
theorem ov_access_eq2 (c : Dev nD) :
    ovM.access (Rect.unit (s := S512x512) (k0_off9 c 48#32) S40x512.size (k0_off9_inb c 0)) = (ovSl2 c).view :=
  view_slice_unit_congr ovM.view ((off9_48 c).trans (off4_48 c).symm) _ _
theorem ov_access_eq3 (c : Dev nD) :
    ovM.access (Rect.unit (s := S512x512) (k0_off9 c 176#32) S40x512.size (k0_off9_inb c 1)) = (ovSl3 c).view :=
  view_slice_unit_congr ovM.view ((off9_176 c).trans (off4_176 c).symm) _ _
theorem ov_access_eq4 (c : Dev nD) :
    ovM.access (Rect.unit (s := S512x512) (k0_off10 c 88#32) S16x512.size (k0_off10_inb c 0)) = (ovSl4 c).view :=
  view_slice_unit_congr ovM.view ((off10_88 c).trans (off5_88 c).symm) _ _
theorem ov_access_eq5 (c : Dev nD) :
    ovM.access (Rect.unit (s := S512x512) (k0_off10 c 216#32) S16x512.size (k0_off10_inb c 1)) = (ovSl5 c).view :=
  view_slice_unit_congr ovM.view ((off10_216 c).trans (off5_216 c).symm) _ _
theorem ov_access_eq6 (c : Dev nD) :
    ovM.access (Rect.unit (s := S512x512) (k0_off11 c 104#32) S24x512.size (k0_off11_inb c 0)) = (ovSl6 c).view :=
  view_slice_unit_congr ovM.view ((off11_104 c).trans (off6_104 c).symm) _ _
theorem ov_access_eq7 (c : Dev nD) :
    ovM.access (Rect.unit (s := S512x512) (k0_off11 c 232#32) S24x512.size (k0_off11_inb c 1)) = (ovSl7 c).view :=
  view_slice_unit_congr ovM.view ((off11_232 c).trans (off6_232 c).symm) _ _
theorem ov_access_eq8 (c : Dev nD) :
    ovM.access (Rect.unit (s := S512x512) (k0_off12 c 104#32) S24x512.size (k0_off12_inb c 0)) = (ovSl8 c).view :=
  view_slice_unit_congr ovM.view ((off12_104 c).trans (off7_104 c).symm) _ _
theorem ov_access_eq9 (c : Dev nD) :
    ovM.access (Rect.unit (s := S512x512) (k0_off12 c 232#32) S24x512.size (k0_off12_inb c 1)) = (ovSl9 c).view :=
  view_slice_unit_congr ovM.view ((off12_232 c).trans (off7_232 c).symm) _ _
theorem ovO2b_view_eq (c : Dev nD) : (ovO2b c).view = (ovSl9 c).view :=
  view_slice_unit_congr ovM.view (off_eq14 c) _ _

end Spellings

section Pieces

abbrev sp0 (c : Dev nD) : Strip 512 512 := ⟨_, _, 48, off3_0 c, k0_off3_inb c 0⟩
abbrev sp1 (c : Dev nD) : Strip 512 512 := ⟨_, _, 48, off3_128 c, k0_off3_inb c 1⟩
abbrev sp2 (c : Dev nD) : Strip 512 512 := ⟨_, _, 40, off4_48 c, k0_off4_inb c 0⟩
abbrev sp3 (c : Dev nD) : Strip 512 512 := ⟨_, _, 40, off4_176 c, k0_off4_inb c 1⟩
abbrev sp4 (c : Dev nD) : Strip 512 512 := ⟨_, _, 16, off5_88 c, k0_off5_inb c 0⟩
abbrev sp5 (c : Dev nD) : Strip 512 512 := ⟨_, _, 16, off5_216 c, k0_off5_inb c 1⟩
abbrev sp6 (c : Dev nD) : Strip 512 512 := ⟨_, _, 24, off6_104 c, k0_off6_inb c 0⟩
abbrev sp7 (c : Dev nD) : Strip 512 512 := ⟨_, _, 24, off6_232 c, k0_off6_inb c 1⟩
abbrev sp8 (c : Dev nD) : Strip 512 512 := ⟨_, _, 24, off7_104 c, k0_off7_inb c 0⟩
abbrev sp9 (c : Dev nD) : Strip 512 512 := ⟨_, _, 24, off7_232 c, k0_off7_inb c 1⟩
abbrev spO1 (c : Dev nD) : Strip 512 512 := ⟨_, _, 256, off13_eq c, k0_off13_inb c⟩
abbrev spO2b (c : Dev nD) : Strip 512 512 := ⟨_, _, 24, off14_eq c, k0_off14_inb c⟩
abbrev spO3 (c : Dev nD) : Strip 512 512 := ⟨_, _, 104, off15_eq c, k0_off15_inb c⟩
abbrev spO4 (c : Dev nD) : Strip 512 512 := ⟨_, _, 104, off16_eq c, k0_off16_inb c⟩

end Pieces

section Values
variable {sp : Space} {A B : Nat} {e : EltTy}

def subRows {α : Type} {N : Nat} (w n : Nat) (hw : w + n ≤ N) (X : (⟨2, ![N, 512]⟩ : Shape).Idx → α) :
    (⟨2, ![n, 512]⟩ : Shape).Idx → α :=
  fun y => X (ValueIdx.ix2 (⟨w + (y 0).val, by have h : (y 0).val < n := (y 0).isLt; omega⟩ : Fin N) (y 1))

/-- Rows `w ≤ r < w + n` of rows `oP ≤ r < oP + N` are rows `oP + w ≤ r < oP + w + n`. -/
theorem read_sub {κ : Kind} {Val : EltTy → Type} (v : View sig κ sp ⟨2, ![A, 512]⟩ e) (offP offQ : Fin 2 → Nat) (oP w N n : Nat)
    (hP : offP = ![oP, 0]) (hQ : offQ = ![oP + w, 0]) (hw : w + n ≤ N)
    (inbP : ∀ a, offP a + (![N, 512] : Fin 2 → Nat) a ≤ (⟨2, ![A, 512]⟩ : Shape).size a)
    (inbQ : ∀ a, offQ a + (![n, 512] : Fin 2 → Nat) a ≤ (⟨2, ![A, 512]⟩ : Shape).size a)
    (f : v.ty.Contents Val) :
    (v.slice (Rect.unit offQ ![n, 512] inbQ)).read Val f
      = subRows w n hw ((v.slice (Rect.unit offP ![N, 512] inbP)).read Val f) := by
  subst hP; subst hQ
  funext y
  show v.read Val f ((Rect.unit ![oP + w, 0] ![n, 512] inbQ).emb y)
    = v.read Val f ((Rect.unit ![oP, 0] ![N, 512] inbP).emb
        (ValueIdx.ix2 (⟨w + (y 0).val, by have h : (y 0).val < n := (y 0).isLt; omega⟩ : Fin N) (y 1)))
  refine congrArg (v.read Val f) (funext fun a => Fin.ext ?_)
  match a with
  | ⟨0, _⟩ =>
    show oP + w + 1 * (y 0).val = oP + 1 * (w + (y 0).val)
    omega
  | ⟨1, _⟩ => rfl

theorem read_congr_set {κ : Kind} {Val : EltTy → Type} {s : Shape} (v : View sig κ sp s e) {f g : v.ty.Contents Val}
    (h : ∀ i ∈ v.set, g i = f i) : v.read Val g = v.read Val f := by
  funext x
  rw [View.read_apply, View.read_apply, h _ (v.emb_mem_set x)]

theorem bandSet_subset (v : View sig .tc sp ⟨2, ![A, B]⟩ e) {o n o' n' : Nat} (h1 : o ≤ o') (h2 : o' + n' ≤ o + n) :
    bandSet v o' n' ⊆ bandSet v o n := by
  unfold bandSet
  refine Finset.map_subset_map.mpr fun i hi => ?_
  rw [mem_band] at hi ⊢; omega

def ptBandsL (v : View sig .tc sp ⟨2, ![A, B]⟩ e) (c : Dev nD) (q : PosShare TreeShare) :
    Nat → List (Nat × Buf (Elt F) (v.loc (c : Thread nD τ))) → sProp 𝕄
  | _, [] => iprop(emp)
  | o, [p] => ptBand v c q p.2 o p.1
  | o, p :: p' :: ps => iprop(ptBand v c q p.2 o p.1 ∗ ptBandsL v c q (o + p.1) (p' :: ps))

def agreeL (v : View sig .tc sp ⟨2, ![A, B]⟩ e) (c : Dev nD) (g : Buf (Elt F) (v.loc (c : Thread nD τ))) :
    Nat → List (Nat × Buf (Elt F) (v.loc (c : Thread nD τ))) → Prop
  | _, [] => True
  | o, p :: ps => (∀ i ∈ bandSet v o p.1, g i = p.2 i) ∧ agreeL v c g (o + p.1) ps

theorem agreeL_congr (v : View sig .tc sp ⟨2, ![A, B]⟩ e) (c : Dev nD) (g h : Buf (Elt F) (v.loc (c : Thread nD τ))) :
    ∀ (L : List (Nat × Buf (Elt F) (v.loc (c : Thread nD τ)))) (o : Nat),
      (∀ i ∈ bandSet v o (L.map Prod.fst).sum, h i = g i) → agreeL v c g o L → agreeL v c h o L
  | [], _, _, _ => trivial
  | p :: ps, o, hh, ⟨h1, h2⟩ => by
    rw [List.map_cons, List.sum_cons, bandSet_union] at hh
    refine ⟨fun i hi => (hh i (Finset.mem_union_left _ hi)).trans (h1 i hi), ?_⟩
    exact agreeL_congr v c g h ps (o + p.1) (fun i hi => hh i (Finset.mem_union_right _ hi)) h2

theorem ptBand_join (v : View sig .tc sp ⟨2, ![A, B]⟩ e) (c : Dev nD) (q : PosShare TreeShare)
    (f g : Buf (Elt F) (v.loc (c : Thread nD τ))) (o n₁ n₂ : Nat) :
    iprop(ptBand v c q f o n₁ ∗ ptBand v c q g (o + n₁) n₂)
      ⊢ ptBand v c q ((bandSet v (o + n₁) n₂).piecewise g f) o (n₁ + n₂) := by
  unfold ptBand
  rw [bandSet_union]
  exact pointsTo_join (bandSet_disjoint v (Nat.le_refl _))

/-- Consecutive bands, each at its own contents, are one band at contents agreeing with each on its rows. -/
theorem ptBandsL_join (v : View sig .tc sp ⟨2, ![A, B]⟩ e) (c : Dev nD) (q : PosShare TreeShare) :
    ∀ (L : List (Nat × Buf (Elt F) (v.loc (c : Thread nD τ)))) (o : Nat), L ≠ [] →
      ptBandsL v c q o L
        ⊢ iprop(∃ g : Buf (Elt F) (v.loc (c : Thread nD τ)), ptBand v c q g o (L.map Prod.fst).sum ∗ ⌜agreeL v c g o L⌝)
  | [], _, h => absurd rfl h
  | [p], o, _ => by
    unfold ptBandsL
    iintro H
    iexists p.2
    isplitl [H]
    · rw [List.map_cons, List.map_nil, List.sum_cons, List.sum_nil, Nat.add_zero]; iexact H
    · ipureintro; exact ⟨fun _ _ => rfl, trivial⟩
  | p :: p' :: ps, o, _ => by
    have ih := ptBandsL_join v c q (p' :: ps) (o + p.1) (List.cons_ne_nil _ _)
    unfold ptBandsL
    iintro ⟨Hp, HL⟩
    ihave HL' := ih $$ HL
    icases HL' with ⟨%g, HG, %hg⟩
    iexists (bandSet v (o + p.1) ((p' :: ps).map Prod.fst).sum).piecewise g p.2
    isplitl [Hp HG]
    · rw [List.map_cons, List.sum_cons]
      iapply (ptBand_join v c q p.2 g o p.1 ((p' :: ps).map Prod.fst).sum)
      isplitl [Hp]
      · iexact Hp
      · iexact HG
    · ipureintro
      refine ⟨fun i hi => ?_, ?_⟩
      · exact Finset.piecewise_eq_of_notMem _ _ _
          (Finset.disjoint_left.mp (bandSet_disjoint v (Nat.le_refl _)) hi)
      · exact agreeL_congr v c g _ (p' :: ps) (o + p.1)
          (fun i hi => Finset.piecewise_eq_of_mem _ _ _ hi) hg

end Values

section Tools
variable {sp : Space} {A B : Nat} {e : EltTy}

theorem held_strip (p : Strip A B) (v : View sig .tc sp ⟨2, ![A, B]⟩ e) (c : Dev nD) (q : PosShare TreeShare)
    (x : (⟨2, ![p.n, B]⟩ : Shape).Idx → Elt F e) (o : Nat) (ho : p.o = o) :
    held (F := F) (p.of v) c q x
      ⊢ iprop(∃ f : Buf (Elt F) (v.loc (c : Thread nD τ)), ptBand v c q f o p.n ∗ ⌜(p.of v).read (Elt F) f = x⌝) := by
  subst ho
  unfold held ptBand
  rw [set_strip p v]

theorem ptBand_held (p : Strip A B) (v : View sig .tc sp ⟨2, ![A, B]⟩ e) (c : Dev nD) (q : PosShare TreeShare)
    (f : Buf (Elt F) (v.loc (c : Thread nD τ))) (o : Nat) (ho : p.o = o) :
    ptBand v c q f o p.n ⊢ held (F := F) (p.of v) c q ((p.of v).read (Elt F) f) := by
  subst ho
  unfold ptBand
  rw [← set_strip p v]
  exact held_intro (p.of v) c q f

theorem read_strip (v : View sig .tc sp ⟨2, ![A, 512]⟩ e) (P p : Strip A 512) (w : Nat) (ho : p.o = P.o + w)
    (hw : w + p.n ≤ P.n) (f : v.ty.Contents (Elt F)) :
    (p.of v).read (Elt F) f = subRows w p.n hw ((P.of v).read (Elt F) f) :=
  read_sub v P.off p.off P.o w P.n p.n P.hoff (by rw [← ho]; exact p.hoff) hw P.inb p.inb f

theorem read_strip_congr (p : Strip A B) (v : View sig .tc sp ⟨2, ![A, B]⟩ e) (o : Nat) (ho : p.o = o)
    {f g : v.ty.Contents (Elt F)} (h : ∀ i ∈ bandSet v o p.n, g i = f i) :
    (p.of v).read (Elt F) g = (p.of v).read (Elt F) f :=
  read_congr_set _ (by rw [set_strip p v, ho]; exact h)

theorem sub_agree (v : View sig .tc sp ⟨2, ![A, 512]⟩ e) (P p : Strip A 512) (w : Nat) (ho : p.o = P.o + w)
    (hw : w + p.n ≤ P.n) {f g : v.ty.Contents (Elt F)} {x : (⟨2, ![p.n, 512]⟩ : Shape).Idx → Elt F e}
    (h : ∀ i ∈ bandSet v (P.o + w) p.n, g i = f i) (hx : (p.of v).read (Elt F) f = x) :
    subRows w p.n hw ((P.of v).read (Elt F) g) = x :=
  (read_strip v P p w ho hw g).symm.trans ((read_strip_congr p v _ ho h).trans hx)

theorem read_of_sub (v : View sig .tc sp ⟨2, ![A, 512]⟩ e) (P p : Strip A 512) (w : Nat) (ho : p.o = P.o + w)
    (hw : w + p.n ≤ P.n) (g : v.ty.Contents (Elt F)) {X : (⟨2, ![P.n, 512]⟩ : Shape).Idx → Elt F e}
    {x : (⟨2, ![p.n, 512]⟩ : Shape).Idx → Elt F e} (hg : (P.of v).read (Elt F) g = X) (hx : subRows w p.n hw X = x) :
    (p.of v).read (Elt F) g = x := by
  rw [read_strip v P p w ho hw g, hg, hx]

theorem ptBand_sub (v : View sig .tc sp ⟨2, ![A, 512]⟩ e) (c : Dev nD) (q : PosShare TreeShare) (P p : Strip A 512) (w : Nat)
    (ho : p.o = P.o + w) (hw : w + p.n ≤ P.n) (g : Buf (Elt F) (v.loc (c : Thread nD τ))) :
    ptBand v c q g (P.o + w) p.n ⊢ held (F := F) (p.of v) c q (subRows w p.n hw ((P.of v).read (Elt F) g)) := by
  rw [← read_strip v P p w ho hw g]
  exact ptBand_held p v c q g _ ho

theorem read_slice_off_congr {κ : Kind} {Val : EltTy → Type} {s : Shape} (v : View sig κ sp s e) {off off' : Fin s.rank → Nat}
    (h : off = off') (size : Fin s.rank → Nat) (p : ∀ a, off a + size a ≤ s.size a) (p' : ∀ a, off' a + size a ≤ s.size a)
    (f : v.ty.Contents Val) :
    (v.slice (Rect.unit off size p)).read Val f = (v.slice (Rect.unit off' size p')).read Val f := by
  subst h; rfl

/-- Three consecutive pieces held at their values are the parent held at a value whose rows are theirs. -/
theorem join3 (v : View sig .tc sp ⟨2, ![A, 512]⟩ e) (c : Dev nD) (q : PosShare TreeShare) (P p0 p1 p2 : Strip A 512)
    (a0 : p0.o = P.o) (a1 : p1.o = P.o + p0.n) (a2 : p2.o = P.o + (p0.n + p1.n)) (hN : P.n = p0.n + (p1.n + p2.n))
    (x0 : (⟨2, ![p0.n, 512]⟩ : Shape).Idx → Elt F e) (x1 : (⟨2, ![p1.n, 512]⟩ : Shape).Idx → Elt F e)
    (x2 : (⟨2, ![p2.n, 512]⟩ : Shape).Idx → Elt F e) :
    iprop(held (F := F) (p0.of v) c q x0 ∗ held (F := F) (p1.of v) c q x1 ∗ held (F := F) (p2.of v) c q x2)
      ⊢ iprop(∃ X : (⟨2, ![P.n, 512]⟩ : Shape).Idx → Elt F e,
          ⌜subRows 0 p0.n (by omega) X = x0 ∧ subRows p0.n p1.n (by omega) X = x1
            ∧ subRows (p0.n + p1.n) p2.n (by omega) X = x2⌝ ∗ held (F := F) (P.of v) c q X) := by
  iintro ⟨A0, A1, A2⟩
  ihave B0 := held_strip p0 v c q x0 _ a0 $$ A0
  icases B0 with ⟨%f0, P0, %r0⟩
  ihave B1 := held_strip p1 v c q x1 _ a1 $$ A1
  icases B1 with ⟨%f1, P1, %r1⟩
  ihave B2 := held_strip p2 v c q x2 _ a2 $$ A2
  icases B2 with ⟨%f2, P2, %r2⟩
  have J := ptBandsL_join (F := F) v c q [(p0.n, f0), (p1.n, f1), (p2.n, f2)] P.o (List.cons_ne_nil _ _)
  simp only [ptBandsL, agreeL, List.map, List.sum_cons, List.sum_nil, Nat.add_assoc, Nat.add_zero, ← hN] at J
  ihave G := J $$ [P0 P1 P2]
  · iframe
  icases G with ⟨%g, HG, %hg⟩
  iexists (P.of v).read (Elt F) g
  isplitr
  · ipureintro
    exact ⟨sub_agree v P p0 0 a0 _ hg.1 r0, sub_agree v P p1 _ a1 _ hg.2.1 r1, sub_agree v P p2 _ a2 _ hg.2.2.1 r2⟩
  · iapply ptBand_held P v c q g _ rfl
    iexact HG

/-- Conversely, the parent held at a value gives each piece held at the value's rows. -/
theorem unjoin3 (v : View sig .tc sp ⟨2, ![A, 512]⟩ e) (c : Dev nD) (q : PosShare TreeShare) (P p0 p1 p2 : Strip A 512)
    (a0 : p0.o = P.o) (a1 : p1.o = P.o + p0.n) (a2 : p2.o = P.o + (p0.n + p1.n)) (hN : P.n = p0.n + (p1.n + p2.n))
    (X : (⟨2, ![P.n, 512]⟩ : Shape).Idx → Elt F e) :
    held (F := F) (P.of v) c q X
      ⊢ iprop(held (F := F) (p0.of v) c q (subRows 0 p0.n (by omega) X)
        ∗ held (F := F) (p1.of v) c q (subRows p0.n p1.n (by omega) X)
        ∗ held (F := F) (p2.of v) c q (subRows (p0.n + p1.n) p2.n (by omega) X)) := by
  iintro H
  ihave H' := held_strip P v c q X _ rfl $$ H
  icases H' with ⟨%g, HG, %hg⟩
  subst hg
  have S := (ptBands_eq v c q g [p0.n, p1.n, p2.n] P.o).1
  simp only [ptBands, List.sum_cons, List.sum_nil, Nat.add_assoc, Nat.add_zero, ← hN] at S
  iapply (S.trans <| BIClass.sep_mono (ptBand_sub v c q P p0 0 a0 _ g) <|
    BIClass.sep_mono (ptBand_sub v c q P p1 _ a1 _ g) (ptBand_sub v c q P p2 _ a2 _ g))
  iexact HG

end Tools

section OvTiles
variable {sp : Space} {A B : Nat} {e : EltTy}

theorem univ_ptBand (v : View sig .tc sp ⟨2, ![A, B]⟩ e) (hv : v.set = Finset.univ) (c : Dev nD) (q : PosShare TreeShare)
    (f : Buf (Elt F) (v.loc (c : Thread nD τ))) :
    (v.loc (c : Thread nD τ) ↦{q} f : sProp 𝕄) = ptBand v c q f 0 A := by
  have h := whole_ptBand (F := F) v c q f
  rw [hv] at h
  exact h

theorem any_halves (v : View sig .tc sp ⟨2, ![512, B]⟩ e) (c : Dev nD) (q : PosShare TreeShare) (s : Nat) (hs : s < 2) :
    anyBand (F := F) v c q 0 512
      ⊣⊢ iprop(anyBand (F := F) v c q (256 * s) 256 ∗ anyBand (F := F) v c q (256 * (1 - s)) 256) := by
  have h := anyBand_split (F := F) v c q 0 256 256
  rcases (by omega : s = 0 ∨ s = 1) with rfl | rfl
  · exact h
  · exact h.trans sep_comm

theorem any_half_own (v : View sig .tc sp ⟨2, ![A, B]⟩ e) (c : Dev nD) (q : PosShare TreeShare) (o : Nat) :
    anyBand (F := F) v c q o 256
      ⊣⊢ iprop(anyBand (F := F) v c q (o + 0) 48 ∗ anyBand (F := F) v c q (o + 48) 40 ∗ anyBand (F := F) v c q (o + 88) 16
        ∗ anyBand (F := F) v c q (o + 104) 24 ∗ anyBand (F := F) v c q (o + 128) 48 ∗ anyBand (F := F) v c q (o + 176) 40
        ∗ anyBand (F := F) v c q (o + 216) 16 ∗ anyBand (F := F) v c q (o + 232) 24) := by
  have h := anyBands_eq (F := F) v c q [48, 40, 16, 24, 48, 40, 16, 24] o
  simp only [anyBands, Nat.add_assoc, Nat.reduceAdd] at h
  exact h

theorem any_half_other (v : View sig .tc sp ⟨2, ![A, B]⟩ e) (c : Dev nD) (q : PosShare TreeShare) (o : Nat) :
    anyBand (F := F) v c q o 256
      ⊣⊢ iprop(anyBand (F := F) v c q o 104 ∗ anyBand (F := F) v c q (o + 104) 24 ∗ anyBand (F := F) v c q (o + 128) 104
        ∗ anyBand (F := F) v c q (o + 232) 24) := by
  have h := anyBands_eq (F := F) v c q [104, 24, 104, 24] o
  simp only [anyBands, Nat.add_assoc, Nat.reduceAdd] at h
  exact h

theorem any_three (v : View sig .tc sp ⟨2, ![A, B]⟩ e) (c : Dev nD) (q : PosShare TreeShare) (o : Nat) :
    anyBand (F := F) v c q o 104
      ⊣⊢ iprop(anyBand (F := F) v c q (o + 0) 48 ∗ anyBand (F := F) v c q (o + 48) 40 ∗ anyBand (F := F) v c q (o + 88) 16) := by
  have h := anyBands_eq (F := F) v c q [48, 40, 16] o
  simp only [anyBands, Nat.add_assoc, Nat.reduceAdd] at h
  exact h

/-- The 512 rows are the eight chunks of one half, in row order, and the four pieces of the other half. -/
theorem any_tiles (v : View sig .tc sp ⟨2, ![512, B]⟩ e) (c : Dev nD) (q : PosShare TreeShare) (s : Nat) (hs : s < 2) :
    anyBand (F := F) v c q 0 512
      ⊣⊢ iprop((anyBand (F := F) v c q (256 * s + 0) 48 ∗ anyBand (F := F) v c q (256 * s + 48) 40
          ∗ anyBand (F := F) v c q (256 * s + 88) 16 ∗ anyBand (F := F) v c q (256 * s + 104) 24
          ∗ anyBand (F := F) v c q (256 * s + 128) 48 ∗ anyBand (F := F) v c q (256 * s + 176) 40
          ∗ anyBand (F := F) v c q (256 * s + 216) 16 ∗ anyBand (F := F) v c q (256 * s + 232) 24)
        ∗ (anyBand (F := F) v c q (256 * (1 - s)) 104 ∗ anyBand (F := F) v c q (256 * (1 - s) + 104) 24
          ∗ anyBand (F := F) v c q (256 * (1 - s) + 128) 104 ∗ anyBand (F := F) v c q (256 * (1 - s) + 232) 24)) :=
  (any_halves v c q s hs).trans (sep_congr (any_half_own v c q _) (any_half_other v c q _))

end OvTiles

section OvSplit

theorem ov_split (c : Dev nD) (f : Buf (Elt F) (ovM.view.loc (c : Thread nD τ))) :
    (ovM.view.loc (c : Thread nD τ) ↦{fullShare} f : sProp 𝕄)
      ⊢ iprop(heldAny (F := F) (ovO3 c).view c fullShare
      ∗ heldAny (F := F) (ovO4 c).view c fullShare
      ∗ heldAny (F := F) (ovSl0 c).view c fullShare
      ∗ heldAny (F := F) (ovSl1 c).view c fullShare
      ∗ heldAny (F := F) (ovSl2 c).view c fullShare
      ∗ heldAny (F := F) (ovSl3 c).view c fullShare
      ∗ heldAny (F := F) (ovSl4 c).view c fullShare
      ∗ heldAny (F := F) (ovSl5 c).view c fullShare
      ∗ heldAny (F := F) (ovSl6 c).view c fullShare
      ∗ heldAny (F := F) (ovSl7 c).view c fullShare
      ∗ heldAny (F := F) (ovSl8 c).view c fullShare
      ∗ heldAny (F := F) (ovSl9 c).view c fullShare) := by
  rw [heldAny_strip (spO3 c), heldAny_strip (spO4 c), heldAny_strip (sp0 c), heldAny_strip (sp1 c), heldAny_strip (sp2 c), heldAny_strip (sp3 c), heldAny_strip (sp4 c), heldAny_strip (sp5 c), heldAny_strip (sp6 c), heldAny_strip (sp7 c), heldAny_strip (sp8 c), heldAny_strip (sp9 c),
    univ_ptBand ovM.view (View.set_whole _) c fullShare f]
  refine (ptBand_any ovM.view c fullShare f 0 512).trans ((any_tiles ovM.view c fullShare (sOf c) (sOf_lt c)).1.trans ?_)
  iintro ⟨⟨H0, H2, H4, H6, H1, H3, H5, H7⟩, HO3, H8, HO4, H9⟩
  iframe

end OvSplit

section OvNeighbour

theorem ovO3_split (d : Dev nD) :
    heldAny (F := F) (ovO3 (yp d)).view (yp d) fullShare
      ⊢ iprop(heldAny (F := F) (ovSl0 d).view (yp d) fullShare ∗ heldAny (F := F) (ovSl2 d).view (yp d) fullShare
        ∗ heldAny (F := F) (ovSl4 d).view (yp d) fullShare) := by
  rw [heldAny_strip (spO3 (yp d)), heldAny_strip (sp0 d), heldAny_strip (sp2 d), heldAny_strip (sp4 d)]
  have e : 256 * (1 - sOf (yp d)) = 256 * sOf d := by rw [sOf_yp]; have := sOf_lt d; omega
  change anyBand ovM.view (yp d) fullShare (256 * (1 - sOf (yp d))) 104 ⊢ _
  rw [e]
  exact (any_three ovM.view (yp d) fullShare _).1

theorem ovO4_split (d : Dev nD) :
    heldAny (F := F) (ovO4 (zp d)).view (zp d) fullShare
      ⊢ iprop(heldAny (F := F) (ovSl1 d).view (zp d) fullShare ∗ heldAny (F := F) (ovSl3 d).view (zp d) fullShare
        ∗ heldAny (F := F) (ovSl5 d).view (zp d) fullShare) := by
  rw [heldAny_strip (spO4 (zp d)), heldAny_strip (sp1 d), heldAny_strip (sp3 d), heldAny_strip (sp5 d)]
  have e : 256 * (1 - sOf (zp d)) + 128 = 256 * sOf d + 128 := by rw [sOf_zp]; have := sOf_lt d; omega
  change anyBand ovM.view (zp d) fullShare (256 * (1 - sOf (zp d)) + 128) 104 ⊢ _
  rw [e]
  have h := any_three (F := F) ovM.view (zp d) fullShare (256 * sOf d + 128)
  simp only [Nat.add_assoc, Nat.reduceAdd] at h
  exact h.1

end OvNeighbour

section Landing

abbrev cmSp (o n : Nat) (h : ∀ a, (![o, 0] : Fin 2 → Nat) a + (![n, 512] : Fin 2 → Nat) a ≤ S304x512.size a) : Strip 304 512 :=
  ⟨_, o, n, rfl, h⟩

theorem heldAny_cm (d : Dev nD) (q : PosShare TreeShare) :
    heldAny (F := F) cmM.view d q = anyBand (F := F) cmM.view d q 0 304 := by
  unfold heldAny anyBand ptBand; rw [set_eq_bandSet]

theorem cm_pieces (d : Dev nD) (q : PosShare TreeShare) :
    heldAny (F := F) cmM.view d q
      ⊣⊢ iprop(heldAny (F := F) cmSl0.view d q
        ∗ heldAny (F := F) cmSl1.view d q
        ∗ heldAny (F := F) cmSl2.view d q
        ∗ heldAny (F := F) cmSl3.view d q
        ∗ heldAny (F := F) cmSl4.view d q
        ∗ heldAny (F := F) cmSl5.view d q
        ∗ heldAny (F := F) cmSl6.view d q
        ∗ heldAny (F := F) cmSl7.view d q
        ∗ heldAny (F := F) cmSl8.view d q
        ∗ heldAny (F := F) cmSl9.view d q) := by
  rw [heldAny_cm, heldAny_strip (cmSp 0 48 inb_S304x512_S48x512_0_0),
    heldAny_strip (cmSp 48 48 inb_S304x512_S48x512_48_0),
    heldAny_strip (cmSp 96 40 inb_S304x512_S40x512_96_0),
    heldAny_strip (cmSp 136 40 inb_S304x512_S40x512_136_0),
    heldAny_strip (cmSp 176 16 inb_S304x512_S16x512_176_0),
    heldAny_strip (cmSp 192 16 inb_S304x512_S16x512_192_0),
    heldAny_strip (cmSp 208 24 inb_S304x512_S24x512_208_0),
    heldAny_strip (cmSp 232 24 inb_S304x512_S24x512_232_0),
    heldAny_strip (cmSp 256 24 inb_S304x512_S24x512_256_0),
    heldAny_strip (cmSp 280 24 inb_S304x512_S24x512_280_0)]
  have h := anyBands_eq (F := F) cmM.view d q [48, 48, 40, 40, 16, 16, 24, 24, 24, 24] 0
  simp only [anyBands, Nat.add_assoc, Nat.reduceAdd, Nat.zero_add] at h
  exact h

theorem cm_split (d : Dev nD) :
    heldAny (F := F) cmM.view d fullShare
      ⊢ iprop(heldAny (F := F) cmSl0.view d fullShare
        ∗ heldAny (F := F) cmSl1.view d fullShare
        ∗ heldAny (F := F) cmSl2.view d fullShare
        ∗ heldAny (F := F) cmSl3.view d fullShare
        ∗ heldAny (F := F) cmSl4.view d fullShare
        ∗ heldAny (F := F) cmSl5.view d fullShare
        ∗ heldAny (F := F) cmSl6.view d fullShare
        ∗ heldAny (F := F) cmSl7.view d fullShare
        ∗ heldAny (F := F) cmSl8.view d fullShare
        ∗ heldAny (F := F) cmSl9.view d fullShare) := (cm_pieces d fullShare).1

end Landing

section Shares
variable {sp : Space} {s : Shape} {e : EltTy}

/-- Both halves of a share see the same contents on the view's elements, so the value is shared. -/
theorem held_share (v : View sig .tc sp s e) (c : Dev nD) (q : PosShare TreeShare) (x : s.Idx → Elt F e) :
    held (F := F) v c q x ⊣⊢ iprop(held (F := F) v c q.left x ∗ held (F := F) v c q.right x) := by
  constructor
  · unfold held
    iintro ⟨%f, H, %hf⟩
    ihave H' := (pointsTo_share (PosShare.mem_left_op_right q)).1 $$ H
    icases H' with ⟨H1, H2⟩
    isplitl [H1]
    · iexists f; isplitl [H1]; · iexact H1
      ipureintro; exact hf
    · iexists f; isplitl [H2]; · iexact H2
      ipureintro; exact hf
  · unfold held
    iintro ⟨⟨%f, H1, %hf⟩, ⟨%g, H2, %hg⟩⟩
    have eg : (v.loc (c : Thread nD τ) ↦[v.set]{q.right} g : sProp 𝕄) = (v.loc (c : Thread nD τ) ↦[v.set]{q.right} f) :=
      pointsTo_congr (eqOn_set_of_read_eq v (hg.trans hf.symm))
    ihave H2' := (Entails.of_eq eg) $$ H2
    iexists f
    isplitl [H1 H2']
    · iapply (pointsTo_share (PosShare.mem_left_op_right q)).2
      isplitl [H1]; · iexact H1
      iexact H2'
    · ipureintro; exact hf

theorem held_full_split (v : View sig .tc sp s e) (c : Dev nD) (x : s.Idx → Elt F e) :
    held (F := F) v c fullShare x ⊢ iprop(held (F := F) v c fullShare.left x ∗ held (F := F) v c fullShare.right x) :=
  (held_share v c fullShare x).1

theorem held_full_join (v : View sig .tc sp s e) (c : Dev nD) (x : s.Idx → Elt F e) :
    iprop(held (F := F) v c fullShare.left x ∗ held (F := F) v c fullShare.right x) ⊢ held (F := F) v c fullShare x :=
  (held_share v c fullShare x).2

end Shares

section Joins
variable {sp : Space} {A B : Nat} {e : EltTy}

theorem anyBand_whole (v : View sig .tc sp ⟨2, ![A, B]⟩ e) (hv : v.set = Finset.univ) (c : Dev nD) (q : PosShare TreeShare) :
    anyBand (F := F) v c q 0 A ⊢ iprop(∃ f : Buf (Elt F) (v.loc (c : Thread nD τ)), (v.loc (c : Thread nD τ) ↦{q} f : sProp 𝕄)) := by
  unfold anyBand
  exact exists_mono fun f => Entails.of_eq (univ_ptBand v hv c q f).symm

theorem out_split_set (c : Dev nD) (f : Buf (Elt F) (outM.view.loc (c : Thread nD τ))) :
    (outM.view.loc (c : Thread nD τ) ↦[outM.view.set]{fullShare} f : sProp 𝕄)
      ⊢ iprop(heldAny (F := F) (outO1 c).view c fullShare ∗ heldAny (F := F) (outO2a c).view c fullShare
        ∗ heldAny (F := F) (outO2b c).view c fullShare ∗ heldAny (F := F) (outO3 c).view c fullShare
        ∗ heldAny (F := F) (outO4 c).view c fullShare) := by
  rw [heldAny_strip (spO1 c), heldAny_strip (sp8 c), heldAny_strip (spO2b c), heldAny_strip (spO3 c), heldAny_strip (spO4 c),
    whole_ptBand outM.view c fullShare f]
  refine (ptBand_any outM.view c fullShare f 0 512).trans (((any_halves outM.view c fullShare (sOf c) (sOf_lt c)).trans
    (sep_congr_right (any_half_other outM.view c fullShare _))).1.trans ?_)
  iintro ⟨H1, H3, H2a, H4, H2b⟩
  iframe

theorem cm_join_whole (c : Dev nD) :
    iprop(heldAny (F := F) cmSl0.view c fullShare
        ∗ heldAny (F := F) cmSl1.view c fullShare
        ∗ heldAny (F := F) cmSl2.view c fullShare
        ∗ heldAny (F := F) cmSl3.view c fullShare
        ∗ heldAny (F := F) cmSl4.view c fullShare
        ∗ heldAny (F := F) cmSl5.view c fullShare
        ∗ heldAny (F := F) cmSl6.view c fullShare
        ∗ heldAny (F := F) cmSl7.view c fullShare
        ∗ heldAny (F := F) cmSl8.view c fullShare
        ∗ heldAny (F := F) cmSl9.view c fullShare)
      ⊢ iprop(∃ f : Buf (Elt F) ((c : Thread nD τ).loc cc0_scratch4), ((c : Thread nD τ).loc cc0_scratch4 ↦{fullShare} f : sProp 𝕄)) := by
  refine (cm_pieces c fullShare).2.trans ?_
  rw [heldAny_cm]
  exact anyBand_whole cmM.view (View.set_whole _) c fullShare

theorem ov_join (c : Dev nD) :
    iprop(heldAny (F := F) (ovSl0 c).view c fullShare
        ∗ heldAny (F := F) (ovSl1 c).view c fullShare
        ∗ heldAny (F := F) (ovSl2 c).view c fullShare
        ∗ heldAny (F := F) (ovSl3 c).view c fullShare
        ∗ heldAny (F := F) (ovSl4 c).view c fullShare
        ∗ heldAny (F := F) (ovSl5 c).view c fullShare
        ∗ heldAny (F := F) (ovSl6 c).view c fullShare
        ∗ heldAny (F := F) (ovSl7 c).view c fullShare
        ∗ heldAny (F := F) (ovSl8 c).view c fullShare
        ∗ heldAny (F := F) (ovSl9 c).view c fullShare
        ∗ heldAny (F := F) (ovSl0 (yp c)).view c fullShare ∗ heldAny (F := F) (ovSl1 (zp c)).view c fullShare
        ∗ heldAny (F := F) (ovSl2 (yp c)).view c fullShare ∗ heldAny (F := F) (ovSl3 (zp c)).view c fullShare
        ∗ heldAny (F := F) (ovSl4 (yp c)).view c fullShare ∗ heldAny (F := F) (ovSl5 (zp c)).view c fullShare)
      ⊢ iprop(∃ f : Buf (Elt F) ((c : Thread nD τ).loc cc0_scratch3), ((c : Thread nD τ).loc cc0_scratch3 ↦{fullShare} f : sProp 𝕄)) := by
  rw [heldAny_strip (sp0 c), heldAny_strip (sp1 c), heldAny_strip (sp2 c), heldAny_strip (sp3 c), heldAny_strip (sp4 c), heldAny_strip (sp5 c), heldAny_strip (sp6 c), heldAny_strip (sp7 c), heldAny_strip (sp8 c), heldAny_strip (sp9 c),
    heldAny_strip (sp0 (yp c)), heldAny_strip (sp1 (zp c)), heldAny_strip (sp2 (yp c)), heldAny_strip (sp3 (zp c)),
    heldAny_strip (sp4 (yp c)), heldAny_strip (sp5 (zp c))]
  simp only [sp0, sp1, sp2, sp3, sp4, sp5, sOf_yp, sOf_zp]
  have t4 := (any_three (F := F) ovM.view c fullShare (256 * (1 - sOf c) + 128)).2
  simp only [Nat.add_assoc, Nat.reduceAdd] at t4
  have key := (sep_mono_right (BIClass.sep_mono (any_three (F := F) ovM.view c fullShare (256 * (1 - sOf c))).2
      (sep_mono_right (sep_mono_left t4)))).trans
    ((any_tiles ovM.view c fullShare (sOf c) (sOf_lt c)).2.trans (anyBand_whole ovM.view (View.set_whole _) c fullShare))
  iintro ⟨H0, H1, H2, H3, H4, H5, H6, H7, H8, H9, Y0, Z1, Y2, Z3, Y4, Z5⟩
  iapply key
  iframe

end Joins

section PtTiles
variable {sp : Space} {A B : Nat} {e : EltTy}

theorem pt_halves (v : View sig .tc sp ⟨2, ![512, B]⟩ e) (c : Dev nD) (q : PosShare TreeShare)
    (f : Buf (Elt F) (v.loc (c : Thread nD τ))) (s : Nat) (hs : s < 2) :
    ptBand v c q f 0 512 ⊣⊢ iprop(ptBand v c q f (256 * s) 256 ∗ ptBand v c q f (256 * (1 - s)) 256) := by
  have h := ptBand_split v c q f 0 256 256
  rcases (by omega : s = 0 ∨ s = 1) with rfl | rfl
  · exact h
  · exact h.trans sep_comm

theorem held_elim {s : Shape} (v : View sig .tc sp s e) (c : Dev nD) (q : PosShare TreeShare) (x : s.Idx → Elt F e) :
    held (F := F) v c q x
      ⊢ iprop(∃ f : Buf (Elt F) (v.loc (c : Thread nD τ)), (v.loc (c : Thread nD τ) ↦[v.set]{q} f) ∗ ⌜v.read (Elt F) f = x⌝) := by
  unfold held; exact .rfl

end PtTiles

section Snd

theorem sndRest_set (c : Dev nD) :
    sndM.view.set \ ((sndSl0 c).view.set ∪ (sndSl1 c).view.set ∪ (sndSl2 c).view.set ∪ (sndSl3 c).view.set
        ∪ (sndSl4 c).view.set ∪ (sndSl5 c).view.set ∪ (sndSl6 c).view.set ∪ (sndSl7 c).view.set ∪ (sndSl8 c).view.set
        ∪ (sndSl9 c).view.set)
      = bandSet sndM.view (256 * (1 - sOf c)) 104 ∪ bandSet sndM.view (256 * (1 - sOf c) + 128) 104 := by
  have hs := sOf_lt c
  rw [set_eq_bandSet sndM.view, set_strip (sp0 c), set_strip (sp1 c), set_strip (sp2 c), set_strip (sp3 c), set_strip (sp4 c), set_strip (sp5 c), set_strip (sp6 c), set_strip (sp7 c), set_strip (sp8 c), set_strip (sp9 c)]
  unfold bandSet
  simp only [← Finset.map_union, ← Finset.map_sdiff]
  congr 1
  ext i
  simp only [Finset.mem_sdiff, Finset.mem_union, mem_band, sp0, sp1, sp2, sp3, sp4, sp5, sp6, sp7, sp8, sp9]
  omega

theorem sndRest_eq (c : Dev nD) :
    sndRest (F := F) c
      ⊣⊢ iprop(anyBand (F := F) sndM.view c fullShare (256 * (1 - sOf c)) 104
        ∗ anyBand (F := F) sndM.view c fullShare (256 * (1 - sOf c) + 128) 104) := by
  unfold sndRest anyBand ptBand
  rw [sndRest_set c]
  exact any_union _ _ _ fullShare (bandSet_disjoint sndM.view (by omega))

end Snd

section SndSplit

theorem snd_join (c : Dev nD) :
    iprop(heldAny (F := F) (sndSl0 c).view c fullShare
        ∗ heldAny (F := F) (sndSl1 c).view c fullShare
        ∗ heldAny (F := F) (sndSl2 c).view c fullShare
        ∗ heldAny (F := F) (sndSl3 c).view c fullShare
        ∗ heldAny (F := F) (sndSl4 c).view c fullShare
        ∗ heldAny (F := F) (sndSl5 c).view c fullShare
        ∗ heldAny (F := F) (sndSl6 c).view c fullShare
        ∗ heldAny (F := F) (sndSl7 c).view c fullShare
        ∗ heldAny (F := F) (sndSl8 c).view c fullShare
        ∗ heldAny (F := F) (sndSl9 c).view c fullShare
        ∗ sndRest (F := F) c)
      ⊢ iprop(∃ f : Buf (Elt F) ((c : Thread nD τ).loc cc0_scratch0), ((c : Thread nD τ).loc cc0_scratch0 ↦{fullShare} f : sProp 𝕄)) := by
  rw [heldAny_strip (sp0 c), heldAny_strip (sp1 c), heldAny_strip (sp2 c), heldAny_strip (sp3 c), heldAny_strip (sp4 c), heldAny_strip (sp5 c), heldAny_strip (sp6 c), heldAny_strip (sp7 c), heldAny_strip (sp8 c), heldAny_strip (sp9 c)]
  have key := ((any_tiles (F := F) sndM.view c fullShare (sOf c) (sOf_lt c)).2).trans (anyBand_whole sndM.view (View.set_whole _) c fullShare)
  iintro ⟨H0, H1, H2, H3, H4, H5, H6, H7, H8, H9, HR⟩
  ihave HR' := (sndRest_eq (F := F) c).1 $$ HR
  icases HR' with ⟨R1, R2⟩
  iapply key
  iframe

theorem snd_split (c : Dev nD) (X : Buf (Elt F) (sndM.view.loc (c : Thread nD τ))) :
    held (F := F) sndM.view c fullShare X
      ⊢ iprop(held (F := F) (sndSl0 c).view c fullShare ((sndSl0 c).view.read (Elt F) X)
        ∗ held (F := F) (sndSl1 c).view c fullShare ((sndSl1 c).view.read (Elt F) X)
        ∗ held (F := F) (sndSl2 c).view c fullShare ((sndSl2 c).view.read (Elt F) X)
        ∗ held (F := F) (sndSl3 c).view c fullShare ((sndSl3 c).view.read (Elt F) X)
        ∗ held (F := F) (sndSl4 c).view c fullShare ((sndSl4 c).view.read (Elt F) X)
        ∗ held (F := F) (sndSl5 c).view c fullShare ((sndSl5 c).view.read (Elt F) X)
        ∗ held (F := F) (sndSl6 c).view c fullShare ((sndSl6 c).view.read (Elt F) X)
        ∗ held (F := F) (sndSl7 c).view c fullShare ((sndSl7 c).view.read (Elt F) X)
        ∗ held (F := F) (sndSl8 c).view c fullShare ((sndSl8 c).view.read (Elt F) X)
        ∗ held (F := F) (sndSl9 c).view c fullShare ((sndSl9 c).view.read (Elt F) X)
        ∗ sndRest (F := F) c) := by
  iintro Hh
  ihave Hh' := (held_elim (F := F) sndM.view c fullShare X) $$ Hh
  icases Hh' with ⟨%f, H, %hf⟩
  have hfX : f = X := hf
  subst hfX
  ihave H' := (Entails.of_eq (whole_ptBand (F := F) sndM.view c fullShare f)) $$ H
  have S8 := (ptBands_eq (F := F) sndM.view c fullShare f [48, 40, 16, 24, 48, 40, 16, 24] (256 * sOf c + 0)).1
  have S4 := (ptBands_eq (F := F) sndM.view c fullShare f [104, 24, 104, 24] (256 * (1 - sOf c))).1
  simp only [ptBands, List.sum_cons, List.sum_nil, Nat.add_assoc, Nat.reduceAdd] at S8 S4
  ihave T := ((pt_halves sndM.view c fullShare f (sOf c) (sOf_lt c)).1.trans (BIClass.sep_mono S8 S4)) $$ H'
  icases T with ⟨⟨P0, P2, P4, P6, P1, P3, P5, P7⟩, R1, P8, R2, P9⟩
  ihave Q0 := ptBand_held (sp0 c) sndM.view c fullShare f _ rfl $$ P0
  ihave Q1 := ptBand_held (sp1 c) sndM.view c fullShare f _ rfl $$ P1
  ihave Q2 := ptBand_held (sp2 c) sndM.view c fullShare f _ rfl $$ P2
  ihave Q3 := ptBand_held (sp3 c) sndM.view c fullShare f _ rfl $$ P3
  ihave Q4 := ptBand_held (sp4 c) sndM.view c fullShare f _ rfl $$ P4
  ihave Q5 := ptBand_held (sp5 c) sndM.view c fullShare f _ rfl $$ P5
  ihave Q6 := ptBand_held (sp6 c) sndM.view c fullShare f _ rfl $$ P6
  ihave Q7 := ptBand_held (sp7 c) sndM.view c fullShare f _ rfl $$ P7
  ihave Q8 := ptBand_held (sp8 c) sndM.view c fullShare f _ rfl $$ P8
  ihave Q9 := ptBand_held (sp9 c) sndM.view c fullShare f _ rfl $$ P9
  ihave S1 := ptBand_any sndM.view c fullShare f _ _ $$ R1
  ihave S2 := ptBand_any sndM.view c fullShare f _ _ $$ R2
  ihave R := (sndRest_eq (F := F) c).2 $$ [S1 S2]
  · iframe
  iframe

end SndSplit

section Arg0

theorem mem_half3 (off : Fin 3 → Nat) (o : Nat) (hoff : off = ![0, o, 0])
    (inb : ∀ a, off a + S1x512x512.size a ≤ S1x1024x512.size a) (i : S1x1024x512.Idx) :
    i ∈ (Rect.unit (s := S1x1024x512) off S1x512x512.size inb).set ↔ o ≤ (i 1).val ∧ (i 1).val < o + 512 := by
  subst hoff
  rw [Rect.mem_set_unit]
  have h0 : (i 0).val < 1 := (i 0).isLt
  have h2 : (i 2).val < 512 := (i 2).isLt
  constructor
  · intro h; exact h 1
  · intro h a
    match a with
    | ⟨0, _⟩ => exact ⟨Nat.zero_le _, by show (i 0).val < 0 + 1; omega⟩
    | ⟨1, _⟩ => exact h
    | ⟨2, _⟩ => exact ⟨Nat.zero_le _, by show (i 2).val < 0 + 512; omega⟩

theorem srcSend_set (c : Dev nD) :
    (srcSend c).view.set = (Rect.unit (s := S1x1024x512) (k0_off1 c) S1x512x512.size (k0_off1_inb c)).set :=
  (View.set_reshape _ _).trans (View.set_slice_whole _ _)
theorem srcLoc_set (c : Dev nD) :
    (srcLoc c).view.set = (Rect.unit (s := S1x1024x512) (k0_off2 c) S1x512x512.size (k0_off2_inb c)).set :=
  (View.set_reshape _ _).trans (View.set_slice_whole _ _)

theorem src_disjoint (c : Dev nD) : Disjoint (srcSend c).view.set (srcLoc c).view.set := by
  rw [srcSend_set, srcLoc_set, Finset.disjoint_left]
  intro i h1 h2
  rw [mem_half3 _ _ (off1_eq c)] at h1
  rw [mem_half3 _ _ (off2_eq c)] at h2
  have := xOf_lt c
  omega

theorem src_union (c : Dev nD) : (srcSend c).view.set ∪ (srcLoc c).view.set = Finset.univ := by
  rw [srcSend_set, srcLoc_set]
  ext i
  have h1 : (i 1).val < 1024 := (i 1).isLt
  have := xOf_lt c
  simp only [Finset.mem_union, Finset.mem_univ, iff_true, mem_half3 _ _ (off1_eq c), mem_half3 _ _ (off2_eq c)]
  omega

theorem a0_split (c : Dev nD) (A : Buf (Elt F) ((c : Thread nD τ).loc main_arg0)) :
    ((c : Thread nD τ).loc main_arg0 ↦{fullShare} A : sProp 𝕄)
      ⊣⊢ iprop(((srcSend c).view.loc (c : Thread nD τ) ↦[(srcSend c).view.set]{fullShare} A)
        ∗ ((srcLoc c).view.loc (c : Thread nD τ) ↦[(srcLoc c).view.set]{fullShare} A)) := by
  have h : ((c : Thread nD τ).loc main_arg0 ↦[(srcSend c).view.set ∪ (srcLoc c).view.set]{fullShare} A : sProp 𝕄)
      ⊣⊢ iprop(((c : Thread nD τ).loc main_arg0 ↦[(srcSend c).view.set]{fullShare} A)
        ∗ ((c : Thread nD τ).loc main_arg0 ↦[(srcLoc c).view.set]{fullShare} A)) := pointsTo_union (src_disjoint c)
  rw [src_union c] at h
  exact h

theorem a0_join (c : Dev nD) (A : Buf (Elt F) ((c : Thread nD τ).loc main_arg0)) :
    iprop(((srcSend c).view.loc (c : Thread nD τ) ↦[(srcSend c).view.set]{fullShare} A)
        ∗ ((srcLoc c).view.loc (c : Thread nD τ) ↦[(srcLoc c).view.set]{fullShare} A))
      ⊢ ((c : Thread nD τ).loc main_arg0 ↦{fullShare} A : sProp 𝕄) := (a0_split c A).2

end Arg0

section OvValues

theorem yp_row (c : Dev nD) (k : Nat) : 256 * sOf (yp c) + k = 256 * (1 - sOf c) + k := by rw [sOf_yp]
theorem zp_row (c : Dev nD) (k : Nat) : 256 * sOf (zp c) + k = 256 * (1 - sOf c) + k := by rw [sOf_zp]

def O1Rows (c : Dev nD) (X : S256x512.Idx → Elt F .f32) (v0 : S48x512.Idx → Elt F .f32) (v2 : S40x512.Idx → Elt F .f32) (v4 : S16x512.Idx → Elt F .f32) (v6 : S24x512.Idx → Elt F .f32) (v1 : S48x512.Idx → Elt F .f32) (v3 : S40x512.Idx → Elt F .f32) (v5 : S16x512.Idx → Elt F .f32) (v7 : S24x512.Idx → Elt F .f32) : Prop :=
  subRows 0 48 (by omega) X = v0
    ∧ subRows 48 40 (by omega) X = v2
    ∧ subRows 88 16 (by omega) X = v4
    ∧ subRows 104 24 (by omega) X = v6
    ∧ subRows 128 48 (by omega) X = v1
    ∧ subRows 176 40 (by omega) X = v3
    ∧ subRows 216 16 (by omega) X = v5
    ∧ subRows 232 24 (by omega) X = v7

theorem ovO1_join (c : Dev nD) (q : PosShare TreeShare) (v0 : S48x512.Idx → Elt F .f32) (v2 : S40x512.Idx → Elt F .f32) (v4 : S16x512.Idx → Elt F .f32) (v6 : S24x512.Idx → Elt F .f32) (v1 : S48x512.Idx → Elt F .f32) (v3 : S40x512.Idx → Elt F .f32) (v5 : S16x512.Idx → Elt F .f32) (v7 : S24x512.Idx → Elt F .f32) :
    iprop(held (F := F) (ovSl0 c).view c q v0
        ∗ held (F := F) (ovSl2 c).view c q v2
        ∗ held (F := F) (ovSl4 c).view c q v4
        ∗ held (F := F) (ovSl6 c).view c q v6
        ∗ held (F := F) (ovSl1 c).view c q v1
        ∗ held (F := F) (ovSl3 c).view c q v3
        ∗ held (F := F) (ovSl5 c).view c q v5
        ∗ held (F := F) (ovSl7 c).view c q v7)
      ⊢ iprop(∃ X : S256x512.Idx → Elt F .f32, ⌜O1Rows (F := F) c X v0 v2 v4 v6 v1 v3 v5 v7⌝ ∗ held (F := F) (ovO1 c).view c q X) := by
  iintro ⟨A0, A2, A4, A6, A1, A3, A5, A7⟩
  ihave B0 := held_strip (sp0 c) ovM.view c q v0 _ rfl $$ A0
  icases B0 with ⟨%f0, P0, %h0⟩
  ihave B2 := held_strip (sp2 c) ovM.view c q v2 _ rfl $$ A2
  icases B2 with ⟨%f2, P2, %h2⟩
  ihave B4 := held_strip (sp4 c) ovM.view c q v4 _ rfl $$ A4
  icases B4 with ⟨%f4, P4, %h4⟩
  ihave B6 := held_strip (sp6 c) ovM.view c q v6 _ rfl $$ A6
  icases B6 with ⟨%f6, P6, %h6⟩
  ihave B1 := held_strip (sp1 c) ovM.view c q v1 _ rfl $$ A1
  icases B1 with ⟨%f1, P1, %h1⟩
  ihave B3 := held_strip (sp3 c) ovM.view c q v3 _ rfl $$ A3
  icases B3 with ⟨%f3, P3, %h3⟩
  ihave B5 := held_strip (sp5 c) ovM.view c q v5 _ rfl $$ A5
  icases B5 with ⟨%f5, P5, %h5⟩
  ihave B7 := held_strip (sp7 c) ovM.view c q v7 _ rfl $$ A7
  icases B7 with ⟨%f7, P7, %h7⟩
  have J := ptBandsL_join (F := F) ovM.view c q [(48, f0), (40, f2), (16, f4), (24, f6), (48, f1), (40, f3), (16, f5), (24, f7)] (256 * sOf c + 0) (List.cons_ne_nil _ _)
  simp only [ptBandsL, agreeL, List.map, List.sum_cons, List.sum_nil, Nat.add_assoc, Nat.reduceAdd] at J
  ihave G := J $$ [P0 P2 P4 P6 P1 P3 P5 P7]
  · iframe
  icases G with ⟨%g, HG, %hg⟩
  iexists (ovO1 c).view.read (Elt F) g
  isplitr
  · ipureintro
    obtain ⟨g0, g2, g4, g6, g1, g3, g5, g7, -⟩ := hg
    exact ⟨sub_agree ovM.view (spO1 c) (sp0 c) 0 rfl _ g0 h0,
      sub_agree ovM.view (spO1 c) (sp2 c) 48 rfl _ g2 h2,
      sub_agree ovM.view (spO1 c) (sp4 c) 88 rfl _ g4 h4,
      sub_agree ovM.view (spO1 c) (sp6 c) 104 rfl _ g6 h6,
      sub_agree ovM.view (spO1 c) (sp1 c) 128 rfl _ g1 h1,
      sub_agree ovM.view (spO1 c) (sp3 c) 176 rfl _ g3 h3,
      sub_agree ovM.view (spO1 c) (sp5 c) 216 rfl _ g5 h5,
      sub_agree ovM.view (spO1 c) (sp7 c) 232 rfl _ g7 h7⟩
  · iapply ptBand_held (spO1 c) ovM.view c q g _ rfl
    iexact HG

theorem ovO1_unjoin (c : Dev nD) (q : PosShare TreeShare) (X : S256x512.Idx → Elt F .f32) (v0 : S48x512.Idx → Elt F .f32) (v2 : S40x512.Idx → Elt F .f32) (v4 : S16x512.Idx → Elt F .f32) (v6 : S24x512.Idx → Elt F .f32) (v1 : S48x512.Idx → Elt F .f32) (v3 : S40x512.Idx → Elt F .f32) (v5 : S16x512.Idx → Elt F .f32) (v7 : S24x512.Idx → Elt F .f32)
    (h : O1Rows (F := F) c X v0 v2 v4 v6 v1 v3 v5 v7) :
    held (F := F) (ovO1 c).view c q X
      ⊢ iprop(held (F := F) (ovSl0 c).view c q v0
        ∗ held (F := F) (ovSl2 c).view c q v2
        ∗ held (F := F) (ovSl4 c).view c q v4
        ∗ held (F := F) (ovSl6 c).view c q v6
        ∗ held (F := F) (ovSl1 c).view c q v1
        ∗ held (F := F) (ovSl3 c).view c q v3
        ∗ held (F := F) (ovSl5 c).view c q v5
        ∗ held (F := F) (ovSl7 c).view c q v7) := by
  obtain ⟨rfl, rfl, rfl, rfl, rfl, rfl, rfl, rfl⟩ := h
  iintro H
  ihave H' := held_strip (spO1 c) ovM.view c q X _ rfl $$ H
  icases H' with ⟨%g, HG, %hg⟩
  subst hg
  have S := (ptBands_eq (F := F) ovM.view c q g [48, 40, 16, 24, 48, 40, 16, 24] (256 * sOf c)).1
  simp only [ptBands, List.sum_cons, List.sum_nil, Nat.add_assoc, Nat.reduceAdd] at S
  iapply (S.trans <| BIClass.sep_mono (ptBand_sub ovM.view c q (spO1 c) (sp0 c) 0 rfl _ g) <|
    BIClass.sep_mono (ptBand_sub ovM.view c q (spO1 c) (sp2 c) 48 rfl _ g) <|
    BIClass.sep_mono (ptBand_sub ovM.view c q (spO1 c) (sp4 c) 88 rfl _ g) <|
    BIClass.sep_mono (ptBand_sub ovM.view c q (spO1 c) (sp6 c) 104 rfl _ g) <|
    BIClass.sep_mono (ptBand_sub ovM.view c q (spO1 c) (sp1 c) 128 rfl _ g) <|
    BIClass.sep_mono (ptBand_sub ovM.view c q (spO1 c) (sp3 c) 176 rfl _ g) <|
    BIClass.sep_mono (ptBand_sub ovM.view c q (spO1 c) (sp5 c) 216 rfl _ g) <|
    ptBand_sub ovM.view c q (spO1 c) (sp7 c) 232 rfl _ g)
  iexact HG

def O3Rows (c : Dev nD) (X : S104x512.Idx → Elt F .f32) (v0 : S48x512.Idx → Elt F .f32) (v2 : S40x512.Idx → Elt F .f32) (v4 : S16x512.Idx → Elt F .f32) : Prop :=
  subRows 0 48 (by omega) X = v0
    ∧ subRows 48 40 (by omega) X = v2
    ∧ subRows 88 16 (by omega) X = v4

theorem ovO3_join (c : Dev nD) (q : PosShare TreeShare) (v0 : S48x512.Idx → Elt F .f32) (v2 : S40x512.Idx → Elt F .f32) (v4 : S16x512.Idx → Elt F .f32) :
    iprop(held (F := F) (ovSl0 (yp c)).view c q v0
        ∗ held (F := F) (ovSl2 (yp c)).view c q v2
        ∗ held (F := F) (ovSl4 (yp c)).view c q v4)
      ⊢ iprop(∃ X : S104x512.Idx → Elt F .f32, ⌜O3Rows (F := F) c X v0 v2 v4⌝ ∗ held (F := F) (ovO3 c).view c q X) :=
  join3 ovM.view c q (spO3 c) (sp0 (yp c)) (sp2 (yp c)) (sp4 (yp c)) (yp_row c 0) (yp_row c 48) (yp_row c 88) rfl v0 v2 v4

theorem ovO3_unjoin (c : Dev nD) (q : PosShare TreeShare) (X : S104x512.Idx → Elt F .f32) (v0 : S48x512.Idx → Elt F .f32) (v2 : S40x512.Idx → Elt F .f32) (v4 : S16x512.Idx → Elt F .f32)
    (h : O3Rows (F := F) c X v0 v2 v4) :
    held (F := F) (ovO3 c).view c q X
      ⊢ iprop(held (F := F) (ovSl0 (yp c)).view c q v0
        ∗ held (F := F) (ovSl2 (yp c)).view c q v2
        ∗ held (F := F) (ovSl4 (yp c)).view c q v4) := by
  obtain ⟨rfl, rfl, rfl⟩ := h
  exact unjoin3 ovM.view c q (spO3 c) (sp0 (yp c)) (sp2 (yp c)) (sp4 (yp c)) (yp_row c 0) (yp_row c 48) (yp_row c 88) rfl X

def O4Rows (c : Dev nD) (X : S104x512.Idx → Elt F .f32) (v1 : S48x512.Idx → Elt F .f32) (v3 : S40x512.Idx → Elt F .f32) (v5 : S16x512.Idx → Elt F .f32) : Prop :=
  subRows 0 48 (by omega) X = v1
    ∧ subRows 48 40 (by omega) X = v3
    ∧ subRows 88 16 (by omega) X = v5

theorem ovO4_join (c : Dev nD) (q : PosShare TreeShare) (v1 : S48x512.Idx → Elt F .f32) (v3 : S40x512.Idx → Elt F .f32) (v5 : S16x512.Idx → Elt F .f32) :
    iprop(held (F := F) (ovSl1 (zp c)).view c q v1
        ∗ held (F := F) (ovSl3 (zp c)).view c q v3
        ∗ held (F := F) (ovSl5 (zp c)).view c q v5)
      ⊢ iprop(∃ X : S104x512.Idx → Elt F .f32, ⌜O4Rows (F := F) c X v1 v3 v5⌝ ∗ held (F := F) (ovO4 c).view c q X) :=
  join3 ovM.view c q (spO4 c) (sp1 (zp c)) (sp3 (zp c)) (sp5 (zp c)) (zp_row c 128) (zp_row c 176) (zp_row c 216) rfl v1 v3 v5

theorem ovO4_unjoin (c : Dev nD) (q : PosShare TreeShare) (X : S104x512.Idx → Elt F .f32) (v1 : S48x512.Idx → Elt F .f32) (v3 : S40x512.Idx → Elt F .f32) (v5 : S16x512.Idx → Elt F .f32)
    (h : O4Rows (F := F) c X v1 v3 v5) :
    held (F := F) (ovO4 c).view c q X
      ⊢ iprop(held (F := F) (ovSl1 (zp c)).view c q v1
        ∗ held (F := F) (ovSl3 (zp c)).view c q v3
        ∗ held (F := F) (ovSl5 (zp c)).view c q v5) := by
  obtain ⟨rfl, rfl, rfl⟩ := h
  exact unjoin3 ovM.view c q (spO4 c) (sp1 (zp c)) (sp3 (zp c)) (sp5 (zp c)) (zp_row c 128) (zp_row c 176) (zp_row c 216) rfl X

end OvValues

section OutJoin
variable {sp : Space} {B : Nat} {e : EltTy}

theorem pt_halves_join (v : View sig .tc sp ⟨2, ![512, B]⟩ e) (c : Dev nD) (q : PosShare TreeShare)
    (f₁ g₂ : Buf (Elt F) (v.loc (c : Thread nD τ))) (s : Nat) (hs : s < 2) :
    iprop(ptBand v c q f₁ (256 * s) 256 ∗ ptBand v c q g₂ (256 * (1 - s)) 256)
      ⊢ iprop(∃ g : Buf (Elt F) (v.loc (c : Thread nD τ)), ptBand v c q g 0 512
        ∗ ⌜(∀ i ∈ bandSet v (256 * s) 256, g i = f₁ i) ∧ (∀ i ∈ bandSet v (256 * (1 - s)) 256, g i = g₂ i)⌝) := by
  rcases (by omega : s = 0 ∨ s = 1) with rfl | rfl
  · have J := ptBandsL_join (F := F) v c q [(256, f₁), (256, g₂)] 0 (List.cons_ne_nil _ _)
    simp only [ptBandsL, agreeL, List.map, List.sum_cons, List.sum_nil, Nat.add_assoc, Nat.reduceAdd, Nat.add_zero, Nat.zero_add] at J
    refine J.trans (exists_mono fun g => sep_mono_right (BI.pure_mono fun h => ⟨h.1, h.2.1⟩))
  · have J := ptBandsL_join (F := F) v c q [(256, g₂), (256, f₁)] 0 (List.cons_ne_nil _ _)
    simp only [ptBandsL, agreeL, List.map, List.sum_cons, List.sum_nil, Nat.add_assoc, Nat.reduceAdd, Nat.add_zero, Nat.zero_add] at J
    refine (sep_comm.1.trans J).trans (exists_mono fun g => sep_mono_right (BI.pure_mono fun h => ⟨h.2.1, h.1⟩))

end OutJoin

section OutSpecJoin
variable (m : (ℓ : Loc nD τ sig) → Buf (Elt F) ℓ)

theorem out_join_spec (c : Dev nD) (X1 : S256x512.Idx → Elt F .f32) (X3 X4 : S104x512.Idx → Elt F .f32)
    (h1 : O1Rows (F := F) c X1 (val0 m c) (val2 m c) (val4 m c) (val6 m c) (val1 m c) (val3 m c) (val5 m c) (val7 m c))
    (h3 : O3Rows (F := F) c X3 (val0 m (yp c)) (val2 m (yp c)) (val4 m (yp c)))
    (h4 : O4Rows (F := F) c X4 (val1 m (zp c)) (val3 m (zp c)) (val5 m (zp c))) :
    iprop(held (F := F) (outO1 c).view c fullShare X1 ∗ held (F := F) (outO2a c).view c fullShare (val8 m c)
        ∗ held (F := F) (outO2b c).view c fullShare (val9 m c) ∗ held (F := F) (outO3 c).view c fullShare X3
        ∗ held (F := F) (outO4 c).view c fullShare X4)
      ⊢ iprop(∃ OUT : Buf (Elt F) (outM.view.loc (c : Thread nD τ)), ⌜OutSpec m c OUT⌝
        ∗ (outM.view.loc (c : Thread nD τ) ↦[outM.view.set]{fullShare} OUT)) := by
  iintro ⟨A1, A2a, A2b, A3, A4⟩
  ihave B1 := held_strip (spO1 c) outM.view c fullShare X1 _ rfl $$ A1
  icases B1 with ⟨%f1, P1, %r1⟩
  ihave B2a := held_strip (sp8 c) outM.view c fullShare (val8 m c) _ rfl $$ A2a
  icases B2a with ⟨%f2a, P2a, %r2a⟩
  ihave B2b := held_strip (spO2b c) outM.view c fullShare (val9 m c) _ rfl $$ A2b
  icases B2b with ⟨%f2b, P2b, %r2b⟩
  ihave B3 := held_strip (spO3 c) outM.view c fullShare X3 _ rfl $$ A3
  icases B3 with ⟨%f3, P3, %r3⟩
  ihave B4 := held_strip (spO4 c) outM.view c fullShare X4 _ rfl $$ A4
  icases B4 with ⟨%f4, P4, %r4⟩
  have J := ptBandsL_join (F := F) outM.view c fullShare [(104, f3), (24, f2a), (104, f4), (24, f2b)] (256 * (1 - sOf c)) (List.cons_ne_nil _ _)
  simp only [ptBandsL, agreeL, List.map, List.sum_cons, List.sum_nil, Nat.add_assoc, Nat.reduceAdd, Nat.add_zero] at J
  ihave G2 := J $$ [P3 P2a P4 P2b]
  · iframe
  icases G2 with ⟨%g2, Q2, %hg2⟩
  ihave G := pt_halves_join (F := F) outM.view c fullShare f1 g2 (sOf c) (sOf_lt c) $$ [P1 Q2]
  · iframe
  icases G with ⟨%g, HG, %hg⟩
  iexists g
  isplitr
  · ipureintro
    obtain ⟨aS, aH⟩ := hg
    obtain ⟨b3, b2a, b4, b2b, -⟩ := hg2
    have sub : ∀ (o n : Nat) (f : Buf (Elt F) (outM.view.loc (c : Thread nD τ))), 256 * (1 - sOf c) ≤ o →
        o + n ≤ 256 * (1 - sOf c) + 256 → (∀ i ∈ bandSet outM.view o n, g2 i = f i) →
        ∀ i ∈ bandSet outM.view o n, g i = f i :=
      fun o n f l u b i hi => (aH i (bandSet_subset outM.view l u hi)).trans (b i hi)
    have R1 := (read_strip_congr (spO1 c) outM.view _ rfl aS).trans r1
    have R2a := (read_strip_congr (sp8 c) outM.view _ rfl (sub (256 * (1 - sOf c) + 104) 24 _ (by omega) (by omega) b2a)).trans r2a
    have R2b := (read_strip_congr (spO2b c) outM.view _ rfl (sub (256 * (1 - sOf c) + 232) 24 _ (by omega) (by omega) b2b)).trans r2b
    have R3 := (read_strip_congr (spO3 c) outM.view _ rfl (sub (256 * (1 - sOf c)) 104 _ (by omega) (by omega) b3)).trans r3
    have R4 := (read_strip_congr (spO4 c) outM.view _ rfl (sub (256 * (1 - sOf c) + 128) 104 _ (by omega) (by omega) b4)).trans r4
    exact {
      own0 := read_of_sub outM.view (spO1 c) (sp0 c) 0 rfl _ g R1 h1.1
      own1 := read_of_sub outM.view (spO1 c) (sp1 c) 128 rfl _ g R1 h1.2.2.2.2.1
      own2 := read_of_sub outM.view (spO1 c) (sp2 c) 48 rfl _ g R1 h1.2.1
      own3 := read_of_sub outM.view (spO1 c) (sp3 c) 176 rfl _ g R1 h1.2.2.2.2.2.1
      own4 := read_of_sub outM.view (spO1 c) (sp4 c) 88 rfl _ g R1 h1.2.2.1
      own5 := read_of_sub outM.view (spO1 c) (sp5 c) 216 rfl _ g R1 h1.2.2.2.2.2.2.1
      own6 := read_of_sub outM.view (spO1 c) (sp6 c) 104 rfl _ g R1 h1.2.2.2.1
      own7 := read_of_sub outM.view (spO1 c) (sp7 c) 232 rfl _ g R1 h1.2.2.2.2.2.2.2
      own8 := R2a
      own9 := (read_slice_off_congr outM.view (off_eq14 c).symm ![24, 512] (k0_off7_inb c 1) (k0_off14_inb c) g).trans R2b
      got0 := read_of_sub outM.view (spO3 c) (sp0 (yp c)) 0 (yp_row c 0) _ g R3 h3.1
      got1 := read_of_sub outM.view (spO4 c) (sp1 (zp c)) 0 (zp_row c 128) _ g R4 h4.1
      got2 := read_of_sub outM.view (spO3 c) (sp2 (yp c)) 48 (yp_row c 48) _ g R3 h3.2.1
      got3 := read_of_sub outM.view (spO4 c) (sp3 (zp c)) 48 (zp_row c 176) _ g R4 h4.2.1
      got4 := read_of_sub outM.view (spO3 c) (sp4 (yp c)) 88 (yp_row c 88) _ g R3 h3.2.2
      got5 := read_of_sub outM.view (spO4 c) (sp5 (zp c)) 88 (zp_row c 216) _ g R4 h4.2.2 }
  · rw [whole_ptBand (F := F) outM.view c fullShare g]; iexact HG

end OutSpecJoin

end Cert.Kernel.Proto

end
-- ==== Proof.Bits.Body1.lean ====
import proofs.«900598_g7700000000000599_dist_rsrms_v7x_xyz2x2x2_x_m512_d512_f32_1_alg».proof.Proof.Bits.States
import proofs.«900598_g7700000000000599_dist_rsrms_v7x_xyz2x2x2_x_m512_d512_f32_1_alg».proof.Proof.Bits.KitRounds
import proofs.«900598_g7700000000000599_dist_rsrms_v7x_xyz2x2x2_x_m512_d512_f32_1_alg».proof.Proof.Bits.KitLocal
import proofs.«900598_g7700000000000599_dist_rsrms_v7x_xyz2x2x2_x_m512_d512_f32_1_alg».proof.Proof.Bits.Levels
import proofs.«900598_g7700000000000599_dist_rsrms_v7x_xyz2x2x2_x_m512_d512_f32_1_alg».proof.Proof.Bits.Ctx
import proofs.«900598_g7700000000000599_dist_rsrms_v7x_xyz2x2x2_x_m512_d512_f32_1_alg».proof.Proof.Bits.Regions

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

theorem a0_cut (c : Dev nD) :
    ((((c : Thread nD τ).loc main_arg0) ↦{fullShare} m ((c : Thread nD τ).loc main_arg0)) : sProp 𝕄)
      ⊢ iprop(((srcSend c).view.loc (c : Thread nD τ) ↦[(srcSend c).view.set]{fullShare} m ((c : Thread nD τ).loc main_arg0))
          ∗ ((srcLoc c).view.loc (c : Thread nD τ) ↦[(srcLoc c).view.set]{fullShare} m ((c : Thread nD τ).loc main_arg0))) :=
  (a0_split c (m ((c : Thread nD τ).loc main_arg0))).1

theorem snd_cut (c : Dev nD) :
    held sndM.view c fullShare (SND m c)
      ⊢ iprop(held (sndSl0 c).view c fullShare (sndv0 m c) ∗ held (sndSl1 c).view c fullShare (sndv1 m c)
          ∗ held (sndSl2 c).view c fullShare (sndv2 m c) ∗ held (sndSl3 c).view c fullShare (sndv3 m c)
          ∗ held (sndSl4 c).view c fullShare (sndv4 m c) ∗ held (sndSl5 c).view c fullShare (sndv5 m c)
          ∗ held (sndSl6 c).view c fullShare (sndv6 m c) ∗ held (sndSl7 c).view c fullShare (sndv7 m c)
          ∗ held (sndSl8 c).view c fullShare (sndv8 m c) ∗ held (sndSl9 c).view c fullShare (sndv9 m c)
          ∗ sndRest c) := by
  unfold sndv0 sndv1 sndv2 sndv3 sndv4 sndv5 sndv6 sndv7 sndv8 sndv9
  exact snd_split c (SND m c)

theorem pt_whole (b : Ref sig .tc) (c : Dev nD) (q : PosShare TreeShare) (f : Buf (Elt F) ((c : Thread nD τ).loc b)) :
    ((((c : Thread nD τ).loc b) ↦{q} f) : sProp 𝕄)
      = ((Memref.whole b).view.loc (c : Thread nD τ) ↦[(Memref.whole b).view.set]{q} f) := by
  simp only [Memref.view_whole, View.set_whole]

theorem any_whole (b : Ref sig .tc) (c : Dev nD) (q : PosShare TreeShare) :
    (iprop(∃ f, ((c : Thread nD τ).loc b) ↦{q} f) : sProp 𝕄)
      ⊢ iprop(∃ f : Buf (Elt F) ((Memref.whole b).view.loc (c : Thread nD τ)), (Memref.whole b).view.loc (c : Thread nD τ) ↦[(Memref.whole b).view.set]{q} f) := by
  simp only [Memref.view_whole, View.set_whole]
  exact .rfl

theorem heldAny_whole (b : Ref sig .tc) (c : Dev nD) (q : PosShare TreeShare) :
    (iprop(∃ f, ((c : Thread nD τ).loc b) ↦{q} f) : sProp 𝕄) ⊢ heldAny (F := F) (Memref.whole b).view c q := by
  unfold heldAny; exact any_whole b c q

theorem owes_step (n : ℕ) (c : Dev nD) (t : CellTallies nD τ sig Unit) (h : owedAfter n c = owedAfter (n + 1) c + t) (W : Waits sig Unit) :
    (owes (c : Thread nD τ) (owedAfter n c) W : sProp 𝕄) ⊢ owes (c : Thread nD τ) (owedAfter (n + 1) c + t) W := by
  rw [h]

def flightSndD (c : Dev nD) : sProp 𝕄 :=
  iprop(held sndM.view c fullShare (SND m c)
    ∗ ((srcSend c).view.loc (c : Thread nD τ) ↦[(srcSend c).view.set]{fullShare} m ((c : Thread nD τ).loc main_arg0)))
abbrev Nsnd : ℕ := (sndM : Memref sig .tc .vmem S512x512 .f32).view.dmaCredit

def St1 (K : GSem nD τ sig → ℕ) (c : Dev nD) : sProp 𝕄 :=
  iprop(ghost m K c ∗ creds c
    ∗ semVal (dcell c inS1) 0 ∗ semVal (dcell c inS2) 0
    ∗ semVal (dcell c outS0) 0 ∗ semVal (dcell c outS1) 0 ∗ semVal (dcell c outS2) 0 ∗ semVal (dcell c outS3) 0 ∗ semVal (dcell c outS4) 0
    ∗ levAts L lv
    ∗ Transfers.Flight countersEmb (c : Thread nD τ) (.dma inS0) () Nsnd (flightSndD m c)
    ∗ ((srcLoc c).view.loc (c : Thread nD τ) ↦[(srcLoc c).view.set]{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1))
    ∗ (∃ f, ((c : Thread nD τ).loc cc0_scratch1) ↦{fullShare} f)
    ∗ (∃ f, ((c : Thread nD τ).loc cc0_scratch2) ↦{fullShare} f)
    ∗ (∃ f, ((c : Thread nD τ).loc cc0_scratch3) ↦{fullShare} f)
    ∗ (∃ f, ((c : Thread nD τ).loc cc0_scratch4) ↦{fullShare} f)
    ∗ ∃ W, owes (c : Thread nD τ) (O₀ c) W)

theorem barPay_intro (c : Dev nD) :
    iprop((∃ f, ((c : Thread nD τ).loc cc0_scratch4) ↦{fullShare} f) ∗ known c) ⊢ barPay (F := F) (xp c) := by
  unfold barPay
  rw [xp_xp]
  iintro ⟨H, #Hk⟩
  ihave H' := (any_whole cc0_scratch4 c fullShare) $$ H
  ihave R0 := (known_get c (dcell c p1rS0) (by simp [knownCells])) $$ Hk
  ihave R1 := (known_get c (dcell c p1rS1) (by simp [knownCells])) $$ Hk
  ihave R2 := (known_get c (dcell c p1rS2) (by simp [knownCells])) $$ Hk
  ihave R3 := (known_get c (dcell c p1rS3) (by simp [knownCells])) $$ Hk
  ihave R4 := (known_get c (dcell c p1rS4) (by simp [knownCells])) $$ Hk
  ihave R5 := (known_get c (dcell c p1rS5) (by simp [knownCells])) $$ Hk
  ihave R6 := (known_get c (dcell c p1rS6) (by simp [knownCells])) $$ Hk
  ihave R7 := (known_get c (dcell c p1rS7) (by simp [knownCells])) $$ Hk
  ihave R8 := (known_get c (dcell c p1rS8) (by simp [knownCells])) $$ Hk
  ihave R9 := (known_get c (dcell c p1rS9) (by simp [knownCells])) $$ Hk
  isplitl [H']; · iexact H'
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

theorem yPay_intro (c : Dev nD) :
    iprop(heldAny (F := F) (ovO3 c).view c fullShare ∗ known c) ⊢ yPay (F := F) (yp c) := by
  unfold yPay heldAny
  rw [yp_yp]
  iintro ⟨H, #Hk⟩
  ihave R0 := (known_get c (dcell c p2rS0) (by simp [knownCells])) $$ Hk
  ihave R2 := (known_get c (dcell c p2rS2) (by simp [knownCells])) $$ Hk
  ihave R4 := (known_get c (dcell c p2rS4) (by simp [knownCells])) $$ Hk
  isplitl [H]; · iexact H
  isplitl [R0]; · iexact R0
  isplitl [R2]; · iexact R2
  iexact R4

theorem zPay_intro (c : Dev nD) :
    iprop(heldAny (F := F) (ovO4 c).view c fullShare ∗ known c) ⊢ zPay (F := F) (zp c) := by
  unfold zPay heldAny
  rw [zp_zp]
  iintro ⟨H, #Hk⟩
  ihave R1 := (known_get c (dcell c p2rS1) (by simp [knownCells])) $$ Hk
  ihave R3 := (known_get c (dcell c p2rS3) (by simp [knownCells])) $$ Hk
  ihave R5 := (known_get c (dcell c p2rS5) (by simp [knownCells])) $$ Hk
  isplitl [H]; · iexact H
  isplitl [R1]; · iexact R1
  isplitl [R3]; · iexact R3
  iexact R5

theorem positions_open (c : Dev nD) :
    (positions c : sProp 𝕄) ⊢ iprop(atPos ER (barCell c) 0 ∅ 0
      ∗ atPos ER (yzCell c) 0 ∅ 0
      ∗ atPos ER (dcell c p1sS0) 0 ∅ 0
      ∗ atPos ER (dcell c p1sS1) 0 ∅ 0
      ∗ atPos ER (dcell c p1sS2) 0 ∅ 0
      ∗ atPos ER (dcell c p1sS3) 0 ∅ 0
      ∗ atPos ER (dcell c p1sS4) 0 ∅ 0
      ∗ atPos ER (dcell c p1sS5) 0 ∅ 0
      ∗ atPos ER (dcell c p1sS6) 0 ∅ 0
      ∗ atPos ER (dcell c p1sS7) 0 ∅ 0
      ∗ atPos ER (dcell c p1sS8) 0 ∅ 0
      ∗ atPos ER (dcell c p1sS9) 0 ∅ 0
      ∗ atPos ER (dcell c p1rS0) 0 ∅ 0
      ∗ atPos ER (dcell c p1rS1) 0 ∅ 0
      ∗ atPos ER (dcell c p1rS2) 0 ∅ 0
      ∗ atPos ER (dcell c p1rS3) 0 ∅ 0
      ∗ atPos ER (dcell c p1rS4) 0 ∅ 0
      ∗ atPos ER (dcell c p1rS5) 0 ∅ 0
      ∗ atPos ER (dcell c p1rS6) 0 ∅ 0
      ∗ atPos ER (dcell c p1rS7) 0 ∅ 0
      ∗ atPos ER (dcell c p1rS8) 0 ∅ 0
      ∗ atPos ER (dcell c p1rS9) 0 ∅ 0
      ∗ atPos ER (dcell c p2sS0) 0 ∅ 0
      ∗ atPos ER (dcell c p2sS1) 0 ∅ 0
      ∗ atPos ER (dcell c p2sS2) 0 ∅ 0
      ∗ atPos ER (dcell c p2sS3) 0 ∅ 0
      ∗ atPos ER (dcell c p2sS4) 0 ∅ 0
      ∗ atPos ER (dcell c p2sS5) 0 ∅ 0
      ∗ atPos ER (dcell c p2rS0) 0 ∅ 0
      ∗ atPos ER (dcell c p2rS1) 0 ∅ 0
      ∗ atPos ER (dcell c p2rS2) 0 ∅ 0
      ∗ atPos ER (dcell c p2rS3) 0 ∅ 0
      ∗ atPos ER (dcell c p2rS4) 0 ∅ 0
      ∗ atPos ER (dcell c p2rS5) 0 ∅ 0) := by
  unfold positions ownCells; exact .rfl

theorem barPay_open (c : Dev nD) :
    barPay (F := F) c ⊢ iprop(heldAny (F := F) cmM.view (xp c) fullShare
      ∗ reached ER (dcell (xp c) p1rS0) 0 ∗ reached ER (dcell (xp c) p1rS1) 0 ∗ reached ER (dcell (xp c) p1rS2) 0
      ∗ reached ER (dcell (xp c) p1rS3) 0 ∗ reached ER (dcell (xp c) p1rS4) 0 ∗ reached ER (dcell (xp c) p1rS5) 0
      ∗ reached ER (dcell (xp c) p1rS6) 0 ∗ reached ER (dcell (xp c) p1rS7) 0 ∗ reached ER (dcell (xp c) p1rS8) 0
      ∗ reached ER (dcell (xp c) p1rS9) 0) := by
  unfold barPay heldAny; exact .rfl

theorem part1_spec (c : Dev nD) :
    iprop(Φ₀ m c ∗ ∃ W, owes (c : Thread nD τ) (O₀ c) W)
      ⊢ wp frame (wpE (defs₀ (F := F)) 𝒱₀ (c : Thread nD τ) none) Set.univ
          (atBufs k0_part1)
          (fun r => iprop(⌜r.1 = c⌝ ∗ ∃ K, St1 m K c)) := by
  simp only [atBufs, k0_part1_eq_skeleton]; unfold k0_part1_skel
  simp only [Prog.lift, Prog.bind_op, Prog.bind_ret, Prog.pure_eq_ret]
  rw [wp_deviceId]
  unfold Φ₀ start arrays0 scratch localSems0
  iintro ⟨⟨⟨⟨%K, Hgh⟩, Hcr, ⟨Hi0, Hi1, Hi2, Ho0, Ho1, Ho2, Ho3, Ho4⟩, Hlev⟩, ⟨Ha0, Ha1, Hout⟩, ⟨Hsnd, Hloc, Hgv, Hov, Hcm⟩⟩, HO⟩
  ihave ⟨Hsa, Hsl⟩ := (a0_cut m c) $$ Ha0
  ihave Hsn := (heldAny_whole cc0_scratch0 c fullShare) $$ Hsnd
  iapply (kit_dma_issue_at (srcSend c) sndM inS0 c fullShare (m ((c : Thread nD τ).loc main_arg0)) Nsnd rfl (View.dmaCredit_pos _ (by decide))) $$ [Hsa Hsn Hi0]
  · isplitl [Hsa]; · iexact Hsa
    isplitl [Hsn]; · iexact Hsn
    iexact Hi0
  iintro Hf
  rw [wp_ret]; imodintro
  isplitr; · ipureintro; rfl
  iexists K
  unfold St1 flightSndD SND
  iframe

theorem part2_spec (K : GSem nD τ sig → ℕ) (c : Dev nD) (v2 v5 v8 v19 v20 v21 v22 : BitVec 32) :
    St1 m K c
      ⊢ wp frame (wpE (defs₀ (F := F)) 𝒱₀ (c : Thread nD τ) none) Set.univ
          (atBufs k0_part2 c v2 v5 v8 v19 v20 v21 v22)
          (fun _ => St2 m K c) := by
  simp only [atBufs, k0_part2_eq_skeleton]; unfold k0_part2_skel
  simp only [Prog.lift, Prog.bind_op, Prog.bind_ret, Prog.pure_eq_ret, semSignalWord, semWaitWord]
  unfold St1 ghost creds payToks
  iintro ⟨⟨#Hinv, Hpos, #Hkn, ⟨Tbar, Ty, Tz, Tr0, Tr1, Tr2, Tr3, Tr4, Tr5, Tr6, Tr7, Tr8, Tr9, Ty0, Tz1, Ty2, Tz3, Ty4, Tz5, Ts0, Ts1, Ts2, Ts3, Ts4, Ts5, Ts6, Ts7, Ts8, Ts9, Us0, Us1, Us2, Us3, Us4, Us5⟩⟩, ⟨Cbar, Cyz, Cr0, Cr1, Cr2, Cr3, Cr4, Cr5, Cr6, Cr7, Cr8, Cr9, Dr0, Dr1, Dr2, Dr3, Dr4, Dr5⟩, Hi1, Hi2, Ho0, Ho1, Ho2, Ho3, Ho4, #Hlev, Hfl0, Hsl, Ha1, Hout, Hloc, Hgv, Hov, Hcm, ⟨%W, HO⟩⟩
  ihave ⟨Pbar, Pyz, Ps0, Ps1, Ps2, Ps3, Ps4, Ps5, Ps6, Ps7, Ps8, Ps9, Pr0, Pr1, Pr2, Pr3, Pr4, Pr5, Pr6, Pr7, Pr8, Pr9, Qs0, Qs1, Qs2, Qs3, Qs4, Qs5, Qr0, Qr1, Qr2, Qr3, Qr4, Qr5⟩ := (positions_open c) $$ Hpos

  ihave Hloc' := (heldAny_whole cc0_scratch1 c fullShare) $$ Hloc
  iapply (kit_dma_issue_at (srcLoc c) locM inS1 c fullShare (m ((c : Thread nD τ).loc main_arg0)) Nbig rfl (View.dmaCredit_pos _ (by decide))) $$ [Hsl Hloc' Hi1]
  · iframe
  iintro Hfl1

  ihave Hgv' := (heldAny_whole cc0_scratch2 c fullShare) $$ Hgv
  ihave Ha1' := (Entails.of_eq (pt_whole main_arg1 c fullShare _)) $$ Ha1
  iapply (kit_dma_issue_at a1M gvM inS2 c fullShare (m ((c : Thread nD τ).loc main_arg1)) Ngv rfl (View.dmaCredit_pos _ (by decide))) $$ [Ha1' Hgv' Hi2]
  · iframe
  iintro Hfl2

  icases Hov with ⟨%fo, Hov⟩
  ihave ⟨HO3, HO4, Hv0, Hv1, Hv2, Hv3, Hv4, Hv5, Hv6, Hv7, Hv8, Hv9⟩ := (ov_split c fo) $$ Hov
  ihave Hbp := (barPay_intro c) $$ [Hcm]
  · iframe; iexact Hkn
  ihave Hyp := (yPay_intro c) $$ [HO3]
  · iframe; iexact Hkn
  ihave Hzp := (zPay_intro c) $$ [HO4]
  · iframe; iexact Hkn

  ihave #Ibx := (invs_get m K c (barCell (xp c)) (by simp [ownCells, paidCells])) $$ Hinv
  ihave #Rbx := (known_get c (barCell (xp c)) (by simp [knownCells])) $$ Hkn
  ihave HO := (owes_step 0 c _ rfl W) $$ HO
  iapply (kit_signal_bar m c (dev1_eq c) rfl (owedAfter 1 c) W (K (barCell (xp c)))) $$ [HO Tbar Hbp]
  · iframe # ∗
  iintro HO

  ihave #Iyx := (invs_get m K c (yzCell (yp c)) (by simp [ownCells, paidCells])) $$ Hinv
  ihave #Ryx := (known_get c (yzCell (yp c)) (by simp [knownCells])) $$ Hkn
  ihave HO := (owes_step 1 c _ rfl W) $$ HO
  iapply (kit_signal_y m c (dev2_eq c) rfl (owedAfter 2 c) W (K (yzCell (yp c)))) $$ [HO Ty Hyp]
  · iframe # ∗
  iintro HO

  ihave #Izx := (invs_get m K c (yzCell (zp c)) (by simp [ownCells, paidCells])) $$ Hinv
  ihave #Rzx := (known_get c (yzCell (zp c)) (by simp [knownCells])) $$ Hkn
  ihave HO := (owes_step 2 c _ rfl W) $$ HO
  iapply (kit_signal_z m c (dev3_eq c) rfl (owedAfter 3 c) W (K (yzCell (zp c)))) $$ [HO Tz Hzp]
  · iframe # ∗
  iintro HO

  ihave #Ib := (invs_get m K c (barCell c) (by simp [ownCells, paidCells])) $$ Hinv
  ihave Hmw := (mayWait_bar c) $$ Hlev
  iapply (kit_wait_bar m c rfl (owedAfter 3 c) W (K (barCell c))) $$ [Cbar HO Hmw Pbar]
  · iframe # ∗
  iintro ⟨HO, Pbar, Hbq⟩
  ihave ⟨Hcmx, Rx0, Rx1, Rx2, Rx3, Rx4, Rx5, Rx6, Rx7, Rx8, Rx9⟩ := (barPay_open c) $$ Hbq
  ihave ⟨Hc0, Hc1, Hc2, Hc3, Hc4, Hc5, Hc6, Hc7, Hc8, Hc9⟩ := (cm_split (xp c)) $$ Hcmx

  ihave Hmw0 := (mayWait_in0 c) $$ Hlev
  iapply (kit_dma_wait inS0 c Nsnd (flightSndD m c) (owedAfter 3 c) _ (dstw := sndM) rfl) $$ [Hfl0 HO]
  · iframe # ∗
  unfold flightSndD
  iintro ⟨⟨Hsnd, Hsa⟩, Hi0, HO⟩
  ihave ⟨Hs0, Hs1, Hs2, Hs3, Hs4, Hs5, Hs6, Hs7, Hs8, Hs9, Hsr⟩ := (snd_cut m c) $$ Hsnd
  ihave Hout' := (Entails.of_eq (pt_whole main_v1 c fullShare _)) $$ Hout
  rw [wp_ret]; imodintro
  unfold St2 flightLocD flightGvD LOC GV
  isplitr; · iexact Hinv
  isplitr; · iexact Hkn
  isplitr; · iexact Hlev
  isplitl [Rx0]; · iexact Rx0
  isplitl [Rx1]; · iexact Rx1
  isplitl [Rx2]; · iexact Rx2
  isplitl [Rx3]; · iexact Rx3
  isplitl [Rx4]; · iexact Rx4
  isplitl [Rx5]; · iexact Rx5
  isplitl [Rx6]; · iexact Rx6
  isplitl [Rx7]; · iexact Rx7
  isplitl [Rx8]; · iexact Rx8
  isplitl [Rx9]; · iexact Rx9
  isplitl [HO]; · iexists _; iexact HO
  iframe

end Cert.Kernel.Proto

end
-- ==== Proof.Bits.Body2.lean ====
import proofs.«900598_g7700000000000599_dist_rsrms_v7x_xyz2x2x2_x_m512_d512_f32_1_alg».proof.Proof.Bits.Ctx
import proofs.«900598_g7700000000000599_dist_rsrms_v7x_xyz2x2x2_x_m512_d512_f32_1_alg».proof.Proof.Bits.KitRounds
import proofs.«900598_g7700000000000599_dist_rsrms_v7x_xyz2x2x2_x_m512_d512_f32_1_alg».proof.Proof.Bits.KitLocal
import proofs.«900598_g7700000000000599_dist_rsrms_v7x_xyz2x2x2_x_m512_d512_f32_1_alg».proof.Proof.Bits.Levels
import proofs.«900598_g7700000000000599_dist_rsrms_v7x_xyz2x2x2_x_m512_d512_f32_1_alg».proof.Proof.Bits.Regions

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem rcv_xp0 (c : Dev nD) : rcv0 m (xp c) = sndv0 m c := by unfold rcv0; rw [xp_xp]
theorem rcv_xp1 (c : Dev nD) : rcv1 m (xp c) = sndv1 m c := by unfold rcv1; rw [xp_xp]
theorem rcv_xp2 (c : Dev nD) : rcv2 m (xp c) = sndv2 m c := by unfold rcv2; rw [xp_xp]
theorem rcv_xp3 (c : Dev nD) : rcv3 m (xp c) = sndv3 m c := by unfold rcv3; rw [xp_xp]
theorem rcv_xp4 (c : Dev nD) : rcv4 m (xp c) = sndv4 m c := by unfold rcv4; rw [xp_xp]
theorem rcv_xp5 (c : Dev nD) : rcv5 m (xp c) = sndv5 m c := by unfold rcv5; rw [xp_xp]
theorem rcv_xp6 (c : Dev nD) : rcv6 m (xp c) = sndv6 m c := by unfold rcv6; rw [xp_xp]
theorem rcv_xp7 (c : Dev nD) : rcv7 m (xp c) = sndv7 m c := by unfold rcv7; rw [xp_xp]
theorem rcv_xp8 (c : Dev nD) : rcv8 m (xp c) = sndv8 m c := by unfold rcv8; rw [xp_xp]
theorem rcv_xp9 (c : Dev nD) : rcv9 m (xp c) = sndv9 m c := by unfold rcv9; rw [xp_xp]

theorem held_loc_exact (c : Dev nD) (x : Buf (Elt F) (locM.view.loc (c : Thread nD τ))) :
    held locM.view c fullShare x ⊢ (locM.view.loc (c : Thread nD τ) ↦[locM.view.set]{fullShare} x : sProp 𝕄) := by
  unfold held
  iintro ⟨%f, H, %hf⟩
  have h : f = x := hf
  subst h
  iexact H

theorem held_gv_exact (c : Dev nD) (x : Buf (Elt F) (gvM.view.loc (c : Thread nD τ))) :
    held gvM.view c fullShare x ⊢ (gvM.view.loc (c : Thread nD τ) ↦[gvM.view.set]{fullShare} x : sProp 𝕄) := by
  unfold held
  iintro ⟨%f, H, %hf⟩
  have h : f = x := hf
  subst h
  iexact H

theorem yPay_open (c : Dev nD) :
    yPay (F := F) c ⊢ iprop(heldAny (F := F) (ovO3 (yp c)).view (yp c) fullShare
      ∗ reached ER (dcell (yp c) p2rS0) 0 ∗ reached ER (dcell (yp c) p2rS2) 0 ∗ reached ER (dcell (yp c) p2rS4) 0) := by
  unfold yPay heldAny; exact .rfl

theorem zPay_open (c : Dev nD) :
    zPay (F := F) c ⊢ iprop(heldAny (F := F) (ovO4 (zp c)).view (zp c) fullShare
      ∗ reached ER (dcell (zp c) p2rS1) 0 ∗ reached ER (dcell (zp c) p2rS3) 0 ∗ reached ER (dcell (zp c) p2rS5) 0) := by
  unfold zPay heldAny; exact .rfl

-- Chunks 0 and 1 of the half to send leave for the neighbour across the first axis.
theorem part3_spec (K : GSem nD τ sig → ℕ) (c : Dev nD) (v5 v8 v19 v20 c4 : BitVec 32) :
    iprop(invs m K c
        ∗ known c
        ∗ reached ER (dcell (xp c) p1rS0) 0
        ∗ reached ER (dcell (xp c) p1rS1) 0
        ∗ (∃ W, owes (c : Thread nD τ) (owedAfter 3 c) W)
        ∗ dutyTok ER (dcell (xp c) p1rS0) 0 false
        ∗ dutyTok ER (dcell c p1sS0) 0 false
        ∗ dutyTok ER (dcell (xp c) p1rS1) 0 false
        ∗ dutyTok ER (dcell c p1sS1) 0 false
        ∗ held (sndSl0 c).view c fullShare (sndv0 m c)
        ∗ held (sndSl1 c).view c fullShare (sndv1 m c)
        ∗ heldAny cmSl0.view (xp c) fullShare
        ∗ heldAny cmSl1.view (xp c) fullShare)
      ⊢ wp frame (wpE (defs₀ (F := F)) 𝒱₀ (c : Thread nD τ) none) Set.univ
          (atBufs k0_part3 c v5 v8 v19 v20 c4) (fun r => iprop((∃ W, owes (c : Thread nD τ) (owedAfter 5 c) W)
            ∗ cred (tallyAt (dcell c p1sS0) () N48)
            ∗ cred (tallyAt (dcell c p1sS1) () N48))) := by
  simp only [atBufs, k0_part3_eq_skeleton]; unfold k0_part3_skel
  simp only [Prog.lift, Prog.bind_op, Prog.bind_ret, Prog.pure_eq_ret, semWaitWord]
  iintro ⟨#Hinv, #Hkn, #Hrxp1r0, #Hrxp1r1, HO, Htp1r0, Htp1s0, Htp1r1, Htp1s1, Hsnd0, Hsnd1, Hcmx0, Hcmx1⟩
  icases HO with ⟨%W, HO⟩

  iapply (kit_send m (src := sndSl0 c) (dst := cmSl0) (sS := p1sS0) (rS := p1rS0) c (xp c) (dev4_eq c) N48 fullShare (sndv0 m c)
      (m ((c : Thread nD τ).loc cc0_scratch0)) (m ((xp c : Thread nD τ).loc cc0_scratch4))
      (by decide) (by decide) rfl rfl rfl rfl (by rw [← rcv_xp0 m c]; rfl) (owedAfter 4 c) W (K (dcell c p1sS0)) (K (dcell (xp c) p1rS0)))
    $$ [Hsnd0 Hcmx0 HO Htp1s0 Htp1r0]
  · isplitr; · iapply (invs_get m K c (dcell c p1sS0) (by simp [ownCells, paidCells])); iexact Hinv
    isplitr; · iapply (invs_get m K c (dcell (xp c) p1rS0) (by simp [ownCells, paidCells])); iexact Hinv
    isplitl [Hsnd0]; · iexact Hsnd0
    isplitl [Hcmx0]; · iexact Hcmx0
    isplitl [HO]; · iexact HO
    isplitl [Htp1s0]; · iexact Htp1s0
    isplitr; · iapply (known_get c (dcell c p1sS0) (by simp [knownCells])); iexact Hkn
    isplitl [Htp1r0]; · iexact Htp1r0
    iexact Hrxp1r0
  iintro ⟨Hc_p1sS0, HO⟩

  iapply (kit_send m (src := sndSl1 c) (dst := cmSl1) (sS := p1sS1) (rS := p1rS1) c (xp c) (dev5_eq c) N48 fullShare (sndv1 m c)
      (m ((c : Thread nD τ).loc cc0_scratch0)) (m ((xp c : Thread nD τ).loc cc0_scratch4))
      (by decide) (by decide) rfl rfl rfl rfl (by rw [← rcv_xp1 m c]; rfl) (owedAfter 5 c) W (K (dcell c p1sS1)) (K (dcell (xp c) p1rS1)))
    $$ [Hsnd1 Hcmx1 HO Htp1s1 Htp1r1]
  · isplitr; · iapply (invs_get m K c (dcell c p1sS1) (by simp [ownCells, paidCells])); iexact Hinv
    isplitr; · iapply (invs_get m K c (dcell (xp c) p1rS1) (by simp [ownCells, paidCells])); iexact Hinv
    isplitl [Hsnd1]; · iexact Hsnd1
    isplitl [Hcmx1]; · iexact Hcmx1
    isplitl [HO]; · iexact HO
    isplitl [Htp1s1]; · iexact Htp1s1
    isplitr; · iapply (known_get c (dcell c p1sS1) (by simp [knownCells])); iexact Hkn
    isplitl [Htp1r1]; · iexact Htp1r1
    iexact Hrxp1r1
  iintro ⟨Hc_p1sS1, HO⟩
  rw [wp_ret]; imodintro
  isplitl [HO]; · iexists _; iexact HO
  isplitl [Hc_p1sS0]; · iexact Hc_p1sS0
  iexact Hc_p1sS1

-- Chunks 2 and 3 leave.
theorem part4_spec (K : GSem nD τ sig → ℕ) (c : Dev nD) (v5 v8 v19 v20 v92 v93 : BitVec 32) :
    iprop(invs m K c
        ∗ known c
        ∗ reached ER (dcell (xp c) p1rS2) 0
        ∗ reached ER (dcell (xp c) p1rS3) 0
        ∗ (∃ W, owes (c : Thread nD τ) (owedAfter 5 c) W)
        ∗ dutyTok ER (dcell (xp c) p1rS2) 0 false
        ∗ dutyTok ER (dcell c p1sS2) 0 false
        ∗ dutyTok ER (dcell (xp c) p1rS3) 0 false
        ∗ dutyTok ER (dcell c p1sS3) 0 false
        ∗ held (sndSl2 c).view c fullShare (sndv2 m c)
        ∗ held (sndSl3 c).view c fullShare (sndv3 m c)
        ∗ heldAny cmSl2.view (xp c) fullShare
        ∗ heldAny cmSl3.view (xp c) fullShare)
      ⊢ wp frame (wpE (defs₀ (F := F)) 𝒱₀ (c : Thread nD τ) none) Set.univ
          (atBufs k0_part4 c v5 v8 v19 v20 v92 v93) (fun r => iprop((∃ W, owes (c : Thread nD τ) (owedAfter 7 c) W)
            ∗ cred (tallyAt (dcell c p1sS2) () N40)
            ∗ cred (tallyAt (dcell c p1sS3) () N40))) := by
  simp only [atBufs, k0_part4_eq_skeleton]; unfold k0_part4_skel
  simp only [Prog.lift, Prog.bind_op, Prog.bind_ret, Prog.pure_eq_ret, semWaitWord]
  iintro ⟨#Hinv, #Hkn, #Hrxp1r2, #Hrxp1r3, HO, Htp1r2, Htp1s2, Htp1r3, Htp1s3, Hsnd2, Hsnd3, Hcmx2, Hcmx3⟩
  icases HO with ⟨%W, HO⟩

  iapply (kit_send m (src := sndSl2 c) (dst := cmSl2) (sS := p1sS2) (rS := p1rS2) c (xp c) (dev6_eq c) N40 fullShare (sndv2 m c)
      (m ((c : Thread nD τ).loc cc0_scratch0)) (m ((xp c : Thread nD τ).loc cc0_scratch4))
      (by decide) (by decide) rfl rfl rfl rfl (by rw [← rcv_xp2 m c]; rfl) (owedAfter 6 c) W (K (dcell c p1sS2)) (K (dcell (xp c) p1rS2)))
    $$ [Hsnd2 Hcmx2 HO Htp1s2 Htp1r2]
  · isplitr; · iapply (invs_get m K c (dcell c p1sS2) (by simp [ownCells, paidCells])); iexact Hinv
    isplitr; · iapply (invs_get m K c (dcell (xp c) p1rS2) (by simp [ownCells, paidCells])); iexact Hinv
    isplitl [Hsnd2]; · iexact Hsnd2
    isplitl [Hcmx2]; · iexact Hcmx2
    isplitl [HO]; · iexact HO
    isplitl [Htp1s2]; · iexact Htp1s2
    isplitr; · iapply (known_get c (dcell c p1sS2) (by simp [knownCells])); iexact Hkn
    isplitl [Htp1r2]; · iexact Htp1r2
    iexact Hrxp1r2
  iintro ⟨Hc_p1sS2, HO⟩

  iapply (kit_send m (src := sndSl3 c) (dst := cmSl3) (sS := p1sS3) (rS := p1rS3) c (xp c) (dev7_eq c) N40 fullShare (sndv3 m c)
      (m ((c : Thread nD τ).loc cc0_scratch0)) (m ((xp c : Thread nD τ).loc cc0_scratch4))
      (by decide) (by decide) rfl rfl rfl rfl (by rw [← rcv_xp3 m c]; rfl) (owedAfter 7 c) W (K (dcell c p1sS3)) (K (dcell (xp c) p1rS3)))
    $$ [Hsnd3 Hcmx3 HO Htp1s3 Htp1r3]
  · isplitr; · iapply (invs_get m K c (dcell c p1sS3) (by simp [ownCells, paidCells])); iexact Hinv
    isplitr; · iapply (invs_get m K c (dcell (xp c) p1rS3) (by simp [ownCells, paidCells])); iexact Hinv
    isplitl [Hsnd3]; · iexact Hsnd3
    isplitl [Hcmx3]; · iexact Hcmx3
    isplitl [HO]; · iexact HO
    isplitl [Htp1s3]; · iexact Htp1s3
    isplitr; · iapply (known_get c (dcell c p1sS3) (by simp [knownCells])); iexact Hkn
    isplitl [Htp1r3]; · iexact Htp1r3
    iexact Hrxp1r3
  iintro ⟨Hc_p1sS3, HO⟩
  rw [wp_ret]; imodintro
  isplitl [HO]; · iexists _; iexact HO
  isplitl [Hc_p1sS2]; · iexact Hc_p1sS2
  iexact Hc_p1sS3

-- Chunks 4, 5 and 6 leave.
theorem part5_spec (K : GSem nD τ sig → ℕ) (c : Dev nD) (v5 v8 v19 v20 : BitVec 32) :
    iprop(invs m K c
        ∗ known c
        ∗ reached ER (dcell (xp c) p1rS4) 0
        ∗ reached ER (dcell (xp c) p1rS5) 0
        ∗ reached ER (dcell (xp c) p1rS6) 0
        ∗ (∃ W, owes (c : Thread nD τ) (owedAfter 7 c) W)
        ∗ dutyTok ER (dcell (xp c) p1rS4) 0 false
        ∗ dutyTok ER (dcell c p1sS4) 0 false
        ∗ dutyTok ER (dcell (xp c) p1rS5) 0 false
        ∗ dutyTok ER (dcell c p1sS5) 0 false
        ∗ dutyTok ER (dcell (xp c) p1rS6) 0 false
        ∗ dutyTok ER (dcell c p1sS6) 0 false
        ∗ held (sndSl4 c).view c fullShare (sndv4 m c)
        ∗ held (sndSl5 c).view c fullShare (sndv5 m c)
        ∗ held (sndSl6 c).view c fullShare (sndv6 m c)
        ∗ heldAny cmSl4.view (xp c) fullShare
        ∗ heldAny cmSl5.view (xp c) fullShare
        ∗ heldAny cmSl6.view (xp c) fullShare)
      ⊢ wp frame (wpE (defs₀ (F := F)) 𝒱₀ (c : Thread nD τ) none) Set.univ
          (atBufs k0_part5 c v5 v8 v19 v20) (fun r => iprop((∃ W, owes (c : Thread nD τ) (owedAfter 10 c) W)
            ∗ cred (tallyAt (dcell c p1sS4) () N16)
            ∗ cred (tallyAt (dcell c p1sS5) () N16)
            ∗ cred (tallyAt (dcell c p1sS6) () N24))) := by
  simp only [atBufs, k0_part5_eq_skeleton]; unfold k0_part5_skel
  simp only [Prog.lift, Prog.bind_op, Prog.bind_ret, Prog.pure_eq_ret, semWaitWord]
  iintro ⟨#Hinv, #Hkn, #Hrxp1r4, #Hrxp1r5, #Hrxp1r6, HO, Htp1r4, Htp1s4, Htp1r5, Htp1s5, Htp1r6, Htp1s6, Hsnd4, Hsnd5, Hsnd6, Hcmx4, Hcmx5, Hcmx6⟩
  icases HO with ⟨%W, HO⟩

  iapply (kit_send m (src := sndSl4 c) (dst := cmSl4) (sS := p1sS4) (rS := p1rS4) c (xp c) (dev8_eq c) N16 fullShare (sndv4 m c)
      (m ((c : Thread nD τ).loc cc0_scratch0)) (m ((xp c : Thread nD τ).loc cc0_scratch4))
      (by decide) (by decide) rfl rfl rfl rfl (by rw [← rcv_xp4 m c]; rfl) (owedAfter 8 c) W (K (dcell c p1sS4)) (K (dcell (xp c) p1rS4)))
    $$ [Hsnd4 Hcmx4 HO Htp1s4 Htp1r4]
  · isplitr; · iapply (invs_get m K c (dcell c p1sS4) (by simp [ownCells, paidCells])); iexact Hinv
    isplitr; · iapply (invs_get m K c (dcell (xp c) p1rS4) (by simp [ownCells, paidCells])); iexact Hinv
    isplitl [Hsnd4]; · iexact Hsnd4
    isplitl [Hcmx4]; · iexact Hcmx4
    isplitl [HO]; · iexact HO
    isplitl [Htp1s4]; · iexact Htp1s4
    isplitr; · iapply (known_get c (dcell c p1sS4) (by simp [knownCells])); iexact Hkn
    isplitl [Htp1r4]; · iexact Htp1r4
    iexact Hrxp1r4
  iintro ⟨Hc_p1sS4, HO⟩

  iapply (kit_send m (src := sndSl5 c) (dst := cmSl5) (sS := p1sS5) (rS := p1rS5) c (xp c) (dev9_eq c) N16 fullShare (sndv5 m c)
      (m ((c : Thread nD τ).loc cc0_scratch0)) (m ((xp c : Thread nD τ).loc cc0_scratch4))
      (by decide) (by decide) rfl rfl rfl rfl (by rw [← rcv_xp5 m c]; rfl) (owedAfter 9 c) W (K (dcell c p1sS5)) (K (dcell (xp c) p1rS5)))
    $$ [Hsnd5 Hcmx5 HO Htp1s5 Htp1r5]
  · isplitr; · iapply (invs_get m K c (dcell c p1sS5) (by simp [ownCells, paidCells])); iexact Hinv
    isplitr; · iapply (invs_get m K c (dcell (xp c) p1rS5) (by simp [ownCells, paidCells])); iexact Hinv
    isplitl [Hsnd5]; · iexact Hsnd5
    isplitl [Hcmx5]; · iexact Hcmx5
    isplitl [HO]; · iexact HO
    isplitl [Htp1s5]; · iexact Htp1s5
    isplitr; · iapply (known_get c (dcell c p1sS5) (by simp [knownCells])); iexact Hkn
    isplitl [Htp1r5]; · iexact Htp1r5
    iexact Hrxp1r5
  iintro ⟨Hc_p1sS5, HO⟩

  iapply (kit_send m (src := sndSl6 c) (dst := cmSl6) (sS := p1sS6) (rS := p1rS6) c (xp c) (dev10_eq c) N24 fullShare (sndv6 m c)
      (m ((c : Thread nD τ).loc cc0_scratch0)) (m ((xp c : Thread nD τ).loc cc0_scratch4))
      (by decide) (by decide) rfl rfl rfl rfl (by rw [← rcv_xp6 m c]; rfl) (owedAfter 10 c) W (K (dcell c p1sS6)) (K (dcell (xp c) p1rS6)))
    $$ [Hsnd6 Hcmx6 HO Htp1s6 Htp1r6]
  · isplitr; · iapply (invs_get m K c (dcell c p1sS6) (by simp [ownCells, paidCells])); iexact Hinv
    isplitr; · iapply (invs_get m K c (dcell (xp c) p1rS6) (by simp [ownCells, paidCells])); iexact Hinv
    isplitl [Hsnd6]; · iexact Hsnd6
    isplitl [Hcmx6]; · iexact Hcmx6
    isplitl [HO]; · iexact HO
    isplitl [Htp1s6]; · iexact Htp1s6
    isplitr; · iapply (known_get c (dcell c p1sS6) (by simp [knownCells])); iexact Hkn
    isplitl [Htp1r6]; · iexact Htp1r6
    iexact Hrxp1r6
  iintro ⟨Hc_p1sS6, HO⟩
  rw [wp_ret]; imodintro
  isplitl [HO]; · iexists _; iexact HO
  isplitl [Hc_p1sS4]; · iexact Hc_p1sS4
  isplitl [Hc_p1sS5]; · iexact Hc_p1sS5
  iexact Hc_p1sS6

-- Chunks 7 and 8 leave.
theorem part6_spec (K : GSem nD τ sig → ℕ) (c : Dev nD) (v5 v8 v19 v20 : BitVec 32) :
    iprop(invs m K c
        ∗ known c
        ∗ reached ER (dcell (xp c) p1rS7) 0
        ∗ reached ER (dcell (xp c) p1rS8) 0
        ∗ (∃ W, owes (c : Thread nD τ) (owedAfter 10 c) W)
        ∗ dutyTok ER (dcell (xp c) p1rS7) 0 false
        ∗ dutyTok ER (dcell c p1sS7) 0 false
        ∗ dutyTok ER (dcell (xp c) p1rS8) 0 false
        ∗ dutyTok ER (dcell c p1sS8) 0 false
        ∗ held (sndSl7 c).view c fullShare (sndv7 m c)
        ∗ held (sndSl8 c).view c fullShare (sndv8 m c)
        ∗ heldAny cmSl7.view (xp c) fullShare
        ∗ heldAny cmSl8.view (xp c) fullShare)
      ⊢ wp frame (wpE (defs₀ (F := F)) 𝒱₀ (c : Thread nD τ) none) Set.univ
          (atBufs k0_part6 c v5 v8 v19 v20) (fun r => iprop((∃ W, owes (c : Thread nD τ) (owedAfter 12 c) W)
            ∗ cred (tallyAt (dcell c p1sS7) () N24)
            ∗ cred (tallyAt (dcell c p1sS8) () N24))) := by
  simp only [atBufs, k0_part6_eq_skeleton]; unfold k0_part6_skel
  simp only [Prog.lift, Prog.bind_op, Prog.bind_ret, Prog.pure_eq_ret, semWaitWord]
  iintro ⟨#Hinv, #Hkn, #Hrxp1r7, #Hrxp1r8, HO, Htp1r7, Htp1s7, Htp1r8, Htp1s8, Hsnd7, Hsnd8, Hcmx7, Hcmx8⟩
  icases HO with ⟨%W, HO⟩

  iapply (kit_send m (src := sndSl7 c) (dst := cmSl7) (sS := p1sS7) (rS := p1rS7) c (xp c) (dev11_eq c) N24 fullShare (sndv7 m c)
      (m ((c : Thread nD τ).loc cc0_scratch0)) (m ((xp c : Thread nD τ).loc cc0_scratch4))
      (by decide) (by decide) rfl rfl rfl rfl (by rw [← rcv_xp7 m c]; rfl) (owedAfter 11 c) W (K (dcell c p1sS7)) (K (dcell (xp c) p1rS7)))
    $$ [Hsnd7 Hcmx7 HO Htp1s7 Htp1r7]
  · isplitr; · iapply (invs_get m K c (dcell c p1sS7) (by simp [ownCells, paidCells])); iexact Hinv
    isplitr; · iapply (invs_get m K c (dcell (xp c) p1rS7) (by simp [ownCells, paidCells])); iexact Hinv
    isplitl [Hsnd7]; · iexact Hsnd7
    isplitl [Hcmx7]; · iexact Hcmx7
    isplitl [HO]; · iexact HO
    isplitl [Htp1s7]; · iexact Htp1s7
    isplitr; · iapply (known_get c (dcell c p1sS7) (by simp [knownCells])); iexact Hkn
    isplitl [Htp1r7]; · iexact Htp1r7
    iexact Hrxp1r7
  iintro ⟨Hc_p1sS7, HO⟩

  iapply (kit_send m (src := sndSl8 c) (dst := cmSl8) (sS := p1sS8) (rS := p1rS8) c (xp c) (dev12_eq c) N24 fullShare (sndv8 m c)
      (m ((c : Thread nD τ).loc cc0_scratch0)) (m ((xp c : Thread nD τ).loc cc0_scratch4))
      (by decide) (by decide) rfl rfl rfl rfl (by rw [← rcv_xp8 m c]; rfl) (owedAfter 12 c) W (K (dcell c p1sS8)) (K (dcell (xp c) p1rS8)))
    $$ [Hsnd8 Hcmx8 HO Htp1s8 Htp1r8]
  · isplitr; · iapply (invs_get m K c (dcell c p1sS8) (by simp [ownCells, paidCells])); iexact Hinv
    isplitr; · iapply (invs_get m K c (dcell (xp c) p1rS8) (by simp [ownCells, paidCells])); iexact Hinv
    isplitl [Hsnd8]; · iexact Hsnd8
    isplitl [Hcmx8]; · iexact Hcmx8
    isplitl [HO]; · iexact HO
    isplitl [Htp1s8]; · iexact Htp1s8
    isplitr; · iapply (known_get c (dcell c p1sS8) (by simp [knownCells])); iexact Hkn
    isplitl [Htp1r8]; · iexact Htp1r8
    iexact Hrxp1r8
  iintro ⟨Hc_p1sS8, HO⟩
  rw [wp_ret]; imodintro
  isplitl [HO]; · iexists _; iexact HO
  isplitl [Hc_p1sS7]; · iexact Hc_p1sS7
  iexact Hc_p1sS8

-- Chunk 9 leaves; the kept half and the scale vector have arrived, both neighbours across the other axes have signalled, and chunk 0 of the neighbour's half is there.
theorem part7_spec (K : GSem nD τ sig → ℕ) (c : Dev nD) (v5 v8 v19 v20 v189 c0 : BitVec 32) :
    iprop(invs m K c
        ∗ known c
        ∗ levAts L lv
        ∗ reached ER (dcell (xp c) p1rS9) 0
        ∗ (∃ W, owes (c : Thread nD τ) (owedAfter 12 c) W)
        ∗ dutyTok ER (dcell (xp c) p1rS9) 0 false
        ∗ dutyTok ER (dcell c p1sS9) 0 false
        ∗ atPos ER (yzCell c) 0 ∅ 0
        ∗ cred (tallyAt (yzCell c) () 2)
        ∗ atPos ER (dcell c p1rS0) 0 ∅ 0
        ∗ cred (tallyAt (dcell c p1rS0) () N48)
        ∗ Transfers.Flight countersEmb (c : Thread nD τ) (.dma inS1) () Nbig (flightLocD m c)
        ∗ Transfers.Flight countersEmb (c : Thread nD τ) (.dma inS2) () Ngv (flightGvD m c)
        ∗ held (sndSl9 c).view c fullShare (sndv9 m c)
        ∗ heldAny cmSl9.view (xp c) fullShare)
      ⊢ wp frame (wpE (defs₀ (F := F)) 𝒱₀ (c : Thread nD τ) none) Set.univ
          (atBufs k0_part7 c v5 v8 v19 v20 v189 c0) (fun r => iprop(⌜r.2 = kept0 m c⌝ ∗ reached ER (dcell (yp c) p2rS0) 0
            ∗ reached ER (dcell (zp c) p2rS1) 0
            ∗ reached ER (dcell (yp c) p2rS2) 0
            ∗ reached ER (dcell (zp c) p2rS3) 0
            ∗ reached ER (dcell (yp c) p2rS4) 0
            ∗ reached ER (dcell (zp c) p2rS5) 0
            ∗ (∃ W, owes (c : Thread nD τ) (owedAfter 13 c) W)
            ∗ semVal (yzCell c) 0
            ∗ semVal (dcell c p1rS0) 0
            ∗ cred (tallyAt (dcell c p1sS9) () N24)
            ∗ semVal (dcell c inS1) 0
            ∗ semVal (dcell c inS2) 0
            ∗ ((srcLoc c).view.loc (c : Thread nD τ) ↦[(srcLoc c).view.set]{fullShare} m ((c : Thread nD τ).loc main_arg0))
            ∗ (a1M.view.loc (c : Thread nD τ) ↦[a1M.view.set]{fullShare} m ((c : Thread nD τ).loc main_arg1))
            ∗ (locM.view.loc (c : Thread nD τ) ↦[locM.view.set]{fullShare} (LOC m c))
            ∗ (gvM.view.loc (c : Thread nD τ) ↦[gvM.view.set]{fullShare} (GV m c))
            ∗ held cmSl0.view c fullShare (rcv0 m c)
            ∗ heldAny (ovSl0 c).view (yp c) fullShare
            ∗ heldAny (ovSl1 c).view (zp c) fullShare
            ∗ heldAny (ovSl2 c).view (yp c) fullShare
            ∗ heldAny (ovSl3 c).view (zp c) fullShare
            ∗ heldAny (ovSl4 c).view (yp c) fullShare
            ∗ heldAny (ovSl5 c).view (zp c) fullShare)) := by
  simp only [atBufs, k0_part7_eq_skeleton]; unfold k0_part7_skel
  simp only [Prog.lift, Prog.bind_op, Prog.bind_ret, Prog.pure_eq_ret, semWaitWord]
  iintro ⟨#Hinv, #Hkn, #Hlev, #Hrxp1r9, HO, Htp1r9, Htp1s9, Hat_yzCell, Hc_yzCell, Hat_p1rS0, Hc_p1rS0, Hfl_inS1, Hfl_inS2, Hsnd9, Hcmx9⟩
  icases HO with ⟨%W, HO⟩

  iapply (kit_send m (src := sndSl9 c) (dst := cmSl9) (sS := p1sS9) (rS := p1rS9) c (xp c) (dev13_eq c) N24 fullShare (sndv9 m c)
      (m ((c : Thread nD τ).loc cc0_scratch0)) (m ((xp c : Thread nD τ).loc cc0_scratch4))
      (by decide) (by decide) rfl rfl rfl rfl (by rw [← rcv_xp9 m c]; rfl) (owedAfter 13 c) W (K (dcell c p1sS9)) (K (dcell (xp c) p1rS9)))
    $$ [Hsnd9 Hcmx9 HO Htp1s9 Htp1r9]
  · isplitr; · iapply (invs_get m K c (dcell c p1sS9) (by simp [ownCells, paidCells])); iexact Hinv
    isplitr; · iapply (invs_get m K c (dcell (xp c) p1rS9) (by simp [ownCells, paidCells])); iexact Hinv
    isplitl [Hsnd9]; · iexact Hsnd9
    isplitl [Hcmx9]; · iexact Hcmx9
    isplitl [HO]; · iexact HO
    isplitl [Htp1s9]; · iexact Htp1s9
    isplitr; · iapply (known_get c (dcell c p1sS9) (by simp [knownCells])); iexact Hkn
    isplitl [Htp1r9]; · iexact Htp1r9
    iexact Hrxp1r9
  iintro ⟨Hc_p1sS9, HO⟩

  iapply (kit_dma_wait (srcw := srcLoc c) (dstw := locM) inS1 c Nbig (flightLocD m c) (owedAfter 13 c) W rfl) $$ [Hfl_inS1 HO]
  · isplitl [Hfl_inS1]; · iexact Hfl_inS1
    isplitl [HO]; · iexact HO
    iapply (mayWait_in1 c); iexact Hlev
  iintro ⟨HD, Hz_inS1, HO⟩
  unfold flightLocD
  icases HD with ⟨Hloc, HsrcLoc⟩
  ihave Hloc := (held_loc_exact c (LOC m c)) $$ Hloc

  iapply (kit_dma_wait (srcw := a1M) (dstw := gvM) inS2 c Ngv (flightGvD m c) (owedAfter 13 c) _ rfl) $$ [Hfl_inS2 HO]
  · isplitl [Hfl_inS2]; · iexact Hfl_inS2
    isplitl [HO]; · iexact HO
    iapply (mayWait_in2 c); iexact Hlev
  iintro ⟨HD, Hz_inS2, HO⟩
  unfold flightGvD
  icases HD with ⟨Hgv, Ha1⟩
  ihave Hgv := (held_gv_exact c (GV m c)) $$ Hgv

  iapply (kit_wait_yz m c (by decide) (owedAfter 13 c) _ (K (yzCell c))) $$ [Hc_yzCell HO Hat_yzCell]
  · isplitr; · iapply (invs_get m K c (yzCell c) (by simp [ownCells, paidCells])); iexact Hinv
    isplitl [Hc_yzCell]; · iexact Hc_yzCell
    isplitl [HO]; · iexact HO
    isplitr; · iapply (mayWait_yz c); iexact Hlev
    iexact Hat_yzCell
  iintro ⟨HO, Hz_yzCell, HyP, HzP⟩
  ihave HyP := (yPay_open c) $$ HyP
  icases HyP with ⟨Hy, #Hryp2r0, #Hryp2r2, #Hryp2r4⟩
  ihave Hy := (ovO3_split c) $$ Hy
  icases Hy with ⟨Hov0y, Hov2y, Hov4y⟩
  ihave HzP := (zPay_open c) $$ HzP
  icases HzP with ⟨Hz, #Hrzp2r1, #Hrzp2r3, #Hrzp2r5⟩
  ihave Hz := (ovO4_split c) $$ Hz
  icases Hz with ⟨Hov1z, Hov3z, Hov5z⟩

  iapply (kit_wait_dma m (srcw := sndSl0 c) (dstw := cmSl0) cmSl0.view c p1rS0 (by decide) N48 rfl rfl fullShare (rcv0 m c)
      (m ((c : Thread nD τ).loc cc0_scratch4)) rfl (owedAfter 13 c) _ (K (dcell c p1rS0))) $$ [Hc_p1rS0 HO Hat_p1rS0]
  · isplitr; · iapply (invs_get m K c (dcell c p1rS0) (by simp [ownCells, paidCells])); iexact Hinv
    isplitl [Hc_p1rS0]; · iexact Hc_p1rS0
    isplitl [HO]; · iexact HO
    isplitr; · iapply (mayWait_p1r0 c); iexact Hlev
    iexact Hat_p1rS0
  iintro ⟨HO, Hz_p1rS0, Hcm0⟩

  iapply (wp_load 𝒱₀ (c : Thread nD τ) none Set.univ (m := locM) (View.setOn_subset_set _ _)) $$ Hloc
  iintro Hloc
  rw [wp_ret]; imodintro
  isplitr; · ipureintro; rfl
  isplitr; · iexact Hryp2r0
  isplitr; · iexact Hrzp2r1
  isplitr; · iexact Hryp2r2
  isplitr; · iexact Hrzp2r3
  isplitr; · iexact Hryp2r4
  isplitr; · iexact Hrzp2r5
  isplitl [HO]; · iexists _; iexact HO
  isplitl [Hz_yzCell]; · iexact Hz_yzCell
  isplitl [Hz_p1rS0]; · iexact Hz_p1rS0
  isplitl [Hc_p1sS9]; · iexact Hc_p1sS9
  isplitl [Hz_inS1]; · iexact Hz_inS1
  isplitl [Hz_inS2]; · iexact Hz_inS2
  isplitl [HsrcLoc]; · iexact HsrcLoc
  isplitl [Ha1]; · iexact Ha1
  isplitl [Hloc]; · iexact Hloc
  isplitl [Hgv]; · iexact Hgv
  isplitl [Hcm0]; · iexact Hcm0
  isplitl [Hov0y]; · iexact Hov0y
  isplitl [Hov1z]; · iexact Hov1z
  isplitl [Hov2y]; · iexact Hov2y
  isplitl [Hov3z]; · iexact Hov3z
  isplitl [Hov4y]; · iexact Hov4y
  iexact Hov5z

end Cert.Kernel.Proto

end
-- ==== Proof.Bits.Body3x.lean ====
import proofs.«900598_g7700000000000599_dist_rsrms_v7x_xyz2x2x2_x_m512_d512_f32_1_alg».proof.Proof.Bits.States
import proofs.«900598_g7700000000000599_dist_rsrms_v7x_xyz2x2x2_x_m512_d512_f32_1_alg».proof.Proof.Bits.KitRounds
import proofs.«900598_g7700000000000599_dist_rsrms_v7x_xyz2x2x2_x_m512_d512_f32_1_alg».proof.Proof.Bits.KitLocal
import proofs.«900598_g7700000000000599_dist_rsrms_v7x_xyz2x2x2_x_m512_d512_f32_1_alg».proof.Proof.Bits.Levels
import proofs.«900598_g7700000000000599_dist_rsrms_v7x_xyz2x2x2_x_m512_d512_f32_1_alg».proof.Proof.Bits.Ctx
import proofs.«900598_g7700000000000599_dist_rsrms_v7x_xyz2x2x2_x_m512_d512_f32_1_alg».proof.Proof.Bits.Regions

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- Chunk 0: kept rows plus received rows, each row divided by its root mean square and scaled; stored, and passed on across the second axis.
theorem part8_spec (K : GSem nD τ sig → ℕ) (c : Dev nD) (v2 v5 v8 v20 v21 v218 : BitVec 32) :
    iprop(invs m K c
        ∗ known c
        ∗ reached ER (dcell (yp c) p2rS0) 0
        ∗ (∃ W, owes (c : Thread nD τ) (owedAfter 13 c) W)
        ∗ dutyTok ER (dcell (yp c) p2rS0) 0 false
        ∗ dutyTok ER (dcell c p2sS0) 0 false
        ∗ (gvM.view.loc (c : Thread nD τ) ↦[gvM.view.set]{fullShare} (GV m c))
        ∗ held cmSl0.view c fullShare (rcv0 m c)
        ∗ heldAny (ovSl0 c).view c fullShare
        ∗ heldAny (ovSl0 c).view (yp c) fullShare) ⊢ wp frame (wpE (defs₀ (F := F)) 𝒱₀ (c : Thread nD τ) none) Set.univ
          (atBufs k0_part8 c v2 v5 v8 v20 v21 v218 (kept0 m c)) (fun _ => iprop((∃ W, owes (c : Thread nD τ) (owedAfter 14 c) W)
            ∗ cred (tallyAt (dcell c p2sS0) () N48)
            ∗ (gvM.view.loc (c : Thread nD τ) ↦[gvM.view.set]{fullShare} (GV m c))
            ∗ held cmSl0.view c fullShare (rcv0 m c)
            ∗ held (ovSl0 c).view c fullShare.right (val0 m c))) := by
  simp only [atBufs, k0_part8_eq_skeleton]; unfold k0_part8_skel
  simp only [Prog.lift, Prog.bind_op, Prog.bind_ret, Prog.pure_eq_ret]
  iintro ⟨#h0, #h1, #h13, ⟨%W, h19⟩, h20, h21, h105, h106, h107, h117⟩

  iapply (kit_load cmM (Rect.unit (s := S304x512) ![0, 0] S48x512.size inb_S304x512_S48x512_0_0) c fullShare (rcv0 m c)) $$ h106
  iintro h106

  iapply (wp_load 𝒱₀ (c : Thread nD τ) none Set.univ (m := gvM) (View.setOn_subset_set _ _)) $$ h105
  iintro h105

  ihave g0 := (heldAny_of_eq (ov_access_eq0 c).symm c fullShare) $$ h107
  ihave ⟨%x0, g1⟩ := (heldAny_ex _ c fullShare) $$ g0
  iapply (kit_load ovM (Rect.unit (s := S512x512) (k0_off8 c 0#32) S48x512.size (k0_off8_inb c 0)) c fullShare x0) $$ g1
  iintro g1
  ihave g2 := (held_any _ c fullShare x0) $$ g1

  iapply (kit_store ovM (Rect.unit (s := S512x512) (k0_off8 c 0#32) S48x512.size (k0_off8_inb c 0)) c _) $$ g2
  iintro g3
  ihave g4 := (held_of_eq (ov_access_eq0 c) (x' := val0 m c) (by rw [gv_readAt]; rfl) c fullShare) $$ g3

  ihave ⟨g5, g6⟩ := (held_full_split (ovSl0 c).view c (val0 m c)) $$ g4
  iapply (kit_send m (src := ovSl0 c) (dst := ovSl0 c) (sS := p2sS0) (rS := p2rS0) c (yp c) (dev14_eq c) N48 fullShare.left (val0 m c) (m ((c : Thread nD τ).loc cc0_scratch3)) (m ((yp c : Thread nD τ).loc cc0_scratch3)) (by decide) (by decide) rfl rfl rfl rfl (by show p2rPay0 m (yp c) = _; unfold p2rPay0; rw [yp_yp]) (owedAfter 14 c) _ (K (dcell c p2sS0)) (K (dcell (yp c) p2rS0))) $$ [g5 h117 h19 h21 h20]
  · isplitr; · iapply (invs_get m K c (dcell c p2sS0) (by simp [ownCells, paidCells])); iexact h0
    isplitr; · iapply (invs_get m K c (dcell (yp c) p2rS0) (by simp [ownCells, paidCells])); iexact h0
    isplitl [g5]; · iexact g5
    isplitl [h117]; · iexact h117
    isplitl [h19]; · iexact h19
    isplitl [h21]; · iexact h21
    isplitr; · iapply (known_get c (dcell c p2sS0) (by simp [knownCells])); iexact h1
    isplitl [h20]; · iexact h20
    iexact h13
  iintro ⟨g7, h19⟩
  rw [wp_ret]; imodintro
  isplitl [h19]; · iexists _; iexact h19
  isplitl [g7]; · iexact g7
  isplitl [h105]; · iexact h105
  isplitl [h106]; · iexact h106
  iexact g6

end Cert.Kernel.Proto

end
-- ==== Proof.Bits.Body3d.lean ====
import proofs.«900598_g7700000000000599_dist_rsrms_v7x_xyz2x2x2_x_m512_d512_f32_1_alg».proof.Proof.Bits.Ctx
import proofs.«900598_g7700000000000599_dist_rsrms_v7x_xyz2x2x2_x_m512_d512_f32_1_alg».proof.Proof.Bits.States
import proofs.«900598_g7700000000000599_dist_rsrms_v7x_xyz2x2x2_x_m512_d512_f32_1_alg».proof.Proof.Bits.KitRounds
import proofs.«900598_g7700000000000599_dist_rsrms_v7x_xyz2x2x2_x_m512_d512_f32_1_alg».proof.Proof.Bits.KitLocal
import proofs.«900598_g7700000000000599_dist_rsrms_v7x_xyz2x2x2_x_m512_d512_f32_1_alg».proof.Proof.Bits.Levels
import proofs.«900598_g7700000000000599_dist_rsrms_v7x_xyz2x2x2_x_m512_d512_f32_1_alg».proof.Proof.Bits.Regions

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem b3d_hpw1 (c : Dev nD) :
    dmaPay m p1rS1.val c = (cmSl1.view.loc (c : Thread nD τ) ↦[cmSl1.view.set]{fullShare}
      cmSl1.view.write (Elt F) (m ((c : Thread nD τ).loc cc0_scratch4)) (rcv1 m c) Finset.univ) := by
  rw [show p1rS1.val = 19 from by decide]; rfl
-- Chunk 1 arrives and is summed, normalised, scaled and stored.
theorem part9_spec (K : GSem nD τ sig → ℕ) (c : Dev nD) (v2 v5 v19 v22 : BitVec 32) :
    iprop(invs m K c
        ∗ levAts L lv
        ∗ (∃ W, owes (c : Thread nD τ) (owedAfter 14 c) W)
        ∗ atPos ER (dcell c p1rS1) 0 ∅ 0
        ∗ cred (tallyAt (dcell c p1rS1) () N48)
        ∗ (locM.view.loc (c : Thread nD τ) ↦[locM.view.set]{fullShare} (LOC m c))
        ∗ (gvM.view.loc (c : Thread nD τ) ↦[gvM.view.set]{fullShare} (GV m c))
        ∗ heldAny (ovSl1 c).view c fullShare)
      ⊢ wp frame (wpE (defs₀ (F := F)) 𝒱₀ (c : Thread nD τ) none) Set.univ
          (atBufs k0_part9 c v2 v5 v19 v22) (fun r => iprop((∃ W, owes (c : Thread nD τ) (owedAfter 14 c) W)
            ∗ semVal (dcell c p1rS1) 0
            ∗ (locM.view.loc (c : Thread nD τ) ↦[locM.view.set]{fullShare} (LOC m c))
            ∗ (gvM.view.loc (c : Thread nD τ) ↦[gvM.view.set]{fullShare} (GV m c))
            ∗ held cmSl1.view c fullShare (rcv1 m c)
            ∗ held (ovSl1 c).view c fullShare (val1 m c))) := by
  simp only [atBufs, k0_part9_eq_skeleton]; unfold k0_part9_skel
  simp only [Prog.lift, Prog.bind_op, Prog.bind_ret, Prog.pure_eq_ret]
  iintro ⟨#Hinv, #Hlev, HO, Hat_p1rS1, Hc_p1rS1, Hloc, Hgv, Hov1⟩
  icases HO with ⟨%W, HO⟩

  iapply (kit_wait_dma m (srcw := sndSl1 c) (dstw := cmSl1) cmSl1.view c p1rS1 (by decide) N48 rfl rfl fullShare (rcv1 m c)
      (m ((c : Thread nD τ).loc cc0_scratch4)) (b3d_hpw1 m c) (owedAfter 14 c) _ (K (dcell c p1rS1))) $$ [Hc_p1rS1 HO Hat_p1rS1]
  · isplitr; · iapply (invs_get m K c (dcell c p1rS1) (by simp [ownCells, paidCells])); iexact Hinv
    isplitl [Hc_p1rS1]; · iexact Hc_p1rS1
    isplitl [HO]; · iexact HO
    isplitr; · iapply (mayWait_p1r1 c); iexact Hlev
    iexact Hat_p1rS1
  iintro ⟨HO, Hz_p1rS1, Hcm1⟩

  iapply (wp_load 𝒱₀ (c : Thread nD τ) none Set.univ (m := locM) (View.setOn_subset_set _ _)) $$ Hloc
  iintro Hloc
  iapply (kit_load cmM (Rect.unit (s := S304x512) ![48, 0] S48x512.size inb_S304x512_S48x512_48_0) c fullShare (rcv1 m c)) $$ Hcm1
  iintro Hcm1
  iapply (wp_load 𝒱₀ (c : Thread nD τ) none Set.univ (m := gvM) (View.setOn_subset_set _ _)) $$ Hgv
  iintro Hgv
  rw [gv_readAt]

  ihave Hov1 := (heldAny_of_eq (ov_access_eq1 c).symm c fullShare) $$ Hov1
  ihave Hov1 := (heldAny_ex _ c fullShare) $$ Hov1
  icases Hov1 with ⟨%xo, Hov1⟩
  iapply (kit_load ovM (Rect.unit (s := S512x512) (k0_off8 c 128#32) S48x512.size (k0_off8_inb c 1)) c fullShare xo) $$ Hov1
  iintro Hov1
  ihave Hov1 := (held_any _ c fullShare xo) $$ Hov1
  iapply (kit_store ovM (Rect.unit (s := S512x512) (k0_off8 c 128#32) S48x512.size (k0_off8_inb c 1)) c (k0_pay2 (kept1 m c) (rcv1 m c) (GV m c))) $$ Hov1
  iintro Hov1
  ihave Hovf1 := (held_of_eq (ov_access_eq1 c) (x := k0_pay2 (kept1 m c) (rcv1 m c) (GV m c)) (x' := val1 m c) rfl c fullShare) $$ Hov1
  rw [wp_ret]; imodintro
  isplitl [HO]; · iexists _; iexact HO
  isplitl [Hz_p1rS1]; · iexact Hz_p1rS1
  isplitl [Hloc]; · iexact Hloc
  isplitl [Hgv]; · iexact Hgv
  isplitl [Hcm1]; · iexact Hcm1
  iexact Hovf1

end Cert.Kernel.Proto

end
-- ==== Proof.Bits.Body3c.lean ====
import proofs.«900598_g7700000000000599_dist_rsrms_v7x_xyz2x2x2_x_m512_d512_f32_1_alg».proof.Proof.Bits.States
import proofs.«900598_g7700000000000599_dist_rsrms_v7x_xyz2x2x2_x_m512_d512_f32_1_alg».proof.Proof.Bits.KitRounds
import proofs.«900598_g7700000000000599_dist_rsrms_v7x_xyz2x2x2_x_m512_d512_f32_1_alg».proof.Proof.Bits.KitLocal
import proofs.«900598_g7700000000000599_dist_rsrms_v7x_xyz2x2x2_x_m512_d512_f32_1_alg».proof.Proof.Bits.Levels
import proofs.«900598_g7700000000000599_dist_rsrms_v7x_xyz2x2x2_x_m512_d512_f32_1_alg».proof.Proof.Bits.Ctx
import proofs.«900598_g7700000000000599_dist_rsrms_v7x_xyz2x2x2_x_m512_d512_f32_1_alg».proof.Proof.Bits.Regions

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

theorem hps1 (c : Dev nD) :
    dmaPay m p2sS1.val c = ((ovSl1 c).view.loc (c : Thread nD τ) ↦[(ovSl1 c).view.set]{fullShare.left}
      (ovSl1 c).view.write (Elt F) (m ((c : Thread nD τ).loc cc0_scratch3)) (val1 m c) Finset.univ) := by
  rw [show p2sS1.val = 29 from by decide]; rfl
theorem hpr1 (c : Dev nD) :
    dmaPay m p2rS1.val (zp c) = ((ovSl1 c).view.loc (zp c : Thread nD τ) ↦[(ovSl1 c).view.set]{fullShare}
      (ovSl1 c).view.write (Elt F) (m ((zp c : Thread nD τ).loc cc0_scratch3)) (val1 m c) Finset.univ) := by
  rw [show p2rS1.val = 35 from by decide]
  show p2rPay1 m (zp c) = _
  unfold p2rPay1; rw [zp_zp]
theorem hpw2 (c : Dev nD) :
    dmaPay m p1rS2.val c = (cmSl2.view.loc (c : Thread nD τ) ↦[cmSl2.view.set]{fullShare}
      cmSl2.view.write (Elt F) (m ((c : Thread nD τ).loc cc0_scratch4)) (rcv2 m c) Finset.univ) := by
  rw [show p1rS2.val = 20 from by decide]; rfl

-- Chunk 1 is passed on across the third axis; chunk 2 arrives, is computed and stored.
theorem part10_spec (K : GSem nD τ sig → ℕ) (c : Dev nD) (v5 v8 v19 v20 : BitVec 32) :
    iprop(invs m K c
        ∗ known c
        ∗ levAts L lv
        ∗ reached ER (dcell (zp c) p2rS1) 0
        ∗ (∃ W, owes (c : Thread nD τ) (owedAfter 14 c) W)
        ∗ dutyTok ER (dcell (zp c) p2rS1) 0 false
        ∗ dutyTok ER (dcell c p2sS1) 0 false
        ∗ atPos ER (dcell c p1rS2) 0 ∅ 0
        ∗ cred (tallyAt (dcell c p1rS2) () N40)
        ∗ (locM.view.loc (c : Thread nD τ) ↦[locM.view.set]{fullShare} (LOC m c))
        ∗ (gvM.view.loc (c : Thread nD τ) ↦[gvM.view.set]{fullShare} (GV m c))
        ∗ held (ovSl1 c).view c fullShare (val1 m c)
        ∗ heldAny (ovSl2 c).view c fullShare
        ∗ heldAny (ovSl1 c).view (zp c) fullShare)
      ⊢ wp frame (wpE (defs₀ (F := F)) 𝒱₀ (c : Thread nD τ) none) Set.univ
          (atBufs k0_part10 c v5 v8 v19 v20)
          (fun _ => iprop((∃ W, owes (c : Thread nD τ) (owedAfter 15 c) W)
            ∗ semVal (dcell c p1rS2) 0
            ∗ cred (tallyAt (dcell c p2sS1) () N48)
            ∗ (locM.view.loc (c : Thread nD τ) ↦[locM.view.set]{fullShare} (LOC m c))
            ∗ (gvM.view.loc (c : Thread nD τ) ↦[gvM.view.set]{fullShare} (GV m c))
            ∗ held (ovSl1 c).view c fullShare.right (val1 m c)
            ∗ held cmSl2.view c fullShare (rcv2 m c)
            ∗ held (ovSl2 c).view c fullShare (val2 m c))) := by
  simp only [atBufs, k0_part10_eq_skeleton]; unfold k0_part10_skel
  simp only [Prog.lift, Prog.bind_op, Prog.bind_ret, Prog.pure_eq_ret]
  iintro ⟨#Hinv, #Hkn, #Hlev, #Rz2r1, HO, Tzr1, Ts1, Pr2, Cr2, Hloc, Hgv, Hov1, Hov2, Hov1z⟩
  icases HO with ⟨%W, HO⟩

  ihave Hsp := (held_full_split _ c (val1 m c)) $$ Hov1
  icases Hsp with ⟨Hovl1, Hovr1⟩
  ihave #Is1 := (invs_get m K c (dcell c p2sS1) (by simp [ownCells, paidCells])) $$ Hinv
  ihave #Ir1 := (invs_get m K c (dcell (zp c) p2rS1) (by simp [ownCells, paidCells])) $$ Hinv
  ihave #Rs1 := (known_get c (dcell c p2sS1) (by simp [knownCells])) $$ Hkn
  iapply (kit_send m (src := ovSl1 c) (dst := ovSl1 c) (sS := p2sS1) (rS := p2rS1) c (zp c) (dev15_eq c) N48 fullShare.left (val1 m c)
      (m ((c : Thread nD τ).loc cc0_scratch3)) (m ((zp c : Thread nD τ).loc cc0_scratch3))
      (by decide) (by decide) rfl rfl rfl (hps1 m c) (hpr1 m c) (owedAfter 15 c) _ (K (dcell c p2sS1)) (K (dcell (zp c) p2rS1)))
    $$ [Hovl1 Hov1z HO Ts1 Tzr1]
  · isplitr; · iexact Is1
    isplitr; · iexact Ir1
    isplitl [Hovl1]; · iexact Hovl1
    isplitl [Hov1z]; · iexact Hov1z
    isplitl [HO]; · iexact HO
    isplitl [Ts1]; · iexact Ts1
    isplitr; · iexact Rs1
    isplitl [Tzr1]; · iexact Tzr1
    iexact Rz2r1
  iintro ⟨Cs1, HO⟩

  ihave #Iw2 := (invs_get m K c (dcell c p1rS2) (by simp [ownCells, paidCells])) $$ Hinv
  ihave #Hmw := (mayWait_p1r2 c) $$ Hlev
  iapply (kit_wait_dma m (srcw := sndSl2 c) (dstw := cmSl2) cmSl2.view c p1rS2 (by decide) N40 rfl rfl fullShare (rcv2 m c)
      (m ((c : Thread nD τ).loc cc0_scratch4)) (hpw2 m c) (owedAfter 15 c) _ (K (dcell c p1rS2))) $$ [Cr2 HO Pr2]
  · isplitr; · iexact Iw2
    isplitl [Cr2]; · iexact Cr2
    isplitl [HO]; · iexact HO
    isplitr; · iexact Hmw
    iexact Pr2
  iintro ⟨HO, Zr2, Hcm2⟩

  iapply (wp_load 𝒱₀ (c : Thread nD τ) none Set.univ (m := locM) (View.setOn_subset_set _ _)) $$ Hloc
  iintro Hloc
  iapply (kit_load cmM (Rect.unit (s := S304x512) ![96, 0] S40x512.size inb_S304x512_S40x512_96_0) c fullShare (rcv2 m c)) $$ Hcm2
  iintro Hcm2
  iapply (wp_load 𝒱₀ (c : Thread nD τ) none Set.univ (m := gvM) (View.setOn_subset_set _ _)) $$ Hgv
  iintro Hgv
  rw [gv_readAt]

  ihave Hov2 := (heldAny_of_eq (ov_access_eq2 c).symm c fullShare) $$ Hov2
  ihave Hov2 := (heldAny_ex _ c fullShare) $$ Hov2
  icases Hov2 with ⟨%xo, Hov2⟩
  iapply (kit_load ovM (Rect.unit (s := S512x512) (k0_off9 c 48#32) S40x512.size (k0_off9_inb c 0)) c fullShare xo) $$ Hov2
  iintro Hov2
  ihave Hov2 := (held_any _ c fullShare xo) $$ Hov2
  iapply (kit_store ovM (Rect.unit (s := S512x512) (k0_off9 c 48#32) S40x512.size (k0_off9_inb c 0)) c (k0_pay3 (kept2 m c) (rcv2 m c) (GV m c))) $$ Hov2
  iintro Hov2
  ihave Hovf2 := (held_of_eq (ov_access_eq2 c) (x := k0_pay3 (kept2 m c) (rcv2 m c) (GV m c)) (x' := val2 m c) rfl c fullShare) $$ Hov2
  rw [wp_ret]; imodintro
  iframe # ∗
  iexists _; iexact HO

end Cert.Kernel.Proto

end
-- ==== Proof.Bits.Body3b.lean ====
import proofs.«900598_g7700000000000599_dist_rsrms_v7x_xyz2x2x2_x_m512_d512_f32_1_alg».proof.Proof.Bits.Ctx
import proofs.«900598_g7700000000000599_dist_rsrms_v7x_xyz2x2x2_x_m512_d512_f32_1_alg».proof.Proof.Bits.States
import proofs.«900598_g7700000000000599_dist_rsrms_v7x_xyz2x2x2_x_m512_d512_f32_1_alg».proof.Proof.Bits.KitRounds
import proofs.«900598_g7700000000000599_dist_rsrms_v7x_xyz2x2x2_x_m512_d512_f32_1_alg».proof.Proof.Bits.KitLocal
import proofs.«900598_g7700000000000599_dist_rsrms_v7x_xyz2x2x2_x_m512_d512_f32_1_alg».proof.Proof.Bits.Levels
import proofs.«900598_g7700000000000599_dist_rsrms_v7x_xyz2x2x2_x_m512_d512_f32_1_alg».proof.Proof.Bits.Regions

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem b3b_hps2 (c : Dev nD) :
    dmaPay m p2sS2.val c = ((ovSl2 c).view.loc (c : Thread nD τ) ↦[(ovSl2 c).view.set]{fullShare.left}
      (ovSl2 c).view.write (Elt F) (m ((c : Thread nD τ).loc cc0_scratch3)) (val2 m c) Finset.univ) := by
  rw [show p2sS2.val = 30 from by decide]; rfl
theorem b3b_hpr2 (c : Dev nD) :
    dmaPay m p2rS2.val (yp c) = ((ovSl2 c).view.loc (yp c : Thread nD τ) ↦[(ovSl2 c).view.set]{fullShare}
      (ovSl2 c).view.write (Elt F) (m ((yp c : Thread nD τ).loc cc0_scratch3)) (val2 m c) Finset.univ) := by
  rw [show p2rS2.val = 36 from by decide]
  show p2rPay2 m (yp c) = _
  unfold p2rPay2; rw [yp_yp]
theorem b3b_hps3 (c : Dev nD) :
    dmaPay m p2sS3.val c = ((ovSl3 c).view.loc (c : Thread nD τ) ↦[(ovSl3 c).view.set]{fullShare.left}
      (ovSl3 c).view.write (Elt F) (m ((c : Thread nD τ).loc cc0_scratch3)) (val3 m c) Finset.univ) := by
  rw [show p2sS3.val = 31 from by decide]; rfl
theorem b3b_hpr3 (c : Dev nD) :
    dmaPay m p2rS3.val (zp c) = ((ovSl3 c).view.loc (zp c : Thread nD τ) ↦[(ovSl3 c).view.set]{fullShare}
      (ovSl3 c).view.write (Elt F) (m ((zp c : Thread nD τ).loc cc0_scratch3)) (val3 m c) Finset.univ) := by
  rw [show p2rS3.val = 37 from by decide]
  show p2rPay3 m (zp c) = _
  unfold p2rPay3; rw [zp_zp]
theorem b3b_hpw3 (c : Dev nD) :
    dmaPay m p1rS3.val c = (cmSl3.view.loc (c : Thread nD τ) ↦[cmSl3.view.set]{fullShare}
      cmSl3.view.write (Elt F) (m ((c : Thread nD τ).loc cc0_scratch4)) (rcv3 m c) Finset.univ) := by
  rw [show p1rS3.val = 21 from by decide]; rfl
theorem b3b_hpw4 (c : Dev nD) :
    dmaPay m p1rS4.val c = (cmSl4.view.loc (c : Thread nD τ) ↦[cmSl4.view.set]{fullShare}
      cmSl4.view.write (Elt F) (m ((c : Thread nD τ).loc cc0_scratch4)) (rcv4 m c) Finset.univ) := by
  rw [show p1rS4.val = 22 from by decide]; rfl

-- Chunk 2 is passed on; chunk 3 arrives and is read.
theorem part11_spec (K : GSem nD τ sig → ℕ) (c : Dev nD) (v2 v5 v8 v19 v20 v21 : BitVec 32) :
    iprop(invs m K c
        ∗ known c
        ∗ levAts L lv
        ∗ reached ER (dcell (yp c) p2rS2) 0
        ∗ (∃ W, owes (c : Thread nD τ) (owedAfter 15 c) W)
        ∗ dutyTok ER (dcell (yp c) p2rS2) 0 false
        ∗ dutyTok ER (dcell c p2sS2) 0 false
        ∗ atPos ER (dcell c p1rS3) 0 ∅ 0
        ∗ cred (tallyAt (dcell c p1rS3) () N40)
        ∗ (locM.view.loc (c : Thread nD τ) ↦[locM.view.set]{fullShare} (LOC m c))
        ∗ held (ovSl2 c).view c fullShare (val2 m c)
        ∗ heldAny (ovSl2 c).view (yp c) fullShare)
      ⊢ wp frame (wpE (defs₀ (F := F)) 𝒱₀ (c : Thread nD τ) none) Set.univ
          (atBufs k0_part11 c v2 v5 v8 v19 v20 v21) (fun r => iprop(⌜r.2.1 = k0_pay4 (kept3 m c) (rcv3 m c) ∧ r.2.2.1 = k0_pay5 (kept3 m c) (rcv3 m c) ∧ r.2.2.2 = k0_pay6⌝ ∗ (∃ W, owes (c : Thread nD τ) (owedAfter 16 c) W)
            ∗ semVal (dcell c p1rS3) 0
            ∗ cred (tallyAt (dcell c p2sS2) () N40)
            ∗ (locM.view.loc (c : Thread nD τ) ↦[locM.view.set]{fullShare} (LOC m c))
            ∗ held (ovSl2 c).view c fullShare.right (val2 m c)
            ∗ held cmSl3.view c fullShare (rcv3 m c))) := by
  simp only [atBufs, k0_part11_eq_skeleton]; unfold k0_part11_skel
  simp only [Prog.lift, Prog.bind_op, Prog.bind_ret, Prog.pure_eq_ret]
  iintro ⟨#Hinv, #Hkn, #Hlev, #Hryp2r2, HO, Htp2r2, Htp2s2, Hat_p1rS3, Hc_p1rS3, Hloc, Hovf2, Hov2y⟩
  icases HO with ⟨%W, HO⟩

  ihave Hsp := (held_full_split _ c (val2 m c)) $$ Hovf2
  icases Hsp with ⟨Hovl2, Hovr2⟩
  iapply (kit_send m (src := ovSl2 c) (dst := ovSl2 c) (sS := p2sS2) (rS := p2rS2) c (yp c) (dev16_eq c) N40 fullShare.left (val2 m c)
      (m ((c : Thread nD τ).loc cc0_scratch3)) (m ((yp c : Thread nD τ).loc cc0_scratch3))
      (by decide) (by decide) rfl rfl rfl (b3b_hps2 m c) (b3b_hpr2 m c) (owedAfter 16 c) _ (K (dcell c p2sS2)) (K (dcell (yp c) p2rS2)))
    $$ [Hovl2 Hov2y HO Htp2s2 Htp2r2]
  · isplitr; · iapply (invs_get m K c (dcell c p2sS2) (by simp [ownCells, paidCells])); iexact Hinv
    isplitr; · iapply (invs_get m K c (dcell (yp c) p2rS2) (by simp [ownCells, paidCells])); iexact Hinv
    isplitl [Hovl2]; · iexact Hovl2
    isplitl [Hov2y]; · iexact Hov2y
    isplitl [HO]; · iexact HO
    isplitl [Htp2s2]; · iexact Htp2s2
    isplitr; · iapply (known_get c (dcell c p2sS2) (by simp [knownCells])); iexact Hkn
    isplitl [Htp2r2]; · iexact Htp2r2
    iexact Hryp2r2
  iintro ⟨Hc_p2sS2, HO⟩

  iapply (kit_wait_dma m (srcw := sndSl3 c) (dstw := cmSl3) cmSl3.view c p1rS3 (by decide) N40 rfl rfl fullShare (rcv3 m c)
      (m ((c : Thread nD τ).loc cc0_scratch4)) (b3b_hpw3 m c) (owedAfter 16 c) _ (K (dcell c p1rS3))) $$ [Hc_p1rS3 HO Hat_p1rS3]
  · isplitr; · iapply (invs_get m K c (dcell c p1rS3) (by simp [ownCells, paidCells])); iexact Hinv
    isplitl [Hc_p1rS3]; · iexact Hc_p1rS3
    isplitl [HO]; · iexact HO
    isplitr; · iapply (mayWait_p1r3 c); iexact Hlev
    iexact Hat_p1rS3
  iintro ⟨HO, Hz_p1rS3, Hcm3⟩

  iapply (wp_load 𝒱₀ (c : Thread nD τ) none Set.univ (m := locM) (View.setOn_subset_set _ _)) $$ Hloc
  iintro Hloc
  iapply (kit_load cmM (Rect.unit (s := S304x512) ![136, 0] S40x512.size inb_S304x512_S40x512_136_0) c fullShare (rcv3 m c)) $$ Hcm3
  iintro Hcm3
  rw [wp_ret]; imodintro
  isplitr; · ipureintro; exact ⟨rfl, rfl, rfl⟩
  isplitl [HO]; · iexists _; iexact HO
  isplitl [Hz_p1rS3]; · iexact Hz_p1rS3
  isplitl [Hc_p2sS2]; · iexact Hc_p2sS2
  isplitl [Hloc]; · iexact Hloc
  isplitl [Hovr2]; · iexact Hovr2
  iexact Hcm3

-- Chunk 3 is computed, stored and passed on; chunk 4 has arrived.
theorem part12_spec (K : GSem nD τ sig → ℕ) (c : Dev nD) (v2 v5 v8 v19 v20 v22 v356 : BitVec 32) :
    iprop(invs m K c
        ∗ known c
        ∗ levAts L lv
        ∗ reached ER (dcell (zp c) p2rS3) 0
        ∗ (∃ W, owes (c : Thread nD τ) (owedAfter 16 c) W)
        ∗ dutyTok ER (dcell (zp c) p2rS3) 0 false
        ∗ dutyTok ER (dcell c p2sS3) 0 false
        ∗ atPos ER (dcell c p1rS4) 0 ∅ 0
        ∗ cred (tallyAt (dcell c p1rS4) () N16)
        ∗ (gvM.view.loc (c : Thread nD τ) ↦[gvM.view.set]{fullShare} (GV m c))
        ∗ heldAny (ovSl3 c).view c fullShare
        ∗ heldAny (ovSl3 c).view (zp c) fullShare)
      ⊢ wp frame (wpE (defs₀ (F := F)) 𝒱₀ (c : Thread nD τ) none) Set.univ
          (atBufs k0_part12 c v2 v5 v8 v19 v20 v22 v356 (k0_pay4 (kept3 m c) (rcv3 m c)) (k0_pay5 (kept3 m c) (rcv3 m c)) k0_pay6) (fun r => iprop((∃ W, owes (c : Thread nD τ) (owedAfter 17 c) W)
            ∗ semVal (dcell c p1rS4) 0
            ∗ cred (tallyAt (dcell c p2sS3) () N40)
            ∗ (gvM.view.loc (c : Thread nD τ) ↦[gvM.view.set]{fullShare} (GV m c))
            ∗ held (ovSl3 c).view c fullShare.right (val3 m c)
            ∗ held cmSl4.view c fullShare (rcv4 m c))) := by
  simp only [atBufs, k0_part12_eq_skeleton]; unfold k0_part12_skel
  simp only [Prog.lift, Prog.bind_op, Prog.bind_ret, Prog.pure_eq_ret]
  iintro ⟨#Hinv, #Hkn, #Hlev, #Hrzp2r3, HO, Htp2r3, Htp2s3, Hat_p1rS4, Hc_p1rS4, Hgv, Hov3, Hov3z⟩
  icases HO with ⟨%W, HO⟩

  iapply (wp_load 𝒱₀ (c : Thread nD τ) none Set.univ (m := gvM) (View.setOn_subset_set _ _)) $$ Hgv
  iintro Hgv
  rw [gv_readAt]

  ihave Hov3 := (heldAny_of_eq (ov_access_eq3 c).symm c fullShare) $$ Hov3
  ihave Hov3 := (heldAny_ex _ c fullShare) $$ Hov3
  icases Hov3 with ⟨%xo, Hov3⟩
  iapply (kit_load ovM (Rect.unit (s := S512x512) (k0_off9 c 176#32) S40x512.size (k0_off9_inb c 1)) c fullShare xo) $$ Hov3
  iintro Hov3
  ihave Hov3 := (held_any _ c fullShare xo) $$ Hov3
  iapply (kit_store ovM (Rect.unit (s := S512x512) (k0_off9 c 176#32) S40x512.size (k0_off9_inb c 1)) c (k0_pay7 (k0_pay4 (kept3 m c) (rcv3 m c)) (k0_pay5 (kept3 m c) (rcv3 m c)) k0_pay6 (GV m c))) $$ Hov3
  iintro Hov3
  ihave Hovf3 := (held_of_eq (ov_access_eq3 c) (x := k0_pay7 (k0_pay4 (kept3 m c) (rcv3 m c)) (k0_pay5 (kept3 m c) (rcv3 m c)) k0_pay6 (GV m c)) (x' := val3 m c) rfl c fullShare) $$ Hov3

  ihave Hsp := (held_full_split _ c (val3 m c)) $$ Hovf3
  icases Hsp with ⟨Hovl3, Hovr3⟩
  iapply (kit_send m (src := ovSl3 c) (dst := ovSl3 c) (sS := p2sS3) (rS := p2rS3) c (zp c) (dev17_eq c) N40 fullShare.left (val3 m c)
      (m ((c : Thread nD τ).loc cc0_scratch3)) (m ((zp c : Thread nD τ).loc cc0_scratch3))
      (by decide) (by decide) rfl rfl rfl (b3b_hps3 m c) (b3b_hpr3 m c) (owedAfter 17 c) _ (K (dcell c p2sS3)) (K (dcell (zp c) p2rS3)))
    $$ [Hovl3 Hov3z HO Htp2s3 Htp2r3]
  · isplitr; · iapply (invs_get m K c (dcell c p2sS3) (by simp [ownCells, paidCells])); iexact Hinv
    isplitr; · iapply (invs_get m K c (dcell (zp c) p2rS3) (by simp [ownCells, paidCells])); iexact Hinv
    isplitl [Hovl3]; · iexact Hovl3
    isplitl [Hov3z]; · iexact Hov3z
    isplitl [HO]; · iexact HO
    isplitl [Htp2s3]; · iexact Htp2s3
    isplitr; · iapply (known_get c (dcell c p2sS3) (by simp [knownCells])); iexact Hkn
    isplitl [Htp2r3]; · iexact Htp2r3
    iexact Hrzp2r3
  iintro ⟨Hc_p2sS3, HO⟩

  iapply (kit_wait_dma m (srcw := sndSl4 c) (dstw := cmSl4) cmSl4.view c p1rS4 (by decide) N16 rfl rfl fullShare (rcv4 m c)
      (m ((c : Thread nD τ).loc cc0_scratch4)) (b3b_hpw4 m c) (owedAfter 17 c) _ (K (dcell c p1rS4))) $$ [Hc_p1rS4 HO Hat_p1rS4]
  · isplitr; · iapply (invs_get m K c (dcell c p1rS4) (by simp [ownCells, paidCells])); iexact Hinv
    isplitl [Hc_p1rS4]; · iexact Hc_p1rS4
    isplitl [HO]; · iexact HO
    isplitr; · iapply (mayWait_p1r4 c); iexact Hlev
    iexact Hat_p1rS4
  iintro ⟨HO, Hz_p1rS4, Hcm4⟩
  rw [wp_ret]; imodintro
  isplitl [HO]; · iexists _; iexact HO
  isplitl [Hz_p1rS4]; · iexact Hz_p1rS4
  isplitl [Hc_p2sS3]; · iexact Hc_p2sS3
  isplitl [Hgv]; · iexact Hgv
  isplitl [Hovr3]; · iexact Hovr3
  iexact Hcm4

end Cert.Kernel.Proto

end
-- ==== Proof.Bits.Body4.lean ====
import proofs.«900598_g7700000000000599_dist_rsrms_v7x_xyz2x2x2_x_m512_d512_f32_1_alg».proof.Proof.Bits.States
import proofs.«900598_g7700000000000599_dist_rsrms_v7x_xyz2x2x2_x_m512_d512_f32_1_alg».proof.Proof.Bits.KitRounds
import proofs.«900598_g7700000000000599_dist_rsrms_v7x_xyz2x2x2_x_m512_d512_f32_1_alg».proof.Proof.Bits.KitLocal
import proofs.«900598_g7700000000000599_dist_rsrms_v7x_xyz2x2x2_x_m512_d512_f32_1_alg».proof.Proof.Bits.Levels
import proofs.«900598_g7700000000000599_dist_rsrms_v7x_xyz2x2x2_x_m512_d512_f32_1_alg».proof.Proof.Bits.Ctx
import proofs.«900598_g7700000000000599_dist_rsrms_v7x_xyz2x2x2_x_m512_d512_f32_1_alg».proof.Proof.Bits.Regions

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- Chunk 4 is computed, stored and passed on.
theorem part13_spec (K : GSem nD τ sig → ℕ) (c : Dev nD) (v2 v5 v8 v20 v21 v402 : BitVec 32) :
    iprop(invs m K c
        ∗ known c
        ∗ reached ER (dcell (yp c) p2rS4) 0
        ∗ (∃ W, owes (c : Thread nD τ) (owedAfter 17 c) W)
        ∗ dutyTok ER (dcell (yp c) p2rS4) 0 false
        ∗ dutyTok ER (dcell c p2sS4) 0 false
        ∗ (locM.view.loc (c : Thread nD τ) ↦[locM.view.set]{fullShare} (LOC m c))
        ∗ (gvM.view.loc (c : Thread nD τ) ↦[gvM.view.set]{fullShare} (GV m c))
        ∗ held cmSl4.view c fullShare (rcv4 m c)
        ∗ heldAny (ovSl4 c).view c fullShare
        ∗ heldAny (ovSl4 c).view (yp c) fullShare) ⊢ wp frame (wpE (defs₀ (F := F)) 𝒱₀ (c : Thread nD τ) none) Set.univ
          (atBufs k0_part13 c v2 v5 v8 v20 v21 v402) (fun _ => iprop((∃ W, owes (c : Thread nD τ) (owedAfter 18 c) W)
            ∗ cred (tallyAt (dcell c p2sS4) () N16)
            ∗ (locM.view.loc (c : Thread nD τ) ↦[locM.view.set]{fullShare} (LOC m c))
            ∗ (gvM.view.loc (c : Thread nD τ) ↦[gvM.view.set]{fullShare} (GV m c))
            ∗ held cmSl4.view c fullShare (rcv4 m c)
            ∗ held (ovSl4 c).view c fullShare.right (val4 m c))) := by
  simp only [atBufs, k0_part13_eq_skeleton]; unfold k0_part13_skel
  simp only [Prog.lift, Prog.bind_op, Prog.bind_ret, Prog.pure_eq_ret]
  iintro ⟨#h0, #h1, #h17, ⟨%W, h19⟩, h20, h21, h96, h97, h106, h107, h113⟩

  iapply (wp_load 𝒱₀ (c : Thread nD τ) none Set.univ (m := locM) (View.setOn_subset_set _ _)) $$ h96
  iintro h96

  iapply (kit_load cmM (Rect.unit (s := S304x512) ![176, 0] S16x512.size inb_S304x512_S16x512_176_0) c fullShare (rcv4 m c)) $$ h106
  iintro h106

  iapply (wp_load 𝒱₀ (c : Thread nD τ) none Set.univ (m := gvM) (View.setOn_subset_set _ _)) $$ h97
  iintro h97

  ihave g0 := (heldAny_of_eq (ov_access_eq4 c).symm c fullShare) $$ h107
  ihave ⟨%x4, g1⟩ := (heldAny_ex _ c fullShare) $$ g0
  iapply (kit_load ovM (Rect.unit (s := S512x512) (k0_off10 c 88#32) S16x512.size (k0_off10_inb c 0)) c fullShare x4) $$ g1
  iintro g1
  ihave g2 := (held_any _ c fullShare x4) $$ g1

  iapply (kit_store ovM (Rect.unit (s := S512x512) (k0_off10 c 88#32) S16x512.size (k0_off10_inb c 0)) c _) $$ g2
  iintro g3
  ihave g4 := (held_of_eq (ov_access_eq4 c) (x' := val4 m c) (by rw [gv_readAt]; rfl) c fullShare) $$ g3

  ihave ⟨g5, g6⟩ := (held_full_split (ovSl4 c).view c (val4 m c)) $$ g4
  iapply (kit_send m (src := ovSl4 c) (dst := ovSl4 c) (sS := p2sS4) (rS := p2rS4) c (yp c) (dev18_eq c) N16 fullShare.left (val4 m c) (m ((c : Thread nD τ).loc cc0_scratch3)) (m ((yp c : Thread nD τ).loc cc0_scratch3)) (by decide) (by decide) rfl rfl rfl rfl (by show p2rPay4 m (yp c) = _; unfold p2rPay4; rw [yp_yp]) (owedAfter 18 c) _ (K (dcell c p2sS4)) (K (dcell (yp c) p2rS4))) $$ [g5 h113 h19 h21 h20]
  · isplitr; · iapply (invs_get m K c (dcell c p2sS4) (by simp [ownCells, paidCells])); iexact h0
    isplitr; · iapply (invs_get m K c (dcell (yp c) p2rS4) (by simp [ownCells, paidCells])); iexact h0
    isplitl [g5]; · iexact g5
    isplitl [h113]; · iexact h113
    isplitl [h19]; · iexact h19
    isplitl [h21]; · iexact h21
    isplitr; · iapply (known_get c (dcell c p2sS4) (by simp [knownCells])); iexact h1
    isplitl [h20]; · iexact h20
    iexact h17
  iintro ⟨g7, h19⟩
  rw [wp_ret]; imodintro
  isplitl [h19]; · iexists _; iexact h19
  isplitl [g7]; · iexact g7
  isplitl [h96]; · iexact h96
  isplitl [h97]; · iexact h97
  isplitl [h106]; · iexact h106
  iexact g6

-- Chunk 5 arrives, is computed and stored.
theorem part14_spec (K : GSem nD τ sig → ℕ) (c : Dev nD) (v2 v5 v8 v19 v22 v438 v439 : BitVec 32) :
    iprop(invs m K c
        ∗ levAts L lv
        ∗ (∃ W, owes (c : Thread nD τ) (owedAfter 18 c) W)
        ∗ atPos ER (dcell c p1rS5) 0 ∅ 0
        ∗ cred (tallyAt (dcell c p1rS5) () N16)
        ∗ (locM.view.loc (c : Thread nD τ) ↦[locM.view.set]{fullShare} (LOC m c))
        ∗ (gvM.view.loc (c : Thread nD τ) ↦[gvM.view.set]{fullShare} (GV m c))
        ∗ heldAny (ovSl5 c).view c fullShare) ⊢ wp frame (wpE (defs₀ (F := F)) 𝒱₀ (c : Thread nD τ) none) Set.univ
          (atBufs k0_part14 c v2 v5 v8 v19 v22 v438 v439) (fun _ => iprop((∃ W, owes (c : Thread nD τ) (owedAfter 18 c) W)
            ∗ semVal (dcell c p1rS5) 0
            ∗ (locM.view.loc (c : Thread nD τ) ↦[locM.view.set]{fullShare} (LOC m c))
            ∗ (gvM.view.loc (c : Thread nD τ) ↦[gvM.view.set]{fullShare} (GV m c))
            ∗ held cmSl5.view c fullShare (rcv5 m c)
            ∗ held (ovSl5 c).view c fullShare (val5 m c))) := by
  simp only [atBufs, k0_part14_eq_skeleton]; unfold k0_part14_skel
  simp only [Prog.lift, Prog.bind_op, Prog.bind_ret, Prog.pure_eq_ret]
  iintro ⟨#h0, #h2, ⟨%W, h19⟩, h39, h40, h95, h96, h107⟩

  iapply (kit_wait_dma m (dstw := cmSl5) cmSl5.view c p1rS5 (by decide) N16 rfl rfl fullShare (rcv5 m c) (m ((c : Thread nD τ).loc cc0_scratch4)) rfl (owedAfter 18 c) _ (K (dcell c p1rS5))) $$ [h40 h19 h39]
  · isplitr; · iapply (invs_get m K c (dcell c p1rS5) (by simp [ownCells, paidCells])); iexact h0
    isplitl [h40]; · iexact h40
    isplitl [h19]; · iexact h19
    isplitr; · iapply (mayWait_p1r5 (F := F) c); iexact h2
    iexact h39
  iintro ⟨h19, g0, g1⟩

  iapply (wp_load 𝒱₀ (c : Thread nD τ) none Set.univ (m := locM) (View.setOn_subset_set _ _)) $$ h95
  iintro h95

  iapply (kit_load cmM (Rect.unit (s := S304x512) ![192, 0] S16x512.size inb_S304x512_S16x512_192_0) c fullShare (rcv5 m c)) $$ g1
  iintro g1

  iapply (wp_load 𝒱₀ (c : Thread nD τ) none Set.univ (m := gvM) (View.setOn_subset_set _ _)) $$ h96
  iintro h96

  ihave g2 := (heldAny_of_eq (ov_access_eq5 c).symm c fullShare) $$ h107
  ihave ⟨%x5, g3⟩ := (heldAny_ex _ c fullShare) $$ g2
  iapply (kit_load ovM (Rect.unit (s := S512x512) (k0_off10 c 216#32) S16x512.size (k0_off10_inb c 1)) c fullShare x5) $$ g3
  iintro g3
  ihave g4 := (held_any _ c fullShare x5) $$ g3

  iapply (kit_store ovM (Rect.unit (s := S512x512) (k0_off10 c 216#32) S16x512.size (k0_off10_inb c 1)) c _) $$ g4
  iintro g5
  ihave g6 := (held_of_eq (ov_access_eq5 c) (x' := val5 m c) (by rw [gv_readAt]; rfl) c fullShare) $$ g5
  rw [wp_ret]; imodintro
  isplitl [h19]; · iexists _; iexact h19
  isplitl [g0]; · iexact g0
  isplitl [h95]; · iexact h95
  isplitl [h96]; · iexact h96
  isplitl [g1]; · iexact g1
  iexact g6

-- Chunk 5 is passed on; chunk 6 arrives and is read.
theorem part15_spec (K : GSem nD τ sig → ℕ) (c : Dev nD) (v5 v8 v19 v20 : BitVec 32) :
    iprop(invs m K c
        ∗ known c
        ∗ levAts L lv
        ∗ reached ER (dcell (zp c) p2rS5) 0
        ∗ (∃ W, owes (c : Thread nD τ) (owedAfter 18 c) W)
        ∗ dutyTok ER (dcell (zp c) p2rS5) 0 false
        ∗ dutyTok ER (dcell c p2sS5) 0 false
        ∗ atPos ER (dcell c p1rS6) 0 ∅ 0
        ∗ cred (tallyAt (dcell c p1rS6) () N24)
        ∗ (locM.view.loc (c : Thread nD τ) ↦[locM.view.set]{fullShare} (LOC m c))
        ∗ (gvM.view.loc (c : Thread nD τ) ↦[gvM.view.set]{fullShare} (GV m c))
        ∗ held (ovSl5 c).view c fullShare (val5 m c)
        ∗ heldAny (ovSl6 c).view c fullShare
        ∗ heldAny (ovSl5 c).view (zp c) fullShare) ⊢ wp frame (wpE (defs₀ (F := F)) 𝒱₀ (c : Thread nD τ) none) Set.univ
          (atBufs k0_part15 c v5 v8 v19 v20) (fun r => iprop(⌜r.1 = k0_pay10 (kept6 m c) (rcv6 m c) (GV m c)⌝ ∗ (∃ W, owes (c : Thread nD τ) (owedAfter 19 c) W)
            ∗ semVal (dcell c p1rS6) 0
            ∗ cred (tallyAt (dcell c p2sS5) () N16)
            ∗ (locM.view.loc (c : Thread nD τ) ↦[locM.view.set]{fullShare} (LOC m c))
            ∗ (gvM.view.loc (c : Thread nD τ) ↦[gvM.view.set]{fullShare} (GV m c))
            ∗ held (ovSl5 c).view c fullShare.right (val5 m c)
            ∗ held cmSl6.view c fullShare (rcv6 m c)
            ∗ heldAny (ovSl6 c).view c fullShare)) := by
  simp only [atBufs, k0_part15_eq_skeleton]; unfold k0_part15_skel
  simp only [Prog.lift, Prog.bind_op, Prog.bind_ret, Prog.pure_eq_ret]
  iintro ⟨#h0, #h1, #h2, #h18, ⟨%W, h19⟩, h20, h21, h42, h43, h94, h95, h107, h108, h112⟩

  ihave ⟨g0, g1⟩ := (held_full_split (ovSl5 c).view c (val5 m c)) $$ h107
  iapply (kit_send m (src := ovSl5 c) (dst := ovSl5 c) (sS := p2sS5) (rS := p2rS5) c (zp c) (dev19_eq c) N16 fullShare.left (val5 m c) (m ((c : Thread nD τ).loc cc0_scratch3)) (m ((zp c : Thread nD τ).loc cc0_scratch3)) (by decide) (by decide) rfl rfl rfl rfl (by show p2rPay5 m (zp c) = _; unfold p2rPay5; rw [zp_zp]) (owedAfter 19 c) _ (K (dcell c p2sS5)) (K (dcell (zp c) p2rS5))) $$ [g0 h112 h19 h21 h20]
  · isplitr; · iapply (invs_get m K c (dcell c p2sS5) (by simp [ownCells, paidCells])); iexact h0
    isplitr; · iapply (invs_get m K c (dcell (zp c) p2rS5) (by simp [ownCells, paidCells])); iexact h0
    isplitl [g0]; · iexact g0
    isplitl [h112]; · iexact h112
    isplitl [h19]; · iexact h19
    isplitl [h21]; · iexact h21
    isplitr; · iapply (known_get c (dcell c p2sS5) (by simp [knownCells])); iexact h1
    isplitl [h20]; · iexact h20
    iexact h18
  iintro ⟨g2, h19⟩

  iapply (kit_wait_dma m (dstw := cmSl6) cmSl6.view c p1rS6 (by decide) N24 rfl rfl fullShare (rcv6 m c) (m ((c : Thread nD τ).loc cc0_scratch4)) rfl (owedAfter 19 c) _ (K (dcell c p1rS6))) $$ [h43 h19 h42]
  · isplitr; · iapply (invs_get m K c (dcell c p1rS6) (by simp [ownCells, paidCells])); iexact h0
    isplitl [h43]; · iexact h43
    isplitl [h19]; · iexact h19
    isplitr; · iapply (mayWait_nil (F := F) c (.dma p1rS6)); iexact h2
    iexact h42
  iintro ⟨h19, g3, g4⟩

  iapply (wp_load 𝒱₀ (c : Thread nD τ) none Set.univ (m := locM) (View.setOn_subset_set _ _)) $$ h94
  iintro h94

  iapply (kit_load cmM (Rect.unit (s := S304x512) ![208, 0] S24x512.size inb_S304x512_S24x512_208_0) c fullShare (rcv6 m c)) $$ g4
  iintro g4

  iapply (wp_load 𝒱₀ (c : Thread nD τ) none Set.univ (m := gvM) (View.setOn_subset_set _ _)) $$ h95
  iintro h95

  ihave g5 := (heldAny_of_eq (ov_access_eq6 c).symm c fullShare) $$ h108
  ihave ⟨%x6, g6⟩ := (heldAny_ex _ c fullShare) $$ g5
  iapply (kit_load ovM (Rect.unit (s := S512x512) (k0_off11 c 104#32) S24x512.size (k0_off11_inb c 0)) c fullShare x6) $$ g6
  iintro g6
  ihave g7 := (held_any _ c fullShare x6) $$ g6
  ihave g8 := (heldAny_of_eq (ov_access_eq6 c) c fullShare) $$ g7
  rw [wp_ret]; imodintro
  isplitr
  · ipureintro; show k0_pay10 _ _ _ = _; rw [gv_readAt]; rfl
  isplitl [h19]; · iexists _; iexact h19
  isplitl [g3]; · iexact g3
  isplitl [g2]; · iexact g2
  isplitl [h94]; · iexact h94
  isplitl [h95]; · iexact h95
  isplitl [g1]; · iexact g1
  isplitl [g4]; · iexact g4
  iexact g8

-- Chunk 6 is stored; chunk 7 arrives, is computed and stored.
theorem part16_spec (K : GSem nD τ sig → ℕ) (c : Dev nD) (v5 v8 v19 v20 : BitVec 32) (v514 : Vec F S24x512 .f32) :
    iprop(invs m K c
        ∗ levAts L lv
        ∗ (∃ W, owes (c : Thread nD τ) (owedAfter 19 c) W)
        ∗ atPos ER (dcell c p1rS7) 0 ∅ 0
        ∗ cred (tallyAt (dcell c p1rS7) () N24)
        ∗ (locM.view.loc (c : Thread nD τ) ↦[locM.view.set]{fullShare} (LOC m c))
        ∗ (gvM.view.loc (c : Thread nD τ) ↦[gvM.view.set]{fullShare} (GV m c))
        ∗ heldAny (ovSl6 c).view c fullShare
        ∗ heldAny (ovSl7 c).view c fullShare) ⊢ wp frame (wpE (defs₀ (F := F)) 𝒱₀ (c : Thread nD τ) none) Set.univ
          (atBufs k0_part16 c v5 v8 v19 v20 (k0_pay10 (kept6 m c) (rcv6 m c) (GV m c)) v514) (fun _ => iprop((∃ W, owes (c : Thread nD τ) (owedAfter 19 c) W)
            ∗ semVal (dcell c p1rS7) 0
            ∗ (locM.view.loc (c : Thread nD τ) ↦[locM.view.set]{fullShare} (LOC m c))
            ∗ (gvM.view.loc (c : Thread nD τ) ↦[gvM.view.set]{fullShare} (GV m c))
            ∗ held (ovSl6 c).view c fullShare (val6 m c)
            ∗ held cmSl7.view c fullShare (rcv7 m c)
            ∗ held (ovSl7 c).view c fullShare (val7 m c))) := by
  simp only [atBufs, k0_part16_eq_skeleton]; unfold k0_part16_skel
  simp only [Prog.lift, Prog.bind_op, Prog.bind_ret, Prog.pure_eq_ret]
  iintro ⟨#h0, #h2, ⟨%W, h19⟩, h43, h44, h92, h93, h107, h108⟩

  ihave g0 := (heldAny_of_eq (ov_access_eq6 c).symm c fullShare) $$ h107

  iapply (kit_store ovM (Rect.unit (s := S512x512) (k0_off11 c 104#32) S24x512.size (k0_off11_inb c 0)) c _) $$ g0
  iintro g1
  ihave g2 := (held_of_eq (ov_access_eq6 c) (x' := val6 m c) (x := k0_pay11 (k0_pay10 (kept6 m c) (rcv6 m c) (GV m c))) rfl c fullShare) $$ g1

  iapply (kit_wait_dma m (dstw := cmSl7) cmSl7.view c p1rS7 (by decide) N24 rfl rfl fullShare (rcv7 m c) (m ((c : Thread nD τ).loc cc0_scratch4)) rfl (owedAfter 19 c) _ (K (dcell c p1rS7))) $$ [h44 h19 h43]
  · isplitr; · iapply (invs_get m K c (dcell c p1rS7) (by simp [ownCells, paidCells])); iexact h0
    isplitl [h44]; · iexact h44
    isplitl [h19]; · iexact h19
    isplitr; · iapply (mayWait_nil (F := F) c (.dma p1rS7)); iexact h2
    iexact h43
  iintro ⟨h19, g3, g4⟩

  iapply (wp_load 𝒱₀ (c : Thread nD τ) none Set.univ (m := locM) (View.setOn_subset_set _ _)) $$ h92
  iintro h92

  iapply (kit_load cmM (Rect.unit (s := S304x512) ![232, 0] S24x512.size inb_S304x512_S24x512_232_0) c fullShare (rcv7 m c)) $$ g4
  iintro g4

  iapply (wp_load 𝒱₀ (c : Thread nD τ) none Set.univ (m := gvM) (View.setOn_subset_set _ _)) $$ h93
  iintro h93

  ihave g5 := (heldAny_of_eq (ov_access_eq7 c).symm c fullShare) $$ h108
  ihave ⟨%x7, g6⟩ := (heldAny_ex _ c fullShare) $$ g5
  iapply (kit_load ovM (Rect.unit (s := S512x512) (k0_off11 c 232#32) S24x512.size (k0_off11_inb c 1)) c fullShare x7) $$ g6
  iintro g6
  ihave g7 := (held_any _ c fullShare x7) $$ g6

  iapply (kit_store ovM (Rect.unit (s := S512x512) (k0_off11 c 232#32) S24x512.size (k0_off11_inb c 1)) c _) $$ g7
  iintro g8
  ihave g9 := (held_of_eq (ov_access_eq7 c) (x' := val7 m c) (by rw [gv_readAt]; rfl) c fullShare) $$ g8
  rw [wp_ret]; imodintro
  isplitl [h19]; · iexists _; iexact h19
  isplitl [g3]; · iexact g3
  isplitl [h92]; · iexact h92
  isplitl [h93]; · iexact h93
  isplitl [g2]; · iexact g2
  isplitl [g4]; · iexact g4
  iexact g9

-- Chunk 8 arrives, is computed and stored.
theorem part17_spec (K : GSem nD τ sig → ℕ) (c : Dev nD) (v5 v8 v19 v20 : BitVec 32) :
    iprop(invs m K c
        ∗ levAts L lv
        ∗ (∃ W, owes (c : Thread nD τ) (owedAfter 19 c) W)
        ∗ atPos ER (dcell c p1rS8) 0 ∅ 0
        ∗ cred (tallyAt (dcell c p1rS8) () N24)
        ∗ (locM.view.loc (c : Thread nD τ) ↦[locM.view.set]{fullShare} (LOC m c))
        ∗ (gvM.view.loc (c : Thread nD τ) ↦[gvM.view.set]{fullShare} (GV m c))
        ∗ heldAny (ovSl8 c).view c fullShare) ⊢ wp frame (wpE (defs₀ (F := F)) 𝒱₀ (c : Thread nD τ) none) Set.univ
          (atBufs k0_part17 c v5 v8 v19 v20) (fun _ => iprop((∃ W, owes (c : Thread nD τ) (owedAfter 19 c) W)
            ∗ semVal (dcell c p1rS8) 0
            ∗ (locM.view.loc (c : Thread nD τ) ↦[locM.view.set]{fullShare} (LOC m c))
            ∗ (gvM.view.loc (c : Thread nD τ) ↦[gvM.view.set]{fullShare} (GV m c))
            ∗ held cmSl8.view c fullShare (rcv8 m c)
            ∗ held (ovSl8 c).view c fullShare (val8 m c))) := by
  simp only [atBufs, k0_part17_eq_skeleton]; unfold k0_part17_skel
  simp only [Prog.lift, Prog.bind_op, Prog.bind_ret, Prog.pure_eq_ret]
  iintro ⟨#h0, #h2, ⟨%W, h19⟩, h46, h47, h91, h92, h109⟩

  iapply (kit_wait_dma m (dstw := cmSl8) cmSl8.view c p1rS8 (by decide) N24 rfl rfl fullShare (rcv8 m c) (m ((c : Thread nD τ).loc cc0_scratch4)) rfl (owedAfter 19 c) _ (K (dcell c p1rS8))) $$ [h47 h19 h46]
  · isplitr; · iapply (invs_get m K c (dcell c p1rS8) (by simp [ownCells, paidCells])); iexact h0
    isplitl [h47]; · iexact h47
    isplitl [h19]; · iexact h19
    isplitr; · iapply (mayWait_nil (F := F) c (.dma p1rS8)); iexact h2
    iexact h46
  iintro ⟨h19, g0, g1⟩

  iapply (wp_load 𝒱₀ (c : Thread nD τ) none Set.univ (m := locM) (View.setOn_subset_set _ _)) $$ h91
  iintro h91

  iapply (kit_load cmM (Rect.unit (s := S304x512) ![256, 0] S24x512.size inb_S304x512_S24x512_256_0) c fullShare (rcv8 m c)) $$ g1
  iintro g1

  iapply (wp_load 𝒱₀ (c : Thread nD τ) none Set.univ (m := gvM) (View.setOn_subset_set _ _)) $$ h92
  iintro h92

  ihave g2 := (heldAny_of_eq (ov_access_eq8 c).symm c fullShare) $$ h109
  ihave ⟨%x8, g3⟩ := (heldAny_ex _ c fullShare) $$ g2
  iapply (kit_load ovM (Rect.unit (s := S512x512) (k0_off12 c 104#32) S24x512.size (k0_off12_inb c 0)) c fullShare x8) $$ g3
  iintro g3
  ihave g4 := (held_any _ c fullShare x8) $$ g3

  iapply (kit_store ovM (Rect.unit (s := S512x512) (k0_off12 c 104#32) S24x512.size (k0_off12_inb c 0)) c _) $$ g4
  iintro g5
  ihave g6 := (held_of_eq (ov_access_eq8 c) (x' := val8 m c) (by rw [gv_readAt]; rfl) c fullShare) $$ g5
  rw [wp_ret]; imodintro
  isplitl [h19]; · iexists _; iexact h19
  isplitl [g0]; · iexact g0
  isplitl [h91]; · iexact h91
  isplitl [h92]; · iexact h92
  isplitl [g1]; · iexact g1
  iexact g6

-- Chunk 9 arrives, is computed and stored.
theorem part18_spec (K : GSem nD τ sig → ℕ) (c : Dev nD) (v5 v8 v19 v586 c0_i32_351 : BitVec 32) :
    iprop(invs m K c
        ∗ levAts L lv
        ∗ (∃ W, owes (c : Thread nD τ) (owedAfter 19 c) W)
        ∗ atPos ER (dcell c p1rS9) 0 ∅ 0
        ∗ cred (tallyAt (dcell c p1rS9) () N24)
        ∗ (locM.view.loc (c : Thread nD τ) ↦[locM.view.set]{fullShare} (LOC m c))
        ∗ (gvM.view.loc (c : Thread nD τ) ↦[gvM.view.set]{fullShare} (GV m c))
        ∗ heldAny (ovSl9 c).view c fullShare) ⊢ wp frame (wpE (defs₀ (F := F)) 𝒱₀ (c : Thread nD τ) none) Set.univ
          (atBufs k0_part18 c v5 v8 v19 v586 c0_i32_351) (fun _ => iprop((∃ W, owes (c : Thread nD τ) (owedAfter 19 c) W)
            ∗ semVal (dcell c p1rS9) 0
            ∗ (locM.view.loc (c : Thread nD τ) ↦[locM.view.set]{fullShare} (LOC m c))
            ∗ (gvM.view.loc (c : Thread nD τ) ↦[gvM.view.set]{fullShare} (GV m c))
            ∗ held cmSl9.view c fullShare (rcv9 m c)
            ∗ held (ovSl9 c).view c fullShare (val9 m c))) := by
  simp only [atBufs, k0_part18_eq_skeleton]; unfold k0_part18_skel
  simp only [Prog.lift, Prog.bind_op, Prog.bind_ret, Prog.pure_eq_ret]
  iintro ⟨#h0, #h2, ⟨%W, h19⟩, h49, h50, h90, h91, h110⟩

  iapply (kit_wait_dma m (dstw := cmSl9) cmSl9.view c p1rS9 (by decide) N24 rfl rfl fullShare (rcv9 m c) (m ((c : Thread nD τ).loc cc0_scratch4)) rfl (owedAfter 19 c) _ (K (dcell c p1rS9))) $$ [h50 h19 h49]
  · isplitr; · iapply (invs_get m K c (dcell c p1rS9) (by simp [ownCells, paidCells])); iexact h0
    isplitl [h50]; · iexact h50
    isplitl [h19]; · iexact h19
    isplitr; · iapply (mayWait_nil (F := F) c (.dma p1rS9)); iexact h2
    iexact h49
  iintro ⟨h19, g0, g1⟩

  iapply (wp_load 𝒱₀ (c : Thread nD τ) none Set.univ (m := locM) (View.setOn_subset_set _ _)) $$ h90
  iintro h90

  iapply (kit_load cmM (Rect.unit (s := S304x512) ![280, 0] S24x512.size inb_S304x512_S24x512_280_0) c fullShare (rcv9 m c)) $$ g1
  iintro g1

  iapply (wp_load 𝒱₀ (c : Thread nD τ) none Set.univ (m := gvM) (View.setOn_subset_set _ _)) $$ h91
  iintro h91

  ihave g2 := (heldAny_of_eq (ov_access_eq9 c).symm c fullShare) $$ h110
  ihave ⟨%x9, g3⟩ := (heldAny_ex _ c fullShare) $$ g2
  iapply (kit_load ovM (Rect.unit (s := S512x512) (k0_off12 c 232#32) S24x512.size (k0_off12_inb c 1)) c fullShare x9) $$ g3
  iintro g3
  ihave g4 := (held_any _ c fullShare x9) $$ g3

  iapply (kit_store ovM (Rect.unit (s := S512x512) (k0_off12 c 232#32) S24x512.size (k0_off12_inb c 1)) c _) $$ g4
  iintro g5
  ihave g6 := (held_of_eq (ov_access_eq9 c) (x' := val9 m c) (by rw [gv_readAt]; rfl) c fullShare) $$ g5
  rw [wp_ret]; imodintro
  isplitl [h19]; · iexists _; iexact h19
  isplitl [g0]; · iexact g0
  isplitl [h90]; · iexact h90
  isplitl [h91]; · iexact h91
  isplitl [g1]; · iexact g1
  iexact g6

end Cert.Kernel.Proto

end
-- ==== Proof.Bits.Body5a.lean ====
import proofs.«900598_g7700000000000599_dist_rsrms_v7x_xyz2x2x2_x_m512_d512_f32_1_alg».proof.Proof.Bits.States
import proofs.«900598_g7700000000000599_dist_rsrms_v7x_xyz2x2x2_x_m512_d512_f32_1_alg».proof.Proof.Bits.KitRounds
import proofs.«900598_g7700000000000599_dist_rsrms_v7x_xyz2x2x2_x_m512_d512_f32_1_alg».proof.Proof.Bits.KitLocal
import proofs.«900598_g7700000000000599_dist_rsrms_v7x_xyz2x2x2_x_m512_d512_f32_1_alg».proof.Proof.Bits.Levels
import proofs.«900598_g7700000000000599_dist_rsrms_v7x_xyz2x2x2_x_m512_d512_f32_1_alg».proof.Proof.Bits.Regions
import proofs.«900598_g7700000000000599_dist_rsrms_v7x_xyz2x2x2_x_m512_d512_f32_1_alg».proof.Proof.Bits.Ctx

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- The rows the device computed for itself start towards the result array: its own half as one piece, and the two chunks it keeps of the other half.
theorem part19_spec (K : GSem nD τ sig → ℕ) (c : Dev nD) (v2 v8 v19 v21 v624 : BitVec 32) :
    iprop(semVal (dcell c outS0) 0
        ∗ semVal (dcell c outS1) 0
        ∗ semVal (dcell c outS4) 0
        ∗ (outM.view.loc (c : Thread nD τ) ↦[outM.view.set]{fullShare} m ((c : Thread nD τ).loc main_v1))
        ∗ held (ovSl0 c).view c fullShare.right (val0 m c)
        ∗ held (ovSl1 c).view c fullShare.right (val1 m c)
        ∗ held (ovSl2 c).view c fullShare.right (val2 m c)
        ∗ held (ovSl3 c).view c fullShare.right (val3 m c)
        ∗ held (ovSl4 c).view c fullShare.right (val4 m c)
        ∗ held (ovSl5 c).view c fullShare.right (val5 m c)
        ∗ held (ovSl6 c).view c fullShare (val6 m c)
        ∗ held (ovSl7 c).view c fullShare (val7 m c)
        ∗ held (ovSl8 c).view c fullShare (val8 m c)
        ∗ held (ovSl9 c).view c fullShare (val9 m c)) ⊢ wp frame (wpE (defs₀ (F := F)) 𝒱₀ (c : Thread nD τ) none) Set.univ (atBufs k0_part19 c v2 v8 v19 v21 v624) (fun _ => iprop(heldAny (F := F) (outO3 c).view c fullShare
            ∗ heldAny (F := F) (outO4 c).view c fullShare
            ∗ held (ovSl6 c).view c fullShare.left (val6 m c)
            ∗ held (ovSl7 c).view c fullShare.left (val7 m c)
            ∗ (∃ X1, ⌜O1Rows c X1 (val0 m c) (val2 m c) (val4 m c) (val6 m c) (val1 m c) (val3 m c) (val5 m c) (val7 m c)⌝ ∗ Transfers.Flight countersEmb (c : Thread nD τ) (.dma outS0) () ((outO1 c).view.amount (.dma outS0)) iprop(held (outO1 c).view c fullShare X1 ∗ held (ovO1 c).view c fullShare.right X1))
            ∗ Transfers.Flight countersEmb (c : Thread nD τ) (.dma outS1) () ((outO2a c).view.amount (.dma outS1)) iprop(held (outO2a c).view c fullShare (val8 m c) ∗ held (ovO2a c).view c fullShare (val8 m c))
            ∗ Transfers.Flight countersEmb (c : Thread nD τ) (.dma outS4) () ((outO2b c).view.amount (.dma outS4)) iprop(held (outO2b c).view c fullShare (val9 m c) ∗ held (ovO2b c).view c fullShare (val9 m c)))) := by
  simp only [atBufs, k0_part19_eq_skeleton]; unfold k0_part19_skel
  simp only [Prog.lift, Prog.bind_op, Prog.bind_ret, Prog.pure_eq_ret]
  iintro ⟨h79, h80, h83, h87, h92, h94, h96, h98, h100, h102, h104, h106, h108, h110⟩
  ihave ⟨o1A, o2aA, o2bA, o3A, o4A⟩ := (out_split_set c _) $$ h87
  ihave ⟨l6, r6⟩ := (held_full_split (ovSl6 c).view c (val6 m c)) $$ h104
  ihave ⟨l7, r7⟩ := (held_full_split (ovSl7 c).view c (val7 m c)) $$ h106
  ihave ⟨%X1, %hX1, HO1⟩ := (ovO1_join c fullShare.right (val0 m c) (val2 m c) (val4 m c) (val6 m c) (val1 m c) (val3 m c) (val5 m c) (val7 m c)) $$ [h92 h96 h100 r6 h94 h98 h102 r7]
  · isplitl [h92]; · iexact h92
    isplitl [h96]; · iexact h96
    isplitl [h100]; · iexact h100
    isplitl [r6]; · iexact r6
    isplitl [h94]; · iexact h94
    isplitl [h98]; · iexact h98
    isplitl [h102]; · iexact h102
    iexact r7
  iapply (kit_dma_issue (ovO1 c) (outO1 c) outS0 c fullShare.right X1 _ rfl (View.dmaCredit_pos _ (by decide))) $$ [HO1 o1A h79]
  · isplitl [HO1]; · iexact HO1
    isplitl [o1A]; · iexact o1A
    iexact h79
  iintro Hf1
  iapply (kit_dma_issue (ovO2a c) (outO2a c) outS1 c fullShare (val8 m c) _ rfl (View.dmaCredit_pos _ (by decide))) $$ [h108 o2aA h80]
  · isplitl [h108]; · iexact h108
    isplitl [o2aA]; · iexact o2aA
    iexact h80
  iintro Hf2
  ihave h110' := (show held (ovSl9 c).view c fullShare (val9 m c) ⊢ held (ovO2b c).view c fullShare (val9 m c) from by rw [ovO2b_view_eq]) $$ h110
  iapply (kit_dma_issue (ovO2b c) (outO2b c) outS4 c fullShare (val9 m c) _ rfl (View.dmaCredit_pos _ (by decide))) $$ [h110' o2bA h83]
  · isplitl [h110']; · iexact h110'
    isplitl [o2bA]; · iexact o2bA
    iexact h83
  iintro Hf3
  iapply (le_wp_ret _ _ _ PUnit.unit _)
  isplitl [o3A]
  · iexact o3A
  isplitl [o4A]
  · iexact o4A
  isplitl [l6]
  · iexact l6
  isplitl [l7]
  · iexact l7
  isplitl [Hf1]
  · iexists X1; isplitr
    · ipureintro; exact hX1
    iexact Hf1
  isplitl [Hf2]
  · iexact Hf2
  iexact Hf3

-- The first three chunks passed on by the two other neighbours have arrived.
theorem part20_spec (K : GSem nD τ sig → ℕ) (c : Dev nD) (v2 v5 v8 v21 v22 : BitVec 32) :
    iprop(invs m K c
        ∗ levAts L lv
        ∗ (∃ W, owes (c : Thread nD τ) (owedAfter 19 c) W)
        ∗ atPos ER (dcell c p2rS0) 0 ∅ 0
        ∗ cred (tallyAt (dcell c p2rS0) () N48)
        ∗ atPos ER (dcell c p2rS1) 0 ∅ 0
        ∗ cred (tallyAt (dcell c p2rS1) () N48)
        ∗ atPos ER (dcell c p2rS2) 0 ∅ 0
        ∗ cred (tallyAt (dcell c p2rS2) () N40)
        ∗ (∃ X1, ⌜O1Rows c X1 (val0 m c) (val2 m c) (val4 m c) (val6 m c) (val1 m c) (val3 m c) (val5 m c) (val7 m c)⌝ ∗ Transfers.Flight countersEmb (c : Thread nD τ) (.dma outS0) () ((outO1 c).view.amount (.dma outS0)) iprop(held (outO1 c).view c fullShare X1 ∗ held (ovO1 c).view c fullShare.right X1))) ⊢ wp frame (wpE (defs₀ (F := F)) 𝒱₀ (c : Thread nD τ) none) Set.univ (atBufs k0_part20 c v2 v5 v8 v21 v22) (fun _ => iprop((∃ W, owes (c : Thread nD τ) (owedAfter 19 c) W)
            ∗ semVal (dcell c p2rS0) 0
            ∗ semVal (dcell c p2rS1) 0
            ∗ semVal (dcell c p2rS2) 0
            ∗ (∃ X1, ⌜O1Rows c X1 (val0 m c) (val2 m c) (val4 m c) (val6 m c) (val1 m c) (val3 m c) (val5 m c) (val7 m c)⌝ ∗ Transfers.Flight countersEmb (c : Thread nD τ) (.dma outS0) () ((outO1 c).view.amount (.dma outS0)) iprop(held (outO1 c).view c fullShare X1 ∗ held (ovO1 c).view c fullShare.right X1))
            ∗ held (ovSl0 (yp c)).view c fullShare (val0 m (yp c))
            ∗ held (ovSl1 (zp c)).view c fullShare (val1 m (zp c))
            ∗ held (ovSl2 (yp c)).view c fullShare (val2 m (yp c)))) := by
  simp only [atBufs, k0_part20_eq_skeleton]; unfold k0_part20_skel
  simp only [Prog.lift, Prog.bind_op, Prog.bind_ret, Prog.pure_eq_ret]
  iintro ⟨#h0, #h2, ⟨%W, h19⟩, h52, h53, h56, h57, h60, h61, ⟨%X1, %hX1, Hf1⟩⟩
  ihave #Hc0 := (invs_get m K c (dcell c p2rS0) (by simp [ownCells, paidCells])) $$ h0
  ihave Hmw := (mayWait_nil (F := F) c (.dma p2rS0)) $$ h2
  iapply (kit_wait_dma m (ovSl0 (yp c)).view c p2rS0 (by decide) N48 rfl (show (ovSl0 c).view.dmaCredit = N48 from rfl) fullShare (val0 m (yp c)) (m ((c : Thread nD τ).loc cc0_scratch3)) rfl (owedAfter 19 c) _ (K (dcell c p2rS0))) $$ [h53 h19 Hmw h52]
  · isplitr; · iexact Hc0
    isplitl [h53]; · iexact h53
    isplitl [h19]; · iexact h19
    isplitl [Hmw]; · iexact Hmw
    iexact h52
  iintro ⟨h19, sv0, g0⟩
  ihave #Hc1 := (invs_get m K c (dcell c p2rS1) (by simp [ownCells, paidCells])) $$ h0
  ihave Hmw := (mayWait_nil (F := F) c (.dma p2rS1)) $$ h2
  iapply (kit_wait_dma m (ovSl1 (zp c)).view c p2rS1 (by decide) N48 rfl (show (ovSl1 c).view.dmaCredit = N48 from rfl) fullShare (val1 m (zp c)) (m ((c : Thread nD τ).loc cc0_scratch3)) rfl (owedAfter 19 c) _ (K (dcell c p2rS1))) $$ [h57 h19 Hmw h56]
  · isplitr; · iexact Hc1
    isplitl [h57]; · iexact h57
    isplitl [h19]; · iexact h19
    isplitl [Hmw]; · iexact Hmw
    iexact h56
  iintro ⟨h19, sv1, g1⟩
  ihave #Hc2 := (invs_get m K c (dcell c p2rS2) (by simp [ownCells, paidCells])) $$ h0
  ihave Hmw := (mayWait_nil (F := F) c (.dma p2rS2)) $$ h2
  iapply (kit_wait_dma m (ovSl2 (yp c)).view c p2rS2 (by decide) N40 rfl (show (ovSl2 c).view.dmaCredit = N40 from rfl) fullShare (val2 m (yp c)) (m ((c : Thread nD τ).loc cc0_scratch3)) rfl (owedAfter 19 c) _ (K (dcell c p2rS2))) $$ [h61 h19 Hmw h60]
  · isplitr; · iexact Hc2
    isplitl [h61]; · iexact h61
    isplitl [h19]; · iexact h19
    isplitl [Hmw]; · iexact Hmw
    iexact h60
  iintro ⟨h19, sv2, g2⟩
  iapply (le_wp_ret _ _ _ PUnit.unit _)
  isplitl [h19]
  · iexists _; iexact h19
  isplitl [sv0]
  · iexact sv0
  isplitl [sv1]
  · iexact sv1
  isplitl [sv2]
  · iexact sv2
  isplitl [Hf1]
  · iexists X1; isplitr
    · ipureintro; exact hX1
    iexact Hf1
  isplitl [g0]
  · iexact g0
  isplitl [g1]
  · iexact g1
  iexact g2

-- The other three arrive; the rows from the neighbour across the second axis start towards the result array.
theorem part21_spec (K : GSem nD τ sig → ℕ) (c : Dev nD) (v2 v5 v8 v19 v21 v22 : BitVec 32) :
    iprop(invs m K c
        ∗ levAts L lv
        ∗ (∃ W, owes (c : Thread nD τ) (owedAfter 19 c) W)
        ∗ atPos ER (dcell c p2rS3) 0 ∅ 0
        ∗ cred (tallyAt (dcell c p2rS3) () N40)
        ∗ atPos ER (dcell c p2rS4) 0 ∅ 0
        ∗ cred (tallyAt (dcell c p2rS4) () N16)
        ∗ atPos ER (dcell c p2rS5) 0 ∅ 0
        ∗ cred (tallyAt (dcell c p2rS5) () N16)
        ∗ semVal (dcell c outS2) 0
        ∗ heldAny (F := F) (outO3 c).view c fullShare
        ∗ (∃ X1, ⌜O1Rows c X1 (val0 m c) (val2 m c) (val4 m c) (val6 m c) (val1 m c) (val3 m c) (val5 m c) (val7 m c)⌝ ∗ Transfers.Flight countersEmb (c : Thread nD τ) (.dma outS0) () ((outO1 c).view.amount (.dma outS0)) iprop(held (outO1 c).view c fullShare X1 ∗ held (ovO1 c).view c fullShare.right X1))
        ∗ held (ovSl0 (yp c)).view c fullShare (val0 m (yp c))
        ∗ held (ovSl2 (yp c)).view c fullShare (val2 m (yp c))) ⊢ wp frame (wpE (defs₀ (F := F)) 𝒱₀ (c : Thread nD τ) none) Set.univ (atBufs k0_part21 c v2 v5 v8 v19 v21 v22) (fun _ => iprop((∃ W, owes (c : Thread nD τ) (owedAfter 19 c) W)
            ∗ semVal (dcell c p2rS3) 0
            ∗ semVal (dcell c p2rS4) 0
            ∗ semVal (dcell c p2rS5) 0
            ∗ (∃ X1, ⌜O1Rows c X1 (val0 m c) (val2 m c) (val4 m c) (val6 m c) (val1 m c) (val3 m c) (val5 m c) (val7 m c)⌝ ∗ Transfers.Flight countersEmb (c : Thread nD τ) (.dma outS0) () ((outO1 c).view.amount (.dma outS0)) iprop(held (outO1 c).view c fullShare X1 ∗ held (ovO1 c).view c fullShare.right X1))
            ∗ held (ovSl3 (zp c)).view c fullShare (val3 m (zp c))
            ∗ (∃ X3, ⌜O3Rows c X3 (val0 m (yp c)) (val2 m (yp c)) (val4 m (yp c))⌝ ∗ Transfers.Flight countersEmb (c : Thread nD τ) (.dma outS2) () ((outO3 c).view.amount (.dma outS2)) iprop(held (outO3 c).view c fullShare X3 ∗ held (ovO3 c).view c fullShare X3))
            ∗ held (ovSl5 (zp c)).view c fullShare (val5 m (zp c)))) := by
  simp only [atBufs, k0_part21_eq_skeleton]; unfold k0_part21_skel
  simp only [Prog.lift, Prog.bind_op, Prog.bind_ret, Prog.pure_eq_ret]
  iintro ⟨#h0, #h2, ⟨%W, h19⟩, h64, h65, h68, h69, h72, h73, h81, o3A, ⟨%X1, %hX1, Hf1⟩, g0, g2⟩
  ihave #Hc3 := (invs_get m K c (dcell c p2rS3) (by simp [ownCells, paidCells])) $$ h0
  ihave Hmw := (mayWait_nil (F := F) c (.dma p2rS3)) $$ h2
  iapply (kit_wait_dma m (ovSl3 (zp c)).view c p2rS3 (by decide) N40 rfl (show (ovSl3 c).view.dmaCredit = N40 from rfl) fullShare (val3 m (zp c)) (m ((c : Thread nD τ).loc cc0_scratch3)) rfl (owedAfter 19 c) _ (K (dcell c p2rS3))) $$ [h65 h19 Hmw h64]
  · isplitr; · iexact Hc3
    isplitl [h65]; · iexact h65
    isplitl [h19]; · iexact h19
    isplitl [Hmw]; · iexact Hmw
    iexact h64
  iintro ⟨h19, sv3, g3⟩
  ihave #Hc4 := (invs_get m K c (dcell c p2rS4) (by simp [ownCells, paidCells])) $$ h0
  ihave Hmw := (mayWait_nil (F := F) c (.dma p2rS4)) $$ h2
  iapply (kit_wait_dma m (ovSl4 (yp c)).view c p2rS4 (by decide) N16 rfl (show (ovSl4 c).view.dmaCredit = N16 from rfl) fullShare (val4 m (yp c)) (m ((c : Thread nD τ).loc cc0_scratch3)) rfl (owedAfter 19 c) _ (K (dcell c p2rS4))) $$ [h69 h19 Hmw h68]
  · isplitr; · iexact Hc4
    isplitl [h69]; · iexact h69
    isplitl [h19]; · iexact h19
    isplitl [Hmw]; · iexact Hmw
    iexact h68
  iintro ⟨h19, sv4, g4⟩
  ihave ⟨%X3, %hX3, HO3⟩ := (ovO3_join c fullShare (val0 m (yp c)) (val2 m (yp c)) (val4 m (yp c))) $$ [g0 g2 g4]
  · isplitl [g0]; · iexact g0
    isplitl [g2]; · iexact g2
    iexact g4
  iapply (kit_dma_issue (ovO3 c) (outO3 c) outS2 c fullShare X3 _ rfl (View.dmaCredit_pos _ (by decide))) $$ [HO3 o3A h81]
  · isplitl [HO3]; · iexact HO3
    isplitl [o3A]; · iexact o3A
    iexact h81
  iintro Hf4
  ihave #Hc5 := (invs_get m K c (dcell c p2rS5) (by simp [ownCells, paidCells])) $$ h0
  ihave Hmw := (mayWait_nil (F := F) c (.dma p2rS5)) $$ h2
  iapply (kit_wait_dma m (ovSl5 (zp c)).view c p2rS5 (by decide) N16 rfl (show (ovSl5 c).view.dmaCredit = N16 from rfl) fullShare (val5 m (zp c)) (m ((c : Thread nD τ).loc cc0_scratch3)) rfl (owedAfter 19 c) _ (K (dcell c p2rS5))) $$ [h73 h19 Hmw h72]
  · isplitr; · iexact Hc5
    isplitl [h73]; · iexact h73
    isplitl [h19]; · iexact h19
    isplitl [Hmw]; · iexact Hmw
    iexact h72
  iintro ⟨h19, sv5, g5⟩
  iapply (le_wp_ret _ _ _ _ _)
  isplitl [h19]
  · iexists _; iexact h19
  isplitl [sv3]
  · iexact sv3
  isplitl [sv4]
  · iexact sv4
  isplitl [sv5]
  · iexact sv5
  isplitl [Hf1]
  · iexists X1; isplitr
    · ipureintro; exact hX1
    iexact Hf1
  isplitl [g3]
  · iexact g3
  isplitl [Hf4]
  · iexists X3; isplitr
    · ipureintro; exact hX3
    iexact Hf4
  iexact g5

-- The rows from the neighbour across the third axis follow; once the five write-backs have ended the result array holds every row of the specification.
theorem part22_spec (K : GSem nD τ sig → ℕ) (c : Dev nD) (v19 v717 : BitVec 32) :
    iprop(levAts L lv
        ∗ (∃ W, owes (c : Thread nD τ) (owedAfter 19 c) W)
        ∗ semVal (dcell c inS0) 0
        ∗ semVal (dcell c inS1) 0
        ∗ semVal (dcell c inS2) 0
        ∗ semVal (dcell c outS3) 0
        ∗ held cmSl0.view c fullShare (rcv0 m c)
        ∗ held cmSl1.view c fullShare (rcv1 m c)
        ∗ held cmSl2.view c fullShare (rcv2 m c)
        ∗ held cmSl3.view c fullShare (rcv3 m c)
        ∗ held cmSl4.view c fullShare (rcv4 m c)
        ∗ held cmSl5.view c fullShare (rcv5 m c)
        ∗ held cmSl6.view c fullShare (rcv6 m c)
        ∗ held cmSl7.view c fullShare (rcv7 m c)
        ∗ held cmSl8.view c fullShare (rcv8 m c)
        ∗ held cmSl9.view c fullShare (rcv9 m c)
        ∗ heldAny (F := F) (outO4 c).view c fullShare
        ∗ held (ovSl6 c).view c fullShare.left (val6 m c)
        ∗ held (ovSl7 c).view c fullShare.left (val7 m c)
        ∗ (∃ X1, ⌜O1Rows c X1 (val0 m c) (val2 m c) (val4 m c) (val6 m c) (val1 m c) (val3 m c) (val5 m c) (val7 m c)⌝ ∗ Transfers.Flight countersEmb (c : Thread nD τ) (.dma outS0) () ((outO1 c).view.amount (.dma outS0)) iprop(held (outO1 c).view c fullShare X1 ∗ held (ovO1 c).view c fullShare.right X1))
        ∗ Transfers.Flight countersEmb (c : Thread nD τ) (.dma outS1) () ((outO2a c).view.amount (.dma outS1)) iprop(held (outO2a c).view c fullShare (val8 m c) ∗ held (ovO2a c).view c fullShare (val8 m c))
        ∗ Transfers.Flight countersEmb (c : Thread nD τ) (.dma outS4) () ((outO2b c).view.amount (.dma outS4)) iprop(held (outO2b c).view c fullShare (val9 m c) ∗ held (ovO2b c).view c fullShare (val9 m c))
        ∗ held (ovSl1 (zp c)).view c fullShare (val1 m (zp c))
        ∗ held (ovSl3 (zp c)).view c fullShare (val3 m (zp c))
        ∗ (∃ X3, ⌜O3Rows c X3 (val0 m (yp c)) (val2 m (yp c)) (val4 m (yp c))⌝ ∗ Transfers.Flight countersEmb (c : Thread nD τ) (.dma outS2) () ((outO3 c).view.amount (.dma outS2)) iprop(held (outO3 c).view c fullShare X3 ∗ held (ovO3 c).view c fullShare X3))
        ∗ held (ovSl5 (zp c)).view c fullShare (val5 m (zp c))) ⊢ wp frame (wpE (defs₀ (F := F)) 𝒱₀ (c : Thread nD τ) none) Set.univ (atBufs k0_part22 c v19 v717) (fun _ => iprop((∃ W, owes (c : Thread nD τ) (owedAfter 19 c) W)
            ∗ localSems0 c
            ∗ (∃ OUT, ⌜OutSpec m c OUT⌝ ∗ (outM.view.loc (c : Thread nD τ) ↦[outM.view.set]{fullShare} OUT))
            ∗ heldAny cmSl0.view c fullShare
            ∗ heldAny (ovSl0 c).view c fullShare.right
            ∗ heldAny cmSl1.view c fullShare
            ∗ heldAny (ovSl1 c).view c fullShare.right
            ∗ heldAny cmSl2.view c fullShare
            ∗ heldAny (ovSl2 c).view c fullShare.right
            ∗ heldAny cmSl3.view c fullShare
            ∗ heldAny (ovSl3 c).view c fullShare.right
            ∗ heldAny cmSl4.view c fullShare
            ∗ heldAny (ovSl4 c).view c fullShare.right
            ∗ heldAny cmSl5.view c fullShare
            ∗ heldAny (ovSl5 c).view c fullShare.right
            ∗ heldAny cmSl6.view c fullShare
            ∗ heldAny (ovSl6 c).view c fullShare
            ∗ heldAny cmSl7.view c fullShare
            ∗ heldAny (ovSl7 c).view c fullShare
            ∗ heldAny cmSl8.view c fullShare
            ∗ heldAny (ovSl8 c).view c fullShare
            ∗ heldAny cmSl9.view c fullShare
            ∗ heldAny (ovSl9 c).view c fullShare
            ∗ heldAny (ovSl0 (yp c)).view c fullShare
            ∗ heldAny (ovSl1 (zp c)).view c fullShare
            ∗ heldAny (ovSl2 (yp c)).view c fullShare
            ∗ heldAny (ovSl3 (zp c)).view c fullShare
            ∗ heldAny (ovSl4 (yp c)).view c fullShare
            ∗ heldAny (ovSl5 (zp c)).view c fullShare)) := by
  simp only [atBufs, k0_part22_eq_skeleton]; unfold k0_part22_skel
  simp only [Prog.lift, Prog.bind_op, Prog.bind_ret, Prog.pure_eq_ret]
  iintro ⟨#h2, ⟨%W, h19⟩, h76, h77, h78, h82, h91, h93, h95, h97, h99, h101, h103, h105, h107, h109, o4A, l6, l7, ⟨%X1, %hX1, Hf1⟩, Hf2, Hf3, g1, g3, ⟨%X3, %hX3, Hf4⟩, g5⟩
  ihave ⟨%X4, %hX4, HO4⟩ := (ovO4_join c fullShare (val1 m (zp c)) (val3 m (zp c)) (val5 m (zp c))) $$ [g1 g3 g5]
  · isplitl [g1]; · iexact g1
    isplitl [g3]; · iexact g3
    iexact g5
  iapply (kit_dma_issue (ovO4 c) (outO4 c) outS3 c fullShare X4 _ rfl (View.dmaCredit_pos _ (by decide))) $$ [HO4 o4A h82]
  · isplitl [HO4]; · iexact HO4
    isplitl [o4A]; · iexact o4A
    iexact h82
  iintro Hf5
  ihave Hmw := (mayWait_nil (F := F) c (.dma outS0)) $$ h2
  iapply (kit_dma_wait outS0 c ((outO1 c).view.amount (.dma outS0)) _ (owedAfter 19 c) _ (show (outO1 c).view.dmaCredit = _ from rfl)) $$ [Hf1 h19 Hmw]
  · isplitl [Hf1]; · iexact Hf1
    isplitl [h19]; · iexact h19
    iexact Hmw
  iintro ⟨⟨d1, s1⟩, sv_outS0, h19⟩
  ihave Hmw := (mayWait_nil (F := F) c (.dma outS1)) $$ h2
  iapply (kit_dma_wait outS1 c ((outO2a c).view.amount (.dma outS1)) _ (owedAfter 19 c) _ (show (outO2a c).view.dmaCredit = _ from rfl)) $$ [Hf2 h19 Hmw]
  · isplitl [Hf2]; · iexact Hf2
    isplitl [h19]; · iexact h19
    iexact Hmw
  iintro ⟨⟨d2a, s2a⟩, sv_outS1, h19⟩
  ihave Hmw := (mayWait_nil (F := F) c (.dma outS4)) $$ h2
  iapply (kit_dma_wait outS4 c ((outO2b c).view.amount (.dma outS4)) _ (owedAfter 19 c) _ (show (outO2b c).view.dmaCredit = _ from rfl)) $$ [Hf3 h19 Hmw]
  · isplitl [Hf3]; · iexact Hf3
    isplitl [h19]; · iexact h19
    iexact Hmw
  iintro ⟨⟨d2b, s2b⟩, sv_outS4, h19⟩
  ihave Hmw := (mayWait_nil (F := F) c (.dma outS2)) $$ h2
  iapply (kit_dma_wait outS2 c ((outO3 c).view.amount (.dma outS2)) _ (owedAfter 19 c) _ (show (outO3 c).view.dmaCredit = _ from rfl)) $$ [Hf4 h19 Hmw]
  · isplitl [Hf4]; · iexact Hf4
    isplitl [h19]; · iexact h19
    iexact Hmw
  iintro ⟨⟨d3, s3⟩, sv_outS2, h19⟩
  ihave Hmw := (mayWait_nil (F := F) c (.dma outS3)) $$ h2
  iapply (kit_dma_wait outS3 c ((outO4 c).view.amount (.dma outS3)) _ (owedAfter 19 c) _ (show (outO4 c).view.dmaCredit = _ from rfl)) $$ [Hf5 h19 Hmw]
  · isplitl [Hf5]; · iexact Hf5
    isplitl [h19]; · iexact h19
    iexact Hmw
  iintro ⟨⟨d4, s4⟩, sv_outS3, h19⟩
  ihave HOUT := (out_join_spec m c X1 X3 X4 hX1 hX3 hX4) $$ [d1 d2a d2b d3 d4]
  · isplitl [d1]; · iexact d1
    isplitl [d2a]; · iexact d2a
    isplitl [d2b]; · iexact d2b
    isplitl [d3]; · iexact d3
    iexact d4
  ihave ⟨r0, r2, r4, r6, r1, r3, r5, r7⟩ := (ovO1_unjoin c fullShare.right X1 (val0 m c) (val2 m c) (val4 m c) (val6 m c) (val1 m c) (val3 m c) (val5 m c) (val7 m c) hX1) $$ s1
  ihave f6 := (held_full_join (ovSl6 c).view c (val6 m c)) $$ [l6 r6]
  · isplitl [l6]; · iexact l6
    iexact r6
  ihave f7 := (held_full_join (ovSl7 c).view c (val7 m c)) $$ [l7 r7]
  · isplitl [l7]; · iexact l7
    iexact r7
  ihave ⟨g0, g2, g4⟩ := (ovO3_unjoin c fullShare X3 (val0 m (yp c)) (val2 m (yp c)) (val4 m (yp c)) hX3) $$ s3
  ihave ⟨g1, g3, g5⟩ := (ovO4_unjoin c fullShare X4 (val1 m (zp c)) (val3 m (zp c)) (val5 m (zp c)) hX4) $$ s4
  ihave s2b' := (show held (ovO2b c).view c fullShare (val9 m c) ⊢ held (ovSl9 c).view c fullShare (val9 m c) from by rw [ovO2b_view_eq]) $$ s2b
  iapply (le_wp_ret _ _ _ PUnit.unit _)
  isplitl [h19]
  · iexists _; iexact h19
  isplitl [h76 h77 h78 sv_outS0 sv_outS1 sv_outS2 sv_outS3 sv_outS4]
  · unfold localSems0
    isplitl [h76]; · iexact h76
    isplitl [h77]; · iexact h77
    isplitl [h78]; · iexact h78
    isplitl [sv_outS0]; · iexact sv_outS0
    isplitl [sv_outS1]; · iexact sv_outS1
    isplitl [sv_outS2]; · iexact sv_outS2
    isplitl [sv_outS3]; · iexact sv_outS3
    iexact sv_outS4
  isplitl [HOUT]
  · iexact HOUT
  isplitl [h91]
  · iapply (held_any cmSl0.view c fullShare (rcv0 m c)); iexact h91
  isplitl [r0]
  · iapply (held_any (ovSl0 c).view c fullShare.right (val0 m c)); iexact r0
  isplitl [h93]
  · iapply (held_any cmSl1.view c fullShare (rcv1 m c)); iexact h93
  isplitl [r1]
  · iapply (held_any (ovSl1 c).view c fullShare.right (val1 m c)); iexact r1
  isplitl [h95]
  · iapply (held_any cmSl2.view c fullShare (rcv2 m c)); iexact h95
  isplitl [r2]
  · iapply (held_any (ovSl2 c).view c fullShare.right (val2 m c)); iexact r2
  isplitl [h97]
  · iapply (held_any cmSl3.view c fullShare (rcv3 m c)); iexact h97
  isplitl [r3]
  · iapply (held_any (ovSl3 c).view c fullShare.right (val3 m c)); iexact r3
  isplitl [h99]
  · iapply (held_any cmSl4.view c fullShare (rcv4 m c)); iexact h99
  isplitl [r4]
  · iapply (held_any (ovSl4 c).view c fullShare.right (val4 m c)); iexact r4
  isplitl [h101]
  · iapply (held_any cmSl5.view c fullShare (rcv5 m c)); iexact h101
  isplitl [r5]
  · iapply (held_any (ovSl5 c).view c fullShare.right (val5 m c)); iexact r5
  isplitl [h103]
  · iapply (held_any cmSl6.view c fullShare (rcv6 m c)); iexact h103
  isplitl [f6]
  · iapply (held_any (ovSl6 c).view c fullShare (val6 m c)); iexact f6
  isplitl [h105]
  · iapply (held_any cmSl7.view c fullShare (rcv7 m c)); iexact h105
  isplitl [f7]
  · iapply (held_any (ovSl7 c).view c fullShare (val7 m c)); iexact f7
  isplitl [h107]
  · iapply (held_any cmSl8.view c fullShare (rcv8 m c)); iexact h107
  isplitl [s2a]
  · iapply (held_any (ovSl8 c).view c fullShare (val8 m c)); iexact s2a
  isplitl [h109]
  · iapply (held_any cmSl9.view c fullShare (rcv9 m c)); iexact h109
  isplitl [s2b']
  · iapply (held_any (ovSl9 c).view c fullShare (val9 m c)); iexact s2b'
  isplitl [g0]
  · iapply (held_any (ovSl0 (yp c)).view c fullShare (val0 m (yp c))); iexact g0
  isplitl [g1]
  · iapply (held_any (ovSl1 (zp c)).view c fullShare (val1 m (zp c))); iexact g1
  isplitl [g2]
  · iapply (held_any (ovSl2 (yp c)).view c fullShare (val2 m (yp c))); iexact g2
  isplitl [g3]
  · iapply (held_any (ovSl3 (zp c)).view c fullShare (val3 m (zp c))); iexact g3
  isplitl [g4]
  · iapply (held_any (ovSl4 (yp c)).view c fullShare (val4 m (yp c))); iexact g4
  iapply (held_any (ovSl5 (zp c)).view c fullShare (val5 m (zp c))); iexact g5

end Cert.Kernel.Proto

end
-- ==== Proof.Bits.Body5b.lean ====
import proofs.«900598_g7700000000000599_dist_rsrms_v7x_xyz2x2x2_x_m512_d512_f32_1_alg».proof.Proof.Bits.States
import proofs.«900598_g7700000000000599_dist_rsrms_v7x_xyz2x2x2_x_m512_d512_f32_1_alg».proof.Proof.Bits.KitRounds
import proofs.«900598_g7700000000000599_dist_rsrms_v7x_xyz2x2x2_x_m512_d512_f32_1_alg».proof.Proof.Bits.KitLocal
import proofs.«900598_g7700000000000599_dist_rsrms_v7x_xyz2x2x2_x_m512_d512_f32_1_alg».proof.Proof.Bits.Levels
import proofs.«900598_g7700000000000599_dist_rsrms_v7x_xyz2x2x2_x_m512_d512_f32_1_alg».proof.Proof.Bits.Ctx
import proofs.«900598_g7700000000000599_dist_rsrms_v7x_xyz2x2x2_x_m512_d512_f32_1_alg».proof.Proof.Bits.Regions

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Tools
variable {sp : Space} {s : Shape} {e : EltTy}

omit [FloatOps F] in

theorem pts_halves {ℓ : Loc nD τ sig} {S : Finset (Idx ℓ)} (q : PosShare TreeShare) (f g : Buf (Elt F) ℓ) :
    iprop((ℓ ↦[S]{q.left} f) ∗ ℓ ↦[S]{q.right} g) ⊢ (ℓ ↦[S]{q} f : sProp 𝕄) := by
  refine pure_elim _ pointsTo_agree fun h => ?_
  rw [pointsTo_congr (f := g) (g := f) (q := q.right) fun i hi => ((h i (Finset.mem_inter.mpr ⟨hi, hi⟩)).1).symm]
  exact (pointsTo_share (PosShare.mem_left_op_right q)).2

theorem heldAny_halves (v : View sig .tc sp s e) (c : Dev nD) (q : PosShare TreeShare) (x : s.Idx → Elt F e) :
    iprop(held v c q.left x ∗ heldAny (F := F) v c q.right) ⊢ heldAny (F := F) v c q := by
  unfold held heldAny
  iintro ⟨⟨%f, Hl, -⟩, ⟨%g, Hr⟩⟩
  iexists f
  iapply (pts_halves q f g)
  isplitl [Hl]; · iexact Hl
  iexact Hr

omit [FloatOps F] in

theorem pts_whole_eq (v : View sig .tc sp s e) (hv : v.set = Finset.univ) (c : Dev nD) (q : PosShare TreeShare)
    (f : Buf (Elt F) (v.loc (c : Thread nD τ))) :
    (v.loc (c : Thread nD τ) ↦[v.set]{q} f : sProp 𝕄) = (v.loc (c : Thread nD τ) ↦{q} f) := by rw [hv]

end Tools

def St25 (K : GSem nD τ sig → ℕ) (c : Dev nD) : sProp 𝕄 :=
  iprop(invs m K c
    ∗ known c
    ∗ levAts L lv
    ∗ (∃ W, owes (c : Thread nD τ) 0 W)
    ∗ atPos ER (barCell c) (0 + 1) ∅ 0
    ∗ semVal (yzCell c) 0
    ∗ semVal (dcell c p1rS0) 0
    ∗ semVal (dcell c p1sS0) 0
    ∗ held (sndSl0 c).view c fullShare (sndv0 m c)
    ∗ semVal (dcell c p1rS1) 0
    ∗ semVal (dcell c p1sS1) 0
    ∗ held (sndSl1 c).view c fullShare (sndv1 m c)
    ∗ semVal (dcell c p1rS2) 0
    ∗ semVal (dcell c p1sS2) 0
    ∗ held (sndSl2 c).view c fullShare (sndv2 m c)
    ∗ semVal (dcell c p1rS3) 0
    ∗ semVal (dcell c p1sS3) 0
    ∗ held (sndSl3 c).view c fullShare (sndv3 m c)
    ∗ semVal (dcell c p1rS4) 0
    ∗ semVal (dcell c p1sS4) 0
    ∗ held (sndSl4 c).view c fullShare (sndv4 m c)
    ∗ semVal (dcell c p1rS5) 0
    ∗ semVal (dcell c p1sS5) 0
    ∗ held (sndSl5 c).view c fullShare (sndv5 m c)
    ∗ semVal (dcell c p1rS6) 0
    ∗ semVal (dcell c p1sS6) 0
    ∗ held (sndSl6 c).view c fullShare (sndv6 m c)
    ∗ semVal (dcell c p1rS7) 0
    ∗ semVal (dcell c p1sS7) 0
    ∗ held (sndSl7 c).view c fullShare (sndv7 m c)
    ∗ semVal (dcell c p1rS8) 0
    ∗ semVal (dcell c p1sS8) 0
    ∗ held (sndSl8 c).view c fullShare (sndv8 m c)
    ∗ semVal (dcell c p1rS9) 0
    ∗ semVal (dcell c p1sS9) 0
    ∗ held (sndSl9 c).view c fullShare (sndv9 m c)
    ∗ semVal (dcell c p2rS0) 0
    ∗ semVal (dcell c p2sS0) 0
    ∗ held (ovSl0 c).view c fullShare.left (val0 m c)
    ∗ semVal (dcell c p2rS1) 0
    ∗ semVal (dcell c p2sS1) 0
    ∗ held (ovSl1 c).view c fullShare.left (val1 m c)
    ∗ semVal (dcell c p2rS2) 0
    ∗ semVal (dcell c p2sS2) 0
    ∗ held (ovSl2 c).view c fullShare.left (val2 m c)
    ∗ semVal (dcell c p2rS3) 0
    ∗ semVal (dcell c p2sS3) 0
    ∗ held (ovSl3 c).view c fullShare.left (val3 m c)
    ∗ semVal (dcell c p2rS4) 0
    ∗ atPos ER (dcell c p2sS4) 0 ∅ 0
    ∗ cred (tallyAt (dcell c p2sS4) () N16)
    ∗ semVal (dcell c p2rS5) 0
    ∗ atPos ER (dcell c p2sS5) 0 ∅ 0
    ∗ cred (tallyAt (dcell c p2sS5) () N16)
    ∗ localSems0 c
    ∗ ((srcSend c).view.loc (c : Thread nD τ) ↦[(srcSend c).view.set]{fullShare} m ((c : Thread nD τ).loc main_arg0))
    ∗ ((srcLoc c).view.loc (c : Thread nD τ) ↦[(srcLoc c).view.set]{fullShare} m ((c : Thread nD τ).loc main_arg0))
    ∗ (a1M.view.loc (c : Thread nD τ) ↦[a1M.view.set]{fullShare} m ((c : Thread nD τ).loc main_arg1))
    ∗ (∃ OUT, ⌜OutSpec m c OUT⌝ ∗ (outM.view.loc (c : Thread nD τ) ↦[outM.view.set]{fullShare} OUT))
    ∗ sndRest c
    ∗ (locM.view.loc (c : Thread nD τ) ↦[locM.view.set]{fullShare} (LOC m c))
    ∗ (gvM.view.loc (c : Thread nD τ) ↦[gvM.view.set]{fullShare} (GV m c))
    ∗ heldAny cmSl0.view c fullShare
    ∗ heldAny (ovSl0 c).view c fullShare.right
    ∗ heldAny cmSl1.view c fullShare
    ∗ heldAny (ovSl1 c).view c fullShare.right
    ∗ heldAny cmSl2.view c fullShare
    ∗ heldAny (ovSl2 c).view c fullShare.right
    ∗ heldAny cmSl3.view c fullShare
    ∗ heldAny (ovSl3 c).view c fullShare.right
    ∗ heldAny cmSl4.view c fullShare
    ∗ heldAny (ovSl4 c).view c fullShare.right
    ∗ heldAny cmSl5.view c fullShare
    ∗ heldAny (ovSl5 c).view c fullShare.right
    ∗ heldAny cmSl6.view c fullShare
    ∗ heldAny (ovSl6 c).view c fullShare
    ∗ heldAny cmSl7.view c fullShare
    ∗ heldAny (ovSl7 c).view c fullShare
    ∗ heldAny cmSl8.view c fullShare
    ∗ heldAny (ovSl8 c).view c fullShare
    ∗ heldAny cmSl9.view c fullShare
    ∗ heldAny (ovSl9 c).view c fullShare
    ∗ heldAny (ovSl0 (yp c)).view c fullShare
    ∗ heldAny (ovSl1 (zp c)).view c fullShare
    ∗ heldAny (ovSl2 (yp c)).view c fullShare
    ∗ heldAny (ovSl3 (zp c)).view c fullShare
    ∗ heldAny (ovSl4 (yp c)).view c fullShare
    ∗ heldAny (ovSl5 (zp c)).view c fullShare)

-- The first five copies across the first axis have been read out in full.
theorem part23_spec (K : GSem nD τ sig → ℕ) (c : Dev nD) :
    iprop(invs m K c
        ∗ levAts L lv
        ∗ (∃ W, owes (c : Thread nD τ) (owedAfter 19 c) W)
        ∗ atPos ER (dcell c p1sS0) 0 ∅ 0
        ∗ cred (tallyAt (dcell c p1sS0) () N48)
        ∗ atPos ER (dcell c p1sS1) 0 ∅ 0
        ∗ cred (tallyAt (dcell c p1sS1) () N48)
        ∗ atPos ER (dcell c p1sS2) 0 ∅ 0
        ∗ cred (tallyAt (dcell c p1sS2) () N40)
        ∗ atPos ER (dcell c p1sS3) 0 ∅ 0
        ∗ cred (tallyAt (dcell c p1sS3) () N40)
        ∗ atPos ER (dcell c p1sS4) 0 ∅ 0
        ∗ cred (tallyAt (dcell c p1sS4) () N16)) ⊢ wp frame (wpE (defs₀ (F := F)) 𝒱₀ (c : Thread nD τ) none) Set.univ (atBufs k0_part23 c) (fun _ => iprop((∃ W, owes (c : Thread nD τ) 0 W)
            ∗ semVal (dcell c p1sS0) 0
            ∗ held (sndSl0 c).view c fullShare (sndv0 m c)
            ∗ semVal (dcell c p1sS1) 0
            ∗ held (sndSl1 c).view c fullShare (sndv1 m c)
            ∗ semVal (dcell c p1sS2) 0
            ∗ held (sndSl2 c).view c fullShare (sndv2 m c)
            ∗ semVal (dcell c p1sS3) 0
            ∗ held (sndSl3 c).view c fullShare (sndv3 m c)
            ∗ semVal (dcell c p1sS4) 0
            ∗ held (sndSl4 c).view c fullShare (sndv4 m c))) := by
  simp only [atBufs, k0_part23_eq_skeleton]; unfold k0_part23_skel
  simp only [Prog.lift, Prog.bind_op, Prog.bind_ret, Prog.pure_eq_ret]
  iintro ⟨#H0, #H2, ⟨%W, H3⟩, H7, H8, H10, H11, H13, H14, H16, H17, H19, H20⟩
  rw [show owedAfter 19 c = (0 : CellTallies nD τ sig Unit) from rfl]

  iapply (kit_wait_dma m (sndSl0 c).view c p1sS0 (by decide) N48 rfl (show (sndSl0 c).view.dmaCredit = N48 from rfl) fullShare (sndv0 m c) (m ((c : Thread nD τ).loc cc0_scratch0)) rfl 0 (W) (K (dcell c p1sS0))) $$ [H8 H3 H7]
  · isplitr; · iapply (invs_get m K c (dcell c p1sS0) (List.mem_of_getElem? (show (ownCells c ++ paidCells c)[2]? = some (dcell c p1sS0) from rfl))); iexact H0
    isplitl [H8]; · iexact H8
    isplitl [H3]; · iexact H3
    isplitr; · iapply (mayWait_nil (F := F) c (.dma p1sS0)); iexact H2
    iexact H7
  iintro ⟨H3, H7, H8⟩

  iapply (kit_wait_dma m (sndSl1 c).view c p1sS1 (by decide) N48 rfl (show (sndSl1 c).view.dmaCredit = N48 from rfl) fullShare (sndv1 m c) (m ((c : Thread nD τ).loc cc0_scratch0)) rfl 0 (insert (SemLoc.dma p1sS0, ()) (W)) (K (dcell c p1sS1))) $$ [H11 H3 H10]
  · isplitr; · iapply (invs_get m K c (dcell c p1sS1) (List.mem_of_getElem? (show (ownCells c ++ paidCells c)[3]? = some (dcell c p1sS1) from rfl))); iexact H0
    isplitl [H11]; · iexact H11
    isplitl [H3]; · iexact H3
    isplitr; · iapply (mayWait_nil (F := F) c (.dma p1sS1)); iexact H2
    iexact H10
  iintro ⟨H3, H10, H11⟩

  iapply (kit_wait_dma m (sndSl2 c).view c p1sS2 (by decide) N40 rfl (show (sndSl2 c).view.dmaCredit = N40 from rfl) fullShare (sndv2 m c) (m ((c : Thread nD τ).loc cc0_scratch0)) rfl 0 (insert (SemLoc.dma p1sS1, ()) (insert (SemLoc.dma p1sS0, ()) (W))) (K (dcell c p1sS2))) $$ [H14 H3 H13]
  · isplitr; · iapply (invs_get m K c (dcell c p1sS2) (List.mem_of_getElem? (show (ownCells c ++ paidCells c)[4]? = some (dcell c p1sS2) from rfl))); iexact H0
    isplitl [H14]; · iexact H14
    isplitl [H3]; · iexact H3
    isplitr; · iapply (mayWait_nil (F := F) c (.dma p1sS2)); iexact H2
    iexact H13
  iintro ⟨H3, H13, H14⟩

  iapply (kit_wait_dma m (sndSl3 c).view c p1sS3 (by decide) N40 rfl (show (sndSl3 c).view.dmaCredit = N40 from rfl) fullShare (sndv3 m c) (m ((c : Thread nD τ).loc cc0_scratch0)) rfl 0 (insert (SemLoc.dma p1sS2, ()) (insert (SemLoc.dma p1sS1, ()) (insert (SemLoc.dma p1sS0, ()) (W)))) (K (dcell c p1sS3))) $$ [H17 H3 H16]
  · isplitr; · iapply (invs_get m K c (dcell c p1sS3) (List.mem_of_getElem? (show (ownCells c ++ paidCells c)[5]? = some (dcell c p1sS3) from rfl))); iexact H0
    isplitl [H17]; · iexact H17
    isplitl [H3]; · iexact H3
    isplitr; · iapply (mayWait_nil (F := F) c (.dma p1sS3)); iexact H2
    iexact H16
  iintro ⟨H3, H16, H17⟩

  iapply (kit_wait_dma m (sndSl4 c).view c p1sS4 (by decide) N16 rfl (show (sndSl4 c).view.dmaCredit = N16 from rfl) fullShare (sndv4 m c) (m ((c : Thread nD τ).loc cc0_scratch0)) rfl 0 (insert (SemLoc.dma p1sS3, ()) (insert (SemLoc.dma p1sS2, ()) (insert (SemLoc.dma p1sS1, ()) (insert (SemLoc.dma p1sS0, ()) (W))))) (K (dcell c p1sS4))) $$ [H20 H3 H19]
  · isplitr; · iapply (invs_get m K c (dcell c p1sS4) (List.mem_of_getElem? (show (ownCells c ++ paidCells c)[6]? = some (dcell c p1sS4) from rfl))); iexact H0
    isplitl [H20]; · iexact H20
    isplitl [H3]; · iexact H3
    isplitr; · iapply (mayWait_nil (F := F) c (.dma p1sS4)); iexact H2
    iexact H19
  iintro ⟨H3, H19, H20⟩
  rw [wp_ret]; imodintro
  isplitl [H3]; · iexists _; iexact H3
  isplitl [H7]; · iexact H7
  isplitl [H8]; · iexact H8
  isplitl [H10]; · iexact H10
  isplitl [H11]; · iexact H11
  isplitl [H13]; · iexact H13
  isplitl [H14]; · iexact H14
  isplitl [H16]; · iexact H16
  isplitl [H17]; · iexact H17
  isplitl [H19]; · iexact H19
  iexact H20

-- So have the other five, and the first chunk passed on.
theorem part24_spec (K : GSem nD τ sig → ℕ) (c : Dev nD) :
    iprop(invs m K c
        ∗ levAts L lv
        ∗ (∃ W, owes (c : Thread nD τ) 0 W)
        ∗ atPos ER (dcell c p1sS5) 0 ∅ 0
        ∗ cred (tallyAt (dcell c p1sS5) () N16)
        ∗ atPos ER (dcell c p1sS6) 0 ∅ 0
        ∗ cred (tallyAt (dcell c p1sS6) () N24)
        ∗ atPos ER (dcell c p1sS7) 0 ∅ 0
        ∗ cred (tallyAt (dcell c p1sS7) () N24)
        ∗ atPos ER (dcell c p1sS8) 0 ∅ 0
        ∗ cred (tallyAt (dcell c p1sS8) () N24)
        ∗ atPos ER (dcell c p1sS9) 0 ∅ 0
        ∗ cred (tallyAt (dcell c p1sS9) () N24)
        ∗ atPos ER (dcell c p2sS0) 0 ∅ 0
        ∗ cred (tallyAt (dcell c p2sS0) () N48)) ⊢ wp frame (wpE (defs₀ (F := F)) 𝒱₀ (c : Thread nD τ) none) Set.univ (atBufs k0_part24 c) (fun _ => iprop((∃ W, owes (c : Thread nD τ) 0 W)
            ∗ semVal (dcell c p1sS5) 0
            ∗ held (sndSl5 c).view c fullShare (sndv5 m c)
            ∗ semVal (dcell c p1sS6) 0
            ∗ held (sndSl6 c).view c fullShare (sndv6 m c)
            ∗ semVal (dcell c p1sS7) 0
            ∗ held (sndSl7 c).view c fullShare (sndv7 m c)
            ∗ semVal (dcell c p1sS8) 0
            ∗ held (sndSl8 c).view c fullShare (sndv8 m c)
            ∗ semVal (dcell c p1sS9) 0
            ∗ held (sndSl9 c).view c fullShare (sndv9 m c)
            ∗ semVal (dcell c p2sS0) 0
            ∗ held (ovSl0 c).view c fullShare.left (val0 m c))) := by
  simp only [atBufs, k0_part24_eq_skeleton]; unfold k0_part24_skel
  simp only [Prog.lift, Prog.bind_op, Prog.bind_ret, Prog.pure_eq_ret]
  iintro ⟨#H0, #H2, ⟨%W, H3⟩, H22, H23, H25, H26, H28, H29, H31, H32, H34, H35, H37, H38⟩

  iapply (kit_wait_dma m (sndSl5 c).view c p1sS5 (by decide) N16 rfl (show (sndSl5 c).view.dmaCredit = N16 from rfl) fullShare (sndv5 m c) (m ((c : Thread nD τ).loc cc0_scratch0)) rfl 0 (W) (K (dcell c p1sS5))) $$ [H23 H3 H22]
  · isplitr; · iapply (invs_get m K c (dcell c p1sS5) (List.mem_of_getElem? (show (ownCells c ++ paidCells c)[7]? = some (dcell c p1sS5) from rfl))); iexact H0
    isplitl [H23]; · iexact H23
    isplitl [H3]; · iexact H3
    isplitr; · iapply (mayWait_nil (F := F) c (.dma p1sS5)); iexact H2
    iexact H22
  iintro ⟨H3, H22, H23⟩

  iapply (kit_wait_dma m (sndSl6 c).view c p1sS6 (by decide) N24 rfl (show (sndSl6 c).view.dmaCredit = N24 from rfl) fullShare (sndv6 m c) (m ((c : Thread nD τ).loc cc0_scratch0)) rfl 0 (insert (SemLoc.dma p1sS5, ()) (W)) (K (dcell c p1sS6))) $$ [H26 H3 H25]
  · isplitr; · iapply (invs_get m K c (dcell c p1sS6) (List.mem_of_getElem? (show (ownCells c ++ paidCells c)[8]? = some (dcell c p1sS6) from rfl))); iexact H0
    isplitl [H26]; · iexact H26
    isplitl [H3]; · iexact H3
    isplitr; · iapply (mayWait_nil (F := F) c (.dma p1sS6)); iexact H2
    iexact H25
  iintro ⟨H3, H25, H26⟩

  iapply (kit_wait_dma m (sndSl7 c).view c p1sS7 (by decide) N24 rfl (show (sndSl7 c).view.dmaCredit = N24 from rfl) fullShare (sndv7 m c) (m ((c : Thread nD τ).loc cc0_scratch0)) rfl 0 (insert (SemLoc.dma p1sS6, ()) (insert (SemLoc.dma p1sS5, ()) (W))) (K (dcell c p1sS7))) $$ [H29 H3 H28]
  · isplitr; · iapply (invs_get m K c (dcell c p1sS7) (List.mem_of_getElem? (show (ownCells c ++ paidCells c)[9]? = some (dcell c p1sS7) from rfl))); iexact H0
    isplitl [H29]; · iexact H29
    isplitl [H3]; · iexact H3
    isplitr; · iapply (mayWait_nil (F := F) c (.dma p1sS7)); iexact H2
    iexact H28
  iintro ⟨H3, H28, H29⟩

  iapply (kit_wait_dma m (sndSl8 c).view c p1sS8 (by decide) N24 rfl (show (sndSl8 c).view.dmaCredit = N24 from rfl) fullShare (sndv8 m c) (m ((c : Thread nD τ).loc cc0_scratch0)) rfl 0 (insert (SemLoc.dma p1sS7, ()) (insert (SemLoc.dma p1sS6, ()) (insert (SemLoc.dma p1sS5, ()) (W)))) (K (dcell c p1sS8))) $$ [H32 H3 H31]
  · isplitr; · iapply (invs_get m K c (dcell c p1sS8) (List.mem_of_getElem? (show (ownCells c ++ paidCells c)[10]? = some (dcell c p1sS8) from rfl))); iexact H0
    isplitl [H32]; · iexact H32
    isplitl [H3]; · iexact H3
    isplitr; · iapply (mayWait_nil (F := F) c (.dma p1sS8)); iexact H2
    iexact H31
  iintro ⟨H3, H31, H32⟩

  iapply (kit_wait_dma m (sndSl9 c).view c p1sS9 (by decide) N24 rfl (show (sndSl9 c).view.dmaCredit = N24 from rfl) fullShare (sndv9 m c) (m ((c : Thread nD τ).loc cc0_scratch0)) rfl 0 (insert (SemLoc.dma p1sS8, ()) (insert (SemLoc.dma p1sS7, ()) (insert (SemLoc.dma p1sS6, ()) (insert (SemLoc.dma p1sS5, ()) (W))))) (K (dcell c p1sS9))) $$ [H35 H3 H34]
  · isplitr; · iapply (invs_get m K c (dcell c p1sS9) (List.mem_of_getElem? (show (ownCells c ++ paidCells c)[11]? = some (dcell c p1sS9) from rfl))); iexact H0
    isplitl [H35]; · iexact H35
    isplitl [H3]; · iexact H3
    isplitr; · iapply (mayWait_nil (F := F) c (.dma p1sS9)); iexact H2
    iexact H34
  iintro ⟨H3, H34, H35⟩

  iapply (kit_wait_dma m (ovSl0 c).view c p2sS0 (by decide) N48 rfl (show (ovSl0 c).view.dmaCredit = N48 from rfl) fullShare.left (val0 m c) (m ((c : Thread nD τ).loc cc0_scratch3)) rfl 0 (insert (SemLoc.dma p1sS9, ()) (insert (SemLoc.dma p1sS8, ()) (insert (SemLoc.dma p1sS7, ()) (insert (SemLoc.dma p1sS6, ()) (insert (SemLoc.dma p1sS5, ()) (W)))))) (K (dcell c p2sS0))) $$ [H38 H3 H37]
  · isplitr; · iapply (invs_get m K c (dcell c p2sS0) (List.mem_of_getElem? (show (ownCells c ++ paidCells c)[22]? = some (dcell c p2sS0) from rfl))); iexact H0
    isplitl [H38]; · iexact H38
    isplitl [H3]; · iexact H3
    isplitr; · iapply (mayWait_nil (F := F) c (.dma p2sS0)); iexact H2
    iexact H37
  iintro ⟨H3, H37, H38⟩
  rw [wp_ret]; imodintro
  isplitl [H3]; · iexists _; iexact H3
  isplitl [H22]; · iexact H22
  isplitl [H23]; · iexact H23
  isplitl [H25]; · iexact H25
  isplitl [H26]; · iexact H26
  isplitl [H28]; · iexact H28
  isplitl [H29]; · iexact H29
  isplitl [H31]; · iexact H31
  isplitl [H32]; · iexact H32
  isplitl [H34]; · iexact H34
  isplitl [H35]; · iexact H35
  isplitl [H37]; · iexact H37
  iexact H38

-- So have the next three chunks passed on.
theorem tail25_cps (K : GSem nD τ sig → ℕ) (c : Dev nD) {α : Type} {Q : α → sProp 𝕄} {k : PUnit → Prog (TpuEff nD τ sig (Elt F) Λ₀ .tc) α}
    {h0 h0' : (ovSl1 c).view.WordExact} {h1 h1' : (ovSl2 c).view.WordExact} {h2 h2' : (ovSl3 c).view.WordExact} :
    iprop(invs m K c
        ∗ levAts L lv
        ∗ (∃ W, owes (c : Thread nD τ) 0 W)
        ∗ atPos ER (dcell c p2sS1) 0 ∅ 0
        ∗ cred (tallyAt (dcell c p2sS1) () N48)
        ∗ atPos ER (dcell c p2sS2) 0 ∅ 0
        ∗ cred (tallyAt (dcell c p2sS2) () N40)
        ∗ atPos ER (dcell c p2sS3) 0 ∅ 0
        ∗ cred (tallyAt (dcell c p2sS3) () N40)) ⊢ iprop((iprop((∃ W, owes (c : Thread nD τ) 0 W)
            ∗ semVal (dcell c p2sS1) 0
            ∗ held (ovSl1 c).view c fullShare.left (val1 m c)
            ∗ semVal (dcell c p2sS2) 0
            ∗ held (ovSl2 c).view c fullShare.left (val2 m c)
            ∗ semVal (dcell c p2sS3) 0
            ∗ held (ovSl3 c).view c fullShare.left (val3 m c)) -∗ wp frame (wpE (defs₀ (F := F)) 𝒱₀ (c : Thread nD τ) none) Set.univ (k ⟨⟩) Q)
      -∗ wp frame (wpE (defs₀ (F := F)) 𝒱₀ (c : Thread nD τ) none) Set.univ (Prog.op (TpuEff.waitDma2 p2sS1 (ovSl1 c) (ovSl1 c) h0 h0') fun _ => Prog.op (TpuEff.waitDma2 p2sS2 (ovSl2 c) (ovSl2 c) h1 h1') fun _ => Prog.op (TpuEff.waitDma2 p2sS3 (ovSl3 c) (ovSl3 c) h2 h2') k) Q) := by
  iintro ⟨#H0, #H2, ⟨%W, H3⟩, H40, H41, H43, H44, H46, H47⟩ Hk

  iapply (kit_wait_dma m (ovSl1 c).view c p2sS1 (by decide) N48 rfl (show (ovSl1 c).view.dmaCredit = N48 from rfl) fullShare.left (val1 m c) (m ((c : Thread nD τ).loc cc0_scratch3)) rfl 0 (W) (K (dcell c p2sS1))) $$ [H41 H3 H40]
  · isplitr; · iapply (invs_get m K c (dcell c p2sS1) (List.mem_of_getElem? (show (ownCells c ++ paidCells c)[23]? = some (dcell c p2sS1) from rfl))); iexact H0
    isplitl [H41]; · iexact H41
    isplitl [H3]; · iexact H3
    isplitr; · iapply (mayWait_nil (F := F) c (.dma p2sS1)); iexact H2
    iexact H40
  iintro ⟨H3, H40, H41⟩

  iapply (kit_wait_dma m (ovSl2 c).view c p2sS2 (by decide) N40 rfl (show (ovSl2 c).view.dmaCredit = N40 from rfl) fullShare.left (val2 m c) (m ((c : Thread nD τ).loc cc0_scratch3)) rfl 0 (insert (SemLoc.dma p2sS1, ()) (W)) (K (dcell c p2sS2))) $$ [H44 H3 H43]
  · isplitr; · iapply (invs_get m K c (dcell c p2sS2) (List.mem_of_getElem? (show (ownCells c ++ paidCells c)[24]? = some (dcell c p2sS2) from rfl))); iexact H0
    isplitl [H44]; · iexact H44
    isplitl [H3]; · iexact H3
    isplitr; · iapply (mayWait_nil (F := F) c (.dma p2sS2)); iexact H2
    iexact H43
  iintro ⟨H3, H43, H44⟩

  iapply (kit_wait_dma m (ovSl3 c).view c p2sS3 (by decide) N40 rfl (show (ovSl3 c).view.dmaCredit = N40 from rfl) fullShare.left (val3 m c) (m ((c : Thread nD τ).loc cc0_scratch3)) rfl 0 (insert (SemLoc.dma p2sS2, ()) (insert (SemLoc.dma p2sS1, ()) (W))) (K (dcell c p2sS3))) $$ [H47 H3 H46]
  · isplitr; · iapply (invs_get m K c (dcell c p2sS3) (List.mem_of_getElem? (show (ownCells c ++ paidCells c)[25]? = some (dcell c p2sS3) from rfl))); iexact H0
    isplitl [H47]; · iexact H47
    isplitl [H3]; · iexact H3
    isplitr; · iapply (mayWait_nil (F := F) c (.dma p2sS3)); iexact H2
    iexact H46
  iintro ⟨H3, H46, H47⟩
  iapply Hk
  isplitl [H3]; · iexists _; iexact H3
  isplitl [H40]; · iexact H40
  isplitl [H41]; · iexact H41
  isplitl [H43]; · iexact H43
  isplitl [H44]; · iexact H44
  isplitl [H46]; · iexact H46
  iexact H47

theorem tail_cps (K : GSem nD τ sig → ℕ) (c : Dev nD) {α : Type} {Q : α → sProp 𝕄} {k : PUnit → Prog (TpuEff nD τ sig (Elt F) Λ₀ .tc) α}
    {h0 h0' : (ovSl4 c).view.WordExact} {h1 h1' : (ovSl5 c).view.WordExact} :
    St25 m K c ⊢ iprop((iprop(Φ₁ m c ∗ ∃ W, owes (c : Thread nD τ) 0 W) -∗ wp frame (wpE (defs₀ (F := F)) 𝒱₀ (c : Thread nD τ) none) Set.univ (k ⟨⟩) Q)
      -∗ wp frame (wpE (defs₀ (F := F)) 𝒱₀ (c : Thread nD τ) none) Set.univ (Prog.op (TpuEff.waitDma2 p2sS4 (ovSl4 c) (ovSl4 c) h0 h0') fun _ => Prog.op (TpuEff.waitDma2 p2sS5 (ovSl5 c) (ovSl5 c) h1 h1') k) Q) := by
  unfold St25
  iintro ⟨#H0, H1, #H2, ⟨%W, H3⟩, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83, H84, H85, H86, H87⟩ Hk

  iapply (kit_wait_dma m (ovSl4 c).view c p2sS4 (by decide) N16 rfl (show (ovSl4 c).view.dmaCredit = N16 from rfl) fullShare.left (val4 m c) (m ((c : Thread nD τ).loc cc0_scratch3)) rfl 0 (W) (K (dcell c p2sS4))) $$ [H50 H3 H49]
  · isplitr; · iapply (invs_get m K c (dcell c p2sS4) (List.mem_of_getElem? (show (ownCells c ++ paidCells c)[26]? = some (dcell c p2sS4) from rfl))); iexact H0
    isplitl [H50]; · iexact H50
    isplitl [H3]; · iexact H3
    isplitr; · iapply (mayWait_nil (F := F) c (.dma p2sS4)); iexact H2
    iexact H49
  iintro ⟨H3, H49, H50⟩

  iapply (kit_wait_dma m (ovSl5 c).view c p2sS5 (by decide) N16 rfl (show (ovSl5 c).view.dmaCredit = N16 from rfl) fullShare.left (val5 m c) (m ((c : Thread nD τ).loc cc0_scratch3)) rfl 0 (insert (SemLoc.dma p2sS4, ()) (W)) (K (dcell c p2sS5))) $$ [H53 H3 H52]
  · isplitr; · iapply (invs_get m K c (dcell c p2sS5) (List.mem_of_getElem? (show (ownCells c ++ paidCells c)[27]? = some (dcell c p2sS5) from rfl))); iexact H0
    isplitl [H53]; · iexact H53
    isplitl [H3]; · iexact H3
    isplitr; · iapply (mayWait_nil (F := F) c (.dma p2sS5)); iexact H2
    iexact H52
  iintro ⟨H3, H52, H53⟩
  iapply Hk
  unfold Φ₁ arrays1 scratch ownSemsZero

  ihave J0 := (heldAny_halves (ovSl0 c).view c fullShare (val0 m c)) $$ [H38 H63]
  · isplitl [H38]; · iexact H38
    iexact H63
  ihave J1 := (heldAny_halves (ovSl1 c).view c fullShare (val1 m c)) $$ [H41 H65]
  · isplitl [H41]; · iexact H41
    iexact H65
  ihave J2 := (heldAny_halves (ovSl2 c).view c fullShare (val2 m c)) $$ [H44 H67]
  · isplitl [H44]; · iexact H44
    iexact H67
  ihave J3 := (heldAny_halves (ovSl3 c).view c fullShare (val3 m c)) $$ [H47 H69]
  · isplitl [H47]; · iexact H47
    iexact H69
  ihave J4 := (heldAny_halves (ovSl4 c).view c fullShare (val4 m c)) $$ [H50 H71]
  · isplitl [H50]; · iexact H50
    iexact H71
  ihave J5 := (heldAny_halves (ovSl5 c).view c fullShare (val5 m c)) $$ [H53 H73]
  · isplitl [H53]; · iexact H53
    iexact H73
  icases H58 with ⟨%OUT, %hOUT, H58⟩
  isplitl [H1 H4 H5 H6 H7 H8 H9 H10 H11 H12 H13 H14 H15 H16 H17 H18 H19 H20 H21 H22 H23 H24 H25 H26 H27 H28 H29 H30 H31 H32 H33 H34 H35 H36 H37 H39 H40 H42 H43 H45 H46 H48 H49 H51 H52 H54 H55 H56 H57 H58 H59 H60 H61 H62 H64 H66 H68 H70 H72 H74 H75 H76 H77 H78 H79 H80 H81 H82 H83 H84 H85 H86 H87 J0 J1 J2 J3 J4 J5]
  · isplitl [H55 H56 H57 H58]
    ·
      isplitl [H55 H56]
      · iapply (a0_join (F := F) c (m ((c : Thread nD τ).loc main_arg0)))
        isplitl [H55]; · iexact H55
        iexact H56
      isplitl [H57]
      · iapply (Entails.of_eq (pts_whole_eq a1M.view (View.set_whole _) c fullShare _)); iexact H57
      iexists OUT
      isplitr; · ipureintro; exact hOUT
      iapply (Entails.of_eq (pts_whole_eq outM.view (View.set_whole _) c fullShare _)); iexact H58
    isplitl [H8 H11 H14 H17 H20 H23 H26 H29 H32 H35 H59 H60 H61 J0 J1 J2 J3 J4 J5 H75 H77 H79 H81 H82 H83 H84 H85 H86 H87 H62 H64 H66 H68 H70 H72 H74 H76 H78 H80]
    ·
      isplitl [H8 H11 H14 H17 H20 H23 H26 H29 H32 H35 H59]
      · iapply (snd_join (F := F) c)
        isplitl [H8]; · iapply (held_any _ c _ _); iexact H8
        isplitl [H11]; · iapply (held_any _ c _ _); iexact H11
        isplitl [H14]; · iapply (held_any _ c _ _); iexact H14
        isplitl [H17]; · iapply (held_any _ c _ _); iexact H17
        isplitl [H20]; · iapply (held_any _ c _ _); iexact H20
        isplitl [H23]; · iapply (held_any _ c _ _); iexact H23
        isplitl [H26]; · iapply (held_any _ c _ _); iexact H26
        isplitl [H29]; · iapply (held_any _ c _ _); iexact H29
        isplitl [H32]; · iapply (held_any _ c _ _); iexact H32
        isplitl [H35]; · iapply (held_any _ c _ _); iexact H35
        iexact H59
      isplitl [H60]
      · iexists _; iapply (Entails.of_eq (pts_whole_eq locM.view (View.set_whole _) c fullShare _)); iexact H60
      isplitl [H61]
      · iexists _; iapply (Entails.of_eq (pts_whole_eq gvM.view (View.set_whole _) c fullShare _)); iexact H61
      isplitl [J0 J1 J2 J3 J4 J5 H75 H77 H79 H81 H82 H83 H84 H85 H86 H87]
      · iapply (ov_join (F := F) c)
        isplitl [J0]; · iexact J0
        isplitl [J1]; · iexact J1
        isplitl [J2]; · iexact J2
        isplitl [J3]; · iexact J3
        isplitl [J4]; · iexact J4
        isplitl [J5]; · iexact J5
        isplitl [H75]; · iexact H75
        isplitl [H77]; · iexact H77
        isplitl [H79]; · iexact H79
        isplitl [H81]; · iexact H81
        isplitl [H82]; · iexact H82
        isplitl [H83]; · iexact H83
        isplitl [H84]; · iexact H84
        isplitl [H85]; · iexact H85
        isplitl [H86]; · iexact H86
        iexact H87
      iapply (cm_join_whole (F := F) c)
      isplitl [H62]; · iexact H62
      isplitl [H64]; · iexact H64
      isplitl [H66]; · iexact H66
      isplitl [H68]; · iexact H68
      isplitl [H70]; · iexact H70
      isplitl [H72]; · iexact H72
      isplitl [H74]; · iexact H74
      isplitl [H76]; · iexact H76
      isplitl [H78]; · iexact H78
      iexact H80

    isplitl [H5]; · iexact H5
    isplitl [H54]; · iexact H54
    isplitl [H7]; · iexact H7
    isplitl [H10]; · iexact H10
    isplitl [H13]; · iexact H13
    isplitl [H16]; · iexact H16
    isplitl [H19]; · iexact H19
    isplitl [H22]; · iexact H22
    isplitl [H25]; · iexact H25
    isplitl [H28]; · iexact H28
    isplitl [H31]; · iexact H31
    isplitl [H34]; · iexact H34
    isplitl [H6]; · iexact H6
    isplitl [H9]; · iexact H9
    isplitl [H12]; · iexact H12
    isplitl [H15]; · iexact H15
    isplitl [H18]; · iexact H18
    isplitl [H21]; · iexact H21
    isplitl [H24]; · iexact H24
    isplitl [H27]; · iexact H27
    isplitl [H30]; · iexact H30
    isplitl [H33]; · iexact H33
    isplitl [H37]; · iexact H37
    isplitl [H40]; · iexact H40
    isplitl [H43]; · iexact H43
    isplitl [H46]; · iexact H46
    isplitl [H49]; · iexact H49
    isplitl [H52]; · iexact H52
    isplitl [H36]; · iexact H36
    isplitl [H39]; · iexact H39
    isplitl [H42]; · iexact H42
    isplitl [H45]; · iexact H45
    isplitl [H48]; · iexact H48
    iexact H51
  · iexists _; iexact H3

def tail25P (c : Dev nD) : Prog (TpuEff nD τ sig (Elt F) Λ₀ .tc) (Dev nD) := do
  let v791 : DmaSems sig S1 := cc0_scratch10.slice (Rect.unit (s := S6) ![1] S1.size inb_S6_S1_1)
  let v792 : DmaSems sig S_ := v791.squeeze S_ squeezes_S1_S_
  let v793 : Memref sig .tc .vmem S48x512 .f32 := (Memref.whole cc0_scratch3 : Memref sig .tc .vmem S512x512 .f32).slice (Rect.unit (s := S512x512) (k0_off3 c 128#32) S48x512.size (k0_off3_inb c 1)) (fun _ => rfl)
  let v794 : Memref sig .tc .vmem S48x512 .f32 := (Memref.whole cc0_scratch3 : Memref sig .tc .vmem S512x512 .f32).slice (Rect.unit (s := S512x512) (k0_off3 c 128#32) S48x512.size (k0_off3_inb c 1)) (fun _ => rfl)
  Prog.lift (.waitDma2 v792.sem v794 v793 (View.wordExact_bits rfl) (View.wordExact_bits rfl))
  let v795 : DmaSems sig S1 := cc0_scratch10.slice (Rect.unit (s := S6) ![2] S1.size inb_S6_S1_2)
  let v796 : DmaSems sig S_ := v795.squeeze S_ squeezes_S1_S_
  let v797 : Memref sig .tc .vmem S40x512 .f32 := (Memref.whole cc0_scratch3 : Memref sig .tc .vmem S512x512 .f32).slice (Rect.unit (s := S512x512) (k0_off4 c 48#32) S40x512.size (k0_off4_inb c 0)) (fun _ => rfl)
  let v798 : Memref sig .tc .vmem S40x512 .f32 := (Memref.whole cc0_scratch3 : Memref sig .tc .vmem S512x512 .f32).slice (Rect.unit (s := S512x512) (k0_off4 c 48#32) S40x512.size (k0_off4_inb c 0)) (fun _ => rfl)
  Prog.lift (.waitDma2 v796.sem v798 v797 (View.wordExact_bits rfl) (View.wordExact_bits rfl))
  let v799 : DmaSems sig S1 := cc0_scratch10.slice (Rect.unit (s := S6) ![3] S1.size inb_S6_S1_3)
  let v800 : DmaSems sig S_ := v799.squeeze S_ squeezes_S1_S_
  let v801 : Memref sig .tc .vmem S40x512 .f32 := (Memref.whole cc0_scratch3 : Memref sig .tc .vmem S512x512 .f32).slice (Rect.unit (s := S512x512) (k0_off4 c 176#32) S40x512.size (k0_off4_inb c 1)) (fun _ => rfl)
  let v802 : Memref sig .tc .vmem S40x512 .f32 := (Memref.whole cc0_scratch3 : Memref sig .tc .vmem S512x512 .f32).slice (Rect.unit (s := S512x512) (k0_off4 c 176#32) S40x512.size (k0_off4_inb c 1)) (fun _ => rfl)
  Prog.lift (.waitDma2 v800.sem v802 v801 (View.wordExact_bits rfl) (View.wordExact_bits rfl))
  pure c

def tailP (c : Dev nD) : Prog (TpuEff nD τ sig (Elt F) Λ₀ .tc) PUnit := do
  let v806 : Memref sig .tc .vmem S16x512 .f32 := (Memref.whole cc0_scratch3 : Memref sig .tc .vmem S512x512 .f32).slice (Rect.unit (s := S512x512) (k0_off5 c 88#32) S16x512.size (k0_off5_inb c 0)) (fun _ => rfl)
  let v803 : DmaSems sig S1 := cc0_scratch10.slice (Rect.unit (s := S6) ![4] S1.size inb_S6_S1_4)
  let v804 : DmaSems sig S_ := v803.squeeze S_ squeezes_S1_S_
  let v805 : Memref sig .tc .vmem S16x512 .f32 := (Memref.whole cc0_scratch3 : Memref sig .tc .vmem S512x512 .f32).slice (Rect.unit (s := S512x512) (k0_off5 c 88#32) S16x512.size (k0_off5_inb c 0)) (fun _ => rfl)
  Prog.lift (.waitDma2 v804.sem v806 v805 (View.wordExact_bits rfl) (View.wordExact_bits rfl))
  let v807 : DmaSems sig S1 := cc0_scratch10.slice (Rect.unit (s := S6) ![5] S1.size inb_S6_S1_5)
  let v808 : DmaSems sig S_ := v807.squeeze S_ squeezes_S1_S_
  let v809 : Memref sig .tc .vmem S16x512 .f32 := (Memref.whole cc0_scratch3 : Memref sig .tc .vmem S512x512 .f32).slice (Rect.unit (s := S512x512) (k0_off5 c 216#32) S16x512.size (k0_off5_inb c 1)) (fun _ => rfl)
  let v810 : Memref sig .tc .vmem S16x512 .f32 := (Memref.whole cc0_scratch3 : Memref sig .tc .vmem S512x512 .f32).slice (Rect.unit (s := S512x512) (k0_off5 c 216#32) S16x512.size (k0_off5_inb c 1)) (fun _ => rfl)
  Prog.lift (.waitDma2 v808.sem v810 v809 (View.wordExact_bits rfl) (View.wordExact_bits rfl))
  pure ⟨⟩

theorem tail25_spec (K : GSem nD τ sig → ℕ) (c : Dev nD) :
    iprop(invs m K c
        ∗ levAts L lv
        ∗ (∃ W, owes (c : Thread nD τ) 0 W)
        ∗ atPos ER (dcell c p2sS1) 0 ∅ 0
        ∗ cred (tallyAt (dcell c p2sS1) () N48)
        ∗ atPos ER (dcell c p2sS2) 0 ∅ 0
        ∗ cred (tallyAt (dcell c p2sS2) () N40)
        ∗ atPos ER (dcell c p2sS3) 0 ∅ 0
        ∗ cred (tallyAt (dcell c p2sS3) () N40))
      ⊢ wp frame (wpE (defs₀ (F := F)) 𝒱₀ (c : Thread nD τ) none) Set.univ (tail25P (F := F) c) (fun r => iprop(⌜r = c⌝
            ∗ (∃ W, owes (c : Thread nD τ) 0 W)
            ∗ semVal (dcell c p2sS1) 0
            ∗ held (ovSl1 c).view c fullShare.left (val1 m c)
            ∗ semVal (dcell c p2sS2) 0
            ∗ held (ovSl2 c).view c fullShare.left (val2 m c)
            ∗ semVal (dcell c p2sS3) 0
            ∗ held (ovSl3 c).view c fullShare.left (val3 m c))) := by
  unfold tail25P
  simp only [Prog.lift, Prog.bind_op, Prog.bind_ret, Prog.pure_eq_ret]
  iintro H
  iapply (tail25_cps m K c) $$ [H]
  · iexact H
  iintro H
  rw [wp_ret]; imodintro
  isplitr; · ipureintro; rfl
  iexact H

theorem tail_spec (K : GSem nD τ sig → ℕ) (c : Dev nD) :
    St25 m K c ⊢ wp frame (wpE (defs₀ (F := F)) 𝒱₀ (c : Thread nD τ) none) Set.univ (tailP (F := F) c) (fun _ => iprop(Φ₁ m c ∗ ∃ W, owes (c : Thread nD τ) 0 W)) := by
  unfold tailP
  simp only [Prog.lift, Prog.bind_op, Prog.bind_ret, Prog.pure_eq_ret]
  iintro H
  iapply (tail_cps m K c) $$ [H]
  · iexact H
  iintro H
  rw [wp_ret]; imodintro
  iexact H

end Cert.Kernel.Proto

end
-- ==== Proof.Bits.BodyAll.lean ====
import proofs.«900598_g7700000000000599_dist_rsrms_v7x_xyz2x2x2_x_m512_d512_f32_1_alg».proof.Proof.Bits.BodyObl
import proofs.«900598_g7700000000000599_dist_rsrms_v7x_xyz2x2x2_x_m512_d512_f32_1_alg».proof.Proof.Bits.Ctx
import proofs.«900598_g7700000000000599_dist_rsrms_v7x_xyz2x2x2_x_m512_d512_f32_1_alg».proof.Proof.Bits.Body1
import proofs.«900598_g7700000000000599_dist_rsrms_v7x_xyz2x2x2_x_m512_d512_f32_1_alg».proof.Proof.Bits.Body2
import proofs.«900598_g7700000000000599_dist_rsrms_v7x_xyz2x2x2_x_m512_d512_f32_1_alg».proof.Proof.Bits.Body3x
import proofs.«900598_g7700000000000599_dist_rsrms_v7x_xyz2x2x2_x_m512_d512_f32_1_alg».proof.Proof.Bits.Body3d
import proofs.«900598_g7700000000000599_dist_rsrms_v7x_xyz2x2x2_x_m512_d512_f32_1_alg».proof.Proof.Bits.Body3c
import proofs.«900598_g7700000000000599_dist_rsrms_v7x_xyz2x2x2_x_m512_d512_f32_1_alg».proof.Proof.Bits.Body3b
import proofs.«900598_g7700000000000599_dist_rsrms_v7x_xyz2x2x2_x_m512_d512_f32_1_alg».proof.Proof.Bits.Body4
import proofs.«900598_g7700000000000599_dist_rsrms_v7x_xyz2x2x2_x_m512_d512_f32_1_alg».proof.Proof.Bits.Body5a
import proofs.«900598_g7700000000000599_dist_rsrms_v7x_xyz2x2x2_x_m512_d512_f32_1_alg».proof.Proof.Bits.Body5b

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem wp_seq {α β : Type} {c : Dev nD} {p : Prog (TpuEff nD τ sig (Elt F) Λ₀ .tc) α} {k : α → Prog (TpuEff nD τ sig (Elt F) Λ₀ .tc) β}
    {P : sProp 𝕄} {Q : α → sProp 𝕄} {R : β → sProp 𝕄}
    (h1 : P ⊢ wp frame (wpE (defs₀ (F := F)) 𝒱₀ (c : Thread nD τ) none) Set.univ p Q)
    (h2 : ∀ a, Q a ⊢ wp frame (wpE (defs₀ (F := F)) 𝒱₀ (c : Thread nD τ) none) Set.univ (k a) R) :
    P ⊢ wp frame (wpE (defs₀ (F := F)) 𝒱₀ (c : Thread nD τ) none) Set.univ (p >>= k) R := by
  rw [wp_bind]; exact h1.trans (wp_mono _ _ _ h2)

omit [FloatOps F] in

theorem pure_sep_elim {φ : Prop} {P Q : sProp 𝕄} (h : φ → P ⊢ Q) : iprop(⌜φ⌝ ∗ P) ⊢ Q := by
  iintro ⟨%hφ, H⟩; iapply (h hφ); iexact H

omit [FloatOps F] in

theorem exists_sep_elim {α : Type} {Φ : α → sProp 𝕄} {Q : sProp 𝕄} (h : ∀ a, Φ a ⊢ Q) : iprop(∃ a, Φ a) ⊢ Q := by
  iintro ⟨%a, H⟩; iapply (h a); iexact H

-- A step proved on the resources it touches runs inside any larger context; what it leaves is handed to the rest of the program.
theorem wp_seq_local {α β : Type} {c : Dev nD} {p : Prog (TpuEff nD τ sig (Elt F) Λ₀ .tc) α} {k : α → Prog (TpuEff nD τ sig (Elt F) Λ₀ .tc) β}
    {A : sProp 𝕄} {B : α → sProp 𝕄} {R : β → sProp 𝕄}
    (h : A ⊢ wp frame (wpE (defs₀ (F := F)) 𝒱₀ (c : Thread nD τ) none) Set.univ p B) :
    A ⊢ iprop((∀ a, B a -∗ wp frame (wpE (defs₀ (F := F)) 𝒱₀ (c : Thread nD τ) none) Set.univ (k a) R)
        -∗ wp frame (wpE (defs₀ (F := F)) 𝒱₀ (c : Thread nD τ) none) Set.univ (p >>= k) R) := by
  rw [wp_bind]; exact h.trans (wp_wand _ _ _)

-- The same for a last step.
theorem wp_local {α : Type} {c : Dev nD} {p : Prog (TpuEff nD τ sig (Elt F) Λ₀ .tc) α} {A : sProp 𝕄} {B R : α → sProp 𝕄}
    (h : A ⊢ wp frame (wpE (defs₀ (F := F)) 𝒱₀ (c : Thread nD τ) none) Set.univ p B) :
    A ⊢ iprop((∀ a, B a -∗ R a) -∗ wp frame (wpE (defs₀ (F := F)) 𝒱₀ (c : Thread nD τ) none) Set.univ p R) :=
  h.trans (wp_wand _ _ _)

-- The body up to its last two waits: each step takes what it needs from the context and returns what it leaves; nothing else is named again.
theorem part25_spec (c : Dev nD) :
    iprop(Φ₀ m c ∗ ∃ W, owes (c : Thread nD τ) (O₀ c) W)
      ⊢ wp frame (wpE (defs₀ (F := F)) 𝒱₀ (c : Thread nD τ) none) Set.univ (atBufs k0_part25) (fun r => iprop(⌜r = c⌝ ∗ ∃ K, St25 m K c)) := by
  simp only [atBufs, k0_part25_eq_skeleton]; unfold k0_part25_skel
  refine wp_seq (part1_spec m c) (fun r => ?_)
  obtain ⟨d0, v2, v5, v8, v19, v20, v21, v22⟩ := r
  refine pure_sep_elim fun hd => ?_
  have hd' : c = d0 := hd.symm
  subst hd'
  refine exists_sep_elim fun K => ?_
  refine wp_seq (part2_spec m K c v2 v5 v8 v19 v20 v21 v22) (fun r => ?_)
  rename' r => c4_i32_42
  unfold St2
  iintro ⟨#g0, #g1, #g2, #g3, #g4, #g5, #g6, #g7, #g8, #g9, #g10, #g11, #g12, g13, g14, g15, g16, g17, g18, g19, g20, g21, g22, g23, g24, g25, g26, g27, g28, g29, g30, g31, g32, g33, g34, g35, g36, g37, g38, g39, g40, g41, g42, g43, g44, g45, g46, g47, g48, g49, g50, g51, g52, g53, g54, g55, g56, g57, g58, g59, g60, g61, g62, g63, g64, g65, g66, g67, g68, g69, g70, g71, g72, g73, g74, g75, g76, g77, g78, g79, g80, g81, g82, g83, g84, g85, g86, g87, g88, g89, g90, g91, g92, g93, g94, g95, g96, g97, g98, g99, g100, g101, g102, g103, g104, g105, g106, g107, g108, g109, g110, g111, g112, g113, g114, g115, g116, g117, g118, g119, g120, g121, g122, g123, g124, g125, g126, g127, g128, g129, g130, g131, g132, g133, g134, g135, g136, g137⟩
  iapply (wp_seq_local (part3_spec m K c v5 v8 v19 v20 c4_i32_42)) $$ [g13 g14 g15 g16 g17 g107 g108 g119 g121]
  · iframe # ∗
  iintro %r ⟨g138, g139, g140⟩
  obtain ⟨v92, v93⟩ := r
  iapply (wp_seq_local (part4_spec m K c v5 v8 v19 v20 v92 v93)) $$ [g138 g18 g19 g20 g21 g109 g110 g123 g125]
  · iframe # ∗
  iintro %r ⟨g141, g142, g143⟩
  clear r
  iapply (wp_seq_local (part5_spec m K c v5 v8 v19 v20)) $$ [g141 g22 g23 g24 g25 g26 g27 g111 g112 g113 g127 g129 g131]
  · iframe # ∗
  iintro %r ⟨g144, g145, g146, g147⟩
  clear r
  iapply (wp_seq_local (part6_spec m K c v5 v8 v19 v20)) $$ [g144 g28 g29 g30 g31 g114 g115 g133 g135]
  · iframe # ∗
  iintro %r ⟨g148, g149, g150⟩
  obtain ⟨v189, c0_i32_127⟩ := r
  iapply (wp_seq_local (part7_spec m K c v5 v8 v19 v20 v189 c0_i32_127)) $$ [g148 g32 g33 g47 g48 g49 g50 g98 g99 g116 g137]
  · iframe # ∗
  iintro %r ⟨%hv, #g151, #g152, #g153, #g154, #g155, #g156, g157, g158, g159, g160, g161, g162, g163, g164, g165, g166, g167, g168, g169, g170, g171, g172, g173⟩
  obtain ⟨v218, v220⟩ := r
  dsimp only at hv; subst hv
  iapply (wp_seq_local (part8_spec m K c v2 v5 v8 v20 v21 v218)) $$ [g157 g34 g35 g166 g167 g118 g168]
  · iframe # ∗
  iintro %r ⟨g174, g175, g176, g177, g178⟩
  clear r
  iapply (wp_seq_local (part9_spec m K c v2 v5 v19 v22)) $$ [g174 g52 g53 g165 g176 g120]
  · iframe # ∗
  iintro %r ⟨g179, g180, g181, g182, g183, g184⟩
  clear r
  iapply (wp_seq_local (part10_spec m K c v5 v8 v19 v20)) $$ [g179 g36 g37 g55 g56 g181 g182 g184 g122 g169]
  · iframe # ∗
  iintro %r ⟨g185, g186, g187, g188, g189, g190, g191, g192⟩
  clear r
  iapply (wp_seq_local (part11_spec m K c v2 v5 v8 v19 v20 v21)) $$ [g185 g38 g39 g58 g59 g188 g192 g170]
  · iframe # ∗
  iintro %r ⟨%hv, g193, g194, g195, g196, g197, g198⟩
  obtain ⟨v356, v360, v365, v366⟩ := r
  obtain ⟨h1, h2, h3⟩ := hv
  dsimp only at h1 h2 h3; subst h1 h2 h3
  iapply (wp_seq_local (part12_spec m K c v2 v5 v8 v19 v20 v22 v356)) $$ [g193 g40 g41 g61 g62 g189 g124 g171]
  · iframe # ∗
  iintro %r ⟨g199, g200, g201, g202, g203, g204⟩
  rename' r => v402
  iapply (wp_seq_local (part13_spec m K c v2 v5 v8 v20 v21 v402)) $$ [g199 g42 g43 g196 g202 g204 g126 g172]
  · iframe # ∗
  iintro %r ⟨g205, g206, g207, g208, g209, g210⟩
  obtain ⟨v438, v439⟩ := r
  iapply (wp_seq_local (part14_spec m K c v2 v5 v8 v19 v22 v438 v439)) $$ [g205 g64 g65 g207 g208 g128]
  · iframe # ∗
  iintro %r ⟨g211, g212, g213, g214, g215, g216⟩
  clear r
  iapply (wp_seq_local (part15_spec m K c v5 v8 v19 v20)) $$ [g211 g44 g45 g67 g68 g213 g214 g216 g130 g173]
  · iframe # ∗
  iintro %r ⟨%hv, g217, g218, g219, g220, g221, g222, g223, g224⟩
  obtain ⟨v512, v514⟩ := r
  dsimp only at hv; subst hv
  iapply (wp_seq_local (part16_spec m K c v5 v8 v19 v20 v514)) $$ [g217 g70 g71 g220 g221 g224 g132]
  · iframe # ∗
  iintro %r ⟨g225, g226, g227, g228, g229, g230, g231⟩
  clear r
  iapply (wp_seq_local (part17_spec m K c v5 v8 v19 v20)) $$ [g225 g73 g74 g227 g228 g134]
  · iframe # ∗
  iintro %r ⟨g232, g233, g234, g235, g236, g237⟩
  obtain ⟨v586, c0_i32_351⟩ := r
  iapply (wp_seq_local (part18_spec m K c v5 v8 v19 v586 c0_i32_351)) $$ [g232 g76 g77 g234 g235 g136]
  · iframe # ∗
  iintro %r ⟨g238, g239, g240, g241, g242, g243⟩
  rename' r => v624
  iapply (wp_seq_local (part19_spec m K c v2 v8 v19 v21 v624)) $$ [g100 g101 g104 g106 g178 g190 g197 g203 g210 g222 g229 g231 g237 g243]
  · iframe # ∗
  iintro %r ⟨g244, g245, g246, g247, g248, g249, g250⟩
  clear r
  iapply (wp_seq_local (part20_spec m K c v2 v5 v8 v21 v22)) $$ [g238 g79 g80 g82 g83 g85 g86 g248]
  · iframe # ∗
  iintro %r ⟨g251, g252, g253, g254, g255, g256, g257, g258⟩
  clear r
  iapply (wp_seq_local (part21_spec m K c v2 v5 v8 v19 v21 v22)) $$ [g251 g88 g89 g91 g92 g94 g95 g102 g244 g255 g256 g258]
  · iframe # ∗
  iintro %r ⟨g259, g260, g261, g262, g263, g264, g265, g266⟩
  rename' r => v717
  iapply (wp_seq_local (part22_spec m K c v19 v717)) $$ [g259 g97 g161 g162 g103 g177 g183 g191 g198 g209 g215 g223 g230 g236 g242 g245 g246 g247 g263 g249 g250 g257 g264 g265 g266]
  · iframe # ∗
  iintro %r ⟨g267, g268, g269, g270, g271, g272, g273, g274, g275, g276, g277, g278, g279, g280, g281, g282, g283, g284, g285, g286, g287, g288, g289, g290, g291, g292, g293, g294, g295⟩
  clear r
  iapply (wp_seq_local (part23_spec m K c)) $$ [g267 g51 g139 g54 g140 g57 g142 g60 g143 g63 g145]
  · iframe # ∗
  iintro %r ⟨g296, g297, g298, g299, g300, g301, g302, g303, g304, g305, g306⟩
  clear r
  iapply (wp_seq_local (part24_spec m K c)) $$ [g296 g66 g146 g69 g147 g72 g149 g75 g150 g78 g160 g81 g175]
  · iframe # ∗
  iintro %r ⟨g307, g308, g309, g310, g311, g312, g313, g314, g315, g316, g317, g318, g319⟩
  clear r
  iapply (wp_local (tail25_spec m K c)) $$ [g307 g84 g187 g87 g195 g90 g201]
  · iframe # ∗
  iintro %r ⟨%hr, g400, g401, g402, g403, g404, g405, g406⟩
  isplitr; · ipureintro; exact hr
  iexists K
  unfold St25
  iframe # ∗

-- The whole body, from the launch state to the final one, owing nothing.
theorem body_spec (c : Dev nD) :
    iprop(Φ₀ m c ∗ ∃ W, owes (c : Thread nD τ) (O₀ c) W)
      ⊢ wp frame (wpE (defs₀ (F := F)) 𝒱₀ (c : Thread nD τ) none) Set.univ (atBufs cc0_body) (fun _ => iprop(Φ₁ m c ∗ ∃ W, owes (c : Thread nD τ) 0 W)) := by
  simp only [atBufs, cc0_body_eq_skeleton]; unfold cc0_body_skel
  refine wp_seq (part25_spec m c) (fun r => ?_)
  refine pure_sep_elim fun hd => ?_
  have hd' : c = r := hd.symm
  subst hd'
  refine exists_sep_elim fun K => ?_
  exact tail_spec m K _

-- The obligation of every device at the one grid point.
theorem body_obligation : ∀ c, BodyObligation (dats (F := F) m 0 c) (defs₀ (F := F)) 𝒱₀ () Set.univ :=
  body_obligation_of m (body_spec m)

end Cert.Kernel.Proto

end
-- ==== Proof.RmsSpec.lean ====
import Idealize.ShloMosaic.PureOps.Ideal
import Mathlib.Data.EReal.Operations
import Mathlib.Data.EReal.Inv
import Mathlib.Algebra.Order.BigOperators.Group.Finset

noncomputable section

namespace Cert.RmsSpec

open Idealize.ShloMosaic
open scoped BigOperators

def eps : EReal := Ideal.ofBits .f32 0x358637BD#32

def c512 : EReal := Ideal.ofBits .f32 0x44000000#32

theorem c512_eq : c512 = ((512 : ℝ) : EReal) := by
  unfold c512
  simp [Ideal.ofBits, Ideal.ieee, -EReal.coe_mul]; norm_num

theorem eps_pos_real : ∃ r : ℝ, 0 < r ∧ eps = (r : EReal) := by
  refine ⟨8796093 * (2 : ℝ) ^ (-43 : Int), by positivity, ?_⟩
  unfold eps
  simp [Ideal.ofBits, Ideal.ieee, -EReal.coe_mul]

theorem eps_pos : 0 < eps := by
  obtain ⟨r, hr, h⟩ := eps_pos_real
  rw [h]; exact EReal.coe_pos.2 hr

theorem ofBits_zero : Ideal.ofBits .f32 0x00000000#32 = 0 := by
  simp [Ideal.ofBits, Ideal.ieee]

def nrm (row : Fin 512 → EReal) (g : Fin 512 → EReal) (j : Fin 512) : EReal :=
  row j * Ideal.rsqrt (Ideal.div (∑ k, row k * row k) c512 + eps) * g j

theorem mul_self_nonneg (x : EReal) : 0 ≤ x * x := by
  rcases le_total 0 x with h | h
  · exact EReal.mul_nonneg_iff.2 (.inl ⟨h, h⟩)
  · exact EReal.mul_nonneg_iff.2 (.inr ⟨h, h⟩)

theorem sum_sq_nonneg (row : Fin 512 → EReal) : 0 ≤ ∑ k, row k * row k :=
  Finset.sum_nonneg fun k _ => mul_self_nonneg (row k)

theorem arg_pos_of_nonneg {s : EReal} (hs : 0 ≤ s) : 0 < Ideal.div s c512 + eps := by
  rw [c512_eq, Ideal.div_coe (by norm_num : (512 : ℝ) ≠ 0)]
  have h1 : (0 : EReal) ≤ s * ((1 / 512 : ℝ) : EReal) :=
    EReal.mul_nonneg hs (EReal.coe_nonneg.2 (by norm_num))
  exact lt_of_lt_of_le eps_pos (le_add_of_nonneg_left h1)

theorem arg_pos (row : Fin 512 → EReal) : 0 < Ideal.div (∑ k, row k * row k) c512 + eps :=
  arg_pos_of_nonneg (sum_sq_nonneg row)

theorem arg_pos' (row : Fin 512 → EReal) : 0 < Ideal.div (0 + ∑ k, row k * row k) c512 + eps := by
  rw [zero_add]; exact arg_pos row

theorem div_sqrt_eq_mul_rsqrt (y a : EReal) (ha : 0 < a) : Ideal.div y (Ideal.sqrt a) = y * Ideal.rsqrt a := by
  induction a using EReal.rec with
  | bot => exact absurd ha (not_lt.2 bot_le)
  | top => rw [Ideal.sqrt_top, Ideal.rsqrt_top, Ideal.div, if_neg EReal.top_ne_zero, EReal.inv_top]
  | coe r =>
    have hr : 0 < r := EReal.coe_pos.1 ha
    have hs : Real.sqrt r ≠ 0 := (Real.sqrt_pos.2 hr).ne'
    rw [Ideal.sqrt_coe, Ideal.rsqrt_coe, if_neg (not_lt.2 hr.le), if_neg (not_lt.2 hr.le), if_neg hr.ne',
      Ideal.div, if_neg (by exact_mod_cast hs), EReal.coe_inv]

theorem quot_eq_nrm (row : Fin 512 → EReal) (g : Fin 512 → EReal) (j : Fin 512) :
    Ideal.div (row j) (Ideal.sqrt (Ideal.div (0 + ∑ k, row k * row k) c512 + eps)) * g j = nrm row g j := by
  rw [div_sqrt_eq_mul_rsqrt _ _ (arg_pos' row), zero_add]; rfl

end Cert.RmsSpec

end
-- ==== Proof.RefVal.lean ====
import proofs.«900598_g7700000000000599_dist_rsrms_v7x_xyz2x2x2_x_m512_d512_f32_1_alg».proof.Defs
import proofs.«900598_g7700000000000599_dist_rsrms_v7x_xyz2x2x2_x_m512_d512_f32_1_alg».proof.Proof.Gen.ReferenceIdeal.Run
import proofs.«900598_g7700000000000599_dist_rsrms_v7x_xyz2x2x2_x_m512_d512_f32_1_alg».proof.Proof.Gen.ReferenceIdeal.Read
import proofs.«900598_g7700000000000599_dist_rsrms_v7x_xyz2x2x2_x_m512_d512_f32_1_alg».proof.Proof.RmsSpec
import Idealize.ShloMosaic.Lib.ValueIdx
import Mathlib.Algebra.BigOperators.Fin

noncomputable section

namespace Cert.ReferenceIdeal.RefVal

open Cert.ReferenceIdeal Cert.ReferenceIdeal.Gen Cert.ReferenceIdeal.Read
open Idealize.ShloMosaic Idealize.ShloMosaic.ValueIdx
open scoped BigOperators

theorem summed_at (P : (⟨S2x1024x512, .f32⟩ : BufTy).Contents (Elt Ideal)) (r : Fin 1024) (k : Fin 512) :
    val_main_v0 (F := Ideal) P (ix2 r k) = P (ix3 0 r k) + P (ix3 1 r k) := by
  rw [val_main_v0_apply, val_main_cst_apply, Fin.sum_univ_two]
  show Ideal.ofBits .f32 0x00000000#32 + (P _ + P _) = _
  rw [Cert.RmsSpec.ofBits_zero, zero_add]
  congr 1 <;> exact congrArg P (funext fun a => by
    match a with
    | ⟨0, _⟩ => rfl
    | ⟨1, _⟩ => rfl
    | ⟨2, _⟩ => rfl)

theorem ref_val (P : (⟨S2x1024x512, .f32⟩ : BufTy).Contents (Elt Ideal)) (γ : (⟨S512, .f32⟩ : BufTy).Contents (Elt Ideal))
    (r : Fin 1024) (j : Fin 512) :
    val_main_v13 (F := Ideal) P γ (ix2 r j)
      = Cert.RmsSpec.nrm (fun k => P (ix3 0 r k) + P (ix3 1 r k)) (fun k => γ (ix1 k)) j := by
  rw [val_main_v13_apply, val_main_v10_apply, val_main_v9_apply, val_main_v8_apply, val_main_v7_apply,
    val_main_v5_apply, val_main_v3_apply, val_main_v2_apply, val_main_v4_apply, val_main_v6_apply,
    val_main_v12_apply, val_main_v11_apply, val_main_cst_0_apply, val_main_cst_1_apply, val_main_cst_2_apply]
  have hrow : ∀ k : Fin 512, idx_main_v2 (idx_main_v3 (idx_main_v9 (ix2 r j))) k = ix2 r k := fun k =>
    funext fun a => by
      match a with
      | ⟨0, _⟩ => rfl
      | ⟨1, _⟩ => rfl
  have hlane : idx_main_v11 (idx_main_v12 (ix2 r j)) = ix1 j := funext fun a => by
    match a with
    | ⟨0, _⟩ => rfl
  simp only [hrow, hlane, val_main_v1_apply, summed_at, Ideal.ofBits_def, Ideal.mulf_def, Ideal.addf_def,
    Ideal.hostDivf_def, Ideal.hostUnary_sqrt_def, Cert.RmsSpec.ofBits_zero]
  exact Cert.RmsSpec.quot_eq_nrm (fun k => P (ix3 0 r k) + P (ix3 1 r k)) (fun k => γ (ix1 k)) j

end Cert.ReferenceIdeal.RefVal

end
-- ==== Proof.RmsRow.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«900598_g7700000000000599_dist_rsrms_v7x_xyz2x2x2_x_m512_d512_f32_1_alg».proof.Proof.RmsSpec

noncomputable section

namespace Cert.RmsRow

open Idealize.ShloMosaic Idealize.ShloMosaic.ValueIdx
open scoped BigOperators

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem laneSum_apply {n : ℕ} (src : FVec Ideal ⟨2, ![n, 512]⟩ .f32)
    (hred : (⟨2, ![n, 512]⟩ : Shape).Reduces [1] ⟨1, ![n]⟩) (hφ : FKind.Formats .f32)
    (hacc : (0x00000000#32 : BitVec 32) = FKind.add.neutral .f32 hφ) (i : Fin n) :
    multiReduction .add [1] ⟨1, ![n]⟩ src 0x00000000#32 hred hφ hacc (ix1 i) = ∑ k : Fin 512, src (ix2 i k) := by
  refine (Ideal.multiReduction_add_single src 0x00000000#32 hred hφ hacc (ix1 i)).trans ?_
  refine Finset.sum_congr rfl fun k _ => congrArg src ?_
  funext c
  match c with
  | ⟨0, _⟩ => exact Fin.ext rfl
  | ⟨1, _⟩ => exact Fin.ext rfl

theorem rms_row {n : ℕ} (x y : FVec Ideal ⟨2, ![n, 512]⟩ .f32) (g : FVec Ideal ⟨1, ![512]⟩ .f32)
    (hred : (⟨2, ![n, 512]⟩ : Shape).Reduces [1] ⟨1, ![n]⟩) (hφ : FKind.Formats .f32)
    (hacc : (0x00000000#32 : BitVec 32) = FKind.add.neutral .f32 hφ)
    (hc1 : (⟨1, ![n]⟩ : Shape).ShapeCasts ⟨2, ![n, 1]⟩) (hb1 : (⟨2, ![n, 1]⟩ : Shape).Broadcasts ⟨2, ![n, 512]⟩)
    (hc2 : (⟨1, ![512]⟩ : Shape).ShapeCasts ⟨2, ![1, 512]⟩) (hb2 : (⟨2, ![1, 512]⟩ : Shape).Broadcasts ⟨2, ![n, 512]⟩)
    (i : Fin n) (j : Fin 512) :
    mulf (mulf (addf x y)
        (broadcastTo ⟨2, ![n, 512]⟩
          (rsqrt (addf (divf (shapeCast ⟨2, ![n, 1]⟩
              (multiReduction .add [1] ⟨1, ![n]⟩ (mulf (addf x y) (addf x y)) 0x00000000#32 hred hφ hacc) hc1)
            (broadcast ⟨2, ![n, 1]⟩ (Scalar.ofBits (F := Ideal) .f32 0x44000000#32)))
            (broadcast ⟨2, ![n, 1]⟩ (Scalar.ofBits (F := Ideal) .f32 0x358637BD#32)))) hb1))
      (broadcastTo ⟨2, ![n, 512]⟩ (shapeCast ⟨2, ![1, 512]⟩ g hc2) hb2) (ix2 i j)
    = Cert.RmsSpec.nrm (fun k => x (ix2 i k) + y (ix2 i k)) (fun k => g (ix1 k)) j := by
  rw [mulf_apply, mulf_apply, addf_apply, broadcastTo_1b_ab_apply, shapeCast_a_1a_apply, broadcastTo_a1_ab_apply]
  show (x (ix2 i j) + y (ix2 i j))
      * Ideal.rsqrt (Ideal.div (shapeCast ⟨2, ![n, 1]⟩
          (multiReduction .add [1] ⟨1, ![n]⟩ (mulf (addf x y) (addf x y)) 0x00000000#32 hred hφ hacc) hc1 (ix2 i (0 : Fin 1)))
          Cert.RmsSpec.c512 + Cert.RmsSpec.eps)
      * g (ix1 j) = _
  rw [shapeCast_a_a1_apply, laneSum_apply]
  rfl

end Cert.RmsRow

end
-- ==== Proof.PayVal.lean ====
import proofs.«900598_g7700000000000599_dist_rsrms_v7x_xyz2x2x2_x_m512_d512_f32_1_alg».proof.Proof.Gen.KernelIdeal.Skeleton
import proofs.«900598_g7700000000000599_dist_rsrms_v7x_xyz2x2x2_x_m512_d512_f32_1_alg».proof.Proof.RmsSpec
import proofs.«900598_g7700000000000599_dist_rsrms_v7x_xyz2x2x2_x_m512_d512_f32_1_alg».proof.Proof.RmsRow
import Idealize.ShloMosaic.Lib.ValueIdx
import Idealize.ShloMosaic.Lib.Pipeline.Value

noncomputable section

namespace Cert.KernelIdeal.PayVal

open Cert.KernelIdeal Cert.KernelIdeal.Gen
open Idealize.ShloMosaic Idealize.ShloMosaic.ValueIdx

theorem store_val0 (x y : Vec Ideal S48x512 .f32) (g : Vec Ideal S512 .f32) (i : Fin 48) (j : Fin 512) :
    k0_pay1 (F := Ideal) x y g (ix2 i j)
      = Cert.RmsSpec.nrm (fun k => x (ix2 i k) + y (ix2 i k)) (fun k => g (ix1 k)) j := by
  unfold k0_pay1
  rw [shapeCast_self]
  exact Cert.RmsRow.rms_row x y g _ _ _ _ _ _ _ i j

theorem store_val1 (x y : Vec Ideal S48x512 .f32) (g : Vec Ideal S512 .f32) (i : Fin 48) (j : Fin 512) :
    k0_pay2 (F := Ideal) x y g (ix2 i j)
      = Cert.RmsSpec.nrm (fun k => x (ix2 i k) + y (ix2 i k)) (fun k => g (ix1 k)) j := by
  unfold k0_pay2
  rw [shapeCast_self]
  exact Cert.RmsRow.rms_row x y g _ _ _ _ _ _ _ i j

theorem store_val2 (x y : Vec Ideal S40x512 .f32) (g : Vec Ideal S512 .f32) (i : Fin 40) (j : Fin 512) :
    k0_pay3 (F := Ideal) x y g (ix2 i j)
      = Cert.RmsSpec.nrm (fun k => x (ix2 i k) + y (ix2 i k)) (fun k => g (ix1 k)) j := by
  unfold k0_pay3
  rw [shapeCast_self]
  exact Cert.RmsRow.rms_row x y g _ _ _ _ _ _ _ i j

theorem store_val3 (x y : Vec Ideal S40x512 .f32) (g : Vec Ideal S512 .f32) (i : Fin 40) (j : Fin 512) :
    k0_pay7 (F := Ideal) (k0_pay4 x y) (k0_pay5 x y) k0_pay6 g (ix2 i j)
      = Cert.RmsSpec.nrm (fun k => x (ix2 i k) + y (ix2 i k)) (fun k => g (ix1 k)) j := by
  unfold k0_pay7 k0_pay6 k0_pay5 k0_pay4
  rw [shapeCast_self]
  exact Cert.RmsRow.rms_row x y g _ _ _ _ _ _ _ i j

theorem store_val4 (x y : Vec Ideal S16x512 .f32) (g : Vec Ideal S512 .f32) (i : Fin 16) (j : Fin 512) :
    k0_pay8 (F := Ideal) x y g (ix2 i j)
      = Cert.RmsSpec.nrm (fun k => x (ix2 i k) + y (ix2 i k)) (fun k => g (ix1 k)) j := by
  unfold k0_pay8
  rw [shapeCast_self]
  exact Cert.RmsRow.rms_row x y g _ _ _ _ _ _ _ i j

theorem store_val5 (x y : Vec Ideal S16x512 .f32) (g : Vec Ideal S512 .f32) (i : Fin 16) (j : Fin 512) :
    k0_pay9 (F := Ideal) x y g (ix2 i j)
      = Cert.RmsSpec.nrm (fun k => x (ix2 i k) + y (ix2 i k)) (fun k => g (ix1 k)) j := by
  unfold k0_pay9
  rw [shapeCast_self]
  exact Cert.RmsRow.rms_row x y g _ _ _ _ _ _ _ i j

theorem store_val6 (x y : Vec Ideal S24x512 .f32) (g : Vec Ideal S512 .f32) (i : Fin 24) (j : Fin 512) :
    k0_pay11 (F := Ideal) (k0_pay10 x y g) (ix2 i j)
      = Cert.RmsSpec.nrm (fun k => x (ix2 i k) + y (ix2 i k)) (fun k => g (ix1 k)) j := by
  unfold k0_pay11 k0_pay10
  rw [shapeCast_self]
  exact Cert.RmsRow.rms_row x y g _ _ _ _ _ _ _ i j

theorem store_val7 (x y : Vec Ideal S24x512 .f32) (g : Vec Ideal S512 .f32) (i : Fin 24) (j : Fin 512) :
    k0_pay12 (F := Ideal) x y g (ix2 i j)
      = Cert.RmsSpec.nrm (fun k => x (ix2 i k) + y (ix2 i k)) (fun k => g (ix1 k)) j := by
  unfold k0_pay12
  rw [shapeCast_self]
  exact Cert.RmsRow.rms_row x y g _ _ _ _ _ _ _ i j

theorem store_val8 (x y : Vec Ideal S24x512 .f32) (g : Vec Ideal S512 .f32) (i : Fin 24) (j : Fin 512) :
    k0_pay13 (F := Ideal) x y g (ix2 i j)
      = Cert.RmsSpec.nrm (fun k => x (ix2 i k) + y (ix2 i k)) (fun k => g (ix1 k)) j := by
  unfold k0_pay13
  rw [shapeCast_self]
  exact Cert.RmsRow.rms_row x y g _ _ _ _ _ _ _ i j

theorem store_val9 (x y : Vec Ideal S24x512 .f32) (g : Vec Ideal S512 .f32) (i : Fin 24) (j : Fin 512) :
    k0_pay14 (F := Ideal) x y g (ix2 i j)
      = Cert.RmsSpec.nrm (fun k => x (ix2 i k) + y (ix2 i k)) (fun k => g (ix1 k)) j := by
  unfold k0_pay14
  rw [shapeCast_self]
  exact Cert.RmsRow.rms_row x y g _ _ _ _ _ _ _ i j

end Cert.KernelIdeal.PayVal

end
-- ==== Proof.Glue.lean ====
import proofs.«900598_g7700000000000599_dist_rsrms_v7x_xyz2x2x2_x_m512_d512_f32_1_alg».proof.Proof.OutSpec
import proofs.«900598_g7700000000000599_dist_rsrms_v7x_xyz2x2x2_x_m512_d512_f32_1_alg».proof.Proof.PayVal
import proofs.«900598_g7700000000000599_dist_rsrms_v7x_xyz2x2x2_x_m512_d512_f32_1_alg».proof.Proof.RefVal

namespace Cert.KernelIdeal.Glue

open Proto Gen Idealize.ShloMosaic TcCoe ValueIdx

/-- A mesh member's first coordinate, and the parity of its other two. -/
def xOf (d : Dev nD) : Nat := d.val / 4
def sOf (d : Dev nD) : Nat := ((d.val / 2) % 2 + d.val % 2) % 2

/-- Both coordinates are bits; `xp` flips `xOf` and keeps `sOf`, `yp` and `zp` do the opposite. -/
theorem coords (c : Dev nD) : xOf c < 2 ∧ sOf c < 2 ∧ xOf (xp c) = 1 - xOf c ∧ sOf (xp c) = sOf c ∧
    xOf (yp c) = xOf c ∧ sOf (yp c) = 1 - sOf c ∧ xOf (zp c) = xOf c ∧ sOf (zp c) = 1 - sOf c := by
  have := c.isLt; simp only [nD] at this
  unfold xOf sOf; rw [xp_val, yp_val, zp_val]; omega

/-- A chunk's three windows (`f` at `d` and at `xp d`, `g` at `d`) all start at row `256 · ((b + sOf d) mod 2) + w`. -/
abbrev Offs (f g : Dev nD → BitVec 32 → Fin 2 → Nat) (b w : Nat) : Prop :=
  ∀ d, f d (.ofNat 32 w) = ![256 * ((b + sOf d) % 2) + w, 0] ∧ g d (.ofNat 32 w) = ![256 * ((b + sOf d) % 2) + w, 0] ∧
    f (xp d) (.ofNat 32 w) = ![256 * ((b + sOf d) % 2) + w, 0]

theorem offs0 : Offs k0_off3 k0_off8 0 0 := by decide +kernel
theorem offs1 : Offs k0_off3 k0_off8 0 128 := by decide +kernel
theorem offs2 : Offs k0_off4 k0_off9 0 48 := by decide +kernel
theorem offs3 : Offs k0_off4 k0_off9 0 176 := by decide +kernel
theorem offs4 : Offs k0_off5 k0_off10 0 88 := by decide +kernel
theorem offs5 : Offs k0_off5 k0_off10 0 216 := by decide +kernel
theorem offs6 : Offs k0_off6 k0_off11 0 104 := by decide +kernel
theorem offs7 : Offs k0_off6 k0_off11 0 232 := by decide +kernel
theorem offs8 : Offs k0_off7 k0_off12 1 104 := by decide +kernel
theorem offs9 : Offs k0_off7 k0_off12 1 232 := by decide +kernel

/-- A unit-stride window reads, at `y`, the view at `y` shifted by the offsets. -/
theorem read_slice_unit {sg : RefSig} {κ : Kind} {sp : Space} {s : Shape} {e : EltTy} {Val : EltTy → Type}
    (v : View sg κ sp s e) (off size : Fin s.rank → Nat) (inb : ∀ a, off a + size a ≤ s.size a)
    (f : v.ty.Contents Val) (y : (Rect.unit off size inb).shape.Idx) (k : s.Idx)
    (hk : ∀ a, (k a).val = off a + (y a).val) :
    (v.slice (Rect.unit off size inb)).read Val f y = v.read Val f k := by
  show v.read Val f ((Rect.unit off size inb).emb y) = v.read Val f k
  refine congrArg (v.read Val f) (funext fun a => Fin.ext ?_)
  rw [hk a]
  show off a + 1 * (y a).val = _
  rw [Nat.one_mul]

/-- `n` full rows starting at `f` fit in 512 × 512. -/
abbrev Inb (f : Fin 2 → Nat) (n : Nat) : Prop := ∀ a, f a + (![n, 512] : Fin 2 → Nat) a ≤ S512x512.size a

/-- Row `i` of `n` rows from row `o` is row `o + i`. -/
theorem row_read {κ : Kind} {sp : Space} (v : View sig κ sp S512x512 .f32) {o n : Nat}
    (inb : Inb ![o, 0] n) (f : v.ty.Contents (Elt Ideal)) (i : Fin n) (k ρ : Fin 512) (hρ : ρ.val = o + i.val) :
    (v.slice (Rect.unit (s := S512x512) ![o, 0] ![n, 512] inb)).read (Elt Ideal) f (ix2 i k) = v.read (Elt Ideal) f (ix2 ρ k) :=
  read_slice_unit v _ _ inb f (ix2 i k) (ix2 ρ k) fun a => match a with
    | ⟨0, _⟩ => hρ
    | ⟨1, _⟩ => (Nat.zero_add _).symm

theorem meshLin_x : ∀ d : Dev nD, Layout.meshLin [2, 2, 2] d.val [0] = xOf d := by decide

variable {m : (ℓ : Loc nD τ sig) → Buf (Elt Ideal) ℓ}
  {P : (⟨⟨3, ![2, 1024, 512]⟩, .f32⟩ : BufTy).Contents (Elt Ideal)}
  (h0 : ∀ c : Dev nD, m ((c.tc : Thread nD τ).loc main_arg0) = Layout.blockN ⟨3, ![1, 1024, 512]⟩ ⟨3, ![2, 1024, 512]⟩ (Layout.meshBlock [2, 2, 2] ![[0], [], []] c) P)
  {γ : (⟨⟨1, ![512]⟩, .f32⟩ : BufTy).Contents (Elt Ideal)}
  (h1 : ∀ c : Dev nD, m ((c.tc : Thread nD τ).loc main_arg1) = γ)

/-- The two blocks' entries at one place, taken in either order, add up to block 0 plus block 1. -/
theorem pair_sum (R : Fin 1024) (k : Fin 512) (X : Fin 2) :
    (P (ix3 X R k) : EReal) + P (ix3 X.rev R k) = P (ix3 0 R k) + P (ix3 1 R k) :=
  match X with
  | ⟨0, _⟩ => rfl
  | ⟨1, _⟩ => add_comm (G := EReal) _ _

include h0 in
/-- `d`'s copy of the first argument is block `xOf d` of the whole array, so its rows from `r` are that block's rows from `r`. -/
theorem half_at (d : Dev nD) {off : Fin 3 → Nat} {r : Nat} (hoff : off = ![0, r, 0])
    (inb : ∀ a, off a + S1x512x512.size a ≤ S1x1024x512.size a) (ρ k : Fin 512) (R : Fin 1024)
    (hR : R.val = r + ρ.val) (X : Fin 2) (hX : X.val = xOf d) :
    shapeCast S512x512 (a0M.view.readAt (Elt Ideal) (Rect.unit (s := S1x1024x512) off S1x512x512.size inb).toLoadRect
      (m ((d : Thread nD τ).loc main_arg0))) (show S1x512x512.ShapeCasts S512x512 by decide) (ix2 ρ k) = P (ix3 X R k) := by
  subst hoff
  refine (shapeCast_1ab_ab_apply (a := 512) (b := 512) _ _ ρ k).trans ?_
  refine (read_slice_unit a0M.view _ _ inb _ (ix3 (0 : Fin 1) ρ k) (ix3 (0 : Fin 1) R k) fun a => ?_).trans ?_
  · match a with
    | ⟨0, _⟩ => rfl
    | ⟨1, _⟩ => exact hR
    | ⟨2, _⟩ => exact (Nat.zero_add _).symm
  · show m ((d : Thread nD τ).loc main_arg0) (ix3 (0 : Fin 1) R k) = _
    rw [h0 d, Layout.blockN_apply]
    refine congrArg P (funext fun b => Fin.ext ?_)
    rw [Layout.TilesN.idx_val]
    match b with
    | ⟨0, _⟩ =>
      show Layout.meshLin [2, 2, 2] d.val [0] * 1 + 0 = X.val
      rw [hX, meshLin_x d, Nat.mul_one, Nat.add_zero]
    | ⟨1, _⟩ => exact Nat.zero_add _
    | ⟨2, _⟩ => exact Nat.zero_add _

include h0 h1 in
/-- A chunk of `d` adds rows of `d`'s block to the same rows of the other block, which `xp d` holds, and normalises the sum. -/
theorem chunk {n : Nat} {c d : Dev nD} {OUT : Buf (Elt Ideal) ((c : Thread nD τ).loc main_v1)}
    {pay : (_ _ : Vec Ideal ⟨2, ![n, 512]⟩ .f32) → Vec Ideal S512 .f32 → Vec Ideal ⟨2, ![n, 512]⟩ .f32}
    (hpay : ∀ x y g (i : Fin n) (j : Fin 512),
      pay x y g (ix2 i j) = RmsSpec.nrm (fun k => x (ix2 i k) + y (ix2 i k)) (fun k => g (ix1 k)) j)
    {o : Nat} {fo fk fr : Fin 2 → Nat} (ho : fo = ![o, 0] ∧ fk = ![o, 0] ∧ fr = ![o, 0])
    {io : Inb fo n} {ik : Inb fk n} {ir : Inb fr n}
    (hd : (outM.slice (Rect.unit (s := S512x512) fo ![n, 512] io) (fun _ => rfl)).view.read (Elt Ideal) OUT
      = pay (locM.view.readAt (Elt Ideal) (Rect.unit (s := S512x512) fk ![n, 512] ik).toLoadRect (LOC m d))
          (sndM.view.readAt (Elt Ideal) (Rect.unit (s := S512x512) fr ![n, 512] ir).toLoadRect (SND m (xp d))) (GV m d))
    {ρ j : Fin 512} {R : Fin 1024} (hR : R.val = 512 * xOf d + ρ.val) (hq : o ≤ ρ.val ∧ ρ.val < o + n) :
    OUT (ix2 ρ j) = RmsSpec.nrm (fun k => P (ix3 0 R k) + P (ix3 1 R k)) (fun k => γ (ix1 k)) j := by
  obtain ⟨rfl, rfl, rfl⟩ := ho
  obtain ⟨hx, -, hxx, -⟩ := coords d
  have hi : ρ.val = o + (⟨ρ.val - o, by omega⟩ : Fin n).val := by show _ = o + (ρ.val - o); omega
  refine (row_read outM.view io OUT _ j ρ hi).symm.trans ((congrFun hd _).trans ((hpay _ _ _ _ j).trans ?_))
  refine congrArg₂ (fun a b => RmsSpec.nrm a b j) (funext fun k => ?_) (funext fun k => congrFun (h1 d) _)
  refine (congrArg₂ (fun a b : EReal => a + b) ?_ ?_).trans (pair_sum R k ⟨xOf d, hx⟩)
  · exact (row_read locM.view ik (LOC m d) _ k ρ hi).trans
      (half_at h0 d (k0_off2_eq d) (k0_off2_inb d) ρ k R hR _ rfl)
  · exact (row_read sndM.view ir (SND m (xp d)) _ k ρ hi).trans
      (half_at h0 (xp d) (k0_off1_eq (xp d)) (k0_off1_inb (xp d)) ρ k R
        (by show _ = 512 - 512 * xOf (xp d) + _; omega) _ (by show 2 - (xOf d + 1) = _; omega))

/-- Every row of `c`'s result lies in one of its sixteen chunks, and the reference computes the same normalised row there. -/
theorem out_eq_block (m : (ℓ : Loc nD τ sig) → Buf (Elt Ideal) ℓ)
    (P : Buf (Elt Ideal) (((0 : Dev Cert.ReferenceIdeal.nD).tc : Thread Cert.ReferenceIdeal.nD Cert.ReferenceIdeal.τ).loc Cert.ReferenceIdeal.main_arg0))
    (γ : Buf (Elt Ideal) (((0 : Dev Cert.ReferenceIdeal.nD).tc : Thread Cert.ReferenceIdeal.nD Cert.ReferenceIdeal.τ).loc Cert.ReferenceIdeal.main_arg1))
    (h0 : ∀ c : Dev nD, m ((c.tc : Thread nD τ).loc main_arg0) = Layout.blockN ⟨3, ![1, 1024, 512]⟩ ⟨3, ![2, 1024, 512]⟩ (Layout.meshBlock [2, 2, 2] ![[0], [], []] c) P)
    (h1 : ∀ c : Dev nD, m ((c.tc : Thread nD τ).loc main_arg1) = γ)
    (c : Dev nD) (OUT : Buf (Elt Ideal) ((c : Thread nD τ).loc main_v1)) (h : Proto.OutSpec m c OUT) :
    OUT = Layout.blockN ⟨2, ![512, 512]⟩ ⟨2, ![1024, 512]⟩ (Layout.meshBlock [2, 2, 2] ![[0], []] c)
      (Cert.ReferenceIdeal.Read.val_main_v13 (F := Ideal) P γ) := by
  refine funext fun idx => ?_
  obtain ⟨ρ, j, rfl⟩ : ∃ ρ j : Fin 512, idx = ix2 ρ j := ⟨idx 0, idx 1, eq_ix2 idx⟩
  obtain ⟨hx, hs, -, -, hxy, hsy, hxz, hsz⟩ := coords c
  have hρ := ρ.isLt
  obtain ⟨R, hRc⟩ : ∃ R : Fin 1024, R.val = 512 * xOf c + ρ.val := ⟨⟨_, by omega⟩, rfl⟩
  have hRy : R.val = 512 * xOf (yp c) + ρ.val := hxy ▸ hRc
  have hRz : R.val = 512 * xOf (zp c) + ρ.val := hxz ▸ hRc
  rw [Layout.blockN_apply]
  refine Eq.trans ?_ ((congrArg _ (funext fun b => Fin.ext ?_)).trans (ReferenceIdeal.RefVal.ref_val P γ R j)).symm
  · by_contra hne
    have := mt (chunk h0 h1 PayVal.store_val0 (offs0 c) h.own0 hRc) hne
    have := mt (chunk h0 h1 PayVal.store_val1 (offs1 c) h.own1 hRc) hne
    have := mt (chunk h0 h1 PayVal.store_val2 (offs2 c) h.own2 hRc) hne
    have := mt (chunk h0 h1 PayVal.store_val3 (offs3 c) h.own3 hRc) hne
    have := mt (chunk h0 h1 PayVal.store_val4 (offs4 c) h.own4 hRc) hne
    have := mt (chunk h0 h1 PayVal.store_val5 (offs5 c) h.own5 hRc) hne
    have := mt (chunk h0 h1 PayVal.store_val6 (offs6 c) h.own6 hRc) hne
    have := mt (chunk h0 h1 PayVal.store_val7 (offs7 c) h.own7 hRc) hne
    have := mt (chunk h0 h1 PayVal.store_val8 (offs8 c) h.own8 hRc) hne
    have := mt (chunk h0 h1 PayVal.store_val9 (offs9 c) h.own9 hRc) hne
    have := mt (chunk h0 h1 PayVal.store_val0 (offs0 (yp c)) h.got0 hRy) hne
    have := mt (chunk h0 h1 PayVal.store_val1 (offs1 (zp c)) h.got1 hRz) hne
    have := mt (chunk h0 h1 PayVal.store_val2 (offs2 (yp c)) h.got2 hRy) hne
    have := mt (chunk h0 h1 PayVal.store_val3 (offs3 (zp c)) h.got3 hRz) hne
    have := mt (chunk h0 h1 PayVal.store_val4 (offs4 (yp c)) h.got4 hRy) hne
    have := mt (chunk h0 h1 PayVal.store_val5 (offs5 (zp c)) h.got5 hRz) hne
    omega
  · rw [Layout.TilesN.idx_val]
    match b with
    | ⟨0, _⟩ =>
      show Layout.meshLin [2, 2, 2] c.val [0] * 512 + ρ.val = R.val
      rw [meshLin_x c, hRc, Nat.mul_comm]
    | ⟨1, _⟩ => exact Nat.zero_add _

end Cert.KernelIdeal.Glue
-- ==== Proof.lean ====
import proofs.«900598_g7700000000000599_dist_rsrms_v7x_xyz2x2x2_x_m512_d512_f32_1_alg».proof.Defs
import proofs.«900598_g7700000000000599_dist_rsrms_v7x_xyz2x2x2_x_m512_d512_f32_1_alg».proof.Proof.Gen.Kernel
import proofs.«900598_g7700000000000599_dist_rsrms_v7x_xyz2x2x2_x_m512_d512_f32_1_alg».proof.Proof.Gen.Kernel.Skeleton
import proofs.«900598_g7700000000000599_dist_rsrms_v7x_xyz2x2x2_x_m512_d512_f32_1_alg».proof.Proof.Gen.Kernel.Launch
import proofs.«900598_g7700000000000599_dist_rsrms_v7x_xyz2x2x2_x_m512_d512_f32_1_alg».proof.Proof.Gen.Kernel.Points
import proofs.«900598_g7700000000000599_dist_rsrms_v7x_xyz2x2x2_x_m512_d512_f32_1_alg».proof.Proof.Gen.Kernel.Frame
import proofs.«900598_g7700000000000599_dist_rsrms_v7x_xyz2x2x2_x_m512_d512_f32_1_alg».proof.Proof.Gen.KernelIdeal
import proofs.«900598_g7700000000000599_dist_rsrms_v7x_xyz2x2x2_x_m512_d512_f32_1_alg».proof.Proof.Gen.KernelIdeal.Skeleton
import proofs.«900598_g7700000000000599_dist_rsrms_v7x_xyz2x2x2_x_m512_d512_f32_1_alg».proof.Proof.Gen.KernelIdeal.Launch
import proofs.«900598_g7700000000000599_dist_rsrms_v7x_xyz2x2x2_x_m512_d512_f32_1_alg».proof.Proof.Gen.KernelIdeal.Points
import proofs.«900598_g7700000000000599_dist_rsrms_v7x_xyz2x2x2_x_m512_d512_f32_1_alg».proof.Proof.Gen.KernelIdeal.Frame
import proofs.«900598_g7700000000000599_dist_rsrms_v7x_xyz2x2x2_x_m512_d512_f32_1_alg».proof.Proof.Gen.ReferenceIdeal
import proofs.«900598_g7700000000000599_dist_rsrms_v7x_xyz2x2x2_x_m512_d512_f32_1_alg».proof.Proof.Gen.Pre_finite_inputs_Kernel
import proofs.«900598_g7700000000000599_dist_rsrms_v7x_xyz2x2x2_x_m512_d512_f32_1_alg».proof.Proof.Gen.Pre_finite_inputs_ReferenceIdeal
import proofs.«900598_g7700000000000599_dist_rsrms_v7x_xyz2x2x2_x_m512_d512_f32_1_alg».proof.Proof.Launch
import proofs.«900598_g7700000000000599_dist_rsrms_v7x_xyz2x2x2_x_m512_d512_f32_1_alg».proof.Proof.BodyAll
import proofs.«900598_g7700000000000599_dist_rsrms_v7x_xyz2x2x2_x_m512_d512_f32_1_alg».proof.Proof.Bits.Launch
import proofs.«900598_g7700000000000599_dist_rsrms_v7x_xyz2x2x2_x_m512_d512_f32_1_alg».proof.Proof.Bits.BodyAll
import proofs.«900598_g7700000000000599_dist_rsrms_v7x_xyz2x2x2_x_m512_d512_f32_1_alg».proof.Proof.RefVal
import proofs.«900598_g7700000000000599_dist_rsrms_v7x_xyz2x2x2_x_m512_d512_f32_1_alg».proof.Proof.Glue
import Idealize.ShloMosaic.Adequacy
import Idealize.ShloMosaic.Init

noncomputable section

namespace Cert.Proof

open Idealize.ShloMosaic Idealize.ShloMosaic.TcCoe Idealize.SL.Sem

-- The kernel's run with the result's specification dropped.
theorem frame_k : Cert.frame_Kernel := fun m ρ _ =>
  (θ_run Cert.Kernel.defs _ _).mono (fun _ h c => ⟨(h c).1, (h c).2.1⟩)
    (Cert.Kernel.Proto.run_main (F := Bits) m ρ (Cert.Kernel.Proto.body_obligation m))

-- The same at the ideal instance.
theorem frame_ki : Cert.frame_KernelIdeal := fun m ρ _ =>
  (θ_run Cert.KernelIdeal.defs _ _).mono (fun _ h c => ⟨(h c).1, (h c).2.1⟩)
    (Cert.KernelIdeal.Proto.run_main (F := Ideal) m ρ (Cert.KernelIdeal.Proto.body_obligation m))

-- The reference's run with the result dropped.
theorem frame_ri : Cert.frame_ReferenceIdeal := fun m ρ _ =>
  (θ_run Cert.ReferenceIdeal.defs _ _).mono (fun _ h c => (h c).2) (Cert.ReferenceIdeal.Value.run (F := Ideal) m ρ)

-- The idealization rewrote nothing.
theorem preserves : Cert.preserves_Kernel_KernelIdeal := trivial

-- At the ideal instance a result array meeting the chunk-by-chunk specification is the device's block of the reference's result.
theorem algebraic : Cert.algebraic_KernelIdeal_ReferenceIdeal := by
  intro m ρ m' ρ' _ hagree
  refine ⟨Cert.ReferenceIdeal.Read.val_main_v13 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, (h c).1, (h c).2.1⟩)
      (Cert.KernelIdeal.Proto.run_main (F := Ideal) m ρ (Cert.KernelIdeal.Proto.body_obligation m))
    exact Cert.KernelIdeal.Glue.out_eq_block m _ _ (fun c => (hagree c).1) (fun c => (hagree c).2) c _ (h c).2.2
  · exact (θ_run Cert.ReferenceIdeal.defs _ _).mono
      (fun r h => ⟨(h 0).1.trans (Cert.ReferenceIdeal.Read.val_main_v13_eq _ _), (h 0).2.1, (h 0).2.2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
